-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S320000 : Shape := ⟨1, ![320000]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000 : S_.BroadcastsInDim S320000 (![] : Fin 0 → Fin S320000.rank)
  reducesTo_S320000_S_d0 : S320000.ReducesTo [0] S_

variable [Facts]

def fn_part1 {F : FTy → Type} [FloatOps F] (main_arg2 : IVec S320000 32) (main_arg5 : IVec S320000 32) (main_v13 : IVec S_ 1) (main_v15 : IVec S320000 1) (main_c_5 : IVec S_ 32) : IVec S_ 1 :=
  let main_v16 : IVec S320000 32 := broadcastInDim S320000 ![] bcast_S_S320000 main_c_5
  let main_v17 : IVec S320000 1 := cmpi .slt main_arg2 main_v16
  let main_v18 : IVec S320000 1 := andi main_v15 main_v17
  let main_c_6 : IVec S_ 1 := constantI S_ 1 1#1
  let main_v19 : IVec S_ 1 := (fun x v => Host.reduce IntOp.andi x v reducesTo_S320000_S_d0 h_S_) main_v18 main_c_6
  let main_v20 : IVec S_ 1 := andi main_v13 main_v19
  let main_c_7 : IVec S_ 32 := constantI S_ 32 0#32
  let main_v21 : IVec S320000 32 := broadcastInDim S320000 ![] bcast_S_S320000 main_c_7
  let main_v22 : IVec S320000 1 := cmpi .sge main_arg5 main_v21
  let main_c_8 : IVec S_ 32 := constantI S_ 32 20000#32
  let main_v23 : IVec S320000 32 := broadcastInDim S320000 ![] bcast_S_S320000 main_c_8
  let main_v24 : IVec S320000 1 := cmpi .slt main_arg5 main_v23
  let main_v25 : IVec S320000 1 := andi main_v22 main_v24
  let main_c_9 : IVec S_ 1 := constantI S_ 1 1#1
  let main_v26 : IVec S_ 1 := (fun x v => Host.reduce IntOp.andi x v reducesTo_S320000_S_d0 h_S_) main_v25 main_c_9
  let main_v27 : IVec S_ 1 := andi main_v20 main_v26
  main_v27

def fn {F : FTy → Type} [FloatOps F] (main_arg0 : FVec F S20000x256 .f32) (main_arg1 : IVec S320000 32) (main_arg2 : IVec S320000 32) (main_arg3 : FVec F S320000 .f32) (main_arg4 : IVec S320000 32) (main_arg5 : IVec S320000 32) (main_arg6 : FVec F S320000 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000 .f32 := Host.absf main_arg3
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S320000 .f32 := Host.absf main_arg6
  let main_cst_2 : FVec F S_ .f32 := constant S_ .f32 0x7F800000#32
  let main_v10 : FVec F S320000 .f32 := broadcastInDim S320000 ![] bcast_S_S320000 main_cst_2
  let main_v11 : IVec S320000 1 := cmpf .olt main_v9 main_v10
  let main_c_3 : IVec S_ 1 := constantI S_ 1 1#1
  let main_v12 : IVec S_ 1 := (fun x v => Host.reduce IntOp.andi x v reducesTo_S320000_S_d0 h_S_) main_v11 main_c_3
  let main_v13 : IVec S_ 1 := andi main_v8 main_v12
  let main_c_4 : IVec S_ 32 := constantI S_ 32 0#32
  let main_v14 : IVec S320000 32 := broadcastInDim S320000 ![] bcast_S_S320000 main_c_4
  let main_v15 : IVec S320000 1 := cmpi .sge main_arg2 main_v14
  let main_c_5 : IVec S_ 32 := constantI S_ 32 20000#32
  fn_part1 (F := F) main_arg2 main_arg5 main_v13 main_v15 main_c_5
-- ==== Kernel.lean ====
abbrev S20000x256 : Shape := ⟨2, ![20000, 256]⟩
abbrev S320000 : Shape := ⟨1, ![320000]⟩
abbrev S80000 : Shape := ⟨1, ![80000]⟩
abbrev S80000x1 : Shape := ⟨2, ![80000, 1]⟩
abbrev S80000x256 : Shape := ⟨2, ![80000, 256]⟩
abbrev S800x1 : Shape := ⟨2, ![800, 1]⟩
abbrev S800x256 : Shape := ⟨2, ![800, 256]⟩
abbrev S16x256 : Shape := ⟨2, ![16, 256]⟩
abbrev S16 : Shape := ⟨1, ![16]⟩
abbrev S1 : Shape := ⟨1, ![1]⟩
abbrev S_ : Shape := ⟨0, ![]⟩
abbrev S1x256 : Shape := ⟨2, ![1, 256]⟩
abbrev S256 : Shape := ⟨1, ![256]⟩
abbrev S320000x256 : Shape := ⟨2, ![320000, 256]⟩
abbrev S320000x1 : Shape := ⟨2, ![320000, 1]⟩
abbrev S20000x512 : Shape := ⟨2, ![20000, 512]⟩

abbrev nBuf : Space → Nat
  | .hbm => 42
  | .vmem => 48
  | .smem => 8
  | _ => 0

abbrev bufTy : (tb : Table) → Fin (tcTables nBuf tb) → BufTy
  | .hbm, ⟨0, _⟩ => ⟨S20000x256, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S320000, .i32⟩
  | .hbm, ⟨5, _⟩ => ⟨S320000, .i32⟩
  | .hbm, ⟨6, _⟩ => ⟨S320000, .f32⟩
  | .hbm, ⟨7, _⟩ => ⟨S80000, .f32⟩
  | .hbm, ⟨8, _⟩ => ⟨S80000x1, .f32⟩
  | .hbm, ⟨9, _⟩ => ⟨S80000x256, .f32⟩
  | .hbm, ⟨10, _⟩ => ⟨S80000, .f32⟩
  | .hbm, ⟨11, _⟩ => ⟨S80000x1, .f32⟩
  | .hbm, ⟨12, _⟩ => ⟨S80000x256, .f32⟩
  | .hbm, ⟨13, _⟩ => ⟨S80000, .f32⟩
  | .hbm, ⟨14, _⟩ => ⟨S80000x1, .f32⟩
  | .hbm, ⟨15, _⟩ => ⟨S80000x256, .f32⟩
  | .hbm, ⟨16, _⟩ => ⟨S80000, .f32⟩
  | .hbm, ⟨17, _⟩ => ⟨S80000x1, .f32⟩
  | .hbm, ⟨18, _⟩ => ⟨S80000x256, .f32⟩
  | .hbm, ⟨19, _⟩ => ⟨S320000x256, .f32⟩
  | .hbm, ⟨20, _⟩ => ⟨S_, .f32⟩
  | .hbm, ⟨21, _⟩ => ⟨S20000x256, .f32⟩
  | .hbm, ⟨22, _⟩ => ⟨S320000x1, .i32⟩
  | .hbm, ⟨23, _⟩ => ⟨S20000x256, .f32⟩
  | .hbm, ⟨24, _⟩ => ⟨S80000, .f32⟩
  | .hbm, ⟨25, _⟩ => ⟨S80000x1, .f32⟩
  | .hbm, ⟨26, _⟩ => ⟨S80000x256, .f32⟩
  | .hbm, ⟨27, _⟩ => ⟨S80000, .f32⟩
  | .hbm, ⟨28, _⟩ => ⟨S80000x1, .f32⟩
  | .hbm, ⟨29, _⟩ => ⟨S80000x256, .f32⟩
  | .hbm, ⟨30, _⟩ => ⟨S80000, .f32⟩
  | .hbm, ⟨31, _⟩ => ⟨S80000x1, .f32⟩
  | .hbm, ⟨32, _⟩ => ⟨S80000x256, .f32⟩
  | .hbm, ⟨33, _⟩ => ⟨S80000, .f32⟩
  | .hbm, ⟨34, _⟩ => ⟨S80000x1, .f32⟩
  | .hbm, ⟨35, _⟩ => ⟨S80000x256, .f32⟩
  | .hbm, ⟨36, _⟩ => ⟨S320000x256, .f32⟩
  | .hbm, ⟨37, _⟩ => ⟨S_, .f32⟩
  | .hbm, ⟨38, _⟩ => ⟨S20000x256, .f32⟩
  | .hbm, ⟨39, _⟩ => ⟨S320000x1, .i32⟩
  | .hbm, ⟨40, _⟩ => ⟨S20000x256, .f32⟩
  | .hbm, ⟨41, _⟩ => ⟨S20000x512, .f32⟩
  | .local _ .vmem, ⟨0, _⟩ => ⟨S20000x256, .f32⟩
  | .local _ .vmem, ⟨1, _⟩ => ⟨S800x1, .f32⟩
  | .local _ .vmem, ⟨2, _⟩ => ⟨S800x1, .f32⟩
  | .local _ .vmem, ⟨3, _⟩ => ⟨S800x256, .f32⟩
  | .local _ .vmem, ⟨4, _⟩ => ⟨S800x256, .f32⟩
  | .local _ .vmem, ⟨5, _⟩ => ⟨S16x256, .f32⟩
  | .local _ .vmem, ⟨6, _⟩ => ⟨S20000x256, .f32⟩
  | .local _ .vmem, ⟨7, _⟩ => ⟨S800x1, .f32⟩
  | .local _ .vmem, ⟨8, _⟩ => ⟨S800x1, .f32⟩
  | .local _ .vmem, ⟨9, _⟩ => ⟨S800x256, .f32⟩
  | .local _ .vmem, ⟨10, _⟩ => ⟨S800x256, .f32⟩
  | .local _ .vmem, ⟨11, _⟩ => ⟨S16x256, .f32⟩
  | .local _ .vmem, ⟨12, _⟩ => ⟨S20000x256, .f32⟩
  | .local _ .vmem, ⟨13, _⟩ => ⟨S800x1, .f32⟩
  | .local _ .vmem, ⟨14, _⟩ => ⟨S800x1, .f32⟩
  | .local _ .vmem, ⟨15, _⟩ => ⟨S800x256, .f32⟩
  | .local _ .vmem, ⟨16, _⟩ => ⟨S800x256, .f32⟩
  | .local _ .vmem, ⟨17, _⟩ => ⟨S16x256, .f32⟩
  | .local _ .vmem, ⟨18, _⟩ => ⟨S20000x256, .f32⟩
  | .local _ .vmem, ⟨19, _⟩ => ⟨S800x1, .f32⟩
  | .local _ .vmem, ⟨20, _⟩ => ⟨S800x1, .f32⟩
  | .local _ .vmem, ⟨21, _⟩ => ⟨S800x256, .f32⟩
  | .local _ .vmem, ⟨22, _⟩ => ⟨S800x256, .f32⟩
  | .local _ .vmem, ⟨23, _⟩ => ⟨S16x256, .f32⟩
  | .local _ .vmem, ⟨24, _⟩ => ⟨S20000x256, .f32⟩
  | .local _ .vmem, ⟨25, _⟩ => ⟨S800x1, .f32⟩
  | .local _ .vmem, ⟨26, _⟩ => ⟨S800x1, .f32⟩
  | .local _ .vmem, ⟨27, _⟩ => ⟨S800x256, .f32⟩
  | .local _ .vmem, ⟨28, _⟩ => ⟨S800x256, .f32⟩
  | .local _ .vmem, ⟨29, _⟩ => ⟨S16x256, .f32⟩
  | .local _ .vmem, ⟨30, _⟩ => ⟨S20000x256, .f32⟩
  | .local _ .vmem, ⟨31, _⟩ => ⟨S800x1, .f32⟩
  | .local _ .vmem, ⟨32, _⟩ => ⟨S800x1, .f32⟩
  | .local _ .vmem, ⟨33, _⟩ => ⟨S800x256, .f32⟩
  | .local _ .vmem, ⟨34, _⟩ => ⟨S800x256, .f32⟩
  | .local _ .vmem, ⟨35, _⟩ => ⟨S16x256, .f32⟩
  | .local _ .vmem, ⟨36, _⟩ => ⟨S20000x256, .f32⟩
  | .local _ .vmem, ⟨37, _⟩ => ⟨S800x1, .f32⟩
  | .local _ .vmem, ⟨38, _⟩ => ⟨S800x1, .f32⟩
  | .local _ .vmem, ⟨39, _⟩ => ⟨S800x256, .f32⟩
  | .local _ .vmem, ⟨40, _⟩ => ⟨S800x256, .f32⟩
  | .local _ .vmem, ⟨41, _⟩ => ⟨S16x256, .f32⟩
  | .local _ .vmem, ⟨42, _⟩ => ⟨S20000x256, .f32⟩
  | .local _ .vmem, ⟨43, _⟩ => ⟨S800x1, .f32⟩
  | .local _ .vmem, ⟨44, _⟩ => ⟨S800x1, .f32⟩
  | .local _ .vmem, ⟨45, _⟩ => ⟨S800x256, .f32⟩
  | .local _ .vmem, ⟨46, _⟩ => ⟨S800x256, .f32⟩
  | .local _ .vmem, ⟨47, _⟩ => ⟨S16x256, .f32⟩
  | .local _ .smem, ⟨0, _⟩ => ⟨S80000, .i32⟩
  | .local _ .smem, ⟨1, _⟩ => ⟨S80000, .i32⟩
  | .local _ .smem, ⟨2, _⟩ => ⟨S80000, .i32⟩
  | .local _ .smem, ⟨3, _⟩ => ⟨S80000, .i32⟩
  | .local _ .smem, ⟨4, _⟩ => ⟨S80000, .i32⟩
  | .local _ .smem, ⟨5, _⟩ => ⟨S80000, .i32⟩
  | .local _ .smem, ⟨6, _⟩ => ⟨S80000, .i32⟩
  | .local _ .smem, ⟨7, _⟩ => ⟨S80000, .i32⟩
  | _, _ => ⟨S20000x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 168 → Bool
  | ⟨i, _⟩ => dmaSemScopedAt i

abbrev sig : RefSig :=
  ofTc nBuf bufTy 0 168 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v33 : Ref sig .tc := ⟨.hbm, 33, rfl⟩
abbrev main_v34 : Ref sig .tc := ⟨.hbm, 34, rfl⟩
abbrev main_v35 : Ref sig .tc := ⟨.hbm, 35, rfl⟩
abbrev main_v36 : Ref sig .tc := ⟨.hbm, 36, rfl⟩
abbrev main_cst_0 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v0 : Ref sig .tc := ⟨.smem, 0, rfl⟩
abbrev main_v4 : Ref sig .tc := ⟨.smem, 1, rfl⟩
abbrev main_v8 : Ref sig .tc := ⟨.smem, 2, rfl⟩
abbrev main_v12 : Ref sig .tc := ⟨.smem, 3, rfl⟩
abbrev main_v20 : Ref sig .tc := ⟨.smem, 4, rfl⟩
abbrev main_v24 : Ref sig .tc := ⟨.smem, 5, rfl⟩
abbrev main_v28 : Ref sig .tc := ⟨.smem, 6, rfl⟩
abbrev main_v32 : Ref sig .tc := ⟨.smem, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_scratch0 : Ref sig .tc := ⟨.vmem, 29, rfl⟩
abbrev cc5_stg0_0 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc5_scratch0 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc6_scratch0 : Ref sig .tc := ⟨.vmem, 41, rfl⟩
abbrev cc7_stg0_0 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg2_1 : Ref sig .tc := ⟨.vmem, 46, rfl⟩
abbrev cc7_scratch0 : Ref sig .tc := ⟨.vmem, 47, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 21
abbrev cc1_sem1_0 : DmaSem sig := 22
abbrev cc1_sem1_1 : DmaSem sig := 23
abbrev cc1_sem2_0 : DmaSem sig := 24
abbrev cc1_sem2_1 : DmaSem sig := 25
abbrev cc2_sem0_0 : DmaSem sig := 42
abbrev cc2_sem1_0 : DmaSem sig := 43
abbrev cc2_sem1_1 : DmaSem sig := 44
abbrev cc2_sem2_0 : DmaSem sig := 45
abbrev cc2_sem2_1 : DmaSem sig := 46
abbrev cc3_sem0_0 : DmaSem sig := 63
abbrev cc3_sem1_0 : DmaSem sig := 64
abbrev cc3_sem1_1 : DmaSem sig := 65
abbrev cc3_sem2_0 : DmaSem sig := 66
abbrev cc3_sem2_1 : DmaSem sig := 67
abbrev cc4_sem0_0 : DmaSem sig := 84
abbrev cc4_sem1_0 : DmaSem sig := 85
abbrev cc4_sem1_1 : DmaSem sig := 86
abbrev cc4_sem2_0 : DmaSem sig := 87
abbrev cc4_sem2_1 : DmaSem sig := 88
abbrev cc5_sem0_0 : DmaSem sig := 105
abbrev cc5_sem1_0 : DmaSem sig := 106
abbrev cc5_sem1_1 : DmaSem sig := 107
abbrev cc5_sem2_0 : DmaSem sig := 108
abbrev cc5_sem2_1 : DmaSem sig := 109
abbrev cc6_sem0_0 : DmaSem sig := 126
abbrev cc6_sem1_0 : DmaSem sig := 127
abbrev cc6_sem1_1 : DmaSem sig := 128
abbrev cc6_sem2_0 : DmaSem sig := 129
abbrev cc6_sem2_1 : DmaSem sig := 130
abbrev cc7_sem0_0 : DmaSem sig := 147
abbrev cc7_sem1_0 : DmaSem sig := 148
abbrev cc7_sem1_1 : DmaSem sig := 149
abbrev cc7_sem2_0 : DmaSem sig := 150
abbrev cc7_sem2_1 : DmaSem sig := 151

abbrev nD : Nat := 1
abbrev τ : Topo := Topo.v7x

variable {F : FTy → Type} [FloatOps F]

abbrev grid0 : Pipeline.Grid := ⟨1, ![100], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c50_i32 : BitVec 32 := 50#32
  let v1 : BitVec 32 := Scalar.addi c0_i32 c50_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c0_i32_8 : BitVec 32 := 0#32
  let v13 : BitVec 32 := Scalar.addi v12 c0_i32_8
  let v14 : Index := Scalar.indexCast v13
  ![v14.toNat]
def k0_off2 (v15 : BitVec 32) : Fin 2 → Nat :=
  let c0_i32_12 : BitVec 32 := 0#32
  ![v15.toNat, 0]

def k0_off3 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c1_i32_13 : BitVec 32 := 1#32
  let v22 : BitVec 32 := Scalar.addi v12 c1_i32_13
  let v23 : Index := Scalar.indexCast v22
  ![v23.toNat]
def k0_off4 (v24 : BitVec 32) : Fin 2 → Nat :=
  let c0_i32_17 : BitVec 32 := 0#32
  ![v24.toNat, 0]

def k0_off5 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c2_i32 : BitVec 32 := 2#32
  let v31 : BitVec 32 := Scalar.addi v12 c2_i32
  let v32 : Index := Scalar.indexCast v31
  ![v32.toNat]
def k0_off6 (v33 : BitVec 32) : Fin 2 → Nat :=
  let c0_i32_21 : BitVec 32 := 0#32
  ![v33.toNat, 0]

def k0_off7 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c3_i32 : BitVec 32 := 3#32
  let v40 : BitVec 32 := Scalar.addi v12 c3_i32
  let v41 : Index := Scalar.indexCast v40
  ![v41.toNat]
def k0_off8 (v42 : BitVec 32) : Fin 2 → Nat :=
  let c0_i32_25 : BitVec 32 := 0#32
  ![v42.toNat, 0]

def k0_off9 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c4_i32 : BitVec 32 := 4#32
  let v49 : BitVec 32 := Scalar.addi v12 c4_i32
  let v50 : Index := Scalar.indexCast v49
  ![v50.toNat]
def k0_off10 (v51 : BitVec 32) : Fin 2 → Nat :=
  let c0_i32_29 : BitVec 32 := 0#32
  ![v51.toNat, 0]

def k0_off11 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c5_i32 : BitVec 32 := 5#32
  let v58 : BitVec 32 := Scalar.addi v12 c5_i32
  let v59 : Index := Scalar.indexCast v58
  ![v59.toNat]
def k0_off12 (v60 : BitVec 32) : Fin 2 → Nat :=
  let c0_i32_33 : BitVec 32 := 0#32
  ![v60.toNat, 0]

def k0_off13 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c6_i32 : BitVec 32 := 6#32
  let v67 : BitVec 32 := Scalar.addi v12 c6_i32
  let v68 : Index := Scalar.indexCast v67
  ![v68.toNat]
def k0_off14 (v69 : BitVec 32) : Fin 2 → Nat :=
  let c0_i32_37 : BitVec 32 := 0#32
  ![v69.toNat, 0]

def k0_off15 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c7_i32 : BitVec 32 := 7#32
  let v76 : BitVec 32 := Scalar.addi v12 c7_i32
  let v77 : Index := Scalar.indexCast v76
  ![v77.toNat]
def k0_off16 (v78 : BitVec 32) : Fin 2 → Nat :=
  let c0_i32_41 : BitVec 32 := 0#32
  ![v78.toNat, 0]

def k0_off17 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c8_i32 : BitVec 32 := 8#32
  let v85 : BitVec 32 := Scalar.addi v12 c8_i32
  let v86 : Index := Scalar.indexCast v85
  ![v86.toNat]
def k0_off18 (v87 : BitVec 32) : Fin 2 → Nat :=
  let c0_i32_45 : BitVec 32 := 0#32
  ![v87.toNat, 0]

def k0_off19 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c9_i32 : BitVec 32 := 9#32
  let v94 : BitVec 32 := Scalar.addi v12 c9_i32
  let v95 : Index := Scalar.indexCast v94
  ![v95.toNat]
def k0_off20 (v96 : BitVec 32) : Fin 2 → Nat :=
  let c0_i32_49 : BitVec 32 := 0#32
  ![v96.toNat, 0]

def k0_off21 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c10_i32 : BitVec 32 := 10#32
  let v103 : BitVec 32 := Scalar.addi v12 c10_i32
  let v104 : Index := Scalar.indexCast v103
  ![v104.toNat]
def k0_off22 (v105 : BitVec 32) : Fin 2 → Nat :=
  let c0_i32_53 : BitVec 32 := 0#32
  ![v105.toNat, 0]

def k0_off23 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c11_i32 : BitVec 32 := 11#32
  let v112 : BitVec 32 := Scalar.addi v12 c11_i32
  let v113 : Index := Scalar.indexCast v112
  ![v113.toNat]
def k0_off24 (v114 : BitVec 32) : Fin 2 → Nat :=
  let c0_i32_57 : BitVec 32 := 0#32
  ![v114.toNat, 0]

def k0_off25 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c12_i32 : BitVec 32 := 12#32
  let v121 : BitVec 32 := Scalar.addi v12 c12_i32
  let v122 : Index := Scalar.indexCast v121
  ![v122.toNat]
def k0_off26 (v123 : BitVec 32) : Fin 2 → Nat :=
  let c0_i32_61 : BitVec 32 := 0#32
  ![v123.toNat, 0]

def k0_off27 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c13_i32 : BitVec 32 := 13#32
  let v130 : BitVec 32 := Scalar.addi v12 c13_i32
  let v131 : Index := Scalar.indexCast v130
  ![v131.toNat]
def k0_off28 (v132 : BitVec 32) : Fin 2 → Nat :=
  let c0_i32_65 : BitVec 32 := 0#32
  ![v132.toNat, 0]

def k0_off29 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c14_i32 : BitVec 32 := 14#32
  let v139 : BitVec 32 := Scalar.addi v12 c14_i32
  let v140 : Index := Scalar.indexCast v139
  ![v140.toNat]
def k0_off30 (v141 : BitVec 32) : Fin 2 → Nat :=
  let c0_i32_69 : BitVec 32 := 0#32
  ![v141.toNat, 0]

def k0_off31 (i : grid0.Coords) (k0_t1 : Fin k0_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c15_i32 : BitVec 32 := 15#32
  let v148 : BitVec 32 := Scalar.addi v12 c15_i32
  let v149 : Index := Scalar.indexCast v148
  ![v149.toNat]
def k0_off32 (v150 : BitVec 32) : Fin 2 → Nat :=
  let c0_i32_73 : BitVec 32 := 0#32
  ![v150.toNat, 0]

def k0_chk16 (v150 : BitVec 32) : Prop :=
  (∀ a, (k0_off32 v150) a + S1x256.size a ≤ S20000x256.size a)
instance k0_chk16.dec : ∀ (v150 : BitVec 32), Decidable (k0_chk16 v150) := fun v150 => decidable_of_iff' _ (Iff.of_eq (k0_chk16.eq_1 v150))
theorem k0_off32_inb : ∀ (v150 : BitVec 32) (k0_hw16 : k0_chk16 v150), ∀ a, (k0_off32 v150) a + S1x256.size a ≤ S20000x256.size a := fun v150 k0_hw16 => k0_hw16

def k0_off33 (v15 : BitVec 32) : Fin 2 → Nat :=
  let c0_i32_77 : BitVec 32 := 0#32
  ![v15.toNat, 0]

def k0_chk1 (v15 : BitVec 32) : Prop :=
  (∀ a, (k0_off2 v15) a + S1x256.size a ≤ S20000x256.size a) ∧
  (∀ a, (k0_off33 v15) a + S1x256.size a ≤ S20000x256.size a)
instance k0_chk1.dec : ∀ (v15 : BitVec 32), Decidable (k0_chk1 v15) := fun v15 => decidable_of_iff' _ (Iff.of_eq (k0_chk1.eq_1 v15))
theorem k0_off2_inb : ∀ (v15 : BitVec 32) (k0_hw1 : k0_chk1 v15), ∀ a, (k0_off2 v15) a + S1x256.size a ≤ S20000x256.size a := fun v15 k0_hw1 => k0_hw1.1
theorem k0_off33_inb : ∀ (v15 : BitVec 32) (k0_hw1 : k0_chk1 v15), ∀ a, (k0_off33 v15) a + S1x256.size a ≤ S20000x256.size a := fun v15 k0_hw1 => k0_hw1.2

def k0_off34 (v24 : BitVec 32) : Fin 2 → Nat :=
  let c0_i32_81 : BitVec 32 := 0#32
  ![v24.toNat, 0]

def k0_chk2 (v24 : BitVec 32) : Prop :=
  (∀ a, (k0_off4 v24) a + S1x256.size a ≤ S20000x256.size a) ∧
  (∀ a, (k0_off34 v24) a + S1x256.size a ≤ S20000x256.size a)
instance k0_chk2.dec : ∀ (v24 : BitVec 32), Decidable (k0_chk2 v24) := fun v24 => decidable_of_iff' _ (Iff.of_eq (k0_chk2.eq_1 v24))
theorem k0_off4_inb : ∀ (v24 : BitVec 32) (k0_hw2 : k0_chk2 v24), ∀ a, (k0_off4 v24) a + S1x256.size a ≤ S20000x256.size a := fun v24 k0_hw2 => k0_hw2.1
theorem k0_off34_inb : ∀ (v24 : BitVec 32) (k0_hw2 : k0_chk2 v24), ∀ a, (k0_off34 v24) a + S1x256.size a ≤ S20000x256.size a := fun v24 k0_hw2 => k0_hw2.2

def k0_off35 (v33 : BitVec 32) : Fin 2 → Nat :=
  let c0_i32_85 : BitVec 32 := 0#32
  ![v33.toNat, 0]

def k0_chk3 (v33 : BitVec 32) : Prop :=
  (∀ a, (k0_off6 v33) a + S1x256.size a ≤ S20000x256.size a) ∧
  (∀ a, (k0_off35 v33) a + S1x256.size a ≤ S20000x256.size a)
instance k0_chk3.dec : ∀ (v33 : BitVec 32), Decidable (k0_chk3 v33) := fun v33 => decidable_of_iff' _ (Iff.of_eq (k0_chk3.eq_1 v33))
theorem k0_off6_inb : ∀ (v33 : BitVec 32) (k0_hw3 : k0_chk3 v33), ∀ a, (k0_off6 v33) a + S1x256.size a ≤ S20000x256.size a := fun v33 k0_hw3 => k0_hw3.1
theorem k0_off35_inb : ∀ (v33 : BitVec 32) (k0_hw3 : k0_chk3 v33), ∀ a, (k0_off35 v33) a + S1x256.size a ≤ S20000x256.size a := fun v33 k0_hw3 => k0_hw3.2

def k0_off36 (v42 : BitVec 32) : Fin 2 → Nat :=
  let c0_i32_89 : BitVec 32 := 0#32
  ![v42.toNat, 0]

def k0_chk4 (v42 : BitVec 32) : Prop :=
  (∀ a, (k0_off8 v42) a + S1x256.size a ≤ S20000x256.size a) ∧
  (∀ a, (k0_off36 v42) a + S1x256.size a ≤ S20000x256.size a)
instance k0_chk4.dec : ∀ (v42 : BitVec 32), Decidable (k0_chk4 v42) := fun v42 => decidable_of_iff' _ (Iff.of_eq (k0_chk4.eq_1 v42))
theorem k0_off8_inb : ∀ (v42 : BitVec 32) (k0_hw4 : k0_chk4 v42), ∀ a, (k0_off8 v42) a + S1x256.size a ≤ S20000x256.size a := fun v42 k0_hw4 => k0_hw4.1
theorem k0_off36_inb : ∀ (v42 : BitVec 32) (k0_hw4 : k0_chk4 v42), ∀ a, (k0_off36 v42) a + S1x256.size a ≤ S20000x256.size a := fun v42 k0_hw4 => k0_hw4.2

def k0_off37 (v51 : BitVec 32) : Fin 2 → Nat :=
  let c0_i32_93 : BitVec 32 := 0#32
  ![v51.toNat, 0]

def k0_chk5 (v51 : BitVec 32) : Prop :=
  (∀ a, (k0_off10 v51) a + S1x256.size a ≤ S20000x256.size a) ∧
  (∀ a, (k0_off37 v51) a + S1x256.size a ≤ S20000x256.size a)
instance k0_chk5.dec : ∀ (v51 : BitVec 32), Decidable (k0_chk5 v51) := fun v51 => decidable_of_iff' _ (Iff.of_eq (k0_chk5.eq_1 v51))
theorem k0_off10_inb : ∀ (v51 : BitVec 32) (k0_hw5 : k0_chk5 v51), ∀ a, (k0_off10 v51) a + S1x256.size a ≤ S20000x256.size a := fun v51 k0_hw5 => k0_hw5.1
theorem k0_off37_inb : ∀ (v51 : BitVec 32) (k0_hw5 : k0_chk5 v51), ∀ a, (k0_off37 v51) a + S1x256.size a ≤ S20000x256.size a := fun v51 k0_hw5 => k0_hw5.2

def k0_off38 (v60 : BitVec 32) : Fin 2 → Nat :=
  let c0_i32_97 : BitVec 32 := 0#32
  ![v60.toNat, 0]

def k0_chk6 (v60 : BitVec 32) : Prop :=
  (∀ a, (k0_off12 v60) a + S1x256.size a ≤ S20000x256.size a) ∧
  (∀ a, (k0_off38 v60) a + S1x256.size a ≤ S20000x256.size a)
instance k0_chk6.dec : ∀ (v60 : BitVec 32), Decidable (k0_chk6 v60) := fun v60 => decidable_of_iff' _ (Iff.of_eq (k0_chk6.eq_1 v60))
theorem k0_off12_inb : ∀ (v60 : BitVec 32) (k0_hw6 : k0_chk6 v60), ∀ a, (k0_off12 v60) a + S1x256.size a ≤ S20000x256.size a := fun v60 k0_hw6 => k0_hw6.1
theorem k0_off38_inb : ∀ (v60 : BitVec 32) (k0_hw6 : k0_chk6 v60), ∀ a, (k0_off38 v60) a + S1x256.size a ≤ S20000x256.size a := fun v60 k0_hw6 => k0_hw6.2

def k0_off39 (v69 : BitVec 32) : Fin 2 → Nat :=
  let c0_i32_101 : BitVec 32 := 0#32
  ![v69.toNat, 0]

def k0_chk7 (v69 : BitVec 32) : Prop :=
  (∀ a, (k0_off14 v69) a + S1x256.size a ≤ S20000x256.size a) ∧
  (∀ a, (k0_off39 v69) a + S1x256.size a ≤ S20000x256.size a)
instance k0_chk7.dec : ∀ (v69 : BitVec 32), Decidable (k0_chk7 v69) := fun v69 => decidable_of_iff' _ (Iff.of_eq (k0_chk7.eq_1 v69))
theorem k0_off14_inb : ∀ (v69 : BitVec 32) (k0_hw7 : k0_chk7 v69), ∀ a, (k0_off14 v69) a + S1x256.size a ≤ S20000x256.size a := fun v69 k0_hw7 => k0_hw7.1
theorem k0_off39_inb : ∀ (v69 : BitVec 32) (k0_hw7 : k0_chk7 v69), ∀ a, (k0_off39 v69) a + S1x256.size a ≤ S20000x256.size a := fun v69 k0_hw7 => k0_hw7.2

def k0_off40 (v78 : BitVec 32) : Fin 2 → Nat :=
  let c0_i32_105 : BitVec 32 := 0#32
  ![v78.toNat, 0]

def k0_chk8 (v78 : BitVec 32) : Prop :=
  (∀ a, (k0_off16 v78) a + S1x256.size a ≤ S20000x256.size a) ∧
  (∀ a, (k0_off40 v78) a + S1x256.size a ≤ S20000x256.size a)
instance k0_chk8.dec : ∀ (v78 : BitVec 32), Decidable (k0_chk8 v78) := fun v78 => decidable_of_iff' _ (Iff.of_eq (k0_chk8.eq_1 v78))
theorem k0_off16_inb : ∀ (v78 : BitVec 32) (k0_hw8 : k0_chk8 v78), ∀ a, (k0_off16 v78) a + S1x256.size a ≤ S20000x256.size a := fun v78 k0_hw8 => k0_hw8.1
theorem k0_off40_inb : ∀ (v78 : BitVec 32) (k0_hw8 : k0_chk8 v78), ∀ a, (k0_off40 v78) a + S1x256.size a ≤ S20000x256.size a := fun v78 k0_hw8 => k0_hw8.2

def k0_off41 (v87 : BitVec 32) : Fin 2 → Nat :=
  let c0_i32_109 : BitVec 32 := 0#32
  ![v87.toNat, 0]

def k0_chk9 (v87 : BitVec 32) : Prop :=
  (∀ a, (k0_off18 v87) a + S1x256.size a ≤ S20000x256.size a) ∧
  (∀ a, (k0_off41 v87) a + S1x256.size a ≤ S20000x256.size a)
instance k0_chk9.dec : ∀ (v87 : BitVec 32), Decidable (k0_chk9 v87) := fun v87 => decidable_of_iff' _ (Iff.of_eq (k0_chk9.eq_1 v87))
theorem k0_off18_inb : ∀ (v87 : BitVec 32) (k0_hw9 : k0_chk9 v87), ∀ a, (k0_off18 v87) a + S1x256.size a ≤ S20000x256.size a := fun v87 k0_hw9 => k0_hw9.1
theorem k0_off41_inb : ∀ (v87 : BitVec 32) (k0_hw9 : k0_chk9 v87), ∀ a, (k0_off41 v87) a + S1x256.size a ≤ S20000x256.size a := fun v87 k0_hw9 => k0_hw9.2

def k0_off42 (v96 : BitVec 32) : Fin 2 → Nat :=
  let c0_i32_113 : BitVec 32 := 0#32
  ![v96.toNat, 0]

def k0_chk10 (v96 : BitVec 32) : Prop :=
  (∀ a, (k0_off20 v96) a + S1x256.size a ≤ S20000x256.size a) ∧
  (∀ a, (k0_off42 v96) a + S1x256.size a ≤ S20000x256.size a)
instance k0_chk10.dec : ∀ (v96 : BitVec 32), Decidable (k0_chk10 v96) := fun v96 => decidable_of_iff' _ (Iff.of_eq (k0_chk10.eq_1 v96))
theorem k0_off20_inb : ∀ (v96 : BitVec 32) (k0_hw10 : k0_chk10 v96), ∀ a, (k0_off20 v96) a + S1x256.size a ≤ S20000x256.size a := fun v96 k0_hw10 => k0_hw10.1
theorem k0_off42_inb : ∀ (v96 : BitVec 32) (k0_hw10 : k0_chk10 v96), ∀ a, (k0_off42 v96) a + S1x256.size a ≤ S20000x256.size a := fun v96 k0_hw10 => k0_hw10.2

def k0_off43 (v105 : BitVec 32) : Fin 2 → Nat :=
  let c0_i32_117 : BitVec 32 := 0#32
  ![v105.toNat, 0]

def k0_chk11 (v105 : BitVec 32) : Prop :=
  (∀ a, (k0_off22 v105) a + S1x256.size a ≤ S20000x256.size a) ∧
  (∀ a, (k0_off43 v105) a + S1x256.size a ≤ S20000x256.size a)
instance k0_chk11.dec : ∀ (v105 : BitVec 32), Decidable (k0_chk11 v105) := fun v105 => decidable_of_iff' _ (Iff.of_eq (k0_chk11.eq_1 v105))
theorem k0_off22_inb : ∀ (v105 : BitVec 32) (k0_hw11 : k0_chk11 v105), ∀ a, (k0_off22 v105) a + S1x256.size a ≤ S20000x256.size a := fun v105 k0_hw11 => k0_hw11.1
theorem k0_off43_inb : ∀ (v105 : BitVec 32) (k0_hw11 : k0_chk11 v105), ∀ a, (k0_off43 v105) a + S1x256.size a ≤ S20000x256.size a := fun v105 k0_hw11 => k0_hw11.2

def k0_off44 (v114 : BitVec 32) : Fin 2 → Nat :=
  let c0_i32_121 : BitVec 32 := 0#32
  ![v114.toNat, 0]

def k0_chk12 (v114 : BitVec 32) : Prop :=
  (∀ a, (k0_off24 v114) a + S1x256.size a ≤ S20000x256.size a) ∧
  (∀ a, (k0_off44 v114) a + S1x256.size a ≤ S20000x256.size a)
instance k0_chk12.dec : ∀ (v114 : BitVec 32), Decidable (k0_chk12 v114) := fun v114 => decidable_of_iff' _ (Iff.of_eq (k0_chk12.eq_1 v114))
theorem k0_off24_inb : ∀ (v114 : BitVec 32) (k0_hw12 : k0_chk12 v114), ∀ a, (k0_off24 v114) a + S1x256.size a ≤ S20000x256.size a := fun v114 k0_hw12 => k0_hw12.1
theorem k0_off44_inb : ∀ (v114 : BitVec 32) (k0_hw12 : k0_chk12 v114), ∀ a, (k0_off44 v114) a + S1x256.size a ≤ S20000x256.size a := fun v114 k0_hw12 => k0_hw12.2

def k0_off45 (v123 : BitVec 32) : Fin 2 → Nat :=
  let c0_i32_125 : BitVec 32 := 0#32
  ![v123.toNat, 0]

def k0_chk13 (v123 : BitVec 32) : Prop :=
  (∀ a, (k0_off26 v123) a + S1x256.size a ≤ S20000x256.size a) ∧
  (∀ a, (k0_off45 v123) a + S1x256.size a ≤ S20000x256.size a)
instance k0_chk13.dec : ∀ (v123 : BitVec 32), Decidable (k0_chk13 v123) := fun v123 => decidable_of_iff' _ (Iff.of_eq (k0_chk13.eq_1 v123))
theorem k0_off26_inb : ∀ (v123 : BitVec 32) (k0_hw13 : k0_chk13 v123), ∀ a, (k0_off26 v123) a + S1x256.size a ≤ S20000x256.size a := fun v123 k0_hw13 => k0_hw13.1
theorem k0_off45_inb : ∀ (v123 : BitVec 32) (k0_hw13 : k0_chk13 v123), ∀ a, (k0_off45 v123) a + S1x256.size a ≤ S20000x256.size a := fun v123 k0_hw13 => k0_hw13.2

def k0_off46 (v132 : BitVec 32) : Fin 2 → Nat :=
  let c0_i32_129 : BitVec 32 := 0#32
  ![v132.toNat, 0]

def k0_chk14 (v132 : BitVec 32) : Prop :=
  (∀ a, (k0_off28 v132) a + S1x256.size a ≤ S20000x256.size a) ∧
  (∀ a, (k0_off46 v132) a + S1x256.size a ≤ S20000x256.size a)
instance k0_chk14.dec : ∀ (v132 : BitVec 32), Decidable (k0_chk14 v132) := fun v132 => decidable_of_iff' _ (Iff.of_eq (k0_chk14.eq_1 v132))
theorem k0_off28_inb : ∀ (v132 : BitVec 32) (k0_hw14 : k0_chk14 v132), ∀ a, (k0_off28 v132) a + S1x256.size a ≤ S20000x256.size a := fun v132 k0_hw14 => k0_hw14.1
theorem k0_off46_inb : ∀ (v132 : BitVec 32) (k0_hw14 : k0_chk14 v132), ∀ a, (k0_off46 v132) a + S1x256.size a ≤ S20000x256.size a := fun v132 k0_hw14 => k0_hw14.2

def k0_off47 (v141 : BitVec 32) : Fin 2 → Nat :=
  let c0_i32_133 : BitVec 32 := 0#32
  ![v141.toNat, 0]

def k0_chk15 (v141 : BitVec 32) : Prop :=
  (∀ a, (k0_off30 v141) a + S1x256.size a ≤ S20000x256.size a) ∧
  (∀ a, (k0_off47 v141) a + S1x256.size a ≤ S20000x256.size a)
instance k0_chk15.dec : ∀ (v141 : BitVec 32), Decidable (k0_chk15 v141) := fun v141 => decidable_of_iff' _ (Iff.of_eq (k0_chk15.eq_1 v141))
theorem k0_off30_inb : ∀ (v141 : BitVec 32) (k0_hw15 : k0_chk15 v141), ∀ a, (k0_off30 v141) a + S1x256.size a ≤ S20000x256.size a := fun v141 k0_hw15 => k0_hw15.1
theorem k0_off47_inb : ∀ (v141 : BitVec 32) (k0_hw15 : k0_chk15 v141), ∀ a, (k0_off47 v141) a + S1x256.size a ≤ S20000x256.size a := fun v141 k0_hw15 => k0_hw15.2

def k0_mult1 (k0_t1 : Fin k0_t1_loop.trips) : BitVec 32 :=
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  v253
def k0_off48 (k0_t1 : Fin k0_t1_loop.trips) : Fin 2 → Nat :=
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  let v254 : BitVec 32 := v253
  let v256 : Index := Scalar.indexCast v254
  let c0_141 : Index := 0#32
  ![v256.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S20000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S800x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

abbrev pre1 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c0_i32 : BitVec 32 := 0#32
  let c50_i32 : BitVec 32 := 50#32
  let v1 : BitVec 32 := Scalar.addi c0_i32 c50_i32
  let c1_i32 : BitVec 32 := 1#32
  ⟨c0_i32, v1, c1_i32⟩
def k1_off1 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c0_i32_8 : BitVec 32 := 0#32
  let v13 : BitVec 32 := Scalar.addi v12 c0_i32_8
  let v14 : Index := Scalar.indexCast v13
  ![v14.toNat]
def k1_off2 (v15 : BitVec 32) : Fin 2 → Nat :=
  let c0_i32_12 : BitVec 32 := 0#32
  ![v15.toNat, 0]

def k1_off3 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c1_i32_13 : BitVec 32 := 1#32
  let v22 : BitVec 32 := Scalar.addi v12 c1_i32_13
  let v23 : Index := Scalar.indexCast v22
  ![v23.toNat]
def k1_off4 (v24 : BitVec 32) : Fin 2 → Nat :=
  let c0_i32_17 : BitVec 32 := 0#32
  ![v24.toNat, 0]

def k1_off5 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c2_i32 : BitVec 32 := 2#32
  let v31 : BitVec 32 := Scalar.addi v12 c2_i32
  let v32 : Index := Scalar.indexCast v31
  ![v32.toNat]
def k1_off6 (v33 : BitVec 32) : Fin 2 → Nat :=
  let c0_i32_21 : BitVec 32 := 0#32
  ![v33.toNat, 0]

def k1_off7 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c3_i32 : BitVec 32 := 3#32
  let v40 : BitVec 32 := Scalar.addi v12 c3_i32
  let v41 : Index := Scalar.indexCast v40
  ![v41.toNat]
def k1_off8 (v42 : BitVec 32) : Fin 2 → Nat :=
  let c0_i32_25 : BitVec 32 := 0#32
  ![v42.toNat, 0]

def k1_off9 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c4_i32 : BitVec 32 := 4#32
  let v49 : BitVec 32 := Scalar.addi v12 c4_i32
  let v50 : Index := Scalar.indexCast v49
  ![v50.toNat]
def k1_off10 (v51 : BitVec 32) : Fin 2 → Nat :=
  let c0_i32_29 : BitVec 32 := 0#32
  ![v51.toNat, 0]

def k1_off11 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c5_i32 : BitVec 32 := 5#32
  let v58 : BitVec 32 := Scalar.addi v12 c5_i32
  let v59 : Index := Scalar.indexCast v58
  ![v59.toNat]
def k1_off12 (v60 : BitVec 32) : Fin 2 → Nat :=
  let c0_i32_33 : BitVec 32 := 0#32
  ![v60.toNat, 0]

def k1_off13 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c6_i32 : BitVec 32 := 6#32
  let v67 : BitVec 32 := Scalar.addi v12 c6_i32
  let v68 : Index := Scalar.indexCast v67
  ![v68.toNat]
def k1_off14 (v69 : BitVec 32) : Fin 2 → Nat :=
  let c0_i32_37 : BitVec 32 := 0#32
  ![v69.toNat, 0]

def k1_off15 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c7_i32 : BitVec 32 := 7#32
  let v76 : BitVec 32 := Scalar.addi v12 c7_i32
  let v77 : Index := Scalar.indexCast v76
  ![v77.toNat]
def k1_off16 (v78 : BitVec 32) : Fin 2 → Nat :=
  let c0_i32_41 : BitVec 32 := 0#32
  ![v78.toNat, 0]

def k1_off17 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c8_i32 : BitVec 32 := 8#32
  let v85 : BitVec 32 := Scalar.addi v12 c8_i32
  let v86 : Index := Scalar.indexCast v85
  ![v86.toNat]
def k1_off18 (v87 : BitVec 32) : Fin 2 → Nat :=
  let c0_i32_45 : BitVec 32 := 0#32
  ![v87.toNat, 0]

def k1_off19 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c9_i32 : BitVec 32 := 9#32
  let v94 : BitVec 32 := Scalar.addi v12 c9_i32
  let v95 : Index := Scalar.indexCast v94
  ![v95.toNat]
def k1_off20 (v96 : BitVec 32) : Fin 2 → Nat :=
  let c0_i32_49 : BitVec 32 := 0#32
  ![v96.toNat, 0]

def k1_off21 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c10_i32 : BitVec 32 := 10#32
  let v103 : BitVec 32 := Scalar.addi v12 c10_i32
  let v104 : Index := Scalar.indexCast v103
  ![v104.toNat]
def k1_off22 (v105 : BitVec 32) : Fin 2 → Nat :=
  let c0_i32_53 : BitVec 32 := 0#32
  ![v105.toNat, 0]

def k1_off23 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c11_i32 : BitVec 32 := 11#32
  let v112 : BitVec 32 := Scalar.addi v12 c11_i32
  let v113 : Index := Scalar.indexCast v112
  ![v113.toNat]
def k1_off24 (v114 : BitVec 32) : Fin 2 → Nat :=
  let c0_i32_57 : BitVec 32 := 0#32
  ![v114.toNat, 0]

def k1_off25 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c12_i32 : BitVec 32 := 12#32
  let v121 : BitVec 32 := Scalar.addi v12 c12_i32
  let v122 : Index := Scalar.indexCast v121
  ![v122.toNat]
def k1_off26 (v123 : BitVec 32) : Fin 2 → Nat :=
  let c0_i32_61 : BitVec 32 := 0#32
  ![v123.toNat, 0]

def k1_off27 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c13_i32 : BitVec 32 := 13#32
  let v130 : BitVec 32 := Scalar.addi v12 c13_i32
  let v131 : Index := Scalar.indexCast v130
  ![v131.toNat]
def k1_off28 (v132 : BitVec 32) : Fin 2 → Nat :=
  let c0_i32_65 : BitVec 32 := 0#32
  ![v132.toNat, 0]

def k1_off29 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c14_i32 : BitVec 32 := 14#32
  let v139 : BitVec 32 := Scalar.addi v12 c14_i32
  let v140 : Index := Scalar.indexCast v139
  ![v140.toNat]
def k1_off30 (v141 : BitVec 32) : Fin 2 → Nat :=
  let c0_i32_69 : BitVec 32 := 0#32
  ![v141.toNat, 0]

def k1_off31 (i : grid1.Coords) (k1_t1 : Fin k1_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c15_i32 : BitVec 32 := 15#32
  let v148 : BitVec 32 := Scalar.addi v12 c15_i32
  let v149 : Index := Scalar.indexCast v148
  ![v149.toNat]
def k1_off32 (v150 : BitVec 32) : Fin 2 → Nat :=
  let c0_i32_73 : BitVec 32 := 0#32
  ![v150.toNat, 0]

def k1_chk16 (v150 : BitVec 32) : Prop :=
  (∀ a, (k1_off32 v150) a + S1x256.size a ≤ S20000x256.size a)
instance k1_chk16.dec : ∀ (v150 : BitVec 32), Decidable (k1_chk16 v150) := fun v150 => decidable_of_iff' _ (Iff.of_eq (k1_chk16.eq_1 v150))
theorem k1_off32_inb : ∀ (v150 : BitVec 32) (k1_hw16 : k1_chk16 v150), ∀ a, (k1_off32 v150) a + S1x256.size a ≤ S20000x256.size a := fun v150 k1_hw16 => k1_hw16

def k1_off33 (v15 : BitVec 32) : Fin 2 → Nat :=
  let c0_i32_77 : BitVec 32 := 0#32
  ![v15.toNat, 0]

def k1_chk1 (v15 : BitVec 32) : Prop :=
  (∀ a, (k1_off2 v15) a + S1x256.size a ≤ S20000x256.size a) ∧
  (∀ a, (k1_off33 v15) a + S1x256.size a ≤ S20000x256.size a)
instance k1_chk1.dec : ∀ (v15 : BitVec 32), Decidable (k1_chk1 v15) := fun v15 => decidable_of_iff' _ (Iff.of_eq (k1_chk1.eq_1 v15))
theorem k1_off2_inb : ∀ (v15 : BitVec 32) (k1_hw1 : k1_chk1 v15), ∀ a, (k1_off2 v15) a + S1x256.size a ≤ S20000x256.size a := fun v15 k1_hw1 => k1_hw1.1
theorem k1_off33_inb : ∀ (v15 : BitVec 32) (k1_hw1 : k1_chk1 v15), ∀ a, (k1_off33 v15) a + S1x256.size a ≤ S20000x256.size a := fun v15 k1_hw1 => k1_hw1.2

def k1_off34 (v24 : BitVec 32) : Fin 2 → Nat :=
  let c0_i32_81 : BitVec 32 := 0#32
  ![v24.toNat, 0]

def k1_chk2 (v24 : BitVec 32) : Prop :=
  (∀ a, (k1_off4 v24) a + S1x256.size a ≤ S20000x256.size a) ∧
  (∀ a, (k1_off34 v24) a + S1x256.size a ≤ S20000x256.size a)
instance k1_chk2.dec : ∀ (v24 : BitVec 32), Decidable (k1_chk2 v24) := fun v24 => decidable_of_iff' _ (Iff.of_eq (k1_chk2.eq_1 v24))
theorem k1_off4_inb : ∀ (v24 : BitVec 32) (k1_hw2 : k1_chk2 v24), ∀ a, (k1_off4 v24) a + S1x256.size a ≤ S20000x256.size a := fun v24 k1_hw2 => k1_hw2.1
theorem k1_off34_inb : ∀ (v24 : BitVec 32) (k1_hw2 : k1_chk2 v24), ∀ a, (k1_off34 v24) a + S1x256.size a ≤ S20000x256.size a := fun v24 k1_hw2 => k1_hw2.2

def k1_off35 (v33 : BitVec 32) : Fin 2 → Nat :=
  let c0_i32_85 : BitVec 32 := 0#32
  ![v33.toNat, 0]

def k1_chk3 (v33 : BitVec 32) : Prop :=
  (∀ a, (k1_off6 v33) a + S1x256.size a ≤ S20000x256.size a) ∧
  (∀ a, (k1_off35 v33) a + S1x256.size a ≤ S20000x256.size a)
instance k1_chk3.dec : ∀ (v33 : BitVec 32), Decidable (k1_chk3 v33) := fun v33 => decidable_of_iff' _ (Iff.of_eq (k1_chk3.eq_1 v33))
theorem k1_off6_inb : ∀ (v33 : BitVec 32) (k1_hw3 : k1_chk3 v33), ∀ a, (k1_off6 v33) a + S1x256.size a ≤ S20000x256.size a := fun v33 k1_hw3 => k1_hw3.1
theorem k1_off35_inb : ∀ (v33 : BitVec 32) (k1_hw3 : k1_chk3 v33), ∀ a, (k1_off35 v33) a + S1x256.size a ≤ S20000x256.size a := fun v33 k1_hw3 => k1_hw3.2

def k1_off36 (v42 : BitVec 32) : Fin 2 → Nat :=
  let c0_i32_89 : BitVec 32 := 0#32
  ![v42.toNat, 0]

def k1_chk4 (v42 : BitVec 32) : Prop :=
  (∀ a, (k1_off8 v42) a + S1x256.size a ≤ S20000x256.size a) ∧
  (∀ a, (k1_off36 v42) a + S1x256.size a ≤ S20000x256.size a)
instance k1_chk4.dec : ∀ (v42 : BitVec 32), Decidable (k1_chk4 v42) := fun v42 => decidable_of_iff' _ (Iff.of_eq (k1_chk4.eq_1 v42))
theorem k1_off8_inb : ∀ (v42 : BitVec 32) (k1_hw4 : k1_chk4 v42), ∀ a, (k1_off8 v42) a + S1x256.size a ≤ S20000x256.size a := fun v42 k1_hw4 => k1_hw4.1
theorem k1_off36_inb : ∀ (v42 : BitVec 32) (k1_hw4 : k1_chk4 v42), ∀ a, (k1_off36 v42) a + S1x256.size a ≤ S20000x256.size a := fun v42 k1_hw4 => k1_hw4.2

def k1_off37 (v51 : BitVec 32) : Fin 2 → Nat :=
  let c0_i32_93 : BitVec 32 := 0#32
  ![v51.toNat, 0]

def k1_chk5 (v51 : BitVec 32) : Prop :=
  (∀ a, (k1_off10 v51) a + S1x256.size a ≤ S20000x256.size a) ∧
  (∀ a, (k1_off37 v51) a + S1x256.size a ≤ S20000x256.size a)
instance k1_chk5.dec : ∀ (v51 : BitVec 32), Decidable (k1_chk5 v51) := fun v51 => decidable_of_iff' _ (Iff.of_eq (k1_chk5.eq_1 v51))
theorem k1_off10_inb : ∀ (v51 : BitVec 32) (k1_hw5 : k1_chk5 v51), ∀ a, (k1_off10 v51) a + S1x256.size a ≤ S20000x256.size a := fun v51 k1_hw5 => k1_hw5.1
theorem k1_off37_inb : ∀ (v51 : BitVec 32) (k1_hw5 : k1_chk5 v51), ∀ a, (k1_off37 v51) a + S1x256.size a ≤ S20000x256.size a := fun v51 k1_hw5 => k1_hw5.2

def k1_off38 (v60 : BitVec 32) : Fin 2 → Nat :=
  let c0_i32_97 : BitVec 32 := 0#32
  ![v60.toNat, 0]

def k1_chk6 (v60 : BitVec 32) : Prop :=
  (∀ a, (k1_off12 v60) a + S1x256.size a ≤ S20000x256.size a) ∧
  (∀ a, (k1_off38 v60) a + S1x256.size a ≤ S20000x256.size a)
instance k1_chk6.dec : ∀ (v60 : BitVec 32), Decidable (k1_chk6 v60) := fun v60 => decidable_of_iff' _ (Iff.of_eq (k1_chk6.eq_1 v60))
theorem k1_off12_inb : ∀ (v60 : BitVec 32) (k1_hw6 : k1_chk6 v60), ∀ a, (k1_off12 v60) a + S1x256.size a ≤ S20000x256.size a := fun v60 k1_hw6 => k1_hw6.1
theorem k1_off38_inb : ∀ (v60 : BitVec 32) (k1_hw6 : k1_chk6 v60), ∀ a, (k1_off38 v60) a + S1x256.size a ≤ S20000x256.size a := fun v60 k1_hw6 => k1_hw6.2

def k1_off39 (v69 : BitVec 32) : Fin 2 → Nat :=
  let c0_i32_101 : BitVec 32 := 0#32
  ![v69.toNat, 0]

def k1_chk7 (v69 : BitVec 32) : Prop :=
  (∀ a, (k1_off14 v69) a + S1x256.size a ≤ S20000x256.size a) ∧
  (∀ a, (k1_off39 v69) a + S1x256.size a ≤ S20000x256.size a)
instance k1_chk7.dec : ∀ (v69 : BitVec 32), Decidable (k1_chk7 v69) := fun v69 => decidable_of_iff' _ (Iff.of_eq (k1_chk7.eq_1 v69))
theorem k1_off14_inb : ∀ (v69 : BitVec 32) (k1_hw7 : k1_chk7 v69), ∀ a, (k1_off14 v69) a + S1x256.size a ≤ S20000x256.size a := fun v69 k1_hw7 => k1_hw7.1
theorem k1_off39_inb : ∀ (v69 : BitVec 32) (k1_hw7 : k1_chk7 v69), ∀ a, (k1_off39 v69) a + S1x256.size a ≤ S20000x256.size a := fun v69 k1_hw7 => k1_hw7.2

def k1_off40 (v78 : BitVec 32) : Fin 2 → Nat :=
  let c0_i32_105 : BitVec 32 := 0#32
  ![v78.toNat, 0]

def k1_chk8 (v78 : BitVec 32) : Prop :=
  (∀ a, (k1_off16 v78) a + S1x256.size a ≤ S20000x256.size a) ∧
  (∀ a, (k1_off40 v78) a + S1x256.size a ≤ S20000x256.size a)
instance k1_chk8.dec : ∀ (v78 : BitVec 32), Decidable (k1_chk8 v78) := fun v78 => decidable_of_iff' _ (Iff.of_eq (k1_chk8.eq_1 v78))
theorem k1_off16_inb : ∀ (v78 : BitVec 32) (k1_hw8 : k1_chk8 v78), ∀ a, (k1_off16 v78) a + S1x256.size a ≤ S20000x256.size a := fun v78 k1_hw8 => k1_hw8.1
theorem k1_off40_inb : ∀ (v78 : BitVec 32) (k1_hw8 : k1_chk8 v78), ∀ a, (k1_off40 v78) a + S1x256.size a ≤ S20000x256.size a := fun v78 k1_hw8 => k1_hw8.2

def k1_off41 (v87 : BitVec 32) : Fin 2 → Nat :=
  let c0_i32_109 : BitVec 32 := 0#32
  ![v87.toNat, 0]

def k1_chk9 (v87 : BitVec 32) : Prop :=
  (∀ a, (k1_off18 v87) a + S1x256.size a ≤ S20000x256.size a) ∧
  (∀ a, (k1_off41 v87) a + S1x256.size a ≤ S20000x256.size a)
instance k1_chk9.dec : ∀ (v87 : BitVec 32), Decidable (k1_chk9 v87) := fun v87 => decidable_of_iff' _ (Iff.of_eq (k1_chk9.eq_1 v87))
theorem k1_off18_inb : ∀ (v87 : BitVec 32) (k1_hw9 : k1_chk9 v87), ∀ a, (k1_off18 v87) a + S1x256.size a ≤ S20000x256.size a := fun v87 k1_hw9 => k1_hw9.1
theorem k1_off41_inb : ∀ (v87 : BitVec 32) (k1_hw9 : k1_chk9 v87), ∀ a, (k1_off41 v87) a + S1x256.size a ≤ S20000x256.size a := fun v87 k1_hw9 => k1_hw9.2

def k1_off42 (v96 : BitVec 32) : Fin 2 → Nat :=
  let c0_i32_113 : BitVec 32 := 0#32
  ![v96.toNat, 0]

def k1_chk10 (v96 : BitVec 32) : Prop :=
  (∀ a, (k1_off20 v96) a + S1x256.size a ≤ S20000x256.size a) ∧
  (∀ a, (k1_off42 v96) a + S1x256.size a ≤ S20000x256.size a)
instance k1_chk10.dec : ∀ (v96 : BitVec 32), Decidable (k1_chk10 v96) := fun v96 => decidable_of_iff' _ (Iff.of_eq (k1_chk10.eq_1 v96))
theorem k1_off20_inb : ∀ (v96 : BitVec 32) (k1_hw10 : k1_chk10 v96), ∀ a, (k1_off20 v96) a + S1x256.size a ≤ S20000x256.size a := fun v96 k1_hw10 => k1_hw10.1
theorem k1_off42_inb : ∀ (v96 : BitVec 32) (k1_hw10 : k1_chk10 v96), ∀ a, (k1_off42 v96) a + S1x256.size a ≤ S20000x256.size a := fun v96 k1_hw10 => k1_hw10.2

def k1_off43 (v105 : BitVec 32) : Fin 2 → Nat :=
  let c0_i32_117 : BitVec 32 := 0#32
  ![v105.toNat, 0]

def k1_chk11 (v105 : BitVec 32) : Prop :=
  (∀ a, (k1_off22 v105) a + S1x256.size a ≤ S20000x256.size a) ∧
  (∀ a, (k1_off43 v105) a + S1x256.size a ≤ S20000x256.size a)
instance k1_chk11.dec : ∀ (v105 : BitVec 32), Decidable (k1_chk11 v105) := fun v105 => decidable_of_iff' _ (Iff.of_eq (k1_chk11.eq_1 v105))
theorem k1_off22_inb : ∀ (v105 : BitVec 32) (k1_hw11 : k1_chk11 v105), ∀ a, (k1_off22 v105) a + S1x256.size a ≤ S20000x256.size a := fun v105 k1_hw11 => k1_hw11.1
theorem k1_off43_inb : ∀ (v105 : BitVec 32) (k1_hw11 : k1_chk11 v105), ∀ a, (k1_off43 v105) a + S1x256.size a ≤ S20000x256.size a := fun v105 k1_hw11 => k1_hw11.2

def k1_off44 (v114 : BitVec 32) : Fin 2 → Nat :=
  let c0_i32_121 : BitVec 32 := 0#32
  ![v114.toNat, 0]

def k1_chk12 (v114 : BitVec 32) : Prop :=
  (∀ a, (k1_off24 v114) a + S1x256.size a ≤ S20000x256.size a) ∧
  (∀ a, (k1_off44 v114) a + S1x256.size a ≤ S20000x256.size a)
instance k1_chk12.dec : ∀ (v114 : BitVec 32), Decidable (k1_chk12 v114) := fun v114 => decidable_of_iff' _ (Iff.of_eq (k1_chk12.eq_1 v114))
theorem k1_off24_inb : ∀ (v114 : BitVec 32) (k1_hw12 : k1_chk12 v114), ∀ a, (k1_off24 v114) a + S1x256.size a ≤ S20000x256.size a := fun v114 k1_hw12 => k1_hw12.1
theorem k1_off44_inb : ∀ (v114 : BitVec 32) (k1_hw12 : k1_chk12 v114), ∀ a, (k1_off44 v114) a + S1x256.size a ≤ S20000x256.size a := fun v114 k1_hw12 => k1_hw12.2

def k1_off45 (v123 : BitVec 32) : Fin 2 → Nat :=
  let c0_i32_125 : BitVec 32 := 0#32
  ![v123.toNat, 0]

def k1_chk13 (v123 : BitVec 32) : Prop :=
  (∀ a, (k1_off26 v123) a + S1x256.size a ≤ S20000x256.size a) ∧
  (∀ a, (k1_off45 v123) a + S1x256.size a ≤ S20000x256.size a)
instance k1_chk13.dec : ∀ (v123 : BitVec 32), Decidable (k1_chk13 v123) := fun v123 => decidable_of_iff' _ (Iff.of_eq (k1_chk13.eq_1 v123))
theorem k1_off26_inb : ∀ (v123 : BitVec 32) (k1_hw13 : k1_chk13 v123), ∀ a, (k1_off26 v123) a + S1x256.size a ≤ S20000x256.size a := fun v123 k1_hw13 => k1_hw13.1
theorem k1_off45_inb : ∀ (v123 : BitVec 32) (k1_hw13 : k1_chk13 v123), ∀ a, (k1_off45 v123) a + S1x256.size a ≤ S20000x256.size a := fun v123 k1_hw13 => k1_hw13.2

def k1_off46 (v132 : BitVec 32) : Fin 2 → Nat :=
  let c0_i32_129 : BitVec 32 := 0#32
  ![v132.toNat, 0]

def k1_chk14 (v132 : BitVec 32) : Prop :=
  (∀ a, (k1_off28 v132) a + S1x256.size a ≤ S20000x256.size a) ∧
  (∀ a, (k1_off46 v132) a + S1x256.size a ≤ S20000x256.size a)
instance k1_chk14.dec : ∀ (v132 : BitVec 32), Decidable (k1_chk14 v132) := fun v132 => decidable_of_iff' _ (Iff.of_eq (k1_chk14.eq_1 v132))
theorem k1_off28_inb : ∀ (v132 : BitVec 32) (k1_hw14 : k1_chk14 v132), ∀ a, (k1_off28 v132) a + S1x256.size a ≤ S20000x256.size a := fun v132 k1_hw14 => k1_hw14.1
theorem k1_off46_inb : ∀ (v132 : BitVec 32) (k1_hw14 : k1_chk14 v132), ∀ a, (k1_off46 v132) a + S1x256.size a ≤ S20000x256.size a := fun v132 k1_hw14 => k1_hw14.2

def k1_off47 (v141 : BitVec 32) : Fin 2 → Nat :=
  let c0_i32_133 : BitVec 32 := 0#32
  ![v141.toNat, 0]

def k1_chk15 (v141 : BitVec 32) : Prop :=
  (∀ a, (k1_off30 v141) a + S1x256.size a ≤ S20000x256.size a) ∧
  (∀ a, (k1_off47 v141) a + S1x256.size a ≤ S20000x256.size a)
instance k1_chk15.dec : ∀ (v141 : BitVec 32), Decidable (k1_chk15 v141) := fun v141 => decidable_of_iff' _ (Iff.of_eq (k1_chk15.eq_1 v141))
theorem k1_off30_inb : ∀ (v141 : BitVec 32) (k1_hw15 : k1_chk15 v141), ∀ a, (k1_off30 v141) a + S1x256.size a ≤ S20000x256.size a := fun v141 k1_hw15 => k1_hw15.1
theorem k1_off47_inb : ∀ (v141 : BitVec 32) (k1_hw15 : k1_chk15 v141), ∀ a, (k1_off47 v141) a + S1x256.size a ≤ S20000x256.size a := fun v141 k1_hw15 => k1_hw15.2

def k1_mult1 (k1_t1 : Fin k1_t1_loop.trips) : BitVec 32 :=
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  v253
def k1_off48 (k1_t1 : Fin k1_t1_loop.trips) : Fin 2 → Nat :=
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  let v254 : BitVec 32 := v253
  let v256 : Index := Scalar.indexCast v254
  let c0_141 : Index := 0#32
  ![v256.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S20000x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S800x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S800x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

abbrev pre2 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

@[reducible] def k2_t1_loop : Scf.Loop 32 :=
  let c0_i32 : BitVec 32 := 0#32
  let c50_i32 : BitVec 32 := 50#32
  let v1 : BitVec 32 := Scalar.addi c0_i32 c50_i32
  let c1_i32 : BitVec 32 := 1#32
  ⟨c0_i32, v1, c1_i32⟩
def k2_off1 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c0_i32_8 : BitVec 32 := 0#32
  let v13 : BitVec 32 := Scalar.addi v12 c0_i32_8
  let v14 : Index := Scalar.indexCast v13
  ![v14.toNat]
def k2_off2 (v15 : BitVec 32) : Fin 2 → Nat :=
  let c0_i32_12 : BitVec 32 := 0#32
  ![v15.toNat, 0]

def k2_off3 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c1_i32_13 : BitVec 32 := 1#32
  let v22 : BitVec 32 := Scalar.addi v12 c1_i32_13
  let v23 : Index := Scalar.indexCast v22
  ![v23.toNat]
def k2_off4 (v24 : BitVec 32) : Fin 2 → Nat :=
  let c0_i32_17 : BitVec 32 := 0#32
  ![v24.toNat, 0]

def k2_off5 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c2_i32 : BitVec 32 := 2#32
  let v31 : BitVec 32 := Scalar.addi v12 c2_i32
  let v32 : Index := Scalar.indexCast v31
  ![v32.toNat]
def k2_off6 (v33 : BitVec 32) : Fin 2 → Nat :=
  let c0_i32_21 : BitVec 32 := 0#32
  ![v33.toNat, 0]

def k2_off7 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c3_i32 : BitVec 32 := 3#32
  let v40 : BitVec 32 := Scalar.addi v12 c3_i32
  let v41 : Index := Scalar.indexCast v40
  ![v41.toNat]
def k2_off8 (v42 : BitVec 32) : Fin 2 → Nat :=
  let c0_i32_25 : BitVec 32 := 0#32
  ![v42.toNat, 0]

def k2_off9 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c4_i32 : BitVec 32 := 4#32
  let v49 : BitVec 32 := Scalar.addi v12 c4_i32
  let v50 : Index := Scalar.indexCast v49
  ![v50.toNat]
def k2_off10 (v51 : BitVec 32) : Fin 2 → Nat :=
  let c0_i32_29 : BitVec 32 := 0#32
  ![v51.toNat, 0]

def k2_off11 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c5_i32 : BitVec 32 := 5#32
  let v58 : BitVec 32 := Scalar.addi v12 c5_i32
  let v59 : Index := Scalar.indexCast v58
  ![v59.toNat]
def k2_off12 (v60 : BitVec 32) : Fin 2 → Nat :=
  let c0_i32_33 : BitVec 32 := 0#32
  ![v60.toNat, 0]

def k2_off13 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c6_i32 : BitVec 32 := 6#32
  let v67 : BitVec 32 := Scalar.addi v12 c6_i32
  let v68 : Index := Scalar.indexCast v67
  ![v68.toNat]
def k2_off14 (v69 : BitVec 32) : Fin 2 → Nat :=
  let c0_i32_37 : BitVec 32 := 0#32
  ![v69.toNat, 0]

def k2_off15 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c7_i32 : BitVec 32 := 7#32
  let v76 : BitVec 32 := Scalar.addi v12 c7_i32
  let v77 : Index := Scalar.indexCast v76
  ![v77.toNat]
def k2_off16 (v78 : BitVec 32) : Fin 2 → Nat :=
  let c0_i32_41 : BitVec 32 := 0#32
  ![v78.toNat, 0]

def k2_off17 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c8_i32 : BitVec 32 := 8#32
  let v85 : BitVec 32 := Scalar.addi v12 c8_i32
  let v86 : Index := Scalar.indexCast v85
  ![v86.toNat]
def k2_off18 (v87 : BitVec 32) : Fin 2 → Nat :=
  let c0_i32_45 : BitVec 32 := 0#32
  ![v87.toNat, 0]

def k2_off19 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c9_i32 : BitVec 32 := 9#32
  let v94 : BitVec 32 := Scalar.addi v12 c9_i32
  let v95 : Index := Scalar.indexCast v94
  ![v95.toNat]
def k2_off20 (v96 : BitVec 32) : Fin 2 → Nat :=
  let c0_i32_49 : BitVec 32 := 0#32
  ![v96.toNat, 0]

def k2_off21 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c10_i32 : BitVec 32 := 10#32
  let v103 : BitVec 32 := Scalar.addi v12 c10_i32
  let v104 : Index := Scalar.indexCast v103
  ![v104.toNat]
def k2_off22 (v105 : BitVec 32) : Fin 2 → Nat :=
  let c0_i32_53 : BitVec 32 := 0#32
  ![v105.toNat, 0]

def k2_off23 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c11_i32 : BitVec 32 := 11#32
  let v112 : BitVec 32 := Scalar.addi v12 c11_i32
  let v113 : Index := Scalar.indexCast v112
  ![v113.toNat]
def k2_off24 (v114 : BitVec 32) : Fin 2 → Nat :=
  let c0_i32_57 : BitVec 32 := 0#32
  ![v114.toNat, 0]

def k2_off25 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c12_i32 : BitVec 32 := 12#32
  let v121 : BitVec 32 := Scalar.addi v12 c12_i32
  let v122 : Index := Scalar.indexCast v121
  ![v122.toNat]
def k2_off26 (v123 : BitVec 32) : Fin 2 → Nat :=
  let c0_i32_61 : BitVec 32 := 0#32
  ![v123.toNat, 0]

def k2_off27 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c13_i32 : BitVec 32 := 13#32
  let v130 : BitVec 32 := Scalar.addi v12 c13_i32
  let v131 : Index := Scalar.indexCast v130
  ![v131.toNat]
def k2_off28 (v132 : BitVec 32) : Fin 2 → Nat :=
  let c0_i32_65 : BitVec 32 := 0#32
  ![v132.toNat, 0]

def k2_off29 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c14_i32 : BitVec 32 := 14#32
  let v139 : BitVec 32 := Scalar.addi v12 c14_i32
  let v140 : Index := Scalar.indexCast v139
  ![v140.toNat]
def k2_off30 (v141 : BitVec 32) : Fin 2 → Nat :=
  let c0_i32_69 : BitVec 32 := 0#32
  ![v141.toNat, 0]

def k2_off31 (i : grid2.Coords) (k2_t1 : Fin k2_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c15_i32 : BitVec 32 := 15#32
  let v148 : BitVec 32 := Scalar.addi v12 c15_i32
  let v149 : Index := Scalar.indexCast v148
  ![v149.toNat]
def k2_off32 (v150 : BitVec 32) : Fin 2 → Nat :=
  let c0_i32_73 : BitVec 32 := 0#32
  ![v150.toNat, 0]

def k2_chk16 (v150 : BitVec 32) : Prop :=
  (∀ a, (k2_off32 v150) a + S1x256.size a ≤ S20000x256.size a)
instance k2_chk16.dec : ∀ (v150 : BitVec 32), Decidable (k2_chk16 v150) := fun v150 => decidable_of_iff' _ (Iff.of_eq (k2_chk16.eq_1 v150))
theorem k2_off32_inb : ∀ (v150 : BitVec 32) (k2_hw16 : k2_chk16 v150), ∀ a, (k2_off32 v150) a + S1x256.size a ≤ S20000x256.size a := fun v150 k2_hw16 => k2_hw16

def k2_off33 (v15 : BitVec 32) : Fin 2 → Nat :=
  let c0_i32_77 : BitVec 32 := 0#32
  ![v15.toNat, 0]

def k2_chk1 (v15 : BitVec 32) : Prop :=
  (∀ a, (k2_off2 v15) a + S1x256.size a ≤ S20000x256.size a) ∧
  (∀ a, (k2_off33 v15) a + S1x256.size a ≤ S20000x256.size a)
instance k2_chk1.dec : ∀ (v15 : BitVec 32), Decidable (k2_chk1 v15) := fun v15 => decidable_of_iff' _ (Iff.of_eq (k2_chk1.eq_1 v15))
theorem k2_off2_inb : ∀ (v15 : BitVec 32) (k2_hw1 : k2_chk1 v15), ∀ a, (k2_off2 v15) a + S1x256.size a ≤ S20000x256.size a := fun v15 k2_hw1 => k2_hw1.1
theorem k2_off33_inb : ∀ (v15 : BitVec 32) (k2_hw1 : k2_chk1 v15), ∀ a, (k2_off33 v15) a + S1x256.size a ≤ S20000x256.size a := fun v15 k2_hw1 => k2_hw1.2

def k2_off34 (v24 : BitVec 32) : Fin 2 → Nat :=
  let c0_i32_81 : BitVec 32 := 0#32
  ![v24.toNat, 0]

def k2_chk2 (v24 : BitVec 32) : Prop :=
  (∀ a, (k2_off4 v24) a + S1x256.size a ≤ S20000x256.size a) ∧
  (∀ a, (k2_off34 v24) a + S1x256.size a ≤ S20000x256.size a)
instance k2_chk2.dec : ∀ (v24 : BitVec 32), Decidable (k2_chk2 v24) := fun v24 => decidable_of_iff' _ (Iff.of_eq (k2_chk2.eq_1 v24))
theorem k2_off4_inb : ∀ (v24 : BitVec 32) (k2_hw2 : k2_chk2 v24), ∀ a, (k2_off4 v24) a + S1x256.size a ≤ S20000x256.size a := fun v24 k2_hw2 => k2_hw2.1
theorem k2_off34_inb : ∀ (v24 : BitVec 32) (k2_hw2 : k2_chk2 v24), ∀ a, (k2_off34 v24) a + S1x256.size a ≤ S20000x256.size a := fun v24 k2_hw2 => k2_hw2.2

def k2_off35 (v33 : BitVec 32) : Fin 2 → Nat :=
  let c0_i32_85 : BitVec 32 := 0#32
  ![v33.toNat, 0]

def k2_chk3 (v33 : BitVec 32) : Prop :=
  (∀ a, (k2_off6 v33) a + S1x256.size a ≤ S20000x256.size a) ∧
  (∀ a, (k2_off35 v33) a + S1x256.size a ≤ S20000x256.size a)
instance k2_chk3.dec : ∀ (v33 : BitVec 32), Decidable (k2_chk3 v33) := fun v33 => decidable_of_iff' _ (Iff.of_eq (k2_chk3.eq_1 v33))
theorem k2_off6_inb : ∀ (v33 : BitVec 32) (k2_hw3 : k2_chk3 v33), ∀ a, (k2_off6 v33) a + S1x256.size a ≤ S20000x256.size a := fun v33 k2_hw3 => k2_hw3.1
theorem k2_off35_inb : ∀ (v33 : BitVec 32) (k2_hw3 : k2_chk3 v33), ∀ a, (k2_off35 v33) a + S1x256.size a ≤ S20000x256.size a := fun v33 k2_hw3 => k2_hw3.2

def k2_off36 (v42 : BitVec 32) : Fin 2 → Nat :=
  let c0_i32_89 : BitVec 32 := 0#32
  ![v42.toNat, 0]

def k2_chk4 (v42 : BitVec 32) : Prop :=
  (∀ a, (k2_off8 v42) a + S1x256.size a ≤ S20000x256.size a) ∧
  (∀ a, (k2_off36 v42) a + S1x256.size a ≤ S20000x256.size a)
instance k2_chk4.dec : ∀ (v42 : BitVec 32), Decidable (k2_chk4 v42) := fun v42 => decidable_of_iff' _ (Iff.of_eq (k2_chk4.eq_1 v42))
theorem k2_off8_inb : ∀ (v42 : BitVec 32) (k2_hw4 : k2_chk4 v42), ∀ a, (k2_off8 v42) a + S1x256.size a ≤ S20000x256.size a := fun v42 k2_hw4 => k2_hw4.1
theorem k2_off36_inb : ∀ (v42 : BitVec 32) (k2_hw4 : k2_chk4 v42), ∀ a, (k2_off36 v42) a + S1x256.size a ≤ S20000x256.size a := fun v42 k2_hw4 => k2_hw4.2

def k2_off37 (v51 : BitVec 32) : Fin 2 → Nat :=
  let c0_i32_93 : BitVec 32 := 0#32
  ![v51.toNat, 0]

def k2_chk5 (v51 : BitVec 32) : Prop :=
  (∀ a, (k2_off10 v51) a + S1x256.size a ≤ S20000x256.size a) ∧
  (∀ a, (k2_off37 v51) a + S1x256.size a ≤ S20000x256.size a)
instance k2_chk5.dec : ∀ (v51 : BitVec 32), Decidable (k2_chk5 v51) := fun v51 => decidable_of_iff' _ (Iff.of_eq (k2_chk5.eq_1 v51))
theorem k2_off10_inb : ∀ (v51 : BitVec 32) (k2_hw5 : k2_chk5 v51), ∀ a, (k2_off10 v51) a + S1x256.size a ≤ S20000x256.size a := fun v51 k2_hw5 => k2_hw5.1
theorem k2_off37_inb : ∀ (v51 : BitVec 32) (k2_hw5 : k2_chk5 v51), ∀ a, (k2_off37 v51) a + S1x256.size a ≤ S20000x256.size a := fun v51 k2_hw5 => k2_hw5.2

def k2_off38 (v60 : BitVec 32) : Fin 2 → Nat :=
  let c0_i32_97 : BitVec 32 := 0#32
  ![v60.toNat, 0]

def k2_chk6 (v60 : BitVec 32) : Prop :=
  (∀ a, (k2_off12 v60) a + S1x256.size a ≤ S20000x256.size a) ∧
  (∀ a, (k2_off38 v60) a + S1x256.size a ≤ S20000x256.size a)
instance k2_chk6.dec : ∀ (v60 : BitVec 32), Decidable (k2_chk6 v60) := fun v60 => decidable_of_iff' _ (Iff.of_eq (k2_chk6.eq_1 v60))
theorem k2_off12_inb : ∀ (v60 : BitVec 32) (k2_hw6 : k2_chk6 v60), ∀ a, (k2_off12 v60) a + S1x256.size a ≤ S20000x256.size a := fun v60 k2_hw6 => k2_hw6.1
theorem k2_off38_inb : ∀ (v60 : BitVec 32) (k2_hw6 : k2_chk6 v60), ∀ a, (k2_off38 v60) a + S1x256.size a ≤ S20000x256.size a := fun v60 k2_hw6 => k2_hw6.2

def k2_off39 (v69 : BitVec 32) : Fin 2 → Nat :=
  let c0_i32_101 : BitVec 32 := 0#32
  ![v69.toNat, 0]

def k2_chk7 (v69 : BitVec 32) : Prop :=
  (∀ a, (k2_off14 v69) a + S1x256.size a ≤ S20000x256.size a) ∧
  (∀ a, (k2_off39 v69) a + S1x256.size a ≤ S20000x256.size a)
instance k2_chk7.dec : ∀ (v69 : BitVec 32), Decidable (k2_chk7 v69) := fun v69 => decidable_of_iff' _ (Iff.of_eq (k2_chk7.eq_1 v69))
theorem k2_off14_inb : ∀ (v69 : BitVec 32) (k2_hw7 : k2_chk7 v69), ∀ a, (k2_off14 v69) a + S1x256.size a ≤ S20000x256.size a := fun v69 k2_hw7 => k2_hw7.1
theorem k2_off39_inb : ∀ (v69 : BitVec 32) (k2_hw7 : k2_chk7 v69), ∀ a, (k2_off39 v69) a + S1x256.size a ≤ S20000x256.size a := fun v69 k2_hw7 => k2_hw7.2

def k2_off40 (v78 : BitVec 32) : Fin 2 → Nat :=
  let c0_i32_105 : BitVec 32 := 0#32
  ![v78.toNat, 0]

def k2_chk8 (v78 : BitVec 32) : Prop :=
  (∀ a, (k2_off16 v78) a + S1x256.size a ≤ S20000x256.size a) ∧
  (∀ a, (k2_off40 v78) a + S1x256.size a ≤ S20000x256.size a)
instance k2_chk8.dec : ∀ (v78 : BitVec 32), Decidable (k2_chk8 v78) := fun v78 => decidable_of_iff' _ (Iff.of_eq (k2_chk8.eq_1 v78))
theorem k2_off16_inb : ∀ (v78 : BitVec 32) (k2_hw8 : k2_chk8 v78), ∀ a, (k2_off16 v78) a + S1x256.size a ≤ S20000x256.size a := fun v78 k2_hw8 => k2_hw8.1
theorem k2_off40_inb : ∀ (v78 : BitVec 32) (k2_hw8 : k2_chk8 v78), ∀ a, (k2_off40 v78) a + S1x256.size a ≤ S20000x256.size a := fun v78 k2_hw8 => k2_hw8.2

def k2_off41 (v87 : BitVec 32) : Fin 2 → Nat :=
  let c0_i32_109 : BitVec 32 := 0#32
  ![v87.toNat, 0]

def k2_chk9 (v87 : BitVec 32) : Prop :=
  (∀ a, (k2_off18 v87) a + S1x256.size a ≤ S20000x256.size a) ∧
  (∀ a, (k2_off41 v87) a + S1x256.size a ≤ S20000x256.size a)
instance k2_chk9.dec : ∀ (v87 : BitVec 32), Decidable (k2_chk9 v87) := fun v87 => decidable_of_iff' _ (Iff.of_eq (k2_chk9.eq_1 v87))
theorem k2_off18_inb : ∀ (v87 : BitVec 32) (k2_hw9 : k2_chk9 v87), ∀ a, (k2_off18 v87) a + S1x256.size a ≤ S20000x256.size a := fun v87 k2_hw9 => k2_hw9.1
theorem k2_off41_inb : ∀ (v87 : BitVec 32) (k2_hw9 : k2_chk9 v87), ∀ a, (k2_off41 v87) a + S1x256.size a ≤ S20000x256.size a := fun v87 k2_hw9 => k2_hw9.2

def k2_off42 (v96 : BitVec 32) : Fin 2 → Nat :=
  let c0_i32_113 : BitVec 32 := 0#32
  ![v96.toNat, 0]

def k2_chk10 (v96 : BitVec 32) : Prop :=
  (∀ a, (k2_off20 v96) a + S1x256.size a ≤ S20000x256.size a) ∧
  (∀ a, (k2_off42 v96) a + S1x256.size a ≤ S20000x256.size a)
instance k2_chk10.dec : ∀ (v96 : BitVec 32), Decidable (k2_chk10 v96) := fun v96 => decidable_of_iff' _ (Iff.of_eq (k2_chk10.eq_1 v96))
theorem k2_off20_inb : ∀ (v96 : BitVec 32) (k2_hw10 : k2_chk10 v96), ∀ a, (k2_off20 v96) a + S1x256.size a ≤ S20000x256.size a := fun v96 k2_hw10 => k2_hw10.1
theorem k2_off42_inb : ∀ (v96 : BitVec 32) (k2_hw10 : k2_chk10 v96), ∀ a, (k2_off42 v96) a + S1x256.size a ≤ S20000x256.size a := fun v96 k2_hw10 => k2_hw10.2

def k2_off43 (v105 : BitVec 32) : Fin 2 → Nat :=
  let c0_i32_117 : BitVec 32 := 0#32
  ![v105.toNat, 0]

def k2_chk11 (v105 : BitVec 32) : Prop :=
  (∀ a, (k2_off22 v105) a + S1x256.size a ≤ S20000x256.size a) ∧
  (∀ a, (k2_off43 v105) a + S1x256.size a ≤ S20000x256.size a)
instance k2_chk11.dec : ∀ (v105 : BitVec 32), Decidable (k2_chk11 v105) := fun v105 => decidable_of_iff' _ (Iff.of_eq (k2_chk11.eq_1 v105))
theorem k2_off22_inb : ∀ (v105 : BitVec 32) (k2_hw11 : k2_chk11 v105), ∀ a, (k2_off22 v105) a + S1x256.size a ≤ S20000x256.size a := fun v105 k2_hw11 => k2_hw11.1
theorem k2_off43_inb : ∀ (v105 : BitVec 32) (k2_hw11 : k2_chk11 v105), ∀ a, (k2_off43 v105) a + S1x256.size a ≤ S20000x256.size a := fun v105 k2_hw11 => k2_hw11.2

def k2_off44 (v114 : BitVec 32) : Fin 2 → Nat :=
  let c0_i32_121 : BitVec 32 := 0#32
  ![v114.toNat, 0]

def k2_chk12 (v114 : BitVec 32) : Prop :=
  (∀ a, (k2_off24 v114) a + S1x256.size a ≤ S20000x256.size a) ∧
  (∀ a, (k2_off44 v114) a + S1x256.size a ≤ S20000x256.size a)
instance k2_chk12.dec : ∀ (v114 : BitVec 32), Decidable (k2_chk12 v114) := fun v114 => decidable_of_iff' _ (Iff.of_eq (k2_chk12.eq_1 v114))
theorem k2_off24_inb : ∀ (v114 : BitVec 32) (k2_hw12 : k2_chk12 v114), ∀ a, (k2_off24 v114) a + S1x256.size a ≤ S20000x256.size a := fun v114 k2_hw12 => k2_hw12.1
theorem k2_off44_inb : ∀ (v114 : BitVec 32) (k2_hw12 : k2_chk12 v114), ∀ a, (k2_off44 v114) a + S1x256.size a ≤ S20000x256.size a := fun v114 k2_hw12 => k2_hw12.2

def k2_off45 (v123 : BitVec 32) : Fin 2 → Nat :=
  let c0_i32_125 : BitVec 32 := 0#32
  ![v123.toNat, 0]

def k2_chk13 (v123 : BitVec 32) : Prop :=
  (∀ a, (k2_off26 v123) a + S1x256.size a ≤ S20000x256.size a) ∧
  (∀ a, (k2_off45 v123) a + S1x256.size a ≤ S20000x256.size a)
instance k2_chk13.dec : ∀ (v123 : BitVec 32), Decidable (k2_chk13 v123) := fun v123 => decidable_of_iff' _ (Iff.of_eq (k2_chk13.eq_1 v123))
theorem k2_off26_inb : ∀ (v123 : BitVec 32) (k2_hw13 : k2_chk13 v123), ∀ a, (k2_off26 v123) a + S1x256.size a ≤ S20000x256.size a := fun v123 k2_hw13 => k2_hw13.1
theorem k2_off45_inb : ∀ (v123 : BitVec 32) (k2_hw13 : k2_chk13 v123), ∀ a, (k2_off45 v123) a + S1x256.size a ≤ S20000x256.size a := fun v123 k2_hw13 => k2_hw13.2

def k2_off46 (v132 : BitVec 32) : Fin 2 → Nat :=
  let c0_i32_129 : BitVec 32 := 0#32
  ![v132.toNat, 0]

def k2_chk14 (v132 : BitVec 32) : Prop :=
  (∀ a, (k2_off28 v132) a + S1x256.size a ≤ S20000x256.size a) ∧
  (∀ a, (k2_off46 v132) a + S1x256.size a ≤ S20000x256.size a)
instance k2_chk14.dec : ∀ (v132 : BitVec 32), Decidable (k2_chk14 v132) := fun v132 => decidable_of_iff' _ (Iff.of_eq (k2_chk14.eq_1 v132))
theorem k2_off28_inb : ∀ (v132 : BitVec 32) (k2_hw14 : k2_chk14 v132), ∀ a, (k2_off28 v132) a + S1x256.size a ≤ S20000x256.size a := fun v132 k2_hw14 => k2_hw14.1
theorem k2_off46_inb : ∀ (v132 : BitVec 32) (k2_hw14 : k2_chk14 v132), ∀ a, (k2_off46 v132) a + S1x256.size a ≤ S20000x256.size a := fun v132 k2_hw14 => k2_hw14.2

def k2_off47 (v141 : BitVec 32) : Fin 2 → Nat :=
  let c0_i32_133 : BitVec 32 := 0#32
  ![v141.toNat, 0]

def k2_chk15 (v141 : BitVec 32) : Prop :=
  (∀ a, (k2_off30 v141) a + S1x256.size a ≤ S20000x256.size a) ∧
  (∀ a, (k2_off47 v141) a + S1x256.size a ≤ S20000x256.size a)
instance k2_chk15.dec : ∀ (v141 : BitVec 32), Decidable (k2_chk15 v141) := fun v141 => decidable_of_iff' _ (Iff.of_eq (k2_chk15.eq_1 v141))
theorem k2_off30_inb : ∀ (v141 : BitVec 32) (k2_hw15 : k2_chk15 v141), ∀ a, (k2_off30 v141) a + S1x256.size a ≤ S20000x256.size a := fun v141 k2_hw15 => k2_hw15.1
theorem k2_off47_inb : ∀ (v141 : BitVec 32) (k2_hw15 : k2_chk15 v141), ∀ a, (k2_off47 v141) a + S1x256.size a ≤ S20000x256.size a := fun v141 k2_hw15 => k2_hw15.2

def k2_mult1 (k2_t1 : Fin k2_t1_loop.trips) : BitVec 32 :=
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  v253
def k2_off48 (k2_t1 : Fin k2_t1_loop.trips) : Fin 2 → Nat :=
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  let v254 : BitVec 32 := v253
  let v256 : Index := Scalar.indexCast v254
  let c0_141 : Index := 0#32
  ![v256.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S20000x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S800x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S800x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

abbrev pre3 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

@[reducible] def k3_t1_loop : Scf.Loop 32 :=
  let c0_i32 : BitVec 32 := 0#32
  let c50_i32 : BitVec 32 := 50#32
  let v1 : BitVec 32 := Scalar.addi c0_i32 c50_i32
  let c1_i32 : BitVec 32 := 1#32
  ⟨c0_i32, v1, c1_i32⟩
def k3_off1 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c0_i32_8 : BitVec 32 := 0#32
  let v13 : BitVec 32 := Scalar.addi v12 c0_i32_8
  let v14 : Index := Scalar.indexCast v13
  ![v14.toNat]
def k3_off2 (v15 : BitVec 32) : Fin 2 → Nat :=
  let c0_i32_12 : BitVec 32 := 0#32
  ![v15.toNat, 0]

def k3_off3 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c1_i32_13 : BitVec 32 := 1#32
  let v22 : BitVec 32 := Scalar.addi v12 c1_i32_13
  let v23 : Index := Scalar.indexCast v22
  ![v23.toNat]
def k3_off4 (v24 : BitVec 32) : Fin 2 → Nat :=
  let c0_i32_17 : BitVec 32 := 0#32
  ![v24.toNat, 0]

def k3_off5 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c2_i32 : BitVec 32 := 2#32
  let v31 : BitVec 32 := Scalar.addi v12 c2_i32
  let v32 : Index := Scalar.indexCast v31
  ![v32.toNat]
def k3_off6 (v33 : BitVec 32) : Fin 2 → Nat :=
  let c0_i32_21 : BitVec 32 := 0#32
  ![v33.toNat, 0]

def k3_off7 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c3_i32 : BitVec 32 := 3#32
  let v40 : BitVec 32 := Scalar.addi v12 c3_i32
  let v41 : Index := Scalar.indexCast v40
  ![v41.toNat]
def k3_off8 (v42 : BitVec 32) : Fin 2 → Nat :=
  let c0_i32_25 : BitVec 32 := 0#32
  ![v42.toNat, 0]

def k3_off9 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c4_i32 : BitVec 32 := 4#32
  let v49 : BitVec 32 := Scalar.addi v12 c4_i32
  let v50 : Index := Scalar.indexCast v49
  ![v50.toNat]
def k3_off10 (v51 : BitVec 32) : Fin 2 → Nat :=
  let c0_i32_29 : BitVec 32 := 0#32
  ![v51.toNat, 0]

def k3_off11 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c5_i32 : BitVec 32 := 5#32
  let v58 : BitVec 32 := Scalar.addi v12 c5_i32
  let v59 : Index := Scalar.indexCast v58
  ![v59.toNat]
def k3_off12 (v60 : BitVec 32) : Fin 2 → Nat :=
  let c0_i32_33 : BitVec 32 := 0#32
  ![v60.toNat, 0]

def k3_off13 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c6_i32 : BitVec 32 := 6#32
  let v67 : BitVec 32 := Scalar.addi v12 c6_i32
  let v68 : Index := Scalar.indexCast v67
  ![v68.toNat]
def k3_off14 (v69 : BitVec 32) : Fin 2 → Nat :=
  let c0_i32_37 : BitVec 32 := 0#32
  ![v69.toNat, 0]

def k3_off15 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c7_i32 : BitVec 32 := 7#32
  let v76 : BitVec 32 := Scalar.addi v12 c7_i32
  let v77 : Index := Scalar.indexCast v76
  ![v77.toNat]
def k3_off16 (v78 : BitVec 32) : Fin 2 → Nat :=
  let c0_i32_41 : BitVec 32 := 0#32
  ![v78.toNat, 0]

def k3_off17 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c8_i32 : BitVec 32 := 8#32
  let v85 : BitVec 32 := Scalar.addi v12 c8_i32
  let v86 : Index := Scalar.indexCast v85
  ![v86.toNat]
def k3_off18 (v87 : BitVec 32) : Fin 2 → Nat :=
  let c0_i32_45 : BitVec 32 := 0#32
  ![v87.toNat, 0]

def k3_off19 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c9_i32 : BitVec 32 := 9#32
  let v94 : BitVec 32 := Scalar.addi v12 c9_i32
  let v95 : Index := Scalar.indexCast v94
  ![v95.toNat]
def k3_off20 (v96 : BitVec 32) : Fin 2 → Nat :=
  let c0_i32_49 : BitVec 32 := 0#32
  ![v96.toNat, 0]

def k3_off21 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c10_i32 : BitVec 32 := 10#32
  let v103 : BitVec 32 := Scalar.addi v12 c10_i32
  let v104 : Index := Scalar.indexCast v103
  ![v104.toNat]
def k3_off22 (v105 : BitVec 32) : Fin 2 → Nat :=
  let c0_i32_53 : BitVec 32 := 0#32
  ![v105.toNat, 0]

def k3_off23 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c11_i32 : BitVec 32 := 11#32
  let v112 : BitVec 32 := Scalar.addi v12 c11_i32
  let v113 : Index := Scalar.indexCast v112
  ![v113.toNat]
def k3_off24 (v114 : BitVec 32) : Fin 2 → Nat :=
  let c0_i32_57 : BitVec 32 := 0#32
  ![v114.toNat, 0]

def k3_off25 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c12_i32 : BitVec 32 := 12#32
  let v121 : BitVec 32 := Scalar.addi v12 c12_i32
  let v122 : Index := Scalar.indexCast v121
  ![v122.toNat]
def k3_off26 (v123 : BitVec 32) : Fin 2 → Nat :=
  let c0_i32_61 : BitVec 32 := 0#32
  ![v123.toNat, 0]

def k3_off27 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c13_i32 : BitVec 32 := 13#32
  let v130 : BitVec 32 := Scalar.addi v12 c13_i32
  let v131 : Index := Scalar.indexCast v130
  ![v131.toNat]
def k3_off28 (v132 : BitVec 32) : Fin 2 → Nat :=
  let c0_i32_65 : BitVec 32 := 0#32
  ![v132.toNat, 0]

def k3_off29 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c14_i32 : BitVec 32 := 14#32
  let v139 : BitVec 32 := Scalar.addi v12 c14_i32
  let v140 : Index := Scalar.indexCast v139
  ![v140.toNat]
def k3_off30 (v141 : BitVec 32) : Fin 2 → Nat :=
  let c0_i32_69 : BitVec 32 := 0#32
  ![v141.toNat, 0]

def k3_off31 (i : grid3.Coords) (k3_t1 : Fin k3_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c15_i32 : BitVec 32 := 15#32
  let v148 : BitVec 32 := Scalar.addi v12 c15_i32
  let v149 : Index := Scalar.indexCast v148
  ![v149.toNat]
def k3_off32 (v150 : BitVec 32) : Fin 2 → Nat :=
  let c0_i32_73 : BitVec 32 := 0#32
  ![v150.toNat, 0]

def k3_chk16 (v150 : BitVec 32) : Prop :=
  (∀ a, (k3_off32 v150) a + S1x256.size a ≤ S20000x256.size a)
instance k3_chk16.dec : ∀ (v150 : BitVec 32), Decidable (k3_chk16 v150) := fun v150 => decidable_of_iff' _ (Iff.of_eq (k3_chk16.eq_1 v150))
theorem k3_off32_inb : ∀ (v150 : BitVec 32) (k3_hw16 : k3_chk16 v150), ∀ a, (k3_off32 v150) a + S1x256.size a ≤ S20000x256.size a := fun v150 k3_hw16 => k3_hw16

def k3_off33 (v15 : BitVec 32) : Fin 2 → Nat :=
  let c0_i32_77 : BitVec 32 := 0#32
  ![v15.toNat, 0]

def k3_chk1 (v15 : BitVec 32) : Prop :=
  (∀ a, (k3_off2 v15) a + S1x256.size a ≤ S20000x256.size a) ∧
  (∀ a, (k3_off33 v15) a + S1x256.size a ≤ S20000x256.size a)
instance k3_chk1.dec : ∀ (v15 : BitVec 32), Decidable (k3_chk1 v15) := fun v15 => decidable_of_iff' _ (Iff.of_eq (k3_chk1.eq_1 v15))
theorem k3_off2_inb : ∀ (v15 : BitVec 32) (k3_hw1 : k3_chk1 v15), ∀ a, (k3_off2 v15) a + S1x256.size a ≤ S20000x256.size a := fun v15 k3_hw1 => k3_hw1.1
theorem k3_off33_inb : ∀ (v15 : BitVec 32) (k3_hw1 : k3_chk1 v15), ∀ a, (k3_off33 v15) a + S1x256.size a ≤ S20000x256.size a := fun v15 k3_hw1 => k3_hw1.2

def k3_off34 (v24 : BitVec 32) : Fin 2 → Nat :=
  let c0_i32_81 : BitVec 32 := 0#32
  ![v24.toNat, 0]

def k3_chk2 (v24 : BitVec 32) : Prop :=
  (∀ a, (k3_off4 v24) a + S1x256.size a ≤ S20000x256.size a) ∧
  (∀ a, (k3_off34 v24) a + S1x256.size a ≤ S20000x256.size a)
instance k3_chk2.dec : ∀ (v24 : BitVec 32), Decidable (k3_chk2 v24) := fun v24 => decidable_of_iff' _ (Iff.of_eq (k3_chk2.eq_1 v24))
theorem k3_off4_inb : ∀ (v24 : BitVec 32) (k3_hw2 : k3_chk2 v24), ∀ a, (k3_off4 v24) a + S1x256.size a ≤ S20000x256.size a := fun v24 k3_hw2 => k3_hw2.1
theorem k3_off34_inb : ∀ (v24 : BitVec 32) (k3_hw2 : k3_chk2 v24), ∀ a, (k3_off34 v24) a + S1x256.size a ≤ S20000x256.size a := fun v24 k3_hw2 => k3_hw2.2

def k3_off35 (v33 : BitVec 32) : Fin 2 → Nat :=
  let c0_i32_85 : BitVec 32 := 0#32
  ![v33.toNat, 0]

def k3_chk3 (v33 : BitVec 32) : Prop :=
  (∀ a, (k3_off6 v33) a + S1x256.size a ≤ S20000x256.size a) ∧
  (∀ a, (k3_off35 v33) a + S1x256.size a ≤ S20000x256.size a)
instance k3_chk3.dec : ∀ (v33 : BitVec 32), Decidable (k3_chk3 v33) := fun v33 => decidable_of_iff' _ (Iff.of_eq (k3_chk3.eq_1 v33))
theorem k3_off6_inb : ∀ (v33 : BitVec 32) (k3_hw3 : k3_chk3 v33), ∀ a, (k3_off6 v33) a + S1x256.size a ≤ S20000x256.size a := fun v33 k3_hw3 => k3_hw3.1
theorem k3_off35_inb : ∀ (v33 : BitVec 32) (k3_hw3 : k3_chk3 v33), ∀ a, (k3_off35 v33) a + S1x256.size a ≤ S20000x256.size a := fun v33 k3_hw3 => k3_hw3.2

def k3_off36 (v42 : BitVec 32) : Fin 2 → Nat :=
  let c0_i32_89 : BitVec 32 := 0#32
  ![v42.toNat, 0]

def k3_chk4 (v42 : BitVec 32) : Prop :=
  (∀ a, (k3_off8 v42) a + S1x256.size a ≤ S20000x256.size a) ∧
  (∀ a, (k3_off36 v42) a + S1x256.size a ≤ S20000x256.size a)
instance k3_chk4.dec : ∀ (v42 : BitVec 32), Decidable (k3_chk4 v42) := fun v42 => decidable_of_iff' _ (Iff.of_eq (k3_chk4.eq_1 v42))
theorem k3_off8_inb : ∀ (v42 : BitVec 32) (k3_hw4 : k3_chk4 v42), ∀ a, (k3_off8 v42) a + S1x256.size a ≤ S20000x256.size a := fun v42 k3_hw4 => k3_hw4.1
theorem k3_off36_inb : ∀ (v42 : BitVec 32) (k3_hw4 : k3_chk4 v42), ∀ a, (k3_off36 v42) a + S1x256.size a ≤ S20000x256.size a := fun v42 k3_hw4 => k3_hw4.2

def k3_off37 (v51 : BitVec 32) : Fin 2 → Nat :=
  let c0_i32_93 : BitVec 32 := 0#32
  ![v51.toNat, 0]

def k3_chk5 (v51 : BitVec 32) : Prop :=
  (∀ a, (k3_off10 v51) a + S1x256.size a ≤ S20000x256.size a) ∧
  (∀ a, (k3_off37 v51) a + S1x256.size a ≤ S20000x256.size a)
instance k3_chk5.dec : ∀ (v51 : BitVec 32), Decidable (k3_chk5 v51) := fun v51 => decidable_of_iff' _ (Iff.of_eq (k3_chk5.eq_1 v51))
theorem k3_off10_inb : ∀ (v51 : BitVec 32) (k3_hw5 : k3_chk5 v51), ∀ a, (k3_off10 v51) a + S1x256.size a ≤ S20000x256.size a := fun v51 k3_hw5 => k3_hw5.1
theorem k3_off37_inb : ∀ (v51 : BitVec 32) (k3_hw5 : k3_chk5 v51), ∀ a, (k3_off37 v51) a + S1x256.size a ≤ S20000x256.size a := fun v51 k3_hw5 => k3_hw5.2

def k3_off38 (v60 : BitVec 32) : Fin 2 → Nat :=
  let c0_i32_97 : BitVec 32 := 0#32
  ![v60.toNat, 0]

def k3_chk6 (v60 : BitVec 32) : Prop :=
  (∀ a, (k3_off12 v60) a + S1x256.size a ≤ S20000x256.size a) ∧
  (∀ a, (k3_off38 v60) a + S1x256.size a ≤ S20000x256.size a)
instance k3_chk6.dec : ∀ (v60 : BitVec 32), Decidable (k3_chk6 v60) := fun v60 => decidable_of_iff' _ (Iff.of_eq (k3_chk6.eq_1 v60))
theorem k3_off12_inb : ∀ (v60 : BitVec 32) (k3_hw6 : k3_chk6 v60), ∀ a, (k3_off12 v60) a + S1x256.size a ≤ S20000x256.size a := fun v60 k3_hw6 => k3_hw6.1
theorem k3_off38_inb : ∀ (v60 : BitVec 32) (k3_hw6 : k3_chk6 v60), ∀ a, (k3_off38 v60) a + S1x256.size a ≤ S20000x256.size a := fun v60 k3_hw6 => k3_hw6.2

def k3_off39 (v69 : BitVec 32) : Fin 2 → Nat :=
  let c0_i32_101 : BitVec 32 := 0#32
  ![v69.toNat, 0]

def k3_chk7 (v69 : BitVec 32) : Prop :=
  (∀ a, (k3_off14 v69) a + S1x256.size a ≤ S20000x256.size a) ∧
  (∀ a, (k3_off39 v69) a + S1x256.size a ≤ S20000x256.size a)
instance k3_chk7.dec : ∀ (v69 : BitVec 32), Decidable (k3_chk7 v69) := fun v69 => decidable_of_iff' _ (Iff.of_eq (k3_chk7.eq_1 v69))
theorem k3_off14_inb : ∀ (v69 : BitVec 32) (k3_hw7 : k3_chk7 v69), ∀ a, (k3_off14 v69) a + S1x256.size a ≤ S20000x256.size a := fun v69 k3_hw7 => k3_hw7.1
theorem k3_off39_inb : ∀ (v69 : BitVec 32) (k3_hw7 : k3_chk7 v69), ∀ a, (k3_off39 v69) a + S1x256.size a ≤ S20000x256.size a := fun v69 k3_hw7 => k3_hw7.2

def k3_off40 (v78 : BitVec 32) : Fin 2 → Nat :=
  let c0_i32_105 : BitVec 32 := 0#32
  ![v78.toNat, 0]

def k3_chk8 (v78 : BitVec 32) : Prop :=
  (∀ a, (k3_off16 v78) a + S1x256.size a ≤ S20000x256.size a) ∧
  (∀ a, (k3_off40 v78) a + S1x256.size a ≤ S20000x256.size a)
instance k3_chk8.dec : ∀ (v78 : BitVec 32), Decidable (k3_chk8 v78) := fun v78 => decidable_of_iff' _ (Iff.of_eq (k3_chk8.eq_1 v78))
theorem k3_off16_inb : ∀ (v78 : BitVec 32) (k3_hw8 : k3_chk8 v78), ∀ a, (k3_off16 v78) a + S1x256.size a ≤ S20000x256.size a := fun v78 k3_hw8 => k3_hw8.1
theorem k3_off40_inb : ∀ (v78 : BitVec 32) (k3_hw8 : k3_chk8 v78), ∀ a, (k3_off40 v78) a + S1x256.size a ≤ S20000x256.size a := fun v78 k3_hw8 => k3_hw8.2

def k3_off41 (v87 : BitVec 32) : Fin 2 → Nat :=
  let c0_i32_109 : BitVec 32 := 0#32
  ![v87.toNat, 0]

def k3_chk9 (v87 : BitVec 32) : Prop :=
  (∀ a, (k3_off18 v87) a + S1x256.size a ≤ S20000x256.size a) ∧
  (∀ a, (k3_off41 v87) a + S1x256.size a ≤ S20000x256.size a)
instance k3_chk9.dec : ∀ (v87 : BitVec 32), Decidable (k3_chk9 v87) := fun v87 => decidable_of_iff' _ (Iff.of_eq (k3_chk9.eq_1 v87))
theorem k3_off18_inb : ∀ (v87 : BitVec 32) (k3_hw9 : k3_chk9 v87), ∀ a, (k3_off18 v87) a + S1x256.size a ≤ S20000x256.size a := fun v87 k3_hw9 => k3_hw9.1
theorem k3_off41_inb : ∀ (v87 : BitVec 32) (k3_hw9 : k3_chk9 v87), ∀ a, (k3_off41 v87) a + S1x256.size a ≤ S20000x256.size a := fun v87 k3_hw9 => k3_hw9.2

def k3_off42 (v96 : BitVec 32) : Fin 2 → Nat :=
  let c0_i32_113 : BitVec 32 := 0#32
  ![v96.toNat, 0]

def k3_chk10 (v96 : BitVec 32) : Prop :=
  (∀ a, (k3_off20 v96) a + S1x256.size a ≤ S20000x256.size a) ∧
  (∀ a, (k3_off42 v96) a + S1x256.size a ≤ S20000x256.size a)
instance k3_chk10.dec : ∀ (v96 : BitVec 32), Decidable (k3_chk10 v96) := fun v96 => decidable_of_iff' _ (Iff.of_eq (k3_chk10.eq_1 v96))
theorem k3_off20_inb : ∀ (v96 : BitVec 32) (k3_hw10 : k3_chk10 v96), ∀ a, (k3_off20 v96) a + S1x256.size a ≤ S20000x256.size a := fun v96 k3_hw10 => k3_hw10.1
theorem k3_off42_inb : ∀ (v96 : BitVec 32) (k3_hw10 : k3_chk10 v96), ∀ a, (k3_off42 v96) a + S1x256.size a ≤ S20000x256.size a := fun v96 k3_hw10 => k3_hw10.2

def k3_off43 (v105 : BitVec 32) : Fin 2 → Nat :=
  let c0_i32_117 : BitVec 32 := 0#32
  ![v105.toNat, 0]

def k3_chk11 (v105 : BitVec 32) : Prop :=
  (∀ a, (k3_off22 v105) a + S1x256.size a ≤ S20000x256.size a) ∧
  (∀ a, (k3_off43 v105) a + S1x256.size a ≤ S20000x256.size a)
instance k3_chk11.dec : ∀ (v105 : BitVec 32), Decidable (k3_chk11 v105) := fun v105 => decidable_of_iff' _ (Iff.of_eq (k3_chk11.eq_1 v105))
theorem k3_off22_inb : ∀ (v105 : BitVec 32) (k3_hw11 : k3_chk11 v105), ∀ a, (k3_off22 v105) a + S1x256.size a ≤ S20000x256.size a := fun v105 k3_hw11 => k3_hw11.1
theorem k3_off43_inb : ∀ (v105 : BitVec 32) (k3_hw11 : k3_chk11 v105), ∀ a, (k3_off43 v105) a + S1x256.size a ≤ S20000x256.size a := fun v105 k3_hw11 => k3_hw11.2

def k3_off44 (v114 : BitVec 32) : Fin 2 → Nat :=
  let c0_i32_121 : BitVec 32 := 0#32
  ![v114.toNat, 0]

def k3_chk12 (v114 : BitVec 32) : Prop :=
  (∀ a, (k3_off24 v114) a + S1x256.size a ≤ S20000x256.size a) ∧
  (∀ a, (k3_off44 v114) a + S1x256.size a ≤ S20000x256.size a)
instance k3_chk12.dec : ∀ (v114 : BitVec 32), Decidable (k3_chk12 v114) := fun v114 => decidable_of_iff' _ (Iff.of_eq (k3_chk12.eq_1 v114))
theorem k3_off24_inb : ∀ (v114 : BitVec 32) (k3_hw12 : k3_chk12 v114), ∀ a, (k3_off24 v114) a + S1x256.size a ≤ S20000x256.size a := fun v114 k3_hw12 => k3_hw12.1
theorem k3_off44_inb : ∀ (v114 : BitVec 32) (k3_hw12 : k3_chk12 v114), ∀ a, (k3_off44 v114) a + S1x256.size a ≤ S20000x256.size a := fun v114 k3_hw12 => k3_hw12.2

def k3_off45 (v123 : BitVec 32) : Fin 2 → Nat :=
  let c0_i32_125 : BitVec 32 := 0#32
  ![v123.toNat, 0]

def k3_chk13 (v123 : BitVec 32) : Prop :=
  (∀ a, (k3_off26 v123) a + S1x256.size a ≤ S20000x256.size a) ∧
  (∀ a, (k3_off45 v123) a + S1x256.size a ≤ S20000x256.size a)
instance k3_chk13.dec : ∀ (v123 : BitVec 32), Decidable (k3_chk13 v123) := fun v123 => decidable_of_iff' _ (Iff.of_eq (k3_chk13.eq_1 v123))
theorem k3_off26_inb : ∀ (v123 : BitVec 32) (k3_hw13 : k3_chk13 v123), ∀ a, (k3_off26 v123) a + S1x256.size a ≤ S20000x256.size a := fun v123 k3_hw13 => k3_hw13.1
theorem k3_off45_inb : ∀ (v123 : BitVec 32) (k3_hw13 : k3_chk13 v123), ∀ a, (k3_off45 v123) a + S1x256.size a ≤ S20000x256.size a := fun v123 k3_hw13 => k3_hw13.2

def k3_off46 (v132 : BitVec 32) : Fin 2 → Nat :=
  let c0_i32_129 : BitVec 32 := 0#32
  ![v132.toNat, 0]

def k3_chk14 (v132 : BitVec 32) : Prop :=
  (∀ a, (k3_off28 v132) a + S1x256.size a ≤ S20000x256.size a) ∧
  (∀ a, (k3_off46 v132) a + S1x256.size a ≤ S20000x256.size a)
instance k3_chk14.dec : ∀ (v132 : BitVec 32), Decidable (k3_chk14 v132) := fun v132 => decidable_of_iff' _ (Iff.of_eq (k3_chk14.eq_1 v132))
theorem k3_off28_inb : ∀ (v132 : BitVec 32) (k3_hw14 : k3_chk14 v132), ∀ a, (k3_off28 v132) a + S1x256.size a ≤ S20000x256.size a := fun v132 k3_hw14 => k3_hw14.1
theorem k3_off46_inb : ∀ (v132 : BitVec 32) (k3_hw14 : k3_chk14 v132), ∀ a, (k3_off46 v132) a + S1x256.size a ≤ S20000x256.size a := fun v132 k3_hw14 => k3_hw14.2

def k3_off47 (v141 : BitVec 32) : Fin 2 → Nat :=
  let c0_i32_133 : BitVec 32 := 0#32
  ![v141.toNat, 0]

def k3_chk15 (v141 : BitVec 32) : Prop :=
  (∀ a, (k3_off30 v141) a + S1x256.size a ≤ S20000x256.size a) ∧
  (∀ a, (k3_off47 v141) a + S1x256.size a ≤ S20000x256.size a)
instance k3_chk15.dec : ∀ (v141 : BitVec 32), Decidable (k3_chk15 v141) := fun v141 => decidable_of_iff' _ (Iff.of_eq (k3_chk15.eq_1 v141))
theorem k3_off30_inb : ∀ (v141 : BitVec 32) (k3_hw15 : k3_chk15 v141), ∀ a, (k3_off30 v141) a + S1x256.size a ≤ S20000x256.size a := fun v141 k3_hw15 => k3_hw15.1
theorem k3_off47_inb : ∀ (v141 : BitVec 32) (k3_hw15 : k3_chk15 v141), ∀ a, (k3_off47 v141) a + S1x256.size a ≤ S20000x256.size a := fun v141 k3_hw15 => k3_hw15.2

def k3_mult1 (k3_t1 : Fin k3_t1_loop.trips) : BitVec 32 :=
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  v253
def k3_off48 (k3_t1 : Fin k3_t1_loop.trips) : Fin 2 → Nat :=
  let c0_i32_7 : BitVec 32 := 0#32
  let c0_i32 : BitVec 32 := 0#32
  let c1_i32 : BitVec 32 := 1#32
  let arg7 : BitVec 32 := Scf.iv c0_i32 c1_i32 k3_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  let v254 : BitVec 32 := v253
  let v256 : Index := Scalar.indexCast v254
  let c0_141 : Index := 0#32
  ![v256.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S20000x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S800x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S800x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

abbrev pre4 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

@[reducible] def k4_t1_loop : Scf.Loop 32 :=
  let c0_i32 : BitVec 32 := 0#32
  let c50_i32 : BitVec 32 := 50#32
  let v1 : BitVec 32 := Scalar.addi c0_i32 c50_i32
  let c1_i32 : BitVec 32 := 1#32
  ⟨c0_i32, v1, c1_i32⟩
def k4_off1 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c0_i32_8 : BitVec 32 := 0#32
  let v13 : BitVec 32 := Scalar.addi v12 c0_i32_8
  let v14 : Index := Scalar.indexCast v13
  ![v14.toNat]
def k4_off2 (v15 : BitVec 32) : Fin 2 → Nat :=
  let c0_i32_12 : BitVec 32 := 0#32
  ![v15.toNat, 0]

def k4_off3 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c1_i32_13 : BitVec 32 := 1#32
  let v22 : BitVec 32 := Scalar.addi v12 c1_i32_13
  let v23 : Index := Scalar.indexCast v22
  ![v23.toNat]
def k4_off4 (v24 : BitVec 32) : Fin 2 → Nat :=
  let c0_i32_17 : BitVec 32 := 0#32
  ![v24.toNat, 0]

def k4_off5 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c2_i32 : BitVec 32 := 2#32
  let v31 : BitVec 32 := Scalar.addi v12 c2_i32
  let v32 : Index := Scalar.indexCast v31
  ![v32.toNat]
def k4_off6 (v33 : BitVec 32) : Fin 2 → Nat :=
  let c0_i32_21 : BitVec 32 := 0#32
  ![v33.toNat, 0]

def k4_off7 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c3_i32 : BitVec 32 := 3#32
  let v40 : BitVec 32 := Scalar.addi v12 c3_i32
  let v41 : Index := Scalar.indexCast v40
  ![v41.toNat]
def k4_off8 (v42 : BitVec 32) : Fin 2 → Nat :=
  let c0_i32_25 : BitVec 32 := 0#32
  ![v42.toNat, 0]

def k4_off9 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c4_i32 : BitVec 32 := 4#32
  let v49 : BitVec 32 := Scalar.addi v12 c4_i32
  let v50 : Index := Scalar.indexCast v49
  ![v50.toNat]
def k4_off10 (v51 : BitVec 32) : Fin 2 → Nat :=
  let c0_i32_29 : BitVec 32 := 0#32
  ![v51.toNat, 0]

def k4_off11 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c5_i32 : BitVec 32 := 5#32
  let v58 : BitVec 32 := Scalar.addi v12 c5_i32
  let v59 : Index := Scalar.indexCast v58
  ![v59.toNat]
def k4_off12 (v60 : BitVec 32) : Fin 2 → Nat :=
  let c0_i32_33 : BitVec 32 := 0#32
  ![v60.toNat, 0]

def k4_off13 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c6_i32 : BitVec 32 := 6#32
  let v67 : BitVec 32 := Scalar.addi v12 c6_i32
  let v68 : Index := Scalar.indexCast v67
  ![v68.toNat]
def k4_off14 (v69 : BitVec 32) : Fin 2 → Nat :=
  let c0_i32_37 : BitVec 32 := 0#32
  ![v69.toNat, 0]

def k4_off15 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c7_i32 : BitVec 32 := 7#32
  let v76 : BitVec 32 := Scalar.addi v12 c7_i32
  let v77 : Index := Scalar.indexCast v76
  ![v77.toNat]
def k4_off16 (v78 : BitVec 32) : Fin 2 → Nat :=
  let c0_i32_41 : BitVec 32 := 0#32
  ![v78.toNat, 0]

def k4_off17 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c8_i32 : BitVec 32 := 8#32
  let v85 : BitVec 32 := Scalar.addi v12 c8_i32
  let v86 : Index := Scalar.indexCast v85
  ![v86.toNat]
def k4_off18 (v87 : BitVec 32) : Fin 2 → Nat :=
  let c0_i32_45 : BitVec 32 := 0#32
  ![v87.toNat, 0]

def k4_off19 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c9_i32 : BitVec 32 := 9#32
  let v94 : BitVec 32 := Scalar.addi v12 c9_i32
  let v95 : Index := Scalar.indexCast v94
  ![v95.toNat]
def k4_off20 (v96 : BitVec 32) : Fin 2 → Nat :=
  let c0_i32_49 : BitVec 32 := 0#32
  ![v96.toNat, 0]

def k4_off21 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c10_i32 : BitVec 32 := 10#32
  let v103 : BitVec 32 := Scalar.addi v12 c10_i32
  let v104 : Index := Scalar.indexCast v103
  ![v104.toNat]
def k4_off22 (v105 : BitVec 32) : Fin 2 → Nat :=
  let c0_i32_53 : BitVec 32 := 0#32
  ![v105.toNat, 0]

def k4_off23 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c11_i32 : BitVec 32 := 11#32
  let v112 : BitVec 32 := Scalar.addi v12 c11_i32
  let v113 : Index := Scalar.indexCast v112
  ![v113.toNat]
def k4_off24 (v114 : BitVec 32) : Fin 2 → Nat :=
  let c0_i32_57 : BitVec 32 := 0#32
  ![v114.toNat, 0]

def k4_off25 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c12_i32 : BitVec 32 := 12#32
  let v121 : BitVec 32 := Scalar.addi v12 c12_i32
  let v122 : Index := Scalar.indexCast v121
  ![v122.toNat]
def k4_off26 (v123 : BitVec 32) : Fin 2 → Nat :=
  let c0_i32_61 : BitVec 32 := 0#32
  ![v123.toNat, 0]

def k4_off27 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c13_i32 : BitVec 32 := 13#32
  let v130 : BitVec 32 := Scalar.addi v12 c13_i32
  let v131 : Index := Scalar.indexCast v130
  ![v131.toNat]
def k4_off28 (v132 : BitVec 32) : Fin 2 → Nat :=
  let c0_i32_65 : BitVec 32 := 0#32
  ![v132.toNat, 0]

def k4_off29 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c14_i32 : BitVec 32 := 14#32
  let v139 : BitVec 32 := Scalar.addi v12 c14_i32
  let v140 : Index := Scalar.indexCast v139
  ![v140.toNat]
def k4_off30 (v141 : BitVec 32) : Fin 2 → Nat :=
  let c0_i32_69 : BitVec 32 := 0#32
  ![v141.toNat, 0]

def k4_off31 (i : grid4.Coords) (k4_t1 : Fin k4_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c15_i32 : BitVec 32 := 15#32
  let v148 : BitVec 32 := Scalar.addi v12 c15_i32
  let v149 : Index := Scalar.indexCast v148
  ![v149.toNat]
def k4_off32 (v150 : BitVec 32) : Fin 2 → Nat :=
  let c0_i32_73 : BitVec 32 := 0#32
  ![v150.toNat, 0]

def k4_chk16 (v150 : BitVec 32) : Prop :=
  (∀ a, (k4_off32 v150) a + S1x256.size a ≤ S20000x256.size a)
instance k4_chk16.dec : ∀ (v150 : BitVec 32), Decidable (k4_chk16 v150) := fun v150 => decidable_of_iff' _ (Iff.of_eq (k4_chk16.eq_1 v150))
theorem k4_off32_inb : ∀ (v150 : BitVec 32) (k4_hw16 : k4_chk16 v150), ∀ a, (k4_off32 v150) a + S1x256.size a ≤ S20000x256.size a := fun v150 k4_hw16 => k4_hw16

def k4_off33 (v15 : BitVec 32) : Fin 2 → Nat :=
  let c0_i32_77 : BitVec 32 := 0#32
  ![v15.toNat, 0]

def k4_chk1 (v15 : BitVec 32) : Prop :=
  (∀ a, (k4_off2 v15) a + S1x256.size a ≤ S20000x256.size a) ∧
  (∀ a, (k4_off33 v15) a + S1x256.size a ≤ S20000x256.size a)
instance k4_chk1.dec : ∀ (v15 : BitVec 32), Decidable (k4_chk1 v15) := fun v15 => decidable_of_iff' _ (Iff.of_eq (k4_chk1.eq_1 v15))
theorem k4_off2_inb : ∀ (v15 : BitVec 32) (k4_hw1 : k4_chk1 v15), ∀ a, (k4_off2 v15) a + S1x256.size a ≤ S20000x256.size a := fun v15 k4_hw1 => k4_hw1.1
theorem k4_off33_inb : ∀ (v15 : BitVec 32) (k4_hw1 : k4_chk1 v15), ∀ a, (k4_off33 v15) a + S1x256.size a ≤ S20000x256.size a := fun v15 k4_hw1 => k4_hw1.2

def k4_off34 (v24 : BitVec 32) : Fin 2 → Nat :=
  let c0_i32_81 : BitVec 32 := 0#32
  ![v24.toNat, 0]

def k4_chk2 (v24 : BitVec 32) : Prop :=
  (∀ a, (k4_off4 v24) a + S1x256.size a ≤ S20000x256.size a) ∧
  (∀ a, (k4_off34 v24) a + S1x256.size a ≤ S20000x256.size a)
instance k4_chk2.dec : ∀ (v24 : BitVec 32), Decidable (k4_chk2 v24) := fun v24 => decidable_of_iff' _ (Iff.of_eq (k4_chk2.eq_1 v24))
theorem k4_off4_inb : ∀ (v24 : BitVec 32) (k4_hw2 : k4_chk2 v24), ∀ a, (k4_off4 v24) a + S1x256.size a ≤ S20000x256.size a := fun v24 k4_hw2 => k4_hw2.1
theorem k4_off34_inb : ∀ (v24 : BitVec 32) (k4_hw2 : k4_chk2 v24), ∀ a, (k4_off34 v24) a + S1x256.size a ≤ S20000x256.size a := fun v24 k4_hw2 => k4_hw2.2

def k4_off35 (v33 : BitVec 32) : Fin 2 → Nat :=
  let c0_i32_85 : BitVec 32 := 0#32
  ![v33.toNat, 0]

def k4_chk3 (v33 : BitVec 32) : Prop :=
  (∀ a, (k4_off6 v33) a + S1x256.size a ≤ S20000x256.size a) ∧
  (∀ a, (k4_off35 v33) a + S1x256.size a ≤ S20000x256.size a)
instance k4_chk3.dec : ∀ (v33 : BitVec 32), Decidable (k4_chk3 v33) := fun v33 => decidable_of_iff' _ (Iff.of_eq (k4_chk3.eq_1 v33))
theorem k4_off6_inb : ∀ (v33 : BitVec 32) (k4_hw3 : k4_chk3 v33), ∀ a, (k4_off6 v33) a + S1x256.size a ≤ S20000x256.size a := fun v33 k4_hw3 => k4_hw3.1
theorem k4_off35_inb : ∀ (v33 : BitVec 32) (k4_hw3 : k4_chk3 v33), ∀ a, (k4_off35 v33) a + S1x256.size a ≤ S20000x256.size a := fun v33 k4_hw3 => k4_hw3.2

def k4_off36 (v42 : BitVec 32) : Fin 2 → Nat :=
  let c0_i32_89 : BitVec 32 := 0#32
  ![v42.toNat, 0]

def k4_chk4 (v42 : BitVec 32) : Prop :=
  (∀ a, (k4_off8 v42) a + S1x256.size a ≤ S20000x256.size a) ∧
  (∀ a, (k4_off36 v42) a + S1x256.size a ≤ S20000x256.size a)
instance k4_chk4.dec : ∀ (v42 : BitVec 32), Decidable (k4_chk4 v42) := fun v42 => decidable_of_iff' _ (Iff.of_eq (k4_chk4.eq_1 v42))
theorem k4_off8_inb : ∀ (v42 : BitVec 32) (k4_hw4 : k4_chk4 v42), ∀ a, (k4_off8 v42) a + S1x256.size a ≤ S20000x256.size a := fun v42 k4_hw4 => k4_hw4.1
theorem k4_off36_inb : ∀ (v42 : BitVec 32) (k4_hw4 : k4_chk4 v42), ∀ a, (k4_off36 v42) a + S1x256.size a ≤ S20000x256.size a := fun v42 k4_hw4 => k4_hw4.2

def k4_off37 (v51 : BitVec 32) : Fin 2 → Nat :=
  let c0_i32_93 : BitVec 32 := 0#32
  ![v51.toNat, 0]

def k4_chk5 (v51 : BitVec 32) : Prop :=
  (∀ a, (k4_off10 v51) a + S1x256.size a ≤ S20000x256.size a) ∧
  (∀ a, (k4_off37 v51) a + S1x256.size a ≤ S20000x256.size a)
instance k4_chk5.dec : ∀ (v51 : BitVec 32), Decidable (k4_chk5 v51) := fun v51 => decidable_of_iff' _ (Iff.of_eq (k4_chk5.eq_1 v51))
theorem k4_off10_inb : ∀ (v51 : BitVec 32) (k4_hw5 : k4_chk5 v51), ∀ a, (k4_off10 v51) a + S1x256.size a ≤ S20000x256.size a := fun v51 k4_hw5 => k4_hw5.1
theorem k4_off37_inb : ∀ (v51 : BitVec 32) (k4_hw5 : k4_chk5 v51), ∀ a, (k4_off37 v51) a + S1x256.size a ≤ S20000x256.size a := fun v51 k4_hw5 => k4_hw5.2

def k4_off38 (v60 : BitVec 32) : Fin 2 → Nat :=
  let c0_i32_97 : BitVec 32 := 0#32
  ![v60.toNat, 0]

def k4_chk6 (v60 : BitVec 32) : Prop :=
  (∀ a, (k4_off12 v60) a + S1x256.size a ≤ S20000x256.size a) ∧
  (∀ a, (k4_off38 v60) a + S1x256.size a ≤ S20000x256.size a)
instance k4_chk6.dec : ∀ (v60 : BitVec 32), Decidable (k4_chk6 v60) := fun v60 => decidable_of_iff' _ (Iff.of_eq (k4_chk6.eq_1 v60))
theorem k4_off12_inb : ∀ (v60 : BitVec 32) (k4_hw6 : k4_chk6 v60), ∀ a, (k4_off12 v60) a + S1x256.size a ≤ S20000x256.size a := fun v60 k4_hw6 => k4_hw6.1
theorem k4_off38_inb : ∀ (v60 : BitVec 32) (k4_hw6 : k4_chk6 v60), ∀ a, (k4_off38 v60) a + S1x256.size a ≤ S20000x256.size a := fun v60 k4_hw6 => k4_hw6.2

def k4_off39 (v69 : BitVec 32) : Fin 2 → Nat :=
  let c0_i32_101 : BitVec 32 := 0#32
  ![v69.toNat, 0]

def k4_chk7 (v69 : BitVec 32) : Prop :=
  (∀ a, (k4_off14 v69) a + S1x256.size a ≤ S20000x256.size a) ∧
  (∀ a, (k4_off39 v69) a + S1x256.size a ≤ S20000x256.size a)
instance k4_chk7.dec : ∀ (v69 : BitVec 32), Decidable (k4_chk7 v69) := fun v69 => decidable_of_iff' _ (Iff.of_eq (k4_chk7.eq_1 v69))
theorem k4_off14_inb : ∀ (v69 : BitVec 32) (k4_hw7 : k4_chk7 v69), ∀ a, (k4_off14 v69) a + S1x256.size a ≤ S20000x256.size a := fun v69 k4_hw7 => k4_hw7.1
theorem k4_off39_inb : ∀ (v69 : BitVec 32) (k4_hw7 : k4_chk7 v69), ∀ a, (k4_off39 v69) a + S1x256.size a ≤ S20000x256.size a := fun v69 k4_hw7 => k4_hw7.2

def k4_off40 (v78 : BitVec 32) : Fin 2 → Nat :=
  let c0_i32_105 : BitVec 32 := 0#32
  ![v78.toNat, 0]

def k4_chk8 (v78 : BitVec 32) : Prop :=
  (∀ a, (k4_off16 v78) a + S1x256.size a ≤ S20000x256.size a) ∧
  (∀ a, (k4_off40 v78) a + S1x256.size a ≤ S20000x256.size a)
instance k4_chk8.dec : ∀ (v78 : BitVec 32), Decidable (k4_chk8 v78) := fun v78 => decidable_of_iff' _ (Iff.of_eq (k4_chk8.eq_1 v78))
theorem k4_off16_inb : ∀ (v78 : BitVec 32) (k4_hw8 : k4_chk8 v78), ∀ a, (k4_off16 v78) a + S1x256.size a ≤ S20000x256.size a := fun v78 k4_hw8 => k4_hw8.1
theorem k4_off40_inb : ∀ (v78 : BitVec 32) (k4_hw8 : k4_chk8 v78), ∀ a, (k4_off40 v78) a + S1x256.size a ≤ S20000x256.size a := fun v78 k4_hw8 => k4_hw8.2

def k4_off41 (v87 : BitVec 32) : Fin 2 → Nat :=
  let c0_i32_109 : BitVec 32 := 0#32
  ![v87.toNat, 0]

def k4_chk9 (v87 : BitVec 32) : Prop :=
  (∀ a, (k4_off18 v87) a + S1x256.size a ≤ S20000x256.size a) ∧
  (∀ a, (k4_off41 v87) a + S1x256.size a ≤ S20000x256.size a)
instance k4_chk9.dec : ∀ (v87 : BitVec 32), Decidable (k4_chk9 v87) := fun v87 => decidable_of_iff' _ (Iff.of_eq (k4_chk9.eq_1 v87))
theorem k4_off18_inb : ∀ (v87 : BitVec 32) (k4_hw9 : k4_chk9 v87), ∀ a, (k4_off18 v87) a + S1x256.size a ≤ S20000x256.size a := fun v87 k4_hw9 => k4_hw9.1
theorem k4_off41_inb : ∀ (v87 : BitVec 32) (k4_hw9 : k4_chk9 v87), ∀ a, (k4_off41 v87) a + S1x256.size a ≤ S20000x256.size a := fun v87 k4_hw9 => k4_hw9.2

def k4_off42 (v96 : BitVec 32) : Fin 2 → Nat :=
  let c0_i32_113 : BitVec 32 := 0#32
  ![v96.toNat, 0]

def k4_chk10 (v96 : BitVec 32) : Prop :=
  (∀ a, (k4_off20 v96) a + S1x256.size a ≤ S20000x256.size a) ∧
  (∀ a, (k4_off42 v96) a + S1x256.size a ≤ S20000x256.size a)
instance k4_chk10.dec : ∀ (v96 : BitVec 32), Decidable (k4_chk10 v96) := fun v96 => decidable_of_iff' _ (Iff.of_eq (k4_chk10.eq_1 v96))
theorem k4_off20_inb : ∀ (v96 : BitVec 32) (k4_hw10 : k4_chk10 v96), ∀ a, (k4_off20 v96) a + S1x256.size a ≤ S20000x256.size a := fun v96 k4_hw10 => k4_hw10.1
theorem k4_off42_inb : ∀ (v96 : BitVec 32) (k4_hw10 : k4_chk10 v96), ∀ a, (k4_off42 v96) a + S1x256.size a ≤ S20000x256.size a := fun v96 k4_hw10 => k4_hw10.2

def k4_off43 (v105 : BitVec 32) : Fin 2 → Nat :=
  let c0_i32_117 : BitVec 32 := 0#32
  ![v105.toNat, 0]

def k4_chk11 (v105 : BitVec 32) : Prop :=
  (∀ a, (k4_off22 v105) a + S1x256.size a ≤ S20000x256.size a) ∧
  (∀ a, (k4_off43 v105) a + S1x256.size a ≤ S20000x256.size a)
instance k4_chk11.dec : ∀ (v105 : BitVec 32), Decidable (k4_chk11 v105) := fun v105 => decidable_of_iff' _ (Iff.of_eq (k4_chk11.eq_1 v105))
theorem k4_off22_inb : ∀ (v105 : BitVec 32) (k4_hw11 : k4_chk11 v105), ∀ a, (k4_off22 v105) a + S1x256.size a ≤ S20000x256.size a := fun v105 k4_hw11 => k4_hw11.1
theorem k4_off43_inb : ∀ (v105 : BitVec 32) (k4_hw11 : k4_chk11 v105), ∀ a, (k4_off43 v105) a + S1x256.size a ≤ S20000x256.size a := fun v105 k4_hw11 => k4_hw11.2

def k4_off44 (v114 : BitVec 32) : Fin 2 → Nat :=
  let c0_i32_121 : BitVec 32 := 0#32
  ![v114.toNat, 0]

def k4_chk12 (v114 : BitVec 32) : Prop :=
  (∀ a, (k4_off24 v114) a + S1x256.size a ≤ S20000x256.size a) ∧
  (∀ a, (k4_off44 v114) a + S1x256.size a ≤ S20000x256.size a)
instance k4_chk12.dec : ∀ (v114 : BitVec 32), Decidable (k4_chk12 v114) := fun v114 => decidable_of_iff' _ (Iff.of_eq (k4_chk12.eq_1 v114))
theorem k4_off24_inb : ∀ (v114 : BitVec 32) (k4_hw12 : k4_chk12 v114), ∀ a, (k4_off24 v114) a + S1x256.size a ≤ S20000x256.size a := fun v114 k4_hw12 => k4_hw12.1
theorem k4_off44_inb : ∀ (v114 : BitVec 32) (k4_hw12 : k4_chk12 v114), ∀ a, (k4_off44 v114) a + S1x256.size a ≤ S20000x256.size a := fun v114 k4_hw12 => k4_hw12.2

def k4_off45 (v123 : BitVec 32) : Fin 2 → Nat :=
  let c0_i32_125 : BitVec 32 := 0#32
  ![v123.toNat, 0]

def k4_chk13 (v123 : BitVec 32) : Prop :=
  (∀ a, (k4_off26 v123) a + S1x256.size a ≤ S20000x256.size a) ∧
  (∀ a, (k4_off45 v123) a + S1x256.size a ≤ S20000x256.size a)
instance k4_chk13.dec : ∀ (v123 : BitVec 32), Decidable (k4_chk13 v123) := fun v123 => decidable_of_iff' _ (Iff.of_eq (k4_chk13.eq_1 v123))
theorem k4_off26_inb : ∀ (v123 : BitVec 32) (k4_hw13 : k4_chk13 v123), ∀ a, (k4_off26 v123) a + S1x256.size a ≤ S20000x256.size a := fun v123 k4_hw13 => k4_hw13.1
theorem k4_off45_inb : ∀ (v123 : BitVec 32) (k4_hw13 : k4_chk13 v123), ∀ a, (k4_off45 v123) a + S1x256.size a ≤ S20000x256.size a := fun v123 k4_hw13 => k4_hw13.2

def k4_off46 (v132 : BitVec 32) : Fin 2 → Nat :=
  let c0_i32_129 : BitVec 32 := 0#32
  ![v132.toNat, 0]

def k4_chk14 (v132 : BitVec 32) : Prop :=
  (∀ a, (k4_off28 v132) a + S1x256.size a ≤ S20000x256.size a) ∧
  (∀ a, (k4_off46 v132) a + S1x256.size a ≤ S20000x256.size a)
instance k4_chk14.dec : ∀ (v132 : BitVec 32), Decidable (k4_chk14 v132) := fun v132 => decidable_of_iff' _ (Iff.of_eq (k4_chk14.eq_1 v132))
theorem k4_off28_inb : ∀ (v132 : BitVec 32) (k4_hw14 : k4_chk14 v132), ∀ a, (k4_off28 v132) a + S1x256.size a ≤ S20000x256.size a := fun v132 k4_hw14 => k4_hw14.1
theorem k4_off46_inb : ∀ (v132 : BitVec 32) (k4_hw14 : k4_chk14 v132), ∀ a, (k4_off46 v132) a + S1x256.size a ≤ S20000x256.size a := fun v132 k4_hw14 => k4_hw14.2

def k4_off47 (v141 : BitVec 32) : Fin 2 → Nat :=
  let c0_i32_133 : BitVec 32 := 0#32
  ![v141.toNat, 0]

def k4_chk15 (v141 : BitVec 32) : Prop :=
  (∀ a, (k4_off30 v141) a + S1x256.size a ≤ S20000x256.size a) ∧
  (∀ a, (k4_off47 v141) a + S1x256.size a ≤ S20000x256.size a)
instance k4_chk15.dec : ∀ (v141 : BitVec 32), Decidable (k4_chk15 v141) := fun v141 => decidable_of_iff' _ (Iff.of_eq (k4_chk15.eq_1 v141))
theorem k4_off30_inb : ∀ (v141 : BitVec 32) (k4_hw15 : k4_chk15 v141), ∀ a, (k4_off30 v141) a + S1x256.size a ≤ S20000x256.size a := fun v141 k4_hw15 => k4_hw15.1
theorem k4_off47_inb : ∀ (v141 : BitVec 32) (k4_hw15 : k4_chk15 v141), ∀ a, (k4_off47 v141) a + S1x256.size a ≤ S20000x256.size a := fun v141 k4_hw15 => k4_hw15.2

def k4_mult1 (k4_t1 : Fin k4_t1_loop.trips) : BitVec 32 :=
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  v253
def k4_off48 (k4_t1 : Fin k4_t1_loop.trips) : Fin 2 → Nat :=
  let c0_i32_7 : BitVec 32 := 0#32
  let c0_i32 : BitVec 32 := 0#32
  let c1_i32 : BitVec 32 := 1#32
  let arg7 : BitVec 32 := Scf.iv c0_i32 c1_i32 k4_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  let v254 : BitVec 32 := v253
  let v256 : Index := Scalar.indexCast v254
  let c0_141 : Index := 0#32
  ![v256.toNat, 0]
def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S20000x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S800x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S800x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

abbrev pre5 : Pipeline.Prefetch sig := ⟨1, ![main_v24.idx], fun | 0 => main_v24.names | ⟨_ + 1, h⟩ => absurd h (Nat.not_lt.2 (Nat.le_add_left _ _)), fun | 0 => rfl | ⟨_ + 1, h⟩ => absurd h (Nat.not_lt.2 (Nat.le_add_left _ _))⟩

@[reducible] def k5_t1_loop : Scf.Loop 32 :=
  let c0_i32 : BitVec 32 := 0#32
  let c50_i32 : BitVec 32 := 50#32
  let v1 : BitVec 32 := Scalar.addi c0_i32 c50_i32
  let c1_i32 : BitVec 32 := 1#32
  ⟨c0_i32, v1, c1_i32⟩
def k5_off1 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c0_i32_8 : BitVec 32 := 0#32
  let v13 : BitVec 32 := Scalar.addi v12 c0_i32_8
  let v14 : Index := Scalar.indexCast v13
  ![v14.toNat]
def k5_off2 (v15 : BitVec 32) : Fin 2 → Nat :=
  let c0_i32_12 : BitVec 32 := 0#32
  ![v15.toNat, 0]

def k5_off3 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c1_i32_13 : BitVec 32 := 1#32
  let v22 : BitVec 32 := Scalar.addi v12 c1_i32_13
  let v23 : Index := Scalar.indexCast v22
  ![v23.toNat]
def k5_off4 (v24 : BitVec 32) : Fin 2 → Nat :=
  let c0_i32_17 : BitVec 32 := 0#32
  ![v24.toNat, 0]

def k5_off5 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c2_i32 : BitVec 32 := 2#32
  let v31 : BitVec 32 := Scalar.addi v12 c2_i32
  let v32 : Index := Scalar.indexCast v31
  ![v32.toNat]
def k5_off6 (v33 : BitVec 32) : Fin 2 → Nat :=
  let c0_i32_21 : BitVec 32 := 0#32
  ![v33.toNat, 0]

def k5_off7 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c3_i32 : BitVec 32 := 3#32
  let v40 : BitVec 32 := Scalar.addi v12 c3_i32
  let v41 : Index := Scalar.indexCast v40
  ![v41.toNat]
def k5_off8 (v42 : BitVec 32) : Fin 2 → Nat :=
  let c0_i32_25 : BitVec 32 := 0#32
  ![v42.toNat, 0]

def k5_off9 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c4_i32 : BitVec 32 := 4#32
  let v49 : BitVec 32 := Scalar.addi v12 c4_i32
  let v50 : Index := Scalar.indexCast v49
  ![v50.toNat]
def k5_off10 (v51 : BitVec 32) : Fin 2 → Nat :=
  let c0_i32_29 : BitVec 32 := 0#32
  ![v51.toNat, 0]

def k5_off11 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c5_i32 : BitVec 32 := 5#32
  let v58 : BitVec 32 := Scalar.addi v12 c5_i32
  let v59 : Index := Scalar.indexCast v58
  ![v59.toNat]
def k5_off12 (v60 : BitVec 32) : Fin 2 → Nat :=
  let c0_i32_33 : BitVec 32 := 0#32
  ![v60.toNat, 0]

def k5_off13 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c6_i32 : BitVec 32 := 6#32
  let v67 : BitVec 32 := Scalar.addi v12 c6_i32
  let v68 : Index := Scalar.indexCast v67
  ![v68.toNat]
def k5_off14 (v69 : BitVec 32) : Fin 2 → Nat :=
  let c0_i32_37 : BitVec 32 := 0#32
  ![v69.toNat, 0]

def k5_off15 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c7_i32 : BitVec 32 := 7#32
  let v76 : BitVec 32 := Scalar.addi v12 c7_i32
  let v77 : Index := Scalar.indexCast v76
  ![v77.toNat]
def k5_off16 (v78 : BitVec 32) : Fin 2 → Nat :=
  let c0_i32_41 : BitVec 32 := 0#32
  ![v78.toNat, 0]

def k5_off17 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c8_i32 : BitVec 32 := 8#32
  let v85 : BitVec 32 := Scalar.addi v12 c8_i32
  let v86 : Index := Scalar.indexCast v85
  ![v86.toNat]
def k5_off18 (v87 : BitVec 32) : Fin 2 → Nat :=
  let c0_i32_45 : BitVec 32 := 0#32
  ![v87.toNat, 0]

def k5_off19 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c9_i32 : BitVec 32 := 9#32
  let v94 : BitVec 32 := Scalar.addi v12 c9_i32
  let v95 : Index := Scalar.indexCast v94
  ![v95.toNat]
def k5_off20 (v96 : BitVec 32) : Fin 2 → Nat :=
  let c0_i32_49 : BitVec 32 := 0#32
  ![v96.toNat, 0]

def k5_off21 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c10_i32 : BitVec 32 := 10#32
  let v103 : BitVec 32 := Scalar.addi v12 c10_i32
  let v104 : Index := Scalar.indexCast v103
  ![v104.toNat]
def k5_off22 (v105 : BitVec 32) : Fin 2 → Nat :=
  let c0_i32_53 : BitVec 32 := 0#32
  ![v105.toNat, 0]

def k5_off23 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c11_i32 : BitVec 32 := 11#32
  let v112 : BitVec 32 := Scalar.addi v12 c11_i32
  let v113 : Index := Scalar.indexCast v112
  ![v113.toNat]
def k5_off24 (v114 : BitVec 32) : Fin 2 → Nat :=
  let c0_i32_57 : BitVec 32 := 0#32
  ![v114.toNat, 0]

def k5_off25 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c12_i32 : BitVec 32 := 12#32
  let v121 : BitVec 32 := Scalar.addi v12 c12_i32
  let v122 : Index := Scalar.indexCast v121
  ![v122.toNat]
def k5_off26 (v123 : BitVec 32) : Fin 2 → Nat :=
  let c0_i32_61 : BitVec 32 := 0#32
  ![v123.toNat, 0]

def k5_off27 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c13_i32 : BitVec 32 := 13#32
  let v130 : BitVec 32 := Scalar.addi v12 c13_i32
  let v131 : Index := Scalar.indexCast v130
  ![v131.toNat]
def k5_off28 (v132 : BitVec 32) : Fin 2 → Nat :=
  let c0_i32_65 : BitVec 32 := 0#32
  ![v132.toNat, 0]

def k5_off29 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c14_i32 : BitVec 32 := 14#32
  let v139 : BitVec 32 := Scalar.addi v12 c14_i32
  let v140 : Index := Scalar.indexCast v139
  ![v140.toNat]
def k5_off30 (v141 : BitVec 32) : Fin 2 → Nat :=
  let c0_i32_69 : BitVec 32 := 0#32
  ![v141.toNat, 0]

def k5_off31 (i : grid5.Coords) (k5_t1 : Fin k5_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c15_i32 : BitVec 32 := 15#32
  let v148 : BitVec 32 := Scalar.addi v12 c15_i32
  let v149 : Index := Scalar.indexCast v148
  ![v149.toNat]
def k5_off32 (v150 : BitVec 32) : Fin 2 → Nat :=
  let c0_i32_73 : BitVec 32 := 0#32
  ![v150.toNat, 0]

def k5_chk16 (v150 : BitVec 32) : Prop :=
  (∀ a, (k5_off32 v150) a + S1x256.size a ≤ S20000x256.size a)
instance k5_chk16.dec : ∀ (v150 : BitVec 32), Decidable (k5_chk16 v150) := fun v150 => decidable_of_iff' _ (Iff.of_eq (k5_chk16.eq_1 v150))
theorem k5_off32_inb : ∀ (v150 : BitVec 32) (k5_hw16 : k5_chk16 v150), ∀ a, (k5_off32 v150) a + S1x256.size a ≤ S20000x256.size a := fun v150 k5_hw16 => k5_hw16

def k5_off33 (v15 : BitVec 32) : Fin 2 → Nat :=
  let c0_i32_77 : BitVec 32 := 0#32
  ![v15.toNat, 0]

def k5_chk1 (v15 : BitVec 32) : Prop :=
  (∀ a, (k5_off2 v15) a + S1x256.size a ≤ S20000x256.size a) ∧
  (∀ a, (k5_off33 v15) a + S1x256.size a ≤ S20000x256.size a)
instance k5_chk1.dec : ∀ (v15 : BitVec 32), Decidable (k5_chk1 v15) := fun v15 => decidable_of_iff' _ (Iff.of_eq (k5_chk1.eq_1 v15))
theorem k5_off2_inb : ∀ (v15 : BitVec 32) (k5_hw1 : k5_chk1 v15), ∀ a, (k5_off2 v15) a + S1x256.size a ≤ S20000x256.size a := fun v15 k5_hw1 => k5_hw1.1
theorem k5_off33_inb : ∀ (v15 : BitVec 32) (k5_hw1 : k5_chk1 v15), ∀ a, (k5_off33 v15) a + S1x256.size a ≤ S20000x256.size a := fun v15 k5_hw1 => k5_hw1.2

def k5_off34 (v24 : BitVec 32) : Fin 2 → Nat :=
  let c0_i32_81 : BitVec 32 := 0#32
  ![v24.toNat, 0]

def k5_chk2 (v24 : BitVec 32) : Prop :=
  (∀ a, (k5_off4 v24) a + S1x256.size a ≤ S20000x256.size a) ∧
  (∀ a, (k5_off34 v24) a + S1x256.size a ≤ S20000x256.size a)
instance k5_chk2.dec : ∀ (v24 : BitVec 32), Decidable (k5_chk2 v24) := fun v24 => decidable_of_iff' _ (Iff.of_eq (k5_chk2.eq_1 v24))
theorem k5_off4_inb : ∀ (v24 : BitVec 32) (k5_hw2 : k5_chk2 v24), ∀ a, (k5_off4 v24) a + S1x256.size a ≤ S20000x256.size a := fun v24 k5_hw2 => k5_hw2.1
theorem k5_off34_inb : ∀ (v24 : BitVec 32) (k5_hw2 : k5_chk2 v24), ∀ a, (k5_off34 v24) a + S1x256.size a ≤ S20000x256.size a := fun v24 k5_hw2 => k5_hw2.2

def k5_off35 (v33 : BitVec 32) : Fin 2 → Nat :=
  let c0_i32_85 : BitVec 32 := 0#32
  ![v33.toNat, 0]

def k5_chk3 (v33 : BitVec 32) : Prop :=
  (∀ a, (k5_off6 v33) a + S1x256.size a ≤ S20000x256.size a) ∧
  (∀ a, (k5_off35 v33) a + S1x256.size a ≤ S20000x256.size a)
instance k5_chk3.dec : ∀ (v33 : BitVec 32), Decidable (k5_chk3 v33) := fun v33 => decidable_of_iff' _ (Iff.of_eq (k5_chk3.eq_1 v33))
theorem k5_off6_inb : ∀ (v33 : BitVec 32) (k5_hw3 : k5_chk3 v33), ∀ a, (k5_off6 v33) a + S1x256.size a ≤ S20000x256.size a := fun v33 k5_hw3 => k5_hw3.1
theorem k5_off35_inb : ∀ (v33 : BitVec 32) (k5_hw3 : k5_chk3 v33), ∀ a, (k5_off35 v33) a + S1x256.size a ≤ S20000x256.size a := fun v33 k5_hw3 => k5_hw3.2

def k5_off36 (v42 : BitVec 32) : Fin 2 → Nat :=
  let c0_i32_89 : BitVec 32 := 0#32
  ![v42.toNat, 0]

def k5_chk4 (v42 : BitVec 32) : Prop :=
  (∀ a, (k5_off8 v42) a + S1x256.size a ≤ S20000x256.size a) ∧
  (∀ a, (k5_off36 v42) a + S1x256.size a ≤ S20000x256.size a)
instance k5_chk4.dec : ∀ (v42 : BitVec 32), Decidable (k5_chk4 v42) := fun v42 => decidable_of_iff' _ (Iff.of_eq (k5_chk4.eq_1 v42))
theorem k5_off8_inb : ∀ (v42 : BitVec 32) (k5_hw4 : k5_chk4 v42), ∀ a, (k5_off8 v42) a + S1x256.size a ≤ S20000x256.size a := fun v42 k5_hw4 => k5_hw4.1
theorem k5_off36_inb : ∀ (v42 : BitVec 32) (k5_hw4 : k5_chk4 v42), ∀ a, (k5_off36 v42) a + S1x256.size a ≤ S20000x256.size a := fun v42 k5_hw4 => k5_hw4.2

def k5_off37 (v51 : BitVec 32) : Fin 2 → Nat :=
  let c0_i32_93 : BitVec 32 := 0#32
  ![v51.toNat, 0]

def k5_chk5 (v51 : BitVec 32) : Prop :=
  (∀ a, (k5_off10 v51) a + S1x256.size a ≤ S20000x256.size a) ∧
  (∀ a, (k5_off37 v51) a + S1x256.size a ≤ S20000x256.size a)
instance k5_chk5.dec : ∀ (v51 : BitVec 32), Decidable (k5_chk5 v51) := fun v51 => decidable_of_iff' _ (Iff.of_eq (k5_chk5.eq_1 v51))
theorem k5_off10_inb : ∀ (v51 : BitVec 32) (k5_hw5 : k5_chk5 v51), ∀ a, (k5_off10 v51) a + S1x256.size a ≤ S20000x256.size a := fun v51 k5_hw5 => k5_hw5.1
theorem k5_off37_inb : ∀ (v51 : BitVec 32) (k5_hw5 : k5_chk5 v51), ∀ a, (k5_off37 v51) a + S1x256.size a ≤ S20000x256.size a := fun v51 k5_hw5 => k5_hw5.2

def k5_off38 (v60 : BitVec 32) : Fin 2 → Nat :=
  let c0_i32_97 : BitVec 32 := 0#32
  ![v60.toNat, 0]

def k5_chk6 (v60 : BitVec 32) : Prop :=
  (∀ a, (k5_off12 v60) a + S1x256.size a ≤ S20000x256.size a) ∧
  (∀ a, (k5_off38 v60) a + S1x256.size a ≤ S20000x256.size a)
instance k5_chk6.dec : ∀ (v60 : BitVec 32), Decidable (k5_chk6 v60) := fun v60 => decidable_of_iff' _ (Iff.of_eq (k5_chk6.eq_1 v60))
theorem k5_off12_inb : ∀ (v60 : BitVec 32) (k5_hw6 : k5_chk6 v60), ∀ a, (k5_off12 v60) a + S1x256.size a ≤ S20000x256.size a := fun v60 k5_hw6 => k5_hw6.1
theorem k5_off38_inb : ∀ (v60 : BitVec 32) (k5_hw6 : k5_chk6 v60), ∀ a, (k5_off38 v60) a + S1x256.size a ≤ S20000x256.size a := fun v60 k5_hw6 => k5_hw6.2

def k5_off39 (v69 : BitVec 32) : Fin 2 → Nat :=
  let c0_i32_101 : BitVec 32 := 0#32
  ![v69.toNat, 0]

def k5_chk7 (v69 : BitVec 32) : Prop :=
  (∀ a, (k5_off14 v69) a + S1x256.size a ≤ S20000x256.size a) ∧
  (∀ a, (k5_off39 v69) a + S1x256.size a ≤ S20000x256.size a)
instance k5_chk7.dec : ∀ (v69 : BitVec 32), Decidable (k5_chk7 v69) := fun v69 => decidable_of_iff' _ (Iff.of_eq (k5_chk7.eq_1 v69))
theorem k5_off14_inb : ∀ (v69 : BitVec 32) (k5_hw7 : k5_chk7 v69), ∀ a, (k5_off14 v69) a + S1x256.size a ≤ S20000x256.size a := fun v69 k5_hw7 => k5_hw7.1
theorem k5_off39_inb : ∀ (v69 : BitVec 32) (k5_hw7 : k5_chk7 v69), ∀ a, (k5_off39 v69) a + S1x256.size a ≤ S20000x256.size a := fun v69 k5_hw7 => k5_hw7.2

def k5_off40 (v78 : BitVec 32) : Fin 2 → Nat :=
  let c0_i32_105 : BitVec 32 := 0#32
  ![v78.toNat, 0]

def k5_chk8 (v78 : BitVec 32) : Prop :=
  (∀ a, (k5_off16 v78) a + S1x256.size a ≤ S20000x256.size a) ∧
  (∀ a, (k5_off40 v78) a + S1x256.size a ≤ S20000x256.size a)
instance k5_chk8.dec : ∀ (v78 : BitVec 32), Decidable (k5_chk8 v78) := fun v78 => decidable_of_iff' _ (Iff.of_eq (k5_chk8.eq_1 v78))
theorem k5_off16_inb : ∀ (v78 : BitVec 32) (k5_hw8 : k5_chk8 v78), ∀ a, (k5_off16 v78) a + S1x256.size a ≤ S20000x256.size a := fun v78 k5_hw8 => k5_hw8.1
theorem k5_off40_inb : ∀ (v78 : BitVec 32) (k5_hw8 : k5_chk8 v78), ∀ a, (k5_off40 v78) a + S1x256.size a ≤ S20000x256.size a := fun v78 k5_hw8 => k5_hw8.2

def k5_off41 (v87 : BitVec 32) : Fin 2 → Nat :=
  let c0_i32_109 : BitVec 32 := 0#32
  ![v87.toNat, 0]

def k5_chk9 (v87 : BitVec 32) : Prop :=
  (∀ a, (k5_off18 v87) a + S1x256.size a ≤ S20000x256.size a) ∧
  (∀ a, (k5_off41 v87) a + S1x256.size a ≤ S20000x256.size a)
instance k5_chk9.dec : ∀ (v87 : BitVec 32), Decidable (k5_chk9 v87) := fun v87 => decidable_of_iff' _ (Iff.of_eq (k5_chk9.eq_1 v87))
theorem k5_off18_inb : ∀ (v87 : BitVec 32) (k5_hw9 : k5_chk9 v87), ∀ a, (k5_off18 v87) a + S1x256.size a ≤ S20000x256.size a := fun v87 k5_hw9 => k5_hw9.1
theorem k5_off41_inb : ∀ (v87 : BitVec 32) (k5_hw9 : k5_chk9 v87), ∀ a, (k5_off41 v87) a + S1x256.size a ≤ S20000x256.size a := fun v87 k5_hw9 => k5_hw9.2

def k5_off42 (v96 : BitVec 32) : Fin 2 → Nat :=
  let c0_i32_113 : BitVec 32 := 0#32
  ![v96.toNat, 0]

def k5_chk10 (v96 : BitVec 32) : Prop :=
  (∀ a, (k5_off20 v96) a + S1x256.size a ≤ S20000x256.size a) ∧
  (∀ a, (k5_off42 v96) a + S1x256.size a ≤ S20000x256.size a)
instance k5_chk10.dec : ∀ (v96 : BitVec 32), Decidable (k5_chk10 v96) := fun v96 => decidable_of_iff' _ (Iff.of_eq (k5_chk10.eq_1 v96))
theorem k5_off20_inb : ∀ (v96 : BitVec 32) (k5_hw10 : k5_chk10 v96), ∀ a, (k5_off20 v96) a + S1x256.size a ≤ S20000x256.size a := fun v96 k5_hw10 => k5_hw10.1
theorem k5_off42_inb : ∀ (v96 : BitVec 32) (k5_hw10 : k5_chk10 v96), ∀ a, (k5_off42 v96) a + S1x256.size a ≤ S20000x256.size a := fun v96 k5_hw10 => k5_hw10.2

def k5_off43 (v105 : BitVec 32) : Fin 2 → Nat :=
  let c0_i32_117 : BitVec 32 := 0#32
  ![v105.toNat, 0]

def k5_chk11 (v105 : BitVec 32) : Prop :=
  (∀ a, (k5_off22 v105) a + S1x256.size a ≤ S20000x256.size a) ∧
  (∀ a, (k5_off43 v105) a + S1x256.size a ≤ S20000x256.size a)
instance k5_chk11.dec : ∀ (v105 : BitVec 32), Decidable (k5_chk11 v105) := fun v105 => decidable_of_iff' _ (Iff.of_eq (k5_chk11.eq_1 v105))
theorem k5_off22_inb : ∀ (v105 : BitVec 32) (k5_hw11 : k5_chk11 v105), ∀ a, (k5_off22 v105) a + S1x256.size a ≤ S20000x256.size a := fun v105 k5_hw11 => k5_hw11.1
theorem k5_off43_inb : ∀ (v105 : BitVec 32) (k5_hw11 : k5_chk11 v105), ∀ a, (k5_off43 v105) a + S1x256.size a ≤ S20000x256.size a := fun v105 k5_hw11 => k5_hw11.2

def k5_off44 (v114 : BitVec 32) : Fin 2 → Nat :=
  let c0_i32_121 : BitVec 32 := 0#32
  ![v114.toNat, 0]

def k5_chk12 (v114 : BitVec 32) : Prop :=
  (∀ a, (k5_off24 v114) a + S1x256.size a ≤ S20000x256.size a) ∧
  (∀ a, (k5_off44 v114) a + S1x256.size a ≤ S20000x256.size a)
instance k5_chk12.dec : ∀ (v114 : BitVec 32), Decidable (k5_chk12 v114) := fun v114 => decidable_of_iff' _ (Iff.of_eq (k5_chk12.eq_1 v114))
theorem k5_off24_inb : ∀ (v114 : BitVec 32) (k5_hw12 : k5_chk12 v114), ∀ a, (k5_off24 v114) a + S1x256.size a ≤ S20000x256.size a := fun v114 k5_hw12 => k5_hw12.1
theorem k5_off44_inb : ∀ (v114 : BitVec 32) (k5_hw12 : k5_chk12 v114), ∀ a, (k5_off44 v114) a + S1x256.size a ≤ S20000x256.size a := fun v114 k5_hw12 => k5_hw12.2

def k5_off45 (v123 : BitVec 32) : Fin 2 → Nat :=
  let c0_i32_125 : BitVec 32 := 0#32
  ![v123.toNat, 0]

def k5_chk13 (v123 : BitVec 32) : Prop :=
  (∀ a, (k5_off26 v123) a + S1x256.size a ≤ S20000x256.size a) ∧
  (∀ a, (k5_off45 v123) a + S1x256.size a ≤ S20000x256.size a)
instance k5_chk13.dec : ∀ (v123 : BitVec 32), Decidable (k5_chk13 v123) := fun v123 => decidable_of_iff' _ (Iff.of_eq (k5_chk13.eq_1 v123))
theorem k5_off26_inb : ∀ (v123 : BitVec 32) (k5_hw13 : k5_chk13 v123), ∀ a, (k5_off26 v123) a + S1x256.size a ≤ S20000x256.size a := fun v123 k5_hw13 => k5_hw13.1
theorem k5_off45_inb : ∀ (v123 : BitVec 32) (k5_hw13 : k5_chk13 v123), ∀ a, (k5_off45 v123) a + S1x256.size a ≤ S20000x256.size a := fun v123 k5_hw13 => k5_hw13.2

def k5_off46 (v132 : BitVec 32) : Fin 2 → Nat :=
  let c0_i32_129 : BitVec 32 := 0#32
  ![v132.toNat, 0]

def k5_chk14 (v132 : BitVec 32) : Prop :=
  (∀ a, (k5_off28 v132) a + S1x256.size a ≤ S20000x256.size a) ∧
  (∀ a, (k5_off46 v132) a + S1x256.size a ≤ S20000x256.size a)
instance k5_chk14.dec : ∀ (v132 : BitVec 32), Decidable (k5_chk14 v132) := fun v132 => decidable_of_iff' _ (Iff.of_eq (k5_chk14.eq_1 v132))
theorem k5_off28_inb : ∀ (v132 : BitVec 32) (k5_hw14 : k5_chk14 v132), ∀ a, (k5_off28 v132) a + S1x256.size a ≤ S20000x256.size a := fun v132 k5_hw14 => k5_hw14.1
theorem k5_off46_inb : ∀ (v132 : BitVec 32) (k5_hw14 : k5_chk14 v132), ∀ a, (k5_off46 v132) a + S1x256.size a ≤ S20000x256.size a := fun v132 k5_hw14 => k5_hw14.2

def k5_off47 (v141 : BitVec 32) : Fin 2 → Nat :=
  let c0_i32_133 : BitVec 32 := 0#32
  ![v141.toNat, 0]

def k5_chk15 (v141 : BitVec 32) : Prop :=
  (∀ a, (k5_off30 v141) a + S1x256.size a ≤ S20000x256.size a) ∧
  (∀ a, (k5_off47 v141) a + S1x256.size a ≤ S20000x256.size a)
instance k5_chk15.dec : ∀ (v141 : BitVec 32), Decidable (k5_chk15 v141) := fun v141 => decidable_of_iff' _ (Iff.of_eq (k5_chk15.eq_1 v141))
theorem k5_off30_inb : ∀ (v141 : BitVec 32) (k5_hw15 : k5_chk15 v141), ∀ a, (k5_off30 v141) a + S1x256.size a ≤ S20000x256.size a := fun v141 k5_hw15 => k5_hw15.1
theorem k5_off47_inb : ∀ (v141 : BitVec 32) (k5_hw15 : k5_chk15 v141), ∀ a, (k5_off47 v141) a + S1x256.size a ≤ S20000x256.size a := fun v141 k5_hw15 => k5_hw15.2

def k5_mult1 (k5_t1 : Fin k5_t1_loop.trips) : BitVec 32 :=
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  v253
def k5_off48 (k5_t1 : Fin k5_t1_loop.trips) : Fin 2 → Nat :=
  let c0_i32_7 : BitVec 32 := 0#32
  let c0_i32 : BitVec 32 := 0#32
  let c1_i32 : BitVec 32 := 1#32
  let arg7 : BitVec 32 := Scf.iv c0_i32 c1_i32 k5_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  let v254 : BitVec 32 := v253
  let v256 : Index := Scalar.indexCast v254
  let c0_141 : Index := 0#32
  ![v256.toNat, 0]
def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S20000x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S800x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S800x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![100], ![false]⟩

abbrev pre6 : Pipeline.Prefetch sig := ⟨1, ![main_v28.idx], fun | 0 => main_v28.names | ⟨_ + 1, h⟩ => absurd h (Nat.not_lt.2 (Nat.le_add_left _ _)), fun | 0 => rfl | ⟨_ + 1, h⟩ => absurd h (Nat.not_lt.2 (Nat.le_add_left _ _))⟩

@[reducible] def k6_t1_loop : Scf.Loop 32 :=
  let c0_i32 : BitVec 32 := 0#32
  let c50_i32 : BitVec 32 := 50#32
  let v1 : BitVec 32 := Scalar.addi c0_i32 c50_i32
  let c1_i32 : BitVec 32 := 1#32
  ⟨c0_i32, v1, c1_i32⟩
def k6_off1 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c0_i32_8 : BitVec 32 := 0#32
  let v13 : BitVec 32 := Scalar.addi v12 c0_i32_8
  let v14 : Index := Scalar.indexCast v13
  ![v14.toNat]
def k6_off2 (v15 : BitVec 32) : Fin 2 → Nat :=
  let c0_i32_12 : BitVec 32 := 0#32
  ![v15.toNat, 0]

def k6_off3 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c1_i32_13 : BitVec 32 := 1#32
  let v22 : BitVec 32 := Scalar.addi v12 c1_i32_13
  let v23 : Index := Scalar.indexCast v22
  ![v23.toNat]
def k6_off4 (v24 : BitVec 32) : Fin 2 → Nat :=
  let c0_i32_17 : BitVec 32 := 0#32
  ![v24.toNat, 0]

def k6_off5 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c2_i32 : BitVec 32 := 2#32
  let v31 : BitVec 32 := Scalar.addi v12 c2_i32
  let v32 : Index := Scalar.indexCast v31
  ![v32.toNat]
def k6_off6 (v33 : BitVec 32) : Fin 2 → Nat :=
  let c0_i32_21 : BitVec 32 := 0#32
  ![v33.toNat, 0]

def k6_off7 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c3_i32 : BitVec 32 := 3#32
  let v40 : BitVec 32 := Scalar.addi v12 c3_i32
  let v41 : Index := Scalar.indexCast v40
  ![v41.toNat]
def k6_off8 (v42 : BitVec 32) : Fin 2 → Nat :=
  let c0_i32_25 : BitVec 32 := 0#32
  ![v42.toNat, 0]

def k6_off9 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c4_i32 : BitVec 32 := 4#32
  let v49 : BitVec 32 := Scalar.addi v12 c4_i32
  let v50 : Index := Scalar.indexCast v49
  ![v50.toNat]
def k6_off10 (v51 : BitVec 32) : Fin 2 → Nat :=
  let c0_i32_29 : BitVec 32 := 0#32
  ![v51.toNat, 0]

def k6_off11 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c5_i32 : BitVec 32 := 5#32
  let v58 : BitVec 32 := Scalar.addi v12 c5_i32
  let v59 : Index := Scalar.indexCast v58
  ![v59.toNat]
def k6_off12 (v60 : BitVec 32) : Fin 2 → Nat :=
  let c0_i32_33 : BitVec 32 := 0#32
  ![v60.toNat, 0]

def k6_off13 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c6_i32 : BitVec 32 := 6#32
  let v67 : BitVec 32 := Scalar.addi v12 c6_i32
  let v68 : Index := Scalar.indexCast v67
  ![v68.toNat]
def k6_off14 (v69 : BitVec 32) : Fin 2 → Nat :=
  let c0_i32_37 : BitVec 32 := 0#32
  ![v69.toNat, 0]

def k6_off15 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c7_i32 : BitVec 32 := 7#32
  let v76 : BitVec 32 := Scalar.addi v12 c7_i32
  let v77 : Index := Scalar.indexCast v76
  ![v77.toNat]
def k6_off16 (v78 : BitVec 32) : Fin 2 → Nat :=
  let c0_i32_41 : BitVec 32 := 0#32
  ![v78.toNat, 0]

def k6_off17 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c8_i32 : BitVec 32 := 8#32
  let v85 : BitVec 32 := Scalar.addi v12 c8_i32
  let v86 : Index := Scalar.indexCast v85
  ![v86.toNat]
def k6_off18 (v87 : BitVec 32) : Fin 2 → Nat :=
  let c0_i32_45 : BitVec 32 := 0#32
  ![v87.toNat, 0]

def k6_off19 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c9_i32 : BitVec 32 := 9#32
  let v94 : BitVec 32 := Scalar.addi v12 c9_i32
  let v95 : Index := Scalar.indexCast v94
  ![v95.toNat]
def k6_off20 (v96 : BitVec 32) : Fin 2 → Nat :=
  let c0_i32_49 : BitVec 32 := 0#32
  ![v96.toNat, 0]

def k6_off21 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c10_i32 : BitVec 32 := 10#32
  let v103 : BitVec 32 := Scalar.addi v12 c10_i32
  let v104 : Index := Scalar.indexCast v103
  ![v104.toNat]
def k6_off22 (v105 : BitVec 32) : Fin 2 → Nat :=
  let c0_i32_53 : BitVec 32 := 0#32
  ![v105.toNat, 0]

def k6_off23 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c11_i32 : BitVec 32 := 11#32
  let v112 : BitVec 32 := Scalar.addi v12 c11_i32
  let v113 : Index := Scalar.indexCast v112
  ![v113.toNat]
def k6_off24 (v114 : BitVec 32) : Fin 2 → Nat :=
  let c0_i32_57 : BitVec 32 := 0#32
  ![v114.toNat, 0]

def k6_off25 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c12_i32 : BitVec 32 := 12#32
  let v121 : BitVec 32 := Scalar.addi v12 c12_i32
  let v122 : Index := Scalar.indexCast v121
  ![v122.toNat]
def k6_off26 (v123 : BitVec 32) : Fin 2 → Nat :=
  let c0_i32_61 : BitVec 32 := 0#32
  ![v123.toNat, 0]

def k6_off27 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c13_i32 : BitVec 32 := 13#32
  let v130 : BitVec 32 := Scalar.addi v12 c13_i32
  let v131 : Index := Scalar.indexCast v130
  ![v131.toNat]
def k6_off28 (v132 : BitVec 32) : Fin 2 → Nat :=
  let c0_i32_65 : BitVec 32 := 0#32
  ![v132.toNat, 0]

def k6_off29 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c14_i32 : BitVec 32 := 14#32
  let v139 : BitVec 32 := Scalar.addi v12 c14_i32
  let v140 : Index := Scalar.indexCast v139
  ![v140.toNat]
def k6_off30 (v141 : BitVec 32) : Fin 2 → Nat :=
  let c0_i32_69 : BitVec 32 := 0#32
  ![v141.toNat, 0]

def k6_off31 (i : grid6.Coords) (k6_t1 : Fin k6_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c15_i32 : BitVec 32 := 15#32
  let v148 : BitVec 32 := Scalar.addi v12 c15_i32
  let v149 : Index := Scalar.indexCast v148
  ![v149.toNat]
def k6_off32 (v150 : BitVec 32) : Fin 2 → Nat :=
  let c0_i32_73 : BitVec 32 := 0#32
  ![v150.toNat, 0]

def k6_chk16 (v150 : BitVec 32) : Prop :=
  (∀ a, (k6_off32 v150) a + S1x256.size a ≤ S20000x256.size a)
instance k6_chk16.dec : ∀ (v150 : BitVec 32), Decidable (k6_chk16 v150) := fun v150 => decidable_of_iff' _ (Iff.of_eq (k6_chk16.eq_1 v150))
theorem k6_off32_inb : ∀ (v150 : BitVec 32) (k6_hw16 : k6_chk16 v150), ∀ a, (k6_off32 v150) a + S1x256.size a ≤ S20000x256.size a := fun v150 k6_hw16 => k6_hw16

def k6_off33 (v15 : BitVec 32) : Fin 2 → Nat :=
  let c0_i32_77 : BitVec 32 := 0#32
  ![v15.toNat, 0]

def k6_chk1 (v15 : BitVec 32) : Prop :=
  (∀ a, (k6_off2 v15) a + S1x256.size a ≤ S20000x256.size a) ∧
  (∀ a, (k6_off33 v15) a + S1x256.size a ≤ S20000x256.size a)
instance k6_chk1.dec : ∀ (v15 : BitVec 32), Decidable (k6_chk1 v15) := fun v15 => decidable_of_iff' _ (Iff.of_eq (k6_chk1.eq_1 v15))
theorem k6_off2_inb : ∀ (v15 : BitVec 32) (k6_hw1 : k6_chk1 v15), ∀ a, (k6_off2 v15) a + S1x256.size a ≤ S20000x256.size a := fun v15 k6_hw1 => k6_hw1.1
theorem k6_off33_inb : ∀ (v15 : BitVec 32) (k6_hw1 : k6_chk1 v15), ∀ a, (k6_off33 v15) a + S1x256.size a ≤ S20000x256.size a := fun v15 k6_hw1 => k6_hw1.2

def k6_off34 (v24 : BitVec 32) : Fin 2 → Nat :=
  let c0_i32_81 : BitVec 32 := 0#32
  ![v24.toNat, 0]

def k6_chk2 (v24 : BitVec 32) : Prop :=
  (∀ a, (k6_off4 v24) a + S1x256.size a ≤ S20000x256.size a) ∧
  (∀ a, (k6_off34 v24) a + S1x256.size a ≤ S20000x256.size a)
instance k6_chk2.dec : ∀ (v24 : BitVec 32), Decidable (k6_chk2 v24) := fun v24 => decidable_of_iff' _ (Iff.of_eq (k6_chk2.eq_1 v24))
theorem k6_off4_inb : ∀ (v24 : BitVec 32) (k6_hw2 : k6_chk2 v24), ∀ a, (k6_off4 v24) a + S1x256.size a ≤ S20000x256.size a := fun v24 k6_hw2 => k6_hw2.1
theorem k6_off34_inb : ∀ (v24 : BitVec 32) (k6_hw2 : k6_chk2 v24), ∀ a, (k6_off34 v24) a + S1x256.size a ≤ S20000x256.size a := fun v24 k6_hw2 => k6_hw2.2

def k6_off35 (v33 : BitVec 32) : Fin 2 → Nat :=
  let c0_i32_85 : BitVec 32 := 0#32
  ![v33.toNat, 0]

def k6_chk3 (v33 : BitVec 32) : Prop :=
  (∀ a, (k6_off6 v33) a + S1x256.size a ≤ S20000x256.size a) ∧
  (∀ a, (k6_off35 v33) a + S1x256.size a ≤ S20000x256.size a)
instance k6_chk3.dec : ∀ (v33 : BitVec 32), Decidable (k6_chk3 v33) := fun v33 => decidable_of_iff' _ (Iff.of_eq (k6_chk3.eq_1 v33))
theorem k6_off6_inb : ∀ (v33 : BitVec 32) (k6_hw3 : k6_chk3 v33), ∀ a, (k6_off6 v33) a + S1x256.size a ≤ S20000x256.size a := fun v33 k6_hw3 => k6_hw3.1
theorem k6_off35_inb : ∀ (v33 : BitVec 32) (k6_hw3 : k6_chk3 v33), ∀ a, (k6_off35 v33) a + S1x256.size a ≤ S20000x256.size a := fun v33 k6_hw3 => k6_hw3.2

def k6_off36 (v42 : BitVec 32) : Fin 2 → Nat :=
  let c0_i32_89 : BitVec 32 := 0#32
  ![v42.toNat, 0]

def k6_chk4 (v42 : BitVec 32) : Prop :=
  (∀ a, (k6_off8 v42) a + S1x256.size a ≤ S20000x256.size a) ∧
  (∀ a, (k6_off36 v42) a + S1x256.size a ≤ S20000x256.size a)
instance k6_chk4.dec : ∀ (v42 : BitVec 32), Decidable (k6_chk4 v42) := fun v42 => decidable_of_iff' _ (Iff.of_eq (k6_chk4.eq_1 v42))
theorem k6_off8_inb : ∀ (v42 : BitVec 32) (k6_hw4 : k6_chk4 v42), ∀ a, (k6_off8 v42) a + S1x256.size a ≤ S20000x256.size a := fun v42 k6_hw4 => k6_hw4.1
theorem k6_off36_inb : ∀ (v42 : BitVec 32) (k6_hw4 : k6_chk4 v42), ∀ a, (k6_off36 v42) a + S1x256.size a ≤ S20000x256.size a := fun v42 k6_hw4 => k6_hw4.2

def k6_off37 (v51 : BitVec 32) : Fin 2 → Nat :=
  let c0_i32_93 : BitVec 32 := 0#32
  ![v51.toNat, 0]

def k6_chk5 (v51 : BitVec 32) : Prop :=
  (∀ a, (k6_off10 v51) a + S1x256.size a ≤ S20000x256.size a) ∧
  (∀ a, (k6_off37 v51) a + S1x256.size a ≤ S20000x256.size a)
instance k6_chk5.dec : ∀ (v51 : BitVec 32), Decidable (k6_chk5 v51) := fun v51 => decidable_of_iff' _ (Iff.of_eq (k6_chk5.eq_1 v51))
theorem k6_off10_inb : ∀ (v51 : BitVec 32) (k6_hw5 : k6_chk5 v51), ∀ a, (k6_off10 v51) a + S1x256.size a ≤ S20000x256.size a := fun v51 k6_hw5 => k6_hw5.1
theorem k6_off37_inb : ∀ (v51 : BitVec 32) (k6_hw5 : k6_chk5 v51), ∀ a, (k6_off37 v51) a + S1x256.size a ≤ S20000x256.size a := fun v51 k6_hw5 => k6_hw5.2

def k6_off38 (v60 : BitVec 32) : Fin 2 → Nat :=
  let c0_i32_97 : BitVec 32 := 0#32
  ![v60.toNat, 0]

def k6_chk6 (v60 : BitVec 32) : Prop :=
  (∀ a, (k6_off12 v60) a + S1x256.size a ≤ S20000x256.size a) ∧
  (∀ a, (k6_off38 v60) a + S1x256.size a ≤ S20000x256.size a)
instance k6_chk6.dec : ∀ (v60 : BitVec 32), Decidable (k6_chk6 v60) := fun v60 => decidable_of_iff' _ (Iff.of_eq (k6_chk6.eq_1 v60))
theorem k6_off12_inb : ∀ (v60 : BitVec 32) (k6_hw6 : k6_chk6 v60), ∀ a, (k6_off12 v60) a + S1x256.size a ≤ S20000x256.size a := fun v60 k6_hw6 => k6_hw6.1
theorem k6_off38_inb : ∀ (v60 : BitVec 32) (k6_hw6 : k6_chk6 v60), ∀ a, (k6_off38 v60) a + S1x256.size a ≤ S20000x256.size a := fun v60 k6_hw6 => k6_hw6.2

def k6_off39 (v69 : BitVec 32) : Fin 2 → Nat :=
  let c0_i32_101 : BitVec 32 := 0#32
  ![v69.toNat, 0]

def k6_chk7 (v69 : BitVec 32) : Prop :=
  (∀ a, (k6_off14 v69) a + S1x256.size a ≤ S20000x256.size a) ∧
  (∀ a, (k6_off39 v69) a + S1x256.size a ≤ S20000x256.size a)
instance k6_chk7.dec : ∀ (v69 : BitVec 32), Decidable (k6_chk7 v69) := fun v69 => decidable_of_iff' _ (Iff.of_eq (k6_chk7.eq_1 v69))
theorem k6_off14_inb : ∀ (v69 : BitVec 32) (k6_hw7 : k6_chk7 v69), ∀ a, (k6_off14 v69) a + S1x256.size a ≤ S20000x256.size a := fun v69 k6_hw7 => k6_hw7.1
theorem k6_off39_inb : ∀ (v69 : BitVec 32) (k6_hw7 : k6_chk7 v69), ∀ a, (k6_off39 v69) a + S1x256.size a ≤ S20000x256.size a := fun v69 k6_hw7 => k6_hw7.2

def k6_off40 (v78 : BitVec 32) : Fin 2 → Nat :=
  let c0_i32_105 : BitVec 32 := 0#32
  ![v78.toNat, 0]

def k6_chk8 (v78 : BitVec 32) : Prop :=
  (∀ a, (k6_off16 v78) a + S1x256.size a ≤ S20000x256.size a) ∧
  (∀ a, (k6_off40 v78) a + S1x256.size a ≤ S20000x256.size a)
instance k6_chk8.dec : ∀ (v78 : BitVec 32), Decidable (k6_chk8 v78) := fun v78 => decidable_of_iff' _ (Iff.of_eq (k6_chk8.eq_1 v78))
theorem k6_off16_inb : ∀ (v78 : BitVec 32) (k6_hw8 : k6_chk8 v78), ∀ a, (k6_off16 v78) a + S1x256.size a ≤ S20000x256.size a := fun v78 k6_hw8 => k6_hw8.1
theorem k6_off40_inb : ∀ (v78 : BitVec 32) (k6_hw8 : k6_chk8 v78), ∀ a, (k6_off40 v78) a + S1x256.size a ≤ S20000x256.size a := fun v78 k6_hw8 => k6_hw8.2

def k6_off41 (v87 : BitVec 32) : Fin 2 → Nat :=
  let c0_i32_109 : BitVec 32 := 0#32
  ![v87.toNat, 0]

def k6_chk9 (v87 : BitVec 32) : Prop :=
  (∀ a, (k6_off18 v87) a + S1x256.size a ≤ S20000x256.size a) ∧
  (∀ a, (k6_off41 v87) a + S1x256.size a ≤ S20000x256.size a)
instance k6_chk9.dec : ∀ (v87 : BitVec 32), Decidable (k6_chk9 v87) := fun v87 => decidable_of_iff' _ (Iff.of_eq (k6_chk9.eq_1 v87))
theorem k6_off18_inb : ∀ (v87 : BitVec 32) (k6_hw9 : k6_chk9 v87), ∀ a, (k6_off18 v87) a + S1x256.size a ≤ S20000x256.size a := fun v87 k6_hw9 => k6_hw9.1
theorem k6_off41_inb : ∀ (v87 : BitVec 32) (k6_hw9 : k6_chk9 v87), ∀ a, (k6_off41 v87) a + S1x256.size a ≤ S20000x256.size a := fun v87 k6_hw9 => k6_hw9.2

def k6_off42 (v96 : BitVec 32) : Fin 2 → Nat :=
  let c0_i32_113 : BitVec 32 := 0#32
  ![v96.toNat, 0]

def k6_chk10 (v96 : BitVec 32) : Prop :=
  (∀ a, (k6_off20 v96) a + S1x256.size a ≤ S20000x256.size a) ∧
  (∀ a, (k6_off42 v96) a + S1x256.size a ≤ S20000x256.size a)
instance k6_chk10.dec : ∀ (v96 : BitVec 32), Decidable (k6_chk10 v96) := fun v96 => decidable_of_iff' _ (Iff.of_eq (k6_chk10.eq_1 v96))
theorem k6_off20_inb : ∀ (v96 : BitVec 32) (k6_hw10 : k6_chk10 v96), ∀ a, (k6_off20 v96) a + S1x256.size a ≤ S20000x256.size a := fun v96 k6_hw10 => k6_hw10.1
theorem k6_off42_inb : ∀ (v96 : BitVec 32) (k6_hw10 : k6_chk10 v96), ∀ a, (k6_off42 v96) a + S1x256.size a ≤ S20000x256.size a := fun v96 k6_hw10 => k6_hw10.2

def k6_off43 (v105 : BitVec 32) : Fin 2 → Nat :=
  let c0_i32_117 : BitVec 32 := 0#32
  ![v105.toNat, 0]

def k6_chk11 (v105 : BitVec 32) : Prop :=
  (∀ a, (k6_off22 v105) a + S1x256.size a ≤ S20000x256.size a) ∧
  (∀ a, (k6_off43 v105) a + S1x256.size a ≤ S20000x256.size a)
instance k6_chk11.dec : ∀ (v105 : BitVec 32), Decidable (k6_chk11 v105) := fun v105 => decidable_of_iff' _ (Iff.of_eq (k6_chk11.eq_1 v105))
theorem k6_off22_inb : ∀ (v105 : BitVec 32) (k6_hw11 : k6_chk11 v105), ∀ a, (k6_off22 v105) a + S1x256.size a ≤ S20000x256.size a := fun v105 k6_hw11 => k6_hw11.1
theorem k6_off43_inb : ∀ (v105 : BitVec 32) (k6_hw11 : k6_chk11 v105), ∀ a, (k6_off43 v105) a + S1x256.size a ≤ S20000x256.size a := fun v105 k6_hw11 => k6_hw11.2

def k6_off44 (v114 : BitVec 32) : Fin 2 → Nat :=
  let c0_i32_121 : BitVec 32 := 0#32
  ![v114.toNat, 0]

def k6_chk12 (v114 : BitVec 32) : Prop :=
  (∀ a, (k6_off24 v114) a + S1x256.size a ≤ S20000x256.size a) ∧
  (∀ a, (k6_off44 v114) a + S1x256.size a ≤ S20000x256.size a)
instance k6_chk12.dec : ∀ (v114 : BitVec 32), Decidable (k6_chk12 v114) := fun v114 => decidable_of_iff' _ (Iff.of_eq (k6_chk12.eq_1 v114))
theorem k6_off24_inb : ∀ (v114 : BitVec 32) (k6_hw12 : k6_chk12 v114), ∀ a, (k6_off24 v114) a + S1x256.size a ≤ S20000x256.size a := fun v114 k6_hw12 => k6_hw12.1
theorem k6_off44_inb : ∀ (v114 : BitVec 32) (k6_hw12 : k6_chk12 v114), ∀ a, (k6_off44 v114) a + S1x256.size a ≤ S20000x256.size a := fun v114 k6_hw12 => k6_hw12.2

def k6_off45 (v123 : BitVec 32) : Fin 2 → Nat :=
  let c0_i32_125 : BitVec 32 := 0#32
  ![v123.toNat, 0]

def k6_chk13 (v123 : BitVec 32) : Prop :=
  (∀ a, (k6_off26 v123) a + S1x256.size a ≤ S20000x256.size a) ∧
  (∀ a, (k6_off45 v123) a + S1x256.size a ≤ S20000x256.size a)
instance k6_chk13.dec : ∀ (v123 : BitVec 32), Decidable (k6_chk13 v123) := fun v123 => decidable_of_iff' _ (Iff.of_eq (k6_chk13.eq_1 v123))
theorem k6_off26_inb : ∀ (v123 : BitVec 32) (k6_hw13 : k6_chk13 v123), ∀ a, (k6_off26 v123) a + S1x256.size a ≤ S20000x256.size a := fun v123 k6_hw13 => k6_hw13.1
theorem k6_off45_inb : ∀ (v123 : BitVec 32) (k6_hw13 : k6_chk13 v123), ∀ a, (k6_off45 v123) a + S1x256.size a ≤ S20000x256.size a := fun v123 k6_hw13 => k6_hw13.2

def k6_off46 (v132 : BitVec 32) : Fin 2 → Nat :=
  let c0_i32_129 : BitVec 32 := 0#32
  ![v132.toNat, 0]

def k6_chk14 (v132 : BitVec 32) : Prop :=
  (∀ a, (k6_off28 v132) a + S1x256.size a ≤ S20000x256.size a) ∧
  (∀ a, (k6_off46 v132) a + S1x256.size a ≤ S20000x256.size a)
instance k6_chk14.dec : ∀ (v132 : BitVec 32), Decidable (k6_chk14 v132) := fun v132 => decidable_of_iff' _ (Iff.of_eq (k6_chk14.eq_1 v132))
theorem k6_off28_inb : ∀ (v132 : BitVec 32) (k6_hw14 : k6_chk14 v132), ∀ a, (k6_off28 v132) a + S1x256.size a ≤ S20000x256.size a := fun v132 k6_hw14 => k6_hw14.1
theorem k6_off46_inb : ∀ (v132 : BitVec 32) (k6_hw14 : k6_chk14 v132), ∀ a, (k6_off46 v132) a + S1x256.size a ≤ S20000x256.size a := fun v132 k6_hw14 => k6_hw14.2

def k6_off47 (v141 : BitVec 32) : Fin 2 → Nat :=
  let c0_i32_133 : BitVec 32 := 0#32
  ![v141.toNat, 0]

def k6_chk15 (v141 : BitVec 32) : Prop :=
  (∀ a, (k6_off30 v141) a + S1x256.size a ≤ S20000x256.size a) ∧
  (∀ a, (k6_off47 v141) a + S1x256.size a ≤ S20000x256.size a)
instance k6_chk15.dec : ∀ (v141 : BitVec 32), Decidable (k6_chk15 v141) := fun v141 => decidable_of_iff' _ (Iff.of_eq (k6_chk15.eq_1 v141))
theorem k6_off30_inb : ∀ (v141 : BitVec 32) (k6_hw15 : k6_chk15 v141), ∀ a, (k6_off30 v141) a + S1x256.size a ≤ S20000x256.size a := fun v141 k6_hw15 => k6_hw15.1
theorem k6_off47_inb : ∀ (v141 : BitVec 32) (k6_hw15 : k6_chk15 v141), ∀ a, (k6_off47 v141) a + S1x256.size a ≤ S20000x256.size a := fun v141 k6_hw15 => k6_hw15.2

def k6_mult1 (k6_t1 : Fin k6_t1_loop.trips) : BitVec 32 :=
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  v253
def k6_off48 (k6_t1 : Fin k6_t1_loop.trips) : Fin 2 → Nat :=
  let c0_i32_7 : BitVec 32 := 0#32
  let c0_i32 : BitVec 32 := 0#32
  let c1_i32 : BitVec 32 := 1#32
  let arg7 : BitVec 32 := Scf.iv c0_i32 c1_i32 k6_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  let v254 : BitVec 32 := v253
  let v256 : Index := Scalar.indexCast v254
  let c0_141 : Index := 0#32
  ![v256.toNat, 0]
def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S20000x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S800x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S800x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![100], ![false]⟩

abbrev pre7 : Pipeline.Prefetch sig := ⟨1, ![main_v32.idx], fun | 0 => main_v32.names | ⟨_ + 1, h⟩ => absurd h (Nat.not_lt.2 (Nat.le_add_left _ _)), fun | 0 => rfl | ⟨_ + 1, h⟩ => absurd h (Nat.not_lt.2 (Nat.le_add_left _ _))⟩

@[reducible] def k7_t1_loop : Scf.Loop 32 :=
  let c0_i32 : BitVec 32 := 0#32
  let c50_i32 : BitVec 32 := 50#32
  let v1 : BitVec 32 := Scalar.addi c0_i32 c50_i32
  let c1_i32 : BitVec 32 := 1#32
  ⟨c0_i32, v1, c1_i32⟩
def k7_off1 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c0_i32_8 : BitVec 32 := 0#32
  let v13 : BitVec 32 := Scalar.addi v12 c0_i32_8
  let v14 : Index := Scalar.indexCast v13
  ![v14.toNat]
def k7_off2 (v15 : BitVec 32) : Fin 2 → Nat :=
  let c0_i32_12 : BitVec 32 := 0#32
  ![v15.toNat, 0]

def k7_off3 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c1_i32_13 : BitVec 32 := 1#32
  let v22 : BitVec 32 := Scalar.addi v12 c1_i32_13
  let v23 : Index := Scalar.indexCast v22
  ![v23.toNat]
def k7_off4 (v24 : BitVec 32) : Fin 2 → Nat :=
  let c0_i32_17 : BitVec 32 := 0#32
  ![v24.toNat, 0]

def k7_off5 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c2_i32 : BitVec 32 := 2#32
  let v31 : BitVec 32 := Scalar.addi v12 c2_i32
  let v32 : Index := Scalar.indexCast v31
  ![v32.toNat]
def k7_off6 (v33 : BitVec 32) : Fin 2 → Nat :=
  let c0_i32_21 : BitVec 32 := 0#32
  ![v33.toNat, 0]

def k7_off7 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c3_i32 : BitVec 32 := 3#32
  let v40 : BitVec 32 := Scalar.addi v12 c3_i32
  let v41 : Index := Scalar.indexCast v40
  ![v41.toNat]
def k7_off8 (v42 : BitVec 32) : Fin 2 → Nat :=
  let c0_i32_25 : BitVec 32 := 0#32
  ![v42.toNat, 0]

def k7_off9 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c4_i32 : BitVec 32 := 4#32
  let v49 : BitVec 32 := Scalar.addi v12 c4_i32
  let v50 : Index := Scalar.indexCast v49
  ![v50.toNat]
def k7_off10 (v51 : BitVec 32) : Fin 2 → Nat :=
  let c0_i32_29 : BitVec 32 := 0#32
  ![v51.toNat, 0]

def k7_off11 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c5_i32 : BitVec 32 := 5#32
  let v58 : BitVec 32 := Scalar.addi v12 c5_i32
  let v59 : Index := Scalar.indexCast v58
  ![v59.toNat]
def k7_off12 (v60 : BitVec 32) : Fin 2 → Nat :=
  let c0_i32_33 : BitVec 32 := 0#32
  ![v60.toNat, 0]

def k7_off13 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c6_i32 : BitVec 32 := 6#32
  let v67 : BitVec 32 := Scalar.addi v12 c6_i32
  let v68 : Index := Scalar.indexCast v67
  ![v68.toNat]
def k7_off14 (v69 : BitVec 32) : Fin 2 → Nat :=
  let c0_i32_37 : BitVec 32 := 0#32
  ![v69.toNat, 0]

def k7_off15 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c7_i32 : BitVec 32 := 7#32
  let v76 : BitVec 32 := Scalar.addi v12 c7_i32
  let v77 : Index := Scalar.indexCast v76
  ![v77.toNat]
def k7_off16 (v78 : BitVec 32) : Fin 2 → Nat :=
  let c0_i32_41 : BitVec 32 := 0#32
  ![v78.toNat, 0]

def k7_off17 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c8_i32 : BitVec 32 := 8#32
  let v85 : BitVec 32 := Scalar.addi v12 c8_i32
  let v86 : Index := Scalar.indexCast v85
  ![v86.toNat]
def k7_off18 (v87 : BitVec 32) : Fin 2 → Nat :=
  let c0_i32_45 : BitVec 32 := 0#32
  ![v87.toNat, 0]

def k7_off19 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c9_i32 : BitVec 32 := 9#32
  let v94 : BitVec 32 := Scalar.addi v12 c9_i32
  let v95 : Index := Scalar.indexCast v94
  ![v95.toNat]
def k7_off20 (v96 : BitVec 32) : Fin 2 → Nat :=
  let c0_i32_49 : BitVec 32 := 0#32
  ![v96.toNat, 0]

def k7_off21 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c10_i32 : BitVec 32 := 10#32
  let v103 : BitVec 32 := Scalar.addi v12 c10_i32
  let v104 : Index := Scalar.indexCast v103
  ![v104.toNat]
def k7_off22 (v105 : BitVec 32) : Fin 2 → Nat :=
  let c0_i32_53 : BitVec 32 := 0#32
  ![v105.toNat, 0]

def k7_off23 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c11_i32 : BitVec 32 := 11#32
  let v112 : BitVec 32 := Scalar.addi v12 c11_i32
  let v113 : Index := Scalar.indexCast v112
  ![v113.toNat]
def k7_off24 (v114 : BitVec 32) : Fin 2 → Nat :=
  let c0_i32_57 : BitVec 32 := 0#32
  ![v114.toNat, 0]

def k7_off25 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c12_i32 : BitVec 32 := 12#32
  let v121 : BitVec 32 := Scalar.addi v12 c12_i32
  let v122 : Index := Scalar.indexCast v121
  ![v122.toNat]
def k7_off26 (v123 : BitVec 32) : Fin 2 → Nat :=
  let c0_i32_61 : BitVec 32 := 0#32
  ![v123.toNat, 0]

def k7_off27 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c13_i32 : BitVec 32 := 13#32
  let v130 : BitVec 32 := Scalar.addi v12 c13_i32
  let v131 : Index := Scalar.indexCast v130
  ![v131.toNat]
def k7_off28 (v132 : BitVec 32) : Fin 2 → Nat :=
  let c0_i32_65 : BitVec 32 := 0#32
  ![v132.toNat, 0]

def k7_off29 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c14_i32 : BitVec 32 := 14#32
  let v139 : BitVec 32 := Scalar.addi v12 c14_i32
  let v140 : Index := Scalar.indexCast v139
  ![v140.toNat]
def k7_off30 (v141 : BitVec 32) : Fin 2 → Nat :=
  let c0_i32_69 : BitVec 32 := 0#32
  ![v141.toNat, 0]

def k7_off31 (i : grid7.Coords) (k7_t1 : Fin k7_t1_loop.trips) : Fin 1 → Nat :=
  let arg0 : BitVec 32 := BitVec.ofNat 32 (i 0).val
  let c800_i32 : BitVec 32 := 800#32
  let v0 : BitVec 32 := Scalar.muli arg0 c800_i32
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32 : BitVec 32 := 16#32
  let v11 : BitVec 32 := Scalar.muli v10 c16_i32
  let v12 : BitVec 32 := Scalar.addi v0 v11
  let c15_i32 : BitVec 32 := 15#32
  let v148 : BitVec 32 := Scalar.addi v12 c15_i32
  let v149 : Index := Scalar.indexCast v148
  ![v149.toNat]
def k7_off32 (v150 : BitVec 32) : Fin 2 → Nat :=
  let c0_i32_73 : BitVec 32 := 0#32
  ![v150.toNat, 0]

def k7_chk16 (v150 : BitVec 32) : Prop :=
  (∀ a, (k7_off32 v150) a + S1x256.size a ≤ S20000x256.size a)
instance k7_chk16.dec : ∀ (v150 : BitVec 32), Decidable (k7_chk16 v150) := fun v150 => decidable_of_iff' _ (Iff.of_eq (k7_chk16.eq_1 v150))
theorem k7_off32_inb : ∀ (v150 : BitVec 32) (k7_hw16 : k7_chk16 v150), ∀ a, (k7_off32 v150) a + S1x256.size a ≤ S20000x256.size a := fun v150 k7_hw16 => k7_hw16

def k7_off33 (v15 : BitVec 32) : Fin 2 → Nat :=
  let c0_i32_77 : BitVec 32 := 0#32
  ![v15.toNat, 0]

def k7_chk1 (v15 : BitVec 32) : Prop :=
  (∀ a, (k7_off2 v15) a + S1x256.size a ≤ S20000x256.size a) ∧
  (∀ a, (k7_off33 v15) a + S1x256.size a ≤ S20000x256.size a)
instance k7_chk1.dec : ∀ (v15 : BitVec 32), Decidable (k7_chk1 v15) := fun v15 => decidable_of_iff' _ (Iff.of_eq (k7_chk1.eq_1 v15))
theorem k7_off2_inb : ∀ (v15 : BitVec 32) (k7_hw1 : k7_chk1 v15), ∀ a, (k7_off2 v15) a + S1x256.size a ≤ S20000x256.size a := fun v15 k7_hw1 => k7_hw1.1
theorem k7_off33_inb : ∀ (v15 : BitVec 32) (k7_hw1 : k7_chk1 v15), ∀ a, (k7_off33 v15) a + S1x256.size a ≤ S20000x256.size a := fun v15 k7_hw1 => k7_hw1.2

def k7_off34 (v24 : BitVec 32) : Fin 2 → Nat :=
  let c0_i32_81 : BitVec 32 := 0#32
  ![v24.toNat, 0]

def k7_chk2 (v24 : BitVec 32) : Prop :=
  (∀ a, (k7_off4 v24) a + S1x256.size a ≤ S20000x256.size a) ∧
  (∀ a, (k7_off34 v24) a + S1x256.size a ≤ S20000x256.size a)
instance k7_chk2.dec : ∀ (v24 : BitVec 32), Decidable (k7_chk2 v24) := fun v24 => decidable_of_iff' _ (Iff.of_eq (k7_chk2.eq_1 v24))
theorem k7_off4_inb : ∀ (v24 : BitVec 32) (k7_hw2 : k7_chk2 v24), ∀ a, (k7_off4 v24) a + S1x256.size a ≤ S20000x256.size a := fun v24 k7_hw2 => k7_hw2.1
theorem k7_off34_inb : ∀ (v24 : BitVec 32) (k7_hw2 : k7_chk2 v24), ∀ a, (k7_off34 v24) a + S1x256.size a ≤ S20000x256.size a := fun v24 k7_hw2 => k7_hw2.2

def k7_off35 (v33 : BitVec 32) : Fin 2 → Nat :=
  let c0_i32_85 : BitVec 32 := 0#32
  ![v33.toNat, 0]

def k7_chk3 (v33 : BitVec 32) : Prop :=
  (∀ a, (k7_off6 v33) a + S1x256.size a ≤ S20000x256.size a) ∧
  (∀ a, (k7_off35 v33) a + S1x256.size a ≤ S20000x256.size a)
instance k7_chk3.dec : ∀ (v33 : BitVec 32), Decidable (k7_chk3 v33) := fun v33 => decidable_of_iff' _ (Iff.of_eq (k7_chk3.eq_1 v33))
theorem k7_off6_inb : ∀ (v33 : BitVec 32) (k7_hw3 : k7_chk3 v33), ∀ a, (k7_off6 v33) a + S1x256.size a ≤ S20000x256.size a := fun v33 k7_hw3 => k7_hw3.1
theorem k7_off35_inb : ∀ (v33 : BitVec 32) (k7_hw3 : k7_chk3 v33), ∀ a, (k7_off35 v33) a + S1x256.size a ≤ S20000x256.size a := fun v33 k7_hw3 => k7_hw3.2

def k7_off36 (v42 : BitVec 32) : Fin 2 → Nat :=
  let c0_i32_89 : BitVec 32 := 0#32
  ![v42.toNat, 0]

def k7_chk4 (v42 : BitVec 32) : Prop :=
  (∀ a, (k7_off8 v42) a + S1x256.size a ≤ S20000x256.size a) ∧
  (∀ a, (k7_off36 v42) a + S1x256.size a ≤ S20000x256.size a)
instance k7_chk4.dec : ∀ (v42 : BitVec 32), Decidable (k7_chk4 v42) := fun v42 => decidable_of_iff' _ (Iff.of_eq (k7_chk4.eq_1 v42))
theorem k7_off8_inb : ∀ (v42 : BitVec 32) (k7_hw4 : k7_chk4 v42), ∀ a, (k7_off8 v42) a + S1x256.size a ≤ S20000x256.size a := fun v42 k7_hw4 => k7_hw4.1
theorem k7_off36_inb : ∀ (v42 : BitVec 32) (k7_hw4 : k7_chk4 v42), ∀ a, (k7_off36 v42) a + S1x256.size a ≤ S20000x256.size a := fun v42 k7_hw4 => k7_hw4.2

def k7_off37 (v51 : BitVec 32) : Fin 2 → Nat :=
  let c0_i32_93 : BitVec 32 := 0#32
  ![v51.toNat, 0]

def k7_chk5 (v51 : BitVec 32) : Prop :=
  (∀ a, (k7_off10 v51) a + S1x256.size a ≤ S20000x256.size a) ∧
  (∀ a, (k7_off37 v51) a + S1x256.size a ≤ S20000x256.size a)
instance k7_chk5.dec : ∀ (v51 : BitVec 32), Decidable (k7_chk5 v51) := fun v51 => decidable_of_iff' _ (Iff.of_eq (k7_chk5.eq_1 v51))
theorem k7_off10_inb : ∀ (v51 : BitVec 32) (k7_hw5 : k7_chk5 v51), ∀ a, (k7_off10 v51) a + S1x256.size a ≤ S20000x256.size a := fun v51 k7_hw5 => k7_hw5.1
theorem k7_off37_inb : ∀ (v51 : BitVec 32) (k7_hw5 : k7_chk5 v51), ∀ a, (k7_off37 v51) a + S1x256.size a ≤ S20000x256.size a := fun v51 k7_hw5 => k7_hw5.2

def k7_off38 (v60 : BitVec 32) : Fin 2 → Nat :=
  let c0_i32_97 : BitVec 32 := 0#32
  ![v60.toNat, 0]

def k7_chk6 (v60 : BitVec 32) : Prop :=
  (∀ a, (k7_off12 v60) a + S1x256.size a ≤ S20000x256.size a) ∧
  (∀ a, (k7_off38 v60) a + S1x256.size a ≤ S20000x256.size a)
instance k7_chk6.dec : ∀ (v60 : BitVec 32), Decidable (k7_chk6 v60) := fun v60 => decidable_of_iff' _ (Iff.of_eq (k7_chk6.eq_1 v60))
theorem k7_off12_inb : ∀ (v60 : BitVec 32) (k7_hw6 : k7_chk6 v60), ∀ a, (k7_off12 v60) a + S1x256.size a ≤ S20000x256.size a := fun v60 k7_hw6 => k7_hw6.1
theorem k7_off38_inb : ∀ (v60 : BitVec 32) (k7_hw6 : k7_chk6 v60), ∀ a, (k7_off38 v60) a + S1x256.size a ≤ S20000x256.size a := fun v60 k7_hw6 => k7_hw6.2

def k7_off39 (v69 : BitVec 32) : Fin 2 → Nat :=
  let c0_i32_101 : BitVec 32 := 0#32
  ![v69.toNat, 0]

def k7_chk7 (v69 : BitVec 32) : Prop :=
  (∀ a, (k7_off14 v69) a + S1x256.size a ≤ S20000x256.size a) ∧
  (∀ a, (k7_off39 v69) a + S1x256.size a ≤ S20000x256.size a)
instance k7_chk7.dec : ∀ (v69 : BitVec 32), Decidable (k7_chk7 v69) := fun v69 => decidable_of_iff' _ (Iff.of_eq (k7_chk7.eq_1 v69))
theorem k7_off14_inb : ∀ (v69 : BitVec 32) (k7_hw7 : k7_chk7 v69), ∀ a, (k7_off14 v69) a + S1x256.size a ≤ S20000x256.size a := fun v69 k7_hw7 => k7_hw7.1
theorem k7_off39_inb : ∀ (v69 : BitVec 32) (k7_hw7 : k7_chk7 v69), ∀ a, (k7_off39 v69) a + S1x256.size a ≤ S20000x256.size a := fun v69 k7_hw7 => k7_hw7.2

def k7_off40 (v78 : BitVec 32) : Fin 2 → Nat :=
  let c0_i32_105 : BitVec 32 := 0#32
  ![v78.toNat, 0]

def k7_chk8 (v78 : BitVec 32) : Prop :=
  (∀ a, (k7_off16 v78) a + S1x256.size a ≤ S20000x256.size a) ∧
  (∀ a, (k7_off40 v78) a + S1x256.size a ≤ S20000x256.size a)
instance k7_chk8.dec : ∀ (v78 : BitVec 32), Decidable (k7_chk8 v78) := fun v78 => decidable_of_iff' _ (Iff.of_eq (k7_chk8.eq_1 v78))
theorem k7_off16_inb : ∀ (v78 : BitVec 32) (k7_hw8 : k7_chk8 v78), ∀ a, (k7_off16 v78) a + S1x256.size a ≤ S20000x256.size a := fun v78 k7_hw8 => k7_hw8.1
theorem k7_off40_inb : ∀ (v78 : BitVec 32) (k7_hw8 : k7_chk8 v78), ∀ a, (k7_off40 v78) a + S1x256.size a ≤ S20000x256.size a := fun v78 k7_hw8 => k7_hw8.2

def k7_off41 (v87 : BitVec 32) : Fin 2 → Nat :=
  let c0_i32_109 : BitVec 32 := 0#32
  ![v87.toNat, 0]

def k7_chk9 (v87 : BitVec 32) : Prop :=
  (∀ a, (k7_off18 v87) a + S1x256.size a ≤ S20000x256.size a) ∧
  (∀ a, (k7_off41 v87) a + S1x256.size a ≤ S20000x256.size a)
instance k7_chk9.dec : ∀ (v87 : BitVec 32), Decidable (k7_chk9 v87) := fun v87 => decidable_of_iff' _ (Iff.of_eq (k7_chk9.eq_1 v87))
theorem k7_off18_inb : ∀ (v87 : BitVec 32) (k7_hw9 : k7_chk9 v87), ∀ a, (k7_off18 v87) a + S1x256.size a ≤ S20000x256.size a := fun v87 k7_hw9 => k7_hw9.1
theorem k7_off41_inb : ∀ (v87 : BitVec 32) (k7_hw9 : k7_chk9 v87), ∀ a, (k7_off41 v87) a + S1x256.size a ≤ S20000x256.size a := fun v87 k7_hw9 => k7_hw9.2

def k7_off42 (v96 : BitVec 32) : Fin 2 → Nat :=
  let c0_i32_113 : BitVec 32 := 0#32
  ![v96.toNat, 0]

def k7_chk10 (v96 : BitVec 32) : Prop :=
  (∀ a, (k7_off20 v96) a + S1x256.size a ≤ S20000x256.size a) ∧
  (∀ a, (k7_off42 v96) a + S1x256.size a ≤ S20000x256.size a)
instance k7_chk10.dec : ∀ (v96 : BitVec 32), Decidable (k7_chk10 v96) := fun v96 => decidable_of_iff' _ (Iff.of_eq (k7_chk10.eq_1 v96))
theorem k7_off20_inb : ∀ (v96 : BitVec 32) (k7_hw10 : k7_chk10 v96), ∀ a, (k7_off20 v96) a + S1x256.size a ≤ S20000x256.size a := fun v96 k7_hw10 => k7_hw10.1
theorem k7_off42_inb : ∀ (v96 : BitVec 32) (k7_hw10 : k7_chk10 v96), ∀ a, (k7_off42 v96) a + S1x256.size a ≤ S20000x256.size a := fun v96 k7_hw10 => k7_hw10.2

def k7_off43 (v105 : BitVec 32) : Fin 2 → Nat :=
  let c0_i32_117 : BitVec 32 := 0#32
  ![v105.toNat, 0]

def k7_chk11 (v105 : BitVec 32) : Prop :=
  (∀ a, (k7_off22 v105) a + S1x256.size a ≤ S20000x256.size a) ∧
  (∀ a, (k7_off43 v105) a + S1x256.size a ≤ S20000x256.size a)
instance k7_chk11.dec : ∀ (v105 : BitVec 32), Decidable (k7_chk11 v105) := fun v105 => decidable_of_iff' _ (Iff.of_eq (k7_chk11.eq_1 v105))
theorem k7_off22_inb : ∀ (v105 : BitVec 32) (k7_hw11 : k7_chk11 v105), ∀ a, (k7_off22 v105) a + S1x256.size a ≤ S20000x256.size a := fun v105 k7_hw11 => k7_hw11.1
theorem k7_off43_inb : ∀ (v105 : BitVec 32) (k7_hw11 : k7_chk11 v105), ∀ a, (k7_off43 v105) a + S1x256.size a ≤ S20000x256.size a := fun v105 k7_hw11 => k7_hw11.2

def k7_off44 (v114 : BitVec 32) : Fin 2 → Nat :=
  let c0_i32_121 : BitVec 32 := 0#32
  ![v114.toNat, 0]

def k7_chk12 (v114 : BitVec 32) : Prop :=
  (∀ a, (k7_off24 v114) a + S1x256.size a ≤ S20000x256.size a) ∧
  (∀ a, (k7_off44 v114) a + S1x256.size a ≤ S20000x256.size a)
instance k7_chk12.dec : ∀ (v114 : BitVec 32), Decidable (k7_chk12 v114) := fun v114 => decidable_of_iff' _ (Iff.of_eq (k7_chk12.eq_1 v114))
theorem k7_off24_inb : ∀ (v114 : BitVec 32) (k7_hw12 : k7_chk12 v114), ∀ a, (k7_off24 v114) a + S1x256.size a ≤ S20000x256.size a := fun v114 k7_hw12 => k7_hw12.1
theorem k7_off44_inb : ∀ (v114 : BitVec 32) (k7_hw12 : k7_chk12 v114), ∀ a, (k7_off44 v114) a + S1x256.size a ≤ S20000x256.size a := fun v114 k7_hw12 => k7_hw12.2

def k7_off45 (v123 : BitVec 32) : Fin 2 → Nat :=
  let c0_i32_125 : BitVec 32 := 0#32
  ![v123.toNat, 0]

def k7_chk13 (v123 : BitVec 32) : Prop :=
  (∀ a, (k7_off26 v123) a + S1x256.size a ≤ S20000x256.size a) ∧
  (∀ a, (k7_off45 v123) a + S1x256.size a ≤ S20000x256.size a)
instance k7_chk13.dec : ∀ (v123 : BitVec 32), Decidable (k7_chk13 v123) := fun v123 => decidable_of_iff' _ (Iff.of_eq (k7_chk13.eq_1 v123))
theorem k7_off26_inb : ∀ (v123 : BitVec 32) (k7_hw13 : k7_chk13 v123), ∀ a, (k7_off26 v123) a + S1x256.size a ≤ S20000x256.size a := fun v123 k7_hw13 => k7_hw13.1
theorem k7_off45_inb : ∀ (v123 : BitVec 32) (k7_hw13 : k7_chk13 v123), ∀ a, (k7_off45 v123) a + S1x256.size a ≤ S20000x256.size a := fun v123 k7_hw13 => k7_hw13.2

def k7_off46 (v132 : BitVec 32) : Fin 2 → Nat :=
  let c0_i32_129 : BitVec 32 := 0#32
  ![v132.toNat, 0]

def k7_chk14 (v132 : BitVec 32) : Prop :=
  (∀ a, (k7_off28 v132) a + S1x256.size a ≤ S20000x256.size a) ∧
  (∀ a, (k7_off46 v132) a + S1x256.size a ≤ S20000x256.size a)
instance k7_chk14.dec : ∀ (v132 : BitVec 32), Decidable (k7_chk14 v132) := fun v132 => decidable_of_iff' _ (Iff.of_eq (k7_chk14.eq_1 v132))
theorem k7_off28_inb : ∀ (v132 : BitVec 32) (k7_hw14 : k7_chk14 v132), ∀ a, (k7_off28 v132) a + S1x256.size a ≤ S20000x256.size a := fun v132 k7_hw14 => k7_hw14.1
theorem k7_off46_inb : ∀ (v132 : BitVec 32) (k7_hw14 : k7_chk14 v132), ∀ a, (k7_off46 v132) a + S1x256.size a ≤ S20000x256.size a := fun v132 k7_hw14 => k7_hw14.2

def k7_off47 (v141 : BitVec 32) : Fin 2 → Nat :=
  let c0_i32_133 : BitVec 32 := 0#32
  ![v141.toNat, 0]

def k7_chk15 (v141 : BitVec 32) : Prop :=
  (∀ a, (k7_off30 v141) a + S1x256.size a ≤ S20000x256.size a) ∧
  (∀ a, (k7_off47 v141) a + S1x256.size a ≤ S20000x256.size a)
instance k7_chk15.dec : ∀ (v141 : BitVec 32), Decidable (k7_chk15 v141) := fun v141 => decidable_of_iff' _ (Iff.of_eq (k7_chk15.eq_1 v141))
theorem k7_off30_inb : ∀ (v141 : BitVec 32) (k7_hw15 : k7_chk15 v141), ∀ a, (k7_off30 v141) a + S1x256.size a ≤ S20000x256.size a := fun v141 k7_hw15 => k7_hw15.1
theorem k7_off47_inb : ∀ (v141 : BitVec 32) (k7_hw15 : k7_chk15 v141), ∀ a, (k7_off47 v141) a + S1x256.size a ≤ S20000x256.size a := fun v141 k7_hw15 => k7_hw15.2

def k7_mult1 (k7_t1 : Fin k7_t1_loop.trips) : BitVec 32 :=
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  v253
def k7_off48 (k7_t1 : Fin k7_t1_loop.trips) : Fin 2 → Nat :=
  let c0_i32_7 : BitVec 32 := 0#32
  let c0_i32 : BitVec 32 := 0#32
  let c1_i32 : BitVec 32 := 1#32
  let arg7 : BitVec 32 := Scf.iv c0_i32 c1_i32 k7_t1
  let c1_i32_6 : BitVec 32 := 1#32
  let v9 : BitVec 32 := Scalar.muli arg7 c1_i32_6
  let v10 : BitVec 32 := Scalar.addi c0_i32_7 v9
  let c16_i32_138 : BitVec 32 := 16#32
  let v253 : BitVec 32 := Scalar.muli v10 c16_i32_138
  let v254 : BitVec 32 := v253
  let v256 : Index := Scalar.indexCast v254
  let c0_141 : Index := 0#32
  ![v256.toNat, 0]
def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S20000x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S800x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S800x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S320000_S80000_0 : S320000.Slices ![0] S80000
  shapeCasts_S80000_S80000x1 : S80000.ShapeCasts S80000x1
  numel1_S1 : S1.numel = 1
  inb_S16_S1_0 : ∀ a, (![0] : Fin 1 → Nat) a + S1.size a ≤ S16.size a
  squeezes_S1_S_ : S1.Squeezes S_
  inb_S16x256_S1x256_0_0 : ∀ a, (![0, 0] : Fin 2 → Nat) a + S1x256.size a ≤ S16x256.size a
  squeezes_S1x256_S256 : S1x256.Squeezes S256
  inb_S16_S1_1 : ∀ a, (![1] : Fin 1 → Nat) a + S1.size a ≤ S16.size a
  inb_S16x256_S1x256_1_0 : ∀ a, (![1, 0] : Fin 2 → Nat) a + S1x256.size a ≤ S16x256.size a
  inb_S16_S1_2 : ∀ a, (![2] : Fin 1 → Nat) a + S1.size a ≤ S16.size a
  inb_S16x256_S1x256_2_0 : ∀ a, (![2, 0] : Fin 2 → Nat) a + S1x256.size a ≤ S16x256.size a
  inb_S16_S1_3 : ∀ a, (![3] : Fin 1 → Nat) a + S1.size a ≤ S16.size a
  inb_S16x256_S1x256_3_0 : ∀ a, (![3, 0] : Fin 2 → Nat) a + S1x256.size a ≤ S16x256.size a
  inb_S16_S1_4 : ∀ a, (![4] : Fin 1 → Nat) a + S1.size a ≤ S16.size a
  inb_S16x256_S1x256_4_0 : ∀ a, (![4, 0] : Fin 2 → Nat) a + S1x256.size a ≤ S16x256.size a
  inb_S16_S1_5 : ∀ a, (![5] : Fin 1 → Nat) a + S1.size a ≤ S16.size a
  inb_S16x256_S1x256_5_0 : ∀ a, (![5, 0] : Fin 2 → Nat) a + S1x256.size a ≤ S16x256.size a
  inb_S16_S1_6 : ∀ a, (![6] : Fin 1 → Nat) a + S1.size a ≤ S16.size a
  inb_S16x256_S1x256_6_0 : ∀ a, (![6, 0] : Fin 2 → Nat) a + S1x256.size a ≤ S16x256.size a
  inb_S16_S1_7 : ∀ a, (![7] : Fin 1 → Nat) a + S1.size a ≤ S16.size a
  inb_S16x256_S1x256_7_0 : ∀ a, (![7, 0] : Fin 2 → Nat) a + S1x256.size a ≤ S16x256.size a
  inb_S16_S1_8 : ∀ a, (![8] : Fin 1 → Nat) a + S1.size a ≤ S16.size a
  inb_S16x256_S1x256_8_0 : ∀ a, (![8, 0] : Fin 2 → Nat) a + S1x256.size a ≤ S16x256.size a
  inb_S16_S1_9 : ∀ a, (![9] : Fin 1 → Nat) a + S1.size a ≤ S16.size a
  inb_S16x256_S1x256_9_0 : ∀ a, (![9, 0] : Fin 2 → Nat) a + S1x256.size a ≤ S16x256.size a
  inb_S16_S1_10 : ∀ a, (![10] : Fin 1 → Nat) a + S1.size a ≤ S16.size a
  inb_S16x256_S1x256_10_0 : ∀ a, (![10, 0] : Fin 2 → Nat) a + S1x256.size a ≤ S16x256.size a
  inb_S16_S1_11 : ∀ a, (![11] : Fin 1 → Nat) a + S1.size a ≤ S16.size a
  inb_S16x256_S1x256_11_0 : ∀ a, (![11, 0] : Fin 2 → Nat) a + S1x256.size a ≤ S16x256.size a
  inb_S16_S1_12 : ∀ a, (![12] : Fin 1 → Nat) a + S1.size a ≤ S16.size a
  inb_S16x256_S1x256_12_0 : ∀ a, (![12, 0] : Fin 2 → Nat) a + S1x256.size a ≤ S16x256.size a
  inb_S16_S1_13 : ∀ a, (![13] : Fin 1 → Nat) a + S1.size a ≤ S16.size a
  inb_S16x256_S1x256_13_0 : ∀ a, (![13, 0] : Fin 2 → Nat) a + S1x256.size a ≤ S16x256.size a
  inb_S16_S1_14 : ∀ a, (![14] : Fin 1 → Nat) a + S1.size a ≤ S16.size a
  inb_S16x256_S1x256_14_0 : ∀ a, (![14, 0] : Fin 2 → Nat) a + S1x256.size a ≤ S16x256.size a
  inb_S16_S1_15 : ∀ a, (![15] : Fin 1 → Nat) a + S1.size a ≤ S16.size a
  inb_S16x256_S1x256_15_0 : ∀ a, (![15, 0] : Fin 2 → Nat) a + S1x256.size a ≤ S16x256.size a
  inb_S16x256_S16x256_0_0 : ∀ a, (![0, 0] : Fin 2 → Nat) a + S16x256.size a ≤ S16x256.size a
  h_S16x256 : 0 < S16x256.numel
  inb_S800x256_S800x256_0_0 : ∀ a, (![0, 0] : Fin 2 → Nat) a + S800x256.size a ≤ S800x256.size a
  h_S800x256 : 0 < S800x256.numel
  shapeCasts_S800x256_S800x256 : S800x256.ShapeCasts S800x256
  inb_S800x1_S800x1_0_0 : ∀ a, (![0, 0] : Fin 2 → Nat) a + S800x1.size a ≤ S800x1.size a
  h_S800x1 : 0 < S800x1.numel
  shapeCasts_S800x1_S800x1 : S800x1.ShapeCasts S800x1
  broadcasts_S800x1_S800x256 : S800x1.Broadcasts S800x256
  slices_S320000_S80000_80000 : S320000.Slices ![80000] S80000
  slices_S320000_S80000_160000 : S320000.Slices ![160000] S80000
  slices_S320000_S80000_240000 : S320000.Slices ![240000] S80000
  concatenates_S80000x256_S80000x256_S80000x256_S80000x256_S320000x256_d0 : Shape.Concatenates [S80000x256, S80000x256, S80000x256, S80000x256] S320000x256 0
  bcast_S_S20000x256 : S_.BroadcastsInDim S20000x256 (![] : Fin 0 → Fin S20000x256.rank)
  bcast_S320000_S320000x1_0 : S320000.BroadcastsInDim S320000x1 (![0] : Fin 1 → Fin S320000x1.rank)
  concatenates_S20000x256_S20000x256_S20000x512_d1 : Shape.Concatenates [S20000x256, S20000x256] S20000x512 1
  scatter_S20000x256_S320000x1_S320000x256_1_0_0_1_wf : ScatterDims.WF S20000x256 S320000x1 S320000x256 [1] [0] [0] 1
  hcc0_scratch1 : 5 + S16.numel ≤ 168
  hcc1_scratch1 : 26 + S16.numel ≤ 168
  hcc2_scratch1 : 47 + S16.numel ≤ 168
  hcc3_scratch1 : 68 + S16.numel ≤ 168
  hcc4_scratch1 : 89 + S16.numel ≤ 168
  hcc5_scratch1 : 110 + S16.numel ≤ 168
  hcc6_scratch1 : 131 + S16.numel ≤ 168
  hcc7_scratch1 : 152 + S16.numel ≤ 168
  hrank0 : 0 < grid0.rank
  k0_t1_ok : k0_t1_loop.OK
  k0_off1_inb : ∀ (i : grid0.Coords) (k0_t1 : Fin k0_t1_loop.trips), ∀ a, (k0_off1 i k0_t1) a + S1.size a ≤ S80000.size a
  k0_off3_inb : ∀ (i : grid0.Coords) (k0_t1 : Fin k0_t1_loop.trips), ∀ a, (k0_off3 i k0_t1) a + S1.size a ≤ S80000.size a
  k0_off5_inb : ∀ (i : grid0.Coords) (k0_t1 : Fin k0_t1_loop.trips), ∀ a, (k0_off5 i k0_t1) a + S1.size a ≤ S80000.size a
  k0_off7_inb : ∀ (i : grid0.Coords) (k0_t1 : Fin k0_t1_loop.trips), ∀ a, (k0_off7 i k0_t1) a + S1.size a ≤ S80000.size a
  k0_off9_inb : ∀ (i : grid0.Coords) (k0_t1 : Fin k0_t1_loop.trips), ∀ a, (k0_off9 i k0_t1) a + S1.size a ≤ S80000.size a
  k0_off11_inb : ∀ (i : grid0.Coords) (k0_t1 : Fin k0_t1_loop.trips), ∀ a, (k0_off11 i k0_t1) a + S1.size a ≤ S80000.size a
  k0_off13_inb : ∀ (i : grid0.Coords) (k0_t1 : Fin k0_t1_loop.trips), ∀ a, (k0_off13 i k0_t1) a + S1.size a ≤ S80000.size a
  k0_off15_inb : ∀ (i : grid0.Coords) (k0_t1 : Fin k0_t1_loop.trips), ∀ a, (k0_off15 i k0_t1) a + S1.size a ≤ S80000.size a
  k0_off17_inb : ∀ (i : grid0.Coords) (k0_t1 : Fin k0_t1_loop.trips), ∀ a, (k0_off17 i k0_t1) a + S1.size a ≤ S80000.size a
  k0_off19_inb : ∀ (i : grid0.Coords) (k0_t1 : Fin k0_t1_loop.trips), ∀ a, (k0_off19 i k0_t1) a + S1.size a ≤ S80000.size a
  k0_off21_inb : ∀ (i : grid0.Coords) (k0_t1 : Fin k0_t1_loop.trips), ∀ a, (k0_off21 i k0_t1) a + S1.size a ≤ S80000.size a
  k0_off23_inb : ∀ (i : grid0.Coords) (k0_t1 : Fin k0_t1_loop.trips), ∀ a, (k0_off23 i k0_t1) a + S1.size a ≤ S80000.size a
  k0_off25_inb : ∀ (i : grid0.Coords) (k0_t1 : Fin k0_t1_loop.trips), ∀ a, (k0_off25 i k0_t1) a + S1.size a ≤ S80000.size a
  k0_off27_inb : ∀ (i : grid0.Coords) (k0_t1 : Fin k0_t1_loop.trips), ∀ a, (k0_off27 i k0_t1) a + S1.size a ≤ S80000.size a
  k0_off29_inb : ∀ (i : grid0.Coords) (k0_t1 : Fin k0_t1_loop.trips), ∀ a, (k0_off29 i k0_t1) a + S1.size a ≤ S80000.size a
  k0_off31_inb : ∀ (i : grid0.Coords) (k0_t1 : Fin k0_t1_loop.trips), ∀ a, (k0_off31 i k0_t1) a + S1.size a ≤ S80000.size a
  k0_mult1_dvd : ∀ k0_t1 : Fin k0_t1_loop.trips, 16 ∣ (k0_mult1 k0_t1).toNat
  k0_off48_inb : ∀ k0_t1 : Fin k0_t1_loop.trips, ∀ a, (k0_off48 k0_t1) a + S16x256.size a ≤ S800x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S20000x256.size a ≤ S20000x256.size a
  hwx0_0 : ∀ i : grid0.Coords, EltTy.bits .f32 = 32 ∨ (Rect.block (s := S20000x256) S20000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x1.size a ≤ S80000x1.size a
  hwx0_1 : ∀ i : grid0.Coords, EltTy.bits .f32 = 32 ∨ (Rect.block (s := S80000x1) S800x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x256.size a ≤ S80000x256.size a
  hwx0_2 : ∀ i : grid0.Coords, EltTy.bits .f32 = 32 ∨ (Rect.block (s := S80000x256) S800x256.size (cc0_transform_2 i) (hinb0_2 i)).WholeWords (EltTy.packing .f32)
  hrank1 : 0 < grid1.rank
  k1_t1_ok : k1_t1_loop.OK
  k1_off1_inb : ∀ (i : grid1.Coords) (k1_t1 : Fin k1_t1_loop.trips), ∀ a, (k1_off1 i k1_t1) a + S1.size a ≤ S80000.size a
  k1_off3_inb : ∀ (i : grid1.Coords) (k1_t1 : Fin k1_t1_loop.trips), ∀ a, (k1_off3 i k1_t1) a + S1.size a ≤ S80000.size a
  k1_off5_inb : ∀ (i : grid1.Coords) (k1_t1 : Fin k1_t1_loop.trips), ∀ a, (k1_off5 i k1_t1) a + S1.size a ≤ S80000.size a
  k1_off7_inb : ∀ (i : grid1.Coords) (k1_t1 : Fin k1_t1_loop.trips), ∀ a, (k1_off7 i k1_t1) a + S1.size a ≤ S80000.size a
  k1_off9_inb : ∀ (i : grid1.Coords) (k1_t1 : Fin k1_t1_loop.trips), ∀ a, (k1_off9 i k1_t1) a + S1.size a ≤ S80000.size a
  k1_off11_inb : ∀ (i : grid1.Coords) (k1_t1 : Fin k1_t1_loop.trips), ∀ a, (k1_off11 i k1_t1) a + S1.size a ≤ S80000.size a
  k1_off13_inb : ∀ (i : grid1.Coords) (k1_t1 : Fin k1_t1_loop.trips), ∀ a, (k1_off13 i k1_t1) a + S1.size a ≤ S80000.size a
  k1_off15_inb : ∀ (i : grid1.Coords) (k1_t1 : Fin k1_t1_loop.trips), ∀ a, (k1_off15 i k1_t1) a + S1.size a ≤ S80000.size a
  k1_off17_inb : ∀ (i : grid1.Coords) (k1_t1 : Fin k1_t1_loop.trips), ∀ a, (k1_off17 i k1_t1) a + S1.size a ≤ S80000.size a
  k1_off19_inb : ∀ (i : grid1.Coords) (k1_t1 : Fin k1_t1_loop.trips), ∀ a, (k1_off19 i k1_t1) a + S1.size a ≤ S80000.size a
  k1_off21_inb : ∀ (i : grid1.Coords) (k1_t1 : Fin k1_t1_loop.trips), ∀ a, (k1_off21 i k1_t1) a + S1.size a ≤ S80000.size a
  k1_off23_inb : ∀ (i : grid1.Coords) (k1_t1 : Fin k1_t1_loop.trips), ∀ a, (k1_off23 i k1_t1) a + S1.size a ≤ S80000.size a
  k1_off25_inb : ∀ (i : grid1.Coords) (k1_t1 : Fin k1_t1_loop.trips), ∀ a, (k1_off25 i k1_t1) a + S1.size a ≤ S80000.size a
  k1_off27_inb : ∀ (i : grid1.Coords) (k1_t1 : Fin k1_t1_loop.trips), ∀ a, (k1_off27 i k1_t1) a + S1.size a ≤ S80000.size a
  k1_off29_inb : ∀ (i : grid1.Coords) (k1_t1 : Fin k1_t1_loop.trips), ∀ a, (k1_off29 i k1_t1) a + S1.size a ≤ S80000.size a
  k1_off31_inb : ∀ (i : grid1.Coords) (k1_t1 : Fin k1_t1_loop.trips), ∀ a, (k1_off31 i k1_t1) a + S1.size a ≤ S80000.size a
  k1_mult1_dvd : ∀ k1_t1 : Fin k1_t1_loop.trips, 16 ∣ (k1_mult1 k1_t1).toNat
  k1_off48_inb : ∀ k1_t1 : Fin k1_t1_loop.trips, ∀ a, (k1_off48 k1_t1) a + S16x256.size a ≤ S800x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S20000x256.size a ≤ S20000x256.size a
  hwx1_0 : ∀ i : grid1.Coords, EltTy.bits .f32 = 32 ∨ (Rect.block (s := S20000x256) S20000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S800x1.size a ≤ S80000x1.size a
  hwx1_1 : ∀ i : grid1.Coords, EltTy.bits .f32 = 32 ∨ (Rect.block (s := S80000x1) S800x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S800x256.size a ≤ S80000x256.size a
  hwx1_2 : ∀ i : grid1.Coords, EltTy.bits .f32 = 32 ∨ (Rect.block (s := S80000x256) S800x256.size (cc1_transform_2 i) (hinb1_2 i)).WholeWords (EltTy.packing .f32)
  hrank2 : 0 < grid2.rank
  k2_t1_ok : k2_t1_loop.OK
  k2_off1_inb : ∀ (i : grid2.Coords) (k2_t1 : Fin k2_t1_loop.trips), ∀ a, (k2_off1 i k2_t1) a + S1.size a ≤ S80000.size a
  k2_off3_inb : ∀ (i : grid2.Coords) (k2_t1 : Fin k2_t1_loop.trips), ∀ a, (k2_off3 i k2_t1) a + S1.size a ≤ S80000.size a
  k2_off5_inb : ∀ (i : grid2.Coords) (k2_t1 : Fin k2_t1_loop.trips), ∀ a, (k2_off5 i k2_t1) a + S1.size a ≤ S80000.size a
  k2_off7_inb : ∀ (i : grid2.Coords) (k2_t1 : Fin k2_t1_loop.trips), ∀ a, (k2_off7 i k2_t1) a + S1.size a ≤ S80000.size a
  k2_off9_inb : ∀ (i : grid2.Coords) (k2_t1 : Fin k2_t1_loop.trips), ∀ a, (k2_off9 i k2_t1) a + S1.size a ≤ S80000.size a
  k2_off11_inb : ∀ (i : grid2.Coords) (k2_t1 : Fin k2_t1_loop.trips), ∀ a, (k2_off11 i k2_t1) a + S1.size a ≤ S80000.size a
  k2_off13_inb : ∀ (i : grid2.Coords) (k2_t1 : Fin k2_t1_loop.trips), ∀ a, (k2_off13 i k2_t1) a + S1.size a ≤ S80000.size a
  k2_off15_inb : ∀ (i : grid2.Coords) (k2_t1 : Fin k2_t1_loop.trips), ∀ a, (k2_off15 i k2_t1) a + S1.size a ≤ S80000.size a
  k2_off17_inb : ∀ (i : grid2.Coords) (k2_t1 : Fin k2_t1_loop.trips), ∀ a, (k2_off17 i k2_t1) a + S1.size a ≤ S80000.size a
  k2_off19_inb : ∀ (i : grid2.Coords) (k2_t1 : Fin k2_t1_loop.trips), ∀ a, (k2_off19 i k2_t1) a + S1.size a ≤ S80000.size a
  k2_off21_inb : ∀ (i : grid2.Coords) (k2_t1 : Fin k2_t1_loop.trips), ∀ a, (k2_off21 i k2_t1) a + S1.size a ≤ S80000.size a
  k2_off23_inb : ∀ (i : grid2.Coords) (k2_t1 : Fin k2_t1_loop.trips), ∀ a, (k2_off23 i k2_t1) a + S1.size a ≤ S80000.size a
  k2_off25_inb : ∀ (i : grid2.Coords) (k2_t1 : Fin k2_t1_loop.trips), ∀ a, (k2_off25 i k2_t1) a + S1.size a ≤ S80000.size a
  k2_off27_inb : ∀ (i : grid2.Coords) (k2_t1 : Fin k2_t1_loop.trips), ∀ a, (k2_off27 i k2_t1) a + S1.size a ≤ S80000.size a
  k2_off29_inb : ∀ (i : grid2.Coords) (k2_t1 : Fin k2_t1_loop.trips), ∀ a, (k2_off29 i k2_t1) a + S1.size a ≤ S80000.size a
  k2_off31_inb : ∀ (i : grid2.Coords) (k2_t1 : Fin k2_t1_loop.trips), ∀ a, (k2_off31 i k2_t1) a + S1.size a ≤ S80000.size a
  k2_mult1_dvd : ∀ k2_t1 : Fin k2_t1_loop.trips, 16 ∣ (k2_mult1 k2_t1).toNat
  k2_off48_inb : ∀ k2_t1 : Fin k2_t1_loop.trips, ∀ a, (k2_off48 k2_t1) a + S16x256.size a ≤ S800x256.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S20000x256.size a ≤ S20000x256.size a
  hwx2_0 : ∀ i : grid2.Coords, EltTy.bits .f32 = 32 ∨ (Rect.block (s := S20000x256) S20000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S800x1.size a ≤ S80000x1.size a
  hwx2_1 : ∀ i : grid2.Coords, EltTy.bits .f32 = 32 ∨ (Rect.block (s := S80000x1) S800x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S800x256.size a ≤ S80000x256.size a
  hwx2_2 : ∀ i : grid2.Coords, EltTy.bits .f32 = 32 ∨ (Rect.block (s := S80000x256) S800x256.size (cc2_transform_2 i) (hinb2_2 i)).WholeWords (EltTy.packing .f32)
  hrank3 : 0 < grid3.rank
  k3_t1_ok : k3_t1_loop.OK
  k3_off1_inb : ∀ (i : grid3.Coords) (k3_t1 : Fin k3_t1_loop.trips), ∀ a, (k3_off1 i k3_t1) a + S1.size a ≤ S80000.size a
  k3_off3_inb : ∀ (i : grid3.Coords) (k3_t1 : Fin k3_t1_loop.trips), ∀ a, (k3_off3 i k3_t1) a + S1.size a ≤ S80000.size a
  k3_off5_inb : ∀ (i : grid3.Coords) (k3_t1 : Fin k3_t1_loop.trips), ∀ a, (k3_off5 i k3_t1) a + S1.size a ≤ S80000.size a
  k3_off7_inb : ∀ (i : grid3.Coords) (k3_t1 : Fin k3_t1_loop.trips), ∀ a, (k3_off7 i k3_t1) a + S1.size a ≤ S80000.size a
  k3_off9_inb : ∀ (i : grid3.Coords) (k3_t1 : Fin k3_t1_loop.trips), ∀ a, (k3_off9 i k3_t1) a + S1.size a ≤ S80000.size a
  k3_off11_inb : ∀ (i : grid3.Coords) (k3_t1 : Fin k3_t1_loop.trips), ∀ a, (k3_off11 i k3_t1) a + S1.size a ≤ S80000.size a
  k3_off13_inb : ∀ (i : grid3.Coords) (k3_t1 : Fin k3_t1_loop.trips), ∀ a, (k3_off13 i k3_t1) a + S1.size a ≤ S80000.size a
  k3_off15_inb : ∀ (i : grid3.Coords) (k3_t1 : Fin k3_t1_loop.trips), ∀ a, (k3_off15 i k3_t1) a + S1.size a ≤ S80000.size a
  k3_off17_inb : ∀ (i : grid3.Coords) (k3_t1 : Fin k3_t1_loop.trips), ∀ a, (k3_off17 i k3_t1) a + S1.size a ≤ S80000.size a
  k3_off19_inb : ∀ (i : grid3.Coords) (k3_t1 : Fin k3_t1_loop.trips), ∀ a, (k3_off19 i k3_t1) a + S1.size a ≤ S80000.size a
  k3_off21_inb : ∀ (i : grid3.Coords) (k3_t1 : Fin k3_t1_loop.trips), ∀ a, (k3_off21 i k3_t1) a + S1.size a ≤ S80000.size a
  k3_off23_inb : ∀ (i : grid3.Coords) (k3_t1 : Fin k3_t1_loop.trips), ∀ a, (k3_off23 i k3_t1) a + S1.size a ≤ S80000.size a
  k3_off25_inb : ∀ (i : grid3.Coords) (k3_t1 : Fin k3_t1_loop.trips), ∀ a, (k3_off25 i k3_t1) a + S1.size a ≤ S80000.size a
  k3_off27_inb : ∀ (i : grid3.Coords) (k3_t1 : Fin k3_t1_loop.trips), ∀ a, (k3_off27 i k3_t1) a + S1.size a ≤ S80000.size a
  k3_off29_inb : ∀ (i : grid3.Coords) (k3_t1 : Fin k3_t1_loop.trips), ∀ a, (k3_off29 i k3_t1) a + S1.size a ≤ S80000.size a
  k3_off31_inb : ∀ (i : grid3.Coords) (k3_t1 : Fin k3_t1_loop.trips), ∀ a, (k3_off31 i k3_t1) a + S1.size a ≤ S80000.size a
  k3_mult1_dvd : ∀ k3_t1 : Fin k3_t1_loop.trips, 16 ∣ (k3_mult1 k3_t1).toNat
  k3_off48_inb : ∀ k3_t1 : Fin k3_t1_loop.trips, ∀ a, (k3_off48 k3_t1) a + S16x256.size a ≤ S800x256.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S20000x256.size a ≤ S20000x256.size a
  hwx3_0 : ∀ i : grid3.Coords, EltTy.bits .f32 = 32 ∨ (Rect.block (s := S20000x256) S20000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S800x1.size a ≤ S80000x1.size a
  hwx3_1 : ∀ i : grid3.Coords, EltTy.bits .f32 = 32 ∨ (Rect.block (s := S80000x1) S800x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S800x256.size a ≤ S80000x256.size a
  hwx3_2 : ∀ i : grid3.Coords, EltTy.bits .f32 = 32 ∨ (Rect.block (s := S80000x256) S800x256.size (cc3_transform_2 i) (hinb3_2 i)).WholeWords (EltTy.packing .f32)
  hrank4 : 0 < grid4.rank
  k4_t1_ok : k4_t1_loop.OK
  k4_off1_inb : ∀ (i : grid4.Coords) (k4_t1 : Fin k4_t1_loop.trips), ∀ a, (k4_off1 i k4_t1) a + S1.size a ≤ S80000.size a
  k4_off3_inb : ∀ (i : grid4.Coords) (k4_t1 : Fin k4_t1_loop.trips), ∀ a, (k4_off3 i k4_t1) a + S1.size a ≤ S80000.size a
  k4_off5_inb : ∀ (i : grid4.Coords) (k4_t1 : Fin k4_t1_loop.trips), ∀ a, (k4_off5 i k4_t1) a + S1.size a ≤ S80000.size a
  k4_off7_inb : ∀ (i : grid4.Coords) (k4_t1 : Fin k4_t1_loop.trips), ∀ a, (k4_off7 i k4_t1) a + S1.size a ≤ S80000.size a
  k4_off9_inb : ∀ (i : grid4.Coords) (k4_t1 : Fin k4_t1_loop.trips), ∀ a, (k4_off9 i k4_t1) a + S1.size a ≤ S80000.size a
  k4_off11_inb : ∀ (i : grid4.Coords) (k4_t1 : Fin k4_t1_loop.trips), ∀ a, (k4_off11 i k4_t1) a + S1.size a ≤ S80000.size a
  k4_off13_inb : ∀ (i : grid4.Coords) (k4_t1 : Fin k4_t1_loop.trips), ∀ a, (k4_off13 i k4_t1) a + S1.size a ≤ S80000.size a
  k4_off15_inb : ∀ (i : grid4.Coords) (k4_t1 : Fin k4_t1_loop.trips), ∀ a, (k4_off15 i k4_t1) a + S1.size a ≤ S80000.size a
  k4_off17_inb : ∀ (i : grid4.Coords) (k4_t1 : Fin k4_t1_loop.trips), ∀ a, (k4_off17 i k4_t1) a + S1.size a ≤ S80000.size a
  k4_off19_inb : ∀ (i : grid4.Coords) (k4_t1 : Fin k4_t1_loop.trips), ∀ a, (k4_off19 i k4_t1) a + S1.size a ≤ S80000.size a
  k4_off21_inb : ∀ (i : grid4.Coords) (k4_t1 : Fin k4_t1_loop.trips), ∀ a, (k4_off21 i k4_t1) a + S1.size a ≤ S80000.size a
  k4_off23_inb : ∀ (i : grid4.Coords) (k4_t1 : Fin k4_t1_loop.trips), ∀ a, (k4_off23 i k4_t1) a + S1.size a ≤ S80000.size a
  k4_off25_inb : ∀ (i : grid4.Coords) (k4_t1 : Fin k4_t1_loop.trips), ∀ a, (k4_off25 i k4_t1) a + S1.size a ≤ S80000.size a
  k4_off27_inb : ∀ (i : grid4.Coords) (k4_t1 : Fin k4_t1_loop.trips), ∀ a, (k4_off27 i k4_t1) a + S1.size a ≤ S80000.size a
  k4_off29_inb : ∀ (i : grid4.Coords) (k4_t1 : Fin k4_t1_loop.trips), ∀ a, (k4_off29 i k4_t1) a + S1.size a ≤ S80000.size a
  k4_off31_inb : ∀ (i : grid4.Coords) (k4_t1 : Fin k4_t1_loop.trips), ∀ a, (k4_off31 i k4_t1) a + S1.size a ≤ S80000.size a
  k4_mult1_dvd : ∀ k4_t1 : Fin k4_t1_loop.trips, 16 ∣ (k4_mult1 k4_t1).toNat
  k4_off48_inb : ∀ k4_t1 : Fin k4_t1_loop.trips, ∀ a, (k4_off48 k4_t1) a + S16x256.size a ≤ S800x256.size a
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S20000x256.size a ≤ S20000x256.size a
  hwx4_0 : ∀ i : grid4.Coords, EltTy.bits .f32 = 32 ∨ (Rect.block (s := S20000x256) S20000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S800x1.size a ≤ S80000x1.size a
  hwx4_1 : ∀ i : grid4.Coords, EltTy.bits .f32 = 32 ∨ (Rect.block (s := S80000x1) S800x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S800x256.size a ≤ S80000x256.size a
  hwx4_2 : ∀ i : grid4.Coords, EltTy.bits .f32 = 32 ∨ (Rect.block (s := S80000x256) S800x256.size (cc4_transform_2 i) (hinb4_2 i)).WholeWords (EltTy.packing .f32)
  hrank5 : 0 < grid5.rank
  k5_t1_ok : k5_t1_loop.OK
  k5_off1_inb : ∀ (i : grid5.Coords) (k5_t1 : Fin k5_t1_loop.trips), ∀ a, (k5_off1 i k5_t1) a + S1.size a ≤ S80000.size a
  k5_off3_inb : ∀ (i : grid5.Coords) (k5_t1 : Fin k5_t1_loop.trips), ∀ a, (k5_off3 i k5_t1) a + S1.size a ≤ S80000.size a
  k5_off5_inb : ∀ (i : grid5.Coords) (k5_t1 : Fin k5_t1_loop.trips), ∀ a, (k5_off5 i k5_t1) a + S1.size a ≤ S80000.size a
  k5_off7_inb : ∀ (i : grid5.Coords) (k5_t1 : Fin k5_t1_loop.trips), ∀ a, (k5_off7 i k5_t1) a + S1.size a ≤ S80000.size a
  k5_off9_inb : ∀ (i : grid5.Coords) (k5_t1 : Fin k5_t1_loop.trips), ∀ a, (k5_off9 i k5_t1) a + S1.size a ≤ S80000.size a
  k5_off11_inb : ∀ (i : grid5.Coords) (k5_t1 : Fin k5_t1_loop.trips), ∀ a, (k5_off11 i k5_t1) a + S1.size a ≤ S80000.size a
  k5_off13_inb : ∀ (i : grid5.Coords) (k5_t1 : Fin k5_t1_loop.trips), ∀ a, (k5_off13 i k5_t1) a + S1.size a ≤ S80000.size a
  k5_off15_inb : ∀ (i : grid5.Coords) (k5_t1 : Fin k5_t1_loop.trips), ∀ a, (k5_off15 i k5_t1) a + S1.size a ≤ S80000.size a
  k5_off17_inb : ∀ (i : grid5.Coords) (k5_t1 : Fin k5_t1_loop.trips), ∀ a, (k5_off17 i k5_t1) a + S1.size a ≤ S80000.size a
  k5_off19_inb : ∀ (i : grid5.Coords) (k5_t1 : Fin k5_t1_loop.trips), ∀ a, (k5_off19 i k5_t1) a + S1.size a ≤ S80000.size a
  k5_off21_inb : ∀ (i : grid5.Coords) (k5_t1 : Fin k5_t1_loop.trips), ∀ a, (k5_off21 i k5_t1) a + S1.size a ≤ S80000.size a
  k5_off23_inb : ∀ (i : grid5.Coords) (k5_t1 : Fin k5_t1_loop.trips), ∀ a, (k5_off23 i k5_t1) a + S1.size a ≤ S80000.size a
  k5_off25_inb : ∀ (i : grid5.Coords) (k5_t1 : Fin k5_t1_loop.trips), ∀ a, (k5_off25 i k5_t1) a + S1.size a ≤ S80000.size a
  k5_off27_inb : ∀ (i : grid5.Coords) (k5_t1 : Fin k5_t1_loop.trips), ∀ a, (k5_off27 i k5_t1) a + S1.size a ≤ S80000.size a
  k5_off29_inb : ∀ (i : grid5.Coords) (k5_t1 : Fin k5_t1_loop.trips), ∀ a, (k5_off29 i k5_t1) a + S1.size a ≤ S80000.size a
  k5_off31_inb : ∀ (i : grid5.Coords) (k5_t1 : Fin k5_t1_loop.trips), ∀ a, (k5_off31 i k5_t1) a + S1.size a ≤ S80000.size a
  k5_mult1_dvd : ∀ k5_t1 : Fin k5_t1_loop.trips, 16 ∣ (k5_mult1 k5_t1).toNat
  k5_off48_inb : ∀ k5_t1 : Fin k5_t1_loop.trips, ∀ a, (k5_off48 k5_t1) a + S16x256.size a ≤ S800x256.size a
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S20000x256.size a ≤ S20000x256.size a
  hwx5_0 : ∀ i : grid5.Coords, EltTy.bits .f32 = 32 ∨ (Rect.block (s := S20000x256) S20000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S800x1.size a ≤ S80000x1.size a
  hwx5_1 : ∀ i : grid5.Coords, EltTy.bits .f32 = 32 ∨ (Rect.block (s := S80000x1) S800x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S800x256.size a ≤ S80000x256.size a
  hwx5_2 : ∀ i : grid5.Coords, EltTy.bits .f32 = 32 ∨ (Rect.block (s := S80000x256) S800x256.size (cc5_transform_2 i) (hinb5_2 i)).WholeWords (EltTy.packing .f32)
  hrank6 : 0 < grid6.rank
  k6_t1_ok : k6_t1_loop.OK
  k6_off1_inb : ∀ (i : grid6.Coords) (k6_t1 : Fin k6_t1_loop.trips), ∀ a, (k6_off1 i k6_t1) a + S1.size a ≤ S80000.size a
  k6_off3_inb : ∀ (i : grid6.Coords) (k6_t1 : Fin k6_t1_loop.trips), ∀ a, (k6_off3 i k6_t1) a + S1.size a ≤ S80000.size a
  k6_off5_inb : ∀ (i : grid6.Coords) (k6_t1 : Fin k6_t1_loop.trips), ∀ a, (k6_off5 i k6_t1) a + S1.size a ≤ S80000.size a
  k6_off7_inb : ∀ (i : grid6.Coords) (k6_t1 : Fin k6_t1_loop.trips), ∀ a, (k6_off7 i k6_t1) a + S1.size a ≤ S80000.size a
  k6_off9_inb : ∀ (i : grid6.Coords) (k6_t1 : Fin k6_t1_loop.trips), ∀ a, (k6_off9 i k6_t1) a + S1.size a ≤ S80000.size a
  k6_off11_inb : ∀ (i : grid6.Coords) (k6_t1 : Fin k6_t1_loop.trips), ∀ a, (k6_off11 i k6_t1) a + S1.size a ≤ S80000.size a
  k6_off13_inb : ∀ (i : grid6.Coords) (k6_t1 : Fin k6_t1_loop.trips), ∀ a, (k6_off13 i k6_t1) a + S1.size a ≤ S80000.size a
  k6_off15_inb : ∀ (i : grid6.Coords) (k6_t1 : Fin k6_t1_loop.trips), ∀ a, (k6_off15 i k6_t1) a + S1.size a ≤ S80000.size a
  k6_off17_inb : ∀ (i : grid6.Coords) (k6_t1 : Fin k6_t1_loop.trips), ∀ a, (k6_off17 i k6_t1) a + S1.size a ≤ S80000.size a
  k6_off19_inb : ∀ (i : grid6.Coords) (k6_t1 : Fin k6_t1_loop.trips), ∀ a, (k6_off19 i k6_t1) a + S1.size a ≤ S80000.size a
  k6_off21_inb : ∀ (i : grid6.Coords) (k6_t1 : Fin k6_t1_loop.trips), ∀ a, (k6_off21 i k6_t1) a + S1.size a ≤ S80000.size a
  k6_off23_inb : ∀ (i : grid6.Coords) (k6_t1 : Fin k6_t1_loop.trips), ∀ a, (k6_off23 i k6_t1) a + S1.size a ≤ S80000.size a
  k6_off25_inb : ∀ (i : grid6.Coords) (k6_t1 : Fin k6_t1_loop.trips), ∀ a, (k6_off25 i k6_t1) a + S1.size a ≤ S80000.size a
  k6_off27_inb : ∀ (i : grid6.Coords) (k6_t1 : Fin k6_t1_loop.trips), ∀ a, (k6_off27 i k6_t1) a + S1.size a ≤ S80000.size a
  k6_off29_inb : ∀ (i : grid6.Coords) (k6_t1 : Fin k6_t1_loop.trips), ∀ a, (k6_off29 i k6_t1) a + S1.size a ≤ S80000.size a
  k6_off31_inb : ∀ (i : grid6.Coords) (k6_t1 : Fin k6_t1_loop.trips), ∀ a, (k6_off31 i k6_t1) a + S1.size a ≤ S80000.size a
  k6_mult1_dvd : ∀ k6_t1 : Fin k6_t1_loop.trips, 16 ∣ (k6_mult1 k6_t1).toNat
  k6_off48_inb : ∀ k6_t1 : Fin k6_t1_loop.trips, ∀ a, (k6_off48 k6_t1) a + S16x256.size a ≤ S800x256.size a
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S20000x256.size a ≤ S20000x256.size a
  hwx6_0 : ∀ i : grid6.Coords, EltTy.bits .f32 = 32 ∨ (Rect.block (s := S20000x256) S20000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S800x1.size a ≤ S80000x1.size a
  hwx6_1 : ∀ i : grid6.Coords, EltTy.bits .f32 = 32 ∨ (Rect.block (s := S80000x1) S800x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S800x256.size a ≤ S80000x256.size a
  hwx6_2 : ∀ i : grid6.Coords, EltTy.bits .f32 = 32 ∨ (Rect.block (s := S80000x256) S800x256.size (cc6_transform_2 i) (hinb6_2 i)).WholeWords (EltTy.packing .f32)
  hrank7 : 0 < grid7.rank
  k7_t1_ok : k7_t1_loop.OK
  k7_off1_inb : ∀ (i : grid7.Coords) (k7_t1 : Fin k7_t1_loop.trips), ∀ a, (k7_off1 i k7_t1) a + S1.size a ≤ S80000.size a
  k7_off3_inb : ∀ (i : grid7.Coords) (k7_t1 : Fin k7_t1_loop.trips), ∀ a, (k7_off3 i k7_t1) a + S1.size a ≤ S80000.size a
  k7_off5_inb : ∀ (i : grid7.Coords) (k7_t1 : Fin k7_t1_loop.trips), ∀ a, (k7_off5 i k7_t1) a + S1.size a ≤ S80000.size a
  k7_off7_inb : ∀ (i : grid7.Coords) (k7_t1 : Fin k7_t1_loop.trips), ∀ a, (k7_off7 i k7_t1) a + S1.size a ≤ S80000.size a
  k7_off9_inb : ∀ (i : grid7.Coords) (k7_t1 : Fin k7_t1_loop.trips), ∀ a, (k7_off9 i k7_t1) a + S1.size a ≤ S80000.size a
  k7_off11_inb : ∀ (i : grid7.Coords) (k7_t1 : Fin k7_t1_loop.trips), ∀ a, (k7_off11 i k7_t1) a + S1.size a ≤ S80000.size a
  k7_off13_inb : ∀ (i : grid7.Coords) (k7_t1 : Fin k7_t1_loop.trips), ∀ a, (k7_off13 i k7_t1) a + S1.size a ≤ S80000.size a
  k7_off15_inb : ∀ (i : grid7.Coords) (k7_t1 : Fin k7_t1_loop.trips), ∀ a, (k7_off15 i k7_t1) a + S1.size a ≤ S80000.size a
  k7_off17_inb : ∀ (i : grid7.Coords) (k7_t1 : Fin k7_t1_loop.trips), ∀ a, (k7_off17 i k7_t1) a + S1.size a ≤ S80000.size a
  k7_off19_inb : ∀ (i : grid7.Coords) (k7_t1 : Fin k7_t1_loop.trips), ∀ a, (k7_off19 i k7_t1) a + S1.size a ≤ S80000.size a
  k7_off21_inb : ∀ (i : grid7.Coords) (k7_t1 : Fin k7_t1_loop.trips), ∀ a, (k7_off21 i k7_t1) a + S1.size a ≤ S80000.size a
  k7_off23_inb : ∀ (i : grid7.Coords) (k7_t1 : Fin k7_t1_loop.trips), ∀ a, (k7_off23 i k7_t1) a + S1.size a ≤ S80000.size a
  k7_off25_inb : ∀ (i : grid7.Coords) (k7_t1 : Fin k7_t1_loop.trips), ∀ a, (k7_off25 i k7_t1) a + S1.size a ≤ S80000.size a
  k7_off27_inb : ∀ (i : grid7.Coords) (k7_t1 : Fin k7_t1_loop.trips), ∀ a, (k7_off27 i k7_t1) a + S1.size a ≤ S80000.size a
  k7_off29_inb : ∀ (i : grid7.Coords) (k7_t1 : Fin k7_t1_loop.trips), ∀ a, (k7_off29 i k7_t1) a + S1.size a ≤ S80000.size a
  k7_off31_inb : ∀ (i : grid7.Coords) (k7_t1 : Fin k7_t1_loop.trips), ∀ a, (k7_off31 i k7_t1) a + S1.size a ≤ S80000.size a
  k7_mult1_dvd : ∀ k7_t1 : Fin k7_t1_loop.trips, 16 ∣ (k7_mult1 k7_t1).toNat
  k7_off48_inb : ∀ k7_t1 : Fin k7_t1_loop.trips, ∀ a, (k7_off48 k7_t1) a + S16x256.size a ≤ S800x256.size a
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S20000x256.size a ≤ S20000x256.size a
  hwx7_0 : ∀ i : grid7.Coords, EltTy.bits .f32 = 32 ∨ (Rect.block (s := S20000x256) S20000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S800x1.size a ≤ S80000x1.size a
  hwx7_1 : ∀ i : grid7.Coords, EltTy.bits .f32 = 32 ∨ (Rect.block (s := S80000x1) S800x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S800x256.size a ≤ S80000x256.size a
  hwx7_2 : ∀ i : grid7.Coords, EltTy.bits .f32 = 32 ∨ (Rect.block (s := S80000x256) S800x256.size (cc7_transform_2 i) (hinb7_2 i)).WholeWords (EltTy.packing .f32)

variable [Facts₀]

abbrev cc0_scratch1 : DmaSems sig S16 := SemArray.consecutive 5 S16 hcc0_scratch1
abbrev cc1_scratch1 : DmaSems sig S16 := SemArray.consecutive 26 S16 hcc1_scratch1
abbrev cc2_scratch1 : DmaSems sig S16 := SemArray.consecutive 47 S16 hcc2_scratch1
abbrev cc3_scratch1 : DmaSems sig S16 := SemArray.consecutive 68 S16 hcc3_scratch1
abbrev cc4_scratch1 : DmaSems sig S16 := SemArray.consecutive 89 S16 hcc4_scratch1
abbrev cc5_scratch1 : DmaSems sig S16 := SemArray.consecutive 110 S16 hcc5_scratch1
abbrev cc6_scratch1 : DmaSems sig S16 := SemArray.consecutive 131 S16 hcc6_scratch1
abbrev cc7_scratch1 : DmaSems sig S16 := SemArray.consecutive 152 S16 hcc7_scratch1
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf

abbrev spec0_0 : Pipeline.WinSpec sig grid0.rank :=
  Pipeline.WinSpec.ofSpec (Memref.whole main_arg0) S20000x256.size reads0_0 false true 1 stage0_0 sem0_0 nbuf0_0 hstage0_0

abbrev spec0_1 : Pipeline.WinSpec sig grid0.rank :=
  Pipeline.WinSpec.ofSpec (Memref.whole main_v2) S800x1.size reads0_1 false false 2 stage0_1 sem0_1 nbuf0_1 hstage0_1

abbrev spec0_2 : Pipeline.WinSpec sig grid0.rank :=
  Pipeline.WinSpec.ofSpec (Memref.whole main_v3) S800x256.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev spec1_0 : Pipeline.WinSpec sig grid1.rank :=
  Pipeline.WinSpec.ofSpec (Memref.whole main_arg0) S20000x256.size reads1_0 false true 1 stage1_0 sem1_0 nbuf1_0 hstage1_0

abbrev spec1_1 : Pipeline.WinSpec sig grid1.rank :=
  Pipeline.WinSpec.ofSpec (Memref.whole main_v6) S800x1.size reads1_1 false false 2 stage1_1 sem1_1 nbuf1_1 hstage1_1

abbrev spec1_2 : Pipeline.WinSpec sig grid1.rank :=
  Pipeline.WinSpec.ofSpec (Memref.whole main_v7) S800x256.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))
abbrev spec2_0 : Pipeline.WinSpec sig grid2.rank :=
  Pipeline.WinSpec.ofSpec (Memref.whole main_arg0) S20000x256.size reads2_0 false true 1 stage2_0 sem2_0 nbuf2_0 hstage2_0

abbrev spec2_1 : Pipeline.WinSpec sig grid2.rank :=
  Pipeline.WinSpec.ofSpec (Memref.whole main_v10) S800x1.size reads2_1 false false 2 stage2_1 sem2_1 nbuf2_1 hstage2_1

abbrev spec2_2 : Pipeline.WinSpec sig grid2.rank :=
  Pipeline.WinSpec.ofSpec (Memref.whole main_v11) S800x256.size reads2_2 true false 2 stage2_2 sem2_2 nbuf2_2 hstage2_2

abbrev spec2 : Fin 3 → Pipeline.WinSpec sig grid2.rank := fun | 0 => spec2_0 | 1 => spec2_1 | 2 => spec2_2 | ⟨_ + 3, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | ⟨_ + 3, h⟩ => absurd h (Nat.not_lt.2 (Nat.le_add_left _ _))
abbrev ix2 (pf : pre2.Contents (Elt F)) : (w : Fin 3) → grid2.Coords → Fin (spec2 w).shape.rank → Nat := fun | 0 => cc2_transform_0 | 1 => cc2_transform_1 | 2 => cc2_transform_2 | ⟨_ + 3, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | 2 => hreads2_2 | ⟨_ + 3, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | 2 => hinb2_2 | ⟨_ + 3, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | 2 => hwx2_2 | ⟨_ + 3, h⟩ => absurd h (Nat.not_lt.2 (Nat.le_add_left _ _))
abbrev spec3_0 : Pipeline.WinSpec sig grid3.rank :=
  Pipeline.WinSpec.ofSpec (Memref.whole main_arg0) S20000x256.size reads3_0 false true 1 stage3_0 sem3_0 nbuf3_0 hstage3_0

abbrev spec3_1 : Pipeline.WinSpec sig grid3.rank :=
  Pipeline.WinSpec.ofSpec (Memref.whole main_v14) S800x1.size reads3_1 false false 2 stage3_1 sem3_1 nbuf3_1 hstage3_1

abbrev spec3_2 : Pipeline.WinSpec sig grid3.rank :=
  Pipeline.WinSpec.ofSpec (Memref.whole main_v15) S800x256.size reads3_2 true false 2 stage3_2 sem3_2 nbuf3_2 hstage3_2

abbrev spec3 : Fin 3 → Pipeline.WinSpec sig grid3.rank := fun | 0 => spec3_0 | 1 => spec3_1 | 2 => spec3_2 | ⟨_ + 3, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | ⟨_ + 3, h⟩ => absurd h (Nat.not_lt.2 (Nat.le_add_left _ _))
abbrev ix3 (pf : pre3.Contents (Elt F)) : (w : Fin 3) → grid3.Coords → Fin (spec3 w).shape.rank → Nat := fun | 0 => cc3_transform_0 | 1 => cc3_transform_1 | 2 => cc3_transform_2 | ⟨_ + 3, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | 2 => hreads3_2 | ⟨_ + 3, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | 2 => hinb3_2 | ⟨_ + 3, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | 2 => hwx3_2 | ⟨_ + 3, h⟩ => absurd h (Nat.not_lt.2 (Nat.le_add_left _ _))
abbrev spec4_0 : Pipeline.WinSpec sig grid4.rank :=
  Pipeline.WinSpec.ofSpec (Memref.whole main_arg0) S20000x256.size reads4_0 false true 1 stage4_0 sem4_0 nbuf4_0 hstage4_0

abbrev spec4_1 : Pipeline.WinSpec sig grid4.rank :=
  Pipeline.WinSpec.ofSpec (Memref.whole main_v22) S800x1.size reads4_1 false false 2 stage4_1 sem4_1 nbuf4_1 hstage4_1

abbrev spec4_2 : Pipeline.WinSpec sig grid4.rank :=
  Pipeline.WinSpec.ofSpec (Memref.whole main_v23) S800x256.size reads4_2 true false 2 stage4_2 sem4_2 nbuf4_2 hstage4_2

abbrev spec4 : Fin 3 → Pipeline.WinSpec sig grid4.rank := fun | 0 => spec4_0 | 1 => spec4_1 | 2 => spec4_2 | ⟨_ + 3, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | ⟨_ + 3, h⟩ => absurd h (Nat.not_lt.2 (Nat.le_add_left _ _))
abbrev ix4 (pf : pre4.Contents (Elt F)) : (w : Fin 3) → grid4.Coords → Fin (spec4 w).shape.rank → Nat := fun | 0 => cc4_transform_0 | 1 => cc4_transform_1 | 2 => cc4_transform_2 | ⟨_ + 3, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | 2 => hreads4_2 | ⟨_ + 3, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | 2 => hinb4_2 | ⟨_ + 3, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | 2 => hwx4_2 | ⟨_ + 3, h⟩ => absurd h (Nat.not_lt.2 (Nat.le_add_left _ _))
abbrev spec5_0 : Pipeline.WinSpec sig grid5.rank :=
  Pipeline.WinSpec.ofSpec (Memref.whole main_arg0) S20000x256.size reads5_0 false true 1 stage5_0 sem5_0 nbuf5_0 hstage5_0

abbrev spec5_1 : Pipeline.WinSpec sig grid5.rank :=
  Pipeline.WinSpec.ofSpec (Memref.whole main_v26) S800x1.size reads5_1 false false 2 stage5_1 sem5_1 nbuf5_1 hstage5_1

abbrev spec5_2 : Pipeline.WinSpec sig grid5.rank :=
  Pipeline.WinSpec.ofSpec (Memref.whole main_v27) S800x256.size reads5_2 true false 2 stage5_2 sem5_2 nbuf5_2 hstage5_2

abbrev spec5 : Fin 3 → Pipeline.WinSpec sig grid5.rank := fun | 0 => spec5_0 | 1 => spec5_1 | 2 => spec5_2 | ⟨_ + 3, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | ⟨_ + 3, h⟩ => absurd h (Nat.not_lt.2 (Nat.le_add_left _ _))
abbrev ix5 (pf : pre5.Contents (Elt F)) : (w : Fin 3) → grid5.Coords → Fin (spec5 w).shape.rank → Nat := fun | 0 => cc5_transform_0 | 1 => cc5_transform_1 | 2 => cc5_transform_2 | ⟨_ + 3, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | 1 => hreads5_1 | 2 => hreads5_2 | ⟨_ + 3, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | 1 => hinb5_1 | 2 => hinb5_2 | ⟨_ + 3, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | 1 => hwx5_1 | 2 => hwx5_2 | ⟨_ + 3, h⟩ => absurd h (Nat.not_lt.2 (Nat.le_add_left _ _))
abbrev spec6_0 : Pipeline.WinSpec sig grid6.rank :=
  Pipeline.WinSpec.ofSpec (Memref.whole main_arg0) S20000x256.size reads6_0 false true 1 stage6_0 sem6_0 nbuf6_0 hstage6_0

abbrev spec6_1 : Pipeline.WinSpec sig grid6.rank :=
  Pipeline.WinSpec.ofSpec (Memref.whole main_v30) S800x1.size reads6_1 false false 2 stage6_1 sem6_1 nbuf6_1 hstage6_1

abbrev spec6_2 : Pipeline.WinSpec sig grid6.rank :=
  Pipeline.WinSpec.ofSpec (Memref.whole main_v31) S800x256.size reads6_2 true false 2 stage6_2 sem6_2 nbuf6_2 hstage6_2

abbrev spec6 : Fin 3 → Pipeline.WinSpec sig grid6.rank := fun | 0 => spec6_0 | 1 => spec6_1 | 2 => spec6_2 | ⟨_ + 3, h⟩ => absurd h (Nat.not_lt.2 (Nat.le_add_left _ _))
theorem hcount6 : ∀ w, grid6.bufCount (spec6 w).reads (spec6 w).sync = (spec6 w).nbuf := fun | 0 => nbuf6_0 | 1 => nbuf6_1 | 2 => nbuf6_2 | ⟨_ + 3, h⟩ => absurd h (Nat.not_lt.2 (Nat.le_add_left _ _))
abbrev ix6 (pf : pre6.Contents (Elt F)) : (w : Fin 3) → grid6.Coords → Fin (spec6 w).shape.rank → Nat := fun | 0 => cc6_transform_0 | 1 => cc6_transform_1 | 2 => cc6_transform_2 | ⟨_ + 3, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 | 1 => hreads6_1 | 2 => hreads6_2 | ⟨_ + 3, h⟩ => absurd h (Nat.not_lt.2 (Nat.le_add_left _ _))
def ok6 (_ : pre6.Contents (Elt F)) : Prop :=
  True
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun _ _ => fun | 0 => hinb6_0 | 1 => hinb6_1 | 2 => hinb6_2 | ⟨_ + 3, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun _ _ => fun | 0 => hwx6_0 | 1 => hwx6_1 | 2 => hwx6_2 | ⟨_ + 3, h⟩ => absurd h (Nat.not_lt.2 (Nat.le_add_left _ _))
abbrev spec7_0 : Pipeline.WinSpec sig grid7.rank :=
  Pipeline.WinSpec.ofSpec (Memref.whole main_arg0) S20000x256.size reads7_0 false true 1 stage7_0 sem7_0 nbuf7_0 hstage7_0

abbrev spec7_1 : Pipeline.WinSpec sig grid7.rank :=
  Pipeline.WinSpec.ofSpec (Memref.whole main_v34) S800x1.size reads7_1 false false 2 stage7_1 sem7_1 nbuf7_1 hstage7_1

abbrev spec7_2 : Pipeline.WinSpec sig grid7.rank :=
  Pipeline.WinSpec.ofSpec (Memref.whole main_v35) S800x256.size reads7_2 true false 2 stage7_2 sem7_2 nbuf7_2 hstage7_2

abbrev spec7 : Fin 3 → Pipeline.WinSpec sig grid7.rank := fun | 0 => spec7_0 | 1 => spec7_1 | 2 => spec7_2 | ⟨_ + 3, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | ⟨_ + 3, h⟩ => absurd h (Nat.not_lt.2 (Nat.le_add_left _ _))
abbrev ix7 (pf : pre7.Contents (Elt F)) : (w : Fin 3) → grid7.Coords → Fin (spec7 w).shape.rank → Nat := fun | 0 => cc7_transform_0 | 1 => cc7_transform_1 | 2 => cc7_transform_2 | ⟨_ + 3, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | 1 => hreads7_1 | 2 => hreads7_2 | ⟨_ + 3, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | 1 => hinb7_1 | 2 => hinb7_2 | ⟨_ + 3, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | 1 => hwx7_1 | 2 => hwx7_2 | ⟨_ + 3, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole

variable [Facts]
-- ==== ReferenceIdeal.lean ====
abbrev S20000x256 : Shape := ⟨2, ![20000, 256]⟩
abbrev S320000 : Shape := ⟨1, ![320000]⟩
abbrev S320000x1 : Shape := ⟨2, ![320000, 1]⟩
abbrev S_ : Shape := ⟨0, ![]⟩
abbrev S320000x256 : Shape := ⟨2, ![320000, 256]⟩
abbrev S20000x512 : Shape := ⟨2, ![20000, 512]⟩

abbrev nBuf : Space → Nat
  | .hbm => 40
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S320000, .i32⟩
  | .hbm, ⟨5, _⟩ => ⟨S320000, .i32⟩
  | .hbm, ⟨6, _⟩ => ⟨S320000, .f32⟩
  | .hbm, ⟨7, _⟩ => ⟨S320000x1, .f32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x256, .f32⟩
  | .hbm, ⟨17, _⟩ => ⟨S320000x256, .f32⟩
  | .hbm, ⟨18, _⟩ => ⟨S320000x256, .f32⟩
  | .hbm, ⟨19, _⟩ => ⟨S_, .f32⟩
  | .hbm, ⟨20, _⟩ => ⟨S20000x256, .f32⟩
  | .hbm, ⟨21, _⟩ => ⟨S320000x1, .i32⟩
  | .hbm, ⟨22, _⟩ => ⟨S20000x256, .f32⟩
  | .hbm, ⟨23, _⟩ => ⟨S320000x1, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x256, .f32⟩
  | .hbm, ⟨33, _⟩ => ⟨S320000x256, .f32⟩
  | .hbm, ⟨34, _⟩ => ⟨S320000x256, .f32⟩
  | .hbm, ⟨35, _⟩ => ⟨S_, .f32⟩
  | .hbm, ⟨36, _⟩ => ⟨S20000x256, .f32⟩
  | .hbm, ⟨37, _⟩ => ⟨S320000x1, .i32⟩
  | .hbm, ⟨38, _⟩ => ⟨S20000x256, .f32⟩
  | .hbm, ⟨39, _⟩ => ⟨S20000x512, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  concatenates_S20000x256_S20000x256_S20000x512_d1 : Shape.Concatenates [S20000x256, S20000x256] S20000x512 1
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf

class Facts : Prop extends Facts₀ where

variable [Facts]
-- ==== Proof.PreDecode.lean ====
import proofs.«411766_j31920196944464_2_alg».proof.Defs
import Idealize.ShloMosaic.Lib.ReduceAll

noncomputable section

namespace Cert.PreDecode

open Idealize.ShloMosaic Idealize.SL.Sem
open Cert.Pre_finite_inputs

instance subsingleton_S_ : Subsingleton S_.Idx := ⟨fun a b => funext fun d => d.elim0⟩

theorem toNat_lt (w : BitVec 32) (h0 : IntOp.cmpi .sge w (0#32) = 1#1) (h1 : IntOp.cmpi .slt w (20000#32) = 1#1) :
    w.toNat < 20000 := by
  rw [IntOp.cmpi_sge] at h0
  rw [IntOp.cmpi_slt] at h1
  have e0 : (0#32 : BitVec 32).toInt = 0 := by decide
  have e1 : (20000#32 : BitVec 32).toInt = 20000 := by decide
  rw [e0] at h0
  rw [e1] at h1
  have h32 := w.isLt
  rw [BitVec.toInt_eq_toNat_cond] at h0 h1
  split at h0 <;> omega

theorem all_in_range [Facts] (col : IVec S320000 32) (init : IVec S_ 1) (j : S_.Idx)
    (e : Host.reduce IntOp.andi
          (andi (cmpi .sge col (broadcastInDim S320000 ![] Facts.bcast_S_S320000 (constantI S_ 32 0#32)))
                (cmpi .slt col (broadcastInDim S320000 ![] Facts.bcast_S_S320000 (constantI S_ 32 20000#32))))
          init Facts.reducesTo_S320000_S_d0 Facts.h_S_ j = 1#1) :
    ∀ i : S320000.Idx, (col i).toNat < 20000 := by
  intro i
  have hi := Host.reduce_andi_all _ _ _ _ j e i
  simp only [andi, cmpi, broadcastInDim, constantI] at hi
  rw [IntOp.andi_eq_one] at hi
  exact toNat_lt _ hi.1 hi.2

theorem fn_cols {F : FTy → Type} [FloatOps F] [Facts]
    (a0 : FVec F S20000x256 .f32) (a1 : IVec S320000 32) (a2 : IVec S320000 32) (a3 : FVec F S320000 .f32)
    (a4 : IVec S320000 32) (a5 : IVec S320000 32) (a6 : FVec F S320000 .f32)
    (h : fn (F := F) a0 a1 a2 a3 a4 a5 a6 = (fun _ => 1#1)) :
    (∀ i : S320000.Idx, (a2 i).toNat < 20000) ∧ (∀ i : S320000.Idx, (a5 i).toNat < 20000) := by
  have e := congrFun h (fun a => a.elim0)
  dsimp only [fn, fn_part1] at e
  change IntOp.andi _ _ = 1#1 at e
  obtain ⟨e1, e5⟩ := IntOp.andi_eq_one.1 e
  change IntOp.andi _ _ = 1#1 at e1
  obtain ⟨_, e2⟩ := IntOp.andi_eq_one.1 e1
  exact ⟨all_in_range a2 _ _ e2, all_in_range a5 _ _ e5⟩

theorem col_in_range_Kernel [Facts]
    (m : (ℓ : Loc Cert.Kernel.nD Cert.Kernel.τ Cert.Kernel.sig) → Buf (Elt Bits) ℓ) (h : Cert.Pre_Kernel m)
    (c : Dev Cert.Kernel.nD) :
    (∀ e : Cert.Kernel.S320000.Idx,
        (m ((c.tc : Thread Cert.Kernel.nD Cert.Kernel.τ).loc Cert.Kernel.main_arg2) e).toNat < 20000)
    ∧ (∀ e : Cert.Kernel.S320000.Idx,
        (m ((c.tc : Thread Cert.Kernel.nD Cert.Kernel.τ).loc Cert.Kernel.main_arg5) e).toNat < 20000) :=
  fn_cols (F := Bits) _ _ _ _ _ _ _ (h c)

theorem col_in_range_KernelIdeal [Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ e : Cert.KernelIdeal.S320000.Idx,
        (m ((c.tc : Thread Cert.KernelIdeal.nD Cert.KernelIdeal.τ).loc Cert.KernelIdeal.main_arg2) e).toNat < 20000)
    ∧ (∀ e : Cert.KernelIdeal.S320000.Idx,
        (m ((c.tc : Thread Cert.KernelIdeal.nD Cert.KernelIdeal.τ).loc Cert.KernelIdeal.main_arg5) e).toNat < 20000) :=
  fn_cols (F := Ideal) _ _ _ _ _ _ _ (h c)

end Cert.PreDecode

end
-- ==== Proof.Spec.lean ====
import Idealize.ShloMosaic.PureOps
import Idealize.ShloMosaic.PureOps.Ideal
import Idealize.ShloMosaic.Lib.ValueIdx

noncomputable section

namespace Cert.Spec

open Idealize.ShloMosaic Idealize.ShloMosaic.ValueIdx

abbrev SX : Shape := ⟨2, ![20000, 256]⟩

abbrev SE : Shape := ⟨1, ![320000]⟩

abbrev SE1 : Shape := ⟨2, ![320000, 1]⟩

abbrev SM : Shape := ⟨2, ![320000, 256]⟩

abbrev SO : Shape := ⟨2, ![20000, 512]⟩

abbrev S0 : Shape := ⟨0, ![]⟩

theorem bcast_S0_SX : S0.BroadcastsInDim SX (![] : Fin 0 → Fin SX.rank) := by decide
theorem bcast_SE_SE1 : SE.BroadcastsInDim SE1 (![0] : Fin 1 → Fin SE1.rank) := by decide
theorem cat_SX_SX_SO : Shape.Concatenates [SX, SX] SO 1 := by decide
theorem scat_wf : ScatterDims.WF SX SE1 SM [1] [0] [0] 1 := by decide

def scat : ScatterDims SX SE1 SM where
  updateWindowDims := [1]
  insertedWindowDims := [0]
  scatterDimsToOperandDims := [0]
  indexVectorDim := 1
  wf := scat_wf

def agg (msgs : FVec Ideal SM .f32) (row : IVec SE 32) : FVec Ideal SX .f32 :=
  Host.scatterAdd scat (broadcastInDim SX ![] bcast_S0_SX (constant (F := Ideal) S0 .f32 0x00000000#32))
    (broadcastInDim SE1 ![0] bcast_SE_SE1 row) msgs

def tail (msgs1 : FVec Ideal SM .f32) (row1 : IVec SE 32) (msgs2 : FVec Ideal SM .f32) (row2 : IVec SE 32) :
    FVec Ideal SO .f32 :=
  concatenate SO 1 [⟨SX, agg msgs1 row1⟩, ⟨SX, agg msgs2 row2⟩] cat_SX_SX_SO

def srcRow (col : IVec SE 32) (e : Fin 320000) : Fin 20000 := ⟨min (col (ix1 e)).toNat 19999, by omega⟩

theorem srcRow_of_lt (col : IVec SE 32) (e : Fin 320000) (h : (col (ix1 e)).toNat < 20000) :
    srcRow col e = ⟨(col (ix1 e)).toNat, h⟩ := Fin.ext (Nat.min_eq_left (by omega))

def msgs (x : FVec Ideal SX .f32) (col : IVec SE 32) (val : FVec Ideal SE .f32) : FVec Ideal SM .f32 :=
  fun j => val (ix1 (j 0)) * x (ix2 (srcRow col (j 0)) (j 1))

theorem msgs_apply (x : FVec Ideal SX .f32) (col : IVec SE 32) (val : FVec Ideal SE .f32) (e : Fin 320000) (d : Fin 256) :
    msgs x col val (ix2 e d) = val (ix1 e) * x (ix2 (srcRow col e) d) := rfl

theorem msgs_apply_of_lt (x : FVec Ideal SX .f32) (col : IVec SE 32) (val : FVec Ideal SE .f32) (e : Fin 320000) (d : Fin 256)
    (h : (col (ix1 e)).toNat < 20000) :
    msgs x col val (ix2 e d) = x (ix2 ⟨(col (ix1 e)).toNat, h⟩ d) * val (ix1 e) := by
  rw [msgs_apply, srcRow_of_lt col e h, mul_comm]

abbrev edge (k : Nat) (r : Fin 80000) (hk : k < 4 := by decide) : Fin 320000 := ⟨80000 * k + r.val, by have := r.isLt; omega⟩

def G (x : FVec Ideal SX .f32) (row1 col1 : IVec SE 32) (val1 : FVec Ideal SE .f32) (row2 col2 : IVec SE 32) (val2 : FVec Ideal SE .f32) :
    FVec Ideal SO .f32 :=
  tail (msgs x col1 val1) row1 (msgs x col2 val2) row2

end Cert.Spec

end
-- ==== Proof.RefValue.lean ====
import proofs.«411766_j31920196944464_2_alg».proof.Proof.Gen.ReferenceIdeal.Read
import proofs.«411766_j31920196944464_2_alg».proof.Proof.Spec
import Idealize.ShloMosaic.Lib.ValueIdx
import Idealize.ShloMosaic.Lib.Pipeline.Value
import Idealize.ShloMosaic.Lib.StableHlo.Predicate

noncomputable section

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

local notation "gd" => gather_S20000x256_S320000x1_S320000x256_1_0_n_n_0_1_1256

theorem gather_rows_apply (x : FVec Ideal S20000x256 .f32) (idx : IVec S320000x1 32) (e : Fin 320000) (d : Fin 256) :
    Host.gather gd x idx (ValueIdx.ix2 e d)
      = x (ValueIdx.ix2 ⟨min (idx (ValueIdx.ix2 e 0)).toInt.toNat 19999, by omega⟩ d) := by
  unfold Host.gather
  congr 1
  funext a
  refine Fin.ext ?_
  match a with
  | ⟨0, _⟩ =>
    show GatherDims.start gd (ValueIdx.ix2 e d) idx 0 + GatherDims.batchCoord gd (ValueIdx.ix2 e d) 0 + GatherDims.offCoord gd (ValueIdx.ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gd from List.mem_singleton.mpr rfl)]
    have hsi : GatherDims.siIdx gd (ValueIdx.ix2 e d) ⟨List.idxOf (0 : Fin 2) (GatherDims.startIndexMap gd),
        List.idxOf_lt_length_iff.2 (List.mem_singleton.mpr rfl)⟩ = ValueIdx.ix2 e 0 := by
      funext b; refine Fin.ext ?_
      match b with
      | ⟨0, _⟩ => rfl
      | ⟨1, _⟩ => rfl
    rw [hsi]
    rfl
  | ⟨1, _⟩ =>
    show GatherDims.start gd (ValueIdx.ix2 e d) idx 1 + GatherDims.batchCoord gd (ValueIdx.ix2 e d) 1 + GatherDims.offCoord gd (ValueIdx.ix2 e d) 1 = d.val
    rw [GatherDims.batchCoord_eq_zero _ _ _ List.not_mem_nil]
    unfold GatherDims.start
    rw [dif_neg (show ¬ (1 : Fin 2) ∈ GatherDims.startIndexMap gd from by decide)]
    unfold GatherDims.offCoord
    rw [dif_pos (show (1 : Fin 2) ∈ GatherDims.sKept gd from by decide)]
    simp only [Nat.zero_add, Nat.add_zero]
    rfl

theorem slt_zero_of_lt (w : BitVec 32) (h : w.toNat < 20000) : IntOp.cmpi .slt w 0#32 = 0#1 := by
  refine eq_zero_of_ne_one fun h1 => ?_
  have h2 := (Predicate.slt_iff_toNat (a := w) (b := 0#32) (by omega) (by decide)).mp h1
  exact Nat.not_lt_zero _ h2

theorem clamp_of_lt (w : BitVec 32) (h : w.toNat < 20000) : min w.toInt.toNat 19999 = min w.toNat 19999 := by
  rw [Predicate.toInt_eq_toNat_of_lt (a := w) (by omega)]
  rfl

theorem fix1_of_lt (col : IVec S320000 32) (hcol : ∀ e : S320000.Idx, (col e).toNat < 20000) (i : S320000.Idx) :
    val_main_v5 (F := Ideal) col i = col i := by
  rw [val_main_v5_apply, val_main_v2_apply, val_main_v1_apply, val_main_c_apply, slt_zero_of_lt _ (hcol i), select_zero]

theorem fix2_of_lt (col : IVec S320000 32) (hcol : ∀ e : S320000.Idx, (col e).toNat < 20000) (i : S320000.Idx) :
    val_main_v18 (F := Ideal) col i = col i := by
  rw [val_main_v18_apply, val_main_v15_apply, val_main_v14_apply, val_main_c_1_apply, slt_zero_of_lt _ (hcol i), select_zero]

theorem v9_eq_msgs (x : FVec Ideal S20000x256 .f32) (col : IVec S320000 32) (val : FVec Ideal S320000 .f32)
    (hcol : ∀ e : S320000.Idx, (col e).toNat < 20000) :
    (val_main_v9 (F := Ideal) x col val : FVec Ideal Spec.SM .f32) = Spec.msgs x col val := by
  funext j
  obtain ⟨e, d, rfl⟩ : ∃ e d, j = ValueIdx.ix2 e d := ⟨j 0, j 1, eq_ix2 j⟩
  have hv : val_main_v8 (F := Ideal) val (ValueIdx.ix2 e d) = val (ValueIdx.ix1 e) := by
    rw [val_main_v8_apply, val_main_v0_apply]
    exact congrArg val (funext fun a => match a with | ⟨0, _⟩ => rfl)
  have hw : val_main_v6 (F := Ideal) col (ValueIdx.ix2 e 0) = col (ValueIdx.ix1 e) := by
    rw [val_main_v6_apply, fix1_of_lt col hcol]
    exact congrArg col (funext fun a => match a with | ⟨0, _⟩ => rfl)
  have hg : val_main_v7 (F := Ideal) x col (ValueIdx.ix2 e d) = x (ValueIdx.ix2 (Spec.srcRow col e) d) := by
    unfold val_main_v7
    rw [gather_rows_apply]
    refine congrArg (fun r : Fin 20000 => x (ValueIdx.ix2 r d)) (Fin.ext ?_)
    show min (val_main_v6 (F := Ideal) col (ValueIdx.ix2 e 0)).toInt.toNat 19999 = min (col (ValueIdx.ix1 e)).toNat 19999
    rw [hw]
    exact clamp_of_lt _ (hcol _)
  rw [val_main_v9_apply, hv, hg]
  rfl

theorem v22_eq_msgs (x : FVec Ideal S20000x256 .f32) (col : IVec S320000 32) (val : FVec Ideal S320000 .f32)
    (hcol : ∀ e : S320000.Idx, (col e).toNat < 20000) :
    (val_main_v22 (F := Ideal) x col val : FVec Ideal Spec.SM .f32) = Spec.msgs x col val := by
  funext j
  obtain ⟨e, d, rfl⟩ : ∃ e d, j = ValueIdx.ix2 e d := ⟨j 0, j 1, eq_ix2 j⟩
  have hv : val_main_v21 (F := Ideal) val (ValueIdx.ix2 e d) = val (ValueIdx.ix1 e) := by
    rw [val_main_v21_apply, val_main_v13_apply]
    exact congrArg val (funext fun a => match a with | ⟨0, _⟩ => rfl)
  have hw : val_main_v19 (F := Ideal) col (ValueIdx.ix2 e 0) = col (ValueIdx.ix1 e) := by
    rw [val_main_v19_apply, fix2_of_lt col hcol]
    exact congrArg col (funext fun a => match a with | ⟨0, _⟩ => rfl)
  have hg : val_main_v20 (F := Ideal) x col (ValueIdx.ix2 e d) = x (ValueIdx.ix2 (Spec.srcRow col e) d) := by
    unfold val_main_v20
    rw [gather_rows_apply]
    refine congrArg (fun r : Fin 20000 => x (ValueIdx.ix2 r d)) (Fin.ext ?_)
    show min (val_main_v19 (F := Ideal) col (ValueIdx.ix2 e 0)).toInt.toNat 19999 = min (col (ValueIdx.ix1 e)).toNat 19999
    rw [hw]
    exact clamp_of_lt _ (hcol _)
  rw [val_main_v22_apply, hv, hg]
  rfl

theorem v26_eq_tail (x0 : FVec Ideal S20000x256 .f32) (x1 x2 : IVec S320000 32) (x3 : FVec Ideal S320000 .f32)
    (x4 x5 : IVec S320000 32) (x6 : FVec Ideal S320000 .f32) :
    (val_main_v26 (F := Ideal) x0 x1 x2 x3 x4 x5 x6 : FVec Ideal Spec.SO .f32)
      = Spec.tail (val_main_v9 (F := Ideal) x0 x2 x3) x1 (val_main_v22 (F := Ideal) x0 x5 x6) x4 := rfl

theorem ref_is_spec (x0 : FVec Ideal S20000x256 .f32) (x1 x2 : IVec S320000 32) (x3 : FVec Ideal S320000 .f32)
    (x4 x5 : IVec S320000 32) (x6 : FVec Ideal S320000 .f32)
    (h2 : ∀ e : S320000.Idx, (x2 e).toNat < 20000) (h5 : ∀ e : S320000.Idx, (x5 e).toNat < 20000) :
    (val_main_v26 (F := Ideal) x0 x1 x2 x3 x4 x5 x6 : FVec Ideal Spec.SO .f32) = Spec.G x0 x1 x2 x3 x4 x5 x6 := by
  rw [v26_eq_tail, v9_eq_msgs x0 x2 x3 h2, v22_eq_msgs x0 x5 x6 h5]
  rfl

end Cert.ReferenceIdeal.Hand

end
-- ==== Proof.KernelTail.lean ====
import proofs.«411766_j31920196944464_2_alg».proof.Proof.Gen.KernelIdeal.Regions
import proofs.«411766_j31920196944464_2_alg».proof.Proof.Spec
import Idealize.ShloMosaic.Lib.ValueIdx
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (outs : Outs (F := Ideal)) (c : Dev nD)

abbrev argX : FVec Ideal Spec.SX .f32 := m ((c : Thread nD τ).loc main_arg0)
abbrev argRow1 : IVec Spec.SE 32 := m ((c : Thread nD τ).loc main_arg1)
abbrev argCol1 : IVec Spec.SE 32 := m ((c : Thread nD τ).loc main_arg2)
abbrev argVal1 : FVec Ideal Spec.SE .f32 := m ((c : Thread nD τ).loc main_arg3)
abbrev argRow2 : IVec Spec.SE 32 := m ((c : Thread nD τ).loc main_arg4)
abbrev argCol2 : IVec Spec.SE 32 := m ((c : Thread nD τ).loc main_arg5)
abbrev argVal2 : FVec Ideal Spec.SE .f32 := m ((c : Thread nD τ).loc main_arg6)

theorem cat4_wf : Shape.Concatenates [S80000x256, S80000x256, S80000x256, S80000x256] Spec.SM 0 := by decide

theorem cat4_pre1 : (([S80000x256] : List Shape).map fun s => if h : s.rank = Spec.SM.rank then s.size ((0 : Fin Spec.SM.rank).cast h.symm) else 0).sum = 80000 := by decide
theorem cat4_pre2 : (([S80000x256, S80000x256] : List Shape).map fun s => if h : s.rank = Spec.SM.rank then s.size ((0 : Fin Spec.SM.rank).cast h.symm) else 0).sum = 160000 := by decide
theorem cat4_pre3 : (([S80000x256, S80000x256, S80000x256] : List Shape).map fun s => if h : s.rank = Spec.SM.rank then s.size ((0 : Fin Spec.SM.rank).cast h.symm) else 0).sum = 240000 := by decide

def cat4 (a0 a1 a2 a3 : FVec Ideal S80000x256 .f32) : FVec Ideal Spec.SM .f32 :=
  concatenate Spec.SM 0 [⟨S80000x256, a0⟩, ⟨S80000x256, a1⟩, ⟨S80000x256, a2⟩, ⟨S80000x256, a3⟩] cat4_wf

set_option maxRecDepth 8000 in

theorem cat4_eq (a0 a1 a2 a3 : FVec Ideal S80000x256 .f32) (f : FVec Ideal Spec.SM .f32)
    (h0 : ∀ (r : Fin 80000) (d : Fin 256), a0 (ValueIdx.ix2 r d) = f (ValueIdx.ix2 (Spec.edge 0 r) d))
    (h1 : ∀ (r : Fin 80000) (d : Fin 256), a1 (ValueIdx.ix2 r d) = f (ValueIdx.ix2 (Spec.edge 1 r) d))
    (h2 : ∀ (r : Fin 80000) (d : Fin 256), a2 (ValueIdx.ix2 r d) = f (ValueIdx.ix2 (Spec.edge 2 r) d))
    (h3 : ∀ (r : Fin 80000) (d : Fin 256), a3 (ValueIdx.ix2 r d) = f (ValueIdx.ix2 (Spec.edge 3 r) d)) :
    cat4 a0 a1 a2 a3 = f := by
  funext j
  have hj0 : (j 0).val < 320000 := (j 0).isLt
  unfold cat4
  by_cases c0 : (j 0).val < 80000
  · refine (concatenate_apply_piece (t := Spec.SM) (0 : Fin 2) [⟨S80000x256, a0⟩, ⟨S80000x256, a1⟩, ⟨S80000x256, a2⟩, ⟨S80000x256, a3⟩] cat4_wf j 0 (show 0 < 4 from by omega) S80000x256 a0 rfl rfl 0 rfl
      (ValueIdx.ix2 ⟨(j 0).val, c0⟩ (j 1)) (fun b hb => ?_) ?_).trans ((h0 _ _).trans (congrArg f ?_))
    · match b with
      | ⟨0, _⟩ => exact absurd rfl hb
      | ⟨1, _⟩ => rfl
    · show 0 + (j 0).val = (j 0).val; omega
    · funext b
      match b with
      | ⟨0, _⟩ => exact Fin.ext (by show 80000 * 0 + (j 0).val = (j 0).val; omega)
      | ⟨1, _⟩ => rfl
  by_cases c1 : (j 0).val < 160000
  · refine (concatenate_apply_piece (t := Spec.SM) (0 : Fin 2) [⟨S80000x256, a0⟩, ⟨S80000x256, a1⟩, ⟨S80000x256, a2⟩, ⟨S80000x256, a3⟩] cat4_wf j 1 (show 1 < 4 from by omega) S80000x256 a1 rfl rfl 80000 cat4_pre1
      (ValueIdx.ix2 ⟨(j 0).val - 80000, by omega⟩ (j 1)) (fun b hb => ?_) ?_).trans ((h1 _ _).trans (congrArg f ?_))
    · match b with
      | ⟨0, _⟩ => exact absurd rfl hb
      | ⟨1, _⟩ => rfl
    · show 80000 + ((j 0).val - 80000) = (j 0).val; omega
    · funext b
      match b with
      | ⟨0, _⟩ => exact Fin.ext (by show 80000 * 1 + ((j 0).val - 80000) = (j 0).val; omega)
      | ⟨1, _⟩ => rfl
  by_cases c2 : (j 0).val < 240000
  · refine (concatenate_apply_piece (t := Spec.SM) (0 : Fin 2) [⟨S80000x256, a0⟩, ⟨S80000x256, a1⟩, ⟨S80000x256, a2⟩, ⟨S80000x256, a3⟩] cat4_wf j 2 (show 2 < 4 from by omega) S80000x256 a2 rfl rfl 160000 cat4_pre2
      (ValueIdx.ix2 ⟨(j 0).val - 160000, by omega⟩ (j 1)) (fun b hb => ?_) ?_).trans ((h2 _ _).trans (congrArg f ?_))
    · match b with
      | ⟨0, _⟩ => exact absurd rfl hb
      | ⟨1, _⟩ => rfl
    · show 160000 + ((j 0).val - 160000) = (j 0).val; omega
    · funext b
      match b with
      | ⟨0, _⟩ => exact Fin.ext (by show 80000 * 2 + ((j 0).val - 160000) = (j 0).val; omega)
      | ⟨1, _⟩ => rfl
  · refine (concatenate_apply_piece (t := Spec.SM) (0 : Fin 2) [⟨S80000x256, a0⟩, ⟨S80000x256, a1⟩, ⟨S80000x256, a2⟩, ⟨S80000x256, a3⟩] cat4_wf j 3 (show 3 < 4 from by omega) S80000x256 a3 rfl rfl 240000 cat4_pre3
      (ValueIdx.ix2 ⟨(j 0).val - 240000, by omega⟩ (j 1)) (fun b hb => ?_) ?_).trans ((h3 _ _).trans (congrArg f ?_))
    · match b with
      | ⟨0, _⟩ => exact absurd rfl hb
      | ⟨1, _⟩ => rfl
    · show 240000 + ((j 0).val - 240000) = (j 0).val; omega
    · funext b
      match b with
      | ⟨0, _⟩ => exact Fin.ext (by show 80000 * 3 + ((j 0).val - 240000) = (j 0).val; omega)
      | ⟨1, _⟩ => rfl

theorem V8_v3 : V8 m outs c main_v3 = outs 2 main_v3 c :=
  (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide)).trans <| Function.update_self _ _ _
theorem V8_v7 : V8 m outs c main_v7 = outs 4 main_v7 c :=
  (V8_of m outs c main_v7 (by decide)).trans <| (V7_of m outs c main_v7 (by decide)).trans <| (V6_of m outs c main_v7 (by decide)).trans <| (V5_of m outs c main_v7 (by decide)).trans <| Function.update_self _ _ _
theorem V8_v11 : V8 m outs c main_v11 = outs 6 main_v11 c :=
  (V8_of m outs c main_v11 (by decide)).trans <| (V7_of m outs c main_v11 (by decide)).trans <| Function.update_self _ _ _
theorem V8_v15 : V8 m outs c main_v15 = outs 8 main_v15 c :=
  Function.update_self _ _ _
theorem V8_arg1 : V8 m outs c main_arg1 = argRow1 m c :=
  (V8_of m outs c main_arg1 (by decide)).trans <| (V7_of m outs c main_arg1 (by decide)).trans <| (V6_of m outs c main_arg1 (by decide)).trans <| (V5_of m outs c main_arg1 (by decide)).trans <| (V4_of m outs c main_arg1 (by decide)).trans <| (V3_of m outs c main_arg1 (by decide)).trans <| (V2_of m outs c main_arg1 (by decide)).trans <| (V1_of m c main_arg1 (by decide)).trans <| rfl
theorem V16_v23 : V16 m outs c main_v23 = outs 10 main_v23 c :=
  (V16_of m outs c main_v23 (by decide)).trans <| (V15_of m outs c main_v23 (by decide)).trans <| (V14_of m outs c main_v23 (by decide)).trans <| (V13_of m outs c main_v23 (by decide)).trans <| (V12_of m outs c main_v23 (by decide)).trans <| (V11_of m outs c main_v23 (by decide)).trans <| Function.update_self _ _ _
theorem V16_v27 : V16 m outs c main_v27 = outs 12 main_v27 c :=
  (V16_of m outs c main_v27 (by decide)).trans <| (V15_of m outs c main_v27 (by decide)).trans <| (V14_of m outs c main_v27 (by decide)).trans <| (V13_of m outs c main_v27 (by decide)).trans <| Function.update_self _ _ _
theorem V16_v31 : V16 m outs c main_v31 = outs 14 main_v31 c :=
  (V16_of m outs c main_v31 (by decide)).trans <| (V15_of m outs c main_v31 (by decide)).trans <| Function.update_self _ _ _
theorem V16_v35 : V16 m outs c main_v35 = outs 16 main_v35 c :=
  Function.update_self _ _ _
theorem V16_arg4 : V16 m outs c main_arg4 = argRow2 m c :=
  (V16_of m outs c main_arg4 (by decide)).trans <| (V15_of m outs c main_arg4 (by decide)).trans <| (V14_of m outs c main_arg4 (by decide)).trans <| (V13_of m outs c main_arg4 (by decide)).trans <| (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| (V1_of m c main_arg4 (by decide)).trans <| rfl
theorem V16_v19 : V16 m outs c main_v19 = V9 m outs c main_v19 :=
  (V16_of m outs c main_v19 (by decide)).trans <| (V15_of m outs c main_v19 (by decide)).trans <| (V14_of m outs c main_v19 (by decide)).trans <| (V13_of m outs c main_v19 (by decide)).trans <| (V12_of m outs c main_v19 (by decide)).trans <| (V11_of m outs c main_v19 (by decide)).trans <| (V10_of m outs c main_v19 (by decide))

theorem V9_v19 : (V9 m outs c main_v19 : FVec Ideal Spec.SX .f32)
    = Spec.agg (cat4 (outs 2 main_v3 c) (outs 4 main_v7 c) (outs 6 main_v11 c) (outs 8 main_v15 c)) (argRow1 m c) := by
  have e : (V9 m outs c main_v19 : FVec Ideal Spec.SX .f32)
      = Spec.agg (cat4 (V8 m outs c main_v3) (V8 m outs c main_v7) (V8 m outs c main_v11) (V8 m outs c main_v15)) (V8 m outs c main_arg1) := by
    show StableHlo.after hostOps4 _ (Proc.devRef .tc main_v19) = _
    after_results
    rfl
  rw [e, V8_v3, V8_v7, V8_v11, V8_v15, V8_arg1]

theorem V17_v40 : (V17 m outs c main_v40 : FVec Ideal Spec.SO .f32)
    = Spec.tail (cat4 (outs 2 main_v3 c) (outs 4 main_v7 c) (outs 6 main_v11 c) (outs 8 main_v15 c)) (argRow1 m c)
        (cat4 (outs 10 main_v23 c) (outs 12 main_v27 c) (outs 14 main_v31 c) (outs 16 main_v35 c)) (argRow2 m c) := by
  have e : (V17 m outs c main_v40 : FVec Ideal Spec.SO .f32)
      = concatenate Spec.SO 1 [⟨Spec.SX, (V16 m outs c main_v19 : FVec Ideal Spec.SX .f32)⟩,
          ⟨Spec.SX, Spec.agg (cat4 (V16 m outs c main_v23) (V16 m outs c main_v27) (V16 m outs c main_v31) (V16 m outs c main_v35))
            (V16 m outs c main_arg4)⟩] Spec.cat_SX_SX_SO := by
    show StableHlo.after hostOps8 _ (Proc.devRef .tc main_v40) = _
    after_results
    rfl
  rw [e, V16_v19, V9_v19, V16_v23, V16_v27, V16_v31, V16_v35, V16_arg4]
  rfl

theorem chunk_msg (x : FVec Ideal Spec.SX .f32) (col : IVec Spec.SE 32) (val : FVec Ideal Spec.SE .f32)
    (k : Nat) (hk : k < 4) (r : Fin 80000) (d : Fin 256)
    (w : BitVec 32) (hw : w = col (ValueIdx.ix1 (Spec.edge k r hk))) (v : Ideal .f32) (hv : v = val (ValueIdx.ix1 (Spec.edge k r hk)))
    (h : w.toNat < 20000) :
    x (ValueIdx.ix2 ⟨w.toNat, h⟩ d) * v = Spec.msgs x col val (ValueIdx.ix2 (Spec.edge k r hk) d) := by
  subst hw hv
  exact (Spec.msgs_apply_of_lt x col val (Spec.edge k r hk) d h).symm

theorem kernel_tail
    (h0 : ∀ (r : Fin 80000) (d : Fin 256), (outs 2 main_v3 c : FVec Ideal S80000x256 .f32) (ValueIdx.ix2 r d)
      = Spec.msgs (argX m c) (argCol1 m c) (argVal1 m c) (ValueIdx.ix2 (Spec.edge 0 r) d))
    (h1 : ∀ (r : Fin 80000) (d : Fin 256), (outs 4 main_v7 c : FVec Ideal S80000x256 .f32) (ValueIdx.ix2 r d)
      = Spec.msgs (argX m c) (argCol1 m c) (argVal1 m c) (ValueIdx.ix2 (Spec.edge 1 r) d))
    (h2 : ∀ (r : Fin 80000) (d : Fin 256), (outs 6 main_v11 c : FVec Ideal S80000x256 .f32) (ValueIdx.ix2 r d)
      = Spec.msgs (argX m c) (argCol1 m c) (argVal1 m c) (ValueIdx.ix2 (Spec.edge 2 r) d))
    (h3 : ∀ (r : Fin 80000) (d : Fin 256), (outs 8 main_v15 c : FVec Ideal S80000x256 .f32) (ValueIdx.ix2 r d)
      = Spec.msgs (argX m c) (argCol1 m c) (argVal1 m c) (ValueIdx.ix2 (Spec.edge 3 r) d))
    (h4 : ∀ (r : Fin 80000) (d : Fin 256), (outs 10 main_v23 c : FVec Ideal S80000x256 .f32) (ValueIdx.ix2 r d)
      = Spec.msgs (argX m c) (argCol2 m c) (argVal2 m c) (ValueIdx.ix2 (Spec.edge 0 r) d))
    (h5 : ∀ (r : Fin 80000) (d : Fin 256), (outs 12 main_v27 c : FVec Ideal S80000x256 .f32) (ValueIdx.ix2 r d)
      = Spec.msgs (argX m c) (argCol2 m c) (argVal2 m c) (ValueIdx.ix2 (Spec.edge 1 r) d))
    (h6 : ∀ (r : Fin 80000) (d : Fin 256), (outs 14 main_v31 c : FVec Ideal S80000x256 .f32) (ValueIdx.ix2 r d)
      = Spec.msgs (argX m c) (argCol2 m c) (argVal2 m c) (ValueIdx.ix2 (Spec.edge 2 r) d))
    (h7 : ∀ (r : Fin 80000) (d : Fin 256), (outs 16 main_v35 c : FVec Ideal S80000x256 .f32) (ValueIdx.ix2 r d)
      = Spec.msgs (argX m c) (argCol2 m c) (argVal2 m c) (ValueIdx.ix2 (Spec.edge 3 r) d)) :
    (V17 m outs c main_v40 : FVec Ideal Spec.SO .f32)
      = Spec.G (argX m c) (argRow1 m c) (argCol1 m c) (argVal1 m c) (argRow2 m c) (argCol2 m c) (argVal2 m c) := by
  rw [V17_v40, cat4_eq _ _ _ _ _ h0 h1 h2 h3, cat4_eq _ _ _ _ _ h4 h5 h6 h7]
  rfl

end Cert.KernelIdeal.Hand

end
-- ==== Proof.Gather.lean ====
import Idealize.ShloMosaic.Lib.Pipeline.FrameBody
import Idealize.ShloMosaic.Lib.Pipeline.Value
import Idealize.ShloMosaic.Lib.ValueIdx

set_option maxRecDepth 16384

noncomputable section

namespace Cert.Gather

open Idealize.ShloMosaic Idealize.ShloMosaic.TcCoe

abbrev S80000 : Shape := ⟨1, ![80000]⟩
abbrev S20000x256 : Shape := ⟨2, ![20000, 256]⟩
abbrev S16x256 : Shape := ⟨2, ![16, 256]⟩
abbrev S800x256 : Shape := ⟨2, ![800, 256]⟩
abbrev S800x1 : Shape := ⟨2, ![800, 1]⟩

variable {F : FTy → Type} [FloatOps F] {T : ℕ} (off : Fin T → Fin 2 → ℕ)
  (inb : ∀ g : Fin T, ∀ a, (off g) a + S16x256.size a ≤ S800x256.size a)

/-- Trip `g`'s sixteen rows at block `b`: row `k` is the row of `x` named by the table's word `800 b + 16 g + k`. -/
def gath (b : ℕ) (tbl : Vec F S80000 .i32) (x : Vec F S20000x256 .f32) (g : ℕ) : Vec F S16x256 .f32 :=
  fun j => x (ValueIdx.ix2 (Fin.ofNat 20000 (tbl (ValueIdx.ix1 (Fin.ofNat 80000 (800 * b + 16 * g + (j 0).val)))).toNat) (Fin.ofNat 256 (j 1).val))

/-- The pieces the trips before `n` store, last first: trip `g` stores its rows through the rectangle at `off g`. -/
def pcs (b : ℕ) (tbl : Vec F S80000 .i32) (x : Vec F S20000x256 .f32) : ℕ → List (View.Piece (Elt F) S800x256 .f32)
  | 0 => []
  | n + 1 =>
    if h : n < T then
      ⟨Rect.unit (s := S800x256) (off ⟨n, h⟩) S16x256.size (inb ⟨n, h⟩), gath b tbl x n⟩ :: pcs b tbl x n
    else pcs b tbl x n

theorem pcs_succ (b : ℕ) (tbl : Vec F S80000 .i32) (x : Vec F S20000x256 .f32) (g : Fin T) :
    pcs off inb b tbl x (g.val + 1)
      = ⟨Rect.unit (s := S800x256) (off g) S16x256.size (inb g), gath b tbl x g.val⟩ :: pcs off inb b tbl x g.val := by
  rw [pcs]; exact dif_pos g.isLt

/-- All `T` pieces read as one array. -/
def loopArr (b : ℕ) (tbl : Vec F S80000 .i32) (x : Vec F S20000x256 .f32) : Vec F S800x256 .f32 :=
  View.canon (pcs off inb b tbl x T)

variable (hoff : ∀ g : Fin T, off g = ![16 * g.val, 0])
include hoff

theorem mem_piece (g : Fin T) (y : S800x256.Idx) :
    y ∈ (Rect.unit (s := S800x256) (off g) S16x256.size (inb g)).set
      ↔ 16 * g.val ≤ (y 0).val ∧ (y 0).val < 16 * g.val + 16 := by
  rw [Rect.mem_set_unit]
  have e := hoff g
  constructor
  · intro h
    have h0 := h 0
    rw [e] at h0
    exact h0
  · intro h a
    rw [e]
    match a with
    | ⟨0, _⟩ => exact h
    | ⟨1, _⟩ =>
      show 0 ≤ (y 1).val ∧ (y 1).val < 0 + 256
      have := (y 1).isLt; change (y 1).val < 256 at this; omega

theorem emb_piece (g : Fin T) (r : Fin 800) (d : Fin 256) (hlo : 16 * g.val ≤ r.val) (hhi : r.val < 16 * g.val + 16) :
    (ValueIdx.ix2 r d : S800x256.Idx)
      = (Rect.unit (s := S800x256) (off g) S16x256.size (inb g)).emb
          (ValueIdx.ix2 (⟨r.val - 16 * g.val, by omega⟩ : Fin 16) d) := by
  funext a
  apply Fin.ext
  rw [Rect.emb_apply]
  have e := hoff g
  match a with
  | ⟨0, _⟩ =>
    show r.val = off g 0 + 1 * (r.val - 16 * g.val)
    rw [e]; show r.val = 16 * g.val + 1 * (r.val - 16 * g.val); omega
  | ⟨1, _⟩ =>
    show d.val = off g 1 + 1 * d.val
    rw [e]; show d.val = 0 + 1 * d.val; omega

/-- Below row `16 n` the first `n` pieces, read as one array, hold the row of `x` that the table names. -/
theorem canon_pcs (b : ℕ) (tbl : Vec F S80000 .i32) (x : Vec F S20000x256 .f32) :
    ∀ n : ℕ, n ≤ T → ∀ (r : Fin 800) (d : Fin 256), r.val < 16 * n →
      View.canon (pcs off inb b tbl x n) (ValueIdx.ix2 r d)
        = x (ValueIdx.ix2 (Fin.ofNat 20000 (tbl (ValueIdx.ix1 (Fin.ofNat 80000 (800 * b + r.val)))).toNat) d)
  | 0, _, r, d, hr => absurd hr (by omega)
  | n + 1, hn, r, d, hr => by
    have h : n < T := hn
    rw [pcs_succ off inb b tbl x ⟨n, h⟩]
    by_cases hlo : 16 * n ≤ r.val
    · rw [emb_piece off inb hoff ⟨n, h⟩ r d hlo (by show r.val < 16 * n + 16; omega), View.canon_cons_emb]
      show x (ValueIdx.ix2 (Fin.ofNat 20000 (tbl (ValueIdx.ix1 (Fin.ofNat 80000 (800 * b + 16 * n + (r.val - 16 * n))))).toNat) (Fin.ofNat 256 d.val)) = _
      have e1 : 800 * b + 16 * n + (r.val - 16 * n) = 800 * b + r.val := by omega
      have e2 : Fin.ofNat 256 d.val = d := Fin.ext (Nat.mod_eq_of_lt d.isLt)
      rw [e1, e2]
    · have hnot : (ValueIdx.ix2 r d : S800x256.Idx) ∉ (Rect.unit (s := S800x256) (off ⟨n, h⟩) S16x256.size (inb ⟨n, h⟩)).set := by
        rw [mem_piece off inb hoff]
        show ¬(16 * n ≤ r.val ∧ r.val < 16 * n + 16)
        omega
      refine (View.canon_cons_of_not_mem
        (⟨Rect.unit (s := S800x256) (off ⟨n, h⟩) S16x256.size (inb ⟨n, h⟩), gath b tbl x n⟩ : View.Piece (Elt F) S800x256 .f32)
        (pcs off inb b tbl x n) hnot).trans ?_
      exact canon_pcs b tbl x n (Nat.le_of_succ_le hn) r d (by omega)

theorem cover_pcs_below (b : ℕ) (tbl : Vec F S80000 .i32) (x : Vec F S20000x256 .f32) :
    ∀ n : ℕ, n ≤ T → ∀ y : S800x256.Idx, (y 0).val < 16 * n → ∃ p ∈ pcs off inb b tbl x n, y ∈ p.1.set
  | 0, _, y, hy => absurd hy (by omega)
  | n + 1, hn, y, hy => by
    have h : n < T := hn
    rw [pcs_succ off inb b tbl x ⟨n, h⟩]
    by_cases hlo : 16 * n ≤ (y 0).val
    · exact ⟨_, List.mem_cons_self, (mem_piece off inb hoff ⟨n, h⟩ y).mpr ⟨hlo, by show (y 0).val < 16 * n + 16; omega⟩⟩
    · obtain ⟨p, hp, hy'⟩ := cover_pcs_below b tbl x n (Nat.le_of_succ_le hn) y (by omega)
      exact ⟨p, List.mem_cons_of_mem _ hp, hy'⟩

variable (hT : T = 50)
include hT

/-- Fifty pieces of sixteen rows cover the eight hundred rows. -/
theorem cover_pcs (b : ℕ) (tbl : Vec F S80000 .i32) (x : Vec F S20000x256 .f32) :
    ∀ y : S800x256.Idx, ∃ p ∈ pcs off inb b tbl x T, y ∈ p.1.set := fun y =>
  cover_pcs_below off inb hoff b tbl x T (Nat.le_refl _) y (by
    rw [hT]; have := (y 0).isLt; change (y 0).val < 800 at this; omega)

theorem loopArr_apply (b : ℕ) (tbl : Vec F S80000 .i32) (x : Vec F S20000x256 .f32) (r : Fin 800) (d : Fin 256) :
    loopArr off inb b tbl x (ValueIdx.ix2 r d)
      = x (ValueIdx.ix2 (Fin.ofNat 20000 (tbl (ValueIdx.ix1 (Fin.ofNat 80000 (800 * b + r.val)))).toNat) d) :=
  canon_pcs off inb hoff b tbl x T (Nat.le_refl _) r d (by rw [hT]; have := r.isLt; omega)

omit [FloatOps F] in
/-- With exact arithmetic: the gathered rows scaled row by row by the value block. -/
theorem scaled_apply {b : ℕ} (hb : b < 100) (tbl : Vec Ideal S80000 .i32) (x : Vec Ideal S20000x256 .f32) (v : Vec Ideal S800x1 .f32)
    (htbl : ∀ e : S80000.Idx, (tbl e).toNat < 20000) (h1 h2 h3) (r : Fin 800) (d : Fin 256) :
    mulf (shapeCast S800x256 (loopArr off inb b tbl x) h1) (broadcastTo S800x256 (shapeCast S800x1 v h2) h3) (ValueIdx.ix2 r d)
      = x (ValueIdx.ix2 ⟨(tbl (ValueIdx.ix1 ⟨800 * b + r.val, by have := r.isLt; omega⟩)).toNat, htbl _⟩ d)
        * v (ValueIdx.ix2 r (0 : Fin 1)) := by
  have hr := r.isLt
  rw [ValueIdx.mulf_apply, shapeCast_self, shapeCast_self,
    broadcastTo_apply v h3 (ValueIdx.ix2 r d) (ValueIdx.ix2 r (0 : Fin 1)) (by
      intro a
      match a with
      | ⟨0, _⟩ => rfl
      | ⟨1, _⟩ => rfl),
    loopArr_apply off inb hoff hT]
  have e1 : Fin.ofNat 80000 (800 * b + r.val) = (⟨800 * b + r.val, by omega⟩ : Fin 80000) :=
    Fin.ext (Nat.mod_eq_of_lt (by omega))
  rw [e1]
  have e2 : Fin.ofNat 20000 (tbl (ValueIdx.ix1 (⟨800 * b + r.val, by omega⟩ : Fin 80000))).toNat
      = (⟨(tbl (ValueIdx.ix1 (⟨800 * b + r.val, by omega⟩ : Fin 80000))).toNat, htbl _⟩ : Fin 20000) :=
    Fin.ext (Nat.mod_eq_of_lt (htbl _))
  rw [e2]

end Cert.Gather

end
-- ==== Proof.KI.Out0.lean ====
import proofs.«411766_j31920196944464_2_alg».proof.Proof.Gen.KernelIdeal.Loops
import proofs.«411766_j31920196944464_2_alg».proof.Proof.Gather

set_option maxRecDepth 16384

noncomputable section

namespace Cert.KernelIdeal.Hand

open Cert.KernelIdeal Cert.KernelIdeal.Gen
open Idealize.ShloMosaic Idealize.ShloMosaic.TcCoe

variable {F : FTy → Type} [FloatOps F]

def gath0 (i : grid0.Coords) (tbl : Vec F S80000 .i32) (x : Vec F S20000x256 .f32) (g : ℕ) : Vec F S16x256 .f32 :=
  Gather.gath (i 0).val tbl x g

def pcs0 (i : grid0.Coords) (tbl : Vec F S80000 .i32) (x : Vec F S20000x256 .f32) (n : ℕ) : List (View.Piece (Elt F) S800x256 .f32) :=
  Gather.pcs k0_off48 k0_off48_inb (i 0).val tbl x n

theorem pcs0_succ (i : grid0.Coords) (tbl : Vec F S80000 .i32) (x : Vec F S20000x256 .f32) (g : Fin k0_t1_loop.trips) :
    pcs0 i tbl x (g.val + 1)
      = ⟨Rect.unit (s := S800x256) (k0_off48 g) S16x256.size (k0_off48_inb g), gath0 i tbl x g.val⟩ :: pcs0 i tbl x g.val :=
  Gather.pcs_succ k0_off48 k0_off48_inb (i 0).val tbl x g

def loopArr0 (i : grid0.Coords) (tbl : Vec F S80000 .i32) (x : Vec F S20000x256 .f32) : Vec F S800x256 .f32 :=
  Gather.loopArr k0_off48 k0_off48_inb (i 0).val tbl x

def outBlk0 (i : grid0.Coords) (tbl : Vec F S80000 .i32) (x : Vec F S20000x256 .f32) (v : Vec F S800x1 .f32) : Vec F S800x256 .f32 :=
  k0_pay1 (loopArr0 i tbl x) v

theorem trips0 : k0_t1_loop.trips = 50 := by decide

theorem cover_pcs0 (i : grid0.Coords) (tbl : Vec F S80000 .i32) (x : Vec F S20000x256 .f32) :
    ∀ y : S800x256.Idx, ∃ p ∈ pcs0 i tbl x k0_t1_loop.trips, y ∈ p.1.set :=
  Gather.cover_pcs k0_off48 k0_off48_inb k0_off48_eq trips0 (i 0).val tbl x

theorem outBlk0_apply (i : grid0.Coords) (tbl : Vec Ideal S80000 .i32) (x : Vec Ideal S20000x256 .f32) (v : Vec Ideal S800x1 .f32)
    (htbl : ∀ e : S80000.Idx, (tbl e).toNat < 20000) (r : Fin 800) (d : Fin 256) :
    outBlk0 i tbl x v (ValueIdx.ix2 r d)
      = x (ValueIdx.ix2 ⟨(tbl (ValueIdx.ix1 ⟨800 * (i 0).val + r.val, by
            have := (i 0).isLt; change (i 0).val < 100 at this; have := r.isLt; omega⟩)).toNat, htbl _⟩ d)
        * v (ValueIdx.ix2 r (0 : Fin 1)) := by
  unfold outBlk0 k0_pay1 loopArr0
  exact Gather.scaled_apply k0_off48 k0_off48_inb k0_off48_eq trips0 (i 0).isLt tbl x v htbl _ _ _ r d

end Cert.KernelIdeal.Hand

end
-- ==== Proof.KI.Rows5.lean ====
import proofs.«411766_j31920196944464_2_alg».proof.Proof.Gen.KernelIdeal.Loops
import Idealize.ShloMosaic.Lib.Writes
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem row5_inb (k : Fin 16) : ∀ a, (![k.val, 0] : Fin 2 → Nat) a + S1x256.size a ≤ S16x256.size a := by
  intro a
  match a with
  | ⟨0, _⟩ => show k.val + 1 ≤ 16; omega
  | ⟨1, _⟩ => show 0 + 256 ≤ 256; omega

def row5 (arg5 : Memref sig .tc .vmem S16x256 .f32) (k : Fin 16) : Memref sig .tc .vmem S256 .f32 :=
  (arg5.slice (Rect.unit (s := S16x256) ![k.val, 0] S1x256.size (row5_inb k)) (fun _ => rfl)).squeeze S256 squeezes_S1x256_S256

theorem mem_rowRect5 (k : Fin 16) (x : S16x256.Idx) :
    x ∈ (Rect.unit (s := S16x256) ![k.val, 0] S1x256.size (row5_inb k)).set ↔ (x 0).val = k.val := by
  rw [Rect.mem_set_unit]
  constructor
  · intro h
    have h0 := h 0
    change k.val ≤ (x 0).val ∧ (x 0).val < k.val + 1 at h0
    omega
  · intro h a
    match a with
    | ⟨0, _⟩ => show k.val ≤ (x 0).val ∧ (x 0).val < k.val + 1; omega
    | ⟨1, _⟩ =>
      show 0 ≤ (x 1).val ∧ (x 1).val < 0 + 256
      have := (x 1).isLt; change (x 1).val < 256 at this; omega

theorem row5_set (arg5 : Memref sig .tc .vmem S16x256 .f32) (k : Fin 16) :
    (row5 arg5 k).view.set = (Rect.unit (s := S16x256) ![k.val, 0] S1x256.size (row5_inb k)).set.map arg5.view.emb := by
  show ((arg5.view.slice (Rect.unit (s := S16x256) ![k.val, 0] S1x256.size (row5_inb k))).reshape S256 _).set = _
  rw [View.set_reshape, View.set_slice]

theorem row5_cover (arg5 : Memref sig .tc .vmem S16x256 .f32) :
    arg5.view.set = Finset.univ.biUnion (fun k : Fin 16 => (row5 arg5 k).view.set) := by
  ext i
  constructor
  · intro hi
    obtain ⟨x, -, rfl⟩ := Finset.mem_map.mp hi
    refine Finset.mem_biUnion.mpr ⟨(x 0 : Fin 16), Finset.mem_univ _, ?_⟩
    exact (row5_set arg5 (x 0 : Fin 16)).symm ▸ Finset.mem_map.mpr ⟨x, (mem_rowRect5 _ x).mpr rfl, rfl⟩
  · intro hi
    obtain ⟨k, -, hk⟩ := Finset.mem_biUnion.mp hi
    have hk' := (row5_set arg5 k) ▸ hk
    obtain ⟨x, -, rfl⟩ := Finset.mem_map.mp hk'
    exact Finset.mem_map.mpr ⟨x, Finset.mem_univ _, rfl⟩

theorem row5_disj (arg5 : Memref sig .tc .vmem S16x256 .f32) :
    ∀ k k' : Fin 16, k ≠ k' → Disjoint (row5 arg5 k).view.set (row5 arg5 k').view.set := by
  intro k k' hkk
  rw [row5_set, row5_set]
  refine Finset.disjoint_left.mpr fun i hi hi' => hkk ?_
  obtain ⟨x, hx, rfl⟩ := Finset.mem_map.mp hi
  obtain ⟨x', hx', hxx⟩ := Finset.mem_map.mp hi'
  have e : x' = x := arg5.view.emb.injective hxx
  subst e
  exact Fin.ext (((mem_rowRect5 k x').mp hx).symm.trans ((mem_rowRect5 k' x').mp hx'))

theorem row5_emb (arg5 : Memref sig .tc .vmem S16x256 .f32) (k : Fin 16) (d : Fin 256) :
    (row5 arg5 k).view.emb (ValueIdx.ix1 d) = arg5.view.emb (ValueIdx.ix2 k d) := by
  show arg5.view.emb ((Rect.unit (s := S16x256) ![k.val, 0] S1x256.size (row5_inb k)).emb
      (Shape.reshapeEquiv (squeezes_S1x256_S256).numel_eq (ValueIdx.ix1 d))) = _
  have e : Shape.reshapeEquiv (squeezes_S1x256_S256).numel_eq (ValueIdx.ix1 d) = (ValueIdx.ix2 (0 : Fin 1) d : S1x256.Idx) :=
    Shape.reshapeEquiv_eq_of_rowMajor _ (by
      rw [Shape.rowMajor_val_one, Shape.rowMajor_val_two]
      show 0 * 256 + d.val = d.val
      omega)
  rw [e]
  congr 1
  funext a
  apply Fin.ext
  rw [Rect.emb_apply]
  match a with
  | ⟨0, _⟩ => show k.val + 1 * 0 = k.val; omega
  | ⟨1, _⟩ => show 0 + 1 * d.val = d.val; omega

theorem cast_cast_id5 {α β : Type} (h2 : α = β) (h1 : β = α) (x : α) : _root_.cast h1 (_root_.cast h2 x) = x := by
  cases h2; rfl

theorem row5_read (arg5 : Memref sig .tc .vmem S16x256 .f32) (f g : arg5.view.ty.Contents (Elt F)) (p : Fin 16 → S256.Idx → Elt F .f32)
    (h : ∀ k, ∀ i ∈ (row5 arg5 k).view.set, g i = (row5 arg5 k).view.writes (Elt F) f [⟨Rect.whole S256, p k⟩] i) :
    ∀ (k : Fin 16) (d : Fin 256), arg5.view.read (Elt F) g (ValueIdx.ix2 k d) = p k (ValueIdx.ix1 d) := by
  intro k d
  have hm : (row5 arg5 k).view.emb (ValueIdx.ix1 d) ∈ (row5 arg5 k).view.set :=
    Finset.mem_map.mpr ⟨_, Finset.mem_univ _, rfl⟩
  have hg := h k _ hm
  have hw : (row5 arg5 k).view.writes (Elt F) f [⟨Rect.whole S256, p k⟩] ((row5 arg5 k).view.emb (ValueIdx.ix1 d))
      = _root_.cast (congrArg (Elt F) (row5 arg5 k).view.elt_eq.symm) (p k (ValueIdx.ix1 d)) := by
    have hw0 := View.write_emb_of_mem (Val := Elt F) (v := (row5 arg5 k).view.slice (Rect.whole S256)) f (p k) (M := Finset.univ)
      (Finset.mem_univ (ValueIdx.ix1 d))
    have he : ((row5 arg5 k).view.slice (Rect.whole S256)).emb (ValueIdx.ix1 d) = (row5 arg5 k).view.emb (ValueIdx.ix1 d) :=
      congrArg (row5 arg5 k).view.emb (Rect.emb_whole_apply S256 (ValueIdx.ix1 d))
    exact he ▸ hw0
  have e1 : arg5.view.read (Elt F) g (ValueIdx.ix2 k d)
      = _root_.cast (congrArg (Elt F) arg5.view.elt_eq) (g (arg5.view.emb (ValueIdx.ix2 k d))) := rfl
  rw [e1, ← row5_emb arg5 k d, hg, hw]
  exact cast_cast_id5 _ _ _

end Cert.KernelIdeal.Hand

end
-- ==== Proof.KI.Rows5b.lean ====
import proofs.«411766_j31920196944464_2_alg».proof.Proof.KI.Rows5

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem srcRow_emb (arg2 : Memref sig .tc .vmem S20000x256 .f32) (r : ℕ)
    (hin : ∀ a, (![r, 0] : Fin 2 → ℕ) a + S1x256.size a ≤ S20000x256.size a) (hr : r < 20000) (d : Fin 256) :
    ((arg2.slice (Rect.unit (s := S20000x256) ![r, 0] S1x256.size hin) (fun _ => rfl)).squeeze S256 squeezes_S1x256_S256).view.emb (ValueIdx.ix1 d)
      = arg2.view.emb (ValueIdx.ix2 (⟨r, hr⟩ : Fin 20000) d) := by
  show arg2.view.emb ((Rect.unit (s := S20000x256) ![r, 0] S1x256.size hin).emb
      (Shape.reshapeEquiv (squeezes_S1x256_S256).numel_eq (ValueIdx.ix1 d))) = _
  have e : Shape.reshapeEquiv (squeezes_S1x256_S256).numel_eq (ValueIdx.ix1 d) = (ValueIdx.ix2 (0 : Fin 1) d : S1x256.Idx) :=
    Shape.reshapeEquiv_eq_of_rowMajor _ (by
      rw [Shape.rowMajor_val_one, Shape.rowMajor_val_two]
      show 0 * 256 + d.val = d.val
      omega)
  rw [e]
  congr 1
  funext a
  apply Fin.ext
  rw [Rect.emb_apply]
  match a with
  | ⟨0, _⟩ => show r + 1 * 0 = r; omega
  | ⟨1, _⟩ => show 0 + 1 * d.val = d.val; omega

theorem srcRow_read (arg2 : Memref sig .tc .vmem S20000x256 .f32) (fx : arg2.view.ty.Contents (Elt F)) (r : ℕ)
    (hin : ∀ a, (![r, 0] : Fin 2 → ℕ) a + S1x256.size a ≤ S20000x256.size a) (d : Fin 256) :
    View.read (Elt F) ((arg2.slice (Rect.unit (s := S20000x256) ![r, 0] S1x256.size hin) (fun _ => rfl)).squeeze S256 squeezes_S1x256_S256).view fx (ValueIdx.ix1 d)
      = arg2.view.read (Elt F) fx (ValueIdx.ix2 (Fin.ofNat 20000 r) (Fin.ofNat 256 d.val)) := by
  have hr : r < 20000 := by have := hin 0; change r + 1 ≤ 20000 at this; omega
  have e1 : (Fin.ofNat 20000 r : Fin 20000) = ⟨r, hr⟩ := Fin.ext (Nat.mod_eq_of_lt hr)
  have e2 : (Fin.ofNat 256 d.val : Fin 256) = d := Fin.ext (Nat.mod_eq_of_lt d.isLt)
  rw [e1, e2]
  have hL : View.read (Elt F) ((arg2.slice (Rect.unit (s := S20000x256) ![r, 0] S1x256.size hin) (fun _ => rfl)).squeeze S256 squeezes_S1x256_S256).view fx (ValueIdx.ix1 d)
      = _root_.cast (congrArg (Elt F) arg2.view.elt_eq)
          (fx (((arg2.slice (Rect.unit (s := S20000x256) ![r, 0] S1x256.size hin) (fun _ => rfl)).squeeze S256 squeezes_S1x256_S256).view.emb (ValueIdx.ix1 d))) := rfl
  have hR : arg2.view.read (Elt F) fx (ValueIdx.ix2 (⟨r, hr⟩ : Fin 20000) d)
      = _root_.cast (congrArg (Elt F) arg2.view.elt_eq) (fx (arg2.view.emb (ValueIdx.ix2 (⟨r, hr⟩ : Fin 20000) d))) := rfl
  rw [hL, hR, srcRow_emb arg2 r hin hr d]

theorem word_read (arg1 : Memref sig .tc .smem S80000 .i32) (ft : arg1.view.ty.Contents (Elt F)) (n : ℕ)
    (hoff : ∀ a, (![n] : Fin 1 → ℕ) a + S1.size a ≤ S80000.size a) (hlt : n < 80000)
    (j0 : (Rect.unit (s := S80000) ![n] S1.size hoff).toLoadRect.shape.Idx) :
    View.readAt (Elt F) arg1.view (Rect.unit (s := S80000) ![n] S1.size hoff).toLoadRect ft j0
      = arg1.view.read (Elt F) ft (ValueIdx.ix1 (Fin.ofNat 80000 n)) := by
  rw [View.readAt_apply]
  congr 1
  funext a
  apply Fin.ext
  match a with
  | ⟨0, _⟩ =>
    show n + 1 * ((j0 : S1.Idx) 0).val = n % 80000
    have h0 : ((j0 : S1.Idx) 0).val < 1 := ((j0 : S1.Idx) 0).isLt
    rw [Nat.mod_eq_of_lt hlt]; omega

theorem row_payload (arg1 : Memref sig .tc .smem S80000 .i32) (arg2 : Memref sig .tc .vmem S20000x256 .f32) (c : Dev nD)
    (ft : Buf (Elt F) (arg1.view.loc (c : Thread nD τ))) (fx : Buf (Elt F) (arg2.view.loc (c : Thread nD τ)))
    (off : Fin 1 → ℕ) (hoff : ∀ a, off a + S1.size a ≤ S80000.size a) (n : ℕ) (hn : off = ![n]) (hlt : n < 80000)
    (j0 : (Rect.unit (s := S80000) off S1.size hoff).toLoadRect.shape.Idx)
    (hin : ∀ a, (![(View.readAt (Elt F) arg1.view (Rect.unit (s := S80000) off S1.size hoff).toLoadRect ft j0).toNat, 0] : Fin 2 → ℕ) a + S1x256.size a ≤ S20000x256.size a)
    (d : Fin 256) :
    ReadAs.same.apply (View.read (Elt F) ((arg2.slice (Rect.unit (s := S20000x256) ![(View.readAt (Elt F) arg1.view (Rect.unit (s := S80000) off S1.size hoff).toLoadRect ft j0).toNat, 0] S1x256.size hin) (fun _ => rfl)).squeeze S256 squeezes_S1x256_S256).view fx) (ValueIdx.ix1 d)
      = arg2.view.read (Elt F) fx (ValueIdx.ix2 (Fin.ofNat 20000 (arg1.view.read (Elt F) ft (ValueIdx.ix1 (Fin.ofNat 80000 n))).toNat) (Fin.ofNat 256 d.val)) := by
  subst hn
  refine (srcRow_read arg2 fx _ hin d).trans ?_
  rw [word_read arg1 ft n hoff hlt j0]

theorem scratch_reads (arg5 : Memref sig .tc .vmem S16x256 .f32) (c : Dev nD)
    (f5 g5 : Buf (Elt F) (arg5.view.loc (c : Thread nD τ))) (P : Fin 16 → S256.Idx → Elt F .f32)
    (hg5 : ∀ k ∈ (Finset.univ : Finset (Fin 16)), ∀ i ∈ (row5 arg5 k).view.set, g5 i = (row5 arg5 k).view.writes (Elt F) f5 [⟨Rect.whole S256, P k⟩] i)
    (X : Vec F S16x256 .f32) (hP : ∀ (k : Fin 16) (d : Fin 256), P k (ValueIdx.ix1 d) = X (ValueIdx.ix2 k d))
    (h : ∀ a, (![0, 0] : Fin 2 → ℕ) a + S16x256.size a ≤ S16x256.size a) :
    arg5.view.readAt (Elt F) (Rect.unit (s := S16x256) ![0, 0] S16x256.size h).toLoadRect g5 = X := by
  refine funext fun (j : S16x256.Idx) => ?_
  obtain ⟨k, d, rfl⟩ : ∃ (k : Fin 16) (d : Fin 256), j = ValueIdx.ix2 k d := ⟨j 0, j 1, ValueIdx.eq_ix2 j⟩
  rw [View.readAt_apply]
  have ej : (Rect.unit (s := S16x256) ![0, 0] S16x256.size h).toLoadRect.idx (ValueIdx.ix2 k d) = (ValueIdx.ix2 k d : S16x256.Idx) := by
    funext a
    apply Fin.ext
    match a with
    | ⟨0, _⟩ => show 0 + 1 * k.val = k.val; omega
    | ⟨1, _⟩ => show 0 + 1 * d.val = d.val; omega
  rw [ej]
  exact (row5_read arg5 f5 g5 P (fun k => hg5 k (Finset.mem_univ k)) k d).trans (hP k d)

end Cert.KernelIdeal.Hand

end
-- ==== Proof.KI.Rows5c.lean ====
import proofs.«411766_j31920196944464_2_alg».proof.Proof.KI.Rows5
import Idealize.ShloMosaic.Lib.Pipeline.Frame
import Idealize.ShloMosaic.Lib.Pipeline.Kit
import Idealize.ShloMosaic.Rules.PointsTo

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem row_inb (w : BitVec 32) (hw : w.toNat < 20000) :
    ∀ a, (![w.toNat, 0] : Fin 2 → Nat) a + S1x256.size a ≤ S20000x256.size a := by
  intro a; fin_cases a
  · show w.toNat + 1 ≤ 20000; omega
  · show 0 + 256 ≤ 256; omega

/-- A word below 20000 is a row index within the 20000 × 256 array (the side condition states it twice). -/
theorem row_inb2 (w : BitVec 32) (hw : w.toNat < 20000) :
    (∀ a, (![w.toNat, 0] : Fin 2 → Nat) a + S1x256.size a ≤ S20000x256.size a)
      ∧ ∀ a, (![w.toNat, 0] : Fin 2 → Nat) a + S1x256.size a ≤ S20000x256.size a :=
  ⟨row_inb w hw, row_inb w hw⟩

abbrev rowPt5 (c : Dev nD) (arg5 : Memref sig .tc .vmem S16x256 .f32) (k : Fin 16) (f : Buf (Elt F) ((row5 arg5 k).view.loc (c : Thread nD τ))) : sProp 𝕄 :=
  (row5 arg5 k).view.loc (c : Thread nD τ) ↦[(row5 arg5 k).view.set]{fullShare} f

theorem split5 (c : Dev nD) (arg5 : Memref sig .tc .vmem S16x256 .f32) (f5 : Buf (Elt F) (arg5.view.loc (c : Thread nD τ))) :
    (arg5.view.loc (c : Thread nD τ) ↦[arg5.view.set]{fullShare} f5 : sProp 𝕄)
      ⊢ iprop(rowPt5 c arg5 0 f5 ∗ rowPt5 c arg5 1 f5 ∗ rowPt5 c arg5 2 f5 ∗ rowPt5 c arg5 3 f5 ∗ rowPt5 c arg5 4 f5 ∗ rowPt5 c arg5 5 f5 ∗ rowPt5 c arg5 6 f5 ∗ rowPt5 c arg5 7 f5 ∗ rowPt5 c arg5 8 f5 ∗ rowPt5 c arg5 9 f5 ∗ rowPt5 c arg5 10 f5 ∗ rowPt5 c arg5 11 f5 ∗ rowPt5 c arg5 12 f5 ∗ rowPt5 c arg5 13 f5 ∗ rowPt5 c arg5 14 f5 ∗ rowPt5 c arg5 15 f5) := by
  have h := pointsTo_biUnion (Ix := Unit) (Name := ℕ) (U := Pipeline.UD sig nD τ) (Lvl := ℕ) (q := fullShare) (ℓ := arg5.view.loc (c : Thread nD τ)) (f := f5) Finset.univ (fun k : Fin 16 => (row5 arg5 k).view.set)
    (fun k _ k' _ h => row5_disj arg5 k k' h)
  rw [← row5_cover arg5, BI.bigSep_univ_eq_bigSepL [0, 1, 2, 3, 4, 5, 6, 7, 8, 9, 10, 11, 12, 13, 14, 15] (by decide) (by decide)] at h
  exact h ▸ BI.Entails.refl _

theorem join5 (c : Dev nD) (arg5 : Memref sig .tc .vmem S16x256 .f32) (f5 : Buf (Elt F) (arg5.view.loc (c : Thread nD τ))) (p0 p1 p2 p3 p4 p5 p6 p7 p8 p9 p10 p11 p12 p13 p14 p15 : S256.Idx → Elt F .f32) :
    iprop(rowPt5 c arg5 0 ((row5 arg5 0).view.writes (Elt F) f5 [⟨Rect.whole S256, p0⟩]) ∗ rowPt5 c arg5 1 ((row5 arg5 1).view.writes (Elt F) f5 [⟨Rect.whole S256, p1⟩]) ∗ rowPt5 c arg5 2 ((row5 arg5 2).view.writes (Elt F) f5 [⟨Rect.whole S256, p2⟩]) ∗ rowPt5 c arg5 3 ((row5 arg5 3).view.writes (Elt F) f5 [⟨Rect.whole S256, p3⟩]) ∗ rowPt5 c arg5 4 ((row5 arg5 4).view.writes (Elt F) f5 [⟨Rect.whole S256, p4⟩]) ∗ rowPt5 c arg5 5 ((row5 arg5 5).view.writes (Elt F) f5 [⟨Rect.whole S256, p5⟩]) ∗ rowPt5 c arg5 6 ((row5 arg5 6).view.writes (Elt F) f5 [⟨Rect.whole S256, p6⟩]) ∗ rowPt5 c arg5 7 ((row5 arg5 7).view.writes (Elt F) f5 [⟨Rect.whole S256, p7⟩]) ∗ rowPt5 c arg5 8 ((row5 arg5 8).view.writes (Elt F) f5 [⟨Rect.whole S256, p8⟩]) ∗ rowPt5 c arg5 9 ((row5 arg5 9).view.writes (Elt F) f5 [⟨Rect.whole S256, p9⟩]) ∗ rowPt5 c arg5 10 ((row5 arg5 10).view.writes (Elt F) f5 [⟨Rect.whole S256, p10⟩]) ∗ rowPt5 c arg5 11 ((row5 arg5 11).view.writes (Elt F) f5 [⟨Rect.whole S256, p11⟩]) ∗ rowPt5 c arg5 12 ((row5 arg5 12).view.writes (Elt F) f5 [⟨Rect.whole S256, p12⟩]) ∗ rowPt5 c arg5 13 ((row5 arg5 13).view.writes (Elt F) f5 [⟨Rect.whole S256, p13⟩]) ∗ rowPt5 c arg5 14 ((row5 arg5 14).view.writes (Elt F) f5 [⟨Rect.whole S256, p14⟩]) ∗ rowPt5 c arg5 15 ((row5 arg5 15).view.writes (Elt F) f5 [⟨Rect.whole S256, p15⟩]))
      ⊢ (iprop(∃ g, ⌜∀ k ∈ (Finset.univ : Finset (Fin 16)), ∀ i ∈ (row5 arg5 k).view.set, g i = (row5 arg5 k).view.writes (Elt F) f5 [⟨Rect.whole S256, (![p0, p1, p2, p3, p4, p5, p6, p7, p8, p9, p10, p11, p12, p13, p14, p15] : Fin 16 → S256.Idx → Elt F .f32) k⟩] i⌝
            ∗ (arg5.view.loc (c : Thread nD τ) ↦[arg5.view.set]{fullShare} g)) : sProp 𝕄) := by
  have h := pointsTo_biUnion_join (Ix := Unit) (Name := ℕ) (U := Pipeline.UD sig nD τ) (Lvl := ℕ) (q := fullShare) (ℓ := arg5.view.loc (c : Thread nD τ)) Finset.univ (fun k : Fin 16 => (row5 arg5 k).view.set)
    (fun k => (row5 arg5 k).view.writes (Elt F) f5 [⟨Rect.whole S256, (![p0, p1, p2, p3, p4, p5, p6, p7, p8, p9, p10, p11, p12, p13, p14, p15] : Fin 16 → S256.Idx → Elt F .f32) k⟩]) f5 (fun k _ k' _ h => row5_disj arg5 k k' h)
  rw [← row5_cover arg5, BI.bigSep_univ_eq_bigSepL [0, 1, 2, 3, 4, 5, 6, 7, 8, 9, 10, 11, 12, 13, 14, 15] (by decide) (by decide)] at h
  exact BI.Entails.trans (BI.Entails.refl _) h

end Cert.KernelIdeal.Hand

end
-- ==== Proof.Toks.lean ====
import Idealize.ShloMosaic.Lib.Transfers
import Idealize.ShloMosaic.Lib.Pipeline.Kit

noncomputable section

namespace Cert.Toks

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

theorem shareDrop_shareDrop (q : PosShare TreeShare) (B : ℕ) : ∀ k, shareDrop (shareDrop q B) k = shareDrop q (B + k)
  | 0 => rfl
  | k + 1 => by
    show (shareDrop (shareDrop q B) k).left = (shareDrop q (B + k)).left
    rw [shareDrop_shareDrop q B k]

theorem shareTokN_shareDrop (q : PosShare TreeShare) (B k : ℕ) : shareTokN (shareDrop q B) k = shareTokN q (B + k) := by
  unfold shareTokN; rw [shareDrop_shareDrop]

/-- A buffer held whole splits into a rest and sixteen consecutive read tokens, and back. -/
theorem toks16_split (ℓ : Loc nD τ sig) (S : Finset (Idx ℓ)) (f : Buf Val ℓ) (B : ℕ) :
    ∃ Rest : sProp 𝕄, (ℓ ↦[S]{fullShare} f : sProp 𝕄) ⊣⊢ iprop(Rest
      ∗ (ℓ ↦[S]{shareTokN fullShare B} f) ∗ (ℓ ↦[S]{shareTokN fullShare (B + 1)} f) ∗ (ℓ ↦[S]{shareTokN fullShare (B + 2)} f) ∗ (ℓ ↦[S]{shareTokN fullShare (B + 3)} f) ∗ (ℓ ↦[S]{shareTokN fullShare (B + 4)} f) ∗ (ℓ ↦[S]{shareTokN fullShare (B + 5)} f) ∗ (ℓ ↦[S]{shareTokN fullShare (B + 6)} f) ∗ (ℓ ↦[S]{shareTokN fullShare (B + 7)} f) ∗ (ℓ ↦[S]{shareTokN fullShare (B + 8)} f) ∗ (ℓ ↦[S]{shareTokN fullShare (B + 9)} f) ∗ (ℓ ↦[S]{shareTokN fullShare (B + 10)} f) ∗ (ℓ ↦[S]{shareTokN fullShare (B + 11)} f) ∗ (ℓ ↦[S]{shareTokN fullShare (B + 12)} f) ∗ (ℓ ↦[S]{shareTokN fullShare (B + 13)} f) ∗ (ℓ ↦[S]{shareTokN fullShare (B + 14)} f) ∗ (ℓ ↦[S]{shareTokN fullShare (B + 15)} f)) := by
  have h1 := pointsTo_toks_range (Ix := Ix) (Val := Val) (Name := Name) (U := U) (Lvl := Lvl) (ℓ := ℓ) (S := S) (f := f) fullShare B
  have h2 := pointsTo_toks_range (Ix := Ix) (Val := Val) (Name := Name) (U := U) (Lvl := Lvl) (ℓ := ℓ) (S := S) (f := f) (shareDrop fullShare B) 16
  simp only [shareTokN_shareDrop] at h2
  rw [BI.bigSep_eq_bigSepL_of_eq [0, 1, 2, 3, 4, 5, 6, 7, 8, 9, 10, 11, 12, 13, 14, 15] (by decide) (by decide)] at h2
  have h2' : (ℓ ↦[S]{shareDrop fullShare B} f : sProp 𝕄) ⊣⊢ iprop((ℓ ↦[S]{shareDrop (shareDrop fullShare B) 16} f)
      ∗ (ℓ ↦[S]{shareTokN fullShare (B + 0)} f) ∗ (ℓ ↦[S]{shareTokN fullShare (B + 1)} f) ∗ (ℓ ↦[S]{shareTokN fullShare (B + 2)} f) ∗ (ℓ ↦[S]{shareTokN fullShare (B + 3)} f) ∗ (ℓ ↦[S]{shareTokN fullShare (B + 4)} f) ∗ (ℓ ↦[S]{shareTokN fullShare (B + 5)} f) ∗ (ℓ ↦[S]{shareTokN fullShare (B + 6)} f) ∗ (ℓ ↦[S]{shareTokN fullShare (B + 7)} f) ∗ (ℓ ↦[S]{shareTokN fullShare (B + 8)} f) ∗ (ℓ ↦[S]{shareTokN fullShare (B + 9)} f) ∗ (ℓ ↦[S]{shareTokN fullShare (B + 10)} f) ∗ (ℓ ↦[S]{shareTokN fullShare (B + 11)} f) ∗ (ℓ ↦[S]{shareTokN fullShare (B + 12)} f) ∗ (ℓ ↦[S]{shareTokN fullShare (B + 13)} f) ∗ (ℓ ↦[S]{shareTokN fullShare (B + 14)} f) ∗ (ℓ ↦[S]{shareTokN fullShare (B + 15)} f)) := h2
  refine ⟨iprop((ℓ ↦[S]{shareDrop (shareDrop fullShare B) 16} f) ∗ BI.bigSep (Finset.range B) (fun i => ℓ ↦[S]{shareTokN fullShare i} f)), ?_, ?_⟩
  · iintro H
    ihave H' := h1.1 $$ H
    icases H' with ⟨HD, HB⟩
    ihave HD' := h2'.1 $$ HD
    icases HD' with ⟨HDD, T0, T1, T2, T3, T4, T5, T6, T7, T8, T9, T10, T11, T12, T13, T14, T15⟩
    isplitl [HDD HB]
    · isplitl [HDD]; · iexact HDD
      iexact HB
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    iexact T15
  · iintro ⟨⟨HDD, HB⟩, T0, T1, T2, T3, T4, T5, T6, T7, T8, T9, T10, T11, T12, T13, T14, T15⟩
    iapply h1.2
    isplitr [HB]; swap; · iexact HB
    iapply h2'.2
    isplitl [HDD]; · iexact HDD
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    iexact T15

end Cert.Toks

end
-- ==== Proof.KI.Body0.lean ====
import proofs.«411766_j31920196944464_2_alg».proof.Proof.KI.Out0
import proofs.«411766_j31920196944464_2_alg».proof.Proof.KI.Rows5
import proofs.«411766_j31920196944464_2_alg».proof.Proof.KI.Rows5b
import proofs.«411766_j31920196944464_2_alg».proof.Proof.KI.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems0 (c : Dev nD) : sProp 𝕄 :=
  iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0
    ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0
    ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0)

abbrev tok0 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks0 (c : Dev nD) (arg2 : Memref sig .tc .vmem S20000x256 .f32) (fx : Buf (Elt F) (arg2.view.loc (c : Thread nD τ))) : sProp 𝕄 :=
  iprop(tok0 c arg2 fx 5 ∗ tok0 c arg2 fx 6 ∗ tok0 c arg2 fx 7 ∗ tok0 c arg2 fx 8 ∗ tok0 c arg2 fx 9 ∗ tok0 c arg2 fx 10 ∗ tok0 c arg2 fx 11 ∗ tok0 c arg2 fx 12
    ∗ tok0 c arg2 fx 13 ∗ tok0 c arg2 fx 14 ∗ tok0 c arg2 fx 15 ∗ tok0 c arg2 fx 16 ∗ tok0 c arg2 fx 17 ∗ tok0 c arg2 fx 18 ∗ tok0 c arg2 fx 19 ∗ tok0 c arg2 fx 20)

def k0_inv (c : Dev nD) (i : grid0.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks0 c arg2 fx
    ∗ (arg4.view.loc (c : Thread nD τ) ↦[arg4.view.set]{fullShare}
        arg4.view.writes (Elt F) f4 (pcs0 i (arg1.view.read (Elt F) ft) (arg2.view.read (Elt F) fx) n))
    ∗ (∃ f5, arg5.view.loc (c : Thread nD τ) ↦[arg5.view.set]{fullShare} f5)
    ∗ sems0 c ∗ (∃ W, owes (c : Thread nD τ) 0 W))

set_option maxHeartbeats 8000000 in

theorem k0_trip (c : Dev nD) (i : grid0.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k0_t1_loop.trips) (acc : Unit) :
    k0_inv c i arg1 arg2 arg4 arg5 q ft fx f4 g.val acc
      ⊢ wp frame (wpE (defs₀ (F := F)) Variants.none c none) Set.univ
          (k0_t1_body i arg1 harg1 arg2 harg2 arg3 harg3 arg4 harg4 arg5 harg5 cc0_scratch1 (Scalar.muli (BitVec.ofNat 32 (i 0).val) 800#32) g acc)
          (k0_inv c i arg1 arg2 arg4 arg5 q ft fx f4 (g.val + 1)) := by
  unfold k0_inv k0_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k0_chk1 (arg1.view.readAt (Elt F) (Rect.unit (s := S80000) (k0_off1 i g) S1.size (k0_off1_inb i g)).toLoadRect ft (Shape.Idx.first (numel1_S1.symm ▸ Nat.one_pos))) := row_inb2 _ (htbl _)
  have hc2 : k0_chk2 (arg1.view.readAt (Elt F) (Rect.unit (s := S80000) (k0_off3 i g) S1.size (k0_off3_inb i g)).toLoadRect ft (Shape.Idx.first (numel1_S1.symm ▸ Nat.one_pos))) := row_inb2 _ (htbl _)
  have hc3 : k0_chk3 (arg1.view.readAt (Elt F) (Rect.unit (s := S80000) (k0_off5 i g) S1.size (k0_off5_inb i g)).toLoadRect ft (Shape.Idx.first (numel1_S1.symm ▸ Nat.one_pos))) := row_inb2 _ (htbl _)
  have hc4 : k0_chk4 (arg1.view.readAt (Elt F) (Rect.unit (s := S80000) (k0_off7 i g) S1.size (k0_off7_inb i g)).toLoadRect ft (Shape.Idx.first (numel1_S1.symm ▸ Nat.one_pos))) := row_inb2 _ (htbl _)
  have hc5 : k0_chk5 (arg1.view.readAt (Elt F) (Rect.unit (s := S80000) (k0_off9 i g) S1.size (k0_off9_inb i g)).toLoadRect ft (Shape.Idx.first (numel1_S1.symm ▸ Nat.one_pos))) := row_inb2 _ (htbl _)
  have hc6 : k0_chk6 (arg1.view.readAt (Elt F) (Rect.unit (s := S80000) (k0_off11 i g) S1.size (k0_off11_inb i g)).toLoadRect ft (Shape.Idx.first (numel1_S1.symm ▸ Nat.one_pos))) := row_inb2 _ (htbl _)
  have hc7 : k0_chk7 (arg1.view.readAt (Elt F) (Rect.unit (s := S80000) (k0_off13 i g) S1.size (k0_off13_inb i g)).toLoadRect ft (Shape.Idx.first (numel1_S1.symm ▸ Nat.one_pos))) := row_inb2 _ (htbl _)
  have hc8 : k0_chk8 (arg1.view.readAt (Elt F) (Rect.unit (s := S80000) (k0_off15 i g) S1.size (k0_off15_inb i g)).toLoadRect ft (Shape.Idx.first (numel1_S1.symm ▸ Nat.one_pos))) := row_inb2 _ (htbl _)
  have hc9 : k0_chk9 (arg1.view.readAt (Elt F) (Rect.unit (s := S80000) (k0_off17 i g) S1.size (k0_off17_inb i g)).toLoadRect ft (Shape.Idx.first (numel1_S1.symm ▸ Nat.one_pos))) := row_inb2 _ (htbl _)
  have hc10 : k0_chk10 (arg1.view.readAt (Elt F) (Rect.unit (s := S80000) (k0_off19 i g) S1.size (k0_off19_inb i g)).toLoadRect ft (Shape.Idx.first (numel1_S1.symm ▸ Nat.one_pos))) := row_inb2 _ (htbl _)
  have hc11 : k0_chk11 (arg1.view.readAt (Elt F) (Rect.unit (s := S80000) (k0_off21 i g) S1.size (k0_off21_inb i g)).toLoadRect ft (Shape.Idx.first (numel1_S1.symm ▸ Nat.one_pos))) := row_inb2 _ (htbl _)
  have hc12 : k0_chk12 (arg1.view.readAt (Elt F) (Rect.unit (s := S80000) (k0_off23 i g) S1.size (k0_off23_inb i g)).toLoadRect ft (Shape.Idx.first (numel1_S1.symm ▸ Nat.one_pos))) := row_inb2 _ (htbl _)
  have hc13 : k0_chk13 (arg1.view.readAt (Elt F) (Rect.unit (s := S80000) (k0_off25 i g) S1.size (k0_off25_inb i g)).toLoadRect ft (Shape.Idx.first (numel1_S1.symm ▸ Nat.one_pos))) := row_inb2 _ (htbl _)
  have hc14 : k0_chk14 (arg1.view.readAt (Elt F) (Rect.unit (s := S80000) (k0_off27 i g) S1.size (k0_off27_inb i g)).toLoadRect ft (Shape.Idx.first (numel1_S1.symm ▸ Nat.one_pos))) := row_inb2 _ (htbl _)
  have hc15 : k0_chk15 (arg1.view.readAt (Elt F) (Rect.unit (s := S80000) (k0_off29 i g) S1.size (k0_off29_inb i g)).toLoadRect ft (Shape.Idx.first (numel1_S1.symm ▸ Nat.one_pos))) := row_inb2 _ (htbl _)
  have hc16 : k0_chk16 (arg1.view.readAt (Elt F) (Rect.unit (s := S80000) (k0_off31 i g) S1.size (k0_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k0_trip.sl.dma1 c i arg1 arg2 ft fx g hc1) (k0_trip.sl.dma2 c i arg1 arg2 ft fx g hc2) (k0_trip.sl.dma3 c i arg1 arg2 ft fx g hc3) (k0_trip.sl.dma4 c i arg1 arg2 ft fx g hc4) (k0_trip.sl.dma5 c i arg1 arg2 ft fx g hc5) (k0_trip.sl.dma6 c i arg1 arg2 ft fx g hc6) (k0_trip.sl.dma7 c i arg1 arg2 ft fx g hc7) (k0_trip.sl.dma8 c i arg1 arg2 ft fx g hc8) (k0_trip.sl.dma9 c i arg1 arg2 ft fx g hc9) (k0_trip.sl.dma10 c i arg1 arg2 ft fx g hc10) (k0_trip.sl.dma11 c i arg1 arg2 ft fx g hc11) (k0_trip.sl.dma12 c i arg1 arg2 ft fx g hc12) (k0_trip.sl.dma13 c i arg1 arg2 ft fx g hc13) (k0_trip.sl.dma14 c i arg1 arg2 ft fx g hc14) (k0_trip.sl.dma15 c i arg1 arg2 ft fx g hc15) (k0_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath0 i (arg1.view.read (Elt F) ft) (arg2.view.read (Elt F) fx) g.val :=
    scratch_reads arg5 c f5 g5 _ hg5 _ (fun k d => by
      have hi : (i 0).val < 100 := (i 0).isLt
      have hg : g.val < 50 := trips0 ▸ g.isLt
      fin_cases k
      · exact row_payload arg1 arg2 c ft fx _ _ _ (k0_off1_eq i g) (by omega) _ _ d
      · exact row_payload arg1 arg2 c ft fx _ _ _ (k0_off3_eq i g) (by omega) _ _ d
      · exact row_payload arg1 arg2 c ft fx _ _ _ (k0_off5_eq i g) (by omega) _ _ d
      · exact row_payload arg1 arg2 c ft fx _ _ _ (k0_off7_eq i g) (by omega) _ _ d
      · exact row_payload arg1 arg2 c ft fx _ _ _ (k0_off9_eq i g) (by omega) _ _ d
      · exact row_payload arg1 arg2 c ft fx _ _ _ (k0_off11_eq i g) (by omega) _ _ d
      · exact row_payload arg1 arg2 c ft fx _ _ _ (k0_off13_eq i g) (by omega) _ _ d
      · exact row_payload arg1 arg2 c ft fx _ _ _ (k0_off15_eq i g) (by omega) _ _ d
      · exact row_payload arg1 arg2 c ft fx _ _ _ (k0_off17_eq i g) (by omega) _ _ d
      · exact row_payload arg1 arg2 c ft fx _ _ _ (k0_off19_eq i g) (by omega) _ _ d
      · exact row_payload arg1 arg2 c ft fx _ _ _ (k0_off21_eq i g) (by omega) _ _ d
      · exact row_payload arg1 arg2 c ft fx _ _ _ (k0_off23_eq i g) (by omega) _ _ d
      · exact row_payload arg1 arg2 c ft fx _ _ _ (k0_off25_eq i g) (by omega) _ _ d
      · exact row_payload arg1 arg2 c ft fx _ _ _ (k0_off27_eq i g) (by omega) _ _ d
      · exact row_payload arg1 arg2 c ft fx _ _ _ (k0_off29_eq i g) (by omega) _ _ d
      · exact row_payload arg1 arg2 c ft fx _ _ _ (k0_off31_eq i g) (by omega) _ _ d
      ) _
  sl_exec
  sl_step
  rw [pcs0_succ, View.writes_cons]
  unfold k0_trip.sl.H4_w1
  sl_close

set_option maxHeartbeats 4000000 in

theorem sound_kernel0 (c : Dev nD) (i : grid0.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems0 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk0 i tbl x v) ∗ (∃ d, owns (c : Thread nD τ) arg5 fullShare d) ∗ sems0 c ∗ (∃ W', owes (c : Thread nD τ) 0 W')) -∗ K ⟨⟩))
      ⊢ wp frame (wpE (defs₀ (F := F)) Variants.none c none) Set.univ (cc0__gather_kernel i arg1 harg1 arg2 harg2 arg3 harg3 arg4 harg4 arg5 harg5 cc0_scratch1) K := by
  simp only [cc0__gather_kernel_eq_skeleton]; unfold cc0__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks0 c arg2 fx) := Cert.Toks.toks16_split _ _ _ _
  ihave H2' := htok.1 $$ H2
  icases H2' with ⟨HD, HT⟩
  sl_exec
  sl_for (k0_inv c i arg1 arg2 arg4 arg5 q ft fx f4) $$ [H1 HT H4 H5 HS HW]
  case region =>
    intro g acc
    exact k0_trip c i arg1 harg1 arg2 harg2 arg3 harg3 arg4 harg4 arg5 harg5 q ft fx htbl f4 g acc
  · unfold k0_inv
    isplitl [H1]; · iexact H1
    isplitl [HT]; · iexact HT
    isplitl [H4]; · iexact H4
    isplitl [H5]; · iexists _; iexact H5
    isplitl [HS]; · iexact HS
    iexists _; iexact HW
  iintro %acc HI; unfold k0_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs0 i tbl x (Scf.trips k0_t1_loop.lb k0_t1_loop.ub k0_t1_loop.st), y ∈ p.1.set :=
      cover_pcs0 i tbl x
    have h2 : arg4.view.readCov (pcs0 i tbl x (Scf.trips k0_t1_loop.lb k0_t1_loop.ub k0_t1_loop.st))
        (Rect.unit (s := S800x256) ![0, 0] S800x256.size inb_S800x256_S800x256_0_0).toLoadRect = loopArr0 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.KernelIdeal.Hand

end
-- ==== Proof.KI.Common.lean ====
import proofs.«411766_j31920196944464_2_alg».proof.Proof.Gen.KernelIdeal.Launch
import Idealize.ShloMosaic.Lib.Pipeline.Kit
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

abbrev L : GSem nD τ sig → Finset Unit := fun _ => ∅
abbrev lv : GSem nD τ sig → Unit → ℕ := fun _ _ => 0

abbrev R (c : Dev nD) : sProp (MT nD τ sig Unit (Elt F) ℕ (Pipeline.UD sig nD τ) ℕ) :=
  iprop((∃ r, prngReg c r) ∗ ∃ W, owes (c : Thread nD τ) (0 : CellTallies nD τ sig Unit) W)

end Cert.KernelIdeal.Hand

end
-- ==== Proof.KI.Region0.lean ====
import proofs.«411766_j31920196944464_2_alg».proof.Proof.KI.Body0
import proofs.«411766_j31920196944464_2_alg».proof.Proof.KI.Common
import proofs.«411766_j31920196944464_2_alg».proof.Proof.Gen.KernelIdeal.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg0 (F := F)).Adm)

def iblk0 (c : Dev nD) (w : Fin (cfg0 a0).W) (t : Fin (cfg0 a0).N) : (((cfg0 a0).win w).xblock ((cfg0 a0).grid.coords t)).Idx → Elt F ((cfg0 a0).win w).elt :=
  (((cfg0 a0).win w).blk t).view.read (Elt F) (Vd c (Pipeline.arrRef spec0 w))

abbrev osem0 : Fin 16 → SemLoc sig := fun k =>
  (![SemLoc.dma 5, SemLoc.dma 6, SemLoc.dma 7, SemLoc.dma 8, SemLoc.dma 9, SemLoc.dma 10, SemLoc.dma 11, SemLoc.dma 12,
     SemLoc.dma 13, SemLoc.dma 14, SemLoc.dma 15, SemLoc.dma 16, SemLoc.dma 17, SemLoc.dma 18, SemLoc.dma 19, SemLoc.dma 20] : Fin 16 → SemLoc sig) k

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄) = sems0 c := by
  rw [Pipeline.ownSems0_eq_of_list c osem0 [0, 1, 2, 3, 4, 5, 6, 7, 8, 9, 10, 11, 12, 13, 14, 15] (by decide) (by decide)]; rfl

theorem prefHeld0_eq (c : Dev nD) (pf : pre0.Contents (Elt F)) :
    (Pipeline.prefHeld (Ix := Unit) (Name := ℕ) (U := Pipeline.UD sig nD τ) (Lvl := ℕ) pre0 c (fun _ => fullShare) pf : sProp 𝕄)
      = owns (c : Thread nD τ) (Memref.whole main_v0) fullShare (pf 0) := by
  refine Eq.trans ?_ (owns_whole (c : Thread nD τ) main_v0 fullShare (pf 0)).symm
  unfold Pipeline.prefHeld
  exact bigSep_univ_eq_bigSepL [(0 : Fin 1)] (by decide) (by decide) _

theorem scratch0_eq (c : Dev nD) :
    (iprop(∃ f : Buf (Elt F) ((c : Thread nD τ).loc cc0_scratch0), ((c : Thread nD τ).loc cc0_scratch0) ↦{fullShare} f) : sProp 𝕄)
      = iprop(∃ d, owns (c : Thread nD τ) (Memref.whole cc0_scratch0) fullShare d) := by
  simp only [owns_whole]

def HCol0 : Prop := ∀ e, ((a0.1 0 : Vec F S80000 .i32) e).toNat < 20000

def Φ0 (c : Dev nD) : sProp 𝕄 :=
  iprop(Pipeline.ownSems0 osem0 c ∗ Pipeline.prefHeld pre0 c (fun _ => fullShare) a0.1 ∗ Pipeline.scopedRest spec0 c)

def dat0 (c : Dev nD) : Dat τ (Elt F) Unit ℕ (Pipeline.UD sig nD τ) ℕ (cfg0 a0) c where
  A w := Vd c (Pipeline.arrRef spec0 w)
  after w t := match w with
    | ⟨0, _⟩ => iblk0 Vd a0 c 0 t
    | ⟨1, _⟩ => iblk0 Vd a0 c 1 t
    | ⟨2, _⟩ => outBlk0 (grid0.coords t) (a0.1 0) (iblk0 Vd a0 c 0 t) (iblk0 Vd a0 c 1 t)
  Φ _ := Φ0 a0 c
  q _ := fullShare
  owed _ := 0

theorem A_eq0 (c : Dev nD) (w : Fin 3) : (dat0 Vd a0 c).A w = Vd c (Pipeline.arrRef spec0 w) := by
  dsimp only [dat0]

theorem after0_x (c : Dev nD) (t : Fin (cfg0 a0).N) : (dat0 Vd a0 c).after (0 : Fin 3) t = iblk0 Vd a0 c 0 t := by dsimp only [dat0]
theorem after0_val (c : Dev nD) (t : Fin (cfg0 a0).N) : (dat0 Vd a0 c).after (1 : Fin 3) t = iblk0 Vd a0 c 1 t := by dsimp only [dat0]
theorem after0_out (c : Dev nD) (t : Fin (cfg0 a0).N) :
    (dat0 Vd a0 c).after (2 : Fin 3) t = outBlk0 (grid0.coords t) (a0.1 0) (iblk0 Vd a0 c 0 t) (iblk0 Vd a0 c 1 t) := by dsimp only [dat0]

theorem before0_x (c : Dev nD) (t : Fin (cfg0 a0).N) (d) : (dat0 Vd a0 c).before 0 t d = iblk0 Vd a0 c 0 t := by
  refine ((dat0 Vd a0 c).before_in_eq_fetched 0 rfl (fun _ => rfl) (fun _ _ _ => rfl) (fun s => ?_) t d).trans ?_
  · rw [after0_x]; rfl
  · rfl
theorem before0_val (c : Dev nD) (t : Fin (cfg0 a0).N) (d) : (dat0 Vd a0 c).before 1 t d = iblk0 Vd a0 c 1 t := by
  refine ((dat0 Vd a0 c).before_in_eq_fetched 1 rfl (fun _ => rfl) (fun _ _ _ => rfl) (fun s => ?_) t d).trans ?_
  · rw [after0_val]; rfl
  · rfl

abbrev st0_x (t : Fin (cfg0 a0).N) := ((cfg0 a0).win 0).stage ((cfg0 a0).slots t 0)
abbrev st0_val (t : Fin (cfg0 a0).N) := ((cfg0 a0).win 1).stage ((cfg0 a0).slots t 1)
abbrev st0_out (t : Fin (cfg0 a0).N) := ((cfg0 a0).win 2).stage ((cfg0 a0).slots t 2)

abbrev bodyAt0 (t : Fin (cfg0 a0).N) : Prog (TpuEff nD τ sig (Elt F) Λ₀ .tc) PUnit :=
  cc0__gather_kernel (grid0.coords t) (Memref.whole main_v0) (Memref.isWhole_whole _)
    (spec0_0.stage ((cfg0 a0).slots t 0)) (hstage0_0 (((cfg0 a0).slots t 0).cast nbuf0_0))
    (spec0_1.stage ((cfg0 a0).slots t 1)) (hstage0_1 (((cfg0 a0).slots t 1).cast nbuf0_1))
    (spec0_2.stage ((cfg0 a0).slots t 2)) (hstage0_2 (((cfg0 a0).slots t 2).cast nbuf0_2))
    (Memref.whole cc0_scratch0) (Memref.isWhole_whole _) cc0_scratch1

def bodyPre0 (c : Dev nD) (t : Fin (cfg0 a0).N) : sProp 𝕄 :=
  iprop((dat0 Vd a0 c).Φ t.castSucc ∗ (dat0 Vd a0 c).owesAt () t.castSucc
    ∗ (∃ d, owns (c : Thread nD τ) (st0_x a0 t) fullShare ((dat0 Vd a0 c).before 0 t d))
    ∗ (∃ d, owns (c : Thread nD τ) (st0_val a0 t) fullShare ((dat0 Vd a0 c).before 1 t d))
    ∗ (∃ d, owns (c : Thread nD τ) (st0_out a0 t) fullShare ((dat0 Vd a0 c).before 2 t d)))

def bodyPost0 (c : Dev nD) (t : Fin (cfg0 a0).N) : sProp 𝕄 :=
  iprop((dat0 Vd a0 c).Φ t.succ ∗ (dat0 Vd a0 c).owesAt () t.succ
    ∗ owns (c : Thread nD τ) (st0_x a0 t) fullShare ((dat0 Vd a0 c).after 0 t)
    ∗ owns (c : Thread nD τ) (st0_val a0 t) fullShare ((dat0 Vd a0 c).after 1 t)
    ∗ owns (c : Thread nD τ) (st0_out a0 t) fullShare ((dat0 Vd a0 c).after 2 t))

theorem sound_body0 (hcol : HCol0 a0) (c : Dev nD) (t : Fin (cfg0 a0).N) :
    bodyPre0 Vd a0 c t ⊢ wp frame (wpE (defs₀ (F := F)) Variants.none c none) Set.univ (bodyAt0 a0 t) (fun _ => bodyPost0 Vd a0 c t) := by
  unfold bodyPre0 bodyPost0 bodyAt0
  simp only [before0_x, before0_val]
  rw [show (dat0 Vd a0 c).Φ t.succ = Φ0 a0 c from rfl, show (dat0 Vd a0 c).Φ t.castSucc = Φ0 a0 c from rfl,
    after0_x, after0_val, after0_out]
  unfold Φ0 Dat.owesAt Pipeline.owesWithin
  rw [scopedRest0_split, scratch0_eq, ownSems00_eq, prefHeld0_eq,
    show (dat0 Vd a0 c).owed t.castSucc = 0 from rfl, show (dat0 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel0 c (grid0.coords t) _ _ _ _ _ _ _ _ _ _ fullShare (a0.1 0) (iblk0 Vd a0 c 0 t) (iblk0 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation0 (hcol : HCol0 a0) (c : Dev nD) :
    BodyObligation (dat0 (F := F) Vd a0 c) (defs₀ (F := F)) Variants.none () Set.univ := fun t => by
  rw [bigSep_W0, bigSep_W0]
  exact sound_body0 Vd a0 hcol c t

abbrev X0 (c : Dev nD) : sProp 𝕄 := Pipeline.ownSems0 osem0 c
abbrev Y0 (c : Dev nD) : sProp 𝕄 := Pipeline.prefHeld pre0 c (fun _ => fullShare) a0.1
abbrev Z0 (V : Valuation τ sig (Elt F)) (c : Dev nD) : sProp 𝕄 :=
  iprop(Pipeline.unscopedRestP (Ix := Unit) (Name := ℕ) (U := Pipeline.UD sig nD τ) (Lvl := ℕ) pre0 spec0 c (fun b => V b) ∗ ∃ r, prngReg c r)

theorem hentry0 (c : Dev nD) (V : Valuation τ sig (Elt F)) (hA : ∀ w, Vd c (Pipeline.arrRef spec0 w) = V (Pipeline.arrRef spec0 w))
    (hT : ∀ k, a0.1 k = V (pre0.ref k)) :
    iprop(iprop(StableHlo.held (c : Thread nD τ) (Pipeline.ucRefs τ sig) V ∗ R c) ∗ Pipeline.ownSems0 osem0 c ∗ levAts L lv)
      ⊢ |={Set.univ}=> iprop((dat0 Vd a0 c).arrays ((dat0 Vd a0 c).arrAt · 0) ∗ Pipeline.prefHeld pre0 c (fun _ => fullShare) a0.1
          ∗ (dat0 Vd a0 c).owesAt () 0 ∗ X0 c ∗ Z0 V c) := by
  have hsplit := Pipeline.arrays_of_unscopedBufs (p := ()) (fun _ : Unit => pcfg0 (F := F)) (fun _ => a0) (fun _ c => dat0 Vd a0 c)
    (Ix := Unit) (Name := ℕ) (U := Pipeline.UD sig nD τ) (Lvl := ℕ) winFacts0 arr_whole0 c ((dat0 Vd a0 c).share_full fun _ => rfl) (fun b => V b) hA
  rw [Pipeline.unscopedBufs_held, Pipeline.unscopedRest_split preFacts0,
    show (fun k => V (pre0.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin0 (c : Dev nD) :
    iprop(X0 c ∗ Pipeline.prefHeld pre0 c (fun _ => fullShare) a0.1 ∗ Pipeline.scopedRest spec0 c) ⊢ (dat0 Vd a0 c).Φ 0 := by
  show _ ⊢ Φ0 a0 c
  unfold Φ0; exact .rfl

theorem hout0 (c : Dev nD) :
    (dat0 Vd a0 c).Φ (Fin.last (cfg0 a0).N) ⊢ iprop(Y0 a0 c ∗ Pipeline.ownSems0 osem0 c ∗ Pipeline.scopedRest spec0 c) := by
  show Φ0 a0 c ⊢ _
  unfold Φ0
  iintro ⟨Hs, Hp, Hr⟩
  isplitl [Hp]; · iexact Hp
  isplitl [Hs]; · iexact Hs
  iexact Hr

theorem hexit0 (c : Dev nD) (V Vp : Valuation τ sig (Elt F))
    (hF : ∀ w, (dat0 Vd a0 c).arrAt w (cfg0 a0).N = Vp (Pipeline.arrRef spec0 w))
    (hrest : ∀ b : Ref sig .tc, b ∉ Finset.univ.image (Pipeline.arrRef spec0) → Vp b = V b) (hT : ∀ k, a0.1 k = V (pre0.ref k)) :
    iprop((dat0 Vd a0 c).arrays ((dat0 Vd a0 c).arrAt · (cfg0 a0).N) ∗ (dat0 Vd a0 c).owesAt () (Fin.last (cfg0 a0).N) ∗ Y0 a0 c ∗ Z0 V c)
      ⊢ |={Set.univ}=> iprop(StableHlo.held (c : Thread nD τ) (Pipeline.ucRefs τ sig) Vp ∗ R c) := by
  have hjoin := Pipeline.unscopedBufs_of_arrays (p := ()) (fun _ : Unit => pcfg0 (F := F)) (fun _ => a0) (Ix := Unit) (Name := ℕ) (U := Pipeline.UD sig nD τ) (Lvl := ℕ)
    winFacts0 arr_whole0 c (fun _ c => dat0 Vd a0 c) ((dat0 Vd a0 c).share_full fun _ => rfl)
    (fun b => V b) (fun b => Vp b) ((dat0 Vd a0 c).arrAt · (cfg0 a0).N) hF hrest
  rw [Pipeline.unscopedBufs_held, Pipeline.unscopedRest_split preFacts0,
    show (fun k => V (pre0.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

def pt0 (r : Fin 80000) : Fin (cfg0 a0).N := ⟨r.val / 800, by have := r.isLt; show r.val / 800 < grid0.N; rw [N_0]; omega⟩

def outArr0 (c : Dev nD) : Vec F S80000x256 .f32 := fun i =>
  outBlk0 (grid0.coords (pt0 a0 (i 0))) (a0.1 0) (iblk0 Vd a0 c 0 (pt0 a0 (i 0))) (iblk0 Vd a0 c 1 (pt0 a0 (i 0)))
    (ValueIdx.ix2 ⟨(i 0).val % 800, Nat.mod_lt _ (by decide)⟩ (i 1))

end Region0
end Cert.KernelIdeal.Hand
end
-- ==== Proof.KI.Out1.lean ====
import proofs.«411766_j31920196944464_2_alg».proof.Proof.Gen.KernelIdeal.Loops
import proofs.«411766_j31920196944464_2_alg».proof.Proof.Gather

set_option maxRecDepth 16384

noncomputable section

namespace Cert.KernelIdeal.Hand

open Cert.KernelIdeal Cert.KernelIdeal.Gen
open Idealize.ShloMosaic Idealize.ShloMosaic.TcCoe

variable {F : FTy → Type} [FloatOps F]

def gath1 (i : grid1.Coords) (tbl : Vec F S80000 .i32) (x : Vec F S20000x256 .f32) (g : ℕ) : Vec F S16x256 .f32 :=
  Gather.gath (i 0).val tbl x g

def pcs1 (i : grid1.Coords) (tbl : Vec F S80000 .i32) (x : Vec F S20000x256 .f32) (n : ℕ) : List (View.Piece (Elt F) S800x256 .f32) :=
  Gather.pcs k1_off48 k1_off48_inb (i 0).val tbl x n

theorem pcs1_succ (i : grid1.Coords) (tbl : Vec F S80000 .i32) (x : Vec F S20000x256 .f32) (g : Fin k1_t1_loop.trips) :
    pcs1 i tbl x (g.val + 1)
      = ⟨Rect.unit (s := S800x256) (k1_off48 g) S16x256.size (k1_off48_inb g), gath1 i tbl x g.val⟩ :: pcs1 i tbl x g.val :=
  Gather.pcs_succ k1_off48 k1_off48_inb (i 0).val tbl x g

def loopArr1 (i : grid1.Coords) (tbl : Vec F S80000 .i32) (x : Vec F S20000x256 .f32) : Vec F S800x256 .f32 :=
  Gather.loopArr k1_off48 k1_off48_inb (i 0).val tbl x

def outBlk1 (i : grid1.Coords) (tbl : Vec F S80000 .i32) (x : Vec F S20000x256 .f32) (v : Vec F S800x1 .f32) : Vec F S800x256 .f32 :=
  k1_pay1 (loopArr1 i tbl x) v

theorem trips1 : k1_t1_loop.trips = 50 := by decide

theorem cover_pcs1 (i : grid1.Coords) (tbl : Vec F S80000 .i32) (x : Vec F S20000x256 .f32) :
    ∀ y : S800x256.Idx, ∃ p ∈ pcs1 i tbl x k1_t1_loop.trips, y ∈ p.1.set :=
  Gather.cover_pcs k1_off48 k1_off48_inb k1_off48_eq trips1 (i 0).val tbl x

theorem outBlk1_apply (i : grid1.Coords) (tbl : Vec Ideal S80000 .i32) (x : Vec Ideal S20000x256 .f32) (v : Vec Ideal S800x1 .f32)
    (htbl : ∀ e : S80000.Idx, (tbl e).toNat < 20000) (r : Fin 800) (d : Fin 256) :
    outBlk1 i tbl x v (ValueIdx.ix2 r d)
      = x (ValueIdx.ix2 ⟨(tbl (ValueIdx.ix1 ⟨800 * (i 0).val + r.val, by
            have := (i 0).isLt; change (i 0).val < 100 at this; have := r.isLt; omega⟩)).toNat, htbl _⟩ d)
        * v (ValueIdx.ix2 r (0 : Fin 1)) := by
  unfold outBlk1 k1_pay1 loopArr1
  exact Gather.scaled_apply k1_off48 k1_off48_inb k1_off48_eq trips1 (i 0).isLt tbl x v htbl _ _ _ r d

end Cert.KernelIdeal.Hand

end
-- ==== Proof.KI.Body1.lean ====
import proofs.«411766_j31920196944464_2_alg».proof.Proof.KI.Out1
import proofs.«411766_j31920196944464_2_alg».proof.Proof.KI.Rows5
import proofs.«411766_j31920196944464_2_alg».proof.Proof.KI.Rows5b
import proofs.«411766_j31920196944464_2_alg».proof.Proof.KI.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems1 (c : Dev nD) : sProp 𝕄 :=
  iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0
    ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0
    ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0
    ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0)

abbrev tok1 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks1 (c : Dev nD) (arg2 : Memref sig .tc .vmem S20000x256 .f32) (fx : Buf (Elt F) (arg2.view.loc (c : Thread nD τ))) : sProp 𝕄 :=
  iprop(tok1 c arg2 fx 26 ∗ tok1 c arg2 fx 27 ∗ tok1 c arg2 fx 28 ∗ tok1 c arg2 fx 29 ∗ tok1 c arg2 fx 30 ∗ tok1 c arg2 fx 31 ∗ tok1 c arg2 fx 32 ∗ tok1 c arg2 fx 33
    ∗ tok1 c arg2 fx 34 ∗ tok1 c arg2 fx 35 ∗ tok1 c arg2 fx 36 ∗ tok1 c arg2 fx 37 ∗ tok1 c arg2 fx 38 ∗ tok1 c arg2 fx 39 ∗ tok1 c arg2 fx 40 ∗ tok1 c arg2 fx 41)

def k1_inv (c : Dev nD) (i : grid1.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks1 c arg2 fx
    ∗ (arg4.view.loc (c : Thread nD τ) ↦[arg4.view.set]{fullShare}
        arg4.view.writes (Elt F) f4 (pcs1 i (arg1.view.read (Elt F) ft) (arg2.view.read (Elt F) fx) n))
    ∗ (∃ f5, arg5.view.loc (c : Thread nD τ) ↦[arg5.view.set]{fullShare} f5)
    ∗ sems1 c ∗ (∃ W, owes (c : Thread nD τ) 0 W))

set_option maxHeartbeats 8000000 in

theorem k1_trip (c : Dev nD) (i : grid1.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k1_t1_loop.trips) (acc : Unit) :
    k1_inv c i arg1 arg2 arg4 arg5 q ft fx f4 g.val acc
      ⊢ wp frame (wpE (defs₀ (F := F)) Variants.none c none) Set.univ
          (k1_t1_body i arg1 harg1 arg2 harg2 arg3 harg3 arg4 harg4 arg5 harg5 cc1_scratch1 (Scalar.muli (BitVec.ofNat 32 (i 0).val) 800#32) g acc)
          (k1_inv c i arg1 arg2 arg4 arg5 q ft fx f4 (g.val + 1)) := by
  unfold k1_inv k1_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k1_chk1 (arg1.view.readAt (Elt F) (Rect.unit (s := S80000) (k1_off1 i g) S1.size (k1_off1_inb i g)).toLoadRect ft (Shape.Idx.first (numel1_S1.symm ▸ Nat.one_pos))) := row_inb2 _ (htbl _)
  have hc2 : k1_chk2 (arg1.view.readAt (Elt F) (Rect.unit (s := S80000) (k1_off3 i g) S1.size (k1_off3_inb i g)).toLoadRect ft (Shape.Idx.first (numel1_S1.symm ▸ Nat.one_pos))) := row_inb2 _ (htbl _)
  have hc3 : k1_chk3 (arg1.view.readAt (Elt F) (Rect.unit (s := S80000) (k1_off5 i g) S1.size (k1_off5_inb i g)).toLoadRect ft (Shape.Idx.first (numel1_S1.symm ▸ Nat.one_pos))) := row_inb2 _ (htbl _)
  have hc4 : k1_chk4 (arg1.view.readAt (Elt F) (Rect.unit (s := S80000) (k1_off7 i g) S1.size (k1_off7_inb i g)).toLoadRect ft (Shape.Idx.first (numel1_S1.symm ▸ Nat.one_pos))) := row_inb2 _ (htbl _)
  have hc5 : k1_chk5 (arg1.view.readAt (Elt F) (Rect.unit (s := S80000) (k1_off9 i g) S1.size (k1_off9_inb i g)).toLoadRect ft (Shape.Idx.first (numel1_S1.symm ▸ Nat.one_pos))) := row_inb2 _ (htbl _)
  have hc6 : k1_chk6 (arg1.view.readAt (Elt F) (Rect.unit (s := S80000) (k1_off11 i g) S1.size (k1_off11_inb i g)).toLoadRect ft (Shape.Idx.first (numel1_S1.symm ▸ Nat.one_pos))) := row_inb2 _ (htbl _)
  have hc7 : k1_chk7 (arg1.view.readAt (Elt F) (Rect.unit (s := S80000) (k1_off13 i g) S1.size (k1_off13_inb i g)).toLoadRect ft (Shape.Idx.first (numel1_S1.symm ▸ Nat.one_pos))) := row_inb2 _ (htbl _)
  have hc8 : k1_chk8 (arg1.view.readAt (Elt F) (Rect.unit (s := S80000) (k1_off15 i g) S1.size (k1_off15_inb i g)).toLoadRect ft (Shape.Idx.first (numel1_S1.symm ▸ Nat.one_pos))) := row_inb2 _ (htbl _)
  have hc9 : k1_chk9 (arg1.view.readAt (Elt F) (Rect.unit (s := S80000) (k1_off17 i g) S1.size (k1_off17_inb i g)).toLoadRect ft (Shape.Idx.first (numel1_S1.symm ▸ Nat.one_pos))) := row_inb2 _ (htbl _)
  have hc10 : k1_chk10 (arg1.view.readAt (Elt F) (Rect.unit (s := S80000) (k1_off19 i g) S1.size (k1_off19_inb i g)).toLoadRect ft (Shape.Idx.first (numel1_S1.symm ▸ Nat.one_pos))) := row_inb2 _ (htbl _)
  have hc11 : k1_chk11 (arg1.view.readAt (Elt F) (Rect.unit (s := S80000) (k1_off21 i g) S1.size (k1_off21_inb i g)).toLoadRect ft (Shape.Idx.first (numel1_S1.symm ▸ Nat.one_pos))) := row_inb2 _ (htbl _)
  have hc12 : k1_chk12 (arg1.view.readAt (Elt F) (Rect.unit (s := S80000) (k1_off23 i g) S1.size (k1_off23_inb i g)).toLoadRect ft (Shape.Idx.first (numel1_S1.symm ▸ Nat.one_pos))) := row_inb2 _ (htbl _)
  have hc13 : k1_chk13 (arg1.view.readAt (Elt F) (Rect.unit (s := S80000) (k1_off25 i g) S1.size (k1_off25_inb i g)).toLoadRect ft (Shape.Idx.first (numel1_S1.symm ▸ Nat.one_pos))) := row_inb2 _ (htbl _)
  have hc14 : k1_chk14 (arg1.view.readAt (Elt F) (Rect.unit (s := S80000) (k1_off27 i g) S1.size (k1_off27_inb i g)).toLoadRect ft (Shape.Idx.first (numel1_S1.symm ▸ Nat.one_pos))) := row_inb2 _ (htbl _)
  have hc15 : k1_chk15 (arg1.view.readAt (Elt F) (Rect.unit (s := S80000) (k1_off29 i g) S1.size (k1_off29_inb i g)).toLoadRect ft (Shape.Idx.first (numel1_S1.symm ▸ Nat.one_pos))) := row_inb2 _ (htbl _)
  have hc16 : k1_chk16 (arg1.view.readAt (Elt F) (Rect.unit (s := S80000) (k1_off31 i g) S1.size (k1_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k1_trip.sl.dma1 c i arg1 arg2 ft fx g hc1) (k1_trip.sl.dma2 c i arg1 arg2 ft fx g hc2) (k1_trip.sl.dma3 c i arg1 arg2 ft fx g hc3) (k1_trip.sl.dma4 c i arg1 arg2 ft fx g hc4) (k1_trip.sl.dma5 c i arg1 arg2 ft fx g hc5) (k1_trip.sl.dma6 c i arg1 arg2 ft fx g hc6) (k1_trip.sl.dma7 c i arg1 arg2 ft fx g hc7) (k1_trip.sl.dma8 c i arg1 arg2 ft fx g hc8) (k1_trip.sl.dma9 c i arg1 arg2 ft fx g hc9) (k1_trip.sl.dma10 c i arg1 arg2 ft fx g hc10) (k1_trip.sl.dma11 c i arg1 arg2 ft fx g hc11) (k1_trip.sl.dma12 c i arg1 arg2 ft fx g hc12) (k1_trip.sl.dma13 c i arg1 arg2 ft fx g hc13) (k1_trip.sl.dma14 c i arg1 arg2 ft fx g hc14) (k1_trip.sl.dma15 c i arg1 arg2 ft fx g hc15) (k1_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath1 i (arg1.view.read (Elt F) ft) (arg2.view.read (Elt F) fx) g.val :=
    scratch_reads arg5 c f5 g5 _ hg5 _ (fun k d => by
      have hi : (i 0).val < 100 := (i 0).isLt
      have hg : g.val < 50 := trips1 ▸ g.isLt
      fin_cases k
      · exact row_payload arg1 arg2 c ft fx _ _ _ (k1_off1_eq i g) (by omega) _ _ d
      · exact row_payload arg1 arg2 c ft fx _ _ _ (k1_off3_eq i g) (by omega) _ _ d
      · exact row_payload arg1 arg2 c ft fx _ _ _ (k1_off5_eq i g) (by omega) _ _ d
      · exact row_payload arg1 arg2 c ft fx _ _ _ (k1_off7_eq i g) (by omega) _ _ d
      · exact row_payload arg1 arg2 c ft fx _ _ _ (k1_off9_eq i g) (by omega) _ _ d
      · exact row_payload arg1 arg2 c ft fx _ _ _ (k1_off11_eq i g) (by omega) _ _ d
      · exact row_payload arg1 arg2 c ft fx _ _ _ (k1_off13_eq i g) (by omega) _ _ d
      · exact row_payload arg1 arg2 c ft fx _ _ _ (k1_off15_eq i g) (by omega) _ _ d
      · exact row_payload arg1 arg2 c ft fx _ _ _ (k1_off17_eq i g) (by omega) _ _ d
      · exact row_payload arg1 arg2 c ft fx _ _ _ (k1_off19_eq i g) (by omega) _ _ d
      · exact row_payload arg1 arg2 c ft fx _ _ _ (k1_off21_eq i g) (by omega) _ _ d
      · exact row_payload arg1 arg2 c ft fx _ _ _ (k1_off23_eq i g) (by omega) _ _ d
      · exact row_payload arg1 arg2 c ft fx _ _ _ (k1_off25_eq i g) (by omega) _ _ d
      · exact row_payload arg1 arg2 c ft fx _ _ _ (k1_off27_eq i g) (by omega) _ _ d
      · exact row_payload arg1 arg2 c ft fx _ _ _ (k1_off29_eq i g) (by omega) _ _ d
      · exact row_payload arg1 arg2 c ft fx _ _ _ (k1_off31_eq i g) (by omega) _ _ d
      ) _
  sl_exec
  sl_step
  rw [pcs1_succ, View.writes_cons]
  unfold k1_trip.sl.H4_w1
  sl_close

set_option maxHeartbeats 4000000 in

theorem sound_kernel1 (c : Dev nD) (i : grid1.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems1 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk1 i tbl x v) ∗ (∃ d, owns (c : Thread nD τ) arg5 fullShare d) ∗ sems1 c ∗ (∃ W', owes (c : Thread nD τ) 0 W')) -∗ K ⟨⟩))
      ⊢ wp frame (wpE (defs₀ (F := F)) Variants.none c none) Set.univ (cc1__gather_kernel i arg1 harg1 arg2 harg2 arg3 harg3 arg4 harg4 arg5 harg5 cc1_scratch1) K := by
  simp only [cc1__gather_kernel_eq_skeleton]; unfold cc1__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks1 c arg2 fx) := Cert.Toks.toks16_split _ _ _ _
  ihave H2' := htok.1 $$ H2
  icases H2' with ⟨HD, HT⟩
  sl_exec
  sl_for (k1_inv c i arg1 arg2 arg4 arg5 q ft fx f4) $$ [H1 HT H4 H5 HS HW]
  case region =>
    intro g acc
    exact k1_trip c i arg1 harg1 arg2 harg2 arg3 harg3 arg4 harg4 arg5 harg5 q ft fx htbl f4 g acc
  · unfold k1_inv
    isplitl [H1]; · iexact H1
    isplitl [HT]; · iexact HT
    isplitl [H4]; · iexact H4
    isplitl [H5]; · iexists _; iexact H5
    isplitl [HS]; · iexact HS
    iexists _; iexact HW
  iintro %acc HI; unfold k1_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs1 i tbl x (Scf.trips k1_t1_loop.lb k1_t1_loop.ub k1_t1_loop.st), y ∈ p.1.set :=
      cover_pcs1 i tbl x
    have h2 : arg4.view.readCov (pcs1 i tbl x (Scf.trips k1_t1_loop.lb k1_t1_loop.ub k1_t1_loop.st))
        (Rect.unit (s := S800x256) ![0, 0] S800x256.size inb_S800x256_S800x256_0_0).toLoadRect = loopArr1 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.KernelIdeal.Hand

end
-- ==== Proof.KI.Region1.lean ====
import proofs.«411766_j31920196944464_2_alg».proof.Proof.KI.Body1
import proofs.«411766_j31920196944464_2_alg».proof.Proof.KI.Common
import proofs.«411766_j31920196944464_2_alg».proof.Proof.Gen.KernelIdeal.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg1 (F := F)).Adm)

def iblk1 (c : Dev nD) (w : Fin (cfg1 a0).W) (t : Fin (cfg1 a0).N) : (((cfg1 a0).win w).xblock ((cfg1 a0).grid.coords t)).Idx → Elt F ((cfg1 a0).win w).elt :=
  (((cfg1 a0).win w).blk t).view.read (Elt F) (Vd c (Pipeline.arrRef spec1 w))

abbrev osem1 : Fin 16 → SemLoc sig := fun k =>
  (![SemLoc.dma 26, SemLoc.dma 27, SemLoc.dma 28, SemLoc.dma 29, SemLoc.dma 30, SemLoc.dma 31, SemLoc.dma 32, SemLoc.dma 33,
     SemLoc.dma 34, SemLoc.dma 35, SemLoc.dma 36, SemLoc.dma 37, SemLoc.dma 38, SemLoc.dma 39, SemLoc.dma 40, SemLoc.dma 41] : Fin 16 → SemLoc sig) k

theorem ownSemFacts1 : Pipeline.OwnSemFacts spec1 osem1 := by decide

theorem ownSems01_eq (c : Dev nD) :
    (Pipeline.ownSems0 (Ix := Unit) (Name := ℕ) (U := Pipeline.UD sig nD τ) (Lvl := ℕ) (Val := Elt F) (τ := τ) osem1 c : sProp 𝕄) = sems1 c := by
  rw [Pipeline.ownSems0_eq_of_list c osem1 [0, 1, 2, 3, 4, 5, 6, 7, 8, 9, 10, 11, 12, 13, 14, 15] (by decide) (by decide)]; rfl

theorem prefHeld1_eq (c : Dev nD) (pf : pre1.Contents (Elt F)) :
    (Pipeline.prefHeld (Ix := Unit) (Name := ℕ) (U := Pipeline.UD sig nD τ) (Lvl := ℕ) pre1 c (fun _ => fullShare) pf : sProp 𝕄)
      = owns (c : Thread nD τ) (Memref.whole main_v4) fullShare (pf 0) := by
  refine Eq.trans ?_ (owns_whole (c : Thread nD τ) main_v4 fullShare (pf 0)).symm
  unfold Pipeline.prefHeld
  exact bigSep_univ_eq_bigSepL [(0 : Fin 1)] (by decide) (by decide) _

theorem scratch1_eq (c : Dev nD) :
    (iprop(∃ f : Buf (Elt F) ((c : Thread nD τ).loc cc1_scratch0), ((c : Thread nD τ).loc cc1_scratch0) ↦{fullShare} f) : sProp 𝕄)
      = iprop(∃ d, owns (c : Thread nD τ) (Memref.whole cc1_scratch0) fullShare d) := by
  simp only [owns_whole]

def HCol1 : Prop := ∀ e, ((a0.1 0 : Vec F S80000 .i32) e).toNat < 20000

def Φ1 (c : Dev nD) : sProp 𝕄 :=
  iprop(Pipeline.ownSems0 osem1 c ∗ Pipeline.prefHeld pre1 c (fun _ => fullShare) a0.1 ∗ Pipeline.scopedRest spec1 c)

def dat1 (c : Dev nD) : Dat τ (Elt F) Unit ℕ (Pipeline.UD sig nD τ) ℕ (cfg1 a0) c where
  A w := Vd c (Pipeline.arrRef spec1 w)
  after w t := match w with
    | ⟨0, _⟩ => iblk1 Vd a0 c 0 t
    | ⟨1, _⟩ => iblk1 Vd a0 c 1 t
    | ⟨2, _⟩ => outBlk1 (grid1.coords t) (a0.1 0) (iblk1 Vd a0 c 0 t) (iblk1 Vd a0 c 1 t)
  Φ _ := Φ1 a0 c
  q _ := fullShare
  owed _ := 0

theorem A_eq1 (c : Dev nD) (w : Fin 3) : (dat1 Vd a0 c).A w = Vd c (Pipeline.arrRef spec1 w) := by
  dsimp only [dat1]

theorem after1_x (c : Dev nD) (t : Fin (cfg1 a0).N) : (dat1 Vd a0 c).after (0 : Fin 3) t = iblk1 Vd a0 c 0 t := by dsimp only [dat1]
theorem after1_val (c : Dev nD) (t : Fin (cfg1 a0).N) : (dat1 Vd a0 c).after (1 : Fin 3) t = iblk1 Vd a0 c 1 t := by dsimp only [dat1]
theorem after1_out (c : Dev nD) (t : Fin (cfg1 a0).N) :
    (dat1 Vd a0 c).after (2 : Fin 3) t = outBlk1 (grid1.coords t) (a0.1 0) (iblk1 Vd a0 c 0 t) (iblk1 Vd a0 c 1 t) := by dsimp only [dat1]

theorem before1_x (c : Dev nD) (t : Fin (cfg1 a0).N) (d) : (dat1 Vd a0 c).before 0 t d = iblk1 Vd a0 c 0 t := by
  refine ((dat1 Vd a0 c).before_in_eq_fetched 0 rfl (fun _ => rfl) (fun _ _ _ => rfl) (fun s => ?_) t d).trans ?_
  · rw [after1_x]; rfl
  · rfl
theorem before1_val (c : Dev nD) (t : Fin (cfg1 a0).N) (d) : (dat1 Vd a0 c).before 1 t d = iblk1 Vd a0 c 1 t := by
  refine ((dat1 Vd a0 c).before_in_eq_fetched 1 rfl (fun _ => rfl) (fun _ _ _ => rfl) (fun s => ?_) t d).trans ?_
  · rw [after1_val]; rfl
  · rfl

abbrev st1_x (t : Fin (cfg1 a0).N) := ((cfg1 a0).win 0).stage ((cfg1 a0).slots t 0)
abbrev st1_val (t : Fin (cfg1 a0).N) := ((cfg1 a0).win 1).stage ((cfg1 a0).slots t 1)
abbrev st1_out (t : Fin (cfg1 a0).N) := ((cfg1 a0).win 2).stage ((cfg1 a0).slots t 2)

abbrev bodyAt1 (t : Fin (cfg1 a0).N) : Prog (TpuEff nD τ sig (Elt F) Λ₀ .tc) PUnit :=
  cc1__gather_kernel (grid1.coords t) (Memref.whole main_v4) (Memref.isWhole_whole _)
    (spec1_0.stage ((cfg1 a0).slots t 0)) (hstage1_0 (((cfg1 a0).slots t 0).cast nbuf1_0))
    (spec1_1.stage ((cfg1 a0).slots t 1)) (hstage1_1 (((cfg1 a0).slots t 1).cast nbuf1_1))
    (spec1_2.stage ((cfg1 a0).slots t 2)) (hstage1_2 (((cfg1 a0).slots t 2).cast nbuf1_2))
    (Memref.whole cc1_scratch0) (Memref.isWhole_whole _) cc1_scratch1

def bodyPre1 (c : Dev nD) (t : Fin (cfg1 a0).N) : sProp 𝕄 :=
  iprop((dat1 Vd a0 c).Φ t.castSucc ∗ (dat1 Vd a0 c).owesAt () t.castSucc
    ∗ (∃ d, owns (c : Thread nD τ) (st1_x a0 t) fullShare ((dat1 Vd a0 c).before 0 t d))
    ∗ (∃ d, owns (c : Thread nD τ) (st1_val a0 t) fullShare ((dat1 Vd a0 c).before 1 t d))
    ∗ (∃ d, owns (c : Thread nD τ) (st1_out a0 t) fullShare ((dat1 Vd a0 c).before 2 t d)))

def bodyPost1 (c : Dev nD) (t : Fin (cfg1 a0).N) : sProp 𝕄 :=
  iprop((dat1 Vd a0 c).Φ t.succ ∗ (dat1 Vd a0 c).owesAt () t.succ
    ∗ owns (c : Thread nD τ) (st1_x a0 t) fullShare ((dat1 Vd a0 c).after 0 t)
    ∗ owns (c : Thread nD τ) (st1_val a0 t) fullShare ((dat1 Vd a0 c).after 1 t)
    ∗ owns (c : Thread nD τ) (st1_out a0 t) fullShare ((dat1 Vd a0 c).after 2 t))

theorem sound_body1 (hcol : HCol1 a0) (c : Dev nD) (t : Fin (cfg1 a0).N) :
    bodyPre1 Vd a0 c t ⊢ wp frame (wpE (defs₀ (F := F)) Variants.none c none) Set.univ (bodyAt1 a0 t) (fun _ => bodyPost1 Vd a0 c t) := by
  unfold bodyPre1 bodyPost1 bodyAt1
  simp only [before1_x, before1_val]
  rw [show (dat1 Vd a0 c).Φ t.succ = Φ1 a0 c from rfl, show (dat1 Vd a0 c).Φ t.castSucc = Φ1 a0 c from rfl,
    after1_x, after1_val, after1_out]
  unfold Φ1 Dat.owesAt Pipeline.owesWithin
  rw [scopedRest1_split, scratch1_eq, ownSems01_eq, prefHeld1_eq,
    show (dat1 Vd a0 c).owed t.castSucc = 0 from rfl, show (dat1 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel1 c (grid1.coords t) _ _ _ _ _ _ _ _ _ _ fullShare (a0.1 0) (iblk1 Vd a0 c 0 t) (iblk1 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation1 (hcol : HCol1 a0) (c : Dev nD) :
    BodyObligation (dat1 (F := F) Vd a0 c) (defs₀ (F := F)) Variants.none () Set.univ := fun t => by
  rw [bigSep_W1, bigSep_W1]
  exact sound_body1 Vd a0 hcol c t

abbrev X1 (c : Dev nD) : sProp 𝕄 := Pipeline.ownSems0 osem1 c
abbrev Y1 (c : Dev nD) : sProp 𝕄 := Pipeline.prefHeld pre1 c (fun _ => fullShare) a0.1
abbrev Z1 (V : Valuation τ sig (Elt F)) (c : Dev nD) : sProp 𝕄 :=
  iprop(Pipeline.unscopedRestP (Ix := Unit) (Name := ℕ) (U := Pipeline.UD sig nD τ) (Lvl := ℕ) pre1 spec1 c (fun b => V b) ∗ ∃ r, prngReg c r)

theorem hentry1 (c : Dev nD) (V : Valuation τ sig (Elt F)) (hA : ∀ w, Vd c (Pipeline.arrRef spec1 w) = V (Pipeline.arrRef spec1 w))
    (hT : ∀ k, a0.1 k = V (pre1.ref k)) :
    iprop(iprop(StableHlo.held (c : Thread nD τ) (Pipeline.ucRefs τ sig) V ∗ R c) ∗ Pipeline.ownSems0 osem1 c ∗ levAts L lv)
      ⊢ |={Set.univ}=> iprop((dat1 Vd a0 c).arrays ((dat1 Vd a0 c).arrAt · 0) ∗ Pipeline.prefHeld pre1 c (fun _ => fullShare) a0.1
          ∗ (dat1 Vd a0 c).owesAt () 0 ∗ X1 c ∗ Z1 V c) := by
  have hsplit := Pipeline.arrays_of_unscopedBufs (p := ()) (fun _ : Unit => pcfg1 (F := F)) (fun _ => a0) (fun _ c => dat1 Vd a0 c)
    (Ix := Unit) (Name := ℕ) (U := Pipeline.UD sig nD τ) (Lvl := ℕ) winFacts1 arr_whole1 c ((dat1 Vd a0 c).share_full fun _ => rfl) (fun b => V b) hA
  rw [Pipeline.unscopedBufs_held, Pipeline.unscopedRest_split preFacts1,
    show (fun k => V (pre1.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin1 (c : Dev nD) :
    iprop(X1 c ∗ Pipeline.prefHeld pre1 c (fun _ => fullShare) a0.1 ∗ Pipeline.scopedRest spec1 c) ⊢ (dat1 Vd a0 c).Φ 0 := by
  show _ ⊢ Φ1 a0 c
  unfold Φ1; exact .rfl

theorem hout1 (c : Dev nD) :
    (dat1 Vd a0 c).Φ (Fin.last (cfg1 a0).N) ⊢ iprop(Y1 a0 c ∗ Pipeline.ownSems0 osem1 c ∗ Pipeline.scopedRest spec1 c) := by
  show Φ1 a0 c ⊢ _
  unfold Φ1
  iintro ⟨Hs, Hp, Hr⟩
  isplitl [Hp]; · iexact Hp
  isplitl [Hs]; · iexact Hs
  iexact Hr

theorem hexit1 (c : Dev nD) (V Vp : Valuation τ sig (Elt F))
    (hF : ∀ w, (dat1 Vd a0 c).arrAt w (cfg1 a0).N = Vp (Pipeline.arrRef spec1 w))
    (hrest : ∀ b : Ref sig .tc, b ∉ Finset.univ.image (Pipeline.arrRef spec1) → Vp b = V b) (hT : ∀ k, a0.1 k = V (pre1.ref k)) :
    iprop((dat1 Vd a0 c).arrays ((dat1 Vd a0 c).arrAt · (cfg1 a0).N) ∗ (dat1 Vd a0 c).owesAt () (Fin.last (cfg1 a0).N) ∗ Y1 a0 c ∗ Z1 V c)
      ⊢ |={Set.univ}=> iprop(StableHlo.held (c : Thread nD τ) (Pipeline.ucRefs τ sig) Vp ∗ R c) := by
  have hjoin := Pipeline.unscopedBufs_of_arrays (p := ()) (fun _ : Unit => pcfg1 (F := F)) (fun _ => a0) (Ix := Unit) (Name := ℕ) (U := Pipeline.UD sig nD τ) (Lvl := ℕ)
    winFacts1 arr_whole1 c (fun _ c => dat1 Vd a0 c) ((dat1 Vd a0 c).share_full fun _ => rfl)
    (fun b => V b) (fun b => Vp b) ((dat1 Vd a0 c).arrAt · (cfg1 a0).N) hF hrest
  rw [Pipeline.unscopedBufs_held, Pipeline.unscopedRest_split preFacts1,
    show (fun k => V (pre1.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

def pt1 (r : Fin 80000) : Fin (cfg1 a0).N := ⟨r.val / 800, by have := r.isLt; show r.val / 800 < grid1.N; rw [N_1]; omega⟩

def outArr1 (c : Dev nD) : Vec F S80000x256 .f32 := fun i =>
  outBlk1 (grid1.coords (pt1 a0 (i 0))) (a0.1 0) (iblk1 Vd a0 c 0 (pt1 a0 (i 0))) (iblk1 Vd a0 c 1 (pt1 a0 (i 0)))
    (ValueIdx.ix2 ⟨(i 0).val % 800, Nat.mod_lt _ (by decide)⟩ (i 1))

end Region0
end Cert.KernelIdeal.Hand
end
-- ==== Proof.KI.Out2.lean ====
import proofs.«411766_j31920196944464_2_alg».proof.Proof.Gen.KernelIdeal.Loops
import proofs.«411766_j31920196944464_2_alg».proof.Proof.Gather

set_option maxRecDepth 16384

noncomputable section

namespace Cert.KernelIdeal.Hand

open Cert.KernelIdeal Cert.KernelIdeal.Gen
open Idealize.ShloMosaic Idealize.ShloMosaic.TcCoe

variable {F : FTy → Type} [FloatOps F]

def gath2 (i : grid2.Coords) (tbl : Vec F S80000 .i32) (x : Vec F S20000x256 .f32) (g : ℕ) : Vec F S16x256 .f32 :=
  Gather.gath (i 0).val tbl x g

def pcs2 (i : grid2.Coords) (tbl : Vec F S80000 .i32) (x : Vec F S20000x256 .f32) (n : ℕ) : List (View.Piece (Elt F) S800x256 .f32) :=
  Gather.pcs k2_off48 k2_off48_inb (i 0).val tbl x n

theorem pcs2_succ (i : grid2.Coords) (tbl : Vec F S80000 .i32) (x : Vec F S20000x256 .f32) (g : Fin k2_t1_loop.trips) :
    pcs2 i tbl x (g.val + 1)
      = ⟨Rect.unit (s := S800x256) (k2_off48 g) S16x256.size (k2_off48_inb g), gath2 i tbl x g.val⟩ :: pcs2 i tbl x g.val :=
  Gather.pcs_succ k2_off48 k2_off48_inb (i 0).val tbl x g

def loopArr2 (i : grid2.Coords) (tbl : Vec F S80000 .i32) (x : Vec F S20000x256 .f32) : Vec F S800x256 .f32 :=
  Gather.loopArr k2_off48 k2_off48_inb (i 0).val tbl x

def outBlk2 (i : grid2.Coords) (tbl : Vec F S80000 .i32) (x : Vec F S20000x256 .f32) (v : Vec F S800x1 .f32) : Vec F S800x256 .f32 :=
  k2_pay1 (loopArr2 i tbl x) v

theorem trips2 : k2_t1_loop.trips = 50 := by decide

theorem cover_pcs2 (i : grid2.Coords) (tbl : Vec F S80000 .i32) (x : Vec F S20000x256 .f32) :
    ∀ y : S800x256.Idx, ∃ p ∈ pcs2 i tbl x k2_t1_loop.trips, y ∈ p.1.set :=
  Gather.cover_pcs k2_off48 k2_off48_inb k2_off48_eq trips2 (i 0).val tbl x

theorem outBlk2_apply (i : grid2.Coords) (tbl : Vec Ideal S80000 .i32) (x : Vec Ideal S20000x256 .f32) (v : Vec Ideal S800x1 .f32)
    (htbl : ∀ e : S80000.Idx, (tbl e).toNat < 20000) (r : Fin 800) (d : Fin 256) :
    outBlk2 i tbl x v (ValueIdx.ix2 r d)
      = x (ValueIdx.ix2 ⟨(tbl (ValueIdx.ix1 ⟨800 * (i 0).val + r.val, by
            have := (i 0).isLt; change (i 0).val < 100 at this; have := r.isLt; omega⟩)).toNat, htbl _⟩ d)
        * v (ValueIdx.ix2 r (0 : Fin 1)) := by
  unfold outBlk2 k2_pay1 loopArr2
  exact Gather.scaled_apply k2_off48 k2_off48_inb k2_off48_eq trips2 (i 0).isLt tbl x v htbl _ _ _ r d

end Cert.KernelIdeal.Hand

end
-- ==== Proof.KI.Body2.lean ====
import proofs.«411766_j31920196944464_2_alg».proof.Proof.KI.Out2
import proofs.«411766_j31920196944464_2_alg».proof.Proof.KI.Rows5
import proofs.«411766_j31920196944464_2_alg».proof.Proof.KI.Rows5b
import proofs.«411766_j31920196944464_2_alg».proof.Proof.KI.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems2 (c : Dev nD) : sProp 𝕄 :=
  iprop(semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0
    ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0
    ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0
    ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0)

abbrev tok2 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks2 (c : Dev nD) (arg2 : Memref sig .tc .vmem S20000x256 .f32) (fx : Buf (Elt F) (arg2.view.loc (c : Thread nD τ))) : sProp 𝕄 :=
  iprop(tok2 c arg2 fx 47 ∗ tok2 c arg2 fx 48 ∗ tok2 c arg2 fx 49 ∗ tok2 c arg2 fx 50 ∗ tok2 c arg2 fx 51 ∗ tok2 c arg2 fx 52 ∗ tok2 c arg2 fx 53 ∗ tok2 c arg2 fx 54
    ∗ tok2 c arg2 fx 55 ∗ tok2 c arg2 fx 56 ∗ tok2 c arg2 fx 57 ∗ tok2 c arg2 fx 58 ∗ tok2 c arg2 fx 59 ∗ tok2 c arg2 fx 60 ∗ tok2 c arg2 fx 61 ∗ tok2 c arg2 fx 62)

def k2_inv (c : Dev nD) (i : grid2.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks2 c arg2 fx
    ∗ (arg4.view.loc (c : Thread nD τ) ↦[arg4.view.set]{fullShare}
        arg4.view.writes (Elt F) f4 (pcs2 i (arg1.view.read (Elt F) ft) (arg2.view.read (Elt F) fx) n))
    ∗ (∃ f5, arg5.view.loc (c : Thread nD τ) ↦[arg5.view.set]{fullShare} f5)
    ∗ sems2 c ∗ (∃ W, owes (c : Thread nD τ) 0 W))

set_option maxHeartbeats 8000000 in

theorem k2_trip (c : Dev nD) (i : grid2.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k2_t1_loop.trips) (acc : Unit) :
    k2_inv c i arg1 arg2 arg4 arg5 q ft fx f4 g.val acc
      ⊢ wp frame (wpE (defs₀ (F := F)) Variants.none c none) Set.univ
          (k2_t1_body i arg1 harg1 arg2 harg2 arg3 harg3 arg4 harg4 arg5 harg5 cc2_scratch1 (Scalar.muli (BitVec.ofNat 32 (i 0).val) 800#32) g acc)
          (k2_inv c i arg1 arg2 arg4 arg5 q ft fx f4 (g.val + 1)) := by
  unfold k2_inv k2_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k2_chk1 (arg1.view.readAt (Elt F) (Rect.unit (s := S80000) (k2_off1 i g) S1.size (k2_off1_inb i g)).toLoadRect ft (Shape.Idx.first (numel1_S1.symm ▸ Nat.one_pos))) := row_inb2 _ (htbl _)
  have hc2 : k2_chk2 (arg1.view.readAt (Elt F) (Rect.unit (s := S80000) (k2_off3 i g) S1.size (k2_off3_inb i g)).toLoadRect ft (Shape.Idx.first (numel1_S1.symm ▸ Nat.one_pos))) := row_inb2 _ (htbl _)
  have hc3 : k2_chk3 (arg1.view.readAt (Elt F) (Rect.unit (s := S80000) (k2_off5 i g) S1.size (k2_off5_inb i g)).toLoadRect ft (Shape.Idx.first (numel1_S1.symm ▸ Nat.one_pos))) := row_inb2 _ (htbl _)
  have hc4 : k2_chk4 (arg1.view.readAt (Elt F) (Rect.unit (s := S80000) (k2_off7 i g) S1.size (k2_off7_inb i g)).toLoadRect ft (Shape.Idx.first (numel1_S1.symm ▸ Nat.one_pos))) := row_inb2 _ (htbl _)
  have hc5 : k2_chk5 (arg1.view.readAt (Elt F) (Rect.unit (s := S80000) (k2_off9 i g) S1.size (k2_off9_inb i g)).toLoadRect ft (Shape.Idx.first (numel1_S1.symm ▸ Nat.one_pos))) := row_inb2 _ (htbl _)
  have hc6 : k2_chk6 (arg1.view.readAt (Elt F) (Rect.unit (s := S80000) (k2_off11 i g) S1.size (k2_off11_inb i g)).toLoadRect ft (Shape.Idx.first (numel1_S1.symm ▸ Nat.one_pos))) := row_inb2 _ (htbl _)
  have hc7 : k2_chk7 (arg1.view.readAt (Elt F) (Rect.unit (s := S80000) (k2_off13 i g) S1.size (k2_off13_inb i g)).toLoadRect ft (Shape.Idx.first (numel1_S1.symm ▸ Nat.one_pos))) := row_inb2 _ (htbl _)
  have hc8 : k2_chk8 (arg1.view.readAt (Elt F) (Rect.unit (s := S80000) (k2_off15 i g) S1.size (k2_off15_inb i g)).toLoadRect ft (Shape.Idx.first (numel1_S1.symm ▸ Nat.one_pos))) := row_inb2 _ (htbl _)
  have hc9 : k2_chk9 (arg1.view.readAt (Elt F) (Rect.unit (s := S80000) (k2_off17 i g) S1.size (k2_off17_inb i g)).toLoadRect ft (Shape.Idx.first (numel1_S1.symm ▸ Nat.one_pos))) := row_inb2 _ (htbl _)
  have hc10 : k2_chk10 (arg1.view.readAt (Elt F) (Rect.unit (s := S80000) (k2_off19 i g) S1.size (k2_off19_inb i g)).toLoadRect ft (Shape.Idx.first (numel1_S1.symm ▸ Nat.one_pos))) := row_inb2 _ (htbl _)
  have hc11 : k2_chk11 (arg1.view.readAt (Elt F) (Rect.unit (s := S80000) (k2_off21 i g) S1.size (k2_off21_inb i g)).toLoadRect ft (Shape.Idx.first (numel1_S1.symm ▸ Nat.one_pos))) := row_inb2 _ (htbl _)
  have hc12 : k2_chk12 (arg1.view.readAt (Elt F) (Rect.unit (s := S80000) (k2_off23 i g) S1.size (k2_off23_inb i g)).toLoadRect ft (Shape.Idx.first (numel1_S1.symm ▸ Nat.one_pos))) := row_inb2 _ (htbl _)
  have hc13 : k2_chk13 (arg1.view.readAt (Elt F) (Rect.unit (s := S80000) (k2_off25 i g) S1.size (k2_off25_inb i g)).toLoadRect ft (Shape.Idx.first (numel1_S1.symm ▸ Nat.one_pos))) := row_inb2 _ (htbl _)
  have hc14 : k2_chk14 (arg1.view.readAt (Elt F) (Rect.unit (s := S80000) (k2_off27 i g) S1.size (k2_off27_inb i g)).toLoadRect ft (Shape.Idx.first (numel1_S1.symm ▸ Nat.one_pos))) := row_inb2 _ (htbl _)
  have hc15 : k2_chk15 (arg1.view.readAt (Elt F) (Rect.unit (s := S80000) (k2_off29 i g) S1.size (k2_off29_inb i g)).toLoadRect ft (Shape.Idx.first (numel1_S1.symm ▸ Nat.one_pos))) := row_inb2 _ (htbl _)
  have hc16 : k2_chk16 (arg1.view.readAt (Elt F) (Rect.unit (s := S80000) (k2_off31 i g) S1.size (k2_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k2_trip.sl.dma1 c i arg1 arg2 ft fx g hc1) (k2_trip.sl.dma2 c i arg1 arg2 ft fx g hc2) (k2_trip.sl.dma3 c i arg1 arg2 ft fx g hc3) (k2_trip.sl.dma4 c i arg1 arg2 ft fx g hc4) (k2_trip.sl.dma5 c i arg1 arg2 ft fx g hc5) (k2_trip.sl.dma6 c i arg1 arg2 ft fx g hc6) (k2_trip.sl.dma7 c i arg1 arg2 ft fx g hc7) (k2_trip.sl.dma8 c i arg1 arg2 ft fx g hc8) (k2_trip.sl.dma9 c i arg1 arg2 ft fx g hc9) (k2_trip.sl.dma10 c i arg1 arg2 ft fx g hc10) (k2_trip.sl.dma11 c i arg1 arg2 ft fx g hc11) (k2_trip.sl.dma12 c i arg1 arg2 ft fx g hc12) (k2_trip.sl.dma13 c i arg1 arg2 ft fx g hc13) (k2_trip.sl.dma14 c i arg1 arg2 ft fx g hc14) (k2_trip.sl.dma15 c i arg1 arg2 ft fx g hc15) (k2_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath2 i (arg1.view.read (Elt F) ft) (arg2.view.read (Elt F) fx) g.val :=
    scratch_reads arg5 c f5 g5 _ hg5 _ (fun k d => by
      have hi : (i 0).val < 100 := (i 0).isLt
      have hg : g.val < 50 := trips2 ▸ g.isLt
      fin_cases k
      · exact row_payload arg1 arg2 c ft fx _ _ _ (k2_off1_eq i g) (by omega) _ _ d
      · exact row_payload arg1 arg2 c ft fx _ _ _ (k2_off3_eq i g) (by omega) _ _ d
      · exact row_payload arg1 arg2 c ft fx _ _ _ (k2_off5_eq i g) (by omega) _ _ d
      · exact row_payload arg1 arg2 c ft fx _ _ _ (k2_off7_eq i g) (by omega) _ _ d
      · exact row_payload arg1 arg2 c ft fx _ _ _ (k2_off9_eq i g) (by omega) _ _ d
      · exact row_payload arg1 arg2 c ft fx _ _ _ (k2_off11_eq i g) (by omega) _ _ d
      · exact row_payload arg1 arg2 c ft fx _ _ _ (k2_off13_eq i g) (by omega) _ _ d
      · exact row_payload arg1 arg2 c ft fx _ _ _ (k2_off15_eq i g) (by omega) _ _ d
      · exact row_payload arg1 arg2 c ft fx _ _ _ (k2_off17_eq i g) (by omega) _ _ d
      · exact row_payload arg1 arg2 c ft fx _ _ _ (k2_off19_eq i g) (by omega) _ _ d
      · exact row_payload arg1 arg2 c ft fx _ _ _ (k2_off21_eq i g) (by omega) _ _ d
      · exact row_payload arg1 arg2 c ft fx _ _ _ (k2_off23_eq i g) (by omega) _ _ d
      · exact row_payload arg1 arg2 c ft fx _ _ _ (k2_off25_eq i g) (by omega) _ _ d
      · exact row_payload arg1 arg2 c ft fx _ _ _ (k2_off27_eq i g) (by omega) _ _ d
      · exact row_payload arg1 arg2 c ft fx _ _ _ (k2_off29_eq i g) (by omega) _ _ d
      · exact row_payload arg1 arg2 c ft fx _ _ _ (k2_off31_eq i g) (by omega) _ _ d
      ) _
  sl_exec
  sl_step
  rw [pcs2_succ, View.writes_cons]
  unfold k2_trip.sl.H4_w1
  sl_close

set_option maxHeartbeats 4000000 in

theorem sound_kernel2 (c : Dev nD) (i : grid2.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems2 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk2 i tbl x v) ∗ (∃ d, owns (c : Thread nD τ) arg5 fullShare d) ∗ sems2 c ∗ (∃ W', owes (c : Thread nD τ) 0 W')) -∗ K ⟨⟩))
      ⊢ wp frame (wpE (defs₀ (F := F)) Variants.none c none) Set.univ (cc2__gather_kernel i arg1 harg1 arg2 harg2 arg3 harg3 arg4 harg4 arg5 harg5 cc2_scratch1) K := by
  simp only [cc2__gather_kernel_eq_skeleton]; unfold cc2__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks2 c arg2 fx) := Cert.Toks.toks16_split _ _ _ _
  ihave H2' := htok.1 $$ H2
  icases H2' with ⟨HD, HT⟩
  sl_exec
  sl_for (k2_inv c i arg1 arg2 arg4 arg5 q ft fx f4) $$ [H1 HT H4 H5 HS HW]
  case region =>
    intro g acc
    exact k2_trip c i arg1 harg1 arg2 harg2 arg3 harg3 arg4 harg4 arg5 harg5 q ft fx htbl f4 g acc
  · unfold k2_inv
    isplitl [H1]; · iexact H1
    isplitl [HT]; · iexact HT
    isplitl [H4]; · iexact H4
    isplitl [H5]; · iexists _; iexact H5
    isplitl [HS]; · iexact HS
    iexists _; iexact HW
  iintro %acc HI; unfold k2_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs2 i tbl x (Scf.trips k2_t1_loop.lb k2_t1_loop.ub k2_t1_loop.st), y ∈ p.1.set :=
      cover_pcs2 i tbl x
    have h2 : arg4.view.readCov (pcs2 i tbl x (Scf.trips k2_t1_loop.lb k2_t1_loop.ub k2_t1_loop.st))
        (Rect.unit (s := S800x256) ![0, 0] S800x256.size inb_S800x256_S800x256_0_0).toLoadRect = loopArr2 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.KernelIdeal.Hand

end
-- ==== Proof.KI.Region2.lean ====
import proofs.«411766_j31920196944464_2_alg».proof.Proof.KI.Body2
import proofs.«411766_j31920196944464_2_alg».proof.Proof.KI.Common
import proofs.«411766_j31920196944464_2_alg».proof.Proof.Gen.KernelIdeal.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg2 (F := F)).Adm)

def iblk2 (c : Dev nD) (w : Fin (cfg2 a0).W) (t : Fin (cfg2 a0).N) : (((cfg2 a0).win w).xblock ((cfg2 a0).grid.coords t)).Idx → Elt F ((cfg2 a0).win w).elt :=
  (((cfg2 a0).win w).blk t).view.read (Elt F) (Vd c (Pipeline.arrRef spec2 w))

abbrev osem2 : Fin 16 → SemLoc sig := fun k =>
  (![SemLoc.dma 47, SemLoc.dma 48, SemLoc.dma 49, SemLoc.dma 50, SemLoc.dma 51, SemLoc.dma 52, SemLoc.dma 53, SemLoc.dma 54,
     SemLoc.dma 55, SemLoc.dma 56, SemLoc.dma 57, SemLoc.dma 58, SemLoc.dma 59, SemLoc.dma 60, SemLoc.dma 61, SemLoc.dma 62] : Fin 16 → SemLoc sig) k

theorem ownSemFacts2 : Pipeline.OwnSemFacts spec2 osem2 := by decide

theorem ownSems02_eq (c : Dev nD) :
    (Pipeline.ownSems0 (Ix := Unit) (Name := ℕ) (U := Pipeline.UD sig nD τ) (Lvl := ℕ) (Val := Elt F) (τ := τ) osem2 c : sProp 𝕄) = sems2 c := by
  rw [Pipeline.ownSems0_eq_of_list c osem2 [0, 1, 2, 3, 4, 5, 6, 7, 8, 9, 10, 11, 12, 13, 14, 15] (by decide) (by decide)]; rfl

theorem prefHeld2_eq (c : Dev nD) (pf : pre2.Contents (Elt F)) :
    (Pipeline.prefHeld (Ix := Unit) (Name := ℕ) (U := Pipeline.UD sig nD τ) (Lvl := ℕ) pre2 c (fun _ => fullShare) pf : sProp 𝕄)
      = owns (c : Thread nD τ) (Memref.whole main_v8) fullShare (pf 0) := by
  refine Eq.trans ?_ (owns_whole (c : Thread nD τ) main_v8 fullShare (pf 0)).symm
  unfold Pipeline.prefHeld
  exact bigSep_univ_eq_bigSepL [(0 : Fin 1)] (by decide) (by decide) _

theorem scratch2_eq (c : Dev nD) :
    (iprop(∃ f : Buf (Elt F) ((c : Thread nD τ).loc cc2_scratch0), ((c : Thread nD τ).loc cc2_scratch0) ↦{fullShare} f) : sProp 𝕄)
      = iprop(∃ d, owns (c : Thread nD τ) (Memref.whole cc2_scratch0) fullShare d) := by
  simp only [owns_whole]

def HCol2 : Prop := ∀ e, ((a0.1 0 : Vec F S80000 .i32) e).toNat < 20000

def Φ2 (c : Dev nD) : sProp 𝕄 :=
  iprop(Pipeline.ownSems0 osem2 c ∗ Pipeline.prefHeld pre2 c (fun _ => fullShare) a0.1 ∗ Pipeline.scopedRest spec2 c)

def dat2 (c : Dev nD) : Dat τ (Elt F) Unit ℕ (Pipeline.UD sig nD τ) ℕ (cfg2 a0) c where
  A w := Vd c (Pipeline.arrRef spec2 w)
  after w t := match w with
    | ⟨0, _⟩ => iblk2 Vd a0 c 0 t
    | ⟨1, _⟩ => iblk2 Vd a0 c 1 t
    | ⟨2, _⟩ => outBlk2 (grid2.coords t) (a0.1 0) (iblk2 Vd a0 c 0 t) (iblk2 Vd a0 c 1 t)
  Φ _ := Φ2 a0 c
  q _ := fullShare
  owed _ := 0

theorem A_eq2 (c : Dev nD) (w : Fin 3) : (dat2 Vd a0 c).A w = Vd c (Pipeline.arrRef spec2 w) := by
  dsimp only [dat2]

theorem after2_x (c : Dev nD) (t : Fin (cfg2 a0).N) : (dat2 Vd a0 c).after (0 : Fin 3) t = iblk2 Vd a0 c 0 t := by dsimp only [dat2]
theorem after2_val (c : Dev nD) (t : Fin (cfg2 a0).N) : (dat2 Vd a0 c).after (1 : Fin 3) t = iblk2 Vd a0 c 1 t := by dsimp only [dat2]
theorem after2_out (c : Dev nD) (t : Fin (cfg2 a0).N) :
    (dat2 Vd a0 c).after (2 : Fin 3) t = outBlk2 (grid2.coords t) (a0.1 0) (iblk2 Vd a0 c 0 t) (iblk2 Vd a0 c 1 t) := by dsimp only [dat2]

theorem before2_x (c : Dev nD) (t : Fin (cfg2 a0).N) (d) : (dat2 Vd a0 c).before 0 t d = iblk2 Vd a0 c 0 t := by
  refine ((dat2 Vd a0 c).before_in_eq_fetched 0 rfl (fun _ => rfl) (fun _ _ _ => rfl) (fun s => ?_) t d).trans ?_
  · rw [after2_x]; rfl
  · rfl
theorem before2_val (c : Dev nD) (t : Fin (cfg2 a0).N) (d) : (dat2 Vd a0 c).before 1 t d = iblk2 Vd a0 c 1 t := by
  refine ((dat2 Vd a0 c).before_in_eq_fetched 1 rfl (fun _ => rfl) (fun _ _ _ => rfl) (fun s => ?_) t d).trans ?_
  · rw [after2_val]; rfl
  · rfl

abbrev st2_x (t : Fin (cfg2 a0).N) := ((cfg2 a0).win 0).stage ((cfg2 a0).slots t 0)
abbrev st2_val (t : Fin (cfg2 a0).N) := ((cfg2 a0).win 1).stage ((cfg2 a0).slots t 1)
abbrev st2_out (t : Fin (cfg2 a0).N) := ((cfg2 a0).win 2).stage ((cfg2 a0).slots t 2)

abbrev bodyAt2 (t : Fin (cfg2 a0).N) : Prog (TpuEff nD τ sig (Elt F) Λ₀ .tc) PUnit :=
  cc2__gather_kernel (grid2.coords t) (Memref.whole main_v8) (Memref.isWhole_whole _)
    (spec2_0.stage ((cfg2 a0).slots t 0)) (hstage2_0 (((cfg2 a0).slots t 0).cast nbuf2_0))
    (spec2_1.stage ((cfg2 a0).slots t 1)) (hstage2_1 (((cfg2 a0).slots t 1).cast nbuf2_1))
    (spec2_2.stage ((cfg2 a0).slots t 2)) (hstage2_2 (((cfg2 a0).slots t 2).cast nbuf2_2))
    (Memref.whole cc2_scratch0) (Memref.isWhole_whole _) cc2_scratch1

def bodyPre2 (c : Dev nD) (t : Fin (cfg2 a0).N) : sProp 𝕄 :=
  iprop((dat2 Vd a0 c).Φ t.castSucc ∗ (dat2 Vd a0 c).owesAt () t.castSucc
    ∗ (∃ d, owns (c : Thread nD τ) (st2_x a0 t) fullShare ((dat2 Vd a0 c).before 0 t d))
    ∗ (∃ d, owns (c : Thread nD τ) (st2_val a0 t) fullShare ((dat2 Vd a0 c).before 1 t d))
    ∗ (∃ d, owns (c : Thread nD τ) (st2_out a0 t) fullShare ((dat2 Vd a0 c).before 2 t d)))

def bodyPost2 (c : Dev nD) (t : Fin (cfg2 a0).N) : sProp 𝕄 :=
  iprop((dat2 Vd a0 c).Φ t.succ ∗ (dat2 Vd a0 c).owesAt () t.succ
    ∗ owns (c : Thread nD τ) (st2_x a0 t) fullShare ((dat2 Vd a0 c).after 0 t)
    ∗ owns (c : Thread nD τ) (st2_val a0 t) fullShare ((dat2 Vd a0 c).after 1 t)
    ∗ owns (c : Thread nD τ) (st2_out a0 t) fullShare ((dat2 Vd a0 c).after 2 t))

theorem sound_body2 (hcol : HCol2 a0) (c : Dev nD) (t : Fin (cfg2 a0).N) :
    bodyPre2 Vd a0 c t ⊢ wp frame (wpE (defs₀ (F := F)) Variants.none c none) Set.univ (bodyAt2 a0 t) (fun _ => bodyPost2 Vd a0 c t) := by
  unfold bodyPre2 bodyPost2 bodyAt2
  simp only [before2_x, before2_val]
  rw [show (dat2 Vd a0 c).Φ t.succ = Φ2 a0 c from rfl, show (dat2 Vd a0 c).Φ t.castSucc = Φ2 a0 c from rfl,
    after2_x, after2_val, after2_out]
  unfold Φ2 Dat.owesAt Pipeline.owesWithin
  rw [scopedRest2_split, scratch2_eq, ownSems02_eq, prefHeld2_eq,
    show (dat2 Vd a0 c).owed t.castSucc = 0 from rfl, show (dat2 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel2 c (grid2.coords t) _ _ _ _ _ _ _ _ _ _ fullShare (a0.1 0) (iblk2 Vd a0 c 0 t) (iblk2 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation2 (hcol : HCol2 a0) (c : Dev nD) :
    BodyObligation (dat2 (F := F) Vd a0 c) (defs₀ (F := F)) Variants.none () Set.univ := fun t => by
  rw [bigSep_W2, bigSep_W2]
  exact sound_body2 Vd a0 hcol c t

abbrev X2 (c : Dev nD) : sProp 𝕄 := Pipeline.ownSems0 osem2 c
abbrev Y2 (c : Dev nD) : sProp 𝕄 := Pipeline.prefHeld pre2 c (fun _ => fullShare) a0.1
abbrev Z2 (V : Valuation τ sig (Elt F)) (c : Dev nD) : sProp 𝕄 :=
  iprop(Pipeline.unscopedRestP (Ix := Unit) (Name := ℕ) (U := Pipeline.UD sig nD τ) (Lvl := ℕ) pre2 spec2 c (fun b => V b) ∗ ∃ r, prngReg c r)

theorem hentry2 (c : Dev nD) (V : Valuation τ sig (Elt F)) (hA : ∀ w, Vd c (Pipeline.arrRef spec2 w) = V (Pipeline.arrRef spec2 w))
    (hT : ∀ k, a0.1 k = V (pre2.ref k)) :
    iprop(iprop(StableHlo.held (c : Thread nD τ) (Pipeline.ucRefs τ sig) V ∗ R c) ∗ Pipeline.ownSems0 osem2 c ∗ levAts L lv)
      ⊢ |={Set.univ}=> iprop((dat2 Vd a0 c).arrays ((dat2 Vd a0 c).arrAt · 0) ∗ Pipeline.prefHeld pre2 c (fun _ => fullShare) a0.1
          ∗ (dat2 Vd a0 c).owesAt () 0 ∗ X2 c ∗ Z2 V c) := by
  have hsplit := Pipeline.arrays_of_unscopedBufs (p := ()) (fun _ : Unit => pcfg2 (F := F)) (fun _ => a0) (fun _ c => dat2 Vd a0 c)
    (Ix := Unit) (Name := ℕ) (U := Pipeline.UD sig nD τ) (Lvl := ℕ) winFacts2 arr_whole2 c ((dat2 Vd a0 c).share_full fun _ => rfl) (fun b => V b) hA
  rw [Pipeline.unscopedBufs_held, Pipeline.unscopedRest_split preFacts2,
    show (fun k => V (pre2.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin2 (c : Dev nD) :
    iprop(X2 c ∗ Pipeline.prefHeld pre2 c (fun _ => fullShare) a0.1 ∗ Pipeline.scopedRest spec2 c) ⊢ (dat2 Vd a0 c).Φ 0 := by
  show _ ⊢ Φ2 a0 c
  unfold Φ2; exact .rfl

theorem hout2 (c : Dev nD) :
    (dat2 Vd a0 c).Φ (Fin.last (cfg2 a0).N) ⊢ iprop(Y2 a0 c ∗ Pipeline.ownSems0 osem2 c ∗ Pipeline.scopedRest spec2 c) := by
  show Φ2 a0 c ⊢ _
  unfold Φ2
  iintro ⟨Hs, Hp, Hr⟩
  isplitl [Hp]; · iexact Hp
  isplitl [Hs]; · iexact Hs
  iexact Hr

theorem hexit2 (c : Dev nD) (V Vp : Valuation τ sig (Elt F))
    (hF : ∀ w, (dat2 Vd a0 c).arrAt w (cfg2 a0).N = Vp (Pipeline.arrRef spec2 w))
    (hrest : ∀ b : Ref sig .tc, b ∉ Finset.univ.image (Pipeline.arrRef spec2) → Vp b = V b) (hT : ∀ k, a0.1 k = V (pre2.ref k)) :
    iprop((dat2 Vd a0 c).arrays ((dat2 Vd a0 c).arrAt · (cfg2 a0).N) ∗ (dat2 Vd a0 c).owesAt () (Fin.last (cfg2 a0).N) ∗ Y2 a0 c ∗ Z2 V c)
      ⊢ |={Set.univ}=> iprop(StableHlo.held (c : Thread nD τ) (Pipeline.ucRefs τ sig) Vp ∗ R c) := by
  have hjoin := Pipeline.unscopedBufs_of_arrays (p := ()) (fun _ : Unit => pcfg2 (F := F)) (fun _ => a0) (Ix := Unit) (Name := ℕ) (U := Pipeline.UD sig nD τ) (Lvl := ℕ)
    winFacts2 arr_whole2 c (fun _ c => dat2 Vd a0 c) ((dat2 Vd a0 c).share_full fun _ => rfl)
    (fun b => V b) (fun b => Vp b) ((dat2 Vd a0 c).arrAt · (cfg2 a0).N) hF hrest
  rw [Pipeline.unscopedBufs_held, Pipeline.unscopedRest_split preFacts2,
    show (fun k => V (pre2.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

def pt2 (r : Fin 80000) : Fin (cfg2 a0).N := ⟨r.val / 800, by have := r.isLt; show r.val / 800 < grid2.N; rw [N_2]; omega⟩

def outArr2 (c : Dev nD) : Vec F S80000x256 .f32 := fun i =>
  outBlk2 (grid2.coords (pt2 a0 (i 0))) (a0.1 0) (iblk2 Vd a0 c 0 (pt2 a0 (i 0))) (iblk2 Vd a0 c 1 (pt2 a0 (i 0)))
    (ValueIdx.ix2 ⟨(i 0).val % 800, Nat.mod_lt _ (by decide)⟩ (i 1))

end Region0
end Cert.KernelIdeal.Hand
end
-- ==== Proof.KI.Out3.lean ====
import proofs.«411766_j31920196944464_2_alg».proof.Proof.Gen.KernelIdeal.Loops
import proofs.«411766_j31920196944464_2_alg».proof.Proof.Gather

set_option maxRecDepth 16384

noncomputable section

namespace Cert.KernelIdeal.Hand

open Cert.KernelIdeal Cert.KernelIdeal.Gen
open Idealize.ShloMosaic Idealize.ShloMosaic.TcCoe

variable {F : FTy → Type} [FloatOps F]

def gath3 (i : grid3.Coords) (tbl : Vec F S80000 .i32) (x : Vec F S20000x256 .f32) (g : ℕ) : Vec F S16x256 .f32 :=
  Gather.gath (i 0).val tbl x g

def pcs3 (i : grid3.Coords) (tbl : Vec F S80000 .i32) (x : Vec F S20000x256 .f32) (n : ℕ) : List (View.Piece (Elt F) S800x256 .f32) :=
  Gather.pcs k3_off48 k3_off48_inb (i 0).val tbl x n

theorem pcs3_succ (i : grid3.Coords) (tbl : Vec F S80000 .i32) (x : Vec F S20000x256 .f32) (g : Fin k3_t1_loop.trips) :
    pcs3 i tbl x (g.val + 1)
      = ⟨Rect.unit (s := S800x256) (k3_off48 g) S16x256.size (k3_off48_inb g), gath3 i tbl x g.val⟩ :: pcs3 i tbl x g.val :=
  Gather.pcs_succ k3_off48 k3_off48_inb (i 0).val tbl x g

def loopArr3 (i : grid3.Coords) (tbl : Vec F S80000 .i32) (x : Vec F S20000x256 .f32) : Vec F S800x256 .f32 :=
  Gather.loopArr k3_off48 k3_off48_inb (i 0).val tbl x

def outBlk3 (i : grid3.Coords) (tbl : Vec F S80000 .i32) (x : Vec F S20000x256 .f32) (v : Vec F S800x1 .f32) : Vec F S800x256 .f32 :=
  k3_pay1 (loopArr3 i tbl x) v

theorem trips3 : k3_t1_loop.trips = 50 := by decide

theorem cover_pcs3 (i : grid3.Coords) (tbl : Vec F S80000 .i32) (x : Vec F S20000x256 .f32) :
    ∀ y : S800x256.Idx, ∃ p ∈ pcs3 i tbl x k3_t1_loop.trips, y ∈ p.1.set :=
  Gather.cover_pcs k3_off48 k3_off48_inb k3_off48_eq trips3 (i 0).val tbl x

theorem outBlk3_apply (i : grid3.Coords) (tbl : Vec Ideal S80000 .i32) (x : Vec Ideal S20000x256 .f32) (v : Vec Ideal S800x1 .f32)
    (htbl : ∀ e : S80000.Idx, (tbl e).toNat < 20000) (r : Fin 800) (d : Fin 256) :
    outBlk3 i tbl x v (ValueIdx.ix2 r d)
      = x (ValueIdx.ix2 ⟨(tbl (ValueIdx.ix1 ⟨800 * (i 0).val + r.val, by
            have := (i 0).isLt; change (i 0).val < 100 at this; have := r.isLt; omega⟩)).toNat, htbl _⟩ d)
        * v (ValueIdx.ix2 r (0 : Fin 1)) := by
  unfold outBlk3 k3_pay1 loopArr3
  exact Gather.scaled_apply k3_off48 k3_off48_inb k3_off48_eq trips3 (i 0).isLt tbl x v htbl _ _ _ r d

end Cert.KernelIdeal.Hand

end
-- ==== Proof.KI.Body3.lean ====
import proofs.«411766_j31920196944464_2_alg».proof.Proof.KI.Out3
import proofs.«411766_j31920196944464_2_alg».proof.Proof.KI.Rows5
import proofs.«411766_j31920196944464_2_alg».proof.Proof.KI.Rows5b
import proofs.«411766_j31920196944464_2_alg».proof.Proof.KI.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems3 (c : Dev nD) : sProp 𝕄 :=
  iprop(semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0
    ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0
    ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0
    ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0)

abbrev tok3 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks3 (c : Dev nD) (arg2 : Memref sig .tc .vmem S20000x256 .f32) (fx : Buf (Elt F) (arg2.view.loc (c : Thread nD τ))) : sProp 𝕄 :=
  iprop(tok3 c arg2 fx 68 ∗ tok3 c arg2 fx 69 ∗ tok3 c arg2 fx 70 ∗ tok3 c arg2 fx 71 ∗ tok3 c arg2 fx 72 ∗ tok3 c arg2 fx 73 ∗ tok3 c arg2 fx 74 ∗ tok3 c arg2 fx 75
    ∗ tok3 c arg2 fx 76 ∗ tok3 c arg2 fx 77 ∗ tok3 c arg2 fx 78 ∗ tok3 c arg2 fx 79 ∗ tok3 c arg2 fx 80 ∗ tok3 c arg2 fx 81 ∗ tok3 c arg2 fx 82 ∗ tok3 c arg2 fx 83)

def k3_inv (c : Dev nD) (i : grid3.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks3 c arg2 fx
    ∗ (arg4.view.loc (c : Thread nD τ) ↦[arg4.view.set]{fullShare}
        arg4.view.writes (Elt F) f4 (pcs3 i (arg1.view.read (Elt F) ft) (arg2.view.read (Elt F) fx) n))
    ∗ (∃ f5, arg5.view.loc (c : Thread nD τ) ↦[arg5.view.set]{fullShare} f5)
    ∗ sems3 c ∗ (∃ W, owes (c : Thread nD τ) 0 W))

set_option maxHeartbeats 8000000 in

theorem k3_trip (c : Dev nD) (i : grid3.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k3_t1_loop.trips) (acc : Unit) :
    k3_inv c i arg1 arg2 arg4 arg5 q ft fx f4 g.val acc
      ⊢ wp frame (wpE (defs₀ (F := F)) Variants.none c none) Set.univ
          (k3_t1_body i arg1 harg1 arg2 harg2 arg3 harg3 arg4 harg4 arg5 harg5 cc3_scratch1 (Scalar.muli (BitVec.ofNat 32 (i 0).val) 800#32) g acc)
          (k3_inv c i arg1 arg2 arg4 arg5 q ft fx f4 (g.val + 1)) := by
  unfold k3_inv k3_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k3_chk1 (arg1.view.readAt (Elt F) (Rect.unit (s := S80000) (k3_off1 i g) S1.size (k3_off1_inb i g)).toLoadRect ft (Shape.Idx.first (numel1_S1.symm ▸ Nat.one_pos))) := row_inb2 _ (htbl _)
  have hc2 : k3_chk2 (arg1.view.readAt (Elt F) (Rect.unit (s := S80000) (k3_off3 i g) S1.size (k3_off3_inb i g)).toLoadRect ft (Shape.Idx.first (numel1_S1.symm ▸ Nat.one_pos))) := row_inb2 _ (htbl _)
  have hc3 : k3_chk3 (arg1.view.readAt (Elt F) (Rect.unit (s := S80000) (k3_off5 i g) S1.size (k3_off5_inb i g)).toLoadRect ft (Shape.Idx.first (numel1_S1.symm ▸ Nat.one_pos))) := row_inb2 _ (htbl _)
  have hc4 : k3_chk4 (arg1.view.readAt (Elt F) (Rect.unit (s := S80000) (k3_off7 i g) S1.size (k3_off7_inb i g)).toLoadRect ft (Shape.Idx.first (numel1_S1.symm ▸ Nat.one_pos))) := row_inb2 _ (htbl _)
  have hc5 : k3_chk5 (arg1.view.readAt (Elt F) (Rect.unit (s := S80000) (k3_off9 i g) S1.size (k3_off9_inb i g)).toLoadRect ft (Shape.Idx.first (numel1_S1.symm ▸ Nat.one_pos))) := row_inb2 _ (htbl _)
  have hc6 : k3_chk6 (arg1.view.readAt (Elt F) (Rect.unit (s := S80000) (k3_off11 i g) S1.size (k3_off11_inb i g)).toLoadRect ft (Shape.Idx.first (numel1_S1.symm ▸ Nat.one_pos))) := row_inb2 _ (htbl _)
  have hc7 : k3_chk7 (arg1.view.readAt (Elt F) (Rect.unit (s := S80000) (k3_off13 i g) S1.size (k3_off13_inb i g)).toLoadRect ft (Shape.Idx.first (numel1_S1.symm ▸ Nat.one_pos))) := row_inb2 _ (htbl _)
  have hc8 : k3_chk8 (arg1.view.readAt (Elt F) (Rect.unit (s := S80000) (k3_off15 i g) S1.size (k3_off15_inb i g)).toLoadRect ft (Shape.Idx.first (numel1_S1.symm ▸ Nat.one_pos))) := row_inb2 _ (htbl _)
  have hc9 : k3_chk9 (arg1.view.readAt (Elt F) (Rect.unit (s := S80000) (k3_off17 i g) S1.size (k3_off17_inb i g)).toLoadRect ft (Shape.Idx.first (numel1_S1.symm ▸ Nat.one_pos))) := row_inb2 _ (htbl _)
  have hc10 : k3_chk10 (arg1.view.readAt (Elt F) (Rect.unit (s := S80000) (k3_off19 i g) S1.size (k3_off19_inb i g)).toLoadRect ft (Shape.Idx.first (numel1_S1.symm ▸ Nat.one_pos))) := row_inb2 _ (htbl _)
  have hc11 : k3_chk11 (arg1.view.readAt (Elt F) (Rect.unit (s := S80000) (k3_off21 i g) S1.size (k3_off21_inb i g)).toLoadRect ft (Shape.Idx.first (numel1_S1.symm ▸ Nat.one_pos))) := row_inb2 _ (htbl _)
  have hc12 : k3_chk12 (arg1.view.readAt (Elt F) (Rect.unit (s := S80000) (k3_off23 i g) S1.size (k3_off23_inb i g)).toLoadRect ft (Shape.Idx.first (numel1_S1.symm ▸ Nat.one_pos))) := row_inb2 _ (htbl _)
  have hc13 : k3_chk13 (arg1.view.readAt (Elt F) (Rect.unit (s := S80000) (k3_off25 i g) S1.size (k3_off25_inb i g)).toLoadRect ft (Shape.Idx.first (numel1_S1.symm ▸ Nat.one_pos))) := row_inb2 _ (htbl _)
  have hc14 : k3_chk14 (arg1.view.readAt (Elt F) (Rect.unit (s := S80000) (k3_off27 i g) S1.size (k3_off27_inb i g)).toLoadRect ft (Shape.Idx.first (numel1_S1.symm ▸ Nat.one_pos))) := row_inb2 _ (htbl _)
  have hc15 : k3_chk15 (arg1.view.readAt (Elt F) (Rect.unit (s := S80000) (k3_off29 i g) S1.size (k3_off29_inb i g)).toLoadRect ft (Shape.Idx.first (numel1_S1.symm ▸ Nat.one_pos))) := row_inb2 _ (htbl _)
  have hc16 : k3_chk16 (arg1.view.readAt (Elt F) (Rect.unit (s := S80000) (k3_off31 i g) S1.size (k3_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k3_trip.sl.dma1 c i arg1 arg2 ft fx g hc1) (k3_trip.sl.dma2 c i arg1 arg2 ft fx g hc2) (k3_trip.sl.dma3 c i arg1 arg2 ft fx g hc3) (k3_trip.sl.dma4 c i arg1 arg2 ft fx g hc4) (k3_trip.sl.dma5 c i arg1 arg2 ft fx g hc5) (k3_trip.sl.dma6 c i arg1 arg2 ft fx g hc6) (k3_trip.sl.dma7 c i arg1 arg2 ft fx g hc7) (k3_trip.sl.dma8 c i arg1 arg2 ft fx g hc8) (k3_trip.sl.dma9 c i arg1 arg2 ft fx g hc9) (k3_trip.sl.dma10 c i arg1 arg2 ft fx g hc10) (k3_trip.sl.dma11 c i arg1 arg2 ft fx g hc11) (k3_trip.sl.dma12 c i arg1 arg2 ft fx g hc12) (k3_trip.sl.dma13 c i arg1 arg2 ft fx g hc13) (k3_trip.sl.dma14 c i arg1 arg2 ft fx g hc14) (k3_trip.sl.dma15 c i arg1 arg2 ft fx g hc15) (k3_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath3 i (arg1.view.read (Elt F) ft) (arg2.view.read (Elt F) fx) g.val :=
    scratch_reads arg5 c f5 g5 _ hg5 _ (fun k d => by
      have hi : (i 0).val < 100 := (i 0).isLt
      have hg : g.val < 50 := trips3 ▸ g.isLt
      fin_cases k
      · exact row_payload arg1 arg2 c ft fx _ _ _ (k3_off1_eq i g) (by omega) _ _ d
      · exact row_payload arg1 arg2 c ft fx _ _ _ (k3_off3_eq i g) (by omega) _ _ d
      · exact row_payload arg1 arg2 c ft fx _ _ _ (k3_off5_eq i g) (by omega) _ _ d
      · exact row_payload arg1 arg2 c ft fx _ _ _ (k3_off7_eq i g) (by omega) _ _ d
      · exact row_payload arg1 arg2 c ft fx _ _ _ (k3_off9_eq i g) (by omega) _ _ d
      · exact row_payload arg1 arg2 c ft fx _ _ _ (k3_off11_eq i g) (by omega) _ _ d
      · exact row_payload arg1 arg2 c ft fx _ _ _ (k3_off13_eq i g) (by omega) _ _ d
      · exact row_payload arg1 arg2 c ft fx _ _ _ (k3_off15_eq i g) (by omega) _ _ d
      · exact row_payload arg1 arg2 c ft fx _ _ _ (k3_off17_eq i g) (by omega) _ _ d
      · exact row_payload arg1 arg2 c ft fx _ _ _ (k3_off19_eq i g) (by omega) _ _ d
      · exact row_payload arg1 arg2 c ft fx _ _ _ (k3_off21_eq i g) (by omega) _ _ d
      · exact row_payload arg1 arg2 c ft fx _ _ _ (k3_off23_eq i g) (by omega) _ _ d
      · exact row_payload arg1 arg2 c ft fx _ _ _ (k3_off25_eq i g) (by omega) _ _ d
      · exact row_payload arg1 arg2 c ft fx _ _ _ (k3_off27_eq i g) (by omega) _ _ d
      · exact row_payload arg1 arg2 c ft fx _ _ _ (k3_off29_eq i g) (by omega) _ _ d
      · exact row_payload arg1 arg2 c ft fx _ _ _ (k3_off31_eq i g) (by omega) _ _ d
      ) _
  sl_exec
  sl_step
  rw [pcs3_succ, View.writes_cons]
  unfold k3_trip.sl.H4_w1
  sl_close

set_option maxHeartbeats 4000000 in

theorem sound_kernel3 (c : Dev nD) (i : grid3.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems3 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk3 i tbl x v) ∗ (∃ d, owns (c : Thread nD τ) arg5 fullShare d) ∗ sems3 c ∗ (∃ W', owes (c : Thread nD τ) 0 W')) -∗ K ⟨⟩))
      ⊢ wp frame (wpE (defs₀ (F := F)) Variants.none c none) Set.univ (cc3__gather_kernel i arg1 harg1 arg2 harg2 arg3 harg3 arg4 harg4 arg5 harg5 cc3_scratch1) K := by
  simp only [cc3__gather_kernel_eq_skeleton]; unfold cc3__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks3 c arg2 fx) := Cert.Toks.toks16_split _ _ _ _
  ihave H2' := htok.1 $$ H2
  icases H2' with ⟨HD, HT⟩
  sl_exec
  sl_for (k3_inv c i arg1 arg2 arg4 arg5 q ft fx f4) $$ [H1 HT H4 H5 HS HW]
  case region =>
    intro g acc
    exact k3_trip c i arg1 harg1 arg2 harg2 arg3 harg3 arg4 harg4 arg5 harg5 q ft fx htbl f4 g acc
  · unfold k3_inv
    isplitl [H1]; · iexact H1
    isplitl [HT]; · iexact HT
    isplitl [H4]; · iexact H4
    isplitl [H5]; · iexists _; iexact H5
    isplitl [HS]; · iexact HS
    iexists _; iexact HW
  iintro %acc HI; unfold k3_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs3 i tbl x (Scf.trips k3_t1_loop.lb k3_t1_loop.ub k3_t1_loop.st), y ∈ p.1.set :=
      cover_pcs3 i tbl x
    have h2 : arg4.view.readCov (pcs3 i tbl x (Scf.trips k3_t1_loop.lb k3_t1_loop.ub k3_t1_loop.st))
        (Rect.unit (s := S800x256) ![0, 0] S800x256.size inb_S800x256_S800x256_0_0).toLoadRect = loopArr3 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.KernelIdeal.Hand

end
-- ==== Proof.KI.Region3.lean ====
import proofs.«411766_j31920196944464_2_alg».proof.Proof.KI.Body3
import proofs.«411766_j31920196944464_2_alg».proof.Proof.KI.Common
import proofs.«411766_j31920196944464_2_alg».proof.Proof.Gen.KernelIdeal.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg3 (F := F)).Adm)

def iblk3 (c : Dev nD) (w : Fin (cfg3 a0).W) (t : Fin (cfg3 a0).N) : (((cfg3 a0).win w).xblock ((cfg3 a0).grid.coords t)).Idx → Elt F ((cfg3 a0).win w).elt :=
  (((cfg3 a0).win w).blk t).view.read (Elt F) (Vd c (Pipeline.arrRef spec3 w))

abbrev osem3 : Fin 16 → SemLoc sig := fun k =>
  (![SemLoc.dma 68, SemLoc.dma 69, SemLoc.dma 70, SemLoc.dma 71, SemLoc.dma 72, SemLoc.dma 73, SemLoc.dma 74, SemLoc.dma 75,
     SemLoc.dma 76, SemLoc.dma 77, SemLoc.dma 78, SemLoc.dma 79, SemLoc.dma 80, SemLoc.dma 81, SemLoc.dma 82, SemLoc.dma 83] : Fin 16 → SemLoc sig) k

theorem ownSemFacts3 : Pipeline.OwnSemFacts spec3 osem3 := by decide

theorem ownSems03_eq (c : Dev nD) :
    (Pipeline.ownSems0 (Ix := Unit) (Name := ℕ) (U := Pipeline.UD sig nD τ) (Lvl := ℕ) (Val := Elt F) (τ := τ) osem3 c : sProp 𝕄) = sems3 c := by
  rw [Pipeline.ownSems0_eq_of_list c osem3 [0, 1, 2, 3, 4, 5, 6, 7, 8, 9, 10, 11, 12, 13, 14, 15] (by decide) (by decide)]; rfl

theorem prefHeld3_eq (c : Dev nD) (pf : pre3.Contents (Elt F)) :
    (Pipeline.prefHeld (Ix := Unit) (Name := ℕ) (U := Pipeline.UD sig nD τ) (Lvl := ℕ) pre3 c (fun _ => fullShare) pf : sProp 𝕄)
      = owns (c : Thread nD τ) (Memref.whole main_v12) fullShare (pf 0) := by
  refine Eq.trans ?_ (owns_whole (c : Thread nD τ) main_v12 fullShare (pf 0)).symm
  unfold Pipeline.prefHeld
  exact bigSep_univ_eq_bigSepL [(0 : Fin 1)] (by decide) (by decide) _

theorem scratch3_eq (c : Dev nD) :
    (iprop(∃ f : Buf (Elt F) ((c : Thread nD τ).loc cc3_scratch0), ((c : Thread nD τ).loc cc3_scratch0) ↦{fullShare} f) : sProp 𝕄)
      = iprop(∃ d, owns (c : Thread nD τ) (Memref.whole cc3_scratch0) fullShare d) := by
  simp only [owns_whole]

def HCol3 : Prop := ∀ e, ((a0.1 0 : Vec F S80000 .i32) e).toNat < 20000

def Φ3 (c : Dev nD) : sProp 𝕄 :=
  iprop(Pipeline.ownSems0 osem3 c ∗ Pipeline.prefHeld pre3 c (fun _ => fullShare) a0.1 ∗ Pipeline.scopedRest spec3 c)

def dat3 (c : Dev nD) : Dat τ (Elt F) Unit ℕ (Pipeline.UD sig nD τ) ℕ (cfg3 a0) c where
  A w := Vd c (Pipeline.arrRef spec3 w)
  after w t := match w with
    | ⟨0, _⟩ => iblk3 Vd a0 c 0 t
    | ⟨1, _⟩ => iblk3 Vd a0 c 1 t
    | ⟨2, _⟩ => outBlk3 (grid3.coords t) (a0.1 0) (iblk3 Vd a0 c 0 t) (iblk3 Vd a0 c 1 t)
  Φ _ := Φ3 a0 c
  q _ := fullShare
  owed _ := 0

theorem A_eq3 (c : Dev nD) (w : Fin 3) : (dat3 Vd a0 c).A w = Vd c (Pipeline.arrRef spec3 w) := by
  dsimp only [dat3]

theorem after3_x (c : Dev nD) (t : Fin (cfg3 a0).N) : (dat3 Vd a0 c).after (0 : Fin 3) t = iblk3 Vd a0 c 0 t := by dsimp only [dat3]
theorem after3_val (c : Dev nD) (t : Fin (cfg3 a0).N) : (dat3 Vd a0 c).after (1 : Fin 3) t = iblk3 Vd a0 c 1 t := by dsimp only [dat3]
theorem after3_out (c : Dev nD) (t : Fin (cfg3 a0).N) :
    (dat3 Vd a0 c).after (2 : Fin 3) t = outBlk3 (grid3.coords t) (a0.1 0) (iblk3 Vd a0 c 0 t) (iblk3 Vd a0 c 1 t) := by dsimp only [dat3]

theorem before3_x (c : Dev nD) (t : Fin (cfg3 a0).N) (d) : (dat3 Vd a0 c).before 0 t d = iblk3 Vd a0 c 0 t := by
  refine ((dat3 Vd a0 c).before_in_eq_fetched 0 rfl (fun _ => rfl) (fun _ _ _ => rfl) (fun s => ?_) t d).trans ?_
  · rw [after3_x]; rfl
  · rfl
theorem before3_val (c : Dev nD) (t : Fin (cfg3 a0).N) (d) : (dat3 Vd a0 c).before 1 t d = iblk3 Vd a0 c 1 t := by
  refine ((dat3 Vd a0 c).before_in_eq_fetched 1 rfl (fun _ => rfl) (fun _ _ _ => rfl) (fun s => ?_) t d).trans ?_
  · rw [after3_val]; rfl
  · rfl

abbrev st3_x (t : Fin (cfg3 a0).N) := ((cfg3 a0).win 0).stage ((cfg3 a0).slots t 0)
abbrev st3_val (t : Fin (cfg3 a0).N) := ((cfg3 a0).win 1).stage ((cfg3 a0).slots t 1)
abbrev st3_out (t : Fin (cfg3 a0).N) := ((cfg3 a0).win 2).stage ((cfg3 a0).slots t 2)

abbrev bodyAt3 (t : Fin (cfg3 a0).N) : Prog (TpuEff nD τ sig (Elt F) Λ₀ .tc) PUnit :=
  cc3__gather_kernel (grid3.coords t) (Memref.whole main_v12) (Memref.isWhole_whole _)
    (spec3_0.stage ((cfg3 a0).slots t 0)) (hstage3_0 (((cfg3 a0).slots t 0).cast nbuf3_0))
    (spec3_1.stage ((cfg3 a0).slots t 1)) (hstage3_1 (((cfg3 a0).slots t 1).cast nbuf3_1))
    (spec3_2.stage ((cfg3 a0).slots t 2)) (hstage3_2 (((cfg3 a0).slots t 2).cast nbuf3_2))
    (Memref.whole cc3_scratch0) (Memref.isWhole_whole _) cc3_scratch1

def bodyPre3 (c : Dev nD) (t : Fin (cfg3 a0).N) : sProp 𝕄 :=
  iprop((dat3 Vd a0 c).Φ t.castSucc ∗ (dat3 Vd a0 c).owesAt () t.castSucc
    ∗ (∃ d, owns (c : Thread nD τ) (st3_x a0 t) fullShare ((dat3 Vd a0 c).before 0 t d))
    ∗ (∃ d, owns (c : Thread nD τ) (st3_val a0 t) fullShare ((dat3 Vd a0 c).before 1 t d))
    ∗ (∃ d, owns (c : Thread nD τ) (st3_out a0 t) fullShare ((dat3 Vd a0 c).before 2 t d)))

def bodyPost3 (c : Dev nD) (t : Fin (cfg3 a0).N) : sProp 𝕄 :=
  iprop((dat3 Vd a0 c).Φ t.succ ∗ (dat3 Vd a0 c).owesAt () t.succ
    ∗ owns (c : Thread nD τ) (st3_x a0 t) fullShare ((dat3 Vd a0 c).after 0 t)
    ∗ owns (c : Thread nD τ) (st3_val a0 t) fullShare ((dat3 Vd a0 c).after 1 t)
    ∗ owns (c : Thread nD τ) (st3_out a0 t) fullShare ((dat3 Vd a0 c).after 2 t))

theorem sound_body3 (hcol : HCol3 a0) (c : Dev nD) (t : Fin (cfg3 a0).N) :
    bodyPre3 Vd a0 c t ⊢ wp frame (wpE (defs₀ (F := F)) Variants.none c none) Set.univ (bodyAt3 a0 t) (fun _ => bodyPost3 Vd a0 c t) := by
  unfold bodyPre3 bodyPost3 bodyAt3
  simp only [before3_x, before3_val]
  rw [show (dat3 Vd a0 c).Φ t.succ = Φ3 a0 c from rfl, show (dat3 Vd a0 c).Φ t.castSucc = Φ3 a0 c from rfl,
    after3_x, after3_val, after3_out]
  unfold Φ3 Dat.owesAt Pipeline.owesWithin
  rw [scopedRest3_split, scratch3_eq, ownSems03_eq, prefHeld3_eq,
    show (dat3 Vd a0 c).owed t.castSucc = 0 from rfl, show (dat3 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel3 c (grid3.coords t) _ _ _ _ _ _ _ _ _ _ fullShare (a0.1 0) (iblk3 Vd a0 c 0 t) (iblk3 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation3 (hcol : HCol3 a0) (c : Dev nD) :
    BodyObligation (dat3 (F := F) Vd a0 c) (defs₀ (F := F)) Variants.none () Set.univ := fun t => by
  rw [bigSep_W3, bigSep_W3]
  exact sound_body3 Vd a0 hcol c t

abbrev X3 (c : Dev nD) : sProp 𝕄 := Pipeline.ownSems0 osem3 c
abbrev Y3 (c : Dev nD) : sProp 𝕄 := Pipeline.prefHeld pre3 c (fun _ => fullShare) a0.1
abbrev Z3 (V : Valuation τ sig (Elt F)) (c : Dev nD) : sProp 𝕄 :=
  iprop(Pipeline.unscopedRestP (Ix := Unit) (Name := ℕ) (U := Pipeline.UD sig nD τ) (Lvl := ℕ) pre3 spec3 c (fun b => V b) ∗ ∃ r, prngReg c r)

theorem hentry3 (c : Dev nD) (V : Valuation τ sig (Elt F)) (hA : ∀ w, Vd c (Pipeline.arrRef spec3 w) = V (Pipeline.arrRef spec3 w))
    (hT : ∀ k, a0.1 k = V (pre3.ref k)) :
    iprop(iprop(StableHlo.held (c : Thread nD τ) (Pipeline.ucRefs τ sig) V ∗ R c) ∗ Pipeline.ownSems0 osem3 c ∗ levAts L lv)
      ⊢ |={Set.univ}=> iprop((dat3 Vd a0 c).arrays ((dat3 Vd a0 c).arrAt · 0) ∗ Pipeline.prefHeld pre3 c (fun _ => fullShare) a0.1
          ∗ (dat3 Vd a0 c).owesAt () 0 ∗ X3 c ∗ Z3 V c) := by
  have hsplit := Pipeline.arrays_of_unscopedBufs (p := ()) (fun _ : Unit => pcfg3 (F := F)) (fun _ => a0) (fun _ c => dat3 Vd a0 c)
    (Ix := Unit) (Name := ℕ) (U := Pipeline.UD sig nD τ) (Lvl := ℕ) winFacts3 arr_whole3 c ((dat3 Vd a0 c).share_full fun _ => rfl) (fun b => V b) hA
  rw [Pipeline.unscopedBufs_held, Pipeline.unscopedRest_split preFacts3,
    show (fun k => V (pre3.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin3 (c : Dev nD) :
    iprop(X3 c ∗ Pipeline.prefHeld pre3 c (fun _ => fullShare) a0.1 ∗ Pipeline.scopedRest spec3 c) ⊢ (dat3 Vd a0 c).Φ 0 := by
  show _ ⊢ Φ3 a0 c
  unfold Φ3; exact .rfl

theorem hout3 (c : Dev nD) :
    (dat3 Vd a0 c).Φ (Fin.last (cfg3 a0).N) ⊢ iprop(Y3 a0 c ∗ Pipeline.ownSems0 osem3 c ∗ Pipeline.scopedRest spec3 c) := by
  show Φ3 a0 c ⊢ _
  unfold Φ3
  iintro ⟨Hs, Hp, Hr⟩
  isplitl [Hp]; · iexact Hp
  isplitl [Hs]; · iexact Hs
  iexact Hr

theorem hexit3 (c : Dev nD) (V Vp : Valuation τ sig (Elt F))
    (hF : ∀ w, (dat3 Vd a0 c).arrAt w (cfg3 a0).N = Vp (Pipeline.arrRef spec3 w))
    (hrest : ∀ b : Ref sig .tc, b ∉ Finset.univ.image (Pipeline.arrRef spec3) → Vp b = V b) (hT : ∀ k, a0.1 k = V (pre3.ref k)) :
    iprop((dat3 Vd a0 c).arrays ((dat3 Vd a0 c).arrAt · (cfg3 a0).N) ∗ (dat3 Vd a0 c).owesAt () (Fin.last (cfg3 a0).N) ∗ Y3 a0 c ∗ Z3 V c)
      ⊢ |={Set.univ}=> iprop(StableHlo.held (c : Thread nD τ) (Pipeline.ucRefs τ sig) Vp ∗ R c) := by
  have hjoin := Pipeline.unscopedBufs_of_arrays (p := ()) (fun _ : Unit => pcfg3 (F := F)) (fun _ => a0) (Ix := Unit) (Name := ℕ) (U := Pipeline.UD sig nD τ) (Lvl := ℕ)
    winFacts3 arr_whole3 c (fun _ c => dat3 Vd a0 c) ((dat3 Vd a0 c).share_full fun _ => rfl)
    (fun b => V b) (fun b => Vp b) ((dat3 Vd a0 c).arrAt · (cfg3 a0).N) hF hrest
  rw [Pipeline.unscopedBufs_held, Pipeline.unscopedRest_split preFacts3,
    show (fun k => V (pre3.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

def pt3 (r : Fin 80000) : Fin (cfg3 a0).N := ⟨r.val / 800, by have := r.isLt; show r.val / 800 < grid3.N; rw [N_3]; omega⟩

def outArr3 (c : Dev nD) : Vec F S80000x256 .f32 := fun i =>
  outBlk3 (grid3.coords (pt3 a0 (i 0))) (a0.1 0) (iblk3 Vd a0 c 0 (pt3 a0 (i 0))) (iblk3 Vd a0 c 1 (pt3 a0 (i 0)))
    (ValueIdx.ix2 ⟨(i 0).val % 800, Nat.mod_lt _ (by decide)⟩ (i 1))

end Region0
end Cert.KernelIdeal.Hand
end
-- ==== Proof.KI.Out4.lean ====
import proofs.«411766_j31920196944464_2_alg».proof.Proof.Gen.KernelIdeal.Loops
import proofs.«411766_j31920196944464_2_alg».proof.Proof.Gather

set_option maxRecDepth 16384

noncomputable section

namespace Cert.KernelIdeal.Hand

open Cert.KernelIdeal Cert.KernelIdeal.Gen
open Idealize.ShloMosaic Idealize.ShloMosaic.TcCoe

variable {F : FTy → Type} [FloatOps F]

def gath4 (i : grid4.Coords) (tbl : Vec F S80000 .i32) (x : Vec F S20000x256 .f32) (g : ℕ) : Vec F S16x256 .f32 :=
  Gather.gath (i 0).val tbl x g

def pcs4 (i : grid4.Coords) (tbl : Vec F S80000 .i32) (x : Vec F S20000x256 .f32) (n : ℕ) : List (View.Piece (Elt F) S800x256 .f32) :=
  Gather.pcs k4_off48 k4_off48_inb (i 0).val tbl x n

theorem pcs4_succ (i : grid4.Coords) (tbl : Vec F S80000 .i32) (x : Vec F S20000x256 .f32) (g : Fin k4_t1_loop.trips) :
    pcs4 i tbl x (g.val + 1)
      = ⟨Rect.unit (s := S800x256) (k4_off48 g) S16x256.size (k4_off48_inb g), gath4 i tbl x g.val⟩ :: pcs4 i tbl x g.val :=
  Gather.pcs_succ k4_off48 k4_off48_inb (i 0).val tbl x g

def loopArr4 (i : grid4.Coords) (tbl : Vec F S80000 .i32) (x : Vec F S20000x256 .f32) : Vec F S800x256 .f32 :=
  Gather.loopArr k4_off48 k4_off48_inb (i 0).val tbl x

def outBlk4 (i : grid4.Coords) (tbl : Vec F S80000 .i32) (x : Vec F S20000x256 .f32) (v : Vec F S800x1 .f32) : Vec F S800x256 .f32 :=
  k4_pay1 (loopArr4 i tbl x) v

theorem trips4 : k4_t1_loop.trips = 50 := by decide

theorem cover_pcs4 (i : grid4.Coords) (tbl : Vec F S80000 .i32) (x : Vec F S20000x256 .f32) :
    ∀ y : S800x256.Idx, ∃ p ∈ pcs4 i tbl x k4_t1_loop.trips, y ∈ p.1.set :=
  Gather.cover_pcs k4_off48 k4_off48_inb k4_off48_eq trips4 (i 0).val tbl x

theorem outBlk4_apply (i : grid4.Coords) (tbl : Vec Ideal S80000 .i32) (x : Vec Ideal S20000x256 .f32) (v : Vec Ideal S800x1 .f32)
    (htbl : ∀ e : S80000.Idx, (tbl e).toNat < 20000) (r : Fin 800) (d : Fin 256) :
    outBlk4 i tbl x v (ValueIdx.ix2 r d)
      = x (ValueIdx.ix2 ⟨(tbl (ValueIdx.ix1 ⟨800 * (i 0).val + r.val, by
            have := (i 0).isLt; change (i 0).val < 100 at this; have := r.isLt; omega⟩)).toNat, htbl _⟩ d)
        * v (ValueIdx.ix2 r (0 : Fin 1)) := by
  unfold outBlk4 k4_pay1 loopArr4
  exact Gather.scaled_apply k4_off48 k4_off48_inb k4_off48_eq trips4 (i 0).isLt tbl x v htbl _ _ _ r d

end Cert.KernelIdeal.Hand

end
-- ==== Proof.KI.Body4.lean ====
import proofs.«411766_j31920196944464_2_alg».proof.Proof.KI.Out4
import proofs.«411766_j31920196944464_2_alg».proof.Proof.KI.Rows5
import proofs.«411766_j31920196944464_2_alg».proof.Proof.KI.Rows5b
import proofs.«411766_j31920196944464_2_alg».proof.Proof.KI.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems4 (c : Dev nD) : sProp 𝕄 :=
  iprop(semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0
    ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0
    ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0
    ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0)

abbrev tok4 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks4 (c : Dev nD) (arg2 : Memref sig .tc .vmem S20000x256 .f32) (fx : Buf (Elt F) (arg2.view.loc (c : Thread nD τ))) : sProp 𝕄 :=
  iprop(tok4 c arg2 fx 89 ∗ tok4 c arg2 fx 90 ∗ tok4 c arg2 fx 91 ∗ tok4 c arg2 fx 92 ∗ tok4 c arg2 fx 93 ∗ tok4 c arg2 fx 94 ∗ tok4 c arg2 fx 95 ∗ tok4 c arg2 fx 96
    ∗ tok4 c arg2 fx 97 ∗ tok4 c arg2 fx 98 ∗ tok4 c arg2 fx 99 ∗ tok4 c arg2 fx 100 ∗ tok4 c arg2 fx 101 ∗ tok4 c arg2 fx 102 ∗ tok4 c arg2 fx 103 ∗ tok4 c arg2 fx 104)

def k4_inv (c : Dev nD) (i : grid4.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks4 c arg2 fx
    ∗ (arg4.view.loc (c : Thread nD τ) ↦[arg4.view.set]{fullShare}
        arg4.view.writes (Elt F) f4 (pcs4 i (arg1.view.read (Elt F) ft) (arg2.view.read (Elt F) fx) n))
    ∗ (∃ f5, arg5.view.loc (c : Thread nD τ) ↦[arg5.view.set]{fullShare} f5)
    ∗ sems4 c ∗ (∃ W, owes (c : Thread nD τ) 0 W))

set_option maxHeartbeats 8000000 in

theorem k4_trip (c : Dev nD) (i : grid4.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k4_t1_loop.trips) (acc : Unit) :
    k4_inv c i arg1 arg2 arg4 arg5 q ft fx f4 g.val acc
      ⊢ wp frame (wpE (defs₀ (F := F)) Variants.none c none) Set.univ
          (k4_t1_body i arg1 harg1 arg2 harg2 arg3 harg3 arg4 harg4 arg5 harg5 cc4_scratch1 (Scalar.muli (BitVec.ofNat 32 (i 0).val) 800#32) g acc)
          (k4_inv c i arg1 arg2 arg4 arg5 q ft fx f4 (g.val + 1)) := by
  unfold k4_inv k4_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k4_chk1 (arg1.view.readAt (Elt F) (Rect.unit (s := S80000) (k4_off1 i g) S1.size (k4_off1_inb i g)).toLoadRect ft (Shape.Idx.first (numel1_S1.symm ▸ Nat.one_pos))) := row_inb2 _ (htbl _)
  have hc2 : k4_chk2 (arg1.view.readAt (Elt F) (Rect.unit (s := S80000) (k4_off3 i g) S1.size (k4_off3_inb i g)).toLoadRect ft (Shape.Idx.first (numel1_S1.symm ▸ Nat.one_pos))) := row_inb2 _ (htbl _)
  have hc3 : k4_chk3 (arg1.view.readAt (Elt F) (Rect.unit (s := S80000) (k4_off5 i g) S1.size (k4_off5_inb i g)).toLoadRect ft (Shape.Idx.first (numel1_S1.symm ▸ Nat.one_pos))) := row_inb2 _ (htbl _)
  have hc4 : k4_chk4 (arg1.view.readAt (Elt F) (Rect.unit (s := S80000) (k4_off7 i g) S1.size (k4_off7_inb i g)).toLoadRect ft (Shape.Idx.first (numel1_S1.symm ▸ Nat.one_pos))) := row_inb2 _ (htbl _)
  have hc5 : k4_chk5 (arg1.view.readAt (Elt F) (Rect.unit (s := S80000) (k4_off9 i g) S1.size (k4_off9_inb i g)).toLoadRect ft (Shape.Idx.first (numel1_S1.symm ▸ Nat.one_pos))) := row_inb2 _ (htbl _)
  have hc6 : k4_chk6 (arg1.view.readAt (Elt F) (Rect.unit (s := S80000) (k4_off11 i g) S1.size (k4_off11_inb i g)).toLoadRect ft (Shape.Idx.first (numel1_S1.symm ▸ Nat.one_pos))) := row_inb2 _ (htbl _)
  have hc7 : k4_chk7 (arg1.view.readAt (Elt F) (Rect.unit (s := S80000) (k4_off13 i g) S1.size (k4_off13_inb i g)).toLoadRect ft (Shape.Idx.first (numel1_S1.symm ▸ Nat.one_pos))) := row_inb2 _ (htbl _)
  have hc8 : k4_chk8 (arg1.view.readAt (Elt F) (Rect.unit (s := S80000) (k4_off15 i g) S1.size (k4_off15_inb i g)).toLoadRect ft (Shape.Idx.first (numel1_S1.symm ▸ Nat.one_pos))) := row_inb2 _ (htbl _)
  have hc9 : k4_chk9 (arg1.view.readAt (Elt F) (Rect.unit (s := S80000) (k4_off17 i g) S1.size (k4_off17_inb i g)).toLoadRect ft (Shape.Idx.first (numel1_S1.symm ▸ Nat.one_pos))) := row_inb2 _ (htbl _)
  have hc10 : k4_chk10 (arg1.view.readAt (Elt F) (Rect.unit (s := S80000) (k4_off19 i g) S1.size (k4_off19_inb i g)).toLoadRect ft (Shape.Idx.first (numel1_S1.symm ▸ Nat.one_pos))) := row_inb2 _ (htbl _)
  have hc11 : k4_chk11 (arg1.view.readAt (Elt F) (Rect.unit (s := S80000) (k4_off21 i g) S1.size (k4_off21_inb i g)).toLoadRect ft (Shape.Idx.first (numel1_S1.symm ▸ Nat.one_pos))) := row_inb2 _ (htbl _)
  have hc12 : k4_chk12 (arg1.view.readAt (Elt F) (Rect.unit (s := S80000) (k4_off23 i g) S1.size (k4_off23_inb i g)).toLoadRect ft (Shape.Idx.first (numel1_S1.symm ▸ Nat.one_pos))) := row_inb2 _ (htbl _)
  have hc13 : k4_chk13 (arg1.view.readAt (Elt F) (Rect.unit (s := S80000) (k4_off25 i g) S1.size (k4_off25_inb i g)).toLoadRect ft (Shape.Idx.first (numel1_S1.symm ▸ Nat.one_pos))) := row_inb2 _ (htbl _)
  have hc14 : k4_chk14 (arg1.view.readAt (Elt F) (Rect.unit (s := S80000) (k4_off27 i g) S1.size (k4_off27_inb i g)).toLoadRect ft (Shape.Idx.first (numel1_S1.symm ▸ Nat.one_pos))) := row_inb2 _ (htbl _)
  have hc15 : k4_chk15 (arg1.view.readAt (Elt F) (Rect.unit (s := S80000) (k4_off29 i g) S1.size (k4_off29_inb i g)).toLoadRect ft (Shape.Idx.first (numel1_S1.symm ▸ Nat.one_pos))) := row_inb2 _ (htbl _)
  have hc16 : k4_chk16 (arg1.view.readAt (Elt F) (Rect.unit (s := S80000) (k4_off31 i g) S1.size (k4_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k4_trip.sl.dma1 c i arg1 arg2 ft fx g hc1) (k4_trip.sl.dma2 c i arg1 arg2 ft fx g hc2) (k4_trip.sl.dma3 c i arg1 arg2 ft fx g hc3) (k4_trip.sl.dma4 c i arg1 arg2 ft fx g hc4) (k4_trip.sl.dma5 c i arg1 arg2 ft fx g hc5) (k4_trip.sl.dma6 c i arg1 arg2 ft fx g hc6) (k4_trip.sl.dma7 c i arg1 arg2 ft fx g hc7) (k4_trip.sl.dma8 c i arg1 arg2 ft fx g hc8) (k4_trip.sl.dma9 c i arg1 arg2 ft fx g hc9) (k4_trip.sl.dma10 c i arg1 arg2 ft fx g hc10) (k4_trip.sl.dma11 c i arg1 arg2 ft fx g hc11) (k4_trip.sl.dma12 c i arg1 arg2 ft fx g hc12) (k4_trip.sl.dma13 c i arg1 arg2 ft fx g hc13) (k4_trip.sl.dma14 c i arg1 arg2 ft fx g hc14) (k4_trip.sl.dma15 c i arg1 arg2 ft fx g hc15) (k4_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath4 i (arg1.view.read (Elt F) ft) (arg2.view.read (Elt F) fx) g.val :=
    scratch_reads arg5 c f5 g5 _ hg5 _ (fun k d => by
      have hi : (i 0).val < 100 := (i 0).isLt
      have hg : g.val < 50 := trips4 ▸ g.isLt
      fin_cases k
      · exact row_payload arg1 arg2 c ft fx _ _ _ (k4_off1_eq i g) (by omega) _ _ d
      · exact row_payload arg1 arg2 c ft fx _ _ _ (k4_off3_eq i g) (by omega) _ _ d
      · exact row_payload arg1 arg2 c ft fx _ _ _ (k4_off5_eq i g) (by omega) _ _ d
      · exact row_payload arg1 arg2 c ft fx _ _ _ (k4_off7_eq i g) (by omega) _ _ d
      · exact row_payload arg1 arg2 c ft fx _ _ _ (k4_off9_eq i g) (by omega) _ _ d
      · exact row_payload arg1 arg2 c ft fx _ _ _ (k4_off11_eq i g) (by omega) _ _ d
      · exact row_payload arg1 arg2 c ft fx _ _ _ (k4_off13_eq i g) (by omega) _ _ d
      · exact row_payload arg1 arg2 c ft fx _ _ _ (k4_off15_eq i g) (by omega) _ _ d
      · exact row_payload arg1 arg2 c ft fx _ _ _ (k4_off17_eq i g) (by omega) _ _ d
      · exact row_payload arg1 arg2 c ft fx _ _ _ (k4_off19_eq i g) (by omega) _ _ d
      · exact row_payload arg1 arg2 c ft fx _ _ _ (k4_off21_eq i g) (by omega) _ _ d
      · exact row_payload arg1 arg2 c ft fx _ _ _ (k4_off23_eq i g) (by omega) _ _ d
      · exact row_payload arg1 arg2 c ft fx _ _ _ (k4_off25_eq i g) (by omega) _ _ d
      · exact row_payload arg1 arg2 c ft fx _ _ _ (k4_off27_eq i g) (by omega) _ _ d
      · exact row_payload arg1 arg2 c ft fx _ _ _ (k4_off29_eq i g) (by omega) _ _ d
      · exact row_payload arg1 arg2 c ft fx _ _ _ (k4_off31_eq i g) (by omega) _ _ d
      ) _
  sl_exec
  sl_step
  rw [pcs4_succ, View.writes_cons]
  unfold k4_trip.sl.H4_w1
  sl_close

set_option maxHeartbeats 4000000 in

theorem sound_kernel4 (c : Dev nD) (i : grid4.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems4 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk4 i tbl x v) ∗ (∃ d, owns (c : Thread nD τ) arg5 fullShare d) ∗ sems4 c ∗ (∃ W', owes (c : Thread nD τ) 0 W')) -∗ K ⟨⟩))
      ⊢ wp frame (wpE (defs₀ (F := F)) Variants.none c none) Set.univ (cc4__gather_kernel i arg1 harg1 arg2 harg2 arg3 harg3 arg4 harg4 arg5 harg5 cc4_scratch1) K := by
  simp only [cc4__gather_kernel_eq_skeleton]; unfold cc4__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks4 c arg2 fx) := Cert.Toks.toks16_split _ _ _ _
  ihave H2' := htok.1 $$ H2
  icases H2' with ⟨HD, HT⟩
  sl_exec
  sl_for (k4_inv c i arg1 arg2 arg4 arg5 q ft fx f4) $$ [H1 HT H4 H5 HS HW]
  case region =>
    intro g acc
    exact k4_trip c i arg1 harg1 arg2 harg2 arg3 harg3 arg4 harg4 arg5 harg5 q ft fx htbl f4 g acc
  · unfold k4_inv
    isplitl [H1]; · iexact H1
    isplitl [HT]; · iexact HT
    isplitl [H4]; · iexact H4
    isplitl [H5]; · iexists _; iexact H5
    isplitl [HS]; · iexact HS
    iexists _; iexact HW
  iintro %acc HI; unfold k4_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs4 i tbl x (Scf.trips k4_t1_loop.lb k4_t1_loop.ub k4_t1_loop.st), y ∈ p.1.set :=
      cover_pcs4 i tbl x
    have h2 : arg4.view.readCov (pcs4 i tbl x (Scf.trips k4_t1_loop.lb k4_t1_loop.ub k4_t1_loop.st))
        (Rect.unit (s := S800x256) ![0, 0] S800x256.size inb_S800x256_S800x256_0_0).toLoadRect = loopArr4 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.KernelIdeal.Hand

end
-- ==== Proof.KI.Region4.lean ====
import proofs.«411766_j31920196944464_2_alg».proof.Proof.KI.Body4
import proofs.«411766_j31920196944464_2_alg».proof.Proof.KI.Common
import proofs.«411766_j31920196944464_2_alg».proof.Proof.Gen.KernelIdeal.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg4 (F := F)).Adm)

def iblk4 (c : Dev nD) (w : Fin (cfg4 a0).W) (t : Fin (cfg4 a0).N) : (((cfg4 a0).win w).xblock ((cfg4 a0).grid.coords t)).Idx → Elt F ((cfg4 a0).win w).elt :=
  (((cfg4 a0).win w).blk t).view.read (Elt F) (Vd c (Pipeline.arrRef spec4 w))

abbrev osem4 : Fin 16 → SemLoc sig := fun k =>
  (![SemLoc.dma 89, SemLoc.dma 90, SemLoc.dma 91, SemLoc.dma 92, SemLoc.dma 93, SemLoc.dma 94, SemLoc.dma 95, SemLoc.dma 96,
     SemLoc.dma 97, SemLoc.dma 98, SemLoc.dma 99, SemLoc.dma 100, SemLoc.dma 101, SemLoc.dma 102, SemLoc.dma 103, SemLoc.dma 104] : Fin 16 → SemLoc sig) k

theorem ownSemFacts4 : Pipeline.OwnSemFacts spec4 osem4 := by decide

theorem ownSems04_eq (c : Dev nD) :
    (Pipeline.ownSems0 (Ix := Unit) (Name := ℕ) (U := Pipeline.UD sig nD τ) (Lvl := ℕ) (Val := Elt F) (τ := τ) osem4 c : sProp 𝕄) = sems4 c := by
  rw [Pipeline.ownSems0_eq_of_list c osem4 [0, 1, 2, 3, 4, 5, 6, 7, 8, 9, 10, 11, 12, 13, 14, 15] (by decide) (by decide)]; rfl

theorem prefHeld4_eq (c : Dev nD) (pf : pre4.Contents (Elt F)) :
    (Pipeline.prefHeld (Ix := Unit) (Name := ℕ) (U := Pipeline.UD sig nD τ) (Lvl := ℕ) pre4 c (fun _ => fullShare) pf : sProp 𝕄)
      = owns (c : Thread nD τ) (Memref.whole main_v20) fullShare (pf 0) := by
  refine Eq.trans ?_ (owns_whole (c : Thread nD τ) main_v20 fullShare (pf 0)).symm
  unfold Pipeline.prefHeld
  exact bigSep_univ_eq_bigSepL [(0 : Fin 1)] (by decide) (by decide) _

theorem scratch4_eq (c : Dev nD) :
    (iprop(∃ f : Buf (Elt F) ((c : Thread nD τ).loc cc4_scratch0), ((c : Thread nD τ).loc cc4_scratch0) ↦{fullShare} f) : sProp 𝕄)
      = iprop(∃ d, owns (c : Thread nD τ) (Memref.whole cc4_scratch0) fullShare d) := by
  simp only [owns_whole]

def HCol4 : Prop := ∀ e, ((a0.1 0 : Vec F S80000 .i32) e).toNat < 20000

def Φ4 (c : Dev nD) : sProp 𝕄 :=
  iprop(Pipeline.ownSems0 osem4 c ∗ Pipeline.prefHeld pre4 c (fun _ => fullShare) a0.1 ∗ Pipeline.scopedRest spec4 c)

def dat4 (c : Dev nD) : Dat τ (Elt F) Unit ℕ (Pipeline.UD sig nD τ) ℕ (cfg4 a0) c where
  A w := Vd c (Pipeline.arrRef spec4 w)
  after w t := match w with
    | ⟨0, _⟩ => iblk4 Vd a0 c 0 t
    | ⟨1, _⟩ => iblk4 Vd a0 c 1 t
    | ⟨2, _⟩ => outBlk4 (grid4.coords t) (a0.1 0) (iblk4 Vd a0 c 0 t) (iblk4 Vd a0 c 1 t)
  Φ _ := Φ4 a0 c
  q _ := fullShare
  owed _ := 0

theorem A_eq4 (c : Dev nD) (w : Fin 3) : (dat4 Vd a0 c).A w = Vd c (Pipeline.arrRef spec4 w) := by
  dsimp only [dat4]

theorem after4_x (c : Dev nD) (t : Fin (cfg4 a0).N) : (dat4 Vd a0 c).after (0 : Fin 3) t = iblk4 Vd a0 c 0 t := by dsimp only [dat4]
theorem after4_val (c : Dev nD) (t : Fin (cfg4 a0).N) : (dat4 Vd a0 c).after (1 : Fin 3) t = iblk4 Vd a0 c 1 t := by dsimp only [dat4]
theorem after4_out (c : Dev nD) (t : Fin (cfg4 a0).N) :
    (dat4 Vd a0 c).after (2 : Fin 3) t = outBlk4 (grid4.coords t) (a0.1 0) (iblk4 Vd a0 c 0 t) (iblk4 Vd a0 c 1 t) := by dsimp only [dat4]

theorem before4_x (c : Dev nD) (t : Fin (cfg4 a0).N) (d) : (dat4 Vd a0 c).before 0 t d = iblk4 Vd a0 c 0 t := by
  refine ((dat4 Vd a0 c).before_in_eq_fetched 0 rfl (fun _ => rfl) (fun _ _ _ => rfl) (fun s => ?_) t d).trans ?_
  · rw [after4_x]; rfl
  · rfl
theorem before4_val (c : Dev nD) (t : Fin (cfg4 a0).N) (d) : (dat4 Vd a0 c).before 1 t d = iblk4 Vd a0 c 1 t := by
  refine ((dat4 Vd a0 c).before_in_eq_fetched 1 rfl (fun _ => rfl) (fun _ _ _ => rfl) (fun s => ?_) t d).trans ?_
  · rw [after4_val]; rfl
  · rfl

abbrev st4_x (t : Fin (cfg4 a0).N) := ((cfg4 a0).win 0).stage ((cfg4 a0).slots t 0)
abbrev st4_val (t : Fin (cfg4 a0).N) := ((cfg4 a0).win 1).stage ((cfg4 a0).slots t 1)
abbrev st4_out (t : Fin (cfg4 a0).N) := ((cfg4 a0).win 2).stage ((cfg4 a0).slots t 2)

abbrev bodyAt4 (t : Fin (cfg4 a0).N) : Prog (TpuEff nD τ sig (Elt F) Λ₀ .tc) PUnit :=
  cc4__gather_kernel (grid4.coords t) (Memref.whole main_v20) (Memref.isWhole_whole _)
    (spec4_0.stage ((cfg4 a0).slots t 0)) (hstage4_0 (((cfg4 a0).slots t 0).cast nbuf4_0))
    (spec4_1.stage ((cfg4 a0).slots t 1)) (hstage4_1 (((cfg4 a0).slots t 1).cast nbuf4_1))
    (spec4_2.stage ((cfg4 a0).slots t 2)) (hstage4_2 (((cfg4 a0).slots t 2).cast nbuf4_2))
    (Memref.whole cc4_scratch0) (Memref.isWhole_whole _) cc4_scratch1

def bodyPre4 (c : Dev nD) (t : Fin (cfg4 a0).N) : sProp 𝕄 :=
  iprop((dat4 Vd a0 c).Φ t.castSucc ∗ (dat4 Vd a0 c).owesAt () t.castSucc
    ∗ (∃ d, owns (c : Thread nD τ) (st4_x a0 t) fullShare ((dat4 Vd a0 c).before 0 t d))
    ∗ (∃ d, owns (c : Thread nD τ) (st4_val a0 t) fullShare ((dat4 Vd a0 c).before 1 t d))
    ∗ (∃ d, owns (c : Thread nD τ) (st4_out a0 t) fullShare ((dat4 Vd a0 c).before 2 t d)))

def bodyPost4 (c : Dev nD) (t : Fin (cfg4 a0).N) : sProp 𝕄 :=
  iprop((dat4 Vd a0 c).Φ t.succ ∗ (dat4 Vd a0 c).owesAt () t.succ
    ∗ owns (c : Thread nD τ) (st4_x a0 t) fullShare ((dat4 Vd a0 c).after 0 t)
    ∗ owns (c : Thread nD τ) (st4_val a0 t) fullShare ((dat4 Vd a0 c).after 1 t)
    ∗ owns (c : Thread nD τ) (st4_out a0 t) fullShare ((dat4 Vd a0 c).after 2 t))

theorem sound_body4 (hcol : HCol4 a0) (c : Dev nD) (t : Fin (cfg4 a0).N) :
    bodyPre4 Vd a0 c t ⊢ wp frame (wpE (defs₀ (F := F)) Variants.none c none) Set.univ (bodyAt4 a0 t) (fun _ => bodyPost4 Vd a0 c t) := by
  unfold bodyPre4 bodyPost4 bodyAt4
  simp only [before4_x, before4_val]
  rw [show (dat4 Vd a0 c).Φ t.succ = Φ4 a0 c from rfl, show (dat4 Vd a0 c).Φ t.castSucc = Φ4 a0 c from rfl,
    after4_x, after4_val, after4_out]
  unfold Φ4 Dat.owesAt Pipeline.owesWithin
  rw [scopedRest4_split, scratch4_eq, ownSems04_eq, prefHeld4_eq,
    show (dat4 Vd a0 c).owed t.castSucc = 0 from rfl, show (dat4 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel4 c (grid4.coords t) _ _ _ _ _ _ _ _ _ _ fullShare (a0.1 0) (iblk4 Vd a0 c 0 t) (iblk4 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation4 (hcol : HCol4 a0) (c : Dev nD) :
    BodyObligation (dat4 (F := F) Vd a0 c) (defs₀ (F := F)) Variants.none () Set.univ := fun t => by
  rw [bigSep_W4, bigSep_W4]
  exact sound_body4 Vd a0 hcol c t

abbrev X4 (c : Dev nD) : sProp 𝕄 := Pipeline.ownSems0 osem4 c
abbrev Y4 (c : Dev nD) : sProp 𝕄 := Pipeline.prefHeld pre4 c (fun _ => fullShare) a0.1
abbrev Z4 (V : Valuation τ sig (Elt F)) (c : Dev nD) : sProp 𝕄 :=
  iprop(Pipeline.unscopedRestP (Ix := Unit) (Name := ℕ) (U := Pipeline.UD sig nD τ) (Lvl := ℕ) pre4 spec4 c (fun b => V b) ∗ ∃ r, prngReg c r)

theorem hentry4 (c : Dev nD) (V : Valuation τ sig (Elt F)) (hA : ∀ w, Vd c (Pipeline.arrRef spec4 w) = V (Pipeline.arrRef spec4 w))
    (hT : ∀ k, a0.1 k = V (pre4.ref k)) :
    iprop(iprop(StableHlo.held (c : Thread nD τ) (Pipeline.ucRefs τ sig) V ∗ R c) ∗ Pipeline.ownSems0 osem4 c ∗ levAts L lv)
      ⊢ |={Set.univ}=> iprop((dat4 Vd a0 c).arrays ((dat4 Vd a0 c).arrAt · 0) ∗ Pipeline.prefHeld pre4 c (fun _ => fullShare) a0.1
          ∗ (dat4 Vd a0 c).owesAt () 0 ∗ X4 c ∗ Z4 V c) := by
  have hsplit := Pipeline.arrays_of_unscopedBufs (p := ()) (fun _ : Unit => pcfg4 (F := F)) (fun _ => a0) (fun _ c => dat4 Vd a0 c)
    (Ix := Unit) (Name := ℕ) (U := Pipeline.UD sig nD τ) (Lvl := ℕ) winFacts4 arr_whole4 c ((dat4 Vd a0 c).share_full fun _ => rfl) (fun b => V b) hA
  rw [Pipeline.unscopedBufs_held, Pipeline.unscopedRest_split preFacts4,
    show (fun k => V (pre4.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin4 (c : Dev nD) :
    iprop(X4 c ∗ Pipeline.prefHeld pre4 c (fun _ => fullShare) a0.1 ∗ Pipeline.scopedRest spec4 c) ⊢ (dat4 Vd a0 c).Φ 0 := by
  show _ ⊢ Φ4 a0 c
  unfold Φ4; exact .rfl

theorem hout4 (c : Dev nD) :
    (dat4 Vd a0 c).Φ (Fin.last (cfg4 a0).N) ⊢ iprop(Y4 a0 c ∗ Pipeline.ownSems0 osem4 c ∗ Pipeline.scopedRest spec4 c) := by
  show Φ4 a0 c ⊢ _
  unfold Φ4
  iintro ⟨Hs, Hp, Hr⟩
  isplitl [Hp]; · iexact Hp
  isplitl [Hs]; · iexact Hs
  iexact Hr

theorem hexit4 (c : Dev nD) (V Vp : Valuation τ sig (Elt F))
    (hF : ∀ w, (dat4 Vd a0 c).arrAt w (cfg4 a0).N = Vp (Pipeline.arrRef spec4 w))
    (hrest : ∀ b : Ref sig .tc, b ∉ Finset.univ.image (Pipeline.arrRef spec4) → Vp b = V b) (hT : ∀ k, a0.1 k = V (pre4.ref k)) :
    iprop((dat4 Vd a0 c).arrays ((dat4 Vd a0 c).arrAt · (cfg4 a0).N) ∗ (dat4 Vd a0 c).owesAt () (Fin.last (cfg4 a0).N) ∗ Y4 a0 c ∗ Z4 V c)
      ⊢ |={Set.univ}=> iprop(StableHlo.held (c : Thread nD τ) (Pipeline.ucRefs τ sig) Vp ∗ R c) := by
  have hjoin := Pipeline.unscopedBufs_of_arrays (p := ()) (fun _ : Unit => pcfg4 (F := F)) (fun _ => a0) (Ix := Unit) (Name := ℕ) (U := Pipeline.UD sig nD τ) (Lvl := ℕ)
    winFacts4 arr_whole4 c (fun _ c => dat4 Vd a0 c) ((dat4 Vd a0 c).share_full fun _ => rfl)
    (fun b => V b) (fun b => Vp b) ((dat4 Vd a0 c).arrAt · (cfg4 a0).N) hF hrest
  rw [Pipeline.unscopedBufs_held, Pipeline.unscopedRest_split preFacts4,
    show (fun k => V (pre4.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

def pt4 (r : Fin 80000) : Fin (cfg4 a0).N := ⟨r.val / 800, by have := r.isLt; show r.val / 800 < grid4.N; rw [N_4]; omega⟩

def outArr4 (c : Dev nD) : Vec F S80000x256 .f32 := fun i =>
  outBlk4 (grid4.coords (pt4 a0 (i 0))) (a0.1 0) (iblk4 Vd a0 c 0 (pt4 a0 (i 0))) (iblk4 Vd a0 c 1 (pt4 a0 (i 0)))
    (ValueIdx.ix2 ⟨(i 0).val % 800, Nat.mod_lt _ (by decide)⟩ (i 1))

end Region0
end Cert.KernelIdeal.Hand
end
-- ==== Proof.KI.Out5.lean ====
import proofs.«411766_j31920196944464_2_alg».proof.Proof.Gen.KernelIdeal.Loops
import proofs.«411766_j31920196944464_2_alg».proof.Proof.Gather

set_option maxRecDepth 16384

noncomputable section

namespace Cert.KernelIdeal.Hand

open Cert.KernelIdeal Cert.KernelIdeal.Gen
open Idealize.ShloMosaic Idealize.ShloMosaic.TcCoe

variable {F : FTy → Type} [FloatOps F]

def gath5 (i : grid5.Coords) (tbl : Vec F S80000 .i32) (x : Vec F S20000x256 .f32) (g : ℕ) : Vec F S16x256 .f32 :=
  Gather.gath (i 0).val tbl x g

def pcs5 (i : grid5.Coords) (tbl : Vec F S80000 .i32) (x : Vec F S20000x256 .f32) (n : ℕ) : List (View.Piece (Elt F) S800x256 .f32) :=
  Gather.pcs k5_off48 k5_off48_inb (i 0).val tbl x n

theorem pcs5_succ (i : grid5.Coords) (tbl : Vec F S80000 .i32) (x : Vec F S20000x256 .f32) (g : Fin k5_t1_loop.trips) :
    pcs5 i tbl x (g.val + 1)
      = ⟨Rect.unit (s := S800x256) (k5_off48 g) S16x256.size (k5_off48_inb g), gath5 i tbl x g.val⟩ :: pcs5 i tbl x g.val :=
  Gather.pcs_succ k5_off48 k5_off48_inb (i 0).val tbl x g

def loopArr5 (i : grid5.Coords) (tbl : Vec F S80000 .i32) (x : Vec F S20000x256 .f32) : Vec F S800x256 .f32 :=
  Gather.loopArr k5_off48 k5_off48_inb (i 0).val tbl x

def outBlk5 (i : grid5.Coords) (tbl : Vec F S80000 .i32) (x : Vec F S20000x256 .f32) (v : Vec F S800x1 .f32) : Vec F S800x256 .f32 :=
  k5_pay1 (loopArr5 i tbl x) v

theorem trips5 : k5_t1_loop.trips = 50 := by decide

theorem cover_pcs5 (i : grid5.Coords) (tbl : Vec F S80000 .i32) (x : Vec F S20000x256 .f32) :
    ∀ y : S800x256.Idx, ∃ p ∈ pcs5 i tbl x k5_t1_loop.trips, y ∈ p.1.set :=
  Gather.cover_pcs k5_off48 k5_off48_inb k5_off48_eq trips5 (i 0).val tbl x

theorem outBlk5_apply (i : grid5.Coords) (tbl : Vec Ideal S80000 .i32) (x : Vec Ideal S20000x256 .f32) (v : Vec Ideal S800x1 .f32)
    (htbl : ∀ e : S80000.Idx, (tbl e).toNat < 20000) (r : Fin 800) (d : Fin 256) :
    outBlk5 i tbl x v (ValueIdx.ix2 r d)
      = x (ValueIdx.ix2 ⟨(tbl (ValueIdx.ix1 ⟨800 * (i 0).val + r.val, by
            have := (i 0).isLt; change (i 0).val < 100 at this; have := r.isLt; omega⟩)).toNat, htbl _⟩ d)
        * v (ValueIdx.ix2 r (0 : Fin 1)) := by
  unfold outBlk5 k5_pay1 loopArr5
  exact Gather.scaled_apply k5_off48 k5_off48_inb k5_off48_eq trips5 (i 0).isLt tbl x v htbl _ _ _ r d

end Cert.KernelIdeal.Hand

end
-- ==== Proof.KI.Body5.lean ====
import proofs.«411766_j31920196944464_2_alg».proof.Proof.KI.Out5
import proofs.«411766_j31920196944464_2_alg».proof.Proof.KI.Rows5
import proofs.«411766_j31920196944464_2_alg».proof.Proof.KI.Rows5b
import proofs.«411766_j31920196944464_2_alg».proof.Proof.KI.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems5 (c : Dev nD) : sProp 𝕄 :=
  iprop(semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0
    ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0
    ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0
    ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0)

abbrev tok5 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks5 (c : Dev nD) (arg2 : Memref sig .tc .vmem S20000x256 .f32) (fx : Buf (Elt F) (arg2.view.loc (c : Thread nD τ))) : sProp 𝕄 :=
  iprop(tok5 c arg2 fx 110 ∗ tok5 c arg2 fx 111 ∗ tok5 c arg2 fx 112 ∗ tok5 c arg2 fx 113 ∗ tok5 c arg2 fx 114 ∗ tok5 c arg2 fx 115 ∗ tok5 c arg2 fx 116 ∗ tok5 c arg2 fx 117
    ∗ tok5 c arg2 fx 118 ∗ tok5 c arg2 fx 119 ∗ tok5 c arg2 fx 120 ∗ tok5 c arg2 fx 121 ∗ tok5 c arg2 fx 122 ∗ tok5 c arg2 fx 123 ∗ tok5 c arg2 fx 124 ∗ tok5 c arg2 fx 125)

def k5_inv (c : Dev nD) (i : grid5.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks5 c arg2 fx
    ∗ (arg4.view.loc (c : Thread nD τ) ↦[arg4.view.set]{fullShare}
        arg4.view.writes (Elt F) f4 (pcs5 i (arg1.view.read (Elt F) ft) (arg2.view.read (Elt F) fx) n))
    ∗ (∃ f5, arg5.view.loc (c : Thread nD τ) ↦[arg5.view.set]{fullShare} f5)
    ∗ sems5 c ∗ (∃ W, owes (c : Thread nD τ) 0 W))

set_option maxHeartbeats 8000000 in

theorem k5_trip (c : Dev nD) (i : grid5.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k5_t1_loop.trips) (acc : Unit) :
    k5_inv c i arg1 arg2 arg4 arg5 q ft fx f4 g.val acc
      ⊢ wp frame (wpE (defs₀ (F := F)) Variants.none c none) Set.univ
          (k5_t1_body i arg1 harg1 arg2 harg2 arg3 harg3 arg4 harg4 arg5 harg5 cc5_scratch1 (Scalar.muli (BitVec.ofNat 32 (i 0).val) 800#32) g acc)
          (k5_inv c i arg1 arg2 arg4 arg5 q ft fx f4 (g.val + 1)) := by
  unfold k5_inv k5_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k5_chk1 (arg1.view.readAt (Elt F) (Rect.unit (s := S80000) (k5_off1 i g) S1.size (k5_off1_inb i g)).toLoadRect ft (Shape.Idx.first (numel1_S1.symm ▸ Nat.one_pos))) := row_inb2 _ (htbl _)
  have hc2 : k5_chk2 (arg1.view.readAt (Elt F) (Rect.unit (s := S80000) (k5_off3 i g) S1.size (k5_off3_inb i g)).toLoadRect ft (Shape.Idx.first (numel1_S1.symm ▸ Nat.one_pos))) := row_inb2 _ (htbl _)
  have hc3 : k5_chk3 (arg1.view.readAt (Elt F) (Rect.unit (s := S80000) (k5_off5 i g) S1.size (k5_off5_inb i g)).toLoadRect ft (Shape.Idx.first (numel1_S1.symm ▸ Nat.one_pos))) := row_inb2 _ (htbl _)
  have hc4 : k5_chk4 (arg1.view.readAt (Elt F) (Rect.unit (s := S80000) (k5_off7 i g) S1.size (k5_off7_inb i g)).toLoadRect ft (Shape.Idx.first (numel1_S1.symm ▸ Nat.one_pos))) := row_inb2 _ (htbl _)
  have hc5 : k5_chk5 (arg1.view.readAt (Elt F) (Rect.unit (s := S80000) (k5_off9 i g) S1.size (k5_off9_inb i g)).toLoadRect ft (Shape.Idx.first (numel1_S1.symm ▸ Nat.one_pos))) := row_inb2 _ (htbl _)
  have hc6 : k5_chk6 (arg1.view.readAt (Elt F) (Rect.unit (s := S80000) (k5_off11 i g) S1.size (k5_off11_inb i g)).toLoadRect ft (Shape.Idx.first (numel1_S1.symm ▸ Nat.one_pos))) := row_inb2 _ (htbl _)
  have hc7 : k5_chk7 (arg1.view.readAt (Elt F) (Rect.unit (s := S80000) (k5_off13 i g) S1.size (k5_off13_inb i g)).toLoadRect ft (Shape.Idx.first (numel1_S1.symm ▸ Nat.one_pos))) := row_inb2 _ (htbl _)
  have hc8 : k5_chk8 (arg1.view.readAt (Elt F) (Rect.unit (s := S80000) (k5_off15 i g) S1.size (k5_off15_inb i g)).toLoadRect ft (Shape.Idx.first (numel1_S1.symm ▸ Nat.one_pos))) := row_inb2 _ (htbl _)
  have hc9 : k5_chk9 (arg1.view.readAt (Elt F) (Rect.unit (s := S80000) (k5_off17 i g) S1.size (k5_off17_inb i g)).toLoadRect ft (Shape.Idx.first (numel1_S1.symm ▸ Nat.one_pos))) := row_inb2 _ (htbl _)
  have hc10 : k5_chk10 (arg1.view.readAt (Elt F) (Rect.unit (s := S80000) (k5_off19 i g) S1.size (k5_off19_inb i g)).toLoadRect ft (Shape.Idx.first (numel1_S1.symm ▸ Nat.one_pos))) := row_inb2 _ (htbl _)
  have hc11 : k5_chk11 (arg1.view.readAt (Elt F) (Rect.unit (s := S80000) (k5_off21 i g) S1.size (k5_off21_inb i g)).toLoadRect ft (Shape.Idx.first (numel1_S1.symm ▸ Nat.one_pos))) := row_inb2 _ (htbl _)
  have hc12 : k5_chk12 (arg1.view.readAt (Elt F) (Rect.unit (s := S80000) (k5_off23 i g) S1.size (k5_off23_inb i g)).toLoadRect ft (Shape.Idx.first (numel1_S1.symm ▸ Nat.one_pos))) := row_inb2 _ (htbl _)
  have hc13 : k5_chk13 (arg1.view.readAt (Elt F) (Rect.unit (s := S80000) (k5_off25 i g) S1.size (k5_off25_inb i g)).toLoadRect ft (Shape.Idx.first (numel1_S1.symm ▸ Nat.one_pos))) := row_inb2 _ (htbl _)
  have hc14 : k5_chk14 (arg1.view.readAt (Elt F) (Rect.unit (s := S80000) (k5_off27 i g) S1.size (k5_off27_inb i g)).toLoadRect ft (Shape.Idx.first (numel1_S1.symm ▸ Nat.one_pos))) := row_inb2 _ (htbl _)
  have hc15 : k5_chk15 (arg1.view.readAt (Elt F) (Rect.unit (s := S80000) (k5_off29 i g) S1.size (k5_off29_inb i g)).toLoadRect ft (Shape.Idx.first (numel1_S1.symm ▸ Nat.one_pos))) := row_inb2 _ (htbl _)
  have hc16 : k5_chk16 (arg1.view.readAt (Elt F) (Rect.unit (s := S80000) (k5_off31 i g) S1.size (k5_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k5_trip.sl.dma1 c i arg1 arg2 ft fx g hc1) (k5_trip.sl.dma2 c i arg1 arg2 ft fx g hc2) (k5_trip.sl.dma3 c i arg1 arg2 ft fx g hc3) (k5_trip.sl.dma4 c i arg1 arg2 ft fx g hc4) (k5_trip.sl.dma5 c i arg1 arg2 ft fx g hc5) (k5_trip.sl.dma6 c i arg1 arg2 ft fx g hc6) (k5_trip.sl.dma7 c i arg1 arg2 ft fx g hc7) (k5_trip.sl.dma8 c i arg1 arg2 ft fx g hc8) (k5_trip.sl.dma9 c i arg1 arg2 ft fx g hc9) (k5_trip.sl.dma10 c i arg1 arg2 ft fx g hc10) (k5_trip.sl.dma11 c i arg1 arg2 ft fx g hc11) (k5_trip.sl.dma12 c i arg1 arg2 ft fx g hc12) (k5_trip.sl.dma13 c i arg1 arg2 ft fx g hc13) (k5_trip.sl.dma14 c i arg1 arg2 ft fx g hc14) (k5_trip.sl.dma15 c i arg1 arg2 ft fx g hc15) (k5_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath5 i (arg1.view.read (Elt F) ft) (arg2.view.read (Elt F) fx) g.val :=
    scratch_reads arg5 c f5 g5 _ hg5 _ (fun k d => by
      have hi : (i 0).val < 100 := (i 0).isLt
      have hg : g.val < 50 := trips5 ▸ g.isLt
      fin_cases k
      · exact row_payload arg1 arg2 c ft fx _ _ _ (k5_off1_eq i g) (by omega) _ _ d
      · exact row_payload arg1 arg2 c ft fx _ _ _ (k5_off3_eq i g) (by omega) _ _ d
      · exact row_payload arg1 arg2 c ft fx _ _ _ (k5_off5_eq i g) (by omega) _ _ d
      · exact row_payload arg1 arg2 c ft fx _ _ _ (k5_off7_eq i g) (by omega) _ _ d
      · exact row_payload arg1 arg2 c ft fx _ _ _ (k5_off9_eq i g) (by omega) _ _ d
      · exact row_payload arg1 arg2 c ft fx _ _ _ (k5_off11_eq i g) (by omega) _ _ d
      · exact row_payload arg1 arg2 c ft fx _ _ _ (k5_off13_eq i g) (by omega) _ _ d
      · exact row_payload arg1 arg2 c ft fx _ _ _ (k5_off15_eq i g) (by omega) _ _ d
      · exact row_payload arg1 arg2 c ft fx _ _ _ (k5_off17_eq i g) (by omega) _ _ d
      · exact row_payload arg1 arg2 c ft fx _ _ _ (k5_off19_eq i g) (by omega) _ _ d
      · exact row_payload arg1 arg2 c ft fx _ _ _ (k5_off21_eq i g) (by omega) _ _ d
      · exact row_payload arg1 arg2 c ft fx _ _ _ (k5_off23_eq i g) (by omega) _ _ d
      · exact row_payload arg1 arg2 c ft fx _ _ _ (k5_off25_eq i g) (by omega) _ _ d
      · exact row_payload arg1 arg2 c ft fx _ _ _ (k5_off27_eq i g) (by omega) _ _ d
      · exact row_payload arg1 arg2 c ft fx _ _ _ (k5_off29_eq i g) (by omega) _ _ d
      · exact row_payload arg1 arg2 c ft fx _ _ _ (k5_off31_eq i g) (by omega) _ _ d
      ) _
  sl_exec
  sl_step
  rw [pcs5_succ, View.writes_cons]
  unfold k5_trip.sl.H4_w1
  sl_close

set_option maxHeartbeats 4000000 in

theorem sound_kernel5 (c : Dev nD) (i : grid5.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems5 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk5 i tbl x v) ∗ (∃ d, owns (c : Thread nD τ) arg5 fullShare d) ∗ sems5 c ∗ (∃ W', owes (c : Thread nD τ) 0 W')) -∗ K ⟨⟩))
      ⊢ wp frame (wpE (defs₀ (F := F)) Variants.none c none) Set.univ (cc5__gather_kernel i arg1 harg1 arg2 harg2 arg3 harg3 arg4 harg4 arg5 harg5 cc5_scratch1) K := by
  simp only [cc5__gather_kernel_eq_skeleton]; unfold cc5__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks5 c arg2 fx) := Cert.Toks.toks16_split _ _ _ _
  ihave H2' := htok.1 $$ H2
  icases H2' with ⟨HD, HT⟩
  sl_exec
  sl_for (k5_inv c i arg1 arg2 arg4 arg5 q ft fx f4) $$ [H1 HT H4 H5 HS HW]
  case region =>
    intro g acc
    exact k5_trip c i arg1 harg1 arg2 harg2 arg3 harg3 arg4 harg4 arg5 harg5 q ft fx htbl f4 g acc
  · unfold k5_inv
    isplitl [H1]; · iexact H1
    isplitl [HT]; · iexact HT
    isplitl [H4]; · iexact H4
    isplitl [H5]; · iexists _; iexact H5
    isplitl [HS]; · iexact HS
    iexists _; iexact HW
  iintro %acc HI; unfold k5_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs5 i tbl x (Scf.trips k5_t1_loop.lb k5_t1_loop.ub k5_t1_loop.st), y ∈ p.1.set :=
      cover_pcs5 i tbl x
    have h2 : arg4.view.readCov (pcs5 i tbl x (Scf.trips k5_t1_loop.lb k5_t1_loop.ub k5_t1_loop.st))
        (Rect.unit (s := S800x256) ![0, 0] S800x256.size inb_S800x256_S800x256_0_0).toLoadRect = loopArr5 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.KernelIdeal.Hand

end
-- ==== Proof.KI.Region5.lean ====
import proofs.«411766_j31920196944464_2_alg».proof.Proof.KI.Body5
import proofs.«411766_j31920196944464_2_alg».proof.Proof.KI.Common
import proofs.«411766_j31920196944464_2_alg».proof.Proof.Gen.KernelIdeal.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg5 (F := F)).Adm)

def iblk5 (c : Dev nD) (w : Fin (cfg5 a0).W) (t : Fin (cfg5 a0).N) : (((cfg5 a0).win w).xblock ((cfg5 a0).grid.coords t)).Idx → Elt F ((cfg5 a0).win w).elt :=
  (((cfg5 a0).win w).blk t).view.read (Elt F) (Vd c (Pipeline.arrRef spec5 w))

abbrev osem5 : Fin 16 → SemLoc sig := fun k =>
  (![SemLoc.dma 110, SemLoc.dma 111, SemLoc.dma 112, SemLoc.dma 113, SemLoc.dma 114, SemLoc.dma 115, SemLoc.dma 116, SemLoc.dma 117,
     SemLoc.dma 118, SemLoc.dma 119, SemLoc.dma 120, SemLoc.dma 121, SemLoc.dma 122, SemLoc.dma 123, SemLoc.dma 124, SemLoc.dma 125] : Fin 16 → SemLoc sig) k

theorem ownSemFacts5 : Pipeline.OwnSemFacts spec5 osem5 := by decide

theorem ownSems05_eq (c : Dev nD) :
    (Pipeline.ownSems0 (Ix := Unit) (Name := ℕ) (U := Pipeline.UD sig nD τ) (Lvl := ℕ) (Val := Elt F) (τ := τ) osem5 c : sProp 𝕄) = sems5 c := by
  rw [Pipeline.ownSems0_eq_of_list c osem5 [0, 1, 2, 3, 4, 5, 6, 7, 8, 9, 10, 11, 12, 13, 14, 15] (by decide) (by decide)]; rfl

theorem prefHeld5_eq (c : Dev nD) (pf : pre5.Contents (Elt F)) :
    (Pipeline.prefHeld (Ix := Unit) (Name := ℕ) (U := Pipeline.UD sig nD τ) (Lvl := ℕ) pre5 c (fun _ => fullShare) pf : sProp 𝕄)
      = owns (c : Thread nD τ) (Memref.whole main_v24) fullShare (pf 0) := by
  refine Eq.trans ?_ (owns_whole (c : Thread nD τ) main_v24 fullShare (pf 0)).symm
  unfold Pipeline.prefHeld
  exact bigSep_univ_eq_bigSepL [(0 : Fin 1)] (by decide) (by decide) _

theorem scratch5_eq (c : Dev nD) :
    (iprop(∃ f : Buf (Elt F) ((c : Thread nD τ).loc cc5_scratch0), ((c : Thread nD τ).loc cc5_scratch0) ↦{fullShare} f) : sProp 𝕄)
      = iprop(∃ d, owns (c : Thread nD τ) (Memref.whole cc5_scratch0) fullShare d) := by
  simp only [owns_whole]

def HCol5 : Prop := ∀ e, ((a0.1 0 : Vec F S80000 .i32) e).toNat < 20000

def Φ5 (c : Dev nD) : sProp 𝕄 :=
  iprop(Pipeline.ownSems0 osem5 c ∗ Pipeline.prefHeld pre5 c (fun _ => fullShare) a0.1 ∗ Pipeline.scopedRest spec5 c)

def dat5 (c : Dev nD) : Dat τ (Elt F) Unit ℕ (Pipeline.UD sig nD τ) ℕ (cfg5 a0) c where
  A w := Vd c (Pipeline.arrRef spec5 w)
  after w t := match w with
    | ⟨0, _⟩ => iblk5 Vd a0 c 0 t
    | ⟨1, _⟩ => iblk5 Vd a0 c 1 t
    | ⟨2, _⟩ => outBlk5 (grid5.coords t) (a0.1 0) (iblk5 Vd a0 c 0 t) (iblk5 Vd a0 c 1 t)
  Φ _ := Φ5 a0 c
  q _ := fullShare
  owed _ := 0

theorem A_eq5 (c : Dev nD) (w : Fin 3) : (dat5 Vd a0 c).A w = Vd c (Pipeline.arrRef spec5 w) := by
  dsimp only [dat5]

theorem after5_x (c : Dev nD) (t : Fin (cfg5 a0).N) : (dat5 Vd a0 c).after (0 : Fin 3) t = iblk5 Vd a0 c 0 t := by dsimp only [dat5]
theorem after5_val (c : Dev nD) (t : Fin (cfg5 a0).N) : (dat5 Vd a0 c).after (1 : Fin 3) t = iblk5 Vd a0 c 1 t := by dsimp only [dat5]
theorem after5_out (c : Dev nD) (t : Fin (cfg5 a0).N) :
    (dat5 Vd a0 c).after (2 : Fin 3) t = outBlk5 (grid5.coords t) (a0.1 0) (iblk5 Vd a0 c 0 t) (iblk5 Vd a0 c 1 t) := by dsimp only [dat5]

theorem before5_x (c : Dev nD) (t : Fin (cfg5 a0).N) (d) : (dat5 Vd a0 c).before 0 t d = iblk5 Vd a0 c 0 t := by
  refine ((dat5 Vd a0 c).before_in_eq_fetched 0 rfl (fun _ => rfl) (fun _ _ _ => rfl) (fun s => ?_) t d).trans ?_
  · rw [after5_x]; rfl
  · rfl
theorem before5_val (c : Dev nD) (t : Fin (cfg5 a0).N) (d) : (dat5 Vd a0 c).before 1 t d = iblk5 Vd a0 c 1 t := by
  refine ((dat5 Vd a0 c).before_in_eq_fetched 1 rfl (fun _ => rfl) (fun _ _ _ => rfl) (fun s => ?_) t d).trans ?_
  · rw [after5_val]; rfl
  · rfl

abbrev st5_x (t : Fin (cfg5 a0).N) := ((cfg5 a0).win 0).stage ((cfg5 a0).slots t 0)
abbrev st5_val (t : Fin (cfg5 a0).N) := ((cfg5 a0).win 1).stage ((cfg5 a0).slots t 1)
abbrev st5_out (t : Fin (cfg5 a0).N) := ((cfg5 a0).win 2).stage ((cfg5 a0).slots t 2)

abbrev bodyAt5 (t : Fin (cfg5 a0).N) : Prog (TpuEff nD τ sig (Elt F) Λ₀ .tc) PUnit :=
  cc5__gather_kernel (grid5.coords t) (Memref.whole main_v24) (Memref.isWhole_whole _)
    (spec5_0.stage ((cfg5 a0).slots t 0)) (hstage5_0 (((cfg5 a0).slots t 0).cast nbuf5_0))
    (spec5_1.stage ((cfg5 a0).slots t 1)) (hstage5_1 (((cfg5 a0).slots t 1).cast nbuf5_1))
    (spec5_2.stage ((cfg5 a0).slots t 2)) (hstage5_2 (((cfg5 a0).slots t 2).cast nbuf5_2))
    (Memref.whole cc5_scratch0) (Memref.isWhole_whole _) cc5_scratch1

def bodyPre5 (c : Dev nD) (t : Fin (cfg5 a0).N) : sProp 𝕄 :=
  iprop((dat5 Vd a0 c).Φ t.castSucc ∗ (dat5 Vd a0 c).owesAt () t.castSucc
    ∗ (∃ d, owns (c : Thread nD τ) (st5_x a0 t) fullShare ((dat5 Vd a0 c).before 0 t d))
    ∗ (∃ d, owns (c : Thread nD τ) (st5_val a0 t) fullShare ((dat5 Vd a0 c).before 1 t d))
    ∗ (∃ d, owns (c : Thread nD τ) (st5_out a0 t) fullShare ((dat5 Vd a0 c).before 2 t d)))

def bodyPost5 (c : Dev nD) (t : Fin (cfg5 a0).N) : sProp 𝕄 :=
  iprop((dat5 Vd a0 c).Φ t.succ ∗ (dat5 Vd a0 c).owesAt () t.succ
    ∗ owns (c : Thread nD τ) (st5_x a0 t) fullShare ((dat5 Vd a0 c).after 0 t)
    ∗ owns (c : Thread nD τ) (st5_val a0 t) fullShare ((dat5 Vd a0 c).after 1 t)
    ∗ owns (c : Thread nD τ) (st5_out a0 t) fullShare ((dat5 Vd a0 c).after 2 t))

theorem sound_body5 (hcol : HCol5 a0) (c : Dev nD) (t : Fin (cfg5 a0).N) :
    bodyPre5 Vd a0 c t ⊢ wp frame (wpE (defs₀ (F := F)) Variants.none c none) Set.univ (bodyAt5 a0 t) (fun _ => bodyPost5 Vd a0 c t) := by
  unfold bodyPre5 bodyPost5 bodyAt5
  simp only [before5_x, before5_val]
  rw [show (dat5 Vd a0 c).Φ t.succ = Φ5 a0 c from rfl, show (dat5 Vd a0 c).Φ t.castSucc = Φ5 a0 c from rfl,
    after5_x, after5_val, after5_out]
  unfold Φ5 Dat.owesAt Pipeline.owesWithin
  rw [scopedRest5_split, scratch5_eq, ownSems05_eq, prefHeld5_eq,
    show (dat5 Vd a0 c).owed t.castSucc = 0 from rfl, show (dat5 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel5 c (grid5.coords t) _ _ _ _ _ _ _ _ _ _ fullShare (a0.1 0) (iblk5 Vd a0 c 0 t) (iblk5 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation5 (hcol : HCol5 a0) (c : Dev nD) :
    BodyObligation (dat5 (F := F) Vd a0 c) (defs₀ (F := F)) Variants.none () Set.univ := fun t => by
  rw [bigSep_W5, bigSep_W5]
  exact sound_body5 Vd a0 hcol c t

abbrev X5 (c : Dev nD) : sProp 𝕄 := Pipeline.ownSems0 osem5 c
abbrev Y5 (c : Dev nD) : sProp 𝕄 := Pipeline.prefHeld pre5 c (fun _ => fullShare) a0.1
abbrev Z5 (V : Valuation τ sig (Elt F)) (c : Dev nD) : sProp 𝕄 :=
  iprop(Pipeline.unscopedRestP (Ix := Unit) (Name := ℕ) (U := Pipeline.UD sig nD τ) (Lvl := ℕ) pre5 spec5 c (fun b => V b) ∗ ∃ r, prngReg c r)

theorem hentry5 (c : Dev nD) (V : Valuation τ sig (Elt F)) (hA : ∀ w, Vd c (Pipeline.arrRef spec5 w) = V (Pipeline.arrRef spec5 w))
    (hT : ∀ k, a0.1 k = V (pre5.ref k)) :
    iprop(iprop(StableHlo.held (c : Thread nD τ) (Pipeline.ucRefs τ sig) V ∗ R c) ∗ Pipeline.ownSems0 osem5 c ∗ levAts L lv)
      ⊢ |={Set.univ}=> iprop((dat5 Vd a0 c).arrays ((dat5 Vd a0 c).arrAt · 0) ∗ Pipeline.prefHeld pre5 c (fun _ => fullShare) a0.1
          ∗ (dat5 Vd a0 c).owesAt () 0 ∗ X5 c ∗ Z5 V c) := by
  have hsplit := Pipeline.arrays_of_unscopedBufs (p := ()) (fun _ : Unit => pcfg5 (F := F)) (fun _ => a0) (fun _ c => dat5 Vd a0 c)
    (Ix := Unit) (Name := ℕ) (U := Pipeline.UD sig nD τ) (Lvl := ℕ) winFacts5 arr_whole5 c ((dat5 Vd a0 c).share_full fun _ => rfl) (fun b => V b) hA
  rw [Pipeline.unscopedBufs_held, Pipeline.unscopedRest_split preFacts5,
    show (fun k => V (pre5.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin5 (c : Dev nD) :
    iprop(X5 c ∗ Pipeline.prefHeld pre5 c (fun _ => fullShare) a0.1 ∗ Pipeline.scopedRest spec5 c) ⊢ (dat5 Vd a0 c).Φ 0 := by
  show _ ⊢ Φ5 a0 c
  unfold Φ5; exact .rfl

theorem hout5 (c : Dev nD) :
    (dat5 Vd a0 c).Φ (Fin.last (cfg5 a0).N) ⊢ iprop(Y5 a0 c ∗ Pipeline.ownSems0 osem5 c ∗ Pipeline.scopedRest spec5 c) := by
  show Φ5 a0 c ⊢ _
  unfold Φ5
  iintro ⟨Hs, Hp, Hr⟩
  isplitl [Hp]; · iexact Hp
  isplitl [Hs]; · iexact Hs
  iexact Hr

theorem hexit5 (c : Dev nD) (V Vp : Valuation τ sig (Elt F))
    (hF : ∀ w, (dat5 Vd a0 c).arrAt w (cfg5 a0).N = Vp (Pipeline.arrRef spec5 w))
    (hrest : ∀ b : Ref sig .tc, b ∉ Finset.univ.image (Pipeline.arrRef spec5) → Vp b = V b) (hT : ∀ k, a0.1 k = V (pre5.ref k)) :
    iprop((dat5 Vd a0 c).arrays ((dat5 Vd a0 c).arrAt · (cfg5 a0).N) ∗ (dat5 Vd a0 c).owesAt () (Fin.last (cfg5 a0).N) ∗ Y5 a0 c ∗ Z5 V c)
      ⊢ |={Set.univ}=> iprop(StableHlo.held (c : Thread nD τ) (Pipeline.ucRefs τ sig) Vp ∗ R c) := by
  have hjoin := Pipeline.unscopedBufs_of_arrays (p := ()) (fun _ : Unit => pcfg5 (F := F)) (fun _ => a0) (Ix := Unit) (Name := ℕ) (U := Pipeline.UD sig nD τ) (Lvl := ℕ)
    winFacts5 arr_whole5 c (fun _ c => dat5 Vd a0 c) ((dat5 Vd a0 c).share_full fun _ => rfl)
    (fun b => V b) (fun b => Vp b) ((dat5 Vd a0 c).arrAt · (cfg5 a0).N) hF hrest
  rw [Pipeline.unscopedBufs_held, Pipeline.unscopedRest_split preFacts5,
    show (fun k => V (pre5.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

def pt5 (r : Fin 80000) : Fin (cfg5 a0).N := ⟨r.val / 800, by have := r.isLt; show r.val / 800 < grid5.N; rw [N_5]; omega⟩

def outArr5 (c : Dev nD) : Vec F S80000x256 .f32 := fun i =>
  outBlk5 (grid5.coords (pt5 a0 (i 0))) (a0.1 0) (iblk5 Vd a0 c 0 (pt5 a0 (i 0))) (iblk5 Vd a0 c 1 (pt5 a0 (i 0)))
    (ValueIdx.ix2 ⟨(i 0).val % 800, Nat.mod_lt _ (by decide)⟩ (i 1))

end Region0
end Cert.KernelIdeal.Hand
end
-- ==== Proof.KI.Out6.lean ====
import proofs.«411766_j31920196944464_2_alg».proof.Proof.Gen.KernelIdeal.Loops
import proofs.«411766_j31920196944464_2_alg».proof.Proof.Gather

set_option maxRecDepth 16384

noncomputable section

namespace Cert.KernelIdeal.Hand

open Cert.KernelIdeal Cert.KernelIdeal.Gen
open Idealize.ShloMosaic Idealize.ShloMosaic.TcCoe

variable {F : FTy → Type} [FloatOps F]

def gath6 (i : grid6.Coords) (tbl : Vec F S80000 .i32) (x : Vec F S20000x256 .f32) (g : ℕ) : Vec F S16x256 .f32 :=
  Gather.gath (i 0).val tbl x g

def pcs6 (i : grid6.Coords) (tbl : Vec F S80000 .i32) (x : Vec F S20000x256 .f32) (n : ℕ) : List (View.Piece (Elt F) S800x256 .f32) :=
  Gather.pcs k6_off48 k6_off48_inb (i 0).val tbl x n

theorem pcs6_succ (i : grid6.Coords) (tbl : Vec F S80000 .i32) (x : Vec F S20000x256 .f32) (g : Fin k6_t1_loop.trips) :
    pcs6 i tbl x (g.val + 1)
      = ⟨Rect.unit (s := S800x256) (k6_off48 g) S16x256.size (k6_off48_inb g), gath6 i tbl x g.val⟩ :: pcs6 i tbl x g.val :=
  Gather.pcs_succ k6_off48 k6_off48_inb (i 0).val tbl x g

def loopArr6 (i : grid6.Coords) (tbl : Vec F S80000 .i32) (x : Vec F S20000x256 .f32) : Vec F S800x256 .f32 :=
  Gather.loopArr k6_off48 k6_off48_inb (i 0).val tbl x

def outBlk6 (i : grid6.Coords) (tbl : Vec F S80000 .i32) (x : Vec F S20000x256 .f32) (v : Vec F S800x1 .f32) : Vec F S800x256 .f32 :=
  k6_pay1 (loopArr6 i tbl x) v

theorem trips6 : k6_t1_loop.trips = 50 := by decide

theorem cover_pcs6 (i : grid6.Coords) (tbl : Vec F S80000 .i32) (x : Vec F S20000x256 .f32) :
    ∀ y : S800x256.Idx, ∃ p ∈ pcs6 i tbl x k6_t1_loop.trips, y ∈ p.1.set :=
  Gather.cover_pcs k6_off48 k6_off48_inb k6_off48_eq trips6 (i 0).val tbl x

theorem outBlk6_apply (i : grid6.Coords) (tbl : Vec Ideal S80000 .i32) (x : Vec Ideal S20000x256 .f32) (v : Vec Ideal S800x1 .f32)
    (htbl : ∀ e : S80000.Idx, (tbl e).toNat < 20000) (r : Fin 800) (d : Fin 256) :
    outBlk6 i tbl x v (ValueIdx.ix2 r d)
      = x (ValueIdx.ix2 ⟨(tbl (ValueIdx.ix1 ⟨800 * (i 0).val + r.val, by
            have := (i 0).isLt; change (i 0).val < 100 at this; have := r.isLt; omega⟩)).toNat, htbl _⟩ d)
        * v (ValueIdx.ix2 r (0 : Fin 1)) := by
  unfold outBlk6 k6_pay1 loopArr6
  exact Gather.scaled_apply k6_off48 k6_off48_inb k6_off48_eq trips6 (i 0).isLt tbl x v htbl _ _ _ r d

end Cert.KernelIdeal.Hand

end
-- ==== Proof.KI.Body6.lean ====
import proofs.«411766_j31920196944464_2_alg».proof.Proof.KI.Out6
import proofs.«411766_j31920196944464_2_alg».proof.Proof.KI.Rows5
import proofs.«411766_j31920196944464_2_alg».proof.Proof.KI.Rows5b
import proofs.«411766_j31920196944464_2_alg».proof.Proof.KI.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems6 (c : Dev nD) : sProp 𝕄 :=
  iprop(semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0
    ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0
    ∗ semVal ((c : Thread nD τ), SemLoc.dma 139) 0 ∗ semVal ((c : Thread nD τ), SemLoc.dma 140) 0 ∗ semVal ((c : Thread nD τ), SemLoc.dma 141) 0 ∗ semVal ((c : Thread nD τ), SemLoc.dma 142) 0
    ∗ semVal ((c : Thread nD τ), SemLoc.dma 143) 0 ∗ semVal ((c : Thread nD τ), SemLoc.dma 144) 0 ∗ semVal ((c : Thread nD τ), SemLoc.dma 145) 0 ∗ semVal ((c : Thread nD τ), SemLoc.dma 146) 0)

abbrev tok6 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks6 (c : Dev nD) (arg2 : Memref sig .tc .vmem S20000x256 .f32) (fx : Buf (Elt F) (arg2.view.loc (c : Thread nD τ))) : sProp 𝕄 :=
  iprop(tok6 c arg2 fx 131 ∗ tok6 c arg2 fx 132 ∗ tok6 c arg2 fx 133 ∗ tok6 c arg2 fx 134 ∗ tok6 c arg2 fx 135 ∗ tok6 c arg2 fx 136 ∗ tok6 c arg2 fx 137 ∗ tok6 c arg2 fx 138
    ∗ tok6 c arg2 fx 139 ∗ tok6 c arg2 fx 140 ∗ tok6 c arg2 fx 141 ∗ tok6 c arg2 fx 142 ∗ tok6 c arg2 fx 143 ∗ tok6 c arg2 fx 144 ∗ tok6 c arg2 fx 145 ∗ tok6 c arg2 fx 146)

def k6_inv (c : Dev nD) (i : grid6.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks6 c arg2 fx
    ∗ (arg4.view.loc (c : Thread nD τ) ↦[arg4.view.set]{fullShare}
        arg4.view.writes (Elt F) f4 (pcs6 i (arg1.view.read (Elt F) ft) (arg2.view.read (Elt F) fx) n))
    ∗ (∃ f5, arg5.view.loc (c : Thread nD τ) ↦[arg5.view.set]{fullShare} f5)
    ∗ sems6 c ∗ (∃ W, owes (c : Thread nD τ) 0 W))

set_option maxHeartbeats 8000000 in

theorem k6_trip (c : Dev nD) (i : grid6.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k6_t1_loop.trips) (acc : Unit) :
    k6_inv c i arg1 arg2 arg4 arg5 q ft fx f4 g.val acc
      ⊢ wp frame (wpE (defs₀ (F := F)) Variants.none c none) Set.univ
          (k6_t1_body i arg1 harg1 arg2 harg2 arg3 harg3 arg4 harg4 arg5 harg5 cc6_scratch1 (Scalar.muli (BitVec.ofNat 32 (i 0).val) 800#32) g acc)
          (k6_inv c i arg1 arg2 arg4 arg5 q ft fx f4 (g.val + 1)) := by
  unfold k6_inv k6_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k6_chk1 (arg1.view.readAt (Elt F) (Rect.unit (s := S80000) (k6_off1 i g) S1.size (k6_off1_inb i g)).toLoadRect ft (Shape.Idx.first (numel1_S1.symm ▸ Nat.one_pos))) := row_inb2 _ (htbl _)
  have hc2 : k6_chk2 (arg1.view.readAt (Elt F) (Rect.unit (s := S80000) (k6_off3 i g) S1.size (k6_off3_inb i g)).toLoadRect ft (Shape.Idx.first (numel1_S1.symm ▸ Nat.one_pos))) := row_inb2 _ (htbl _)
  have hc3 : k6_chk3 (arg1.view.readAt (Elt F) (Rect.unit (s := S80000) (k6_off5 i g) S1.size (k6_off5_inb i g)).toLoadRect ft (Shape.Idx.first (numel1_S1.symm ▸ Nat.one_pos))) := row_inb2 _ (htbl _)
  have hc4 : k6_chk4 (arg1.view.readAt (Elt F) (Rect.unit (s := S80000) (k6_off7 i g) S1.size (k6_off7_inb i g)).toLoadRect ft (Shape.Idx.first (numel1_S1.symm ▸ Nat.one_pos))) := row_inb2 _ (htbl _)
  have hc5 : k6_chk5 (arg1.view.readAt (Elt F) (Rect.unit (s := S80000) (k6_off9 i g) S1.size (k6_off9_inb i g)).toLoadRect ft (Shape.Idx.first (numel1_S1.symm ▸ Nat.one_pos))) := row_inb2 _ (htbl _)
  have hc6 : k6_chk6 (arg1.view.readAt (Elt F) (Rect.unit (s := S80000) (k6_off11 i g) S1.size (k6_off11_inb i g)).toLoadRect ft (Shape.Idx.first (numel1_S1.symm ▸ Nat.one_pos))) := row_inb2 _ (htbl _)
  have hc7 : k6_chk7 (arg1.view.readAt (Elt F) (Rect.unit (s := S80000) (k6_off13 i g) S1.size (k6_off13_inb i g)).toLoadRect ft (Shape.Idx.first (numel1_S1.symm ▸ Nat.one_pos))) := row_inb2 _ (htbl _)
  have hc8 : k6_chk8 (arg1.view.readAt (Elt F) (Rect.unit (s := S80000) (k6_off15 i g) S1.size (k6_off15_inb i g)).toLoadRect ft (Shape.Idx.first (numel1_S1.symm ▸ Nat.one_pos))) := row_inb2 _ (htbl _)
  have hc9 : k6_chk9 (arg1.view.readAt (Elt F) (Rect.unit (s := S80000) (k6_off17 i g) S1.size (k6_off17_inb i g)).toLoadRect ft (Shape.Idx.first (numel1_S1.symm ▸ Nat.one_pos))) := row_inb2 _ (htbl _)
  have hc10 : k6_chk10 (arg1.view.readAt (Elt F) (Rect.unit (s := S80000) (k6_off19 i g) S1.size (k6_off19_inb i g)).toLoadRect ft (Shape.Idx.first (numel1_S1.symm ▸ Nat.one_pos))) := row_inb2 _ (htbl _)
  have hc11 : k6_chk11 (arg1.view.readAt (Elt F) (Rect.unit (s := S80000) (k6_off21 i g) S1.size (k6_off21_inb i g)).toLoadRect ft (Shape.Idx.first (numel1_S1.symm ▸ Nat.one_pos))) := row_inb2 _ (htbl _)
  have hc12 : k6_chk12 (arg1.view.readAt (Elt F) (Rect.unit (s := S80000) (k6_off23 i g) S1.size (k6_off23_inb i g)).toLoadRect ft (Shape.Idx.first (numel1_S1.symm ▸ Nat.one_pos))) := row_inb2 _ (htbl _)
  have hc13 : k6_chk13 (arg1.view.readAt (Elt F) (Rect.unit (s := S80000) (k6_off25 i g) S1.size (k6_off25_inb i g)).toLoadRect ft (Shape.Idx.first (numel1_S1.symm ▸ Nat.one_pos))) := row_inb2 _ (htbl _)
  have hc14 : k6_chk14 (arg1.view.readAt (Elt F) (Rect.unit (s := S80000) (k6_off27 i g) S1.size (k6_off27_inb i g)).toLoadRect ft (Shape.Idx.first (numel1_S1.symm ▸ Nat.one_pos))) := row_inb2 _ (htbl _)
  have hc15 : k6_chk15 (arg1.view.readAt (Elt F) (Rect.unit (s := S80000) (k6_off29 i g) S1.size (k6_off29_inb i g)).toLoadRect ft (Shape.Idx.first (numel1_S1.symm ▸ Nat.one_pos))) := row_inb2 _ (htbl _)
  have hc16 : k6_chk16 (arg1.view.readAt (Elt F) (Rect.unit (s := S80000) (k6_off31 i g) S1.size (k6_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k6_trip.sl.dma1 c i arg1 arg2 ft fx g hc1) (k6_trip.sl.dma2 c i arg1 arg2 ft fx g hc2) (k6_trip.sl.dma3 c i arg1 arg2 ft fx g hc3) (k6_trip.sl.dma4 c i arg1 arg2 ft fx g hc4) (k6_trip.sl.dma5 c i arg1 arg2 ft fx g hc5) (k6_trip.sl.dma6 c i arg1 arg2 ft fx g hc6) (k6_trip.sl.dma7 c i arg1 arg2 ft fx g hc7) (k6_trip.sl.dma8 c i arg1 arg2 ft fx g hc8) (k6_trip.sl.dma9 c i arg1 arg2 ft fx g hc9) (k6_trip.sl.dma10 c i arg1 arg2 ft fx g hc10) (k6_trip.sl.dma11 c i arg1 arg2 ft fx g hc11) (k6_trip.sl.dma12 c i arg1 arg2 ft fx g hc12) (k6_trip.sl.dma13 c i arg1 arg2 ft fx g hc13) (k6_trip.sl.dma14 c i arg1 arg2 ft fx g hc14) (k6_trip.sl.dma15 c i arg1 arg2 ft fx g hc15) (k6_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath6 i (arg1.view.read (Elt F) ft) (arg2.view.read (Elt F) fx) g.val :=
    scratch_reads arg5 c f5 g5 _ hg5 _ (fun k d => by
      have hi : (i 0).val < 100 := (i 0).isLt
      have hg : g.val < 50 := trips6 ▸ g.isLt
      fin_cases k
      · exact row_payload arg1 arg2 c ft fx _ _ _ (k6_off1_eq i g) (by omega) _ _ d
      · exact row_payload arg1 arg2 c ft fx _ _ _ (k6_off3_eq i g) (by omega) _ _ d
      · exact row_payload arg1 arg2 c ft fx _ _ _ (k6_off5_eq i g) (by omega) _ _ d
      · exact row_payload arg1 arg2 c ft fx _ _ _ (k6_off7_eq i g) (by omega) _ _ d
      · exact row_payload arg1 arg2 c ft fx _ _ _ (k6_off9_eq i g) (by omega) _ _ d
      · exact row_payload arg1 arg2 c ft fx _ _ _ (k6_off11_eq i g) (by omega) _ _ d
      · exact row_payload arg1 arg2 c ft fx _ _ _ (k6_off13_eq i g) (by omega) _ _ d
      · exact row_payload arg1 arg2 c ft fx _ _ _ (k6_off15_eq i g) (by omega) _ _ d
      · exact row_payload arg1 arg2 c ft fx _ _ _ (k6_off17_eq i g) (by omega) _ _ d
      · exact row_payload arg1 arg2 c ft fx _ _ _ (k6_off19_eq i g) (by omega) _ _ d
      · exact row_payload arg1 arg2 c ft fx _ _ _ (k6_off21_eq i g) (by omega) _ _ d
      · exact row_payload arg1 arg2 c ft fx _ _ _ (k6_off23_eq i g) (by omega) _ _ d
      · exact row_payload arg1 arg2 c ft fx _ _ _ (k6_off25_eq i g) (by omega) _ _ d
      · exact row_payload arg1 arg2 c ft fx _ _ _ (k6_off27_eq i g) (by omega) _ _ d
      · exact row_payload arg1 arg2 c ft fx _ _ _ (k6_off29_eq i g) (by omega) _ _ d
      · exact row_payload arg1 arg2 c ft fx _ _ _ (k6_off31_eq i g) (by omega) _ _ d
      ) _
  sl_exec
  sl_step
  rw [pcs6_succ, View.writes_cons]
  unfold k6_trip.sl.H4_w1
  sl_close

set_option maxHeartbeats 4000000 in

theorem sound_kernel6 (c : Dev nD) (i : grid6.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems6 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk6 i tbl x v) ∗ (∃ d, owns (c : Thread nD τ) arg5 fullShare d) ∗ sems6 c ∗ (∃ W', owes (c : Thread nD τ) 0 W')) -∗ K ⟨⟩))
      ⊢ wp frame (wpE (defs₀ (F := F)) Variants.none c none) Set.univ (cc6__gather_kernel i arg1 harg1 arg2 harg2 arg3 harg3 arg4 harg4 arg5 harg5 cc6_scratch1) K := by
  simp only [cc6__gather_kernel_eq_skeleton]; unfold cc6__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks6 c arg2 fx) := Cert.Toks.toks16_split _ _ _ _
  ihave H2' := htok.1 $$ H2
  icases H2' with ⟨HD, HT⟩
  sl_exec
  sl_for (k6_inv c i arg1 arg2 arg4 arg5 q ft fx f4) $$ [H1 HT H4 H5 HS HW]
  case region =>
    intro g acc
    exact k6_trip c i arg1 harg1 arg2 harg2 arg3 harg3 arg4 harg4 arg5 harg5 q ft fx htbl f4 g acc
  · unfold k6_inv
    isplitl [H1]; · iexact H1
    isplitl [HT]; · iexact HT
    isplitl [H4]; · iexact H4
    isplitl [H5]; · iexists _; iexact H5
    isplitl [HS]; · iexact HS
    iexists _; iexact HW
  iintro %acc HI; unfold k6_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs6 i tbl x (Scf.trips k6_t1_loop.lb k6_t1_loop.ub k6_t1_loop.st), y ∈ p.1.set :=
      cover_pcs6 i tbl x
    have h2 : arg4.view.readCov (pcs6 i tbl x (Scf.trips k6_t1_loop.lb k6_t1_loop.ub k6_t1_loop.st))
        (Rect.unit (s := S800x256) ![0, 0] S800x256.size inb_S800x256_S800x256_0_0).toLoadRect = loopArr6 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.KernelIdeal.Hand

end
-- ==== Proof.KI.Region6.lean ====
import proofs.«411766_j31920196944464_2_alg».proof.Proof.KI.Body6
import proofs.«411766_j31920196944464_2_alg».proof.Proof.KI.Common
import proofs.«411766_j31920196944464_2_alg».proof.Proof.Gen.KernelIdeal.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg6 (F := F)).Adm)

def iblk6 (c : Dev nD) (w : Fin (cfg6 a0).W) (t : Fin (cfg6 a0).N) : (((cfg6 a0).win w).xblock ((cfg6 a0).grid.coords t)).Idx → Elt F ((cfg6 a0).win w).elt :=
  (((cfg6 a0).win w).blk t).view.read (Elt F) (Vd c (Pipeline.arrRef spec6 w))

abbrev osem6 : Fin 16 → SemLoc sig := fun k =>
  (![SemLoc.dma 131, SemLoc.dma 132, SemLoc.dma 133, SemLoc.dma 134, SemLoc.dma 135, SemLoc.dma 136, SemLoc.dma 137, SemLoc.dma 138,
     SemLoc.dma 139, SemLoc.dma 140, SemLoc.dma 141, SemLoc.dma 142, SemLoc.dma 143, SemLoc.dma 144, SemLoc.dma 145, SemLoc.dma 146] : Fin 16 → SemLoc sig) k

theorem ownSemFacts6 : Pipeline.OwnSemFacts spec6 osem6 := by decide

theorem ownSems06_eq (c : Dev nD) :
    (Pipeline.ownSems0 (Ix := Unit) (Name := ℕ) (U := Pipeline.UD sig nD τ) (Lvl := ℕ) (Val := Elt F) (τ := τ) osem6 c : sProp 𝕄) = sems6 c := by
  rw [Pipeline.ownSems0_eq_of_list c osem6 [0, 1, 2, 3, 4, 5, 6, 7, 8, 9, 10, 11, 12, 13, 14, 15] (by decide) (by decide)]; rfl

theorem prefHeld6_eq (c : Dev nD) (pf : pre6.Contents (Elt F)) :
    (Pipeline.prefHeld (Ix := Unit) (Name := ℕ) (U := Pipeline.UD sig nD τ) (Lvl := ℕ) pre6 c (fun _ => fullShare) pf : sProp 𝕄)
      = owns (c : Thread nD τ) (Memref.whole main_v28) fullShare (pf 0) := by
  refine Eq.trans ?_ (owns_whole (c : Thread nD τ) main_v28 fullShare (pf 0)).symm
  unfold Pipeline.prefHeld
  exact bigSep_univ_eq_bigSepL [(0 : Fin 1)] (by decide) (by decide) _

theorem scratch6_eq (c : Dev nD) :
    (iprop(∃ f : Buf (Elt F) ((c : Thread nD τ).loc cc6_scratch0), ((c : Thread nD τ).loc cc6_scratch0) ↦{fullShare} f) : sProp 𝕄)
      = iprop(∃ d, owns (c : Thread nD τ) (Memref.whole cc6_scratch0) fullShare d) := by
  simp only [owns_whole]

def HCol6 : Prop := ∀ e, ((a0.1 0 : Vec F S80000 .i32) e).toNat < 20000

def Φ6 (c : Dev nD) : sProp 𝕄 :=
  iprop(Pipeline.ownSems0 osem6 c ∗ Pipeline.prefHeld pre6 c (fun _ => fullShare) a0.1 ∗ Pipeline.scopedRest spec6 c)

def dat6 (c : Dev nD) : Dat τ (Elt F) Unit ℕ (Pipeline.UD sig nD τ) ℕ (cfg6 a0) c where
  A w := Vd c (Pipeline.arrRef spec6 w)
  after w t := match w with
    | ⟨0, _⟩ => iblk6 Vd a0 c 0 t
    | ⟨1, _⟩ => iblk6 Vd a0 c 1 t
    | ⟨2, _⟩ => outBlk6 (grid6.coords t) (a0.1 0) (iblk6 Vd a0 c 0 t) (iblk6 Vd a0 c 1 t)
  Φ _ := Φ6 a0 c
  q _ := fullShare
  owed _ := 0

theorem A_eq6 (c : Dev nD) (w : Fin 3) : (dat6 Vd a0 c).A w = Vd c (Pipeline.arrRef spec6 w) := by
  dsimp only [dat6]

theorem after6_x (c : Dev nD) (t : Fin (cfg6 a0).N) : (dat6 Vd a0 c).after (0 : Fin 3) t = iblk6 Vd a0 c 0 t := by dsimp only [dat6]
theorem after6_val (c : Dev nD) (t : Fin (cfg6 a0).N) : (dat6 Vd a0 c).after (1 : Fin 3) t = iblk6 Vd a0 c 1 t := by dsimp only [dat6]
theorem after6_out (c : Dev nD) (t : Fin (cfg6 a0).N) :
    (dat6 Vd a0 c).after (2 : Fin 3) t = outBlk6 (grid6.coords t) (a0.1 0) (iblk6 Vd a0 c 0 t) (iblk6 Vd a0 c 1 t) := by dsimp only [dat6]

theorem before6_x (c : Dev nD) (t : Fin (cfg6 a0).N) (d) : (dat6 Vd a0 c).before 0 t d = iblk6 Vd a0 c 0 t := by
  refine ((dat6 Vd a0 c).before_in_eq_fetched 0 rfl (fun _ => rfl) (fun _ _ _ => rfl) (fun s => ?_) t d).trans ?_
  · rw [after6_x]; rfl
  · rfl
theorem before6_val (c : Dev nD) (t : Fin (cfg6 a0).N) (d) : (dat6 Vd a0 c).before 1 t d = iblk6 Vd a0 c 1 t := by
  refine ((dat6 Vd a0 c).before_in_eq_fetched 1 rfl (fun _ => rfl) (fun _ _ _ => rfl) (fun s => ?_) t d).trans ?_
  · rw [after6_val]; rfl
  · rfl

abbrev st6_x (t : Fin (cfg6 a0).N) := ((cfg6 a0).win 0).stage ((cfg6 a0).slots t 0)
abbrev st6_val (t : Fin (cfg6 a0).N) := ((cfg6 a0).win 1).stage ((cfg6 a0).slots t 1)
abbrev st6_out (t : Fin (cfg6 a0).N) := ((cfg6 a0).win 2).stage ((cfg6 a0).slots t 2)

abbrev bodyAt6 (t : Fin (cfg6 a0).N) : Prog (TpuEff nD τ sig (Elt F) Λ₀ .tc) PUnit :=
  cc6__gather_kernel (grid6.coords t) (Memref.whole main_v28) (Memref.isWhole_whole _)
    (spec6_0.stage ((cfg6 a0).slots t 0)) (hstage6_0 (((cfg6 a0).slots t 0).cast nbuf6_0))
    (spec6_1.stage ((cfg6 a0).slots t 1)) (hstage6_1 (((cfg6 a0).slots t 1).cast nbuf6_1))
    (spec6_2.stage ((cfg6 a0).slots t 2)) (hstage6_2 (((cfg6 a0).slots t 2).cast nbuf6_2))
    (Memref.whole cc6_scratch0) (Memref.isWhole_whole _) cc6_scratch1

def bodyPre6 (c : Dev nD) (t : Fin (cfg6 a0).N) : sProp 𝕄 :=
  iprop((dat6 Vd a0 c).Φ t.castSucc ∗ (dat6 Vd a0 c).owesAt () t.castSucc
    ∗ (∃ d, owns (c : Thread nD τ) (st6_x a0 t) fullShare ((dat6 Vd a0 c).before 0 t d))
    ∗ (∃ d, owns (c : Thread nD τ) (st6_val a0 t) fullShare ((dat6 Vd a0 c).before 1 t d))
    ∗ (∃ d, owns (c : Thread nD τ) (st6_out a0 t) fullShare ((dat6 Vd a0 c).before 2 t d)))

def bodyPost6 (c : Dev nD) (t : Fin (cfg6 a0).N) : sProp 𝕄 :=
  iprop((dat6 Vd a0 c).Φ t.succ ∗ (dat6 Vd a0 c).owesAt () t.succ
    ∗ owns (c : Thread nD τ) (st6_x a0 t) fullShare ((dat6 Vd a0 c).after 0 t)
    ∗ owns (c : Thread nD τ) (st6_val a0 t) fullShare ((dat6 Vd a0 c).after 1 t)
    ∗ owns (c : Thread nD τ) (st6_out a0 t) fullShare ((dat6 Vd a0 c).after 2 t))

theorem sound_body6 (hcol : HCol6 a0) (c : Dev nD) (t : Fin (cfg6 a0).N) :
    bodyPre6 Vd a0 c t ⊢ wp frame (wpE (defs₀ (F := F)) Variants.none c none) Set.univ (bodyAt6 a0 t) (fun _ => bodyPost6 Vd a0 c t) := by
  unfold bodyPre6 bodyPost6 bodyAt6
  simp only [before6_x, before6_val]
  rw [show (dat6 Vd a0 c).Φ t.succ = Φ6 a0 c from rfl, show (dat6 Vd a0 c).Φ t.castSucc = Φ6 a0 c from rfl,
    after6_x, after6_val, after6_out]
  unfold Φ6 Dat.owesAt Pipeline.owesWithin
  rw [scopedRest6_split, scratch6_eq, ownSems06_eq, prefHeld6_eq,
    show (dat6 Vd a0 c).owed t.castSucc = 0 from rfl, show (dat6 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel6 c (grid6.coords t) _ _ _ _ _ _ _ _ _ _ fullShare (a0.1 0) (iblk6 Vd a0 c 0 t) (iblk6 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation6 (hcol : HCol6 a0) (c : Dev nD) :
    BodyObligation (dat6 (F := F) Vd a0 c) (defs₀ (F := F)) Variants.none () Set.univ := fun t => by
  rw [bigSep_W6, bigSep_W6]
  exact sound_body6 Vd a0 hcol c t

abbrev X6 (c : Dev nD) : sProp 𝕄 := Pipeline.ownSems0 osem6 c
abbrev Y6 (c : Dev nD) : sProp 𝕄 := Pipeline.prefHeld pre6 c (fun _ => fullShare) a0.1
abbrev Z6 (V : Valuation τ sig (Elt F)) (c : Dev nD) : sProp 𝕄 :=
  iprop(Pipeline.unscopedRestP (Ix := Unit) (Name := ℕ) (U := Pipeline.UD sig nD τ) (Lvl := ℕ) pre6 spec6 c (fun b => V b) ∗ ∃ r, prngReg c r)

theorem hentry6 (c : Dev nD) (V : Valuation τ sig (Elt F)) (hA : ∀ w, Vd c (Pipeline.arrRef spec6 w) = V (Pipeline.arrRef spec6 w))
    (hT : ∀ k, a0.1 k = V (pre6.ref k)) :
    iprop(iprop(StableHlo.held (c : Thread nD τ) (Pipeline.ucRefs τ sig) V ∗ R c) ∗ Pipeline.ownSems0 osem6 c ∗ levAts L lv)
      ⊢ |={Set.univ}=> iprop((dat6 Vd a0 c).arrays ((dat6 Vd a0 c).arrAt · 0) ∗ Pipeline.prefHeld pre6 c (fun _ => fullShare) a0.1
          ∗ (dat6 Vd a0 c).owesAt () 0 ∗ X6 c ∗ Z6 V c) := by
  have hsplit := Pipeline.arrays_of_unscopedBufs (p := ()) (fun _ : Unit => pcfg6 (F := F)) (fun _ => a0) (fun _ c => dat6 Vd a0 c)
    (Ix := Unit) (Name := ℕ) (U := Pipeline.UD sig nD τ) (Lvl := ℕ) winFacts6 arr_whole6 c ((dat6 Vd a0 c).share_full fun _ => rfl) (fun b => V b) hA
  rw [Pipeline.unscopedBufs_held, Pipeline.unscopedRest_split preFacts6,
    show (fun k => V (pre6.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin6 (c : Dev nD) :
    iprop(X6 c ∗ Pipeline.prefHeld pre6 c (fun _ => fullShare) a0.1 ∗ Pipeline.scopedRest spec6 c) ⊢ (dat6 Vd a0 c).Φ 0 := by
  show _ ⊢ Φ6 a0 c
  unfold Φ6; exact .rfl

theorem hout6 (c : Dev nD) :
    (dat6 Vd a0 c).Φ (Fin.last (cfg6 a0).N) ⊢ iprop(Y6 a0 c ∗ Pipeline.ownSems0 osem6 c ∗ Pipeline.scopedRest spec6 c) := by
  show Φ6 a0 c ⊢ _
  unfold Φ6
  iintro ⟨Hs, Hp, Hr⟩
  isplitl [Hp]; · iexact Hp
  isplitl [Hs]; · iexact Hs
  iexact Hr

theorem hexit6 (c : Dev nD) (V Vp : Valuation τ sig (Elt F))
    (hF : ∀ w, (dat6 Vd a0 c).arrAt w (cfg6 a0).N = Vp (Pipeline.arrRef spec6 w))
    (hrest : ∀ b : Ref sig .tc, b ∉ Finset.univ.image (Pipeline.arrRef spec6) → Vp b = V b) (hT : ∀ k, a0.1 k = V (pre6.ref k)) :
    iprop((dat6 Vd a0 c).arrays ((dat6 Vd a0 c).arrAt · (cfg6 a0).N) ∗ (dat6 Vd a0 c).owesAt () (Fin.last (cfg6 a0).N) ∗ Y6 a0 c ∗ Z6 V c)
      ⊢ |={Set.univ}=> iprop(StableHlo.held (c : Thread nD τ) (Pipeline.ucRefs τ sig) Vp ∗ R c) := by
  have hjoin := Pipeline.unscopedBufs_of_arrays (p := ()) (fun _ : Unit => pcfg6 (F := F)) (fun _ => a0) (Ix := Unit) (Name := ℕ) (U := Pipeline.UD sig nD τ) (Lvl := ℕ)
    winFacts6 arr_whole6 c (fun _ c => dat6 Vd a0 c) ((dat6 Vd a0 c).share_full fun _ => rfl)
    (fun b => V b) (fun b => Vp b) ((dat6 Vd a0 c).arrAt · (cfg6 a0).N) hF hrest
  rw [Pipeline.unscopedBufs_held, Pipeline.unscopedRest_split preFacts6,
    show (fun k => V (pre6.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

def pt6 (r : Fin 80000) : Fin (cfg6 a0).N := ⟨r.val / 800, by have := r.isLt; show r.val / 800 < grid6.N; rw [N_6]; omega⟩

def outArr6 (c : Dev nD) : Vec F S80000x256 .f32 := fun i =>
  outBlk6 (grid6.coords (pt6 a0 (i 0))) (a0.1 0) (iblk6 Vd a0 c 0 (pt6 a0 (i 0))) (iblk6 Vd a0 c 1 (pt6 a0 (i 0)))
    (ValueIdx.ix2 ⟨(i 0).val % 800, Nat.mod_lt _ (by decide)⟩ (i 1))

end Region0
end Cert.KernelIdeal.Hand
end
-- ==== Proof.KI.Out7.lean ====
import proofs.«411766_j31920196944464_2_alg».proof.Proof.Gen.KernelIdeal.Loops
import proofs.«411766_j31920196944464_2_alg».proof.Proof.Gather

set_option maxRecDepth 16384

noncomputable section

namespace Cert.KernelIdeal.Hand

open Cert.KernelIdeal Cert.KernelIdeal.Gen
open Idealize.ShloMosaic Idealize.ShloMosaic.TcCoe

variable {F : FTy → Type} [FloatOps F]

def gath7 (i : grid7.Coords) (tbl : Vec F S80000 .i32) (x : Vec F S20000x256 .f32) (g : ℕ) : Vec F S16x256 .f32 :=
  Gather.gath (i 0).val tbl x g

def pcs7 (i : grid7.Coords) (tbl : Vec F S80000 .i32) (x : Vec F S20000x256 .f32) (n : ℕ) : List (View.Piece (Elt F) S800x256 .f32) :=
  Gather.pcs k7_off48 k7_off48_inb (i 0).val tbl x n

theorem pcs7_succ (i : grid7.Coords) (tbl : Vec F S80000 .i32) (x : Vec F S20000x256 .f32) (g : Fin k7_t1_loop.trips) :
    pcs7 i tbl x (g.val + 1)
      = ⟨Rect.unit (s := S800x256) (k7_off48 g) S16x256.size (k7_off48_inb g), gath7 i tbl x g.val⟩ :: pcs7 i tbl x g.val :=
  Gather.pcs_succ k7_off48 k7_off48_inb (i 0).val tbl x g

def loopArr7 (i : grid7.Coords) (tbl : Vec F S80000 .i32) (x : Vec F S20000x256 .f32) : Vec F S800x256 .f32 :=
  Gather.loopArr k7_off48 k7_off48_inb (i 0).val tbl x

def outBlk7 (i : grid7.Coords) (tbl : Vec F S80000 .i32) (x : Vec F S20000x256 .f32) (v : Vec F S800x1 .f32) : Vec F S800x256 .f32 :=
  k7_pay1 (loopArr7 i tbl x) v

theorem trips7 : k7_t1_loop.trips = 50 := by decide

theorem cover_pcs7 (i : grid7.Coords) (tbl : Vec F S80000 .i32) (x : Vec F S20000x256 .f32) :
    ∀ y : S800x256.Idx, ∃ p ∈ pcs7 i tbl x k7_t1_loop.trips, y ∈ p.1.set :=
  Gather.cover_pcs k7_off48 k7_off48_inb k7_off48_eq trips7 (i 0).val tbl x

theorem outBlk7_apply (i : grid7.Coords) (tbl : Vec Ideal S80000 .i32) (x : Vec Ideal S20000x256 .f32) (v : Vec Ideal S800x1 .f32)
    (htbl : ∀ e : S80000.Idx, (tbl e).toNat < 20000) (r : Fin 800) (d : Fin 256) :
    outBlk7 i tbl x v (ValueIdx.ix2 r d)
      = x (ValueIdx.ix2 ⟨(tbl (ValueIdx.ix1 ⟨800 * (i 0).val + r.val, by
            have := (i 0).isLt; change (i 0).val < 100 at this; have := r.isLt; omega⟩)).toNat, htbl _⟩ d)
        * v (ValueIdx.ix2 r (0 : Fin 1)) := by
  unfold outBlk7 k7_pay1 loopArr7
  exact Gather.scaled_apply k7_off48 k7_off48_inb k7_off48_eq trips7 (i 0).isLt tbl x v htbl _ _ _ r d

end Cert.KernelIdeal.Hand

end
-- ==== Proof.KI.Body7.lean ====
import proofs.«411766_j31920196944464_2_alg».proof.Proof.KI.Out7
import proofs.«411766_j31920196944464_2_alg».proof.Proof.KI.Rows5
import proofs.«411766_j31920196944464_2_alg».proof.Proof.KI.Rows5b
import proofs.«411766_j31920196944464_2_alg».proof.Proof.KI.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems7 (c : Dev nD) : sProp 𝕄 :=
  iprop(semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0
    ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0
    ∗ semVal ((c : Thread nD τ), SemLoc.dma 160) 0 ∗ semVal ((c : Thread nD τ), SemLoc.dma 161) 0 ∗ semVal ((c : Thread nD τ), SemLoc.dma 162) 0 ∗ semVal ((c : Thread nD τ), SemLoc.dma 163) 0
    ∗ semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0)

abbrev tok7 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks7 (c : Dev nD) (arg2 : Memref sig .tc .vmem S20000x256 .f32) (fx : Buf (Elt F) (arg2.view.loc (c : Thread nD τ))) : sProp 𝕄 :=
  iprop(tok7 c arg2 fx 152 ∗ tok7 c arg2 fx 153 ∗ tok7 c arg2 fx 154 ∗ tok7 c arg2 fx 155 ∗ tok7 c arg2 fx 156 ∗ tok7 c arg2 fx 157 ∗ tok7 c arg2 fx 158 ∗ tok7 c arg2 fx 159
    ∗ tok7 c arg2 fx 160 ∗ tok7 c arg2 fx 161 ∗ tok7 c arg2 fx 162 ∗ tok7 c arg2 fx 163 ∗ tok7 c arg2 fx 164 ∗ tok7 c arg2 fx 165 ∗ tok7 c arg2 fx 166 ∗ tok7 c arg2 fx 167)

def k7_inv (c : Dev nD) (i : grid7.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks7 c arg2 fx
    ∗ (arg4.view.loc (c : Thread nD τ) ↦[arg4.view.set]{fullShare}
        arg4.view.writes (Elt F) f4 (pcs7 i (arg1.view.read (Elt F) ft) (arg2.view.read (Elt F) fx) n))
    ∗ (∃ f5, arg5.view.loc (c : Thread nD τ) ↦[arg5.view.set]{fullShare} f5)
    ∗ sems7 c ∗ (∃ W, owes (c : Thread nD τ) 0 W))

set_option maxHeartbeats 8000000 in

theorem k7_trip (c : Dev nD) (i : grid7.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k7_t1_loop.trips) (acc : Unit) :
    k7_inv c i arg1 arg2 arg4 arg5 q ft fx f4 g.val acc
      ⊢ wp frame (wpE (defs₀ (F := F)) Variants.none c none) Set.univ
          (k7_t1_body i arg1 harg1 arg2 harg2 arg3 harg3 arg4 harg4 arg5 harg5 cc7_scratch1 (Scalar.muli (BitVec.ofNat 32 (i 0).val) 800#32) g acc)
          (k7_inv c i arg1 arg2 arg4 arg5 q ft fx f4 (g.val + 1)) := by
  unfold k7_inv k7_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k7_chk1 (arg1.view.readAt (Elt F) (Rect.unit (s := S80000) (k7_off1 i g) S1.size (k7_off1_inb i g)).toLoadRect ft (Shape.Idx.first (numel1_S1.symm ▸ Nat.one_pos))) := row_inb2 _ (htbl _)
  have hc2 : k7_chk2 (arg1.view.readAt (Elt F) (Rect.unit (s := S80000) (k7_off3 i g) S1.size (k7_off3_inb i g)).toLoadRect ft (Shape.Idx.first (numel1_S1.symm ▸ Nat.one_pos))) := row_inb2 _ (htbl _)
  have hc3 : k7_chk3 (arg1.view.readAt (Elt F) (Rect.unit (s := S80000) (k7_off5 i g) S1.size (k7_off5_inb i g)).toLoadRect ft (Shape.Idx.first (numel1_S1.symm ▸ Nat.one_pos))) := row_inb2 _ (htbl _)
  have hc4 : k7_chk4 (arg1.view.readAt (Elt F) (Rect.unit (s := S80000) (k7_off7 i g) S1.size (k7_off7_inb i g)).toLoadRect ft (Shape.Idx.first (numel1_S1.symm ▸ Nat.one_pos))) := row_inb2 _ (htbl _)
  have hc5 : k7_chk5 (arg1.view.readAt (Elt F) (Rect.unit (s := S80000) (k7_off9 i g) S1.size (k7_off9_inb i g)).toLoadRect ft (Shape.Idx.first (numel1_S1.symm ▸ Nat.one_pos))) := row_inb2 _ (htbl _)
  have hc6 : k7_chk6 (arg1.view.readAt (Elt F) (Rect.unit (s := S80000) (k7_off11 i g) S1.size (k7_off11_inb i g)).toLoadRect ft (Shape.Idx.first (numel1_S1.symm ▸ Nat.one_pos))) := row_inb2 _ (htbl _)
  have hc7 : k7_chk7 (arg1.view.readAt (Elt F) (Rect.unit (s := S80000) (k7_off13 i g) S1.size (k7_off13_inb i g)).toLoadRect ft (Shape.Idx.first (numel1_S1.symm ▸ Nat.one_pos))) := row_inb2 _ (htbl _)
  have hc8 : k7_chk8 (arg1.view.readAt (Elt F) (Rect.unit (s := S80000) (k7_off15 i g) S1.size (k7_off15_inb i g)).toLoadRect ft (Shape.Idx.first (numel1_S1.symm ▸ Nat.one_pos))) := row_inb2 _ (htbl _)
  have hc9 : k7_chk9 (arg1.view.readAt (Elt F) (Rect.unit (s := S80000) (k7_off17 i g) S1.size (k7_off17_inb i g)).toLoadRect ft (Shape.Idx.first (numel1_S1.symm ▸ Nat.one_pos))) := row_inb2 _ (htbl _)
  have hc10 : k7_chk10 (arg1.view.readAt (Elt F) (Rect.unit (s := S80000) (k7_off19 i g) S1.size (k7_off19_inb i g)).toLoadRect ft (Shape.Idx.first (numel1_S1.symm ▸ Nat.one_pos))) := row_inb2 _ (htbl _)
  have hc11 : k7_chk11 (arg1.view.readAt (Elt F) (Rect.unit (s := S80000) (k7_off21 i g) S1.size (k7_off21_inb i g)).toLoadRect ft (Shape.Idx.first (numel1_S1.symm ▸ Nat.one_pos))) := row_inb2 _ (htbl _)
  have hc12 : k7_chk12 (arg1.view.readAt (Elt F) (Rect.unit (s := S80000) (k7_off23 i g) S1.size (k7_off23_inb i g)).toLoadRect ft (Shape.Idx.first (numel1_S1.symm ▸ Nat.one_pos))) := row_inb2 _ (htbl _)
  have hc13 : k7_chk13 (arg1.view.readAt (Elt F) (Rect.unit (s := S80000) (k7_off25 i g) S1.size (k7_off25_inb i g)).toLoadRect ft (Shape.Idx.first (numel1_S1.symm ▸ Nat.one_pos))) := row_inb2 _ (htbl _)
  have hc14 : k7_chk14 (arg1.view.readAt (Elt F) (Rect.unit (s := S80000) (k7_off27 i g) S1.size (k7_off27_inb i g)).toLoadRect ft (Shape.Idx.first (numel1_S1.symm ▸ Nat.one_pos))) := row_inb2 _ (htbl _)
  have hc15 : k7_chk15 (arg1.view.readAt (Elt F) (Rect.unit (s := S80000) (k7_off29 i g) S1.size (k7_off29_inb i g)).toLoadRect ft (Shape.Idx.first (numel1_S1.symm ▸ Nat.one_pos))) := row_inb2 _ (htbl _)
  have hc16 : k7_chk16 (arg1.view.readAt (Elt F) (Rect.unit (s := S80000) (k7_off31 i g) S1.size (k7_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k7_trip.sl.dma1 c i arg1 arg2 ft fx g hc1) (k7_trip.sl.dma2 c i arg1 arg2 ft fx g hc2) (k7_trip.sl.dma3 c i arg1 arg2 ft fx g hc3) (k7_trip.sl.dma4 c i arg1 arg2 ft fx g hc4) (k7_trip.sl.dma5 c i arg1 arg2 ft fx g hc5) (k7_trip.sl.dma6 c i arg1 arg2 ft fx g hc6) (k7_trip.sl.dma7 c i arg1 arg2 ft fx g hc7) (k7_trip.sl.dma8 c i arg1 arg2 ft fx g hc8) (k7_trip.sl.dma9 c i arg1 arg2 ft fx g hc9) (k7_trip.sl.dma10 c i arg1 arg2 ft fx g hc10) (k7_trip.sl.dma11 c i arg1 arg2 ft fx g hc11) (k7_trip.sl.dma12 c i arg1 arg2 ft fx g hc12) (k7_trip.sl.dma13 c i arg1 arg2 ft fx g hc13) (k7_trip.sl.dma14 c i arg1 arg2 ft fx g hc14) (k7_trip.sl.dma15 c i arg1 arg2 ft fx g hc15) (k7_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath7 i (arg1.view.read (Elt F) ft) (arg2.view.read (Elt F) fx) g.val :=
    scratch_reads arg5 c f5 g5 _ hg5 _ (fun k d => by
      have hi : (i 0).val < 100 := (i 0).isLt
      have hg : g.val < 50 := trips7 ▸ g.isLt
      fin_cases k
      · exact row_payload arg1 arg2 c ft fx _ _ _ (k7_off1_eq i g) (by omega) _ _ d
      · exact row_payload arg1 arg2 c ft fx _ _ _ (k7_off3_eq i g) (by omega) _ _ d
      · exact row_payload arg1 arg2 c ft fx _ _ _ (k7_off5_eq i g) (by omega) _ _ d
      · exact row_payload arg1 arg2 c ft fx _ _ _ (k7_off7_eq i g) (by omega) _ _ d
      · exact row_payload arg1 arg2 c ft fx _ _ _ (k7_off9_eq i g) (by omega) _ _ d
      · exact row_payload arg1 arg2 c ft fx _ _ _ (k7_off11_eq i g) (by omega) _ _ d
      · exact row_payload arg1 arg2 c ft fx _ _ _ (k7_off13_eq i g) (by omega) _ _ d
      · exact row_payload arg1 arg2 c ft fx _ _ _ (k7_off15_eq i g) (by omega) _ _ d
      · exact row_payload arg1 arg2 c ft fx _ _ _ (k7_off17_eq i g) (by omega) _ _ d
      · exact row_payload arg1 arg2 c ft fx _ _ _ (k7_off19_eq i g) (by omega) _ _ d
      · exact row_payload arg1 arg2 c ft fx _ _ _ (k7_off21_eq i g) (by omega) _ _ d
      · exact row_payload arg1 arg2 c ft fx _ _ _ (k7_off23_eq i g) (by omega) _ _ d
      · exact row_payload arg1 arg2 c ft fx _ _ _ (k7_off25_eq i g) (by omega) _ _ d
      · exact row_payload arg1 arg2 c ft fx _ _ _ (k7_off27_eq i g) (by omega) _ _ d
      · exact row_payload arg1 arg2 c ft fx _ _ _ (k7_off29_eq i g) (by omega) _ _ d
      · exact row_payload arg1 arg2 c ft fx _ _ _ (k7_off31_eq i g) (by omega) _ _ d
      ) _
  sl_exec
  sl_step
  rw [pcs7_succ, View.writes_cons]
  unfold k7_trip.sl.H4_w1
  sl_close

set_option maxHeartbeats 4000000 in

theorem sound_kernel7 (c : Dev nD) (i : grid7.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems7 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk7 i tbl x v) ∗ (∃ d, owns (c : Thread nD τ) arg5 fullShare d) ∗ sems7 c ∗ (∃ W', owes (c : Thread nD τ) 0 W')) -∗ K ⟨⟩))
      ⊢ wp frame (wpE (defs₀ (F := F)) Variants.none c none) Set.univ (cc7__gather_kernel i arg1 harg1 arg2 harg2 arg3 harg3 arg4 harg4 arg5 harg5 cc7_scratch1) K := by
  simp only [cc7__gather_kernel_eq_skeleton]; unfold cc7__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks7 c arg2 fx) := Cert.Toks.toks16_split _ _ _ _
  ihave H2' := htok.1 $$ H2
  icases H2' with ⟨HD, HT⟩
  sl_exec
  sl_for (k7_inv c i arg1 arg2 arg4 arg5 q ft fx f4) $$ [H1 HT H4 H5 HS HW]
  case region =>
    intro g acc
    exact k7_trip c i arg1 harg1 arg2 harg2 arg3 harg3 arg4 harg4 arg5 harg5 q ft fx htbl f4 g acc
  · unfold k7_inv
    isplitl [H1]; · iexact H1
    isplitl [HT]; · iexact HT
    isplitl [H4]; · iexact H4
    isplitl [H5]; · iexists _; iexact H5
    isplitl [HS]; · iexact HS
    iexists _; iexact HW
  iintro %acc HI; unfold k7_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs7 i tbl x (Scf.trips k7_t1_loop.lb k7_t1_loop.ub k7_t1_loop.st), y ∈ p.1.set :=
      cover_pcs7 i tbl x
    have h2 : arg4.view.readCov (pcs7 i tbl x (Scf.trips k7_t1_loop.lb k7_t1_loop.ub k7_t1_loop.st))
        (Rect.unit (s := S800x256) ![0, 0] S800x256.size inb_S800x256_S800x256_0_0).toLoadRect = loopArr7 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.KernelIdeal.Hand

end
-- ==== Proof.KI.Region7.lean ====
import proofs.«411766_j31920196944464_2_alg».proof.Proof.KI.Body7
import proofs.«411766_j31920196944464_2_alg».proof.Proof.KI.Common
import proofs.«411766_j31920196944464_2_alg».proof.Proof.Gen.KernelIdeal.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg7 (F := F)).Adm)

def iblk7 (c : Dev nD) (w : Fin (cfg7 a0).W) (t : Fin (cfg7 a0).N) : (((cfg7 a0).win w).xblock ((cfg7 a0).grid.coords t)).Idx → Elt F ((cfg7 a0).win w).elt :=
  (((cfg7 a0).win w).blk t).view.read (Elt F) (Vd c (Pipeline.arrRef spec7 w))

abbrev osem7 : Fin 16 → SemLoc sig := fun k =>
  (![SemLoc.dma 152, SemLoc.dma 153, SemLoc.dma 154, SemLoc.dma 155, SemLoc.dma 156, SemLoc.dma 157, SemLoc.dma 158, SemLoc.dma 159,
     SemLoc.dma 160, SemLoc.dma 161, SemLoc.dma 162, SemLoc.dma 163, SemLoc.dma 164, SemLoc.dma 165, SemLoc.dma 166, SemLoc.dma 167] : Fin 16 → SemLoc sig) k

theorem ownSemFacts7 : Pipeline.OwnSemFacts spec7 osem7 := by decide

theorem ownSems07_eq (c : Dev nD) :
    (Pipeline.ownSems0 (Ix := Unit) (Name := ℕ) (U := Pipeline.UD sig nD τ) (Lvl := ℕ) (Val := Elt F) (τ := τ) osem7 c : sProp 𝕄) = sems7 c := by
  rw [Pipeline.ownSems0_eq_of_list c osem7 [0, 1, 2, 3, 4, 5, 6, 7, 8, 9, 10, 11, 12, 13, 14, 15] (by decide) (by decide)]; rfl

theorem prefHeld7_eq (c : Dev nD) (pf : pre7.Contents (Elt F)) :
    (Pipeline.prefHeld (Ix := Unit) (Name := ℕ) (U := Pipeline.UD sig nD τ) (Lvl := ℕ) pre7 c (fun _ => fullShare) pf : sProp 𝕄)
      = owns (c : Thread nD τ) (Memref.whole main_v32) fullShare (pf 0) := by
  refine Eq.trans ?_ (owns_whole (c : Thread nD τ) main_v32 fullShare (pf 0)).symm
  unfold Pipeline.prefHeld
  exact bigSep_univ_eq_bigSepL [(0 : Fin 1)] (by decide) (by decide) _

theorem scratch7_eq (c : Dev nD) :
    (iprop(∃ f : Buf (Elt F) ((c : Thread nD τ).loc cc7_scratch0), ((c : Thread nD τ).loc cc7_scratch0) ↦{fullShare} f) : sProp 𝕄)
      = iprop(∃ d, owns (c : Thread nD τ) (Memref.whole cc7_scratch0) fullShare d) := by
  simp only [owns_whole]

def HCol7 : Prop := ∀ e, ((a0.1 0 : Vec F S80000 .i32) e).toNat < 20000

def Φ7 (c : Dev nD) : sProp 𝕄 :=
  iprop(Pipeline.ownSems0 osem7 c ∗ Pipeline.prefHeld pre7 c (fun _ => fullShare) a0.1 ∗ Pipeline.scopedRest spec7 c)

def dat7 (c : Dev nD) : Dat τ (Elt F) Unit ℕ (Pipeline.UD sig nD τ) ℕ (cfg7 a0) c where
  A w := Vd c (Pipeline.arrRef spec7 w)
  after w t := match w with
    | ⟨0, _⟩ => iblk7 Vd a0 c 0 t
    | ⟨1, _⟩ => iblk7 Vd a0 c 1 t
    | ⟨2, _⟩ => outBlk7 (grid7.coords t) (a0.1 0) (iblk7 Vd a0 c 0 t) (iblk7 Vd a0 c 1 t)
  Φ _ := Φ7 a0 c
  q _ := fullShare
  owed _ := 0

theorem A_eq7 (c : Dev nD) (w : Fin 3) : (dat7 Vd a0 c).A w = Vd c (Pipeline.arrRef spec7 w) := by
  dsimp only [dat7]

theorem after7_x (c : Dev nD) (t : Fin (cfg7 a0).N) : (dat7 Vd a0 c).after (0 : Fin 3) t = iblk7 Vd a0 c 0 t := by dsimp only [dat7]
theorem after7_val (c : Dev nD) (t : Fin (cfg7 a0).N) : (dat7 Vd a0 c).after (1 : Fin 3) t = iblk7 Vd a0 c 1 t := by dsimp only [dat7]
theorem after7_out (c : Dev nD) (t : Fin (cfg7 a0).N) :
    (dat7 Vd a0 c).after (2 : Fin 3) t = outBlk7 (grid7.coords t) (a0.1 0) (iblk7 Vd a0 c 0 t) (iblk7 Vd a0 c 1 t) := by dsimp only [dat7]

theorem before7_x (c : Dev nD) (t : Fin (cfg7 a0).N) (d) : (dat7 Vd a0 c).before 0 t d = iblk7 Vd a0 c 0 t := by
  refine ((dat7 Vd a0 c).before_in_eq_fetched 0 rfl (fun _ => rfl) (fun _ _ _ => rfl) (fun s => ?_) t d).trans ?_
  · rw [after7_x]; rfl
  · rfl
theorem before7_val (c : Dev nD) (t : Fin (cfg7 a0).N) (d) : (dat7 Vd a0 c).before 1 t d = iblk7 Vd a0 c 1 t := by
  refine ((dat7 Vd a0 c).before_in_eq_fetched 1 rfl (fun _ => rfl) (fun _ _ _ => rfl) (fun s => ?_) t d).trans ?_
  · rw [after7_val]; rfl
  · rfl

abbrev st7_x (t : Fin (cfg7 a0).N) := ((cfg7 a0).win 0).stage ((cfg7 a0).slots t 0)
abbrev st7_val (t : Fin (cfg7 a0).N) := ((cfg7 a0).win 1).stage ((cfg7 a0).slots t 1)
abbrev st7_out (t : Fin (cfg7 a0).N) := ((cfg7 a0).win 2).stage ((cfg7 a0).slots t 2)

abbrev bodyAt7 (t : Fin (cfg7 a0).N) : Prog (TpuEff nD τ sig (Elt F) Λ₀ .tc) PUnit :=
  cc7__gather_kernel (grid7.coords t) (Memref.whole main_v32) (Memref.isWhole_whole _)
    (spec7_0.stage ((cfg7 a0).slots t 0)) (hstage7_0 (((cfg7 a0).slots t 0).cast nbuf7_0))
    (spec7_1.stage ((cfg7 a0).slots t 1)) (hstage7_1 (((cfg7 a0).slots t 1).cast nbuf7_1))
    (spec7_2.stage ((cfg7 a0).slots t 2)) (hstage7_2 (((cfg7 a0).slots t 2).cast nbuf7_2))
    (Memref.whole cc7_scratch0) (Memref.isWhole_whole _) cc7_scratch1

def bodyPre7 (c : Dev nD) (t : Fin (cfg7 a0).N) : sProp 𝕄 :=
  iprop((dat7 Vd a0 c).Φ t.castSucc ∗ (dat7 Vd a0 c).owesAt () t.castSucc
    ∗ (∃ d, owns (c : Thread nD τ) (st7_x a0 t) fullShare ((dat7 Vd a0 c).before 0 t d))
    ∗ (∃ d, owns (c : Thread nD τ) (st7_val a0 t) fullShare ((dat7 Vd a0 c).before 1 t d))
    ∗ (∃ d, owns (c : Thread nD τ) (st7_out a0 t) fullShare ((dat7 Vd a0 c).before 2 t d)))

def bodyPost7 (c : Dev nD) (t : Fin (cfg7 a0).N) : sProp 𝕄 :=
  iprop((dat7 Vd a0 c).Φ t.succ ∗ (dat7 Vd a0 c).owesAt () t.succ
    ∗ owns (c : Thread nD τ) (st7_x a0 t) fullShare ((dat7 Vd a0 c).after 0 t)
    ∗ owns (c : Thread nD τ) (st7_val a0 t) fullShare ((dat7 Vd a0 c).after 1 t)
    ∗ owns (c : Thread nD τ) (st7_out a0 t) fullShare ((dat7 Vd a0 c).after 2 t))

theorem sound_body7 (hcol : HCol7 a0) (c : Dev nD) (t : Fin (cfg7 a0).N) :
    bodyPre7 Vd a0 c t ⊢ wp frame (wpE (defs₀ (F := F)) Variants.none c none) Set.univ (bodyAt7 a0 t) (fun _ => bodyPost7 Vd a0 c t) := by
  unfold bodyPre7 bodyPost7 bodyAt7
  simp only [before7_x, before7_val]
  rw [show (dat7 Vd a0 c).Φ t.succ = Φ7 a0 c from rfl, show (dat7 Vd a0 c).Φ t.castSucc = Φ7 a0 c from rfl,
    after7_x, after7_val, after7_out]
  unfold Φ7 Dat.owesAt Pipeline.owesWithin
  rw [scopedRest7_split, scratch7_eq, ownSems07_eq, prefHeld7_eq,
    show (dat7 Vd a0 c).owed t.castSucc = 0 from rfl, show (dat7 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel7 c (grid7.coords t) _ _ _ _ _ _ _ _ _ _ fullShare (a0.1 0) (iblk7 Vd a0 c 0 t) (iblk7 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation7 (hcol : HCol7 a0) (c : Dev nD) :
    BodyObligation (dat7 (F := F) Vd a0 c) (defs₀ (F := F)) Variants.none () Set.univ := fun t => by
  rw [bigSep_W7, bigSep_W7]
  exact sound_body7 Vd a0 hcol c t

abbrev X7 (c : Dev nD) : sProp 𝕄 := Pipeline.ownSems0 osem7 c
abbrev Y7 (c : Dev nD) : sProp 𝕄 := Pipeline.prefHeld pre7 c (fun _ => fullShare) a0.1
abbrev Z7 (V : Valuation τ sig (Elt F)) (c : Dev nD) : sProp 𝕄 :=
  iprop(Pipeline.unscopedRestP (Ix := Unit) (Name := ℕ) (U := Pipeline.UD sig nD τ) (Lvl := ℕ) pre7 spec7 c (fun b => V b) ∗ ∃ r, prngReg c r)

theorem hentry7 (c : Dev nD) (V : Valuation τ sig (Elt F)) (hA : ∀ w, Vd c (Pipeline.arrRef spec7 w) = V (Pipeline.arrRef spec7 w))
    (hT : ∀ k, a0.1 k = V (pre7.ref k)) :
    iprop(iprop(StableHlo.held (c : Thread nD τ) (Pipeline.ucRefs τ sig) V ∗ R c) ∗ Pipeline.ownSems0 osem7 c ∗ levAts L lv)
      ⊢ |={Set.univ}=> iprop((dat7 Vd a0 c).arrays ((dat7 Vd a0 c).arrAt · 0) ∗ Pipeline.prefHeld pre7 c (fun _ => fullShare) a0.1
          ∗ (dat7 Vd a0 c).owesAt () 0 ∗ X7 c ∗ Z7 V c) := by
  have hsplit := Pipeline.arrays_of_unscopedBufs (p := ()) (fun _ : Unit => pcfg7 (F := F)) (fun _ => a0) (fun _ c => dat7 Vd a0 c)
    (Ix := Unit) (Name := ℕ) (U := Pipeline.UD sig nD τ) (Lvl := ℕ) winFacts7 arr_whole7 c ((dat7 Vd a0 c).share_full fun _ => rfl) (fun b => V b) hA
  rw [Pipeline.unscopedBufs_held, Pipeline.unscopedRest_split preFacts7,
    show (fun k => V (pre7.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin7 (c : Dev nD) :
    iprop(X7 c ∗ Pipeline.prefHeld pre7 c (fun _ => fullShare) a0.1 ∗ Pipeline.scopedRest spec7 c) ⊢ (dat7 Vd a0 c).Φ 0 := by
  show _ ⊢ Φ7 a0 c
  unfold Φ7; exact .rfl

theorem hout7 (c : Dev nD) :
    (dat7 Vd a0 c).Φ (Fin.last (cfg7 a0).N) ⊢ iprop(Y7 a0 c ∗ Pipeline.ownSems0 osem7 c ∗ Pipeline.scopedRest spec7 c) := by
  show Φ7 a0 c ⊢ _
  unfold Φ7
  iintro ⟨Hs, Hp, Hr⟩
  isplitl [Hp]; · iexact Hp
  isplitl [Hs]; · iexact Hs
  iexact Hr

theorem hexit7 (c : Dev nD) (V Vp : Valuation τ sig (Elt F))
    (hF : ∀ w, (dat7 Vd a0 c).arrAt w (cfg7 a0).N = Vp (Pipeline.arrRef spec7 w))
    (hrest : ∀ b : Ref sig .tc, b ∉ Finset.univ.image (Pipeline.arrRef spec7) → Vp b = V b) (hT : ∀ k, a0.1 k = V (pre7.ref k)) :
    iprop((dat7 Vd a0 c).arrays ((dat7 Vd a0 c).arrAt · (cfg7 a0).N) ∗ (dat7 Vd a0 c).owesAt () (Fin.last (cfg7 a0).N) ∗ Y7 a0 c ∗ Z7 V c)
      ⊢ |={Set.univ}=> iprop(StableHlo.held (c : Thread nD τ) (Pipeline.ucRefs τ sig) Vp ∗ R c) := by
  have hjoin := Pipeline.unscopedBufs_of_arrays (p := ()) (fun _ : Unit => pcfg7 (F := F)) (fun _ => a0) (Ix := Unit) (Name := ℕ) (U := Pipeline.UD sig nD τ) (Lvl := ℕ)
    winFacts7 arr_whole7 c (fun _ c => dat7 Vd a0 c) ((dat7 Vd a0 c).share_full fun _ => rfl)
    (fun b => V b) (fun b => Vp b) ((dat7 Vd a0 c).arrAt · (cfg7 a0).N) hF hrest
  rw [Pipeline.unscopedBufs_held, Pipeline.unscopedRest_split preFacts7,
    show (fun k => V (pre7.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

def pt7 (r : Fin 80000) : Fin (cfg7 a0).N := ⟨r.val / 800, by have := r.isLt; show r.val / 800 < grid7.N; rw [N_7]; omega⟩

def outArr7 (c : Dev nD) : Vec F S80000x256 .f32 := fun i =>
  outBlk7 (grid7.coords (pt7 a0 (i 0))) (a0.1 0) (iblk7 Vd a0 c 0 (pt7 a0 (i 0))) (iblk7 Vd a0 c 1 (pt7 a0 (i 0)))
    (ValueIdx.ix2 ⟨(i 0).val % 800, Nat.mod_lt _ (by decide)⟩ (i 1))

end Region0
end Cert.KernelIdeal.Hand
end
-- ==== Proof.KI.TblRange.lean ====
import proofs.«411766_j31920196944464_2_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe
open Idealize.SL.Sem

variable {F : FTy → Type} [FloatOps F]

theorem slice_in_range {off : Fin S320000.rank → Nat} (x : IVec S320000 32) (h : S320000.Slices off S80000)
    (hx : ∀ e : S320000.Idx, (x e).toNat < 20000) :
    ∀ e : S80000.Idx, (extractStridedSlice S80000 off x h e).toNat < 20000 := fun e => hx _

theorem slice_apply {α : Type} {off : Fin S320000.rank → Nat} (x : S320000.Idx → α) (h : S320000.Slices off S80000)
    (r : Fin 80000) (hr : off 0 + r.val < 320000) :
    extractStridedSlice S80000 off x h (ValueIdx.ix1 r) = x (ValueIdx.ix1 ⟨off 0 + r.val, hr⟩) := by
  unfold extractStridedSlice
  congr 1
  funext a
  match a with
  | ⟨0, _⟩ => rfl

theorem column_apply {α : Type} (x : S80000.Idx → α) (h : S80000.ShapeCasts S80000x1) (r : Fin 80000) :
    shapeCast S80000x1 x h (ValueIdx.ix2 r (0 : Fin 1)) = x (ValueIdx.ix1 r) := by
  refine shapeCast_apply x h _ _ ?_
  rw [Shape.rowMajor_val_one, Shape.rowMajor_val_two]
  show r.val = r.val * 1 + 0
  omega

theorem tbl0_eq (W : Valuation τ sig (Elt F)) :
    StableHlo.after hostOps0 W main_v0 = extractStridedSlice S80000 ![0] (W main_arg2) slices_S320000_S80000_0 := by
  after_results

theorem tbl0_in_range (W : Valuation τ sig (Elt F))
    (hcol : ∀ e : S320000.Idx, ((W main_arg2 : IVec S320000 32) e).toNat < 20000) :
    ∀ e : S80000.Idx, ((StableHlo.after hostOps0 W main_v0 : IVec S80000 32) e).toNat < 20000 := by
  rw [tbl0_eq]
  exact slice_in_range _ _ hcol

theorem tbl0_apply (W : Valuation τ sig (Elt F)) (r : Fin 80000) :
    (StableHlo.after hostOps0 W main_v0 : IVec S80000 32) (ValueIdx.ix1 r)
      = (W main_arg2 : IVec S320000 32) (ValueIdx.ix1 ⟨0 + r.val, by omega⟩) := by
  rw [tbl0_eq, slice_apply]
  rfl

theorem val0_eq (W : Valuation τ sig (Elt F)) :
    StableHlo.after hostOps0 W main_v2
      = shapeCast S80000x1 (extractStridedSlice S80000 ![0] (W main_arg3) slices_S320000_S80000_0) shapeCasts_S80000_S80000x1 := by
  after_results
  rfl

theorem val0_apply (W : Valuation τ sig (Elt F)) (r : Fin 80000) :
    (StableHlo.after hostOps0 W main_v2 : FVec F S80000x1 .f32) (ValueIdx.ix2 r (0 : Fin 1))
      = (W main_arg3 : FVec F S320000 .f32) (ValueIdx.ix1 ⟨0 + r.val, by omega⟩) := by
  rw [val0_eq, column_apply, slice_apply]
  rfl

theorem tbl1_eq (W : Valuation τ sig (Elt F)) :
    StableHlo.after hostOps1 W main_v4 = extractStridedSlice S80000 ![80000] (W main_arg2) slices_S320000_S80000_80000 := by
  after_results

theorem tbl1_in_range (W : Valuation τ sig (Elt F))
    (hcol : ∀ e : S320000.Idx, ((W main_arg2 : IVec S320000 32) e).toNat < 20000) :
    ∀ e : S80000.Idx, ((StableHlo.after hostOps1 W main_v4 : IVec S80000 32) e).toNat < 20000 := by
  rw [tbl1_eq]
  exact slice_in_range _ _ hcol

theorem tbl1_apply (W : Valuation τ sig (Elt F)) (r : Fin 80000) :
    (StableHlo.after hostOps1 W main_v4 : IVec S80000 32) (ValueIdx.ix1 r)
      = (W main_arg2 : IVec S320000 32) (ValueIdx.ix1 ⟨80000 + r.val, by omega⟩) := by
  rw [tbl1_eq, slice_apply]
  rfl

theorem val1_eq (W : Valuation τ sig (Elt F)) :
    StableHlo.after hostOps1 W main_v6
      = shapeCast S80000x1 (extractStridedSlice S80000 ![80000] (W main_arg3) slices_S320000_S80000_80000) shapeCasts_S80000_S80000x1 := by
  after_results
  rfl

theorem val1_apply (W : Valuation τ sig (Elt F)) (r : Fin 80000) :
    (StableHlo.after hostOps1 W main_v6 : FVec F S80000x1 .f32) (ValueIdx.ix2 r (0 : Fin 1))
      = (W main_arg3 : FVec F S320000 .f32) (ValueIdx.ix1 ⟨80000 + r.val, by omega⟩) := by
  rw [val1_eq, column_apply, slice_apply]
  rfl

theorem tbl2_eq (W : Valuation τ sig (Elt F)) :
    StableHlo.after hostOps2 W main_v8 = extractStridedSlice S80000 ![160000] (W main_arg2) slices_S320000_S80000_160000 := by
  after_results

theorem tbl2_in_range (W : Valuation τ sig (Elt F))
    (hcol : ∀ e : S320000.Idx, ((W main_arg2 : IVec S320000 32) e).toNat < 20000) :
    ∀ e : S80000.Idx, ((StableHlo.after hostOps2 W main_v8 : IVec S80000 32) e).toNat < 20000 := by
  rw [tbl2_eq]
  exact slice_in_range _ _ hcol

theorem tbl2_apply (W : Valuation τ sig (Elt F)) (r : Fin 80000) :
    (StableHlo.after hostOps2 W main_v8 : IVec S80000 32) (ValueIdx.ix1 r)
      = (W main_arg2 : IVec S320000 32) (ValueIdx.ix1 ⟨160000 + r.val, by omega⟩) := by
  rw [tbl2_eq, slice_apply]
  rfl

theorem val2_eq (W : Valuation τ sig (Elt F)) :
    StableHlo.after hostOps2 W main_v10
      = shapeCast S80000x1 (extractStridedSlice S80000 ![160000] (W main_arg3) slices_S320000_S80000_160000) shapeCasts_S80000_S80000x1 := by
  after_results
  rfl

theorem val2_apply (W : Valuation τ sig (Elt F)) (r : Fin 80000) :
    (StableHlo.after hostOps2 W main_v10 : FVec F S80000x1 .f32) (ValueIdx.ix2 r (0 : Fin 1))
      = (W main_arg3 : FVec F S320000 .f32) (ValueIdx.ix1 ⟨160000 + r.val, by omega⟩) := by
  rw [val2_eq, column_apply, slice_apply]
  rfl

theorem tbl3_eq (W : Valuation τ sig (Elt F)) :
    StableHlo.after hostOps3 W main_v12 = extractStridedSlice S80000 ![240000] (W main_arg2) slices_S320000_S80000_240000 := by
  after_results

theorem tbl3_in_range (W : Valuation τ sig (Elt F))
    (hcol : ∀ e : S320000.Idx, ((W main_arg2 : IVec S320000 32) e).toNat < 20000) :
    ∀ e : S80000.Idx, ((StableHlo.after hostOps3 W main_v12 : IVec S80000 32) e).toNat < 20000 := by
  rw [tbl3_eq]
  exact slice_in_range _ _ hcol

theorem tbl3_apply (W : Valuation τ sig (Elt F)) (r : Fin 80000) :
    (StableHlo.after hostOps3 W main_v12 : IVec S80000 32) (ValueIdx.ix1 r)
      = (W main_arg2 : IVec S320000 32) (ValueIdx.ix1 ⟨240000 + r.val, by omega⟩) := by
  rw [tbl3_eq, slice_apply]
  rfl

theorem val3_eq (W : Valuation τ sig (Elt F)) :
    StableHlo.after hostOps3 W main_v14
      = shapeCast S80000x1 (extractStridedSlice S80000 ![240000] (W main_arg3) slices_S320000_S80000_240000) shapeCasts_S80000_S80000x1 := by
  after_results
  rfl

theorem val3_apply (W : Valuation τ sig (Elt F)) (r : Fin 80000) :
    (StableHlo.after hostOps3 W main_v14 : FVec F S80000x1 .f32) (ValueIdx.ix2 r (0 : Fin 1))
      = (W main_arg3 : FVec F S320000 .f32) (ValueIdx.ix1 ⟨240000 + r.val, by omega⟩) := by
  rw [val3_eq, column_apply, slice_apply]
  rfl

theorem tbl4_eq (W : Valuation τ sig (Elt F)) :
    StableHlo.after hostOps4 W main_v20 = extractStridedSlice S80000 ![0] (W main_arg5) slices_S320000_S80000_0 := by
  after_results

theorem tbl4_in_range (W : Valuation τ sig (Elt F))
    (hcol : ∀ e : S320000.Idx, ((W main_arg5 : IVec S320000 32) e).toNat < 20000) :
    ∀ e : S80000.Idx, ((StableHlo.after hostOps4 W main_v20 : IVec S80000 32) e).toNat < 20000 := by
  rw [tbl4_eq]
  exact slice_in_range _ _ hcol

theorem tbl4_apply (W : Valuation τ sig (Elt F)) (r : Fin 80000) :
    (StableHlo.after hostOps4 W main_v20 : IVec S80000 32) (ValueIdx.ix1 r)
      = (W main_arg5 : IVec S320000 32) (ValueIdx.ix1 ⟨0 + r.val, by omega⟩) := by
  rw [tbl4_eq, slice_apply]
  rfl

theorem val4_eq (W : Valuation τ sig (Elt F)) :
    StableHlo.after hostOps4 W main_v22
      = shapeCast S80000x1 (extractStridedSlice S80000 ![0] (W main_arg6) slices_S320000_S80000_0) shapeCasts_S80000_S80000x1 := by
  after_results
  rfl

theorem val4_apply (W : Valuation τ sig (Elt F)) (r : Fin 80000) :
    (StableHlo.after hostOps4 W main_v22 : FVec F S80000x1 .f32) (ValueIdx.ix2 r (0 : Fin 1))
      = (W main_arg6 : FVec F S320000 .f32) (ValueIdx.ix1 ⟨0 + r.val, by omega⟩) := by
  rw [val4_eq, column_apply, slice_apply]
  rfl

theorem tbl5_eq (W : Valuation τ sig (Elt F)) :
    StableHlo.after hostOps5 W main_v24 = extractStridedSlice S80000 ![80000] (W main_arg5) slices_S320000_S80000_80000 := by
  after_results

theorem tbl5_in_range (W : Valuation τ sig (Elt F))
    (hcol : ∀ e : S320000.Idx, ((W main_arg5 : IVec S320000 32) e).toNat < 20000) :
    ∀ e : S80000.Idx, ((StableHlo.after hostOps5 W main_v24 : IVec S80000 32) e).toNat < 20000 := by
  rw [tbl5_eq]
  exact slice_in_range _ _ hcol

theorem tbl5_apply (W : Valuation τ sig (Elt F)) (r : Fin 80000) :
    (StableHlo.after hostOps5 W main_v24 : IVec S80000 32) (ValueIdx.ix1 r)
      = (W main_arg5 : IVec S320000 32) (ValueIdx.ix1 ⟨80000 + r.val, by omega⟩) := by
  rw [tbl5_eq, slice_apply]
  rfl

theorem val5_eq (W : Valuation τ sig (Elt F)) :
    StableHlo.after hostOps5 W main_v26
      = shapeCast S80000x1 (extractStridedSlice S80000 ![80000] (W main_arg6) slices_S320000_S80000_80000) shapeCasts_S80000_S80000x1 := by
  after_results
  rfl

theorem val5_apply (W : Valuation τ sig (Elt F)) (r : Fin 80000) :
    (StableHlo.after hostOps5 W main_v26 : FVec F S80000x1 .f32) (ValueIdx.ix2 r (0 : Fin 1))
      = (W main_arg6 : FVec F S320000 .f32) (ValueIdx.ix1 ⟨80000 + r.val, by omega⟩) := by
  rw [val5_eq, column_apply, slice_apply]
  rfl

theorem tbl6_eq (W : Valuation τ sig (Elt F)) :
    StableHlo.after hostOps6 W main_v28 = extractStridedSlice S80000 ![160000] (W main_arg5) slices_S320000_S80000_160000 := by
  after_results

theorem tbl6_in_range (W : Valuation τ sig (Elt F))
    (hcol : ∀ e : S320000.Idx, ((W main_arg5 : IVec S320000 32) e).toNat < 20000) :
    ∀ e : S80000.Idx, ((StableHlo.after hostOps6 W main_v28 : IVec S80000 32) e).toNat < 20000 := by
  rw [tbl6_eq]
  exact slice_in_range _ _ hcol

theorem tbl6_apply (W : Valuation τ sig (Elt F)) (r : Fin 80000) :
    (StableHlo.after hostOps6 W main_v28 : IVec S80000 32) (ValueIdx.ix1 r)
      = (W main_arg5 : IVec S320000 32) (ValueIdx.ix1 ⟨160000 + r.val, by omega⟩) := by
  rw [tbl6_eq, slice_apply]
  rfl

theorem val6_eq (W : Valuation τ sig (Elt F)) :
    StableHlo.after hostOps6 W main_v30
      = shapeCast S80000x1 (extractStridedSlice S80000 ![160000] (W main_arg6) slices_S320000_S80000_160000) shapeCasts_S80000_S80000x1 := by
  after_results
  rfl

theorem val6_apply (W : Valuation τ sig (Elt F)) (r : Fin 80000) :
    (StableHlo.after hostOps6 W main_v30 : FVec F S80000x1 .f32) (ValueIdx.ix2 r (0 : Fin 1))
      = (W main_arg6 : FVec F S320000 .f32) (ValueIdx.ix1 ⟨160000 + r.val, by omega⟩) := by
  rw [val6_eq, column_apply, slice_apply]
  rfl

theorem tbl7_eq (W : Valuation τ sig (Elt F)) :
    StableHlo.after hostOps7 W main_v32 = extractStridedSlice S80000 ![240000] (W main_arg5) slices_S320000_S80000_240000 := by
  after_results

theorem tbl7_in_range (W : Valuation τ sig (Elt F))
    (hcol : ∀ e : S320000.Idx, ((W main_arg5 : IVec S320000 32) e).toNat < 20000) :
    ∀ e : S80000.Idx, ((StableHlo.after hostOps7 W main_v32 : IVec S80000 32) e).toNat < 20000 := by
  rw [tbl7_eq]
  exact slice_in_range _ _ hcol

theorem tbl7_apply (W : Valuation τ sig (Elt F)) (r : Fin 80000) :
    (StableHlo.after hostOps7 W main_v32 : IVec S80000 32) (ValueIdx.ix1 r)
      = (W main_arg5 : IVec S320000 32) (ValueIdx.ix1 ⟨240000 + r.val, by omega⟩) := by
  rw [tbl7_eq, slice_apply]
  rfl

theorem val7_eq (W : Valuation τ sig (Elt F)) :
    StableHlo.after hostOps7 W main_v34
      = shapeCast S80000x1 (extractStridedSlice S80000 ![240000] (W main_arg6) slices_S320000_S80000_240000) shapeCasts_S80000_S80000x1 := by
  after_results
  rfl

theorem val7_apply (W : Valuation τ sig (Elt F)) (r : Fin 80000) :
    (StableHlo.after hostOps7 W main_v34 : FVec F S80000x1 .f32) (ValueIdx.ix2 r (0 : Fin 1))
      = (W main_arg6 : FVec F S320000 .f32) (ValueIdx.ix1 ⟨240000 + r.val, by omega⟩) := by
  rw [val7_eq, column_apply, slice_apply]
  rfl

end Cert.KernelIdeal.Hand

end
-- ==== Proof.KI.EntryVals.lean ====
import proofs.«411766_j31920196944464_2_alg».proof.Proof.Gen.KernelIdeal.Regions
import proofs.«411766_j31920196944464_2_alg».proof.Proof.KI.TblRange

noncomputable section

namespace Cert.KernelIdeal.Hand

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (outs : Outs (F := F))

theorem alone0_x (c : Dev nD) : StableHlo.after hostOps0 (V0 m c) main_arg0 = m ((c : Thread nD τ).loc main_arg0) :=
  StableHlo.after_of_writes_sub hostOps0 (V0 m c) hostOps0_writes (by decide)

theorem alone0_tbl_apply (c : Dev nD) (r : Fin 80000) :
    (StableHlo.after hostOps0 (V0 m c) main_v0 : IVec S80000 32) (ValueIdx.ix1 r) = (m ((c : Thread nD τ).loc main_arg2) : IVec S320000 32) (ValueIdx.ix1 ⟨0 + r.val, by omega⟩) :=
  tbl0_apply (V0 m c) r

theorem alone0_tbl_in_range (c : Dev nD) (hcol : ∀ e : S320000.Idx, ((m ((c : Thread nD τ).loc main_arg2) : IVec S320000 32) e).toNat < 20000) :
    ∀ e : S80000.Idx, ((StableHlo.after hostOps0 (V0 m c) main_v0 : IVec S80000 32) e).toNat < 20000 :=
  tbl0_in_range (V0 m c) hcol

theorem alone0_val_apply (c : Dev nD) (r : Fin 80000) :
    (StableHlo.after hostOps0 (V0 m c) main_v2 : FVec F S80000x1 .f32) (ValueIdx.ix2 r (0 : Fin 1))
      = (m ((c : Thread nD τ).loc main_arg3) : FVec F S320000 .f32) (ValueIdx.ix1 ⟨0 + r.val, by omega⟩) :=
  val0_apply (V0 m c) r

theorem alone1_x (c : Dev nD) : StableHlo.after hostOps1 (V0 m c) main_arg0 = m ((c : Thread nD τ).loc main_arg0) :=
  StableHlo.after_of_writes_sub hostOps1 (V0 m c) hostOps1_writes (by decide)

theorem alone1_tbl_apply (c : Dev nD) (r : Fin 80000) :
    (StableHlo.after hostOps1 (V0 m c) main_v4 : IVec S80000 32) (ValueIdx.ix1 r) = (m ((c : Thread nD τ).loc main_arg2) : IVec S320000 32) (ValueIdx.ix1 ⟨80000 + r.val, by omega⟩) :=
  tbl1_apply (V0 m c) r

theorem alone1_tbl_in_range (c : Dev nD) (hcol : ∀ e : S320000.Idx, ((m ((c : Thread nD τ).loc main_arg2) : IVec S320000 32) e).toNat < 20000) :
    ∀ e : S80000.Idx, ((StableHlo.after hostOps1 (V0 m c) main_v4 : IVec S80000 32) e).toNat < 20000 :=
  tbl1_in_range (V0 m c) hcol

theorem alone1_val_apply (c : Dev nD) (r : Fin 80000) :
    (StableHlo.after hostOps1 (V0 m c) main_v6 : FVec F S80000x1 .f32) (ValueIdx.ix2 r (0 : Fin 1))
      = (m ((c : Thread nD τ).loc main_arg3) : FVec F S320000 .f32) (ValueIdx.ix1 ⟨80000 + r.val, by omega⟩) :=
  val1_apply (V0 m c) r

theorem alone2_x (c : Dev nD) : StableHlo.after hostOps2 (V0 m c) main_arg0 = m ((c : Thread nD τ).loc main_arg0) :=
  StableHlo.after_of_writes_sub hostOps2 (V0 m c) hostOps2_writes (by decide)

theorem alone2_tbl_apply (c : Dev nD) (r : Fin 80000) :
    (StableHlo.after hostOps2 (V0 m c) main_v8 : IVec S80000 32) (ValueIdx.ix1 r) = (m ((c : Thread nD τ).loc main_arg2) : IVec S320000 32) (ValueIdx.ix1 ⟨160000 + r.val, by omega⟩) :=
  tbl2_apply (V0 m c) r

theorem alone2_tbl_in_range (c : Dev nD) (hcol : ∀ e : S320000.Idx, ((m ((c : Thread nD τ).loc main_arg2) : IVec S320000 32) e).toNat < 20000) :
    ∀ e : S80000.Idx, ((StableHlo.after hostOps2 (V0 m c) main_v8 : IVec S80000 32) e).toNat < 20000 :=
  tbl2_in_range (V0 m c) hcol

theorem alone2_val_apply (c : Dev nD) (r : Fin 80000) :
    (StableHlo.after hostOps2 (V0 m c) main_v10 : FVec F S80000x1 .f32) (ValueIdx.ix2 r (0 : Fin 1))
      = (m ((c : Thread nD τ).loc main_arg3) : FVec F S320000 .f32) (ValueIdx.ix1 ⟨160000 + r.val, by omega⟩) :=
  val2_apply (V0 m c) r

theorem alone3_x (c : Dev nD) : StableHlo.after hostOps3 (V0 m c) main_arg0 = m ((c : Thread nD τ).loc main_arg0) :=
  StableHlo.after_of_writes_sub hostOps3 (V0 m c) hostOps3_writes (by decide)

theorem alone3_tbl_apply (c : Dev nD) (r : Fin 80000) :
    (StableHlo.after hostOps3 (V0 m c) main_v12 : IVec S80000 32) (ValueIdx.ix1 r) = (m ((c : Thread nD τ).loc main_arg2) : IVec S320000 32) (ValueIdx.ix1 ⟨240000 + r.val, by omega⟩) :=
  tbl3_apply (V0 m c) r

theorem alone3_tbl_in_range (c : Dev nD) (hcol : ∀ e : S320000.Idx, ((m ((c : Thread nD τ).loc main_arg2) : IVec S320000 32) e).toNat < 20000) :
    ∀ e : S80000.Idx, ((StableHlo.after hostOps3 (V0 m c) main_v12 : IVec S80000 32) e).toNat < 20000 :=
  tbl3_in_range (V0 m c) hcol

theorem alone3_val_apply (c : Dev nD) (r : Fin 80000) :
    (StableHlo.after hostOps3 (V0 m c) main_v14 : FVec F S80000x1 .f32) (ValueIdx.ix2 r (0 : Fin 1))
      = (m ((c : Thread nD τ).loc main_arg3) : FVec F S320000 .f32) (ValueIdx.ix1 ⟨240000 + r.val, by omega⟩) :=
  val3_apply (V0 m c) r

theorem alone4_x (c : Dev nD) : StableHlo.after hostOps4 (V0 m c) main_arg0 = m ((c : Thread nD τ).loc main_arg0) :=
  StableHlo.after_of_writes_sub hostOps4 (V0 m c) hostOps4_writes (by decide)

theorem alone4_tbl_apply (c : Dev nD) (r : Fin 80000) :
    (StableHlo.after hostOps4 (V0 m c) main_v20 : IVec S80000 32) (ValueIdx.ix1 r) = (m ((c : Thread nD τ).loc main_arg5) : IVec S320000 32) (ValueIdx.ix1 ⟨0 + r.val, by omega⟩) :=
  tbl4_apply (V0 m c) r

theorem alone4_tbl_in_range (c : Dev nD) (hcol : ∀ e : S320000.Idx, ((m ((c : Thread nD τ).loc main_arg5) : IVec S320000 32) e).toNat < 20000) :
    ∀ e : S80000.Idx, ((StableHlo.after hostOps4 (V0 m c) main_v20 : IVec S80000 32) e).toNat < 20000 :=
  tbl4_in_range (V0 m c) hcol

theorem alone4_val_apply (c : Dev nD) (r : Fin 80000) :
    (StableHlo.after hostOps4 (V0 m c) main_v22 : FVec F S80000x1 .f32) (ValueIdx.ix2 r (0 : Fin 1))
      = (m ((c : Thread nD τ).loc main_arg6) : FVec F S320000 .f32) (ValueIdx.ix1 ⟨0 + r.val, by omega⟩) :=
  val4_apply (V0 m c) r

theorem alone5_x (c : Dev nD) : StableHlo.after hostOps5 (V0 m c) main_arg0 = m ((c : Thread nD τ).loc main_arg0) :=
  StableHlo.after_of_writes_sub hostOps5 (V0 m c) hostOps5_writes (by decide)

theorem alone5_tbl_apply (c : Dev nD) (r : Fin 80000) :
    (StableHlo.after hostOps5 (V0 m c) main_v24 : IVec S80000 32) (ValueIdx.ix1 r) = (m ((c : Thread nD τ).loc main_arg5) : IVec S320000 32) (ValueIdx.ix1 ⟨80000 + r.val, by omega⟩) :=
  tbl5_apply (V0 m c) r

theorem alone5_tbl_in_range (c : Dev nD) (hcol : ∀ e : S320000.Idx, ((m ((c : Thread nD τ).loc main_arg5) : IVec S320000 32) e).toNat < 20000) :
    ∀ e : S80000.Idx, ((StableHlo.after hostOps5 (V0 m c) main_v24 : IVec S80000 32) e).toNat < 20000 :=
  tbl5_in_range (V0 m c) hcol

theorem alone5_val_apply (c : Dev nD) (r : Fin 80000) :
    (StableHlo.after hostOps5 (V0 m c) main_v26 : FVec F S80000x1 .f32) (ValueIdx.ix2 r (0 : Fin 1))
      = (m ((c : Thread nD τ).loc main_arg6) : FVec F S320000 .f32) (ValueIdx.ix1 ⟨80000 + r.val, by omega⟩) :=
  val5_apply (V0 m c) r

theorem alone6_x (c : Dev nD) : StableHlo.after hostOps6 (V0 m c) main_arg0 = m ((c : Thread nD τ).loc main_arg0) :=
  StableHlo.after_of_writes_sub hostOps6 (V0 m c) hostOps6_writes (by decide)

theorem alone6_tbl_apply (c : Dev nD) (r : Fin 80000) :
    (StableHlo.after hostOps6 (V0 m c) main_v28 : IVec S80000 32) (ValueIdx.ix1 r) = (m ((c : Thread nD τ).loc main_arg5) : IVec S320000 32) (ValueIdx.ix1 ⟨160000 + r.val, by omega⟩) :=
  tbl6_apply (V0 m c) r

theorem alone6_tbl_in_range (c : Dev nD) (hcol : ∀ e : S320000.Idx, ((m ((c : Thread nD τ).loc main_arg5) : IVec S320000 32) e).toNat < 20000) :
    ∀ e : S80000.Idx, ((StableHlo.after hostOps6 (V0 m c) main_v28 : IVec S80000 32) e).toNat < 20000 :=
  tbl6_in_range (V0 m c) hcol

theorem alone6_val_apply (c : Dev nD) (r : Fin 80000) :
    (StableHlo.after hostOps6 (V0 m c) main_v30 : FVec F S80000x1 .f32) (ValueIdx.ix2 r (0 : Fin 1))
      = (m ((c : Thread nD τ).loc main_arg6) : FVec F S320000 .f32) (ValueIdx.ix1 ⟨160000 + r.val, by omega⟩) :=
  val6_apply (V0 m c) r

theorem alone7_x (c : Dev nD) : StableHlo.after hostOps7 (V0 m c) main_arg0 = m ((c : Thread nD τ).loc main_arg0) :=
  StableHlo.after_of_writes_sub hostOps7 (V0 m c) hostOps7_writes (by decide)

theorem alone7_tbl_apply (c : Dev nD) (r : Fin 80000) :
    (StableHlo.after hostOps7 (V0 m c) main_v32 : IVec S80000 32) (ValueIdx.ix1 r) = (m ((c : Thread nD τ).loc main_arg5) : IVec S320000 32) (ValueIdx.ix1 ⟨240000 + r.val, by omega⟩) :=
  tbl7_apply (V0 m c) r

theorem alone7_tbl_in_range (c : Dev nD) (hcol : ∀ e : S320000.Idx, ((m ((c : Thread nD τ).loc main_arg5) : IVec S320000 32) e).toNat < 20000) :
    ∀ e : S80000.Idx, ((StableHlo.after hostOps7 (V0 m c) main_v32 : IVec S80000 32) e).toNat < 20000 :=
  tbl7_in_range (V0 m c) hcol

theorem alone7_val_apply (c : Dev nD) (r : Fin 80000) :
    (StableHlo.after hostOps7 (V0 m c) main_v34 : FVec F S80000x1 .f32) (ValueIdx.ix2 r (0 : Fin 1))
      = (m ((c : Thread nD τ).loc main_arg6) : FVec F S320000 .f32) (ValueIdx.ix1 ⟨240000 + r.val, by omega⟩) :=
  val7_apply (V0 m c) r

end Cert.KernelIdeal.Hand

end
-- ==== Proof.KI.Assembly.lean ====
import proofs.«411766_j31920196944464_2_alg».proof.Proof.KI.Region0
import proofs.«411766_j31920196944464_2_alg».proof.Proof.KI.Region1
import proofs.«411766_j31920196944464_2_alg».proof.Proof.KI.Region2
import proofs.«411766_j31920196944464_2_alg».proof.Proof.KI.Region3
import proofs.«411766_j31920196944464_2_alg».proof.Proof.KI.Region4
import proofs.«411766_j31920196944464_2_alg».proof.Proof.KI.Region5
import proofs.«411766_j31920196944464_2_alg».proof.Proof.KI.Region6
import proofs.«411766_j31920196944464_2_alg».proof.Proof.KI.Region7
import proofs.«411766_j31920196944464_2_alg».proof.Proof.KI.Common
import proofs.«411766_j31920196944464_2_alg».proof.Proof.KI.EntryVals
import proofs.«411766_j31920196944464_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev c0 : Dev nD := ⟨0, by decide⟩
theorem dev_eq (c : Dev nD) : c = c0 := Fin.ext (Nat.lt_one_iff.mp c.isLt)

abbrev U0 (c : Dev nD) : Valuation τ sig (Elt F) := StableHlo.after hostOps0 (V0 m c)

abbrev Ud0 : (c : Dev nD) → (b : Ref sig .tc) → Buf (Elt F) ((c : Thread nD τ).loc b) := fun c b => U0 m c b

abbrev tbl0 : pre0.Contents (Elt F) := fun k => U0 m c0 (pre0.ref k)
abbrev adm0 : (pcfg0 (F := F)).Adm := ⟨tbl0 m, trivial⟩

abbrev U1 (c : Dev nD) : Valuation τ sig (Elt F) := StableHlo.after hostOps1 (V0 m c)

abbrev Ud1 : (c : Dev nD) → (b : Ref sig .tc) → Buf (Elt F) ((c : Thread nD τ).loc b) := fun c b => U1 m c b

abbrev tbl1 : pre1.Contents (Elt F) := fun k => U1 m c0 (pre1.ref k)
abbrev adm1 : (pcfg1 (F := F)).Adm := ⟨tbl1 m, trivial⟩

abbrev U2 (c : Dev nD) : Valuation τ sig (Elt F) := StableHlo.after hostOps2 (V0 m c)

abbrev Ud2 : (c : Dev nD) → (b : Ref sig .tc) → Buf (Elt F) ((c : Thread nD τ).loc b) := fun c b => U2 m c b

abbrev tbl2 : pre2.Contents (Elt F) := fun k => U2 m c0 (pre2.ref k)
abbrev adm2 : (pcfg2 (F := F)).Adm := ⟨tbl2 m, trivial⟩

abbrev U3 (c : Dev nD) : Valuation τ sig (Elt F) := StableHlo.after hostOps3 (V0 m c)

abbrev Ud3 : (c : Dev nD) → (b : Ref sig .tc) → Buf (Elt F) ((c : Thread nD τ).loc b) := fun c b => U3 m c b

abbrev tbl3 : pre3.Contents (Elt F) := fun k => U3 m c0 (pre3.ref k)
abbrev adm3 : (pcfg3 (F := F)).Adm := ⟨tbl3 m, trivial⟩

abbrev U4 (c : Dev nD) : Valuation τ sig (Elt F) := StableHlo.after hostOps4 (V0 m c)

abbrev Ud4 : (c : Dev nD) → (b : Ref sig .tc) → Buf (Elt F) ((c : Thread nD τ).loc b) := fun c b => U4 m c b

abbrev tbl4 : pre4.Contents (Elt F) := fun k => U4 m c0 (pre4.ref k)
abbrev adm4 : (pcfg4 (F := F)).Adm := ⟨tbl4 m, trivial⟩

abbrev U5 (c : Dev nD) : Valuation τ sig (Elt F) := StableHlo.after hostOps5 (V0 m c)

abbrev Ud5 : (c : Dev nD) → (b : Ref sig .tc) → Buf (Elt F) ((c : Thread nD τ).loc b) := fun c b => U5 m c b

abbrev tbl5 : pre5.Contents (Elt F) := fun k => U5 m c0 (pre5.ref k)
abbrev adm5 : (pcfg5 (F := F)).Adm := ⟨tbl5 m, trivial⟩

abbrev U6 (c : Dev nD) : Valuation τ sig (Elt F) := StableHlo.after hostOps6 (V0 m c)

abbrev Ud6 : (c : Dev nD) → (b : Ref sig .tc) → Buf (Elt F) ((c : Thread nD τ).loc b) := fun c b => U6 m c b

abbrev tbl6 : pre6.Contents (Elt F) := fun k => U6 m c0 (pre6.ref k)
abbrev adm6 : (pcfg6 (F := F)).Adm := ⟨tbl6 m, trivial⟩

abbrev U7 (c : Dev nD) : Valuation τ sig (Elt F) := StableHlo.after hostOps7 (V0 m c)

abbrev Ud7 : (c : Dev nD) → (b : Ref sig .tc) → Buf (Elt F) ((c : Thread nD τ).loc b) := fun c b => U7 m c b

abbrev tbl7 : pre7.Contents (Elt F) := fun k => U7 m c0 (pre7.ref k)
abbrev adm7 : (pcfg7 (F := F)).Adm := ⟨tbl7 m, trivial⟩

def adm : (p : Fin 8) → (pcfgs (F := F) p).Adm
  | ⟨0, _⟩ => adm0 m
  | ⟨1, _⟩ => adm1 m
  | ⟨2, _⟩ => adm2 m
  | ⟨3, _⟩ => adm3 m
  | ⟨4, _⟩ => adm4 m
  | ⟨5, _⟩ => adm5 m
  | ⟨6, _⟩ => adm6 m
  | ⟨7, _⟩ => adm7 m
  | ⟨_ + 8, h⟩ => absurd h (Nat.not_lt.2 (Nat.le_add_left _ _))

def pdats : (p : Fin 8) → (c : Dev nD) → Dat τ (Elt F) Unit ℕ (Pipeline.UD sig nD τ) ℕ (Pipeline.pin (pcfgs (F := F)) (adm m) p) c
  | ⟨0, _⟩ => fun c => dat0 (Ud0 m) (adm0 m) c
  | ⟨1, _⟩ => fun c => dat1 (Ud1 m) (adm1 m) c
  | ⟨2, _⟩ => fun c => dat2 (Ud2 m) (adm2 m) c
  | ⟨3, _⟩ => fun c => dat3 (Ud3 m) (adm3 m) c
  | ⟨4, _⟩ => fun c => dat4 (Ud4 m) (adm4 m) c
  | ⟨5, _⟩ => fun c => dat5 (Ud5 m) (adm5 m) c
  | ⟨6, _⟩ => fun c => dat6 (Ud6 m) (adm6 m) c
  | ⟨7, _⟩ => fun c => dat7 (Ud7 m) (adm7 m) c
  | ⟨_ + 8, h⟩ => absurd h (Nat.not_lt.2 (Nat.le_add_left _ _))

def outsP : Outs (F := F) := fun n r c =>
  match n with
  | 2 => Function.update (U0 m c) (Proc.devRef .tc main_v3) ((dat0 (Ud0 m) (adm0 m) c).arrAt 2 (cfg0 (adm0 m)).N) (Proc.devRef .tc r)
  | 4 => Function.update (U1 m c) (Proc.devRef .tc main_v7) ((dat1 (Ud1 m) (adm1 m) c).arrAt 2 (cfg1 (adm1 m)).N) (Proc.devRef .tc r)
  | 6 => Function.update (U2 m c) (Proc.devRef .tc main_v11) ((dat2 (Ud2 m) (adm2 m) c).arrAt 2 (cfg2 (adm2 m)).N) (Proc.devRef .tc r)
  | 8 => Function.update (U3 m c) (Proc.devRef .tc main_v15) ((dat3 (Ud3 m) (adm3 m) c).arrAt 2 (cfg3 (adm3 m)).N) (Proc.devRef .tc r)
  | 10 => Function.update (U4 m c) (Proc.devRef .tc main_v23) ((dat4 (Ud4 m) (adm4 m) c).arrAt 2 (cfg4 (adm4 m)).N) (Proc.devRef .tc r)
  | 12 => Function.update (U5 m c) (Proc.devRef .tc main_v27) ((dat5 (Ud5 m) (adm5 m) c).arrAt 2 (cfg5 (adm5 m)).N) (Proc.devRef .tc r)
  | 14 => Function.update (U6 m c) (Proc.devRef .tc main_v31) ((dat6 (Ud6 m) (adm6 m) c).arrAt 2 (cfg6 (adm6 m)).N) (Proc.devRef .tc r)
  | 16 => Function.update (U7 m c) (Proc.devRef .tc main_v35) ((dat7 (Ud7 m) (adm7 m) c).arrAt 2 (cfg7 (adm7 m)).N) (Proc.devRef .tc r)
  | _ => m ((c : Thread nD τ).loc r)
theorem outsP_2 (c : Dev nD) : outsP m 2 main_v3 c = (dat0 (Ud0 m) (adm0 m) c).arrAt 2 (cfg0 (adm0 m)).N := by
  unfold outsP; exact Function.update_self ..
theorem outsP_4 (c : Dev nD) : outsP m 4 main_v7 c = (dat1 (Ud1 m) (adm1 m) c).arrAt 2 (cfg1 (adm1 m)).N := by
  unfold outsP; exact Function.update_self ..
theorem outsP_6 (c : Dev nD) : outsP m 6 main_v11 c = (dat2 (Ud2 m) (adm2 m) c).arrAt 2 (cfg2 (adm2 m)).N := by
  unfold outsP; exact Function.update_self ..
theorem outsP_8 (c : Dev nD) : outsP m 8 main_v15 c = (dat3 (Ud3 m) (adm3 m) c).arrAt 2 (cfg3 (adm3 m)).N := by
  unfold outsP; exact Function.update_self ..
theorem outsP_10 (c : Dev nD) : outsP m 10 main_v23 c = (dat4 (Ud4 m) (adm4 m) c).arrAt 2 (cfg4 (adm4 m)).N := by
  unfold outsP; exact Function.update_self ..
theorem outsP_12 (c : Dev nD) : outsP m 12 main_v27 c = (dat5 (Ud5 m) (adm5 m) c).arrAt 2 (cfg5 (adm5 m)).N := by
  unfold outsP; exact Function.update_self ..
theorem outsP_14 (c : Dev nD) : outsP m 14 main_v31 c = (dat6 (Ud6 m) (adm6 m) c).arrAt 2 (cfg6 (adm6 m)).N := by
  unfold outsP; exact Function.update_self ..
theorem outsP_16 (c : Dev nD) : outsP m 16 main_v35 c = (dat7 (Ud7 m) (adm7 m) c).arrAt 2 (cfg7 (adm7 m)).N := by
  unfold outsP; exact Function.update_self ..

section Agree
variable (outs : Outs (F := F))
abbrev W1 : List (Ref sig .tc) := hostOps0_W
abbrev W2 : List (Ref sig .tc) := W1 ++ [main_v3]
abbrev W3 : List (Ref sig .tc) := W2 ++ hostOps1_W
abbrev W4 : List (Ref sig .tc) := W3 ++ [main_v7]
abbrev W5 : List (Ref sig .tc) := W4 ++ hostOps2_W
abbrev W6 : List (Ref sig .tc) := W5 ++ [main_v11]
abbrev W7 : List (Ref sig .tc) := W6 ++ hostOps3_W
abbrev W8 : List (Ref sig .tc) := W7 ++ [main_v15]
abbrev W9 : List (Ref sig .tc) := W8 ++ hostOps4_W
abbrev W10 : List (Ref sig .tc) := W9 ++ [main_v23]
abbrev W11 : List (Ref sig .tc) := W10 ++ hostOps5_W
abbrev W12 : List (Ref sig .tc) := W11 ++ [main_v27]
abbrev W13 : List (Ref sig .tc) := W12 ++ hostOps6_W
abbrev W14 : List (Ref sig .tc) := W13 ++ [main_v31]
abbrev W15 : List (Ref sig .tc) := W14 ++ hostOps7_W
/-- A reference that no item up to item n writes holds its launch value after item n. -/
theorem at_V1 (c : Dev nD) (r : Ref sig .tc) (h : r ∉ W1) : V1 m c r = V0 m c r := V1_of m c r h
theorem at_V2 (c : Dev nD) (r : Ref sig .tc) (h : r ∉ W2) : V2 m outs c r = V0 m c r :=
  (V2_of m outs c r fun hm => h (List.mem_append_right _ hm)).trans (at_V1 m c r fun hm => h (List.mem_append_left _ hm))
theorem at_V3 (c : Dev nD) (r : Ref sig .tc) (h : r ∉ W3) : V3 m outs c r = V0 m c r :=
  (V3_of m outs c r fun hm => h (List.mem_append_right _ hm)).trans (at_V2 m outs c r fun hm => h (List.mem_append_left _ hm))
theorem at_V4 (c : Dev nD) (r : Ref sig .tc) (h : r ∉ W4) : V4 m outs c r = V0 m c r :=
  (V4_of m outs c r fun hm => h (List.mem_append_right _ hm)).trans (at_V3 m outs c r fun hm => h (List.mem_append_left _ hm))
theorem at_V5 (c : Dev nD) (r : Ref sig .tc) (h : r ∉ W5) : V5 m outs c r = V0 m c r :=
  (V5_of m outs c r fun hm => h (List.mem_append_right _ hm)).trans (at_V4 m outs c r fun hm => h (List.mem_append_left _ hm))
theorem at_V6 (c : Dev nD) (r : Ref sig .tc) (h : r ∉ W6) : V6 m outs c r = V0 m c r :=
  (V6_of m outs c r fun hm => h (List.mem_append_right _ hm)).trans (at_V5 m outs c r fun hm => h (List.mem_append_left _ hm))
theorem at_V7 (c : Dev nD) (r : Ref sig .tc) (h : r ∉ W7) : V7 m outs c r = V0 m c r :=
  (V7_of m outs c r fun hm => h (List.mem_append_right _ hm)).trans (at_V6 m outs c r fun hm => h (List.mem_append_left _ hm))
theorem at_V8 (c : Dev nD) (r : Ref sig .tc) (h : r ∉ W8) : V8 m outs c r = V0 m c r :=
  (V8_of m outs c r fun hm => h (List.mem_append_right _ hm)).trans (at_V7 m outs c r fun hm => h (List.mem_append_left _ hm))
theorem at_V9 (c : Dev nD) (r : Ref sig .tc) (h : r ∉ W9) : V9 m outs c r = V0 m c r :=
  (V9_of m outs c r fun hm => h (List.mem_append_right _ hm)).trans (at_V8 m outs c r fun hm => h (List.mem_append_left _ hm))
theorem at_V10 (c : Dev nD) (r : Ref sig .tc) (h : r ∉ W10) : V10 m outs c r = V0 m c r :=
  (V10_of m outs c r fun hm => h (List.mem_append_right _ hm)).trans (at_V9 m outs c r fun hm => h (List.mem_append_left _ hm))
theorem at_V11 (c : Dev nD) (r : Ref sig .tc) (h : r ∉ W11) : V11 m outs c r = V0 m c r :=
  (V11_of m outs c r fun hm => h (List.mem_append_right _ hm)).trans (at_V10 m outs c r fun hm => h (List.mem_append_left _ hm))
theorem at_V12 (c : Dev nD) (r : Ref sig .tc) (h : r ∉ W12) : V12 m outs c r = V0 m c r :=
  (V12_of m outs c r fun hm => h (List.mem_append_right _ hm)).trans (at_V11 m outs c r fun hm => h (List.mem_append_left _ hm))
theorem at_V13 (c : Dev nD) (r : Ref sig .tc) (h : r ∉ W13) : V13 m outs c r = V0 m c r :=
  (V13_of m outs c r fun hm => h (List.mem_append_right _ hm)).trans (at_V12 m outs c r fun hm => h (List.mem_append_left _ hm))
theorem at_V14 (c : Dev nD) (r : Ref sig .tc) (h : r ∉ W14) : V14 m outs c r = V0 m c r :=
  (V14_of m outs c r fun hm => h (List.mem_append_right _ hm)).trans (at_V13 m outs c r fun hm => h (List.mem_append_left _ hm))
theorem at_V15 (c : Dev nD) (r : Ref sig .tc) (h : r ∉ W15) : V15 m outs c r = V0 m c r :=
  (V15_of m outs c r fun hm => h (List.mem_append_right _ hm)).trans (at_V14 m outs c r fun hm => h (List.mem_append_left _ hm))
theorem agree0_x (c : Dev nD) : V1 m c main_arg0 = U0 m c main_arg0 :=
  (at_V1 m c main_arg0 (by decide)).trans (StableHlo.after_of_writes_sub hostOps0 _ hostOps0_writes (by decide)).symm
theorem agree0_o (c : Dev nD) : V1 m c main_v3 = U0 m c main_v3 :=
  ((V1_of m c main_v3 (by decide))).trans (StableHlo.after_of_writes_sub hostOps0 _ hostOps0_writes (by decide)).symm
theorem agree0_t (c : Dev nD) : V1 m c main_v0 = U0 m c main_v0 := by
  show StableHlo.after hostOps0 (V0 m c) main_v0 = StableHlo.after hostOps0 (V0 m c) main_v0
  unfold hostOps0
  after_results

theorem agree0_v (c : Dev nD) : V1 m c main_v2 = U0 m c main_v2 := by
  show StableHlo.after hostOps0 (V0 m c) main_v2 = StableHlo.after hostOps0 (V0 m c) main_v2
  unfold hostOps0
  after_results

theorem agree1_x (c : Dev nD) : V3 m outs c main_arg0 = U1 m c main_arg0 :=
  (at_V3 m outs c main_arg0 (by decide)).trans (StableHlo.after_of_writes_sub hostOps1 _ hostOps1_writes (by decide)).symm
theorem agree1_o (c : Dev nD) : V3 m outs c main_v7 = U1 m c main_v7 :=
  (at_V3 m outs c main_v7 (by decide)).trans (StableHlo.after_of_writes_sub hostOps1 _ hostOps1_writes (by decide)).symm
theorem agree1_t (c : Dev nD) : V3 m outs c main_v4 = U1 m c main_v4 := by
  show StableHlo.after hostOps1 (V2 m outs c) main_v4 = StableHlo.after hostOps1 (V0 m c) main_v4
  unfold hostOps1
  after_results
  rw [at_V2 m outs c main_arg2 (by decide)]
theorem agree1_v (c : Dev nD) : V3 m outs c main_v6 = U1 m c main_v6 := by
  show StableHlo.after hostOps1 (V2 m outs c) main_v6 = StableHlo.after hostOps1 (V0 m c) main_v6
  unfold hostOps1
  after_results
  rw [at_V2 m outs c main_arg3 (by decide)]

theorem agree2_x (c : Dev nD) : V5 m outs c main_arg0 = U2 m c main_arg0 :=
  (at_V5 m outs c main_arg0 (by decide)).trans (StableHlo.after_of_writes_sub hostOps2 _ hostOps2_writes (by decide)).symm
theorem agree2_o (c : Dev nD) : V5 m outs c main_v11 = U2 m c main_v11 :=
  (at_V5 m outs c main_v11 (by decide)).trans (StableHlo.after_of_writes_sub hostOps2 _ hostOps2_writes (by decide)).symm
theorem agree2_t (c : Dev nD) : V5 m outs c main_v8 = U2 m c main_v8 := by
  show StableHlo.after hostOps2 (V4 m outs c) main_v8 = StableHlo.after hostOps2 (V0 m c) main_v8
  unfold hostOps2
  after_results
  rw [at_V4 m outs c main_arg2 (by decide)]
theorem agree2_v (c : Dev nD) : V5 m outs c main_v10 = U2 m c main_v10 := by
  show StableHlo.after hostOps2 (V4 m outs c) main_v10 = StableHlo.after hostOps2 (V0 m c) main_v10
  unfold hostOps2
  after_results
  rw [at_V4 m outs c main_arg3 (by decide)]

theorem agree3_x (c : Dev nD) : V7 m outs c main_arg0 = U3 m c main_arg0 :=
  (at_V7 m outs c main_arg0 (by decide)).trans (StableHlo.after_of_writes_sub hostOps3 _ hostOps3_writes (by decide)).symm
theorem agree3_o (c : Dev nD) : V7 m outs c main_v15 = U3 m c main_v15 :=
  (at_V7 m outs c main_v15 (by decide)).trans (StableHlo.after_of_writes_sub hostOps3 _ hostOps3_writes (by decide)).symm
theorem agree3_t (c : Dev nD) : V7 m outs c main_v12 = U3 m c main_v12 := by
  show StableHlo.after hostOps3 (V6 m outs c) main_v12 = StableHlo.after hostOps3 (V0 m c) main_v12
  unfold hostOps3
  after_results
  rw [at_V6 m outs c main_arg2 (by decide)]
theorem agree3_v (c : Dev nD) : V7 m outs c main_v14 = U3 m c main_v14 := by
  show StableHlo.after hostOps3 (V6 m outs c) main_v14 = StableHlo.after hostOps3 (V0 m c) main_v14
  unfold hostOps3
  after_results
  rw [at_V6 m outs c main_arg3 (by decide)]

theorem agree4_x (c : Dev nD) : V9 m outs c main_arg0 = U4 m c main_arg0 :=
  (at_V9 m outs c main_arg0 (by decide)).trans (StableHlo.after_of_writes_sub hostOps4 _ hostOps4_writes (by decide)).symm
theorem agree4_o (c : Dev nD) : V9 m outs c main_v23 = U4 m c main_v23 :=
  (at_V9 m outs c main_v23 (by decide)).trans (StableHlo.after_of_writes_sub hostOps4 _ hostOps4_writes (by decide)).symm
theorem agree4_t (c : Dev nD) : V9 m outs c main_v20 = U4 m c main_v20 := by
  show StableHlo.after hostOps4 (V8 m outs c) main_v20 = StableHlo.after hostOps4 (V0 m c) main_v20
  unfold hostOps4
  after_results
  rw [at_V8 m outs c main_arg5 (by decide)]
theorem agree4_v (c : Dev nD) : V9 m outs c main_v22 = U4 m c main_v22 := by
  show StableHlo.after hostOps4 (V8 m outs c) main_v22 = StableHlo.after hostOps4 (V0 m c) main_v22
  unfold hostOps4
  after_results
  rw [at_V8 m outs c main_arg6 (by decide)]

theorem agree5_x (c : Dev nD) : V11 m outs c main_arg0 = U5 m c main_arg0 :=
  (at_V11 m outs c main_arg0 (by decide)).trans (StableHlo.after_of_writes_sub hostOps5 _ hostOps5_writes (by decide)).symm
theorem agree5_o (c : Dev nD) : V11 m outs c main_v27 = U5 m c main_v27 :=
  (at_V11 m outs c main_v27 (by decide)).trans (StableHlo.after_of_writes_sub hostOps5 _ hostOps5_writes (by decide)).symm
theorem agree5_t (c : Dev nD) : V11 m outs c main_v24 = U5 m c main_v24 := by
  show StableHlo.after hostOps5 (V10 m outs c) main_v24 = StableHlo.after hostOps5 (V0 m c) main_v24
  unfold hostOps5
  after_results
  rw [at_V10 m outs c main_arg5 (by decide)]
theorem agree5_v (c : Dev nD) : V11 m outs c main_v26 = U5 m c main_v26 := by
  show StableHlo.after hostOps5 (V10 m outs c) main_v26 = StableHlo.after hostOps5 (V0 m c) main_v26
  unfold hostOps5
  after_results
  rw [at_V10 m outs c main_arg6 (by decide)]

theorem agree6_x (c : Dev nD) : V13 m outs c main_arg0 = U6 m c main_arg0 :=
  (at_V13 m outs c main_arg0 (by decide)).trans (StableHlo.after_of_writes_sub hostOps6 _ hostOps6_writes (by decide)).symm
theorem agree6_o (c : Dev nD) : V13 m outs c main_v31 = U6 m c main_v31 :=
  (at_V13 m outs c main_v31 (by decide)).trans (StableHlo.after_of_writes_sub hostOps6 _ hostOps6_writes (by decide)).symm
theorem agree6_t (c : Dev nD) : V13 m outs c main_v28 = U6 m c main_v28 := by
  show StableHlo.after hostOps6 (V12 m outs c) main_v28 = StableHlo.after hostOps6 (V0 m c) main_v28
  unfold hostOps6
  after_results
  rw [at_V12 m outs c main_arg5 (by decide)]
theorem agree6_v (c : Dev nD) : V13 m outs c main_v30 = U6 m c main_v30 := by
  show StableHlo.after hostOps6 (V12 m outs c) main_v30 = StableHlo.after hostOps6 (V0 m c) main_v30
  unfold hostOps6
  after_results
  rw [at_V12 m outs c main_arg6 (by decide)]

theorem agree7_x (c : Dev nD) : V15 m outs c main_arg0 = U7 m c main_arg0 :=
  (at_V15 m outs c main_arg0 (by decide)).trans (StableHlo.after_of_writes_sub hostOps7 _ hostOps7_writes (by decide)).symm
theorem agree7_o (c : Dev nD) : V15 m outs c main_v35 = U7 m c main_v35 :=
  (at_V15 m outs c main_v35 (by decide)).trans (StableHlo.after_of_writes_sub hostOps7 _ hostOps7_writes (by decide)).symm
theorem agree7_t (c : Dev nD) : V15 m outs c main_v32 = U7 m c main_v32 := by
  show StableHlo.after hostOps7 (V14 m outs c) main_v32 = StableHlo.after hostOps7 (V0 m c) main_v32
  unfold hostOps7
  after_results
  rw [at_V14 m outs c main_arg5 (by decide)]
theorem agree7_v (c : Dev nD) : V15 m outs c main_v34 = U7 m c main_v34 := by
  show StableHlo.after hostOps7 (V14 m outs c) main_v34 = StableHlo.after hostOps7 (V0 m c) main_v34
  unfold hostOps7
  after_results
  rw [at_V14 m outs c main_arg6 (by decide)]

end Agree

theorem hA0 (c : Dev nD) : ∀ w : Fin 3, Ud0 m c (Pipeline.arrRef spec0 w) = V1 m c (Pipeline.arrRef spec0 w)
  | 0 => (agree0_x m c).symm
  | 1 => (agree0_v m c).symm
  | 2 => (agree0_o m c).symm
  | ⟨_ + 3, h⟩ => absurd h (Nat.not_lt.2 (Nat.le_add_left _ _))
theorem hT0 (c : Dev nD) : ∀ k, (adm0 m).1 k = V1 m c (pre0.ref k) := by
  obtain rfl := dev_eq c
  exact fun | 0 => (agree0_t m c0).symm | ⟨_ + 1, h⟩ => absurd h (Nat.not_lt.2 (Nat.le_add_left _ _))
theorem hF0 (c : Dev nD) : ∀ w : Fin 3, (dat0 (Ud0 m) (adm0 m) c).arrAt w (cfg0 (adm0 m)).N = V2 m (outsP m) c (Pipeline.arrRef spec0 w)
  | 0 => (((dat0 (Ud0 m) (adm0 m) c).arrAt_in 0 rfl _).trans (A_eq0 (Ud0 m) (adm0 m) c 0)).trans ((agree0_x m c).symm.trans (V2_of m (outsP m) c main_arg0 (by decide)).symm)
  | 1 => (((dat0 (Ud0 m) (adm0 m) c).arrAt_in 1 rfl _).trans (A_eq0 (Ud0 m) (adm0 m) c 1)).trans ((agree0_v m c).symm.trans (V2_of m (outsP m) c main_v2 (by decide)).symm)
  | 2 => (outsP_2 m c).symm.trans (Function.update_self (β := fun b : DevRef τ sig => b.ty.Contents (Elt F)) (Proc.devRef .tc main_v3) (outsP m 2 main_v3 c) (V1 m c)).symm
  | ⟨_ + 3, h⟩ => absurd h (Nat.not_lt.2 (Nat.le_add_left _ _))
theorem hrest0 (c : Dev nD) : ∀ b : Ref sig .tc, b ∉ Finset.univ.image (Pipeline.arrRef spec0) → V2 m (outsP m) c b = V1 m c b :=
  fun b hb => V2_of m (outsP m) c b fun hmem =>
    hb (Finset.mem_image.mpr ⟨2, Finset.mem_univ _, (List.mem_singleton.mp hmem).symm⟩)

set_option backward.isDefEq.respectTransparency.types false in

def reg0 (hcol : HCol0 (adm0 m)) :
    Pipeline.RegionSeg (pcfgs (F := F)) (adm m) (pdats m) () defs₀ Variants.none L lv 0 where
  win := (launch0 (F := F)).win.to₀
  block_pos := (launch0 (F := F)).block_pos
  stage_whole := (launch0 (F := F)).stage_whole
  K := Fin 16
  osem := osem0
  ho := ownSemFacts0
  hbody c := (body_obligation0 (Ud0 m) (adm0 m) hcol c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsP m) c) ∗ R c)
  X := X0
  Y := Y0 (adm0 m)
  Z c := Z0 (V1 m c) c
  hentry c := hentry0 (Ud0 m) (adm0 m) c (V1 m c) (hA0 m c) (hT0 m c)
  hin c := hin0 (Ud0 m) (adm0 m) c
  hout c := hout0 (Ud0 m) (adm0 m) c
  hexit c := hexit0 (Ud0 m) (adm0 m) c (V1 m c) (V2 m (outsP m) c) (hF0 m c) (hrest0 m c) (hT0 m c)

theorem hA1 (c : Dev nD) : ∀ w : Fin 3, Ud1 m c (Pipeline.arrRef spec1 w) = V3 m (outsP m) c (Pipeline.arrRef spec1 w)
  | 0 => (agree1_x m (outsP m) c).symm
  | 1 => (agree1_v m (outsP m) c).symm
  | 2 => (agree1_o m (outsP m) c).symm
  | ⟨_ + 3, h⟩ => absurd h (Nat.not_lt.2 (Nat.le_add_left _ _))
theorem hT1 (c : Dev nD) : ∀ k, (adm1 m).1 k = V3 m (outsP m) c (pre1.ref k) := by
  obtain rfl := dev_eq c
  exact fun | 0 => (agree1_t m (outsP m) c0).symm | ⟨_ + 1, h⟩ => absurd h (Nat.not_lt.2 (Nat.le_add_left _ _))
theorem hF1 (c : Dev nD) : ∀ w : Fin 3, (dat1 (Ud1 m) (adm1 m) c).arrAt w (cfg1 (adm1 m)).N = V4 m (outsP m) c (Pipeline.arrRef spec1 w)
  | 0 => (((dat1 (Ud1 m) (adm1 m) c).arrAt_in 0 rfl _).trans (A_eq1 (Ud1 m) (adm1 m) c 0)).trans ((agree1_x m (outsP m) c).symm.trans (V4_of m (outsP m) c main_arg0 (by decide)).symm)
  | 1 => (((dat1 (Ud1 m) (adm1 m) c).arrAt_in 1 rfl _).trans (A_eq1 (Ud1 m) (adm1 m) c 1)).trans ((agree1_v m (outsP m) c).symm.trans (V4_of m (outsP m) c main_v6 (by decide)).symm)
  | 2 => (outsP_4 m c).symm.trans (Function.update_self (β := fun b : DevRef τ sig => b.ty.Contents (Elt F)) (Proc.devRef .tc main_v7) (outsP m 4 main_v7 c) (V3 m (outsP m) c)).symm
  | ⟨_ + 3, h⟩ => absurd h (Nat.not_lt.2 (Nat.le_add_left _ _))
theorem hrest1 (c : Dev nD) : ∀ b : Ref sig .tc, b ∉ Finset.univ.image (Pipeline.arrRef spec1) → V4 m (outsP m) c b = V3 m (outsP m) c b :=
  fun b hb => V4_of m (outsP m) c b fun hmem =>
    hb (Finset.mem_image.mpr ⟨2, Finset.mem_univ _, (List.mem_singleton.mp hmem).symm⟩)

set_option backward.isDefEq.respectTransparency.types false in

def reg1 (hcol : HCol1 (adm1 m)) :
    Pipeline.RegionSeg (pcfgs (F := F)) (adm m) (pdats m) () defs₀ Variants.none L lv 1 where
  win := (launch1 (F := F)).win.to₀
  block_pos := (launch1 (F := F)).block_pos
  stage_whole := (launch1 (F := F)).stage_whole
  K := Fin 16
  osem := osem1
  ho := ownSemFacts1
  hbody c := (body_obligation1 (Ud1 m) (adm1 m) hcol c).loose
  hwaits := Pipeline.hwaits_of_owed_zero _ _ _ _ L lv 1 fun _ _ => rfl
  pre c := iprop(StableHlo.held (c : Thread nD τ) (Pipeline.ucRefs τ sig) (V3 m (outsP m) c) ∗ R c)
  post c := iprop(StableHlo.held (c : Thread nD τ) (Pipeline.ucRefs τ sig) (V4 m (outsP m) c) ∗ R c)
  X := X1
  Y := Y1 (adm1 m)
  Z c := Z1 (V3 m (outsP m) c) c
  hentry c := hentry1 (Ud1 m) (adm1 m) c (V3 m (outsP m) c) (hA1 m c) (hT1 m c)
  hin c := hin1 (Ud1 m) (adm1 m) c
  hout c := hout1 (Ud1 m) (adm1 m) c
  hexit c := hexit1 (Ud1 m) (adm1 m) c (V3 m (outsP m) c) (V4 m (outsP m) c) (hF1 m c) (hrest1 m c) (hT1 m c)

theorem hA2 (c : Dev nD) : ∀ w : Fin 3, Ud2 m c (Pipeline.arrRef spec2 w) = V5 m (outsP m) c (Pipeline.arrRef spec2 w)
  | 0 => (agree2_x m (outsP m) c).symm
  | 1 => (agree2_v m (outsP m) c).symm
  | 2 => (agree2_o m (outsP m) c).symm
  | ⟨_ + 3, h⟩ => absurd h (Nat.not_lt.2 (Nat.le_add_left _ _))
theorem hT2 (c : Dev nD) : ∀ k, (adm2 m).1 k = V5 m (outsP m) c (pre2.ref k) := by
  obtain rfl := dev_eq c
  exact fun | 0 => (agree2_t m (outsP m) c0).symm | ⟨_ + 1, h⟩ => absurd h (Nat.not_lt.2 (Nat.le_add_left _ _))
theorem hF2 (c : Dev nD) : ∀ w : Fin 3, (dat2 (Ud2 m) (adm2 m) c).arrAt w (cfg2 (adm2 m)).N = V6 m (outsP m) c (Pipeline.arrRef spec2 w)
  | 0 => (((dat2 (Ud2 m) (adm2 m) c).arrAt_in 0 rfl _).trans (A_eq2 (Ud2 m) (adm2 m) c 0)).trans ((agree2_x m (outsP m) c).symm.trans (V6_of m (outsP m) c main_arg0 (by decide)).symm)
  | 1 => (((dat2 (Ud2 m) (adm2 m) c).arrAt_in 1 rfl _).trans (A_eq2 (Ud2 m) (adm2 m) c 1)).trans ((agree2_v m (outsP m) c).symm.trans (V6_of m (outsP m) c main_v10 (by decide)).symm)
  | 2 => (outsP_6 m c).symm.trans (Function.update_self (β := fun b : DevRef τ sig => b.ty.Contents (Elt F)) (Proc.devRef .tc main_v11) (outsP m 6 main_v11 c) (V5 m (outsP m) c)).symm
  | ⟨_ + 3, h⟩ => absurd h (Nat.not_lt.2 (Nat.le_add_left _ _))
theorem hrest2 (c : Dev nD) : ∀ b : Ref sig .tc, b ∉ Finset.univ.image (Pipeline.arrRef spec2) → V6 m (outsP m) c b = V5 m (outsP m) c b :=
  fun b hb => V6_of m (outsP m) c b fun hmem =>
    hb (Finset.mem_image.mpr ⟨2, Finset.mem_univ _, (List.mem_singleton.mp hmem).symm⟩)

set_option backward.isDefEq.respectTransparency.types false in

def reg2 (hcol : HCol2 (adm2 m)) :
    Pipeline.RegionSeg (pcfgs (F := F)) (adm m) (pdats m) () defs₀ Variants.none L lv 2 where
  win := (launch2 (F := F)).win.to₀
  block_pos := (launch2 (F := F)).block_pos
  stage_whole := (launch2 (F := F)).stage_whole
  K := Fin 16
  osem := osem2
  ho := ownSemFacts2
  hbody c := (body_obligation2 (Ud2 m) (adm2 m) hcol c).loose
  hwaits := Pipeline.hwaits_of_owed_zero _ _ _ _ L lv 2 fun _ _ => rfl
  pre c := iprop(StableHlo.held (c : Thread nD τ) (Pipeline.ucRefs τ sig) (V5 m (outsP m) c) ∗ R c)
  post c := iprop(StableHlo.held (c : Thread nD τ) (Pipeline.ucRefs τ sig) (V6 m (outsP m) c) ∗ R c)
  X := X2
  Y := Y2 (adm2 m)
  Z c := Z2 (V5 m (outsP m) c) c
  hentry c := hentry2 (Ud2 m) (adm2 m) c (V5 m (outsP m) c) (hA2 m c) (hT2 m c)
  hin c := hin2 (Ud2 m) (adm2 m) c
  hout c := hout2 (Ud2 m) (adm2 m) c
  hexit c := hexit2 (Ud2 m) (adm2 m) c (V5 m (outsP m) c) (V6 m (outsP m) c) (hF2 m c) (hrest2 m c) (hT2 m c)

theorem hA3 (c : Dev nD) : ∀ w : Fin 3, Ud3 m c (Pipeline.arrRef spec3 w) = V7 m (outsP m) c (Pipeline.arrRef spec3 w)
  | 0 => (agree3_x m (outsP m) c).symm
  | 1 => (agree3_v m (outsP m) c).symm
  | 2 => (agree3_o m (outsP m) c).symm
  | ⟨_ + 3, h⟩ => absurd h (Nat.not_lt.2 (Nat.le_add_left _ _))
theorem hT3 (c : Dev nD) : ∀ k, (adm3 m).1 k = V7 m (outsP m) c (pre3.ref k) := by
  obtain rfl := dev_eq c
  exact fun | 0 => (agree3_t m (outsP m) c0).symm | ⟨_ + 1, h⟩ => absurd h (Nat.not_lt.2 (Nat.le_add_left _ _))
theorem hF3 (c : Dev nD) : ∀ w : Fin 3, (dat3 (Ud3 m) (adm3 m) c).arrAt w (cfg3 (adm3 m)).N = V8 m (outsP m) c (Pipeline.arrRef spec3 w)
  | 0 => (((dat3 (Ud3 m) (adm3 m) c).arrAt_in 0 rfl _).trans (A_eq3 (Ud3 m) (adm3 m) c 0)).trans ((agree3_x m (outsP m) c).symm.trans (V8_of m (outsP m) c main_arg0 (by decide)).symm)
  | 1 => (((dat3 (Ud3 m) (adm3 m) c).arrAt_in 1 rfl _).trans (A_eq3 (Ud3 m) (adm3 m) c 1)).trans ((agree3_v m (outsP m) c).symm.trans (V8_of m (outsP m) c main_v14 (by decide)).symm)
  | 2 => (outsP_8 m c).symm.trans (Function.update_self (β := fun b : DevRef τ sig => b.ty.Contents (Elt F)) (Proc.devRef .tc main_v15) (outsP m 8 main_v15 c) (V7 m (outsP m) c)).symm
  | ⟨_ + 3, h⟩ => absurd h (Nat.not_lt.2 (Nat.le_add_left _ _))
theorem hrest3 (c : Dev nD) : ∀ b : Ref sig .tc, b ∉ Finset.univ.image (Pipeline.arrRef spec3) → V8 m (outsP m) c b = V7 m (outsP m) c b :=
  fun b hb => V8_of m (outsP m) c b fun hmem =>
    hb (Finset.mem_image.mpr ⟨2, Finset.mem_univ _, (List.mem_singleton.mp hmem).symm⟩)

set_option backward.isDefEq.respectTransparency.types false in

def reg3 (hcol : HCol3 (adm3 m)) :
    Pipeline.RegionSeg (pcfgs (F := F)) (adm m) (pdats m) () defs₀ Variants.none L lv 3 where
  win := (launch3 (F := F)).win.to₀
  block_pos := (launch3 (F := F)).block_pos
  stage_whole := (launch3 (F := F)).stage_whole
  K := Fin 16
  osem := osem3
  ho := ownSemFacts3
  hbody c := (body_obligation3 (Ud3 m) (adm3 m) hcol c).loose
  hwaits := Pipeline.hwaits_of_owed_zero _ _ _ _ L lv 3 fun _ _ => rfl
  pre c := iprop(StableHlo.held (c : Thread nD τ) (Pipeline.ucRefs τ sig) (V7 m (outsP m) c) ∗ R c)
  post c := iprop(StableHlo.held (c : Thread nD τ) (Pipeline.ucRefs τ sig) (V8 m (outsP m) c) ∗ R c)
  X := X3
  Y := Y3 (adm3 m)
  Z c := Z3 (V7 m (outsP m) c) c
  hentry c := hentry3 (Ud3 m) (adm3 m) c (V7 m (outsP m) c) (hA3 m c) (hT3 m c)
  hin c := hin3 (Ud3 m) (adm3 m) c
  hout c := hout3 (Ud3 m) (adm3 m) c
  hexit c := hexit3 (Ud3 m) (adm3 m) c (V7 m (outsP m) c) (V8 m (outsP m) c) (hF3 m c) (hrest3 m c) (hT3 m c)

theorem hA4 (c : Dev nD) : ∀ w : Fin 3, Ud4 m c (Pipeline.arrRef spec4 w) = V9 m (outsP m) c (Pipeline.arrRef spec4 w)
  | 0 => (agree4_x m (outsP m) c).symm
  | 1 => (agree4_v m (outsP m) c).symm
  | 2 => (agree4_o m (outsP m) c).symm
  | ⟨_ + 3, h⟩ => absurd h (Nat.not_lt.2 (Nat.le_add_left _ _))
theorem hT4 (c : Dev nD) : ∀ k, (adm4 m).1 k = V9 m (outsP m) c (pre4.ref k) := by
  obtain rfl := dev_eq c
  exact fun | 0 => (agree4_t m (outsP m) c0).symm | ⟨_ + 1, h⟩ => absurd h (Nat.not_lt.2 (Nat.le_add_left _ _))
theorem hF4 (c : Dev nD) : ∀ w : Fin 3, (dat4 (Ud4 m) (adm4 m) c).arrAt w (cfg4 (adm4 m)).N = V10 m (outsP m) c (Pipeline.arrRef spec4 w)
  | 0 => (((dat4 (Ud4 m) (adm4 m) c).arrAt_in 0 rfl _).trans (A_eq4 (Ud4 m) (adm4 m) c 0)).trans ((agree4_x m (outsP m) c).symm.trans (V10_of m (outsP m) c main_arg0 (by decide)).symm)
  | 1 => (((dat4 (Ud4 m) (adm4 m) c).arrAt_in 1 rfl _).trans (A_eq4 (Ud4 m) (adm4 m) c 1)).trans ((agree4_v m (outsP m) c).symm.trans (V10_of m (outsP m) c main_v22 (by decide)).symm)
  | 2 => (outsP_10 m c).symm.trans (Function.update_self (β := fun b : DevRef τ sig => b.ty.Contents (Elt F)) (Proc.devRef .tc main_v23) (outsP m 10 main_v23 c) (V9 m (outsP m) c)).symm
  | ⟨_ + 3, h⟩ => absurd h (Nat.not_lt.2 (Nat.le_add_left _ _))
theorem hrest4 (c : Dev nD) : ∀ b : Ref sig .tc, b ∉ Finset.univ.image (Pipeline.arrRef spec4) → V10 m (outsP m) c b = V9 m (outsP m) c b :=
  fun b hb => V10_of m (outsP m) c b fun hmem =>
    hb (Finset.mem_image.mpr ⟨2, Finset.mem_univ _, (List.mem_singleton.mp hmem).symm⟩)

set_option backward.isDefEq.respectTransparency.types false in

def reg4 (hcol : HCol4 (adm4 m)) :
    Pipeline.RegionSeg (pcfgs (F := F)) (adm m) (pdats m) () defs₀ Variants.none L lv 4 where
  win := (launch4 (F := F)).win.to₀
  block_pos := (launch4 (F := F)).block_pos
  stage_whole := (launch4 (F := F)).stage_whole
  K := Fin 16
  osem := osem4
  ho := ownSemFacts4
  hbody c := (body_obligation4 (Ud4 m) (adm4 m) hcol c).loose
  hwaits := Pipeline.hwaits_of_owed_zero _ _ _ _ L lv 4 fun _ _ => rfl
  pre c := iprop(StableHlo.held (c : Thread nD τ) (Pipeline.ucRefs τ sig) (V9 m (outsP m) c) ∗ R c)
  post c := iprop(StableHlo.held (c : Thread nD τ) (Pipeline.ucRefs τ sig) (V10 m (outsP m) c) ∗ R c)
  X := X4
  Y := Y4 (adm4 m)
  Z c := Z4 (V9 m (outsP m) c) c
  hentry c := hentry4 (Ud4 m) (adm4 m) c (V9 m (outsP m) c) (hA4 m c) (hT4 m c)
  hin c := hin4 (Ud4 m) (adm4 m) c
  hout c := hout4 (Ud4 m) (adm4 m) c
  hexit c := hexit4 (Ud4 m) (adm4 m) c (V9 m (outsP m) c) (V10 m (outsP m) c) (hF4 m c) (hrest4 m c) (hT4 m c)

theorem hA5 (c : Dev nD) : ∀ w : Fin 3, Ud5 m c (Pipeline.arrRef spec5 w) = V11 m (outsP m) c (Pipeline.arrRef spec5 w)
  | 0 => (agree5_x m (outsP m) c).symm
  | 1 => (agree5_v m (outsP m) c).symm
  | 2 => (agree5_o m (outsP m) c).symm
  | ⟨_ + 3, h⟩ => absurd h (Nat.not_lt.2 (Nat.le_add_left _ _))
theorem hT5 (c : Dev nD) : ∀ k, (adm5 m).1 k = V11 m (outsP m) c (pre5.ref k) := by
  obtain rfl := dev_eq c
  exact fun | 0 => (agree5_t m (outsP m) c0).symm | ⟨_ + 1, h⟩ => absurd h (Nat.not_lt.2 (Nat.le_add_left _ _))
theorem hF5 (c : Dev nD) : ∀ w : Fin 3, (dat5 (Ud5 m) (adm5 m) c).arrAt w (cfg5 (adm5 m)).N = V12 m (outsP m) c (Pipeline.arrRef spec5 w)
  | 0 => (((dat5 (Ud5 m) (adm5 m) c).arrAt_in 0 rfl _).trans (A_eq5 (Ud5 m) (adm5 m) c 0)).trans ((agree5_x m (outsP m) c).symm.trans (V12_of m (outsP m) c main_arg0 (by decide)).symm)
  | 1 => (((dat5 (Ud5 m) (adm5 m) c).arrAt_in 1 rfl _).trans (A_eq5 (Ud5 m) (adm5 m) c 1)).trans ((agree5_v m (outsP m) c).symm.trans (V12_of m (outsP m) c main_v26 (by decide)).symm)
  | 2 => (outsP_12 m c).symm.trans (Function.update_self (β := fun b : DevRef τ sig => b.ty.Contents (Elt F)) (Proc.devRef .tc main_v27) (outsP m 12 main_v27 c) (V11 m (outsP m) c)).symm
  | ⟨_ + 3, h⟩ => absurd h (Nat.not_lt.2 (Nat.le_add_left _ _))
theorem hrest5 (c : Dev nD) : ∀ b : Ref sig .tc, b ∉ Finset.univ.image (Pipeline.arrRef spec5) → V12 m (outsP m) c b = V11 m (outsP m) c b :=
  fun b hb => V12_of m (outsP m) c b fun hmem =>
    hb (Finset.mem_image.mpr ⟨2, Finset.mem_univ _, (List.mem_singleton.mp hmem).symm⟩)

set_option backward.isDefEq.respectTransparency.types false in

def reg5 (hcol : HCol5 (adm5 m)) :
    Pipeline.RegionSeg (pcfgs (F := F)) (adm m) (pdats m) () defs₀ Variants.none L lv 5 where
  win := (launch5 (F := F)).win.to₀
  block_pos := (launch5 (F := F)).block_pos
  stage_whole := (launch5 (F := F)).stage_whole
  K := Fin 16
  osem := osem5
  ho := ownSemFacts5
  hbody c := (body_obligation5 (Ud5 m) (adm5 m) hcol c).loose
  hwaits := Pipeline.hwaits_of_owed_zero _ _ _ _ L lv 5 fun _ _ => rfl
  pre c := iprop(StableHlo.held (c : Thread nD τ) (Pipeline.ucRefs τ sig) (V11 m (outsP m) c) ∗ R c)
  post c := iprop(StableHlo.held (c : Thread nD τ) (Pipeline.ucRefs τ sig) (V12 m (outsP m) c) ∗ R c)
  X := X5
  Y := Y5 (adm5 m)
  Z c := Z5 (V11 m (outsP m) c) c
  hentry c := hentry5 (Ud5 m) (adm5 m) c (V11 m (outsP m) c) (hA5 m c) (hT5 m c)
  hin c := hin5 (Ud5 m) (adm5 m) c
  hout c := hout5 (Ud5 m) (adm5 m) c
  hexit c := hexit5 (Ud5 m) (adm5 m) c (V11 m (outsP m) c) (V12 m (outsP m) c) (hF5 m c) (hrest5 m c) (hT5 m c)

theorem hA6 (c : Dev nD) : ∀ w : Fin 3, Ud6 m c (Pipeline.arrRef spec6 w) = V13 m (outsP m) c (Pipeline.arrRef spec6 w)
  | 0 => (agree6_x m (outsP m) c).symm
  | 1 => (agree6_v m (outsP m) c).symm
  | 2 => (agree6_o m (outsP m) c).symm
  | ⟨_ + 3, h⟩ => absurd h (Nat.not_lt.2 (Nat.le_add_left _ _))
theorem hT6 (c : Dev nD) : ∀ k, (adm6 m).1 k = V13 m (outsP m) c (pre6.ref k) := by
  obtain rfl := dev_eq c
  exact fun | 0 => (agree6_t m (outsP m) c0).symm | ⟨_ + 1, h⟩ => absurd h (Nat.not_lt.2 (Nat.le_add_left _ _))
theorem hF6 (c : Dev nD) : ∀ w : Fin 3, (dat6 (Ud6 m) (adm6 m) c).arrAt w (cfg6 (adm6 m)).N = V14 m (outsP m) c (Pipeline.arrRef spec6 w)
  | 0 => (((dat6 (Ud6 m) (adm6 m) c).arrAt_in 0 rfl _).trans (A_eq6 (Ud6 m) (adm6 m) c 0)).trans ((agree6_x m (outsP m) c).symm.trans (V14_of m (outsP m) c main_arg0 (by decide)).symm)
  | 1 => (((dat6 (Ud6 m) (adm6 m) c).arrAt_in 1 rfl _).trans (A_eq6 (Ud6 m) (adm6 m) c 1)).trans ((agree6_v m (outsP m) c).symm.trans (V14_of m (outsP m) c main_v30 (by decide)).symm)
  | 2 => (outsP_14 m c).symm.trans (Function.update_self (β := fun b : DevRef τ sig => b.ty.Contents (Elt F)) (Proc.devRef .tc main_v31) (outsP m 14 main_v31 c) (V13 m (outsP m) c)).symm
  | ⟨_ + 3, h⟩ => absurd h (Nat.not_lt.2 (Nat.le_add_left _ _))
theorem hrest6 (c : Dev nD) : ∀ b : Ref sig .tc, b ∉ Finset.univ.image (Pipeline.arrRef spec6) → V14 m (outsP m) c b = V13 m (outsP m) c b :=
  fun b hb => V14_of m (outsP m) c b fun hmem =>
    hb (Finset.mem_image.mpr ⟨2, Finset.mem_univ _, (List.mem_singleton.mp hmem).symm⟩)

set_option backward.isDefEq.respectTransparency.types false in

def reg6 (hcol : HCol6 (adm6 m)) :
    Pipeline.RegionSeg (pcfgs (F := F)) (adm m) (pdats m) () defs₀ Variants.none L lv 6 where
  win := (launch6 (F := F)).win.to₀
  block_pos := (launch6 (F := F)).block_pos
  stage_whole := (launch6 (F := F)).stage_whole
  K := Fin 16
  osem := osem6
  ho := ownSemFacts6
  hbody c := (body_obligation6 (Ud6 m) (adm6 m) hcol c).loose
  hwaits := Pipeline.hwaits_of_owed_zero _ _ _ _ L lv 6 fun _ _ => rfl
  pre c := iprop(StableHlo.held (c : Thread nD τ) (Pipeline.ucRefs τ sig) (V13 m (outsP m) c) ∗ R c)
  post c := iprop(StableHlo.held (c : Thread nD τ) (Pipeline.ucRefs τ sig) (V14 m (outsP m) c) ∗ R c)
  X := X6
  Y := Y6 (adm6 m)
  Z c := Z6 (V13 m (outsP m) c) c
  hentry c := hentry6 (Ud6 m) (adm6 m) c (V13 m (outsP m) c) (hA6 m c) (hT6 m c)
  hin c := hin6 (Ud6 m) (adm6 m) c
  hout c := hout6 (Ud6 m) (adm6 m) c
  hexit c := hexit6 (Ud6 m) (adm6 m) c (V13 m (outsP m) c) (V14 m (outsP m) c) (hF6 m c) (hrest6 m c) (hT6 m c)

theorem hA7 (c : Dev nD) : ∀ w : Fin 3, Ud7 m c (Pipeline.arrRef spec7 w) = V15 m (outsP m) c (Pipeline.arrRef spec7 w)
  | 0 => (agree7_x m (outsP m) c).symm
  | 1 => (agree7_v m (outsP m) c).symm
  | 2 => (agree7_o m (outsP m) c).symm
  | ⟨_ + 3, h⟩ => absurd h (Nat.not_lt.2 (Nat.le_add_left _ _))
theorem hT7 (c : Dev nD) : ∀ k, (adm7 m).1 k = V15 m (outsP m) c (pre7.ref k) := by
  obtain rfl := dev_eq c
  exact fun | 0 => (agree7_t m (outsP m) c0).symm | ⟨_ + 1, h⟩ => absurd h (Nat.not_lt.2 (Nat.le_add_left _ _))
theorem hF7 (c : Dev nD) : ∀ w : Fin 3, (dat7 (Ud7 m) (adm7 m) c).arrAt w (cfg7 (adm7 m)).N = V16 m (outsP m) c (Pipeline.arrRef spec7 w)
  | 0 => (((dat7 (Ud7 m) (adm7 m) c).arrAt_in 0 rfl _).trans (A_eq7 (Ud7 m) (adm7 m) c 0)).trans ((agree7_x m (outsP m) c).symm.trans (V16_of m (outsP m) c main_arg0 (by decide)).symm)
  | 1 => (((dat7 (Ud7 m) (adm7 m) c).arrAt_in 1 rfl _).trans (A_eq7 (Ud7 m) (adm7 m) c 1)).trans ((agree7_v m (outsP m) c).symm.trans (V16_of m (outsP m) c main_v34 (by decide)).symm)
  | 2 => (outsP_16 m c).symm.trans (Function.update_self (β := fun b : DevRef τ sig => b.ty.Contents (Elt F)) (Proc.devRef .tc main_v35) (outsP m 16 main_v35 c) (V15 m (outsP m) c)).symm
  | ⟨_ + 3, h⟩ => absurd h (Nat.not_lt.2 (Nat.le_add_left _ _))
theorem hrest7 (c : Dev nD) : ∀ b : Ref sig .tc, b ∉ Finset.univ.image (Pipeline.arrRef spec7) → V16 m (outsP m) c b = V15 m (outsP m) c b :=
  fun b hb => V16_of m (outsP m) c b fun hmem =>
    hb (Finset.mem_image.mpr ⟨2, Finset.mem_univ _, (List.mem_singleton.mp hmem).symm⟩)

set_option backward.isDefEq.respectTransparency.types false in

def reg7 (hcol : HCol7 (adm7 m)) :
    Pipeline.RegionSeg (pcfgs (F := F)) (adm m) (pdats m) () defs₀ Variants.none L lv 7 where
  win := (launch7 (F := F)).win.to₀
  block_pos := (launch7 (F := F)).block_pos
  stage_whole := (launch7 (F := F)).stage_whole
  K := Fin 16
  osem := osem7
  ho := ownSemFacts7
  hbody c := (body_obligation7 (Ud7 m) (adm7 m) hcol c).loose
  hwaits := Pipeline.hwaits_of_owed_zero _ _ _ _ L lv 7 fun _ _ => rfl
  pre c := iprop(StableHlo.held (c : Thread nD τ) (Pipeline.ucRefs τ sig) (V15 m (outsP m) c) ∗ R c)
  post c := iprop(StableHlo.held (c : Thread nD τ) (Pipeline.ucRefs τ sig) (V16 m (outsP m) c) ∗ R c)
  X := X7
  Y := Y7 (adm7 m)
  Z c := Z7 (V15 m (outsP m) c) c
  hentry c := hentry7 (Ud7 m) (adm7 m) c (V15 m (outsP m) c) (hA7 m c) (hT7 m c)
  hin c := hin7 (Ud7 m) (adm7 m) c
  hout c := hout7 (Ud7 m) (adm7 m) c
  hexit c := hexit7 (Ud7 m) (adm7 m) c (V15 m (outsP m) c) (V16 m (outsP m) c) (hF7 m c) (hrest7 m c) (hT7 m c)

abbrev E : Fin 9 → Dev nD → sProp 𝕄 := fun _ c => R c

theorem htbl0 (hc : ∀ e : S320000.Idx, ((m ((c0 : Thread nD τ).loc main_arg2) : IVec S320000 32) e).toNat < 20000) : HCol0 (adm0 m) := alone0_tbl_in_range m c0 hc
theorem htbl1 (hc : ∀ e : S320000.Idx, ((m ((c0 : Thread nD τ).loc main_arg2) : IVec S320000 32) e).toNat < 20000) : HCol1 (adm1 m) := alone1_tbl_in_range m c0 hc
theorem htbl2 (hc : ∀ e : S320000.Idx, ((m ((c0 : Thread nD τ).loc main_arg2) : IVec S320000 32) e).toNat < 20000) : HCol2 (adm2 m) := alone2_tbl_in_range m c0 hc
theorem htbl3 (hc : ∀ e : S320000.Idx, ((m ((c0 : Thread nD τ).loc main_arg2) : IVec S320000 32) e).toNat < 20000) : HCol3 (adm3 m) := alone3_tbl_in_range m c0 hc
theorem htbl4 (hc : ∀ e : S320000.Idx, ((m ((c0 : Thread nD τ).loc main_arg5) : IVec S320000 32) e).toNat < 20000) : HCol4 (adm4 m) := alone4_tbl_in_range m c0 hc
theorem htbl5 (hc : ∀ e : S320000.Idx, ((m ((c0 : Thread nD τ).loc main_arg5) : IVec S320000 32) e).toNat < 20000) : HCol5 (adm5 m) := alone5_tbl_in_range m c0 hc
theorem htbl6 (hc : ∀ e : S320000.Idx, ((m ((c0 : Thread nD τ).loc main_arg5) : IVec S320000 32) e).toNat < 20000) : HCol6 (adm6 m) := alone6_tbl_in_range m c0 hc
theorem htbl7 (hc : ∀ e : S320000.Idx, ((m ((c0 : Thread nD τ).loc main_arg5) : IVec S320000 32) e).toNat < 20000) : HCol7 (adm7 m) := alone7_tbl_in_range m c0 hc

set_option backward.isDefEq.respectTransparency.types false in

theorem run_main (ρ : Dev nD → PrngReg)
    (hc2 : ∀ e : S320000.Idx, ((m ((c0 : Thread nD τ).loc main_arg2) : IVec S320000 32) e).toNat < 20000)
    (hc5 : ∀ e : S320000.Idx, ((m ((c0 : Thread nD τ).loc main_arg5) : IVec S320000 32) e).toNat < 20000) :
    θ_run defs (onTc (τ := τ) (main (F := F))) ⟨m, fun _ => 0, ρ⟩ (fun r => ∀ c : Dev nD,
      r.2.mem ((c.tc : Thread nD τ).loc main_v40) = V17 m (outsP m) c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) (adm m) (pdats m) () (cellOf_inj (adm m)) embL defs₀ Variants.none L lv m ρ main
    (segs m (outsP m) Variants.none L lv (E (F := F)) () (adm m) (pdats m)
      (reg0 m (htbl0 m hc2)) (reg1 m (htbl1 m hc2)) (reg2 m (htbl2 m hc2)) (reg3 m (htbl3 m hc2)) (reg4 m (htbl4 m hc5)) (reg5 m (htbl5 m hc5)) (reg6 m (htbl6 m hc5)) (reg7 m (htbl7 m hc5)))
    (fun c Q => by
      rewrite [main_chain c, Pipeline.Seg.run_eq_chain,
        show (segs m (outsP m) Variants.none L lv (E (F := F)) () (adm m) (pdats m)
      (reg0 m (htbl0 m hc2)) (reg1 m (htbl1 m hc2)) (reg2 m (htbl2 m hc2)) (reg3 m (htbl3 m hc2)) (reg4 m (htbl4 m hc5)) (reg5 m (htbl5 m hc5)) (reg6 m (htbl6 m hc5)) (reg7 m (htbl7 m hc5)) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V17 m (outsP m) c))
    (hch := fun c => ⟨.rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_)
    (QY := fun c s => s.mem ((c.tc : Thread nD τ).loc main_v40) = V17 m (outsP m) c main_v40
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (V17 m (outsP m) c) s') $$ [Hh HSI]
    · isplitl [Hh] <;> iassumption
    icases Hr with ⟨%h, HSI⟩
    imodintro
    isplitr
    · ipureintro
      exact ⟨h (Proc.devRef .tc main_v40) (Finset.mem_filter.mpr ⟨StableHlo.devRef_mem_tcRefs main_v40, by decide⟩),
        (h (Proc.devRef .tc main_arg0) (Finset.mem_filter.mpr ⟨StableHlo.devRef_mem_tcRefs main_arg0, by decide⟩)).trans (V17_main_arg0 m (outsP m) c),
        (h (Proc.devRef .tc main_arg1) (Finset.mem_filter.mpr ⟨StableHlo.devRef_mem_tcRefs main_arg1, by decide⟩)).trans (V17_main_arg1 m (outsP m) c),
        (h (Proc.devRef .tc main_arg2) (Finset.mem_filter.mpr ⟨StableHlo.devRef_mem_tcRefs main_arg2, by decide⟩)).trans (V17_main_arg2 m (outsP m) c),
        (h (Proc.devRef .tc main_arg3) (Finset.mem_filter.mpr ⟨StableHlo.devRef_mem_tcRefs main_arg3, by decide⟩)).trans (V17_main_arg3 m (outsP m) c),
        (h (Proc.devRef .tc main_arg4) (Finset.mem_filter.mpr ⟨StableHlo.devRef_mem_tcRefs main_arg4, by decide⟩)).trans (V17_main_arg4 m (outsP m) c),
        (h (Proc.devRef .tc main_arg5) (Finset.mem_filter.mpr ⟨StableHlo.devRef_mem_tcRefs main_arg5, by decide⟩)).trans (V17_main_arg5 m (outsP m) c),
        (h (Proc.devRef .tc main_arg6) (Finset.mem_filter.mpr ⟨StableHlo.devRef_mem_tcRefs main_arg6, by decide⟩)).trans (V17_main_arg6 m (outsP m) c)⟩
    · iexact HSI

end Cert.KernelIdeal.Hand
end
-- ==== Proof.KI.Value0R.lean ====
import proofs.«411766_j31920196944464_2_alg».proof.Proof.KI.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

section Region0

variable (Vd : (c : Dev nD) → (b : Ref sig .tc) → Buf (Elt F) ((c : Thread nD τ).loc b)) (a0 : (pcfg0 (F := F)).Adm)

theorem idx_facts0 : ∀ t : Fin grid0.N, cc0_transform_0 (grid0.coords t) = ![0, 0]
    ∧ cc0_transform_1 (grid0.coords t) = ![t.val, 0] ∧ cc0_transform_2 (grid0.coords t) = ![t.val, 0] := by
  decide +kernel

theorem iblk0_x_eq (c : Dev nD) (t : Fin (cfg0 a0).N) : iblk0 Vd a0 c 0 t = Vd c main_arg0 := by
  refine funext fun (j : S20000x256.Idx) => ?_
  show (Vd c main_arg0 : Vec F S20000x256 .f32) ((((cfg0 a0).win 0).blk t).view.emb j) = (Vd c main_arg0 : Vec F S20000x256 .f32) j
  congr 1
  funext a
  apply Fin.ext
  have e := (idx_facts0 t).1
  match a with
  | ⟨0, _⟩ =>
    show cc0_transform_0 (grid0.coords t) 0 * 20000 + 1 * (j 0).val = (j 0).val
    rw [e]; show 0 * 20000 + 1 * (j 0).val = (j 0).val; omega
  | ⟨1, _⟩ =>
    show cc0_transform_0 (grid0.coords t) 1 * 256 + 1 * (j 1).val = (j 1).val
    rw [e]; show 0 * 256 + 1 * (j 1).val = (j 1).val; omega

theorem iblk0_val_apply (c : Dev nD) (t : Fin (cfg0 a0).N) (j : S800x1.Idx) :
    iblk0 Vd a0 c 1 t j = (Vd c main_v2 : Vec F S80000x1 .f32)
      (ValueIdx.ix2 ⟨800 * t.val + (j 0).val, by have := t.isLt; have h : (cfg0 a0).N = 100 := N_0; have := (j 0).isLt; show _ < 80000; change (j 0).val < 800 at this; omega⟩ (j 1)) := by
  show (Vd c main_v2 : Vec F S80000x1 .f32) ((((cfg0 a0).win 1).blk t).view.emb j) = _
  congr 1
  funext a
  apply Fin.ext
  have e := (idx_facts0 t).2.1
  match a with
  | ⟨0, _⟩ =>
    show cc0_transform_1 (grid0.coords t) 0 * 800 + 1 * (j 0).val = 800 * t.val + (j 0).val
    rw [e]; show t.val * 800 + 1 * (j 0).val = 800 * t.val + (j 0).val; omega
  | ⟨1, _⟩ =>
    show cc0_transform_1 (grid0.coords t) 1 * 1 + 1 * (j 1).val = (j 1).val
    rw [e]; show 0 * 1 + 1 * (j 1).val = (j 1).val; omega

theorem index0_out (t : Fin (cfg0 a0).N) : ((cfg0 a0).win 2).index t = ![t.val, 0] := (idx_facts0 t).2.2

theorem flush0_out (t : Fin (cfg0 a0).N) : ((cfg0 a0).win 2).flush t = true := by
  unfold Window.flush
  rw [Bool.and_eq_true]
  refine ⟨rfl, ?_⟩
  rw [Bool.or_eq_true, decide_eq_true_eq, decide_eq_true_eq]
  by_cases h : t.val + 1 = grid0.N
  · exact Or.inl h
  · have hlt : t.val + 1 < grid0.N := by
      have := t.isLt; have h1 : (cfg0 a0).N = 100 := N_0; have h2 : grid0.N = 100 := N_0; omega
    refine Or.inr ⟨hlt, ?_⟩
    rw [index0_out, index0_out]
    intro e
    have e0 := congrFun e 0
    change t.val + 1 = t.val at e0
    omega

theorem emb0_out (t : Fin (cfg0 a0).N) (j : S800x256.Idx) :
    ((((cfg0 a0).win 2).blk t).view.emb j : S80000x256.Idx)
      = ValueIdx.ix2 ⟨800 * t.val + (j 0).val, by have := t.isLt; have h : (cfg0 a0).N = 100 := N_0; have := (j 0).isLt; show _ < 80000; change (j 0).val < 800 at this; omega⟩ (j 1) := by
  funext a
  apply Fin.ext
  have e := (idx_facts0 t).2.2
  match a with
  | ⟨0, _⟩ =>
    show cc0_transform_2 (grid0.coords t) 0 * 800 + 1 * (j 0).val = 800 * t.val + (j 0).val
    rw [e]; show t.val * 800 + 1 * (j 0).val = 800 * t.val + (j 0).val; omega
  | ⟨1, _⟩ =>
    show cc0_transform_2 (grid0.coords t) 1 * 256 + 1 * (j 1).val = (j 1).val
    rw [e]; show 0 * 256 + 1 * (j 1).val = (j 1).val; omega

theorem mem_blk0_out (t : Fin (cfg0 a0).N) (i : S80000x256.Idx) :
    i ∈ (((cfg0 a0).win 2).blk t).view.set ↔ 800 * t.val ≤ (i 0).val ∧ (i 0).val < 800 * t.val + 800 := by
  have hs : (((cfg0 a0).win 2).blk t).view.set = (((cfg0 a0).win 2).rect t).set := View.set_slice_whole main_v3 _
  have hm : i ∈ (((cfg0 a0).win 2).rect t).set ↔ ∀ a : Fin 2, cc0_transform_2 (grid0.coords t) a * S800x256.size a ≤ (i a).val
      ∧ (i a).val < cc0_transform_2 (grid0.coords t) a * S800x256.size a + S800x256.size a := Rect.mem_set_unit
  refine (Finset.ext_iff.mp hs i).trans (hm.trans ?_)
  have e := (idx_facts0 t).2.2
  rw [e]
  constructor
  · intro h
    have h0 := h 0
    change t.val * 800 ≤ (i 0).val ∧ (i 0).val < t.val * 800 + 800 at h0
    omega
  · intro h a
    match a with
    | ⟨0, _⟩ => show t.val * 800 ≤ (i 0).val ∧ (i 0).val < t.val * 800 + 800; omega
    | ⟨1, _⟩ =>
      show 0 * 256 ≤ (i 1).val ∧ (i 1).val < 0 * 256 + 256
      have := (i 1).isLt; change (i 1).val < 256 at this; omega

theorem pt0_of (t : Fin (cfg0 a0).N) (r : Fin 80000) (k : ℕ) (hk : k < 800) (hr : r.val = 800 * t.val + k) : pt0 a0 r = t := by
  apply Fin.ext
  show r.val / 800 = t.val
  omega

theorem flushed0_out (c : Dev nD) (t : Fin (cfg0 a0).N) :
    (dat0 Vd a0 c).flushed 2 t = (((cfg0 a0).win 2).blk t).view.read (Elt F) (outArr0 Vd a0 c) := by
  show ((cfg0 a0).win 2).cut (grid0.coords t) ((dat0 Vd a0 c).after 2 t) = _
  rw [after0_out]
  refine funext fun (j : S800x256.Idx) => ?_
  show outBlk0 (grid0.coords t) (a0.1 0) (iblk0 Vd a0 c 0 t) (iblk0 Vd a0 c 1 t) j
    = outArr0 Vd a0 c ((((cfg0 a0).win 2).blk t).view.emb j)
  rw [emb0_out]
  unfold outArr0
  have hj : (j 0).val < 800 := (j 0).isLt
  have hp : pt0 a0 (⟨800 * t.val + (j 0).val, by have := t.isLt; have h : (cfg0 a0).N = 100 := N_0; omega⟩ : Fin 80000) = t :=
    pt0_of a0 t _ (j 0).val hj rfl
  show _ = outBlk0 (grid0.coords (pt0 a0 ⟨800 * t.val + (j 0).val, _⟩)) (a0.1 0) (iblk0 Vd a0 c 0 (pt0 a0 ⟨800 * t.val + (j 0).val, _⟩))
      (iblk0 Vd a0 c 1 (pt0 a0 ⟨800 * t.val + (j 0).val, _⟩)) (ValueIdx.ix2 ⟨(800 * t.val + (j 0).val) % 800, _⟩ (j 1))
  rw [hp]
  congr 1
  funext a
  apply Fin.ext
  match a with
  | ⟨0, _⟩ => show (j 0).val = (800 * t.val + (j 0).val) % 800; omega
  | ⟨1, _⟩ => rfl

theorem arrAt_out0 (c : Dev nD) : (dat0 Vd a0 c).arrAt 2 (cfg0 a0).N = outArr0 Vd a0 c := by
  refine (dat0 Vd a0 c).arrAt_eq_of_cover 2 (outArr0 Vd a0 c) (fun t _ => flushed0_out Vd a0 c t) ?_
  intro (i : S80000x256.Idx)
  refine ⟨pt0 a0 (i 0), flush0_out a0 _, (mem_blk0_out a0 _ i).mpr ?_⟩
  show 800 * ((i 0).val / 800) ≤ (i 0).val ∧ (i 0).val < 800 * ((i 0).val / 800) + 800
  omega

end Region0
end Cert.KernelIdeal.Hand
end
-- ==== Proof.KI.Value1R.lean ====
import proofs.«411766_j31920196944464_2_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

section Region0

variable (Vd : (c : Dev nD) → (b : Ref sig .tc) → Buf (Elt F) ((c : Thread nD τ).loc b)) (a0 : (pcfg1 (F := F)).Adm)

theorem idx_facts1 : ∀ t : Fin grid1.N, cc1_transform_0 (grid1.coords t) = ![0, 0]
    ∧ cc1_transform_1 (grid1.coords t) = ![t.val, 0] ∧ cc1_transform_2 (grid1.coords t) = ![t.val, 0] := by
  decide +kernel

theorem iblk1_x_eq (c : Dev nD) (t : Fin (cfg1 a0).N) : iblk1 Vd a0 c 0 t = Vd c main_arg0 := by
  refine funext fun (j : S20000x256.Idx) => ?_
  show (Vd c main_arg0 : Vec F S20000x256 .f32) ((((cfg1 a0).win 0).blk t).view.emb j) = (Vd c main_arg0 : Vec F S20000x256 .f32) j
  congr 1
  funext a
  apply Fin.ext
  have e := (idx_facts1 t).1
  match a with
  | ⟨0, _⟩ =>
    show cc1_transform_0 (grid1.coords t) 0 * 20000 + 1 * (j 0).val = (j 0).val
    rw [e]; show 0 * 20000 + 1 * (j 0).val = (j 0).val; omega
  | ⟨1, _⟩ =>
    show cc1_transform_0 (grid1.coords t) 1 * 256 + 1 * (j 1).val = (j 1).val
    rw [e]; show 0 * 256 + 1 * (j 1).val = (j 1).val; omega

theorem iblk1_val_apply (c : Dev nD) (t : Fin (cfg1 a0).N) (j : S800x1.Idx) :
    iblk1 Vd a0 c 1 t j = (Vd c main_v6 : Vec F S80000x1 .f32)
      (ValueIdx.ix2 ⟨800 * t.val + (j 0).val, by have := t.isLt; have h : (cfg1 a0).N = 100 := N_1; have := (j 0).isLt; show _ < 80000; change (j 0).val < 800 at this; omega⟩ (j 1)) := by
  show (Vd c main_v6 : Vec F S80000x1 .f32) ((((cfg1 a0).win 1).blk t).view.emb j) = _
  congr 1
  funext a
  apply Fin.ext
  have e := (idx_facts1 t).2.1
  match a with
  | ⟨0, _⟩ =>
    show cc1_transform_1 (grid1.coords t) 0 * 800 + 1 * (j 0).val = 800 * t.val + (j 0).val
    rw [e]; show t.val * 800 + 1 * (j 0).val = 800 * t.val + (j 0).val; omega
  | ⟨1, _⟩ =>
    show cc1_transform_1 (grid1.coords t) 1 * 1 + 1 * (j 1).val = (j 1).val
    rw [e]; show 0 * 1 + 1 * (j 1).val = (j 1).val; omega

theorem index1_out (t : Fin (cfg1 a0).N) : ((cfg1 a0).win 2).index t = ![t.val, 0] := (idx_facts1 t).2.2

theorem flush1_out (t : Fin (cfg1 a0).N) : ((cfg1 a0).win 2).flush t = true := by
  unfold Window.flush
  rw [Bool.and_eq_true]
  refine ⟨rfl, ?_⟩
  rw [Bool.or_eq_true, decide_eq_true_eq, decide_eq_true_eq]
  by_cases h : t.val + 1 = grid1.N
  · exact Or.inl h
  · have hlt : t.val + 1 < grid1.N := by
      have := t.isLt; have h1 : (cfg1 a0).N = 100 := N_1; have h2 : grid1.N = 100 := N_1; omega
    refine Or.inr ⟨hlt, ?_⟩
    rw [index1_out, index1_out]
    intro e
    have e0 := congrFun e 0
    change t.val + 1 = t.val at e0
    omega

theorem emb1_out (t : Fin (cfg1 a0).N) (j : S800x256.Idx) :
    ((((cfg1 a0).win 2).blk t).view.emb j : S80000x256.Idx)
      = ValueIdx.ix2 ⟨800 * t.val + (j 0).val, by have := t.isLt; have h : (cfg1 a0).N = 100 := N_1; have := (j 0).isLt; show _ < 80000; change (j 0).val < 800 at this; omega⟩ (j 1) := by
  funext a
  apply Fin.ext
  have e := (idx_facts1 t).2.2
  match a with
  | ⟨0, _⟩ =>
    show cc1_transform_2 (grid1.coords t) 0 * 800 + 1 * (j 0).val = 800 * t.val + (j 0).val
    rw [e]; show t.val * 800 + 1 * (j 0).val = 800 * t.val + (j 0).val; omega
  | ⟨1, _⟩ =>
    show cc1_transform_2 (grid1.coords t) 1 * 256 + 1 * (j 1).val = (j 1).val
    rw [e]; show 0 * 256 + 1 * (j 1).val = (j 1).val; omega

theorem mem_blk1_out (t : Fin (cfg1 a0).N) (i : S80000x256.Idx) :
    i ∈ (((cfg1 a0).win 2).blk t).view.set ↔ 800 * t.val ≤ (i 0).val ∧ (i 0).val < 800 * t.val + 800 := by
  have hs : (((cfg1 a0).win 2).blk t).view.set = (((cfg1 a0).win 2).rect t).set := View.set_slice_whole main_v7 _
  have hm : i ∈ (((cfg1 a0).win 2).rect t).set ↔ ∀ a : Fin 2, cc1_transform_2 (grid1.coords t) a * S800x256.size a ≤ (i a).val
      ∧ (i a).val < cc1_transform_2 (grid1.coords t) a * S800x256.size a + S800x256.size a := Rect.mem_set_unit
  refine (Finset.ext_iff.mp hs i).trans (hm.trans ?_)
  have e := (idx_facts1 t).2.2
  rw [e]
  constructor
  · intro h
    have h0 := h 0
    change t.val * 800 ≤ (i 0).val ∧ (i 0).val < t.val * 800 + 800 at h0
    omega
  · intro h a
    match a with
    | ⟨0, _⟩ => show t.val * 800 ≤ (i 0).val ∧ (i 0).val < t.val * 800 + 800; omega
    | ⟨1, _⟩ =>
      show 0 * 256 ≤ (i 1).val ∧ (i 1).val < 0 * 256 + 256
      have := (i 1).isLt; change (i 1).val < 256 at this; omega

theorem pt1_of (t : Fin (cfg1 a0).N) (r : Fin 80000) (k : ℕ) (hk : k < 800) (hr : r.val = 800 * t.val + k) : pt1 a0 r = t := by
  apply Fin.ext
  show r.val / 800 = t.val
  omega

theorem flushed1_out (c : Dev nD) (t : Fin (cfg1 a0).N) :
    (dat1 Vd a0 c).flushed 2 t = (((cfg1 a0).win 2).blk t).view.read (Elt F) (outArr1 Vd a0 c) := by
  show ((cfg1 a0).win 2).cut (grid1.coords t) ((dat1 Vd a0 c).after 2 t) = _
  rw [after1_out]
  refine funext fun (j : S800x256.Idx) => ?_
  show outBlk1 (grid1.coords t) (a0.1 0) (iblk1 Vd a0 c 0 t) (iblk1 Vd a0 c 1 t) j
    = outArr1 Vd a0 c ((((cfg1 a0).win 2).blk t).view.emb j)
  rw [emb1_out]
  unfold outArr1
  have hj : (j 0).val < 800 := (j 0).isLt
  have hp : pt1 a0 (⟨800 * t.val + (j 0).val, by have := t.isLt; have h : (cfg1 a0).N = 100 := N_1; omega⟩ : Fin 80000) = t :=
    pt1_of a0 t _ (j 0).val hj rfl
  show _ = outBlk1 (grid1.coords (pt1 a0 ⟨800 * t.val + (j 0).val, _⟩)) (a0.1 0) (iblk1 Vd a0 c 0 (pt1 a0 ⟨800 * t.val + (j 0).val, _⟩))
      (iblk1 Vd a0 c 1 (pt1 a0 ⟨800 * t.val + (j 0).val, _⟩)) (ValueIdx.ix2 ⟨(800 * t.val + (j 0).val) % 800, _⟩ (j 1))
  rw [hp]
  congr 1
  funext a
  apply Fin.ext
  match a with
  | ⟨0, _⟩ => show (j 0).val = (800 * t.val + (j 0).val) % 800; omega
  | ⟨1, _⟩ => rfl

theorem arrAt_out1 (c : Dev nD) : (dat1 Vd a0 c).arrAt 2 (cfg1 a0).N = outArr1 Vd a0 c := by
  refine (dat1 Vd a0 c).arrAt_eq_of_cover 2 (outArr1 Vd a0 c) (fun t _ => flushed1_out Vd a0 c t) ?_
  intro (i : S80000x256.Idx)
  refine ⟨pt1 a0 (i 0), flush1_out a0 _, (mem_blk1_out a0 _ i).mpr ?_⟩
  show 800 * ((i 0).val / 800) ≤ (i 0).val ∧ (i 0).val < 800 * ((i 0).val / 800) + 800
  omega

end Region0
end Cert.KernelIdeal.Hand
end
-- ==== Proof.KI.Value2R.lean ====
import proofs.«411766_j31920196944464_2_alg».proof.Proof.KI.Region2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

section Region0

variable (Vd : (c : Dev nD) → (b : Ref sig .tc) → Buf (Elt F) ((c : Thread nD τ).loc b)) (a0 : (pcfg2 (F := F)).Adm)

theorem idx_facts2 : ∀ t : Fin grid2.N, cc2_transform_0 (grid2.coords t) = ![0, 0]
    ∧ cc2_transform_1 (grid2.coords t) = ![t.val, 0] ∧ cc2_transform_2 (grid2.coords t) = ![t.val, 0] := by
  decide +kernel

theorem iblk2_x_eq (c : Dev nD) (t : Fin (cfg2 a0).N) : iblk2 Vd a0 c 0 t = Vd c main_arg0 := by
  refine funext fun (j : S20000x256.Idx) => ?_
  show (Vd c main_arg0 : Vec F S20000x256 .f32) ((((cfg2 a0).win 0).blk t).view.emb j) = (Vd c main_arg0 : Vec F S20000x256 .f32) j
  congr 1
  funext a
  apply Fin.ext
  have e := (idx_facts2 t).1
  match a with
  | ⟨0, _⟩ =>
    show cc2_transform_0 (grid2.coords t) 0 * 20000 + 1 * (j 0).val = (j 0).val
    rw [e]; show 0 * 20000 + 1 * (j 0).val = (j 0).val; omega
  | ⟨1, _⟩ =>
    show cc2_transform_0 (grid2.coords t) 1 * 256 + 1 * (j 1).val = (j 1).val
    rw [e]; show 0 * 256 + 1 * (j 1).val = (j 1).val; omega

theorem iblk2_val_apply (c : Dev nD) (t : Fin (cfg2 a0).N) (j : S800x1.Idx) :
    iblk2 Vd a0 c 1 t j = (Vd c main_v10 : Vec F S80000x1 .f32)
      (ValueIdx.ix2 ⟨800 * t.val + (j 0).val, by have := t.isLt; have h : (cfg2 a0).N = 100 := N_2; have := (j 0).isLt; show _ < 80000; change (j 0).val < 800 at this; omega⟩ (j 1)) := by
  show (Vd c main_v10 : Vec F S80000x1 .f32) ((((cfg2 a0).win 1).blk t).view.emb j) = _
  congr 1
  funext a
  apply Fin.ext
  have e := (idx_facts2 t).2.1
  match a with
  | ⟨0, _⟩ =>
    show cc2_transform_1 (grid2.coords t) 0 * 800 + 1 * (j 0).val = 800 * t.val + (j 0).val
    rw [e]; show t.val * 800 + 1 * (j 0).val = 800 * t.val + (j 0).val; omega
  | ⟨1, _⟩ =>
    show cc2_transform_1 (grid2.coords t) 1 * 1 + 1 * (j 1).val = (j 1).val
    rw [e]; show 0 * 1 + 1 * (j 1).val = (j 1).val; omega

theorem index2_out (t : Fin (cfg2 a0).N) : ((cfg2 a0).win 2).index t = ![t.val, 0] := (idx_facts2 t).2.2

theorem flush2_out (t : Fin (cfg2 a0).N) : ((cfg2 a0).win 2).flush t = true := by
  unfold Window.flush
  rw [Bool.and_eq_true]
  refine ⟨rfl, ?_⟩
  rw [Bool.or_eq_true, decide_eq_true_eq, decide_eq_true_eq]
  by_cases h : t.val + 1 = grid2.N
  · exact Or.inl h
  · have hlt : t.val + 1 < grid2.N := by
      have := t.isLt; have h1 : (cfg2 a0).N = 100 := N_2; have h2 : grid2.N = 100 := N_2; omega
    refine Or.inr ⟨hlt, ?_⟩
    rw [index2_out, index2_out]
    intro e
    have e0 := congrFun e 0
    change t.val + 1 = t.val at e0
    omega

theorem emb2_out (t : Fin (cfg2 a0).N) (j : S800x256.Idx) :
    ((((cfg2 a0).win 2).blk t).view.emb j : S80000x256.Idx)
      = ValueIdx.ix2 ⟨800 * t.val + (j 0).val, by have := t.isLt; have h : (cfg2 a0).N = 100 := N_2; have := (j 0).isLt; show _ < 80000; change (j 0).val < 800 at this; omega⟩ (j 1) := by
  funext a
  apply Fin.ext
  have e := (idx_facts2 t).2.2
  match a with
  | ⟨0, _⟩ =>
    show cc2_transform_2 (grid2.coords t) 0 * 800 + 1 * (j 0).val = 800 * t.val + (j 0).val
    rw [e]; show t.val * 800 + 1 * (j 0).val = 800 * t.val + (j 0).val; omega
  | ⟨1, _⟩ =>
    show cc2_transform_2 (grid2.coords t) 1 * 256 + 1 * (j 1).val = (j 1).val
    rw [e]; show 0 * 256 + 1 * (j 1).val = (j 1).val; omega

theorem mem_blk2_out (t : Fin (cfg2 a0).N) (i : S80000x256.Idx) :
    i ∈ (((cfg2 a0).win 2).blk t).view.set ↔ 800 * t.val ≤ (i 0).val ∧ (i 0).val < 800 * t.val + 800 := by
  have hs : (((cfg2 a0).win 2).blk t).view.set = (((cfg2 a0).win 2).rect t).set := View.set_slice_whole main_v11 _
  have hm : i ∈ (((cfg2 a0).win 2).rect t).set ↔ ∀ a : Fin 2, cc2_transform_2 (grid2.coords t) a * S800x256.size a ≤ (i a).val
      ∧ (i a).val < cc2_transform_2 (grid2.coords t) a * S800x256.size a + S800x256.size a := Rect.mem_set_unit
  refine (Finset.ext_iff.mp hs i).trans (hm.trans ?_)
  have e := (idx_facts2 t).2.2
  rw [e]
  constructor
  · intro h
    have h0 := h 0
    change t.val * 800 ≤ (i 0).val ∧ (i 0).val < t.val * 800 + 800 at h0
    omega
  · intro h a
    match a with
    | ⟨0, _⟩ => show t.val * 800 ≤ (i 0).val ∧ (i 0).val < t.val * 800 + 800; omega
    | ⟨1, _⟩ =>
      show 0 * 256 ≤ (i 1).val ∧ (i 1).val < 0 * 256 + 256
      have := (i 1).isLt; change (i 1).val < 256 at this; omega

theorem pt2_of (t : Fin (cfg2 a0).N) (r : Fin 80000) (k : ℕ) (hk : k < 800) (hr : r.val = 800 * t.val + k) : pt2 a0 r = t := by
  apply Fin.ext
  show r.val / 800 = t.val
  omega

theorem flushed2_out (c : Dev nD) (t : Fin (cfg2 a0).N) :
    (dat2 Vd a0 c).flushed 2 t = (((cfg2 a0).win 2).blk t).view.read (Elt F) (outArr2 Vd a0 c) := by
  show ((cfg2 a0).win 2).cut (grid2.coords t) ((dat2 Vd a0 c).after 2 t) = _
  rw [after2_out]
  refine funext fun (j : S800x256.Idx) => ?_
  show outBlk2 (grid2.coords t) (a0.1 0) (iblk2 Vd a0 c 0 t) (iblk2 Vd a0 c 1 t) j
    = outArr2 Vd a0 c ((((cfg2 a0).win 2).blk t).view.emb j)
  rw [emb2_out]
  unfold outArr2
  have hj : (j 0).val < 800 := (j 0).isLt
  have hp : pt2 a0 (⟨800 * t.val + (j 0).val, by have := t.isLt; have h : (cfg2 a0).N = 100 := N_2; omega⟩ : Fin 80000) = t :=
    pt2_of a0 t _ (j 0).val hj rfl
  show _ = outBlk2 (grid2.coords (pt2 a0 ⟨800 * t.val + (j 0).val, _⟩)) (a0.1 0) (iblk2 Vd a0 c 0 (pt2 a0 ⟨800 * t.val + (j 0).val, _⟩))
      (iblk2 Vd a0 c 1 (pt2 a0 ⟨800 * t.val + (j 0).val, _⟩)) (ValueIdx.ix2 ⟨(800 * t.val + (j 0).val) % 800, _⟩ (j 1))
  rw [hp]
  congr 1
  funext a
  apply Fin.ext
  match a with
  | ⟨0, _⟩ => show (j 0).val = (800 * t.val + (j 0).val) % 800; omega
  | ⟨1, _⟩ => rfl

theorem arrAt_out2 (c : Dev nD) : (dat2 Vd a0 c).arrAt 2 (cfg2 a0).N = outArr2 Vd a0 c := by
  refine (dat2 Vd a0 c).arrAt_eq_of_cover 2 (outArr2 Vd a0 c) (fun t _ => flushed2_out Vd a0 c t) ?_
  intro (i : S80000x256.Idx)
  refine ⟨pt2 a0 (i 0), flush2_out a0 _, (mem_blk2_out a0 _ i).mpr ?_⟩
  show 800 * ((i 0).val / 800) ≤ (i 0).val ∧ (i 0).val < 800 * ((i 0).val / 800) + 800
  omega

end Region0
end Cert.KernelIdeal.Hand
end
-- ==== Proof.KI.Value3R.lean ====
import proofs.«411766_j31920196944464_2_alg».proof.Proof.KI.Region3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

section Region0

variable (Vd : (c : Dev nD) → (b : Ref sig .tc) → Buf (Elt F) ((c : Thread nD τ).loc b)) (a0 : (pcfg3 (F := F)).Adm)

theorem idx_facts3 : ∀ t : Fin grid3.N, cc3_transform_0 (grid3.coords t) = ![0, 0]
    ∧ cc3_transform_1 (grid3.coords t) = ![t.val, 0] ∧ cc3_transform_2 (grid3.coords t) = ![t.val, 0] := by
  decide +kernel

theorem iblk3_x_eq (c : Dev nD) (t : Fin (cfg3 a0).N) : iblk3 Vd a0 c 0 t = Vd c main_arg0 := by
  refine funext fun (j : S20000x256.Idx) => ?_
  show (Vd c main_arg0 : Vec F S20000x256 .f32) ((((cfg3 a0).win 0).blk t).view.emb j) = (Vd c main_arg0 : Vec F S20000x256 .f32) j
  congr 1
  funext a
  apply Fin.ext
  have e := (idx_facts3 t).1
  match a with
  | ⟨0, _⟩ =>
    show cc3_transform_0 (grid3.coords t) 0 * 20000 + 1 * (j 0).val = (j 0).val
    rw [e]; show 0 * 20000 + 1 * (j 0).val = (j 0).val; omega
  | ⟨1, _⟩ =>
    show cc3_transform_0 (grid3.coords t) 1 * 256 + 1 * (j 1).val = (j 1).val
    rw [e]; show 0 * 256 + 1 * (j 1).val = (j 1).val; omega

theorem iblk3_val_apply (c : Dev nD) (t : Fin (cfg3 a0).N) (j : S800x1.Idx) :
    iblk3 Vd a0 c 1 t j = (Vd c main_v14 : Vec F S80000x1 .f32)
      (ValueIdx.ix2 ⟨800 * t.val + (j 0).val, by have := t.isLt; have h : (cfg3 a0).N = 100 := N_3; have := (j 0).isLt; show _ < 80000; change (j 0).val < 800 at this; omega⟩ (j 1)) := by
  show (Vd c main_v14 : Vec F S80000x1 .f32) ((((cfg3 a0).win 1).blk t).view.emb j) = _
  congr 1
  funext a
  apply Fin.ext
  have e := (idx_facts3 t).2.1
  match a with
  | ⟨0, _⟩ =>
    show cc3_transform_1 (grid3.coords t) 0 * 800 + 1 * (j 0).val = 800 * t.val + (j 0).val
    rw [e]; show t.val * 800 + 1 * (j 0).val = 800 * t.val + (j 0).val; omega
  | ⟨1, _⟩ =>
    show cc3_transform_1 (grid3.coords t) 1 * 1 + 1 * (j 1).val = (j 1).val
    rw [e]; show 0 * 1 + 1 * (j 1).val = (j 1).val; omega

theorem index3_out (t : Fin (cfg3 a0).N) : ((cfg3 a0).win 2).index t = ![t.val, 0] := (idx_facts3 t).2.2

theorem flush3_out (t : Fin (cfg3 a0).N) : ((cfg3 a0).win 2).flush t = true := by
  unfold Window.flush
  rw [Bool.and_eq_true]
  refine ⟨rfl, ?_⟩
  rw [Bool.or_eq_true, decide_eq_true_eq, decide_eq_true_eq]
  by_cases h : t.val + 1 = grid3.N
  · exact Or.inl h
  · have hlt : t.val + 1 < grid3.N := by
      have := t.isLt; have h1 : (cfg3 a0).N = 100 := N_3; have h2 : grid3.N = 100 := N_3; omega
    refine Or.inr ⟨hlt, ?_⟩
    rw [index3_out, index3_out]
    intro e
    have e0 := congrFun e 0
    change t.val + 1 = t.val at e0
    omega

theorem emb3_out (t : Fin (cfg3 a0).N) (j : S800x256.Idx) :
    ((((cfg3 a0).win 2).blk t).view.emb j : S80000x256.Idx)
      = ValueIdx.ix2 ⟨800 * t.val + (j 0).val, by have := t.isLt; have h : (cfg3 a0).N = 100 := N_3; have := (j 0).isLt; show _ < 80000; change (j 0).val < 800 at this; omega⟩ (j 1) := by
  funext a
  apply Fin.ext
  have e := (idx_facts3 t).2.2
  match a with
  | ⟨0, _⟩ =>
    show cc3_transform_2 (grid3.coords t) 0 * 800 + 1 * (j 0).val = 800 * t.val + (j 0).val
    rw [e]; show t.val * 800 + 1 * (j 0).val = 800 * t.val + (j 0).val; omega
  | ⟨1, _⟩ =>
    show cc3_transform_2 (grid3.coords t) 1 * 256 + 1 * (j 1).val = (j 1).val
    rw [e]; show 0 * 256 + 1 * (j 1).val = (j 1).val; omega

theorem mem_blk3_out (t : Fin (cfg3 a0).N) (i : S80000x256.Idx) :
    i ∈ (((cfg3 a0).win 2).blk t).view.set ↔ 800 * t.val ≤ (i 0).val ∧ (i 0).val < 800 * t.val + 800 := by
  have hs : (((cfg3 a0).win 2).blk t).view.set = (((cfg3 a0).win 2).rect t).set := View.set_slice_whole main_v15 _
  have hm : i ∈ (((cfg3 a0).win 2).rect t).set ↔ ∀ a : Fin 2, cc3_transform_2 (grid3.coords t) a * S800x256.size a ≤ (i a).val
      ∧ (i a).val < cc3_transform_2 (grid3.coords t) a * S800x256.size a + S800x256.size a := Rect.mem_set_unit
  refine (Finset.ext_iff.mp hs i).trans (hm.trans ?_)
  have e := (idx_facts3 t).2.2
  rw [e]
  constructor
  · intro h
    have h0 := h 0
    change t.val * 800 ≤ (i 0).val ∧ (i 0).val < t.val * 800 + 800 at h0
    omega
  · intro h a
    match a with
    | ⟨0, _⟩ => show t.val * 800 ≤ (i 0).val ∧ (i 0).val < t.val * 800 + 800; omega
    | ⟨1, _⟩ =>
      show 0 * 256 ≤ (i 1).val ∧ (i 1).val < 0 * 256 + 256
      have := (i 1).isLt; change (i 1).val < 256 at this; omega

theorem pt3_of (t : Fin (cfg3 a0).N) (r : Fin 80000) (k : ℕ) (hk : k < 800) (hr : r.val = 800 * t.val + k) : pt3 a0 r = t := by
  apply Fin.ext
  show r.val / 800 = t.val
  omega

theorem flushed3_out (c : Dev nD) (t : Fin (cfg3 a0).N) :
    (dat3 Vd a0 c).flushed 2 t = (((cfg3 a0).win 2).blk t).view.read (Elt F) (outArr3 Vd a0 c) := by
  show ((cfg3 a0).win 2).cut (grid3.coords t) ((dat3 Vd a0 c).after 2 t) = _
  rw [after3_out]
  refine funext fun (j : S800x256.Idx) => ?_
  show outBlk3 (grid3.coords t) (a0.1 0) (iblk3 Vd a0 c 0 t) (iblk3 Vd a0 c 1 t) j
    = outArr3 Vd a0 c ((((cfg3 a0).win 2).blk t).view.emb j)
  rw [emb3_out]
  unfold outArr3
  have hj : (j 0).val < 800 := (j 0).isLt
  have hp : pt3 a0 (⟨800 * t.val + (j 0).val, by have := t.isLt; have h : (cfg3 a0).N = 100 := N_3; omega⟩ : Fin 80000) = t :=
    pt3_of a0 t _ (j 0).val hj rfl
  show _ = outBlk3 (grid3.coords (pt3 a0 ⟨800 * t.val + (j 0).val, _⟩)) (a0.1 0) (iblk3 Vd a0 c 0 (pt3 a0 ⟨800 * t.val + (j 0).val, _⟩))
      (iblk3 Vd a0 c 1 (pt3 a0 ⟨800 * t.val + (j 0).val, _⟩)) (ValueIdx.ix2 ⟨(800 * t.val + (j 0).val) % 800, _⟩ (j 1))
  rw [hp]
  congr 1
  funext a
  apply Fin.ext
  match a with
  | ⟨0, _⟩ => show (j 0).val = (800 * t.val + (j 0).val) % 800; omega
  | ⟨1, _⟩ => rfl

theorem arrAt_out3 (c : Dev nD) : (dat3 Vd a0 c).arrAt 2 (cfg3 a0).N = outArr3 Vd a0 c := by
  refine (dat3 Vd a0 c).arrAt_eq_of_cover 2 (outArr3 Vd a0 c) (fun t _ => flushed3_out Vd a0 c t) ?_
  intro (i : S80000x256.Idx)
  refine ⟨pt3 a0 (i 0), flush3_out a0 _, (mem_blk3_out a0 _ i).mpr ?_⟩
  show 800 * ((i 0).val / 800) ≤ (i 0).val ∧ (i 0).val < 800 * ((i 0).val / 800) + 800
  omega

end Region0
end Cert.KernelIdeal.Hand
end
-- ==== Proof.KI.Value4R.lean ====
import proofs.«411766_j31920196944464_2_alg».proof.Proof.KI.Region4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

section Region0

variable (Vd : (c : Dev nD) → (b : Ref sig .tc) → Buf (Elt F) ((c : Thread nD τ).loc b)) (a0 : (pcfg4 (F := F)).Adm)

theorem idx_facts4 : ∀ t : Fin grid4.N, cc4_transform_0 (grid4.coords t) = ![0, 0]
    ∧ cc4_transform_1 (grid4.coords t) = ![t.val, 0] ∧ cc4_transform_2 (grid4.coords t) = ![t.val, 0] := by
  decide +kernel

theorem iblk4_x_eq (c : Dev nD) (t : Fin (cfg4 a0).N) : iblk4 Vd a0 c 0 t = Vd c main_arg0 := by
  refine funext fun (j : S20000x256.Idx) => ?_
  show (Vd c main_arg0 : Vec F S20000x256 .f32) ((((cfg4 a0).win 0).blk t).view.emb j) = (Vd c main_arg0 : Vec F S20000x256 .f32) j
  congr 1
  funext a
  apply Fin.ext
  have e := (idx_facts4 t).1
  match a with
  | ⟨0, _⟩ =>
    show cc4_transform_0 (grid4.coords t) 0 * 20000 + 1 * (j 0).val = (j 0).val
    rw [e]; show 0 * 20000 + 1 * (j 0).val = (j 0).val; omega
  | ⟨1, _⟩ =>
    show cc4_transform_0 (grid4.coords t) 1 * 256 + 1 * (j 1).val = (j 1).val
    rw [e]; show 0 * 256 + 1 * (j 1).val = (j 1).val; omega

theorem iblk4_val_apply (c : Dev nD) (t : Fin (cfg4 a0).N) (j : S800x1.Idx) :
    iblk4 Vd a0 c 1 t j = (Vd c main_v22 : Vec F S80000x1 .f32)
      (ValueIdx.ix2 ⟨800 * t.val + (j 0).val, by have := t.isLt; have h : (cfg4 a0).N = 100 := N_4; have := (j 0).isLt; show _ < 80000; change (j 0).val < 800 at this; omega⟩ (j 1)) := by
  show (Vd c main_v22 : Vec F S80000x1 .f32) ((((cfg4 a0).win 1).blk t).view.emb j) = _
  congr 1
  funext a
  apply Fin.ext
  have e := (idx_facts4 t).2.1
  match a with
  | ⟨0, _⟩ =>
    show cc4_transform_1 (grid4.coords t) 0 * 800 + 1 * (j 0).val = 800 * t.val + (j 0).val
    rw [e]; show t.val * 800 + 1 * (j 0).val = 800 * t.val + (j 0).val; omega
  | ⟨1, _⟩ =>
    show cc4_transform_1 (grid4.coords t) 1 * 1 + 1 * (j 1).val = (j 1).val
    rw [e]; show 0 * 1 + 1 * (j 1).val = (j 1).val; omega

theorem index4_out (t : Fin (cfg4 a0).N) : ((cfg4 a0).win 2).index t = ![t.val, 0] := (idx_facts4 t).2.2

theorem flush4_out (t : Fin (cfg4 a0).N) : ((cfg4 a0).win 2).flush t = true := by
  unfold Window.flush
  rw [Bool.and_eq_true]
  refine ⟨rfl, ?_⟩
  rw [Bool.or_eq_true, decide_eq_true_eq, decide_eq_true_eq]
  by_cases h : t.val + 1 = grid4.N
  · exact Or.inl h
  · have hlt : t.val + 1 < grid4.N := by
      have := t.isLt; have h1 : (cfg4 a0).N = 100 := N_4; have h2 : grid4.N = 100 := N_4; omega
    refine Or.inr ⟨hlt, ?_⟩
    rw [index4_out, index4_out]
    intro e
    have e0 := congrFun e 0
    change t.val + 1 = t.val at e0
    omega

theorem emb4_out (t : Fin (cfg4 a0).N) (j : S800x256.Idx) :
    ((((cfg4 a0).win 2).blk t).view.emb j : S80000x256.Idx)
      = ValueIdx.ix2 ⟨800 * t.val + (j 0).val, by have := t.isLt; have h : (cfg4 a0).N = 100 := N_4; have := (j 0).isLt; show _ < 80000; change (j 0).val < 800 at this; omega⟩ (j 1) := by
  funext a
  apply Fin.ext
  have e := (idx_facts4 t).2.2
  match a with
  | ⟨0, _⟩ =>
    show cc4_transform_2 (grid4.coords t) 0 * 800 + 1 * (j 0).val = 800 * t.val + (j 0).val
    rw [e]; show t.val * 800 + 1 * (j 0).val = 800 * t.val + (j 0).val; omega
  | ⟨1, _⟩ =>
    show cc4_transform_2 (grid4.coords t) 1 * 256 + 1 * (j 1).val = (j 1).val
    rw [e]; show 0 * 256 + 1 * (j 1).val = (j 1).val; omega

theorem mem_blk4_out (t : Fin (cfg4 a0).N) (i : S80000x256.Idx) :
    i ∈ (((cfg4 a0).win 2).blk t).view.set ↔ 800 * t.val ≤ (i 0).val ∧ (i 0).val < 800 * t.val + 800 := by
  have hs : (((cfg4 a0).win 2).blk t).view.set = (((cfg4 a0).win 2).rect t).set := View.set_slice_whole main_v23 _
  have hm : i ∈ (((cfg4 a0).win 2).rect t).set ↔ ∀ a : Fin 2, cc4_transform_2 (grid4.coords t) a * S800x256.size a ≤ (i a).val
      ∧ (i a).val < cc4_transform_2 (grid4.coords t) a * S800x256.size a + S800x256.size a := Rect.mem_set_unit
  refine (Finset.ext_iff.mp hs i).trans (hm.trans ?_)
  have e := (idx_facts4 t).2.2
  rw [e]
  constructor
  · intro h
    have h0 := h 0
    change t.val * 800 ≤ (i 0).val ∧ (i 0).val < t.val * 800 + 800 at h0
    omega
  · intro h a
    match a with
    | ⟨0, _⟩ => show t.val * 800 ≤ (i 0).val ∧ (i 0).val < t.val * 800 + 800; omega
    | ⟨1, _⟩ =>
      show 0 * 256 ≤ (i 1).val ∧ (i 1).val < 0 * 256 + 256
      have := (i 1).isLt; change (i 1).val < 256 at this; omega

theorem pt4_of (t : Fin (cfg4 a0).N) (r : Fin 80000) (k : ℕ) (hk : k < 800) (hr : r.val = 800 * t.val + k) : pt4 a0 r = t := by
  apply Fin.ext
  show r.val / 800 = t.val
  omega

theorem flushed4_out (c : Dev nD) (t : Fin (cfg4 a0).N) :
    (dat4 Vd a0 c).flushed 2 t = (((cfg4 a0).win 2).blk t).view.read (Elt F) (outArr4 Vd a0 c) := by
  show ((cfg4 a0).win 2).cut (grid4.coords t) ((dat4 Vd a0 c).after 2 t) = _
  rw [after4_out]
  refine funext fun (j : S800x256.Idx) => ?_
  show outBlk4 (grid4.coords t) (a0.1 0) (iblk4 Vd a0 c 0 t) (iblk4 Vd a0 c 1 t) j
    = outArr4 Vd a0 c ((((cfg4 a0).win 2).blk t).view.emb j)
  rw [emb4_out]
  unfold outArr4
  have hj : (j 0).val < 800 := (j 0).isLt
  have hp : pt4 a0 (⟨800 * t.val + (j 0).val, by have := t.isLt; have h : (cfg4 a0).N = 100 := N_4; omega⟩ : Fin 80000) = t :=
    pt4_of a0 t _ (j 0).val hj rfl
  show _ = outBlk4 (grid4.coords (pt4 a0 ⟨800 * t.val + (j 0).val, _⟩)) (a0.1 0) (iblk4 Vd a0 c 0 (pt4 a0 ⟨800 * t.val + (j 0).val, _⟩))
      (iblk4 Vd a0 c 1 (pt4 a0 ⟨800 * t.val + (j 0).val, _⟩)) (ValueIdx.ix2 ⟨(800 * t.val + (j 0).val) % 800, _⟩ (j 1))
  rw [hp]
  congr 1
  funext a
  apply Fin.ext
  match a with
  | ⟨0, _⟩ => show (j 0).val = (800 * t.val + (j 0).val) % 800; omega
  | ⟨1, _⟩ => rfl

theorem arrAt_out4 (c : Dev nD) : (dat4 Vd a0 c).arrAt 2 (cfg4 a0).N = outArr4 Vd a0 c := by
  refine (dat4 Vd a0 c).arrAt_eq_of_cover 2 (outArr4 Vd a0 c) (fun t _ => flushed4_out Vd a0 c t) ?_
  intro (i : S80000x256.Idx)
  refine ⟨pt4 a0 (i 0), flush4_out a0 _, (mem_blk4_out a0 _ i).mpr ?_⟩
  show 800 * ((i 0).val / 800) ≤ (i 0).val ∧ (i 0).val < 800 * ((i 0).val / 800) + 800
  omega

end Region0
end Cert.KernelIdeal.Hand
end
-- ==== Proof.KI.Value5R.lean ====
import proofs.«411766_j31920196944464_2_alg».proof.Proof.KI.Region5
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

section Region0

variable (Vd : (c : Dev nD) → (b : Ref sig .tc) → Buf (Elt F) ((c : Thread nD τ).loc b)) (a0 : (pcfg5 (F := F)).Adm)

theorem idx_facts5 : ∀ t : Fin grid5.N, cc5_transform_0 (grid5.coords t) = ![0, 0]
    ∧ cc5_transform_1 (grid5.coords t) = ![t.val, 0] ∧ cc5_transform_2 (grid5.coords t) = ![t.val, 0] := by
  decide +kernel

theorem iblk5_x_eq (c : Dev nD) (t : Fin (cfg5 a0).N) : iblk5 Vd a0 c 0 t = Vd c main_arg0 := by
  refine funext fun (j : S20000x256.Idx) => ?_
  show (Vd c main_arg0 : Vec F S20000x256 .f32) ((((cfg5 a0).win 0).blk t).view.emb j) = (Vd c main_arg0 : Vec F S20000x256 .f32) j
  congr 1
  funext a
  apply Fin.ext
  have e := (idx_facts5 t).1
  match a with
  | ⟨0, _⟩ =>
    show cc5_transform_0 (grid5.coords t) 0 * 20000 + 1 * (j 0).val = (j 0).val
    rw [e]; show 0 * 20000 + 1 * (j 0).val = (j 0).val; omega
  | ⟨1, _⟩ =>
    show cc5_transform_0 (grid5.coords t) 1 * 256 + 1 * (j 1).val = (j 1).val
    rw [e]; show 0 * 256 + 1 * (j 1).val = (j 1).val; omega

theorem iblk5_val_apply (c : Dev nD) (t : Fin (cfg5 a0).N) (j : S800x1.Idx) :
    iblk5 Vd a0 c 1 t j = (Vd c main_v26 : Vec F S80000x1 .f32)
      (ValueIdx.ix2 ⟨800 * t.val + (j 0).val, by have := t.isLt; have h : (cfg5 a0).N = 100 := N_5; have := (j 0).isLt; show _ < 80000; change (j 0).val < 800 at this; omega⟩ (j 1)) := by
  show (Vd c main_v26 : Vec F S80000x1 .f32) ((((cfg5 a0).win 1).blk t).view.emb j) = _
  congr 1
  funext a
  apply Fin.ext
  have e := (idx_facts5 t).2.1
  match a with
  | ⟨0, _⟩ =>
    show cc5_transform_1 (grid5.coords t) 0 * 800 + 1 * (j 0).val = 800 * t.val + (j 0).val
    rw [e]; show t.val * 800 + 1 * (j 0).val = 800 * t.val + (j 0).val; omega
  | ⟨1, _⟩ =>
    show cc5_transform_1 (grid5.coords t) 1 * 1 + 1 * (j 1).val = (j 1).val
    rw [e]; show 0 * 1 + 1 * (j 1).val = (j 1).val; omega

theorem index5_out (t : Fin (cfg5 a0).N) : ((cfg5 a0).win 2).index t = ![t.val, 0] := (idx_facts5 t).2.2

theorem flush5_out (t : Fin (cfg5 a0).N) : ((cfg5 a0).win 2).flush t = true := by
  unfold Window.flush
  rw [Bool.and_eq_true]
  refine ⟨rfl, ?_⟩
  rw [Bool.or_eq_true, decide_eq_true_eq, decide_eq_true_eq]
  by_cases h : t.val + 1 = grid5.N
  · exact Or.inl h
  · have hlt : t.val + 1 < grid5.N := by
      have := t.isLt; have h1 : (cfg5 a0).N = 100 := N_5; have h2 : grid5.N = 100 := N_5; omega
    refine Or.inr ⟨hlt, ?_⟩
    rw [index5_out, index5_out]
    intro e
    have e0 := congrFun e 0
    change t.val + 1 = t.val at e0
    omega

theorem emb5_out (t : Fin (cfg5 a0).N) (j : S800x256.Idx) :
    ((((cfg5 a0).win 2).blk t).view.emb j : S80000x256.Idx)
      = ValueIdx.ix2 ⟨800 * t.val + (j 0).val, by have := t.isLt; have h : (cfg5 a0).N = 100 := N_5; have := (j 0).isLt; show _ < 80000; change (j 0).val < 800 at this; omega⟩ (j 1) := by
  funext a
  apply Fin.ext
  have e := (idx_facts5 t).2.2
  match a with
  | ⟨0, _⟩ =>
    show cc5_transform_2 (grid5.coords t) 0 * 800 + 1 * (j 0).val = 800 * t.val + (j 0).val
    rw [e]; show t.val * 800 + 1 * (j 0).val = 800 * t.val + (j 0).val; omega
  | ⟨1, _⟩ =>
    show cc5_transform_2 (grid5.coords t) 1 * 256 + 1 * (j 1).val = (j 1).val
    rw [e]; show 0 * 256 + 1 * (j 1).val = (j 1).val; omega

theorem mem_blk5_out (t : Fin (cfg5 a0).N) (i : S80000x256.Idx) :
    i ∈ (((cfg5 a0).win 2).blk t).view.set ↔ 800 * t.val ≤ (i 0).val ∧ (i 0).val < 800 * t.val + 800 := by
  have hs : (((cfg5 a0).win 2).blk t).view.set = (((cfg5 a0).win 2).rect t).set := View.set_slice_whole main_v27 _
  have hm : i ∈ (((cfg5 a0).win 2).rect t).set ↔ ∀ a : Fin 2, cc5_transform_2 (grid5.coords t) a * S800x256.size a ≤ (i a).val
      ∧ (i a).val < cc5_transform_2 (grid5.coords t) a * S800x256.size a + S800x256.size a := Rect.mem_set_unit
  refine (Finset.ext_iff.mp hs i).trans (hm.trans ?_)
  have e := (idx_facts5 t).2.2
  rw [e]
  constructor
  · intro h
    have h0 := h 0
    change t.val * 800 ≤ (i 0).val ∧ (i 0).val < t.val * 800 + 800 at h0
    omega
  · intro h a
    match a with
    | ⟨0, _⟩ => show t.val * 800 ≤ (i 0).val ∧ (i 0).val < t.val * 800 + 800; omega
    | ⟨1, _⟩ =>
      show 0 * 256 ≤ (i 1).val ∧ (i 1).val < 0 * 256 + 256
      have := (i 1).isLt; change (i 1).val < 256 at this; omega

theorem pt5_of (t : Fin (cfg5 a0).N) (r : Fin 80000) (k : ℕ) (hk : k < 800) (hr : r.val = 800 * t.val + k) : pt5 a0 r = t := by
  apply Fin.ext
  show r.val / 800 = t.val
  omega

theorem flushed5_out (c : Dev nD) (t : Fin (cfg5 a0).N) :
    (dat5 Vd a0 c).flushed 2 t = (((cfg5 a0).win 2).blk t).view.read (Elt F) (outArr5 Vd a0 c) := by
  show ((cfg5 a0).win 2).cut (grid5.coords t) ((dat5 Vd a0 c).after 2 t) = _
  rw [after5_out]
  refine funext fun (j : S800x256.Idx) => ?_
  show outBlk5 (grid5.coords t) (a0.1 0) (iblk5 Vd a0 c 0 t) (iblk5 Vd a0 c 1 t) j
    = outArr5 Vd a0 c ((((cfg5 a0).win 2).blk t).view.emb j)
  rw [emb5_out]
  unfold outArr5
  have hj : (j 0).val < 800 := (j 0).isLt
  have hp : pt5 a0 (⟨800 * t.val + (j 0).val, by have := t.isLt; have h : (cfg5 a0).N = 100 := N_5; omega⟩ : Fin 80000) = t :=
    pt5_of a0 t _ (j 0).val hj rfl
  show _ = outBlk5 (grid5.coords (pt5 a0 ⟨800 * t.val + (j 0).val, _⟩)) (a0.1 0) (iblk5 Vd a0 c 0 (pt5 a0 ⟨800 * t.val + (j 0).val, _⟩))
      (iblk5 Vd a0 c 1 (pt5 a0 ⟨800 * t.val + (j 0).val, _⟩)) (ValueIdx.ix2 ⟨(800 * t.val + (j 0).val) % 800, _⟩ (j 1))
  rw [hp]
  congr 1
  funext a
  apply Fin.ext
  match a with
  | ⟨0, _⟩ => show (j 0).val = (800 * t.val + (j 0).val) % 800; omega
  | ⟨1, _⟩ => rfl

theorem arrAt_out5 (c : Dev nD) : (dat5 Vd a0 c).arrAt 2 (cfg5 a0).N = outArr5 Vd a0 c := by
  refine (dat5 Vd a0 c).arrAt_eq_of_cover 2 (outArr5 Vd a0 c) (fun t _ => flushed5_out Vd a0 c t) ?_
  intro (i : S80000x256.Idx)
  refine ⟨pt5 a0 (i 0), flush5_out a0 _, (mem_blk5_out a0 _ i).mpr ?_⟩
  show 800 * ((i 0).val / 800) ≤ (i 0).val ∧ (i 0).val < 800 * ((i 0).val / 800) + 800
  omega

end Region0
end Cert.KernelIdeal.Hand
end
-- ==== Proof.KI.Value6R.lean ====
import proofs.«411766_j31920196944464_2_alg».proof.Proof.KI.Region6
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

section Region0

variable (Vd : (c : Dev nD) → (b : Ref sig .tc) → Buf (Elt F) ((c : Thread nD τ).loc b)) (a0 : (pcfg6 (F := F)).Adm)

theorem idx_facts6 : ∀ t : Fin grid6.N, cc6_transform_0 (grid6.coords t) = ![0, 0]
    ∧ cc6_transform_1 (grid6.coords t) = ![t.val, 0] ∧ cc6_transform_2 (grid6.coords t) = ![t.val, 0] := by
  decide +kernel

theorem iblk6_x_eq (c : Dev nD) (t : Fin (cfg6 a0).N) : iblk6 Vd a0 c 0 t = Vd c main_arg0 := by
  refine funext fun (j : S20000x256.Idx) => ?_
  show (Vd c main_arg0 : Vec F S20000x256 .f32) ((((cfg6 a0).win 0).blk t).view.emb j) = (Vd c main_arg0 : Vec F S20000x256 .f32) j
  congr 1
  funext a
  apply Fin.ext
  have e := (idx_facts6 t).1
  match a with
  | ⟨0, _⟩ =>
    show cc6_transform_0 (grid6.coords t) 0 * 20000 + 1 * (j 0).val = (j 0).val
    rw [e]; show 0 * 20000 + 1 * (j 0).val = (j 0).val; omega
  | ⟨1, _⟩ =>
    show cc6_transform_0 (grid6.coords t) 1 * 256 + 1 * (j 1).val = (j 1).val
    rw [e]; show 0 * 256 + 1 * (j 1).val = (j 1).val; omega

theorem iblk6_val_apply (c : Dev nD) (t : Fin (cfg6 a0).N) (j : S800x1.Idx) :
    iblk6 Vd a0 c 1 t j = (Vd c main_v30 : Vec F S80000x1 .f32)
      (ValueIdx.ix2 ⟨800 * t.val + (j 0).val, by have := t.isLt; have h : (cfg6 a0).N = 100 := N_6; have := (j 0).isLt; show _ < 80000; change (j 0).val < 800 at this; omega⟩ (j 1)) := by
  show (Vd c main_v30 : Vec F S80000x1 .f32) ((((cfg6 a0).win 1).blk t).view.emb j) = _
  congr 1
  funext a
  apply Fin.ext
  have e := (idx_facts6 t).2.1
  match a with
  | ⟨0, _⟩ =>
    show cc6_transform_1 (grid6.coords t) 0 * 800 + 1 * (j 0).val = 800 * t.val + (j 0).val
    rw [e]; show t.val * 800 + 1 * (j 0).val = 800 * t.val + (j 0).val; omega
  | ⟨1, _⟩ =>
    show cc6_transform_1 (grid6.coords t) 1 * 1 + 1 * (j 1).val = (j 1).val
    rw [e]; show 0 * 1 + 1 * (j 1).val = (j 1).val; omega

theorem index6_out (t : Fin (cfg6 a0).N) : ((cfg6 a0).win 2).index t = ![t.val, 0] := (idx_facts6 t).2.2

theorem flush6_out (t : Fin (cfg6 a0).N) : ((cfg6 a0).win 2).flush t = true := by
  unfold Window.flush
  rw [Bool.and_eq_true]
  refine ⟨rfl, ?_⟩
  rw [Bool.or_eq_true, decide_eq_true_eq, decide_eq_true_eq]
  by_cases h : t.val + 1 = grid6.N
  · exact Or.inl h
  · have hlt : t.val + 1 < grid6.N := by
      have := t.isLt; have h1 : (cfg6 a0).N = 100 := N_6; have h2 : grid6.N = 100 := N_6; omega
    refine Or.inr ⟨hlt, ?_⟩
    rw [index6_out, index6_out]
    intro e
    have e0 := congrFun e 0
    change t.val + 1 = t.val at e0
    omega

theorem emb6_out (t : Fin (cfg6 a0).N) (j : S800x256.Idx) :
    ((((cfg6 a0).win 2).blk t).view.emb j : S80000x256.Idx)
      = ValueIdx.ix2 ⟨800 * t.val + (j 0).val, by have := t.isLt; have h : (cfg6 a0).N = 100 := N_6; have := (j 0).isLt; show _ < 80000; change (j 0).val < 800 at this; omega⟩ (j 1) := by
  funext a
  apply Fin.ext
  have e := (idx_facts6 t).2.2
  match a with
  | ⟨0, _⟩ =>
    show cc6_transform_2 (grid6.coords t) 0 * 800 + 1 * (j 0).val = 800 * t.val + (j 0).val
    rw [e]; show t.val * 800 + 1 * (j 0).val = 800 * t.val + (j 0).val; omega
  | ⟨1, _⟩ =>
    show cc6_transform_2 (grid6.coords t) 1 * 256 + 1 * (j 1).val = (j 1).val
    rw [e]; show 0 * 256 + 1 * (j 1).val = (j 1).val; omega

theorem mem_blk6_out (t : Fin (cfg6 a0).N) (i : S80000x256.Idx) :
    i ∈ (((cfg6 a0).win 2).blk t).view.set ↔ 800 * t.val ≤ (i 0).val ∧ (i 0).val < 800 * t.val + 800 := by
  have hs : (((cfg6 a0).win 2).blk t).view.set = (((cfg6 a0).win 2).rect t).set := View.set_slice_whole main_v31 _
  have hm : i ∈ (((cfg6 a0).win 2).rect t).set ↔ ∀ a : Fin 2, cc6_transform_2 (grid6.coords t) a * S800x256.size a ≤ (i a).val
      ∧ (i a).val < cc6_transform_2 (grid6.coords t) a * S800x256.size a + S800x256.size a := Rect.mem_set_unit
  refine (Finset.ext_iff.mp hs i).trans (hm.trans ?_)
  have e := (idx_facts6 t).2.2
  rw [e]
  constructor
  · intro h
    have h0 := h 0
    change t.val * 800 ≤ (i 0).val ∧ (i 0).val < t.val * 800 + 800 at h0
    omega
  · intro h a
    match a with
    | ⟨0, _⟩ => show t.val * 800 ≤ (i 0).val ∧ (i 0).val < t.val * 800 + 800; omega
    | ⟨1, _⟩ =>
      show 0 * 256 ≤ (i 1).val ∧ (i 1).val < 0 * 256 + 256
      have := (i 1).isLt; change (i 1).val < 256 at this; omega

theorem pt6_of (t : Fin (cfg6 a0).N) (r : Fin 80000) (k : ℕ) (hk : k < 800) (hr : r.val = 800 * t.val + k) : pt6 a0 r = t := by
  apply Fin.ext
  show r.val / 800 = t.val
  omega

theorem flushed6_out (c : Dev nD) (t : Fin (cfg6 a0).N) :
    (dat6 Vd a0 c).flushed 2 t = (((cfg6 a0).win 2).blk t).view.read (Elt F) (outArr6 Vd a0 c) := by
  show ((cfg6 a0).win 2).cut (grid6.coords t) ((dat6 Vd a0 c).after 2 t) = _
  rw [after6_out]
  refine funext fun (j : S800x256.Idx) => ?_
  show outBlk6 (grid6.coords t) (a0.1 0) (iblk6 Vd a0 c 0 t) (iblk6 Vd a0 c 1 t) j
    = outArr6 Vd a0 c ((((cfg6 a0).win 2).blk t).view.emb j)
  rw [emb6_out]
  unfold outArr6
  have hj : (j 0).val < 800 := (j 0).isLt
  have hp : pt6 a0 (⟨800 * t.val + (j 0).val, by have := t.isLt; have h : (cfg6 a0).N = 100 := N_6; omega⟩ : Fin 80000) = t :=
    pt6_of a0 t _ (j 0).val hj rfl
  show _ = outBlk6 (grid6.coords (pt6 a0 ⟨800 * t.val + (j 0).val, _⟩)) (a0.1 0) (iblk6 Vd a0 c 0 (pt6 a0 ⟨800 * t.val + (j 0).val, _⟩))
      (iblk6 Vd a0 c 1 (pt6 a0 ⟨800 * t.val + (j 0).val, _⟩)) (ValueIdx.ix2 ⟨(800 * t.val + (j 0).val) % 800, _⟩ (j 1))
  rw [hp]
  congr 1
  funext a
  apply Fin.ext
  match a with
  | ⟨0, _⟩ => show (j 0).val = (800 * t.val + (j 0).val) % 800; omega
  | ⟨1, _⟩ => rfl

theorem arrAt_out6 (c : Dev nD) : (dat6 Vd a0 c).arrAt 2 (cfg6 a0).N = outArr6 Vd a0 c := by
  refine (dat6 Vd a0 c).arrAt_eq_of_cover 2 (outArr6 Vd a0 c) (fun t _ => flushed6_out Vd a0 c t) ?_
  intro (i : S80000x256.Idx)
  refine ⟨pt6 a0 (i 0), flush6_out a0 _, (mem_blk6_out a0 _ i).mpr ?_⟩
  show 800 * ((i 0).val / 800) ≤ (i 0).val ∧ (i 0).val < 800 * ((i 0).val / 800) + 800
  omega

end Region0
end Cert.KernelIdeal.Hand
end
-- ==== Proof.KI.Value7R.lean ====
import proofs.«411766_j31920196944464_2_alg».proof.Proof.KI.Region7
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

section Region0

variable (Vd : (c : Dev nD) → (b : Ref sig .tc) → Buf (Elt F) ((c : Thread nD τ).loc b)) (a0 : (pcfg7 (F := F)).Adm)

theorem idx_facts7 : ∀ t : Fin grid7.N, cc7_transform_0 (grid7.coords t) = ![0, 0]
    ∧ cc7_transform_1 (grid7.coords t) = ![t.val, 0] ∧ cc7_transform_2 (grid7.coords t) = ![t.val, 0] := by
  decide +kernel

theorem iblk7_x_eq (c : Dev nD) (t : Fin (cfg7 a0).N) : iblk7 Vd a0 c 0 t = Vd c main_arg0 := by
  refine funext fun (j : S20000x256.Idx) => ?_
  show (Vd c main_arg0 : Vec F S20000x256 .f32) ((((cfg7 a0).win 0).blk t).view.emb j) = (Vd c main_arg0 : Vec F S20000x256 .f32) j
  congr 1
  funext a
  apply Fin.ext
  have e := (idx_facts7 t).1
  match a with
  | ⟨0, _⟩ =>
    show cc7_transform_0 (grid7.coords t) 0 * 20000 + 1 * (j 0).val = (j 0).val
    rw [e]; show 0 * 20000 + 1 * (j 0).val = (j 0).val; omega
  | ⟨1, _⟩ =>
    show cc7_transform_0 (grid7.coords t) 1 * 256 + 1 * (j 1).val = (j 1).val
    rw [e]; show 0 * 256 + 1 * (j 1).val = (j 1).val; omega

theorem iblk7_val_apply (c : Dev nD) (t : Fin (cfg7 a0).N) (j : S800x1.Idx) :
    iblk7 Vd a0 c 1 t j = (Vd c main_v34 : Vec F S80000x1 .f32)
      (ValueIdx.ix2 ⟨800 * t.val + (j 0).val, by have := t.isLt; have h : (cfg7 a0).N = 100 := N_7; have := (j 0).isLt; show _ < 80000; change (j 0).val < 800 at this; omega⟩ (j 1)) := by
  show (Vd c main_v34 : Vec F S80000x1 .f32) ((((cfg7 a0).win 1).blk t).view.emb j) = _
  congr 1
  funext a
  apply Fin.ext
  have e := (idx_facts7 t).2.1
  match a with
  | ⟨0, _⟩ =>
    show cc7_transform_1 (grid7.coords t) 0 * 800 + 1 * (j 0).val = 800 * t.val + (j 0).val
    rw [e]; show t.val * 800 + 1 * (j 0).val = 800 * t.val + (j 0).val; omega
  | ⟨1, _⟩ =>
    show cc7_transform_1 (grid7.coords t) 1 * 1 + 1 * (j 1).val = (j 1).val
    rw [e]; show 0 * 1 + 1 * (j 1).val = (j 1).val; omega

theorem index7_out (t : Fin (cfg7 a0).N) : ((cfg7 a0).win 2).index t = ![t.val, 0] := (idx_facts7 t).2.2

theorem flush7_out (t : Fin (cfg7 a0).N) : ((cfg7 a0).win 2).flush t = true := by
  unfold Window.flush
  rw [Bool.and_eq_true]
  refine ⟨rfl, ?_⟩
  rw [Bool.or_eq_true, decide_eq_true_eq, decide_eq_true_eq]
  by_cases h : t.val + 1 = grid7.N
  · exact Or.inl h
  · have hlt : t.val + 1 < grid7.N := by
      have := t.isLt; have h1 : (cfg7 a0).N = 100 := N_7; have h2 : grid7.N = 100 := N_7; omega
    refine Or.inr ⟨hlt, ?_⟩
    rw [index7_out, index7_out]
    intro e
    have e0 := congrFun e 0
    change t.val + 1 = t.val at e0
    omega

theorem emb7_out (t : Fin (cfg7 a0).N) (j : S800x256.Idx) :
    ((((cfg7 a0).win 2).blk t).view.emb j : S80000x256.Idx)
      = ValueIdx.ix2 ⟨800 * t.val + (j 0).val, by have := t.isLt; have h : (cfg7 a0).N = 100 := N_7; have := (j 0).isLt; show _ < 80000; change (j 0).val < 800 at this; omega⟩ (j 1) := by
  funext a
  apply Fin.ext
  have e := (idx_facts7 t).2.2
  match a with
  | ⟨0, _⟩ =>
    show cc7_transform_2 (grid7.coords t) 0 * 800 + 1 * (j 0).val = 800 * t.val + (j 0).val
    rw [e]; show t.val * 800 + 1 * (j 0).val = 800 * t.val + (j 0).val; omega
  | ⟨1, _⟩ =>
    show cc7_transform_2 (grid7.coords t) 1 * 256 + 1 * (j 1).val = (j 1).val
    rw [e]; show 0 * 256 + 1 * (j 1).val = (j 1).val; omega

theorem mem_blk7_out (t : Fin (cfg7 a0).N) (i : S80000x256.Idx) :
    i ∈ (((cfg7 a0).win 2).blk t).view.set ↔ 800 * t.val ≤ (i 0).val ∧ (i 0).val < 800 * t.val + 800 := by
  have hs : (((cfg7 a0).win 2).blk t).view.set = (((cfg7 a0).win 2).rect t).set := View.set_slice_whole main_v35 _
  have hm : i ∈ (((cfg7 a0).win 2).rect t).set ↔ ∀ a : Fin 2, cc7_transform_2 (grid7.coords t) a * S800x256.size a ≤ (i a).val
      ∧ (i a).val < cc7_transform_2 (grid7.coords t) a * S800x256.size a + S800x256.size a := Rect.mem_set_unit
  refine (Finset.ext_iff.mp hs i).trans (hm.trans ?_)
  have e := (idx_facts7 t).2.2
  rw [e]
  constructor
  · intro h
    have h0 := h 0
    change t.val * 800 ≤ (i 0).val ∧ (i 0).val < t.val * 800 + 800 at h0
    omega
  · intro h a
    match a with
    | ⟨0, _⟩ => show t.val * 800 ≤ (i 0).val ∧ (i 0).val < t.val * 800 + 800; omega
    | ⟨1, _⟩ =>
      show 0 * 256 ≤ (i 1).val ∧ (i 1).val < 0 * 256 + 256
      have := (i 1).isLt; change (i 1).val < 256 at this; omega

theorem pt7_of (t : Fin (cfg7 a0).N) (r : Fin 80000) (k : ℕ) (hk : k < 800) (hr : r.val = 800 * t.val + k) : pt7 a0 r = t := by
  apply Fin.ext
  show r.val / 800 = t.val
  omega

theorem flushed7_out (c : Dev nD) (t : Fin (cfg7 a0).N) :
    (dat7 Vd a0 c).flushed 2 t = (((cfg7 a0).win 2).blk t).view.read (Elt F) (outArr7 Vd a0 c) := by
  show ((cfg7 a0).win 2).cut (grid7.coords t) ((dat7 Vd a0 c).after 2 t) = _
  rw [after7_out]
  refine funext fun (j : S800x256.Idx) => ?_
  show outBlk7 (grid7.coords t) (a0.1 0) (iblk7 Vd a0 c 0 t) (iblk7 Vd a0 c 1 t) j
    = outArr7 Vd a0 c ((((cfg7 a0).win 2).blk t).view.emb j)
  rw [emb7_out]
  unfold outArr7
  have hj : (j 0).val < 800 := (j 0).isLt
  have hp : pt7 a0 (⟨800 * t.val + (j 0).val, by have := t.isLt; have h : (cfg7 a0).N = 100 := N_7; omega⟩ : Fin 80000) = t :=
    pt7_of a0 t _ (j 0).val hj rfl
  show _ = outBlk7 (grid7.coords (pt7 a0 ⟨800 * t.val + (j 0).val, _⟩)) (a0.1 0) (iblk7 Vd a0 c 0 (pt7 a0 ⟨800 * t.val + (j 0).val, _⟩))
      (iblk7 Vd a0 c 1 (pt7 a0 ⟨800 * t.val + (j 0).val, _⟩)) (ValueIdx.ix2 ⟨(800 * t.val + (j 0).val) % 800, _⟩ (j 1))
  rw [hp]
  congr 1
  funext a
  apply Fin.ext
  match a with
  | ⟨0, _⟩ => show (j 0).val = (800 * t.val + (j 0).val) % 800; omega
  | ⟨1, _⟩ => rfl

theorem arrAt_out7 (c : Dev nD) : (dat7 Vd a0 c).arrAt 2 (cfg7 a0).N = outArr7 Vd a0 c := by
  refine (dat7 Vd a0 c).arrAt_eq_of_cover 2 (outArr7 Vd a0 c) (fun t _ => flushed7_out Vd a0 c t) ?_
  intro (i : S80000x256.Idx)
  refine ⟨pt7 a0 (i 0), flush7_out a0 _, (mem_blk7_out a0 _ i).mpr ?_⟩
  show 800 * ((i 0).val / 800) ≤ (i 0).val ∧ (i 0).val < 800 * ((i 0).val / 800) + 800
  omega

end Region0
end Cert.KernelIdeal.Hand
end
-- ==== Proof.KI.GlueRegions.lean ====
import proofs.«411766_j31920196944464_2_alg».proof.Proof.Gen.KernelIdeal.Regions
import proofs.«411766_j31920196944464_2_alg».proof.Proof.KI.Value0R
import proofs.«411766_j31920196944464_2_alg».proof.Proof.KI.Value1R
import proofs.«411766_j31920196944464_2_alg».proof.Proof.KI.Value2R
import proofs.«411766_j31920196944464_2_alg».proof.Proof.KI.Value3R
import proofs.«411766_j31920196944464_2_alg».proof.Proof.KI.Value4R
import proofs.«411766_j31920196944464_2_alg».proof.Proof.KI.Value5R
import proofs.«411766_j31920196944464_2_alg».proof.Proof.KI.Value6R
import proofs.«411766_j31920196944464_2_alg».proof.Proof.KI.Value7R
import proofs.«411766_j31920196944464_2_alg».proof.Proof.KernelTail
import proofs.«411766_j31920196944464_2_alg».proof.Proof.Spec
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.StableHlo

theorem row_congr (x : FVec Ideal Spec.SX .f32) (d : Fin 256) (w w' : BitVec 32) (e : w = w')
    (h : w.toNat < 20000) (h' : w'.toNat < 20000) :
    x (ValueIdx.ix2 ⟨w.toNat, h⟩ d) = x (ValueIdx.ix2 ⟨w'.toNat, h'⟩ d) := by
  subst e; rfl

theorem arr_of_blocks (x : FVec Ideal Spec.SX .f32) (tbl : IVec S80000 32) (vcol : FVec Ideal S80000x1 .f32)
    (blk : Fin 100 → FVec Ideal S800x256 .f32)
    (hblk : ∀ (t : Fin 100) (q : Fin 800) (d : Fin 256) (hq : 800 * t.val + q.val < 80000),
      ∃ h : (tbl (ValueIdx.ix1 ⟨800 * t.val + q.val, hq⟩)).toNat < 20000,
        blk t (ValueIdx.ix2 q d) = x (ValueIdx.ix2 ⟨(tbl (ValueIdx.ix1 ⟨800 * t.val + q.val, hq⟩)).toNat, h⟩ d)
          * vcol (ValueIdx.ix2 ⟨800 * t.val + q.val, hq⟩ (0 : Fin 1)))
    (o : FVec Ideal S80000x256 .f32)
    (ho : ∀ (r : Fin 80000) (d : Fin 256) (ht : r.val / 800 < 100) (hq : r.val % 800 < 800),
      o (ValueIdx.ix2 r d) = blk ⟨r.val / 800, ht⟩ (ValueIdx.ix2 ⟨r.val % 800, hq⟩ d))
    (r : Fin 80000) (d : Fin 256) :
    ∃ h : (tbl (ValueIdx.ix1 r)).toNat < 20000,
      o (ValueIdx.ix2 r d) = x (ValueIdx.ix2 ⟨(tbl (ValueIdx.ix1 r)).toNat, h⟩ d) * vcol (ValueIdx.ix2 r (0 : Fin 1)) := by
  have hr := r.isLt
  have ht : r.val / 800 < 100 := by omega
  have hq : r.val % 800 < 800 := Nat.mod_lt _ (by decide)
  have hsum : 800 * (r.val / 800) + r.val % 800 = r.val := Nat.div_add_mod r.val 800
  have hlt : 800 * (r.val / 800) + r.val % 800 < 80000 := by omega
  have hidx : (⟨800 * (r.val / 800) + r.val % 800, hlt⟩ : Fin 80000) = r := Fin.ext hsum
  obtain ⟨h, hb⟩ := hblk ⟨r.val / 800, ht⟩ ⟨r.val % 800, hq⟩ d hlt
  have hw : tbl (ValueIdx.ix1 ⟨800 * (r.val / 800) + r.val % 800, hlt⟩) = tbl (ValueIdx.ix1 r) := by rw [hidx]
  refine ⟨hw ▸ h, ?_⟩
  have hv : vcol (ValueIdx.ix2 ⟨800 * (r.val / 800) + r.val % 800, hlt⟩ (0 : Fin 1)) = vcol (ValueIdx.ix2 r (0 : Fin 1)) :=
    congrArg (fun i : Fin 80000 => vcol (ValueIdx.ix2 i (0 : Fin 1))) hidx
  rw [ho r d ht hq, hb, row_congr x d _ _ hw h (hw ▸ h)]
  exact congrArg (fun z => x (ValueIdx.ix2 ⟨(tbl (ValueIdx.ix1 r)).toNat, hw ▸ h⟩ d) * z) hv

theorem region_msgs (x : FVec Ideal Spec.SX .f32) (col : IVec Spec.SE 32) (val : FVec Ideal Spec.SE .f32) (k : Nat) (hk : k < 4)
    (tbl : IVec S80000 32) (vcol : FVec Ideal S80000x1 .f32)
    (htbl : ∀ r : Fin 80000, tbl (ValueIdx.ix1 r) = col (ValueIdx.ix1 (Spec.edge k r hk)))
    (hval : ∀ r : Fin 80000, vcol (ValueIdx.ix2 r (0 : Fin 1)) = val (ValueIdx.ix1 (Spec.edge k r hk)))
    (o : FVec Ideal S80000x256 .f32)
    (ho : ∀ (r : Fin 80000) (d : Fin 256), ∃ h : (tbl (ValueIdx.ix1 r)).toNat < 20000,
      o (ValueIdx.ix2 r d) = x (ValueIdx.ix2 ⟨(tbl (ValueIdx.ix1 r)).toNat, h⟩ d) * vcol (ValueIdx.ix2 r (0 : Fin 1)))
    (r : Fin 80000) (d : Fin 256) :
    o (ValueIdx.ix2 r d) = Spec.msgs x col val (ValueIdx.ix2 (Spec.edge k r hk) d) := by
  obtain ⟨h, e⟩ := ho r d
  rw [e]
  exact chunk_msg x col val k hk r d _ (htbl r) _ (hval r) h

/-- One entry of a block: the row the table names times the weight, restated at the chunk's own row number. -/
theorem blk_entry (x : FVec Ideal Spec.SX .f32) (tbl : IVec S80000 32) (vcol : FVec Ideal S80000x1 .f32)
    (hrng : ∀ e : S80000.Idx, (tbl e).toNat < 20000) (t : Fin 100) (q : Fin 800) (d : Fin 256) (hq : 800 * t.val + q.val < 80000)
    (b : ℕ) (hb : b = t.val) (hlt : 800 * b + q.val < 80000) (xb : FVec Ideal Spec.SX .f32) (hxb : xb = x)
    (vb : FVec Ideal S800x1 .f32) (hvb : vb (ValueIdx.ix2 q (0 : Fin 1)) = vcol (ValueIdx.ix2 ⟨800 * t.val + q.val, hq⟩ (0 : Fin 1)))
    (y : Elt Ideal .f32)
    (hy : y = xb (ValueIdx.ix2 ⟨(tbl (ValueIdx.ix1 ⟨800 * b + q.val, hlt⟩)).toNat, hrng _⟩ d) * vb (ValueIdx.ix2 q (0 : Fin 1))) :
    ∃ h : (tbl (ValueIdx.ix1 ⟨800 * t.val + q.val, hq⟩)).toNat < 20000,
      y = x (ValueIdx.ix2 ⟨(tbl (ValueIdx.ix1 ⟨800 * t.val + q.val, hq⟩)).toNat, h⟩ d)
        * vcol (ValueIdx.ix2 ⟨800 * t.val + q.val, hq⟩ (0 : Fin 1)) := by
  subst hb hxb
  exact ⟨hrng _, hy.trans (congrArg _ hvb)⟩

theorem coords_val (t : Fin grid0.N) : (grid0.coords t 0).val = t.val := by
  have ht : t.val < 100 := lt_of_lt_of_eq t.isLt N_0
  show t.val / grid0.stride 0 % 100 = t.val
  have hs : grid0.stride 0 = 1 := by decide
  rw [hs, Nat.div_one, Nat.mod_eq_of_lt ht]

theorem outArr0_msgs (Vd : (c : Dev nD) → (b : Ref sig .tc) → Buf (Elt Ideal) ((c : Thread nD τ).loc b)) (a0 : (pcfg0 (F := Ideal)).Adm)
    (c : Dev nD) (x : FVec Ideal Spec.SX .f32) (col : IVec Spec.SE 32) (val : FVec Ideal Spec.SE .f32) (k : Nat) (hk : k < 4)
    (hx : (Vd c main_arg0 : FVec Ideal Spec.SX .f32) = x)
    (htbl : ∀ r : Fin 80000, (a0.1 0 : IVec S80000 32) (ValueIdx.ix1 r) = col (ValueIdx.ix1 (Spec.edge k r hk)))
    (hval : ∀ r : Fin 80000, (Vd c main_v2 : FVec Ideal S80000x1 .f32) (ValueIdx.ix2 r (0 : Fin 1)) = val (ValueIdx.ix1 (Spec.edge k r hk)))
    (hrng : ∀ e : S80000.Idx, ((a0.1 0 : IVec S80000 32) e).toNat < 20000)
    (r : Fin 80000) (d : Fin 256) :
    (outArr0 Vd a0 c : FVec Ideal S80000x256 .f32) (ValueIdx.ix2 r d) = Spec.msgs x col val (ValueIdx.ix2 (Spec.edge k r hk) d) := by
  have hN : (cfg0 a0).N = 100 := N_0
  have hlt : ∀ t : Fin 100, t.val < (cfg0 a0).N := fun t => lt_of_lt_of_eq t.isLt hN.symm
  refine region_msgs x col val k hk (a0.1 0) (Vd c main_v2) htbl hval (outArr0 Vd a0 c)
    (arr_of_blocks x (a0.1 0) (Vd c main_v2)
      (fun t => outBlk0 (grid0.coords ⟨t.val, hlt t⟩) (a0.1 0) (iblk0 Vd a0 c 0 ⟨t.val, hlt t⟩) (iblk0 Vd a0 c 1 ⟨t.val, hlt t⟩))
      (fun t q d hq => ?_) (outArr0 Vd a0 c) (fun r d ht hq => rfl)) r d
  exact blk_entry x (a0.1 0) (Vd c main_v2) hrng t q d hq _ (coords_val _) _ _ ((iblk0_x_eq Vd a0 c _).trans hx) _
    (iblk0_val_apply Vd a0 c ⟨t.val, hlt t⟩ (ValueIdx.ix2 q (0 : Fin 1))) _
    (outBlk0_apply (grid0.coords ⟨t.val, hlt t⟩) (a0.1 0) (iblk0 Vd a0 c 0 ⟨t.val, hlt t⟩) (iblk0 Vd a0 c 1 ⟨t.val, hlt t⟩) hrng q d)

theorem outArr1_msgs (Vd : (c : Dev nD) → (b : Ref sig .tc) → Buf (Elt Ideal) ((c : Thread nD τ).loc b)) (a1 : (pcfg1 (F := Ideal)).Adm)
    (c : Dev nD) (x : FVec Ideal Spec.SX .f32) (col : IVec Spec.SE 32) (val : FVec Ideal Spec.SE .f32) (k : Nat) (hk : k < 4)
    (hx : (Vd c main_arg0 : FVec Ideal Spec.SX .f32) = x)
    (htbl : ∀ r : Fin 80000, (a1.1 0 : IVec S80000 32) (ValueIdx.ix1 r) = col (ValueIdx.ix1 (Spec.edge k r hk)))
    (hval : ∀ r : Fin 80000, (Vd c main_v6 : FVec Ideal S80000x1 .f32) (ValueIdx.ix2 r (0 : Fin 1)) = val (ValueIdx.ix1 (Spec.edge k r hk)))
    (hrng : ∀ e : S80000.Idx, ((a1.1 0 : IVec S80000 32) e).toNat < 20000)
    (r : Fin 80000) (d : Fin 256) :
    (outArr1 Vd a1 c : FVec Ideal S80000x256 .f32) (ValueIdx.ix2 r d) = Spec.msgs x col val (ValueIdx.ix2 (Spec.edge k r hk) d) := by
  have hN : (cfg1 a1).N = 100 := N_1
  have hlt : ∀ t : Fin 100, t.val < (cfg1 a1).N := fun t => lt_of_lt_of_eq t.isLt hN.symm
  refine region_msgs x col val k hk (a1.1 0) (Vd c main_v6) htbl hval (outArr1 Vd a1 c)
    (arr_of_blocks x (a1.1 0) (Vd c main_v6)
      (fun t => outBlk1 (grid1.coords ⟨t.val, hlt t⟩) (a1.1 0) (iblk1 Vd a1 c 0 ⟨t.val, hlt t⟩) (iblk1 Vd a1 c 1 ⟨t.val, hlt t⟩))
      (fun t q d hq => ?_) (outArr1 Vd a1 c) (fun r d ht hq => rfl)) r d
  exact blk_entry x (a1.1 0) (Vd c main_v6) hrng t q d hq _ (coords_val _) _ _ ((iblk1_x_eq Vd a1 c _).trans hx) _
    (iblk1_val_apply Vd a1 c ⟨t.val, hlt t⟩ (ValueIdx.ix2 q (0 : Fin 1))) _
    (outBlk1_apply (grid1.coords ⟨t.val, hlt t⟩) (a1.1 0) (iblk1 Vd a1 c 0 ⟨t.val, hlt t⟩) (iblk1 Vd a1 c 1 ⟨t.val, hlt t⟩) hrng q d)

theorem outArr2_msgs (Vd : (c : Dev nD) → (b : Ref sig .tc) → Buf (Elt Ideal) ((c : Thread nD τ).loc b)) (a2 : (pcfg2 (F := Ideal)).Adm)
    (c : Dev nD) (x : FVec Ideal Spec.SX .f32) (col : IVec Spec.SE 32) (val : FVec Ideal Spec.SE .f32) (k : Nat) (hk : k < 4)
    (hx : (Vd c main_arg0 : FVec Ideal Spec.SX .f32) = x)
    (htbl : ∀ r : Fin 80000, (a2.1 0 : IVec S80000 32) (ValueIdx.ix1 r) = col (ValueIdx.ix1 (Spec.edge k r hk)))
    (hval : ∀ r : Fin 80000, (Vd c main_v10 : FVec Ideal S80000x1 .f32) (ValueIdx.ix2 r (0 : Fin 1)) = val (ValueIdx.ix1 (Spec.edge k r hk)))
    (hrng : ∀ e : S80000.Idx, ((a2.1 0 : IVec S80000 32) e).toNat < 20000)
    (r : Fin 80000) (d : Fin 256) :
    (outArr2 Vd a2 c : FVec Ideal S80000x256 .f32) (ValueIdx.ix2 r d) = Spec.msgs x col val (ValueIdx.ix2 (Spec.edge k r hk) d) := by
  have hN : (cfg2 a2).N = 100 := N_2
  have hlt : ∀ t : Fin 100, t.val < (cfg2 a2).N := fun t => lt_of_lt_of_eq t.isLt hN.symm
  refine region_msgs x col val k hk (a2.1 0) (Vd c main_v10) htbl hval (outArr2 Vd a2 c)
    (arr_of_blocks x (a2.1 0) (Vd c main_v10)
      (fun t => outBlk2 (grid2.coords ⟨t.val, hlt t⟩) (a2.1 0) (iblk2 Vd a2 c 0 ⟨t.val, hlt t⟩) (iblk2 Vd a2 c 1 ⟨t.val, hlt t⟩))
      (fun t q d hq => ?_) (outArr2 Vd a2 c) (fun r d ht hq => rfl)) r d
  exact blk_entry x (a2.1 0) (Vd c main_v10) hrng t q d hq _ (coords_val _) _ _ ((iblk2_x_eq Vd a2 c _).trans hx) _
    (iblk2_val_apply Vd a2 c ⟨t.val, hlt t⟩ (ValueIdx.ix2 q (0 : Fin 1))) _
    (outBlk2_apply (grid2.coords ⟨t.val, hlt t⟩) (a2.1 0) (iblk2 Vd a2 c 0 ⟨t.val, hlt t⟩) (iblk2 Vd a2 c 1 ⟨t.val, hlt t⟩) hrng q d)

theorem outArr3_msgs (Vd : (c : Dev nD) → (b : Ref sig .tc) → Buf (Elt Ideal) ((c : Thread nD τ).loc b)) (a3 : (pcfg3 (F := Ideal)).Adm)
    (c : Dev nD) (x : FVec Ideal Spec.SX .f32) (col : IVec Spec.SE 32) (val : FVec Ideal Spec.SE .f32) (k : Nat) (hk : k < 4)
    (hx : (Vd c main_arg0 : FVec Ideal Spec.SX .f32) = x)
    (htbl : ∀ r : Fin 80000, (a3.1 0 : IVec S80000 32) (ValueIdx.ix1 r) = col (ValueIdx.ix1 (Spec.edge k r hk)))
    (hval : ∀ r : Fin 80000, (Vd c main_v14 : FVec Ideal S80000x1 .f32) (ValueIdx.ix2 r (0 : Fin 1)) = val (ValueIdx.ix1 (Spec.edge k r hk)))
    (hrng : ∀ e : S80000.Idx, ((a3.1 0 : IVec S80000 32) e).toNat < 20000)
    (r : Fin 80000) (d : Fin 256) :
    (outArr3 Vd a3 c : FVec Ideal S80000x256 .f32) (ValueIdx.ix2 r d) = Spec.msgs x col val (ValueIdx.ix2 (Spec.edge k r hk) d) := by
  have hN : (cfg3 a3).N = 100 := N_3
  have hlt : ∀ t : Fin 100, t.val < (cfg3 a3).N := fun t => lt_of_lt_of_eq t.isLt hN.symm
  refine region_msgs x col val k hk (a3.1 0) (Vd c main_v14) htbl hval (outArr3 Vd a3 c)
    (arr_of_blocks x (a3.1 0) (Vd c main_v14)
      (fun t => outBlk3 (grid3.coords ⟨t.val, hlt t⟩) (a3.1 0) (iblk3 Vd a3 c 0 ⟨t.val, hlt t⟩) (iblk3 Vd a3 c 1 ⟨t.val, hlt t⟩))
      (fun t q d hq => ?_) (outArr3 Vd a3 c) (fun r d ht hq => rfl)) r d
  exact blk_entry x (a3.1 0) (Vd c main_v14) hrng t q d hq _ (coords_val _) _ _ ((iblk3_x_eq Vd a3 c _).trans hx) _
    (iblk3_val_apply Vd a3 c ⟨t.val, hlt t⟩ (ValueIdx.ix2 q (0 : Fin 1))) _
    (outBlk3_apply (grid3.coords ⟨t.val, hlt t⟩) (a3.1 0) (iblk3 Vd a3 c 0 ⟨t.val, hlt t⟩) (iblk3 Vd a3 c 1 ⟨t.val, hlt t⟩) hrng q d)

theorem outArr4_msgs (Vd : (c : Dev nD) → (b : Ref sig .tc) → Buf (Elt Ideal) ((c : Thread nD τ).loc b)) (a4 : (pcfg4 (F := Ideal)).Adm)
    (c : Dev nD) (x : FVec Ideal Spec.SX .f32) (col : IVec Spec.SE 32) (val : FVec Ideal Spec.SE .f32) (k : Nat) (hk : k < 4)
    (hx : (Vd c main_arg0 : FVec Ideal Spec.SX .f32) = x)
    (htbl : ∀ r : Fin 80000, (a4.1 0 : IVec S80000 32) (ValueIdx.ix1 r) = col (ValueIdx.ix1 (Spec.edge k r hk)))
    (hval : ∀ r : Fin 80000, (Vd c main_v22 : FVec Ideal S80000x1 .f32) (ValueIdx.ix2 r (0 : Fin 1)) = val (ValueIdx.ix1 (Spec.edge k r hk)))
    (hrng : ∀ e : S80000.Idx, ((a4.1 0 : IVec S80000 32) e).toNat < 20000)
    (r : Fin 80000) (d : Fin 256) :
    (outArr4 Vd a4 c : FVec Ideal S80000x256 .f32) (ValueIdx.ix2 r d) = Spec.msgs x col val (ValueIdx.ix2 (Spec.edge k r hk) d) := by
  have hN : (cfg4 a4).N = 100 := N_4
  have hlt : ∀ t : Fin 100, t.val < (cfg4 a4).N := fun t => lt_of_lt_of_eq t.isLt hN.symm
  refine region_msgs x col val k hk (a4.1 0) (Vd c main_v22) htbl hval (outArr4 Vd a4 c)
    (arr_of_blocks x (a4.1 0) (Vd c main_v22)
      (fun t => outBlk4 (grid4.coords ⟨t.val, hlt t⟩) (a4.1 0) (iblk4 Vd a4 c 0 ⟨t.val, hlt t⟩) (iblk4 Vd a4 c 1 ⟨t.val, hlt t⟩))
      (fun t q d hq => ?_) (outArr4 Vd a4 c) (fun r d ht hq => rfl)) r d
  exact blk_entry x (a4.1 0) (Vd c main_v22) hrng t q d hq _ (coords_val _) _ _ ((iblk4_x_eq Vd a4 c _).trans hx) _
    (iblk4_val_apply Vd a4 c ⟨t.val, hlt t⟩ (ValueIdx.ix2 q (0 : Fin 1))) _
    (outBlk4_apply (grid4.coords ⟨t.val, hlt t⟩) (a4.1 0) (iblk4 Vd a4 c 0 ⟨t.val, hlt t⟩) (iblk4 Vd a4 c 1 ⟨t.val, hlt t⟩) hrng q d)

theorem outArr5_msgs (Vd : (c : Dev nD) → (b : Ref sig .tc) → Buf (Elt Ideal) ((c : Thread nD τ).loc b)) (a5 : (pcfg5 (F := Ideal)).Adm)
    (c : Dev nD) (x : FVec Ideal Spec.SX .f32) (col : IVec Spec.SE 32) (val : FVec Ideal Spec.SE .f32) (k : Nat) (hk : k < 4)
    (hx : (Vd c main_arg0 : FVec Ideal Spec.SX .f32) = x)
    (htbl : ∀ r : Fin 80000, (a5.1 0 : IVec S80000 32) (ValueIdx.ix1 r) = col (ValueIdx.ix1 (Spec.edge k r hk)))
    (hval : ∀ r : Fin 80000, (Vd c main_v26 : FVec Ideal S80000x1 .f32) (ValueIdx.ix2 r (0 : Fin 1)) = val (ValueIdx.ix1 (Spec.edge k r hk)))
    (hrng : ∀ e : S80000.Idx, ((a5.1 0 : IVec S80000 32) e).toNat < 20000)
    (r : Fin 80000) (d : Fin 256) :
    (outArr5 Vd a5 c : FVec Ideal S80000x256 .f32) (ValueIdx.ix2 r d) = Spec.msgs x col val (ValueIdx.ix2 (Spec.edge k r hk) d) := by
  have hN : (cfg5 a5).N = 100 := N_5
  have hlt : ∀ t : Fin 100, t.val < (cfg5 a5).N := fun t => lt_of_lt_of_eq t.isLt hN.symm
  refine region_msgs x col val k hk (a5.1 0) (Vd c main_v26) htbl hval (outArr5 Vd a5 c)
    (arr_of_blocks x (a5.1 0) (Vd c main_v26)
      (fun t => outBlk5 (grid5.coords ⟨t.val, hlt t⟩) (a5.1 0) (iblk5 Vd a5 c 0 ⟨t.val, hlt t⟩) (iblk5 Vd a5 c 1 ⟨t.val, hlt t⟩))
      (fun t q d hq => ?_) (outArr5 Vd a5 c) (fun r d ht hq => rfl)) r d
  exact blk_entry x (a5.1 0) (Vd c main_v26) hrng t q d hq _ (coords_val _) _ _ ((iblk5_x_eq Vd a5 c _).trans hx) _
    (iblk5_val_apply Vd a5 c ⟨t.val, hlt t⟩ (ValueIdx.ix2 q (0 : Fin 1))) _
    (outBlk5_apply (grid5.coords ⟨t.val, hlt t⟩) (a5.1 0) (iblk5 Vd a5 c 0 ⟨t.val, hlt t⟩) (iblk5 Vd a5 c 1 ⟨t.val, hlt t⟩) hrng q d)

theorem outArr6_msgs (Vd : (c : Dev nD) → (b : Ref sig .tc) → Buf (Elt Ideal) ((c : Thread nD τ).loc b)) (a6 : (pcfg6 (F := Ideal)).Adm)
    (c : Dev nD) (x : FVec Ideal Spec.SX .f32) (col : IVec Spec.SE 32) (val : FVec Ideal Spec.SE .f32) (k : Nat) (hk : k < 4)
    (hx : (Vd c main_arg0 : FVec Ideal Spec.SX .f32) = x)
    (htbl : ∀ r : Fin 80000, (a6.1 0 : IVec S80000 32) (ValueIdx.ix1 r) = col (ValueIdx.ix1 (Spec.edge k r hk)))
    (hval : ∀ r : Fin 80000, (Vd c main_v30 : FVec Ideal S80000x1 .f32) (ValueIdx.ix2 r (0 : Fin 1)) = val (ValueIdx.ix1 (Spec.edge k r hk)))
    (hrng : ∀ e : S80000.Idx, ((a6.1 0 : IVec S80000 32) e).toNat < 20000)
    (r : Fin 80000) (d : Fin 256) :
    (outArr6 Vd a6 c : FVec Ideal S80000x256 .f32) (ValueIdx.ix2 r d) = Spec.msgs x col val (ValueIdx.ix2 (Spec.edge k r hk) d) := by
  have hN : (cfg6 a6).N = 100 := N_6
  have hlt : ∀ t : Fin 100, t.val < (cfg6 a6).N := fun t => lt_of_lt_of_eq t.isLt hN.symm
  refine region_msgs x col val k hk (a6.1 0) (Vd c main_v30) htbl hval (outArr6 Vd a6 c)
    (arr_of_blocks x (a6.1 0) (Vd c main_v30)
      (fun t => outBlk6 (grid6.coords ⟨t.val, hlt t⟩) (a6.1 0) (iblk6 Vd a6 c 0 ⟨t.val, hlt t⟩) (iblk6 Vd a6 c 1 ⟨t.val, hlt t⟩))
      (fun t q d hq => ?_) (outArr6 Vd a6 c) (fun r d ht hq => rfl)) r d
  exact blk_entry x (a6.1 0) (Vd c main_v30) hrng t q d hq _ (coords_val _) _ _ ((iblk6_x_eq Vd a6 c _).trans hx) _
    (iblk6_val_apply Vd a6 c ⟨t.val, hlt t⟩ (ValueIdx.ix2 q (0 : Fin 1))) _
    (outBlk6_apply (grid6.coords ⟨t.val, hlt t⟩) (a6.1 0) (iblk6 Vd a6 c 0 ⟨t.val, hlt t⟩) (iblk6 Vd a6 c 1 ⟨t.val, hlt t⟩) hrng q d)

theorem outArr7_msgs (Vd : (c : Dev nD) → (b : Ref sig .tc) → Buf (Elt Ideal) ((c : Thread nD τ).loc b)) (a7 : (pcfg7 (F := Ideal)).Adm)
    (c : Dev nD) (x : FVec Ideal Spec.SX .f32) (col : IVec Spec.SE 32) (val : FVec Ideal Spec.SE .f32) (k : Nat) (hk : k < 4)
    (hx : (Vd c main_arg0 : FVec Ideal Spec.SX .f32) = x)
    (htbl : ∀ r : Fin 80000, (a7.1 0 : IVec S80000 32) (ValueIdx.ix1 r) = col (ValueIdx.ix1 (Spec.edge k r hk)))
    (hval : ∀ r : Fin 80000, (Vd c main_v34 : FVec Ideal S80000x1 .f32) (ValueIdx.ix2 r (0 : Fin 1)) = val (ValueIdx.ix1 (Spec.edge k r hk)))
    (hrng : ∀ e : S80000.Idx, ((a7.1 0 : IVec S80000 32) e).toNat < 20000)
    (r : Fin 80000) (d : Fin 256) :
    (outArr7 Vd a7 c : FVec Ideal S80000x256 .f32) (ValueIdx.ix2 r d) = Spec.msgs x col val (ValueIdx.ix2 (Spec.edge k r hk) d) := by
  have hN : (cfg7 a7).N = 100 := N_7
  have hlt : ∀ t : Fin 100, t.val < (cfg7 a7).N := fun t => lt_of_lt_of_eq t.isLt hN.symm
  refine region_msgs x col val k hk (a7.1 0) (Vd c main_v34) htbl hval (outArr7 Vd a7 c)
    (arr_of_blocks x (a7.1 0) (Vd c main_v34)
      (fun t => outBlk7 (grid7.coords ⟨t.val, hlt t⟩) (a7.1 0) (iblk7 Vd a7 c 0 ⟨t.val, hlt t⟩) (iblk7 Vd a7 c 1 ⟨t.val, hlt t⟩))
      (fun t q d hq => ?_) (outArr7 Vd a7 c) (fun r d ht hq => rfl)) r d
  exact blk_entry x (a7.1 0) (Vd c main_v34) hrng t q d hq _ (coords_val _) _ _ ((iblk7_x_eq Vd a7 c _).trans hx) _
    (iblk7_val_apply Vd a7 c ⟨t.val, hlt t⟩ (ValueIdx.ix2 q (0 : Fin 1))) _
    (outBlk7_apply (grid7.coords ⟨t.val, hlt t⟩) (a7.1 0) (iblk7 Vd a7 c 0 ⟨t.val, hlt t⟩) (iblk7 Vd a7 c 1 ⟨t.val, hlt t⟩) hrng q d)

end Cert.KernelIdeal.Hand

end
-- ==== Proof.KI.Glue.lean ====
import proofs.«411766_j31920196944464_2_alg».proof.Proof.Gen.KernelIdeal.Regions
import proofs.«411766_j31920196944464_2_alg».proof.Proof.KI.TblRange
import proofs.«411766_j31920196944464_2_alg».proof.Proof.KI.EntryVals
import proofs.«411766_j31920196944464_2_alg».proof.Proof.KI.Assembly
import proofs.«411766_j31920196944464_2_alg».proof.Proof.KI.GlueRegions
import proofs.«411766_j31920196944464_2_alg».proof.Proof.KernelTail
import proofs.«411766_j31920196944464_2_alg».proof.Proof.Spec
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

theorem glue0 (hc2 : ∀ e : S320000.Idx, ((m ((c0 : Thread nD τ).loc main_arg2) : IVec S320000 32) e).toNat < 20000)
    (c : Dev nD) (r : Fin 80000) (d : Fin 256) :
    (outsP m 2 main_v3 c : FVec Ideal S80000x256 .f32) (ValueIdx.ix2 r d)
      = Spec.msgs (argX m c) (argCol1 m c) (argVal1 m c) (ValueIdx.ix2 (Spec.edge 0 r) d) := by
  obtain rfl : c = c0 := dev_eq c
  have e : (outsP m 2 main_v3 c0 : FVec Ideal S80000x256 .f32) = outArr0 (Ud0 m) (adm0 m) c0 :=
    (outsP_2 m c0).trans (arrAt_out0 (Ud0 m) (adm0 m) c0)
  refine (congrFun e _).trans ?_
  exact outArr0_msgs (Ud0 m) (adm0 m) c0 (argX m c0) (argCol1 m c0) (argVal1 m c0) 0 (by decide)
    (alone0_x m c0)
    (fun r => (alone0_tbl_apply m c0 r).trans
      (congrArg (fun e : Fin 320000 => argCol1 m c0 (ValueIdx.ix1 e)) (Fin.ext (by show 0 + r.val = 80000 * 0 + r.val; omega))))
    (fun r => (alone0_val_apply m c0 r).trans
      (congrArg (fun e : Fin 320000 => argVal1 m c0 (ValueIdx.ix1 e)) (Fin.ext (by show 0 + r.val = 80000 * 0 + r.val; omega))))
    (alone0_tbl_in_range m c0 hc2) r d

theorem glue1 (hc2 : ∀ e : S320000.Idx, ((m ((c0 : Thread nD τ).loc main_arg2) : IVec S320000 32) e).toNat < 20000)
    (c : Dev nD) (r : Fin 80000) (d : Fin 256) :
    (outsP m 4 main_v7 c : FVec Ideal S80000x256 .f32) (ValueIdx.ix2 r d)
      = Spec.msgs (argX m c) (argCol1 m c) (argVal1 m c) (ValueIdx.ix2 (Spec.edge 1 r) d) := by
  obtain rfl : c = c0 := dev_eq c
  have e : (outsP m 4 main_v7 c0 : FVec Ideal S80000x256 .f32) = outArr1 (Ud1 m) (adm1 m) c0 :=
    (outsP_4 m c0).trans (arrAt_out1 (Ud1 m) (adm1 m) c0)
  refine (congrFun e _).trans ?_
  exact outArr1_msgs (Ud1 m) (adm1 m) c0 (argX m c0) (argCol1 m c0) (argVal1 m c0) 1 (by decide)
    (alone1_x m c0)
    (fun r => (alone1_tbl_apply m c0 r).trans
      (congrArg (fun e : Fin 320000 => argCol1 m c0 (ValueIdx.ix1 e)) (Fin.ext (by show 80000 + r.val = 80000 * 1 + r.val; omega))))
    (fun r => (alone1_val_apply m c0 r).trans
      (congrArg (fun e : Fin 320000 => argVal1 m c0 (ValueIdx.ix1 e)) (Fin.ext (by show 80000 + r.val = 80000 * 1 + r.val; omega))))
    (alone1_tbl_in_range m c0 hc2) r d

theorem glue2 (hc2 : ∀ e : S320000.Idx, ((m ((c0 : Thread nD τ).loc main_arg2) : IVec S320000 32) e).toNat < 20000)
    (c : Dev nD) (r : Fin 80000) (d : Fin 256) :
    (outsP m 6 main_v11 c : FVec Ideal S80000x256 .f32) (ValueIdx.ix2 r d)
      = Spec.msgs (argX m c) (argCol1 m c) (argVal1 m c) (ValueIdx.ix2 (Spec.edge 2 r) d) := by
  obtain rfl : c = c0 := dev_eq c
  have e : (outsP m 6 main_v11 c0 : FVec Ideal S80000x256 .f32) = outArr2 (Ud2 m) (adm2 m) c0 :=
    (outsP_6 m c0).trans (arrAt_out2 (Ud2 m) (adm2 m) c0)
  refine (congrFun e _).trans ?_
  exact outArr2_msgs (Ud2 m) (adm2 m) c0 (argX m c0) (argCol1 m c0) (argVal1 m c0) 2 (by decide)
    (alone2_x m c0)
    (fun r => (alone2_tbl_apply m c0 r).trans
      (congrArg (fun e : Fin 320000 => argCol1 m c0 (ValueIdx.ix1 e)) (Fin.ext (by show 160000 + r.val = 80000 * 2 + r.val; omega))))
    (fun r => (alone2_val_apply m c0 r).trans
      (congrArg (fun e : Fin 320000 => argVal1 m c0 (ValueIdx.ix1 e)) (Fin.ext (by show 160000 + r.val = 80000 * 2 + r.val; omega))))
    (alone2_tbl_in_range m c0 hc2) r d

theorem glue3 (hc2 : ∀ e : S320000.Idx, ((m ((c0 : Thread nD τ).loc main_arg2) : IVec S320000 32) e).toNat < 20000)
    (c : Dev nD) (r : Fin 80000) (d : Fin 256) :
    (outsP m 8 main_v15 c : FVec Ideal S80000x256 .f32) (ValueIdx.ix2 r d)
      = Spec.msgs (argX m c) (argCol1 m c) (argVal1 m c) (ValueIdx.ix2 (Spec.edge 3 r) d) := by
  obtain rfl : c = c0 := dev_eq c
  have e : (outsP m 8 main_v15 c0 : FVec Ideal S80000x256 .f32) = outArr3 (Ud3 m) (adm3 m) c0 :=
    (outsP_8 m c0).trans (arrAt_out3 (Ud3 m) (adm3 m) c0)
  refine (congrFun e _).trans ?_
  exact outArr3_msgs (Ud3 m) (adm3 m) c0 (argX m c0) (argCol1 m c0) (argVal1 m c0) 3 (by decide)
    (alone3_x m c0)
    (fun r => (alone3_tbl_apply m c0 r).trans
      (congrArg (fun e : Fin 320000 => argCol1 m c0 (ValueIdx.ix1 e)) (Fin.ext (by show 240000 + r.val = 80000 * 3 + r.val; omega))))
    (fun r => (alone3_val_apply m c0 r).trans
      (congrArg (fun e : Fin 320000 => argVal1 m c0 (ValueIdx.ix1 e)) (Fin.ext (by show 240000 + r.val = 80000 * 3 + r.val; omega))))
    (alone3_tbl_in_range m c0 hc2) r d

theorem glue4 (hc5 : ∀ e : S320000.Idx, ((m ((c0 : Thread nD τ).loc main_arg5) : IVec S320000 32) e).toNat < 20000)
    (c : Dev nD) (r : Fin 80000) (d : Fin 256) :
    (outsP m 10 main_v23 c : FVec Ideal S80000x256 .f32) (ValueIdx.ix2 r d)
      = Spec.msgs (argX m c) (argCol2 m c) (argVal2 m c) (ValueIdx.ix2 (Spec.edge 0 r) d) := by
  obtain rfl : c = c0 := dev_eq c
  have e : (outsP m 10 main_v23 c0 : FVec Ideal S80000x256 .f32) = outArr4 (Ud4 m) (adm4 m) c0 :=
    (outsP_10 m c0).trans (arrAt_out4 (Ud4 m) (adm4 m) c0)
  refine (congrFun e _).trans ?_
  exact outArr4_msgs (Ud4 m) (adm4 m) c0 (argX m c0) (argCol2 m c0) (argVal2 m c0) 0 (by decide)
    (alone4_x m c0)
    (fun r => (alone4_tbl_apply m c0 r).trans
      (congrArg (fun e : Fin 320000 => argCol2 m c0 (ValueIdx.ix1 e)) (Fin.ext (by show 0 + r.val = 80000 * 0 + r.val; omega))))
    (fun r => (alone4_val_apply m c0 r).trans
      (congrArg (fun e : Fin 320000 => argVal2 m c0 (ValueIdx.ix1 e)) (Fin.ext (by show 0 + r.val = 80000 * 0 + r.val; omega))))
    (alone4_tbl_in_range m c0 hc5) r d

theorem glue5 (hc5 : ∀ e : S320000.Idx, ((m ((c0 : Thread nD τ).loc main_arg5) : IVec S320000 32) e).toNat < 20000)
    (c : Dev nD) (r : Fin 80000) (d : Fin 256) :
    (outsP m 12 main_v27 c : FVec Ideal S80000x256 .f32) (ValueIdx.ix2 r d)
      = Spec.msgs (argX m c) (argCol2 m c) (argVal2 m c) (ValueIdx.ix2 (Spec.edge 1 r) d) := by
  obtain rfl : c = c0 := dev_eq c
  have e : (outsP m 12 main_v27 c0 : FVec Ideal S80000x256 .f32) = outArr5 (Ud5 m) (adm5 m) c0 :=
    (outsP_12 m c0).trans (arrAt_out5 (Ud5 m) (adm5 m) c0)
  refine (congrFun e _).trans ?_
  exact outArr5_msgs (Ud5 m) (adm5 m) c0 (argX m c0) (argCol2 m c0) (argVal2 m c0) 1 (by decide)
    (alone5_x m c0)
    (fun r => (alone5_tbl_apply m c0 r).trans
      (congrArg (fun e : Fin 320000 => argCol2 m c0 (ValueIdx.ix1 e)) (Fin.ext (by show 80000 + r.val = 80000 * 1 + r.val; omega))))
    (fun r => (alone5_val_apply m c0 r).trans
      (congrArg (fun e : Fin 320000 => argVal2 m c0 (ValueIdx.ix1 e)) (Fin.ext (by show 80000 + r.val = 80000 * 1 + r.val; omega))))
    (alone5_tbl_in_range m c0 hc5) r d

theorem glue6 (hc5 : ∀ e : S320000.Idx, ((m ((c0 : Thread nD τ).loc main_arg5) : IVec S320000 32) e).toNat < 20000)
    (c : Dev nD) (r : Fin 80000) (d : Fin 256) :
    (outsP m 14 main_v31 c : FVec Ideal S80000x256 .f32) (ValueIdx.ix2 r d)
      = Spec.msgs (argX m c) (argCol2 m c) (argVal2 m c) (ValueIdx.ix2 (Spec.edge 2 r) d) := by
  obtain rfl : c = c0 := dev_eq c
  have e : (outsP m 14 main_v31 c0 : FVec Ideal S80000x256 .f32) = outArr6 (Ud6 m) (adm6 m) c0 :=
    (outsP_14 m c0).trans (arrAt_out6 (Ud6 m) (adm6 m) c0)
  refine (congrFun e _).trans ?_
  exact outArr6_msgs (Ud6 m) (adm6 m) c0 (argX m c0) (argCol2 m c0) (argVal2 m c0) 2 (by decide)
    (alone6_x m c0)
    (fun r => (alone6_tbl_apply m c0 r).trans
      (congrArg (fun e : Fin 320000 => argCol2 m c0 (ValueIdx.ix1 e)) (Fin.ext (by show 160000 + r.val = 80000 * 2 + r.val; omega))))
    (fun r => (alone6_val_apply m c0 r).trans
      (congrArg (fun e : Fin 320000 => argVal2 m c0 (ValueIdx.ix1 e)) (Fin.ext (by show 160000 + r.val = 80000 * 2 + r.val; omega))))
    (alone6_tbl_in_range m c0 hc5) r d

theorem glue7 (hc5 : ∀ e : S320000.Idx, ((m ((c0 : Thread nD τ).loc main_arg5) : IVec S320000 32) e).toNat < 20000)
    (c : Dev nD) (r : Fin 80000) (d : Fin 256) :
    (outsP m 16 main_v35 c : FVec Ideal S80000x256 .f32) (ValueIdx.ix2 r d)
      = Spec.msgs (argX m c) (argCol2 m c) (argVal2 m c) (ValueIdx.ix2 (Spec.edge 3 r) d) := by
  obtain rfl : c = c0 := dev_eq c
  have e : (outsP m 16 main_v35 c0 : FVec Ideal S80000x256 .f32) = outArr7 (Ud7 m) (adm7 m) c0 :=
    (outsP_16 m c0).trans (arrAt_out7 (Ud7 m) (adm7 m) c0)
  refine (congrFun e _).trans ?_
  exact outArr7_msgs (Ud7 m) (adm7 m) c0 (argX m c0) (argCol2 m c0) (argVal2 m c0) 3 (by decide)
    (alone7_x m c0)
    (fun r => (alone7_tbl_apply m c0 r).trans
      (congrArg (fun e : Fin 320000 => argCol2 m c0 (ValueIdx.ix1 e)) (Fin.ext (by show 240000 + r.val = 80000 * 3 + r.val; omega))))
    (fun r => (alone7_val_apply m c0 r).trans
      (congrArg (fun e : Fin 320000 => argVal2 m c0 (ValueIdx.ix1 e)) (Fin.ext (by show 240000 + r.val = 80000 * 3 + r.val; omega))))
    (alone7_tbl_in_range m c0 hc5) r d

theorem kernel_is_spec
    (hc2 : ∀ e : S320000.Idx, ((m ((c0 : Thread nD τ).loc main_arg2) : IVec S320000 32) e).toNat < 20000)
    (hc5 : ∀ e : S320000.Idx, ((m ((c0 : Thread nD τ).loc main_arg5) : IVec S320000 32) e).toNat < 20000) (c : Dev nD) :
    (V17 m (outsP m) c main_v40 : FVec Ideal Spec.SO .f32)
      = Spec.G (argX m c) (argRow1 m c) (argCol1 m c) (argVal1 m c) (argRow2 m c) (argCol2 m c) (argVal2 m c) :=
  kernel_tail m (outsP m) c (glue0 m hc2 c) (glue1 m hc2 c) (glue2 m hc2 c) (glue3 m hc2 c)
    (glue4 m hc5 c) (glue5 m hc5 c) (glue6 m hc5 c) (glue7 m hc5 c)

end Cert.KernelIdeal.Hand

end
-- ==== Proof.K.Out0.lean ====
import proofs.«411766_j31920196944464_2_alg».proof.Proof.Gen.Kernel.Loops
import proofs.«411766_j31920196944464_2_alg».proof.Proof.Gather

set_option maxRecDepth 16384

noncomputable section

namespace Cert.Kernel.Hand

open Cert.Kernel Cert.Kernel.Gen
open Idealize.ShloMosaic Idealize.ShloMosaic.TcCoe

variable {F : FTy → Type} [FloatOps F]

def gath0 (i : grid0.Coords) (tbl : Vec F S80000 .i32) (x : Vec F S20000x256 .f32) (g : ℕ) : Vec F S16x256 .f32 :=
  Gather.gath (i 0).val tbl x g

def pcs0 (i : grid0.Coords) (tbl : Vec F S80000 .i32) (x : Vec F S20000x256 .f32) (n : ℕ) : List (View.Piece (Elt F) S800x256 .f32) :=
  Gather.pcs k0_off48 k0_off48_inb (i 0).val tbl x n

theorem pcs0_succ (i : grid0.Coords) (tbl : Vec F S80000 .i32) (x : Vec F S20000x256 .f32) (g : Fin k0_t1_loop.trips) :
    pcs0 i tbl x (g.val + 1)
      = ⟨Rect.unit (s := S800x256) (k0_off48 g) S16x256.size (k0_off48_inb g), gath0 i tbl x g.val⟩ :: pcs0 i tbl x g.val :=
  Gather.pcs_succ k0_off48 k0_off48_inb (i 0).val tbl x g

def loopArr0 (i : grid0.Coords) (tbl : Vec F S80000 .i32) (x : Vec F S20000x256 .f32) : Vec F S800x256 .f32 :=
  Gather.loopArr k0_off48 k0_off48_inb (i 0).val tbl x

def outBlk0 (i : grid0.Coords) (tbl : Vec F S80000 .i32) (x : Vec F S20000x256 .f32) (v : Vec F S800x1 .f32) : Vec F S800x256 .f32 :=
  k0_pay1 (loopArr0 i tbl x) v

theorem trips0 : k0_t1_loop.trips = 50 := by decide

theorem cover_pcs0 (i : grid0.Coords) (tbl : Vec F S80000 .i32) (x : Vec F S20000x256 .f32) :
    ∀ y : S800x256.Idx, ∃ p ∈ pcs0 i tbl x k0_t1_loop.trips, y ∈ p.1.set :=
  Gather.cover_pcs k0_off48 k0_off48_inb k0_off48_eq trips0 (i 0).val tbl x

end Cert.Kernel.Hand

end
-- ==== Proof.K.Rows5.lean ====
import proofs.«411766_j31920196944464_2_alg».proof.Proof.Gen.Kernel.Loops
import Idealize.ShloMosaic.Lib.Writes
import Idealize.ShloMosaic.Lib.ValueIdx

set_option maxRecDepth 16384

noncomputable section

namespace Cert.Kernel.Hand

open Cert.Kernel Cert.Kernel.Gen
open Idealize.ShloMosaic Idealize.ShloMosaic.TcCoe

variable {F : FTy → Type} [FloatOps F]

theorem row5_inb (k : Fin 16) : ∀ a, (![k.val, 0] : Fin 2 → Nat) a + S1x256.size a ≤ S16x256.size a := by
  intro a
  match a with
  | ⟨0, _⟩ => show k.val + 1 ≤ 16; omega
  | ⟨1, _⟩ => show 0 + 256 ≤ 256; omega

def row5 (arg5 : Memref sig .tc .vmem S16x256 .f32) (k : Fin 16) : Memref sig .tc .vmem S256 .f32 :=
  (arg5.slice (Rect.unit (s := S16x256) ![k.val, 0] S1x256.size (row5_inb k)) (fun _ => rfl)).squeeze S256 squeezes_S1x256_S256

theorem mem_rowRect5 (k : Fin 16) (x : S16x256.Idx) :
    x ∈ (Rect.unit (s := S16x256) ![k.val, 0] S1x256.size (row5_inb k)).set ↔ (x 0).val = k.val := by
  rw [Rect.mem_set_unit]
  constructor
  · intro h
    have h0 := h 0
    change k.val ≤ (x 0).val ∧ (x 0).val < k.val + 1 at h0
    omega
  · intro h a
    match a with
    | ⟨0, _⟩ => show k.val ≤ (x 0).val ∧ (x 0).val < k.val + 1; omega
    | ⟨1, _⟩ =>
      show 0 ≤ (x 1).val ∧ (x 1).val < 0 + 256
      have := (x 1).isLt; change (x 1).val < 256 at this; omega

theorem row5_set (arg5 : Memref sig .tc .vmem S16x256 .f32) (k : Fin 16) :
    (row5 arg5 k).view.set = (Rect.unit (s := S16x256) ![k.val, 0] S1x256.size (row5_inb k)).set.map arg5.view.emb := by
  show ((arg5.view.slice (Rect.unit (s := S16x256) ![k.val, 0] S1x256.size (row5_inb k))).reshape S256 _).set = _
  rw [View.set_reshape, View.set_slice]

theorem row5_cover (arg5 : Memref sig .tc .vmem S16x256 .f32) :
    arg5.view.set = Finset.univ.biUnion (fun k : Fin 16 => (row5 arg5 k).view.set) := by
  ext i
  constructor
  · intro hi
    obtain ⟨x, -, rfl⟩ := Finset.mem_map.mp hi
    refine Finset.mem_biUnion.mpr ⟨(x 0 : Fin 16), Finset.mem_univ _, ?_⟩
    exact (row5_set arg5 (x 0 : Fin 16)).symm ▸ Finset.mem_map.mpr ⟨x, (mem_rowRect5 _ x).mpr rfl, rfl⟩
  · intro hi
    obtain ⟨k, -, hk⟩ := Finset.mem_biUnion.mp hi
    have hk' := (row5_set arg5 k) ▸ hk
    obtain ⟨x, -, rfl⟩ := Finset.mem_map.mp hk'
    exact Finset.mem_map.mpr ⟨x, Finset.mem_univ _, rfl⟩

theorem row5_disj (arg5 : Memref sig .tc .vmem S16x256 .f32) :
    ∀ k k' : Fin 16, k ≠ k' → Disjoint (row5 arg5 k).view.set (row5 arg5 k').view.set := by
  intro k k' hkk
  rw [row5_set, row5_set]
  refine Finset.disjoint_left.mpr fun i hi hi' => hkk ?_
  obtain ⟨x, hx, rfl⟩ := Finset.mem_map.mp hi
  obtain ⟨x', hx', hxx⟩ := Finset.mem_map.mp hi'
  have e : x' = x := arg5.view.emb.injective hxx
  subst e
  exact Fin.ext (((mem_rowRect5 k x').mp hx).symm.trans ((mem_rowRect5 k' x').mp hx'))

theorem row5_emb (arg5 : Memref sig .tc .vmem S16x256 .f32) (k : Fin 16) (d : Fin 256) :
    (row5 arg5 k).view.emb (ValueIdx.ix1 d) = arg5.view.emb (ValueIdx.ix2 k d) := by
  show arg5.view.emb ((Rect.unit (s := S16x256) ![k.val, 0] S1x256.size (row5_inb k)).emb
      (Shape.reshapeEquiv (squeezes_S1x256_S256).numel_eq (ValueIdx.ix1 d))) = _
  have e : Shape.reshapeEquiv (squeezes_S1x256_S256).numel_eq (ValueIdx.ix1 d) = (ValueIdx.ix2 (0 : Fin 1) d : S1x256.Idx) :=
    Shape.reshapeEquiv_eq_of_rowMajor _ (by
      rw [Shape.rowMajor_val_one, Shape.rowMajor_val_two]
      show 0 * 256 + d.val = d.val
      omega)
  rw [e]
  congr 1
  funext a
  apply Fin.ext
  rw [Rect.emb_apply]
  match a with
  | ⟨0, _⟩ => show k.val + 1 * 0 = k.val; omega
  | ⟨1, _⟩ => show 0 + 1 * d.val = d.val; omega

theorem cast_cast_id5 {α β : Type} (h2 : α = β) (h1 : β = α) (x : α) : _root_.cast h1 (_root_.cast h2 x) = x := by
  cases h2; rfl

theorem row5_read (arg5 : Memref sig .tc .vmem S16x256 .f32) (f g : arg5.view.ty.Contents (Elt F)) (p : Fin 16 → S256.Idx → Elt F .f32)
    (h : ∀ k, ∀ i ∈ (row5 arg5 k).view.set, g i = (row5 arg5 k).view.writes (Elt F) f [⟨Rect.whole S256, p k⟩] i) :
    ∀ (k : Fin 16) (d : Fin 256), arg5.view.read (Elt F) g (ValueIdx.ix2 k d) = p k (ValueIdx.ix1 d) := by
  intro k d
  have hm : (row5 arg5 k).view.emb (ValueIdx.ix1 d) ∈ (row5 arg5 k).view.set :=
    Finset.mem_map.mpr ⟨_, Finset.mem_univ _, rfl⟩
  have hg := h k _ hm
  have hw : (row5 arg5 k).view.writes (Elt F) f [⟨Rect.whole S256, p k⟩] ((row5 arg5 k).view.emb (ValueIdx.ix1 d))
      = _root_.cast (congrArg (Elt F) (row5 arg5 k).view.elt_eq.symm) (p k (ValueIdx.ix1 d)) := by
    have hw0 := View.write_emb_of_mem (Val := Elt F) (v := (row5 arg5 k).view.slice (Rect.whole S256)) f (p k) (M := Finset.univ)
      (Finset.mem_univ (ValueIdx.ix1 d))
    have he : ((row5 arg5 k).view.slice (Rect.whole S256)).emb (ValueIdx.ix1 d) = (row5 arg5 k).view.emb (ValueIdx.ix1 d) :=
      congrArg (row5 arg5 k).view.emb (Rect.emb_whole_apply S256 (ValueIdx.ix1 d))
    exact he ▸ hw0
  have e1 : arg5.view.read (Elt F) g (ValueIdx.ix2 k d)
      = _root_.cast (congrArg (Elt F) arg5.view.elt_eq) (g (arg5.view.emb (ValueIdx.ix2 k d))) := rfl
  rw [e1, ← row5_emb arg5 k d, hg, hw]
  exact cast_cast_id5 _ _ _

end Cert.Kernel.Hand

end
-- ==== Proof.K.Rows5b.lean ====
import proofs.«411766_j31920196944464_2_alg».proof.Proof.K.Rows5

set_option maxRecDepth 16384

noncomputable section

namespace Cert.Kernel.Hand

open Cert.Kernel Cert.Kernel.Gen
open Idealize.ShloMosaic Idealize.ShloMosaic.TcCoe

variable {F : FTy → Type} [FloatOps F]

theorem srcRow_emb (arg2 : Memref sig .tc .vmem S20000x256 .f32) (r : ℕ)
    (hin : ∀ a, (![r, 0] : Fin 2 → ℕ) a + S1x256.size a ≤ S20000x256.size a) (hr : r < 20000) (d : Fin 256) :
    ((arg2.slice (Rect.unit (s := S20000x256) ![r, 0] S1x256.size hin) (fun _ => rfl)).squeeze S256 squeezes_S1x256_S256).view.emb (ValueIdx.ix1 d)
      = arg2.view.emb (ValueIdx.ix2 (⟨r, hr⟩ : Fin 20000) d) := by
  show arg2.view.emb ((Rect.unit (s := S20000x256) ![r, 0] S1x256.size hin).emb
      (Shape.reshapeEquiv (squeezes_S1x256_S256).numel_eq (ValueIdx.ix1 d))) = _
  have e : Shape.reshapeEquiv (squeezes_S1x256_S256).numel_eq (ValueIdx.ix1 d) = (ValueIdx.ix2 (0 : Fin 1) d : S1x256.Idx) :=
    Shape.reshapeEquiv_eq_of_rowMajor _ (by
      rw [Shape.rowMajor_val_one, Shape.rowMajor_val_two]
      show 0 * 256 + d.val = d.val
      omega)
  rw [e]
  congr 1
  funext a
  apply Fin.ext
  rw [Rect.emb_apply]
  match a with
  | ⟨0, _⟩ => show r + 1 * 0 = r; omega
  | ⟨1, _⟩ => show 0 + 1 * d.val = d.val; omega

theorem srcRow_read (arg2 : Memref sig .tc .vmem S20000x256 .f32) (fx : arg2.view.ty.Contents (Elt F)) (r : ℕ)
    (hin : ∀ a, (![r, 0] : Fin 2 → ℕ) a + S1x256.size a ≤ S20000x256.size a) (d : Fin 256) :
    View.read (Elt F) ((arg2.slice (Rect.unit (s := S20000x256) ![r, 0] S1x256.size hin) (fun _ => rfl)).squeeze S256 squeezes_S1x256_S256).view fx (ValueIdx.ix1 d)
      = arg2.view.read (Elt F) fx (ValueIdx.ix2 (Fin.ofNat 20000 r) (Fin.ofNat 256 d.val)) := by
  have hr : r < 20000 := by have := hin 0; change r + 1 ≤ 20000 at this; omega
  have e1 : (Fin.ofNat 20000 r : Fin 20000) = ⟨r, hr⟩ := Fin.ext (Nat.mod_eq_of_lt hr)
  have e2 : (Fin.ofNat 256 d.val : Fin 256) = d := Fin.ext (Nat.mod_eq_of_lt d.isLt)
  rw [e1, e2]
  have hL : View.read (Elt F) ((arg2.slice (Rect.unit (s := S20000x256) ![r, 0] S1x256.size hin) (fun _ => rfl)).squeeze S256 squeezes_S1x256_S256).view fx (ValueIdx.ix1 d)
      = _root_.cast (congrArg (Elt F) arg2.view.elt_eq)
          (fx (((arg2.slice (Rect.unit (s := S20000x256) ![r, 0] S1x256.size hin) (fun _ => rfl)).squeeze S256 squeezes_S1x256_S256).view.emb (ValueIdx.ix1 d))) := rfl
  have hR : arg2.view.read (Elt F) fx (ValueIdx.ix2 (⟨r, hr⟩ : Fin 20000) d)
      = _root_.cast (congrArg (Elt F) arg2.view.elt_eq) (fx (arg2.view.emb (ValueIdx.ix2 (⟨r, hr⟩ : Fin 20000) d))) := rfl
  rw [hL, hR, srcRow_emb arg2 r hin hr d]

theorem word_read (arg1 : Memref sig .tc .smem S80000 .i32) (ft : arg1.view.ty.Contents (Elt F)) (n : ℕ)
    (hoff : ∀ a, (![n] : Fin 1 → ℕ) a + S1.size a ≤ S80000.size a) (hlt : n < 80000)
    (j0 : (Rect.unit (s := S80000) ![n] S1.size hoff).toLoadRect.shape.Idx) :
    View.readAt (Elt F) arg1.view (Rect.unit (s := S80000) ![n] S1.size hoff).toLoadRect ft j0
      = arg1.view.read (Elt F) ft (ValueIdx.ix1 (Fin.ofNat 80000 n)) := by
  rw [View.readAt_apply]
  congr 1
  funext a
  apply Fin.ext
  match a with
  | ⟨0, _⟩ =>
    show n + 1 * ((j0 : S1.Idx) 0).val = n % 80000
    have h0 : ((j0 : S1.Idx) 0).val < 1 := ((j0 : S1.Idx) 0).isLt
    rw [Nat.mod_eq_of_lt hlt]; omega

theorem row_payload (arg1 : Memref sig .tc .smem S80000 .i32) (arg2 : Memref sig .tc .vmem S20000x256 .f32) (c : Dev nD)
    (ft : Buf (Elt F) (arg1.view.loc (c : Thread nD τ))) (fx : Buf (Elt F) (arg2.view.loc (c : Thread nD τ)))
    (off : Fin 1 → ℕ) (hoff : ∀ a, off a + S1.size a ≤ S80000.size a) (n : ℕ) (hn : off = ![n]) (hlt : n < 80000)
    (j0 : (Rect.unit (s := S80000) off S1.size hoff).toLoadRect.shape.Idx)
    (hin : ∀ a, (![(View.readAt (Elt F) arg1.view (Rect.unit (s := S80000) off S1.size hoff).toLoadRect ft j0).toNat, 0] : Fin 2 → ℕ) a + S1x256.size a ≤ S20000x256.size a)
    (d : Fin 256) :
    ReadAs.same.apply (View.read (Elt F) ((arg2.slice (Rect.unit (s := S20000x256) ![(View.readAt (Elt F) arg1.view (Rect.unit (s := S80000) off S1.size hoff).toLoadRect ft j0).toNat, 0] S1x256.size hin) (fun _ => rfl)).squeeze S256 squeezes_S1x256_S256).view fx) (ValueIdx.ix1 d)
      = arg2.view.read (Elt F) fx (ValueIdx.ix2 (Fin.ofNat 20000 (arg1.view.read (Elt F) ft (ValueIdx.ix1 (Fin.ofNat 80000 n))).toNat) (Fin.ofNat 256 d.val)) := by
  subst hn
  refine (srcRow_read arg2 fx _ hin d).trans ?_
  rw [word_read arg1 ft n hoff hlt j0]

theorem scratch_reads (arg5 : Memref sig .tc .vmem S16x256 .f32) (c : Dev nD)
    (f5 g5 : Buf (Elt F) (arg5.view.loc (c : Thread nD τ))) (P : Fin 16 → S256.Idx → Elt F .f32)
    (hg5 : ∀ k ∈ (Finset.univ : Finset (Fin 16)), ∀ i ∈ (row5 arg5 k).view.set, g5 i = (row5 arg5 k).view.writes (Elt F) f5 [⟨Rect.whole S256, P k⟩] i)
    (X : Vec F S16x256 .f32) (hP : ∀ (k : Fin 16) (d : Fin 256), P k (ValueIdx.ix1 d) = X (ValueIdx.ix2 k d))
    (h : ∀ a, (![0, 0] : Fin 2 → ℕ) a + S16x256.size a ≤ S16x256.size a) :
    arg5.view.readAt (Elt F) (Rect.unit (s := S16x256) ![0, 0] S16x256.size h).toLoadRect g5 = X := by
  refine funext fun (j : S16x256.Idx) => ?_
  obtain ⟨k, d, rfl⟩ : ∃ (k : Fin 16) (d : Fin 256), j = ValueIdx.ix2 k d := ⟨j 0, j 1, ValueIdx.eq_ix2 j⟩
  rw [View.readAt_apply]
  have ej : (Rect.unit (s := S16x256) ![0, 0] S16x256.size h).toLoadRect.idx (ValueIdx.ix2 k d) = (ValueIdx.ix2 k d : S16x256.Idx) := by
    funext a
    apply Fin.ext
    match a with
    | ⟨0, _⟩ => show 0 + 1 * k.val = k.val; omega
    | ⟨1, _⟩ => show 0 + 1 * d.val = d.val; omega
  rw [ej]
  exact (row5_read arg5 f5 g5 P (fun k => hg5 k (Finset.mem_univ k)) k d).trans (hP k d)

end Cert.Kernel.Hand

end
-- ==== Proof.K.Rows5c.lean ====
import proofs.«411766_j31920196944464_2_alg».proof.Proof.K.Rows5
import Idealize.ShloMosaic.Lib.Pipeline.Frame
import Idealize.ShloMosaic.Lib.Pipeline.Kit
import Idealize.ShloMosaic.Rules.PointsTo

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem row_inb (w : BitVec 32) (hw : w.toNat < 20000) :
    ∀ a, (![w.toNat, 0] : Fin 2 → Nat) a + S1x256.size a ≤ S20000x256.size a := by
  intro a; fin_cases a
  · show w.toNat + 1 ≤ 20000; omega
  · show 0 + 256 ≤ 256; omega

/-- A word below 20000 is a row index within the 20000 × 256 array (the side condition states it twice). -/
theorem row_inb2 (w : BitVec 32) (hw : w.toNat < 20000) :
    (∀ a, (![w.toNat, 0] : Fin 2 → Nat) a + S1x256.size a ≤ S20000x256.size a)
      ∧ ∀ a, (![w.toNat, 0] : Fin 2 → Nat) a + S1x256.size a ≤ S20000x256.size a :=
  ⟨row_inb w hw, row_inb w hw⟩

abbrev rowPt5 (c : Dev nD) (arg5 : Memref sig .tc .vmem S16x256 .f32) (k : Fin 16) (f : Buf (Elt F) ((row5 arg5 k).view.loc (c : Thread nD τ))) : sProp 𝕄 :=
  (row5 arg5 k).view.loc (c : Thread nD τ) ↦[(row5 arg5 k).view.set]{fullShare} f

theorem split5 (c : Dev nD) (arg5 : Memref sig .tc .vmem S16x256 .f32) (f5 : Buf (Elt F) (arg5.view.loc (c : Thread nD τ))) :
    (arg5.view.loc (c : Thread nD τ) ↦[arg5.view.set]{fullShare} f5 : sProp 𝕄)
      ⊢ iprop(rowPt5 c arg5 0 f5 ∗ rowPt5 c arg5 1 f5 ∗ rowPt5 c arg5 2 f5 ∗ rowPt5 c arg5 3 f5 ∗ rowPt5 c arg5 4 f5 ∗ rowPt5 c arg5 5 f5 ∗ rowPt5 c arg5 6 f5 ∗ rowPt5 c arg5 7 f5 ∗ rowPt5 c arg5 8 f5 ∗ rowPt5 c arg5 9 f5 ∗ rowPt5 c arg5 10 f5 ∗ rowPt5 c arg5 11 f5 ∗ rowPt5 c arg5 12 f5 ∗ rowPt5 c arg5 13 f5 ∗ rowPt5 c arg5 14 f5 ∗ rowPt5 c arg5 15 f5) := by
  have h := pointsTo_biUnion (Ix := Unit) (Name := ℕ) (U := Pipeline.UD sig nD τ) (Lvl := ℕ) (q := fullShare) (ℓ := arg5.view.loc (c : Thread nD τ)) (f := f5) Finset.univ (fun k : Fin 16 => (row5 arg5 k).view.set)
    (fun k _ k' _ h => row5_disj arg5 k k' h)
  rw [← row5_cover arg5, BI.bigSep_univ_eq_bigSepL [0, 1, 2, 3, 4, 5, 6, 7, 8, 9, 10, 11, 12, 13, 14, 15] (by decide) (by decide)] at h
  exact h ▸ BI.Entails.refl _

theorem join5 (c : Dev nD) (arg5 : Memref sig .tc .vmem S16x256 .f32) (f5 : Buf (Elt F) (arg5.view.loc (c : Thread nD τ))) (p0 p1 p2 p3 p4 p5 p6 p7 p8 p9 p10 p11 p12 p13 p14 p15 : S256.Idx → Elt F .f32) :
    iprop(rowPt5 c arg5 0 ((row5 arg5 0).view.writes (Elt F) f5 [⟨Rect.whole S256, p0⟩]) ∗ rowPt5 c arg5 1 ((row5 arg5 1).view.writes (Elt F) f5 [⟨Rect.whole S256, p1⟩]) ∗ rowPt5 c arg5 2 ((row5 arg5 2).view.writes (Elt F) f5 [⟨Rect.whole S256, p2⟩]) ∗ rowPt5 c arg5 3 ((row5 arg5 3).view.writes (Elt F) f5 [⟨Rect.whole S256, p3⟩]) ∗ rowPt5 c arg5 4 ((row5 arg5 4).view.writes (Elt F) f5 [⟨Rect.whole S256, p4⟩]) ∗ rowPt5 c arg5 5 ((row5 arg5 5).view.writes (Elt F) f5 [⟨Rect.whole S256, p5⟩]) ∗ rowPt5 c arg5 6 ((row5 arg5 6).view.writes (Elt F) f5 [⟨Rect.whole S256, p6⟩]) ∗ rowPt5 c arg5 7 ((row5 arg5 7).view.writes (Elt F) f5 [⟨Rect.whole S256, p7⟩]) ∗ rowPt5 c arg5 8 ((row5 arg5 8).view.writes (Elt F) f5 [⟨Rect.whole S256, p8⟩]) ∗ rowPt5 c arg5 9 ((row5 arg5 9).view.writes (Elt F) f5 [⟨Rect.whole S256, p9⟩]) ∗ rowPt5 c arg5 10 ((row5 arg5 10).view.writes (Elt F) f5 [⟨Rect.whole S256, p10⟩]) ∗ rowPt5 c arg5 11 ((row5 arg5 11).view.writes (Elt F) f5 [⟨Rect.whole S256, p11⟩]) ∗ rowPt5 c arg5 12 ((row5 arg5 12).view.writes (Elt F) f5 [⟨Rect.whole S256, p12⟩]) ∗ rowPt5 c arg5 13 ((row5 arg5 13).view.writes (Elt F) f5 [⟨Rect.whole S256, p13⟩]) ∗ rowPt5 c arg5 14 ((row5 arg5 14).view.writes (Elt F) f5 [⟨Rect.whole S256, p14⟩]) ∗ rowPt5 c arg5 15 ((row5 arg5 15).view.writes (Elt F) f5 [⟨Rect.whole S256, p15⟩]))
      ⊢ (iprop(∃ g, ⌜∀ k ∈ (Finset.univ : Finset (Fin 16)), ∀ i ∈ (row5 arg5 k).view.set, g i = (row5 arg5 k).view.writes (Elt F) f5 [⟨Rect.whole S256, (![p0, p1, p2, p3, p4, p5, p6, p7, p8, p9, p10, p11, p12, p13, p14, p15] : Fin 16 → S256.Idx → Elt F .f32) k⟩] i⌝
            ∗ (arg5.view.loc (c : Thread nD τ) ↦[arg5.view.set]{fullShare} g)) : sProp 𝕄) := by
  have h := pointsTo_biUnion_join (Ix := Unit) (Name := ℕ) (U := Pipeline.UD sig nD τ) (Lvl := ℕ) (q := fullShare) (ℓ := arg5.view.loc (c : Thread nD τ)) Finset.univ (fun k : Fin 16 => (row5 arg5 k).view.set)
    (fun k => (row5 arg5 k).view.writes (Elt F) f5 [⟨Rect.whole S256, (![p0, p1, p2, p3, p4, p5, p6, p7, p8, p9, p10, p11, p12, p13, p14, p15] : Fin 16 → S256.Idx → Elt F .f32) k⟩]) f5 (fun k _ k' _ h => row5_disj arg5 k k' h)
  rw [← row5_cover arg5, BI.bigSep_univ_eq_bigSepL [0, 1, 2, 3, 4, 5, 6, 7, 8, 9, 10, 11, 12, 13, 14, 15] (by decide) (by decide)] at h
  exact BI.Entails.trans (BI.Entails.refl _) h

end Cert.Kernel.Hand

end
-- ==== Proof.K.Body0.lean ====
import proofs.«411766_j31920196944464_2_alg».proof.Proof.K.Out0
import proofs.«411766_j31920196944464_2_alg».proof.Proof.K.Rows5
import proofs.«411766_j31920196944464_2_alg».proof.Proof.K.Rows5b
import proofs.«411766_j31920196944464_2_alg».proof.Proof.K.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems0 (c : Dev nD) : sProp 𝕄 :=
  iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0
    ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0
    ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0)

abbrev tok0 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks0 (c : Dev nD) (arg2 : Memref sig .tc .vmem S20000x256 .f32) (fx : Buf (Elt F) (arg2.view.loc (c : Thread nD τ))) : sProp 𝕄 :=
  iprop(tok0 c arg2 fx 5 ∗ tok0 c arg2 fx 6 ∗ tok0 c arg2 fx 7 ∗ tok0 c arg2 fx 8 ∗ tok0 c arg2 fx 9 ∗ tok0 c arg2 fx 10 ∗ tok0 c arg2 fx 11 ∗ tok0 c arg2 fx 12
    ∗ tok0 c arg2 fx 13 ∗ tok0 c arg2 fx 14 ∗ tok0 c arg2 fx 15 ∗ tok0 c arg2 fx 16 ∗ tok0 c arg2 fx 17 ∗ tok0 c arg2 fx 18 ∗ tok0 c arg2 fx 19 ∗ tok0 c arg2 fx 20)

def k0_inv (c : Dev nD) (i : grid0.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks0 c arg2 fx
    ∗ (arg4.view.loc (c : Thread nD τ) ↦[arg4.view.set]{fullShare}
        arg4.view.writes (Elt F) f4 (pcs0 i (arg1.view.read (Elt F) ft) (arg2.view.read (Elt F) fx) n))
    ∗ (∃ f5, arg5.view.loc (c : Thread nD τ) ↦[arg5.view.set]{fullShare} f5)
    ∗ sems0 c ∗ (∃ W, owes (c : Thread nD τ) 0 W))

set_option maxHeartbeats 8000000 in

theorem k0_trip (c : Dev nD) (i : grid0.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k0_t1_loop.trips) (acc : Unit) :
    k0_inv c i arg1 arg2 arg4 arg5 q ft fx f4 g.val acc
      ⊢ wp frame (wpE (defs₀ (F := F)) Variants.none c none) Set.univ
          (k0_t1_body i arg1 harg1 arg2 harg2 arg3 harg3 arg4 harg4 arg5 harg5 cc0_scratch1 (Scalar.muli (BitVec.ofNat 32 (i 0).val) 800#32) g acc)
          (k0_inv c i arg1 arg2 arg4 arg5 q ft fx f4 (g.val + 1)) := by
  unfold k0_inv k0_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k0_chk1 (arg1.view.readAt (Elt F) (Rect.unit (s := S80000) (k0_off1 i g) S1.size (k0_off1_inb i g)).toLoadRect ft (Shape.Idx.first (numel1_S1.symm ▸ Nat.one_pos))) := row_inb2 _ (htbl _)
  have hc2 : k0_chk2 (arg1.view.readAt (Elt F) (Rect.unit (s := S80000) (k0_off3 i g) S1.size (k0_off3_inb i g)).toLoadRect ft (Shape.Idx.first (numel1_S1.symm ▸ Nat.one_pos))) := row_inb2 _ (htbl _)
  have hc3 : k0_chk3 (arg1.view.readAt (Elt F) (Rect.unit (s := S80000) (k0_off5 i g) S1.size (k0_off5_inb i g)).toLoadRect ft (Shape.Idx.first (numel1_S1.symm ▸ Nat.one_pos))) := row_inb2 _ (htbl _)
  have hc4 : k0_chk4 (arg1.view.readAt (Elt F) (Rect.unit (s := S80000) (k0_off7 i g) S1.size (k0_off7_inb i g)).toLoadRect ft (Shape.Idx.first (numel1_S1.symm ▸ Nat.one_pos))) := row_inb2 _ (htbl _)
  have hc5 : k0_chk5 (arg1.view.readAt (Elt F) (Rect.unit (s := S80000) (k0_off9 i g) S1.size (k0_off9_inb i g)).toLoadRect ft (Shape.Idx.first (numel1_S1.symm ▸ Nat.one_pos))) := row_inb2 _ (htbl _)
  have hc6 : k0_chk6 (arg1.view.readAt (Elt F) (Rect.unit (s := S80000) (k0_off11 i g) S1.size (k0_off11_inb i g)).toLoadRect ft (Shape.Idx.first (numel1_S1.symm ▸ Nat.one_pos))) := row_inb2 _ (htbl _)
  have hc7 : k0_chk7 (arg1.view.readAt (Elt F) (Rect.unit (s := S80000) (k0_off13 i g) S1.size (k0_off13_inb i g)).toLoadRect ft (Shape.Idx.first (numel1_S1.symm ▸ Nat.one_pos))) := row_inb2 _ (htbl _)
  have hc8 : k0_chk8 (arg1.view.readAt (Elt F) (Rect.unit (s := S80000) (k0_off15 i g) S1.size (k0_off15_inb i g)).toLoadRect ft (Shape.Idx.first (numel1_S1.symm ▸ Nat.one_pos))) := row_inb2 _ (htbl _)
  have hc9 : k0_chk9 (arg1.view.readAt (Elt F) (Rect.unit (s := S80000) (k0_off17 i g) S1.size (k0_off17_inb i g)).toLoadRect ft (Shape.Idx.first (numel1_S1.symm ▸ Nat.one_pos))) := row_inb2 _ (htbl _)
  have hc10 : k0_chk10 (arg1.view.readAt (Elt F) (Rect.unit (s := S80000) (k0_off19 i g) S1.size (k0_off19_inb i g)).toLoadRect ft (Shape.Idx.first (numel1_S1.symm ▸ Nat.one_pos))) := row_inb2 _ (htbl _)
  have hc11 : k0_chk11 (arg1.view.readAt (Elt F) (Rect.unit (s := S80000) (k0_off21 i g) S1.size (k0_off21_inb i g)).toLoadRect ft (Shape.Idx.first (numel1_S1.symm ▸ Nat.one_pos))) := row_inb2 _ (htbl _)
  have hc12 : k0_chk12 (arg1.view.readAt (Elt F) (Rect.unit (s := S80000) (k0_off23 i g) S1.size (k0_off23_inb i g)).toLoadRect ft (Shape.Idx.first (numel1_S1.symm ▸ Nat.one_pos))) := row_inb2 _ (htbl _)
  have hc13 : k0_chk13 (arg1.view.readAt (Elt F) (Rect.unit (s := S80000) (k0_off25 i g) S1.size (k0_off25_inb i g)).toLoadRect ft (Shape.Idx.first (numel1_S1.symm ▸ Nat.one_pos))) := row_inb2 _ (htbl _)
  have hc14 : k0_chk14 (arg1.view.readAt (Elt F) (Rect.unit (s := S80000) (k0_off27 i g) S1.size (k0_off27_inb i g)).toLoadRect ft (Shape.Idx.first (numel1_S1.symm ▸ Nat.one_pos))) := row_inb2 _ (htbl _)
  have hc15 : k0_chk15 (arg1.view.readAt (Elt F) (Rect.unit (s := S80000) (k0_off29 i g) S1.size (k0_off29_inb i g)).toLoadRect ft (Shape.Idx.first (numel1_S1.symm ▸ Nat.one_pos))) := row_inb2 _ (htbl _)
  have hc16 : k0_chk16 (arg1.view.readAt (Elt F) (Rect.unit (s := S80000) (k0_off31 i g) S1.size (k0_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k0_trip.sl.dma1 c i arg1 arg2 ft fx g hc1) (k0_trip.sl.dma2 c i arg1 arg2 ft fx g hc2) (k0_trip.sl.dma3 c i arg1 arg2 ft fx g hc3) (k0_trip.sl.dma4 c i arg1 arg2 ft fx g hc4) (k0_trip.sl.dma5 c i arg1 arg2 ft fx g hc5) (k0_trip.sl.dma6 c i arg1 arg2 ft fx g hc6) (k0_trip.sl.dma7 c i arg1 arg2 ft fx g hc7) (k0_trip.sl.dma8 c i arg1 arg2 ft fx g hc8) (k0_trip.sl.dma9 c i arg1 arg2 ft fx g hc9) (k0_trip.sl.dma10 c i arg1 arg2 ft fx g hc10) (k0_trip.sl.dma11 c i arg1 arg2 ft fx g hc11) (k0_trip.sl.dma12 c i arg1 arg2 ft fx g hc12) (k0_trip.sl.dma13 c i arg1 arg2 ft fx g hc13) (k0_trip.sl.dma14 c i arg1 arg2 ft fx g hc14) (k0_trip.sl.dma15 c i arg1 arg2 ft fx g hc15) (k0_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath0 i (arg1.view.read (Elt F) ft) (arg2.view.read (Elt F) fx) g.val :=
    scratch_reads arg5 c f5 g5 _ hg5 _ (fun k d => by
      have hi : (i 0).val < 100 := (i 0).isLt
      have hg : g.val < 50 := trips0 ▸ g.isLt
      fin_cases k
      · exact row_payload arg1 arg2 c ft fx _ _ _ (k0_off1_eq i g) (by omega) _ _ d
      · exact row_payload arg1 arg2 c ft fx _ _ _ (k0_off3_eq i g) (by omega) _ _ d
      · exact row_payload arg1 arg2 c ft fx _ _ _ (k0_off5_eq i g) (by omega) _ _ d
      · exact row_payload arg1 arg2 c ft fx _ _ _ (k0_off7_eq i g) (by omega) _ _ d
      · exact row_payload arg1 arg2 c ft fx _ _ _ (k0_off9_eq i g) (by omega) _ _ d
      · exact row_payload arg1 arg2 c ft fx _ _ _ (k0_off11_eq i g) (by omega) _ _ d
      · exact row_payload arg1 arg2 c ft fx _ _ _ (k0_off13_eq i g) (by omega) _ _ d
      · exact row_payload arg1 arg2 c ft fx _ _ _ (k0_off15_eq i g) (by omega) _ _ d
      · exact row_payload arg1 arg2 c ft fx _ _ _ (k0_off17_eq i g) (by omega) _ _ d
      · exact row_payload arg1 arg2 c ft fx _ _ _ (k0_off19_eq i g) (by omega) _ _ d
      · exact row_payload arg1 arg2 c ft fx _ _ _ (k0_off21_eq i g) (by omega) _ _ d
      · exact row_payload arg1 arg2 c ft fx _ _ _ (k0_off23_eq i g) (by omega) _ _ d
      · exact row_payload arg1 arg2 c ft fx _ _ _ (k0_off25_eq i g) (by omega) _ _ d
      · exact row_payload arg1 arg2 c ft fx _ _ _ (k0_off27_eq i g) (by omega) _ _ d
      · exact row_payload arg1 arg2 c ft fx _ _ _ (k0_off29_eq i g) (by omega) _ _ d
      · exact row_payload arg1 arg2 c ft fx _ _ _ (k0_off31_eq i g) (by omega) _ _ d
      ) _
  sl_exec
  sl_step
  rw [pcs0_succ, View.writes_cons]
  unfold k0_trip.sl.H4_w1
  sl_close

set_option maxHeartbeats 4000000 in

theorem sound_kernel0 (c : Dev nD) (i : grid0.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems0 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk0 i tbl x v) ∗ (∃ d, owns (c : Thread nD τ) arg5 fullShare d) ∗ sems0 c ∗ (∃ W', owes (c : Thread nD τ) 0 W')) -∗ K ⟨⟩))
      ⊢ wp frame (wpE (defs₀ (F := F)) Variants.none c none) Set.univ (cc0__gather_kernel i arg1 harg1 arg2 harg2 arg3 harg3 arg4 harg4 arg5 harg5 cc0_scratch1) K := by
  simp only [cc0__gather_kernel_eq_skeleton]; unfold cc0__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks0 c arg2 fx) := Cert.Toks.toks16_split _ _ _ _
  ihave H2' := htok.1 $$ H2
  icases H2' with ⟨HD, HT⟩
  sl_exec
  sl_for (k0_inv c i arg1 arg2 arg4 arg5 q ft fx f4) $$ [H1 HT H4 H5 HS HW]
  case region =>
    intro g acc
    exact k0_trip c i arg1 harg1 arg2 harg2 arg3 harg3 arg4 harg4 arg5 harg5 q ft fx htbl f4 g acc
  · unfold k0_inv
    isplitl [H1]; · iexact H1
    isplitl [HT]; · iexact HT
    isplitl [H4]; · iexact H4
    isplitl [H5]; · iexists _; iexact H5
    isplitl [HS]; · iexact HS
    iexists _; iexact HW
  iintro %acc HI; unfold k0_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs0 i tbl x (Scf.trips k0_t1_loop.lb k0_t1_loop.ub k0_t1_loop.st), y ∈ p.1.set :=
      cover_pcs0 i tbl x
    have h2 : arg4.view.readCov (pcs0 i tbl x (Scf.trips k0_t1_loop.lb k0_t1_loop.ub k0_t1_loop.st))
        (Rect.unit (s := S800x256) ![0, 0] S800x256.size inb_S800x256_S800x256_0_0).toLoadRect = loopArr0 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.Kernel.Hand

end
-- ==== Proof.K.Common.lean ====
import proofs.«411766_j31920196944464_2_alg».proof.Proof.Gen.Kernel.Launch
import Idealize.ShloMosaic.Lib.Pipeline.Kit
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

abbrev L : GSem nD τ sig → Finset Unit := fun _ => ∅
abbrev lv : GSem nD τ sig → Unit → ℕ := fun _ _ => 0

abbrev R (c : Dev nD) : sProp (MT nD τ sig Unit (Elt F) ℕ (Pipeline.UD sig nD τ) ℕ) :=
  iprop((∃ r, prngReg c r) ∗ ∃ W, owes (c : Thread nD τ) (0 : CellTallies nD τ sig Unit) W)

end Cert.Kernel.Hand

end
-- ==== Proof.K.Region0.lean ====
import proofs.«411766_j31920196944464_2_alg».proof.Proof.K.Body0
import proofs.«411766_j31920196944464_2_alg».proof.Proof.K.Common
import proofs.«411766_j31920196944464_2_alg».proof.Proof.Gen.Kernel.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg0 (F := F)).Adm)

def iblk0 (c : Dev nD) (w : Fin (cfg0 a0).W) (t : Fin (cfg0 a0).N) : (((cfg0 a0).win w).xblock ((cfg0 a0).grid.coords t)).Idx → Elt F ((cfg0 a0).win w).elt :=
  (((cfg0 a0).win w).blk t).view.read (Elt F) (Vd c (Pipeline.arrRef spec0 w))

abbrev osem0 : Fin 16 → SemLoc sig := fun k =>
  (![SemLoc.dma 5, SemLoc.dma 6, SemLoc.dma 7, SemLoc.dma 8, SemLoc.dma 9, SemLoc.dma 10, SemLoc.dma 11, SemLoc.dma 12,
     SemLoc.dma 13, SemLoc.dma 14, SemLoc.dma 15, SemLoc.dma 16, SemLoc.dma 17, SemLoc.dma 18, SemLoc.dma 19, SemLoc.dma 20] : Fin 16 → SemLoc sig) k

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄) = sems0 c := by
  rw [Pipeline.ownSems0_eq_of_list c osem0 [0, 1, 2, 3, 4, 5, 6, 7, 8, 9, 10, 11, 12, 13, 14, 15] (by decide) (by decide)]; rfl

theorem prefHeld0_eq (c : Dev nD) (pf : pre0.Contents (Elt F)) :
    (Pipeline.prefHeld (Ix := Unit) (Name := ℕ) (U := Pipeline.UD sig nD τ) (Lvl := ℕ) pre0 c (fun _ => fullShare) pf : sProp 𝕄)
      = owns (c : Thread nD τ) (Memref.whole main_v0) fullShare (pf 0) := by
  refine Eq.trans ?_ (owns_whole (c : Thread nD τ) main_v0 fullShare (pf 0)).symm
  unfold Pipeline.prefHeld
  exact bigSep_univ_eq_bigSepL [(0 : Fin 1)] (by decide) (by decide) _

theorem scratch0_eq (c : Dev nD) :
    (iprop(∃ f : Buf (Elt F) ((c : Thread nD τ).loc cc0_scratch0), ((c : Thread nD τ).loc cc0_scratch0) ↦{fullShare} f) : sProp 𝕄)
      = iprop(∃ d, owns (c : Thread nD τ) (Memref.whole cc0_scratch0) fullShare d) := by
  simp only [owns_whole]

def HCol0 : Prop := ∀ e, ((a0.1 0 : Vec F S80000 .i32) e).toNat < 20000

def Φ0 (c : Dev nD) : sProp 𝕄 :=
  iprop(Pipeline.ownSems0 osem0 c ∗ Pipeline.prefHeld pre0 c (fun _ => fullShare) a0.1 ∗ Pipeline.scopedRest spec0 c)

def dat0 (c : Dev nD) : Dat τ (Elt F) Unit ℕ (Pipeline.UD sig nD τ) ℕ (cfg0 a0) c where
  A w := Vd c (Pipeline.arrRef spec0 w)
  after w t := match w with
    | ⟨0, _⟩ => iblk0 Vd a0 c 0 t
    | ⟨1, _⟩ => iblk0 Vd a0 c 1 t
    | ⟨2, _⟩ => outBlk0 (grid0.coords t) (a0.1 0) (iblk0 Vd a0 c 0 t) (iblk0 Vd a0 c 1 t)
  Φ _ := Φ0 a0 c
  q _ := fullShare
  owed _ := 0

theorem A_eq0 (c : Dev nD) (w : Fin 3) : (dat0 Vd a0 c).A w = Vd c (Pipeline.arrRef spec0 w) := by
  dsimp only [dat0]

theorem after0_x (c : Dev nD) (t : Fin (cfg0 a0).N) : (dat0 Vd a0 c).after (0 : Fin 3) t = iblk0 Vd a0 c 0 t := by dsimp only [dat0]
theorem after0_val (c : Dev nD) (t : Fin (cfg0 a0).N) : (dat0 Vd a0 c).after (1 : Fin 3) t = iblk0 Vd a0 c 1 t := by dsimp only [dat0]
theorem after0_out (c : Dev nD) (t : Fin (cfg0 a0).N) :
    (dat0 Vd a0 c).after (2 : Fin 3) t = outBlk0 (grid0.coords t) (a0.1 0) (iblk0 Vd a0 c 0 t) (iblk0 Vd a0 c 1 t) := by dsimp only [dat0]

theorem before0_x (c : Dev nD) (t : Fin (cfg0 a0).N) (d) : (dat0 Vd a0 c).before 0 t d = iblk0 Vd a0 c 0 t := by
  refine ((dat0 Vd a0 c).before_in_eq_fetched 0 rfl (fun _ => rfl) (fun _ _ _ => rfl) (fun s => ?_) t d).trans ?_
  · rw [after0_x]; rfl
  · rfl
theorem before0_val (c : Dev nD) (t : Fin (cfg0 a0).N) (d) : (dat0 Vd a0 c).before 1 t d = iblk0 Vd a0 c 1 t := by
  refine ((dat0 Vd a0 c).before_in_eq_fetched 1 rfl (fun _ => rfl) (fun _ _ _ => rfl) (fun s => ?_) t d).trans ?_
  · rw [after0_val]; rfl
  · rfl

abbrev st0_x (t : Fin (cfg0 a0).N) := ((cfg0 a0).win 0).stage ((cfg0 a0).slots t 0)
abbrev st0_val (t : Fin (cfg0 a0).N) := ((cfg0 a0).win 1).stage ((cfg0 a0).slots t 1)
abbrev st0_out (t : Fin (cfg0 a0).N) := ((cfg0 a0).win 2).stage ((cfg0 a0).slots t 2)

abbrev bodyAt0 (t : Fin (cfg0 a0).N) : Prog (TpuEff nD τ sig (Elt F) Λ₀ .tc) PUnit :=
  cc0__gather_kernel (grid0.coords t) (Memref.whole main_v0) (Memref.isWhole_whole _)
    (spec0_0.stage ((cfg0 a0).slots t 0)) (hstage0_0 (((cfg0 a0).slots t 0).cast nbuf0_0))
    (spec0_1.stage ((cfg0 a0).slots t 1)) (hstage0_1 (((cfg0 a0).slots t 1).cast nbuf0_1))
    (spec0_2.stage ((cfg0 a0).slots t 2)) (hstage0_2 (((cfg0 a0).slots t 2).cast nbuf0_2))
    (Memref.whole cc0_scratch0) (Memref.isWhole_whole _) cc0_scratch1

def bodyPre0 (c : Dev nD) (t : Fin (cfg0 a0).N) : sProp 𝕄 :=
  iprop((dat0 Vd a0 c).Φ t.castSucc ∗ (dat0 Vd a0 c).owesAt () t.castSucc
    ∗ (∃ d, owns (c : Thread nD τ) (st0_x a0 t) fullShare ((dat0 Vd a0 c).before 0 t d))
    ∗ (∃ d, owns (c : Thread nD τ) (st0_val a0 t) fullShare ((dat0 Vd a0 c).before 1 t d))
    ∗ (∃ d, owns (c : Thread nD τ) (st0_out a0 t) fullShare ((dat0 Vd a0 c).before 2 t d)))

def bodyPost0 (c : Dev nD) (t : Fin (cfg0 a0).N) : sProp 𝕄 :=
  iprop((dat0 Vd a0 c).Φ t.succ ∗ (dat0 Vd a0 c).owesAt () t.succ
    ∗ owns (c : Thread nD τ) (st0_x a0 t) fullShare ((dat0 Vd a0 c).after 0 t)
    ∗ owns (c : Thread nD τ) (st0_val a0 t) fullShare ((dat0 Vd a0 c).after 1 t)
    ∗ owns (c : Thread nD τ) (st0_out a0 t) fullShare ((dat0 Vd a0 c).after 2 t))

theorem sound_body0 (hcol : HCol0 a0) (c : Dev nD) (t : Fin (cfg0 a0).N) :
    bodyPre0 Vd a0 c t ⊢ wp frame (wpE (defs₀ (F := F)) Variants.none c none) Set.univ (bodyAt0 a0 t) (fun _ => bodyPost0 Vd a0 c t) := by
  unfold bodyPre0 bodyPost0 bodyAt0
  simp only [before0_x, before0_val]
  rw [show (dat0 Vd a0 c).Φ t.succ = Φ0 a0 c from rfl, show (dat0 Vd a0 c).Φ t.castSucc = Φ0 a0 c from rfl,
    after0_x, after0_val, after0_out]
  unfold Φ0 Dat.owesAt Pipeline.owesWithin
  rw [scopedRest0_split, scratch0_eq, ownSems00_eq, prefHeld0_eq,
    show (dat0 Vd a0 c).owed t.castSucc = 0 from rfl, show (dat0 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel0 c (grid0.coords t) _ _ _ _ _ _ _ _ _ _ fullShare (a0.1 0) (iblk0 Vd a0 c 0 t) (iblk0 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation0 (hcol : HCol0 a0) (c : Dev nD) :
    BodyObligation (dat0 (F := F) Vd a0 c) (defs₀ (F := F)) Variants.none () Set.univ := fun t => by
  rw [bigSep_W0, bigSep_W0]
  exact sound_body0 Vd a0 hcol c t

abbrev X0 (c : Dev nD) : sProp 𝕄 := Pipeline.ownSems0 osem0 c
abbrev Y0 (c : Dev nD) : sProp 𝕄 := Pipeline.prefHeld pre0 c (fun _ => fullShare) a0.1
abbrev Z0 (V : Valuation τ sig (Elt F)) (c : Dev nD) : sProp 𝕄 :=
  iprop(Pipeline.unscopedRestP (Ix := Unit) (Name := ℕ) (U := Pipeline.UD sig nD τ) (Lvl := ℕ) pre0 spec0 c (fun b => V b) ∗ ∃ r, prngReg c r)

theorem hentry0 (c : Dev nD) (V : Valuation τ sig (Elt F)) (hA : ∀ w, Vd c (Pipeline.arrRef spec0 w) = V (Pipeline.arrRef spec0 w))
    (hT : ∀ k, a0.1 k = V (pre0.ref k)) :
    iprop(iprop(StableHlo.held (c : Thread nD τ) (Pipeline.ucRefs τ sig) V ∗ R c) ∗ Pipeline.ownSems0 osem0 c ∗ levAts L lv)
      ⊢ |={Set.univ}=> iprop((dat0 Vd a0 c).arrays ((dat0 Vd a0 c).arrAt · 0) ∗ Pipeline.prefHeld pre0 c (fun _ => fullShare) a0.1
          ∗ (dat0 Vd a0 c).owesAt () 0 ∗ X0 c ∗ Z0 V c) := by
  have hsplit := Pipeline.arrays_of_unscopedBufs (p := ()) (fun _ : Unit => pcfg0 (F := F)) (fun _ => a0) (fun _ c => dat0 Vd a0 c)
    (Ix := Unit) (Name := ℕ) (U := Pipeline.UD sig nD τ) (Lvl := ℕ) winFacts0 arr_whole0 c ((dat0 Vd a0 c).share_full fun _ => rfl) (fun b => V b) hA
  rw [Pipeline.unscopedBufs_held, Pipeline.unscopedRest_split preFacts0,
    show (fun k => V (pre0.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin0 (c : Dev nD) :
    iprop(X0 c ∗ Pipeline.prefHeld pre0 c (fun _ => fullShare) a0.1 ∗ Pipeline.scopedRest spec0 c) ⊢ (dat0 Vd a0 c).Φ 0 := by
  show _ ⊢ Φ0 a0 c
  unfold Φ0; exact .rfl

theorem hout0 (c : Dev nD) :
    (dat0 Vd a0 c).Φ (Fin.last (cfg0 a0).N) ⊢ iprop(Y0 a0 c ∗ Pipeline.ownSems0 osem0 c ∗ Pipeline.scopedRest spec0 c) := by
  show Φ0 a0 c ⊢ _
  unfold Φ0
  iintro ⟨Hs, Hp, Hr⟩
  isplitl [Hp]; · iexact Hp
  isplitl [Hs]; · iexact Hs
  iexact Hr

theorem hexit0 (c : Dev nD) (V Vp : Valuation τ sig (Elt F))
    (hF : ∀ w, (dat0 Vd a0 c).arrAt w (cfg0 a0).N = Vp (Pipeline.arrRef spec0 w))
    (hrest : ∀ b : Ref sig .tc, b ∉ Finset.univ.image (Pipeline.arrRef spec0) → Vp b = V b) (hT : ∀ k, a0.1 k = V (pre0.ref k)) :
    iprop((dat0 Vd a0 c).arrays ((dat0 Vd a0 c).arrAt · (cfg0 a0).N) ∗ (dat0 Vd a0 c).owesAt () (Fin.last (cfg0 a0).N) ∗ Y0 a0 c ∗ Z0 V c)
      ⊢ |={Set.univ}=> iprop(StableHlo.held (c : Thread nD τ) (Pipeline.ucRefs τ sig) Vp ∗ R c) := by
  have hjoin := Pipeline.unscopedBufs_of_arrays (p := ()) (fun _ : Unit => pcfg0 (F := F)) (fun _ => a0) (Ix := Unit) (Name := ℕ) (U := Pipeline.UD sig nD τ) (Lvl := ℕ)
    winFacts0 arr_whole0 c (fun _ c => dat0 Vd a0 c) ((dat0 Vd a0 c).share_full fun _ => rfl)
    (fun b => V b) (fun b => Vp b) ((dat0 Vd a0 c).arrAt · (cfg0 a0).N) hF hrest
  rw [Pipeline.unscopedBufs_held, Pipeline.unscopedRest_split preFacts0,
    show (fun k => V (pre0.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

end Region0
end Cert.Kernel.Hand
end
-- ==== Proof.K.Out1.lean ====
import proofs.«411766_j31920196944464_2_alg».proof.Proof.Gen.Kernel.Loops
import proofs.«411766_j31920196944464_2_alg».proof.Proof.Gather

set_option maxRecDepth 16384

noncomputable section

namespace Cert.Kernel.Hand

open Cert.Kernel Cert.Kernel.Gen
open Idealize.ShloMosaic Idealize.ShloMosaic.TcCoe

variable {F : FTy → Type} [FloatOps F]

def gath1 (i : grid1.Coords) (tbl : Vec F S80000 .i32) (x : Vec F S20000x256 .f32) (g : ℕ) : Vec F S16x256 .f32 :=
  Gather.gath (i 0).val tbl x g

def pcs1 (i : grid1.Coords) (tbl : Vec F S80000 .i32) (x : Vec F S20000x256 .f32) (n : ℕ) : List (View.Piece (Elt F) S800x256 .f32) :=
  Gather.pcs k1_off48 k1_off48_inb (i 0).val tbl x n

theorem pcs1_succ (i : grid1.Coords) (tbl : Vec F S80000 .i32) (x : Vec F S20000x256 .f32) (g : Fin k1_t1_loop.trips) :
    pcs1 i tbl x (g.val + 1)
      = ⟨Rect.unit (s := S800x256) (k1_off48 g) S16x256.size (k1_off48_inb g), gath1 i tbl x g.val⟩ :: pcs1 i tbl x g.val :=
  Gather.pcs_succ k1_off48 k1_off48_inb (i 0).val tbl x g

def loopArr1 (i : grid1.Coords) (tbl : Vec F S80000 .i32) (x : Vec F S20000x256 .f32) : Vec F S800x256 .f32 :=
  Gather.loopArr k1_off48 k1_off48_inb (i 0).val tbl x

def outBlk1 (i : grid1.Coords) (tbl : Vec F S80000 .i32) (x : Vec F S20000x256 .f32) (v : Vec F S800x1 .f32) : Vec F S800x256 .f32 :=
  k1_pay1 (loopArr1 i tbl x) v

theorem trips1 : k1_t1_loop.trips = 50 := by decide

theorem cover_pcs1 (i : grid1.Coords) (tbl : Vec F S80000 .i32) (x : Vec F S20000x256 .f32) :
    ∀ y : S800x256.Idx, ∃ p ∈ pcs1 i tbl x k1_t1_loop.trips, y ∈ p.1.set :=
  Gather.cover_pcs k1_off48 k1_off48_inb k1_off48_eq trips1 (i 0).val tbl x

end Cert.Kernel.Hand

end
-- ==== Proof.K.Body1.lean ====
import proofs.«411766_j31920196944464_2_alg».proof.Proof.K.Out1
import proofs.«411766_j31920196944464_2_alg».proof.Proof.K.Rows5
import proofs.«411766_j31920196944464_2_alg».proof.Proof.K.Rows5b
import proofs.«411766_j31920196944464_2_alg».proof.Proof.K.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems1 (c : Dev nD) : sProp 𝕄 :=
  iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0
    ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0
    ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0
    ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0)

abbrev tok1 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks1 (c : Dev nD) (arg2 : Memref sig .tc .vmem S20000x256 .f32) (fx : Buf (Elt F) (arg2.view.loc (c : Thread nD τ))) : sProp 𝕄 :=
  iprop(tok1 c arg2 fx 26 ∗ tok1 c arg2 fx 27 ∗ tok1 c arg2 fx 28 ∗ tok1 c arg2 fx 29 ∗ tok1 c arg2 fx 30 ∗ tok1 c arg2 fx 31 ∗ tok1 c arg2 fx 32 ∗ tok1 c arg2 fx 33
    ∗ tok1 c arg2 fx 34 ∗ tok1 c arg2 fx 35 ∗ tok1 c arg2 fx 36 ∗ tok1 c arg2 fx 37 ∗ tok1 c arg2 fx 38 ∗ tok1 c arg2 fx 39 ∗ tok1 c arg2 fx 40 ∗ tok1 c arg2 fx 41)

def k1_inv (c : Dev nD) (i : grid1.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks1 c arg2 fx
    ∗ (arg4.view.loc (c : Thread nD τ) ↦[arg4.view.set]{fullShare}
        arg4.view.writes (Elt F) f4 (pcs1 i (arg1.view.read (Elt F) ft) (arg2.view.read (Elt F) fx) n))
    ∗ (∃ f5, arg5.view.loc (c : Thread nD τ) ↦[arg5.view.set]{fullShare} f5)
    ∗ sems1 c ∗ (∃ W, owes (c : Thread nD τ) 0 W))

set_option maxHeartbeats 8000000 in

theorem k1_trip (c : Dev nD) (i : grid1.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k1_t1_loop.trips) (acc : Unit) :
    k1_inv c i arg1 arg2 arg4 arg5 q ft fx f4 g.val acc
      ⊢ wp frame (wpE (defs₀ (F := F)) Variants.none c none) Set.univ
          (k1_t1_body i arg1 harg1 arg2 harg2 arg3 harg3 arg4 harg4 arg5 harg5 cc1_scratch1 (Scalar.muli (BitVec.ofNat 32 (i 0).val) 800#32) g acc)
          (k1_inv c i arg1 arg2 arg4 arg5 q ft fx f4 (g.val + 1)) := by
  unfold k1_inv k1_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k1_chk1 (arg1.view.readAt (Elt F) (Rect.unit (s := S80000) (k1_off1 i g) S1.size (k1_off1_inb i g)).toLoadRect ft (Shape.Idx.first (numel1_S1.symm ▸ Nat.one_pos))) := row_inb2 _ (htbl _)
  have hc2 : k1_chk2 (arg1.view.readAt (Elt F) (Rect.unit (s := S80000) (k1_off3 i g) S1.size (k1_off3_inb i g)).toLoadRect ft (Shape.Idx.first (numel1_S1.symm ▸ Nat.one_pos))) := row_inb2 _ (htbl _)
  have hc3 : k1_chk3 (arg1.view.readAt (Elt F) (Rect.unit (s := S80000) (k1_off5 i g) S1.size (k1_off5_inb i g)).toLoadRect ft (Shape.Idx.first (numel1_S1.symm ▸ Nat.one_pos))) := row_inb2 _ (htbl _)
  have hc4 : k1_chk4 (arg1.view.readAt (Elt F) (Rect.unit (s := S80000) (k1_off7 i g) S1.size (k1_off7_inb i g)).toLoadRect ft (Shape.Idx.first (numel1_S1.symm ▸ Nat.one_pos))) := row_inb2 _ (htbl _)
  have hc5 : k1_chk5 (arg1.view.readAt (Elt F) (Rect.unit (s := S80000) (k1_off9 i g) S1.size (k1_off9_inb i g)).toLoadRect ft (Shape.Idx.first (numel1_S1.symm ▸ Nat.one_pos))) := row_inb2 _ (htbl _)
  have hc6 : k1_chk6 (arg1.view.readAt (Elt F) (Rect.unit (s := S80000) (k1_off11 i g) S1.size (k1_off11_inb i g)).toLoadRect ft (Shape.Idx.first (numel1_S1.symm ▸ Nat.one_pos))) := row_inb2 _ (htbl _)
  have hc7 : k1_chk7 (arg1.view.readAt (Elt F) (Rect.unit (s := S80000) (k1_off13 i g) S1.size (k1_off13_inb i g)).toLoadRect ft (Shape.Idx.first (numel1_S1.symm ▸ Nat.one_pos))) := row_inb2 _ (htbl _)
  have hc8 : k1_chk8 (arg1.view.readAt (Elt F) (Rect.unit (s := S80000) (k1_off15 i g) S1.size (k1_off15_inb i g)).toLoadRect ft (Shape.Idx.first (numel1_S1.symm ▸ Nat.one_pos))) := row_inb2 _ (htbl _)
  have hc9 : k1_chk9 (arg1.view.readAt (Elt F) (Rect.unit (s := S80000) (k1_off17 i g) S1.size (k1_off17_inb i g)).toLoadRect ft (Shape.Idx.first (numel1_S1.symm ▸ Nat.one_pos))) := row_inb2 _ (htbl _)
  have hc10 : k1_chk10 (arg1.view.readAt (Elt F) (Rect.unit (s := S80000) (k1_off19 i g) S1.size (k1_off19_inb i g)).toLoadRect ft (Shape.Idx.first (numel1_S1.symm ▸ Nat.one_pos))) := row_inb2 _ (htbl _)
  have hc11 : k1_chk11 (arg1.view.readAt (Elt F) (Rect.unit (s := S80000) (k1_off21 i g) S1.size (k1_off21_inb i g)).toLoadRect ft (Shape.Idx.first (numel1_S1.symm ▸ Nat.one_pos))) := row_inb2 _ (htbl _)
  have hc12 : k1_chk12 (arg1.view.readAt (Elt F) (Rect.unit (s := S80000) (k1_off23 i g) S1.size (k1_off23_inb i g)).toLoadRect ft (Shape.Idx.first (numel1_S1.symm ▸ Nat.one_pos))) := row_inb2 _ (htbl _)
  have hc13 : k1_chk13 (arg1.view.readAt (Elt F) (Rect.unit (s := S80000) (k1_off25 i g) S1.size (k1_off25_inb i g)).toLoadRect ft (Shape.Idx.first (numel1_S1.symm ▸ Nat.one_pos))) := row_inb2 _ (htbl _)
  have hc14 : k1_chk14 (arg1.view.readAt (Elt F) (Rect.unit (s := S80000) (k1_off27 i g) S1.size (k1_off27_inb i g)).toLoadRect ft (Shape.Idx.first (numel1_S1.symm ▸ Nat.one_pos))) := row_inb2 _ (htbl _)
  have hc15 : k1_chk15 (arg1.view.readAt (Elt F) (Rect.unit (s := S80000) (k1_off29 i g) S1.size (k1_off29_inb i g)).toLoadRect ft (Shape.Idx.first (numel1_S1.symm ▸ Nat.one_pos))) := row_inb2 _ (htbl _)
  have hc16 : k1_chk16 (arg1.view.readAt (Elt F) (Rect.unit (s := S80000) (k1_off31 i g) S1.size (k1_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k1_trip.sl.dma1 c i arg1 arg2 ft fx g hc1) (k1_trip.sl.dma2 c i arg1 arg2 ft fx g hc2) (k1_trip.sl.dma3 c i arg1 arg2 ft fx g hc3) (k1_trip.sl.dma4 c i arg1 arg2 ft fx g hc4) (k1_trip.sl.dma5 c i arg1 arg2 ft fx g hc5) (k1_trip.sl.dma6 c i arg1 arg2 ft fx g hc6) (k1_trip.sl.dma7 c i arg1 arg2 ft fx g hc7) (k1_trip.sl.dma8 c i arg1 arg2 ft fx g hc8) (k1_trip.sl.dma9 c i arg1 arg2 ft fx g hc9) (k1_trip.sl.dma10 c i arg1 arg2 ft fx g hc10) (k1_trip.sl.dma11 c i arg1 arg2 ft fx g hc11) (k1_trip.sl.dma12 c i arg1 arg2 ft fx g hc12) (k1_trip.sl.dma13 c i arg1 arg2 ft fx g hc13) (k1_trip.sl.dma14 c i arg1 arg2 ft fx g hc14) (k1_trip.sl.dma15 c i arg1 arg2 ft fx g hc15) (k1_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath1 i (arg1.view.read (Elt F) ft) (arg2.view.read (Elt F) fx) g.val :=
    scratch_reads arg5 c f5 g5 _ hg5 _ (fun k d => by
      have hi : (i 0).val < 100 := (i 0).isLt
      have hg : g.val < 50 := trips1 ▸ g.isLt
      fin_cases k
      · exact row_payload arg1 arg2 c ft fx _ _ _ (k1_off1_eq i g) (by omega) _ _ d
      · exact row_payload arg1 arg2 c ft fx _ _ _ (k1_off3_eq i g) (by omega) _ _ d
      · exact row_payload arg1 arg2 c ft fx _ _ _ (k1_off5_eq i g) (by omega) _ _ d
      · exact row_payload arg1 arg2 c ft fx _ _ _ (k1_off7_eq i g) (by omega) _ _ d
      · exact row_payload arg1 arg2 c ft fx _ _ _ (k1_off9_eq i g) (by omega) _ _ d
      · exact row_payload arg1 arg2 c ft fx _ _ _ (k1_off11_eq i g) (by omega) _ _ d
      · exact row_payload arg1 arg2 c ft fx _ _ _ (k1_off13_eq i g) (by omega) _ _ d
      · exact row_payload arg1 arg2 c ft fx _ _ _ (k1_off15_eq i g) (by omega) _ _ d
      · exact row_payload arg1 arg2 c ft fx _ _ _ (k1_off17_eq i g) (by omega) _ _ d
      · exact row_payload arg1 arg2 c ft fx _ _ _ (k1_off19_eq i g) (by omega) _ _ d
      · exact row_payload arg1 arg2 c ft fx _ _ _ (k1_off21_eq i g) (by omega) _ _ d
      · exact row_payload arg1 arg2 c ft fx _ _ _ (k1_off23_eq i g) (by omega) _ _ d
      · exact row_payload arg1 arg2 c ft fx _ _ _ (k1_off25_eq i g) (by omega) _ _ d
      · exact row_payload arg1 arg2 c ft fx _ _ _ (k1_off27_eq i g) (by omega) _ _ d
      · exact row_payload arg1 arg2 c ft fx _ _ _ (k1_off29_eq i g) (by omega) _ _ d
      · exact row_payload arg1 arg2 c ft fx _ _ _ (k1_off31_eq i g) (by omega) _ _ d
      ) _
  sl_exec
  sl_step
  rw [pcs1_succ, View.writes_cons]
  unfold k1_trip.sl.H4_w1
  sl_close

set_option maxHeartbeats 4000000 in

theorem sound_kernel1 (c : Dev nD) (i : grid1.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems1 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk1 i tbl x v) ∗ (∃ d, owns (c : Thread nD τ) arg5 fullShare d) ∗ sems1 c ∗ (∃ W', owes (c : Thread nD τ) 0 W')) -∗ K ⟨⟩))
      ⊢ wp frame (wpE (defs₀ (F := F)) Variants.none c none) Set.univ (cc1__gather_kernel i arg1 harg1 arg2 harg2 arg3 harg3 arg4 harg4 arg5 harg5 cc1_scratch1) K := by
  simp only [cc1__gather_kernel_eq_skeleton]; unfold cc1__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks1 c arg2 fx) := Cert.Toks.toks16_split _ _ _ _
  ihave H2' := htok.1 $$ H2
  icases H2' with ⟨HD, HT⟩
  sl_exec
  sl_for (k1_inv c i arg1 arg2 arg4 arg5 q ft fx f4) $$ [H1 HT H4 H5 HS HW]
  case region =>
    intro g acc
    exact k1_trip c i arg1 harg1 arg2 harg2 arg3 harg3 arg4 harg4 arg5 harg5 q ft fx htbl f4 g acc
  · unfold k1_inv
    isplitl [H1]; · iexact H1
    isplitl [HT]; · iexact HT
    isplitl [H4]; · iexact H4
    isplitl [H5]; · iexists _; iexact H5
    isplitl [HS]; · iexact HS
    iexists _; iexact HW
  iintro %acc HI; unfold k1_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs1 i tbl x (Scf.trips k1_t1_loop.lb k1_t1_loop.ub k1_t1_loop.st), y ∈ p.1.set :=
      cover_pcs1 i tbl x
    have h2 : arg4.view.readCov (pcs1 i tbl x (Scf.trips k1_t1_loop.lb k1_t1_loop.ub k1_t1_loop.st))
        (Rect.unit (s := S800x256) ![0, 0] S800x256.size inb_S800x256_S800x256_0_0).toLoadRect = loopArr1 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.Kernel.Hand

end
-- ==== Proof.K.Region1.lean ====
import proofs.«411766_j31920196944464_2_alg».proof.Proof.K.Body1
import proofs.«411766_j31920196944464_2_alg».proof.Proof.K.Common
import proofs.«411766_j31920196944464_2_alg».proof.Proof.Gen.Kernel.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg1 (F := F)).Adm)

def iblk1 (c : Dev nD) (w : Fin (cfg1 a0).W) (t : Fin (cfg1 a0).N) : (((cfg1 a0).win w).xblock ((cfg1 a0).grid.coords t)).Idx → Elt F ((cfg1 a0).win w).elt :=
  (((cfg1 a0).win w).blk t).view.read (Elt F) (Vd c (Pipeline.arrRef spec1 w))

abbrev osem1 : Fin 16 → SemLoc sig := fun k =>
  (![SemLoc.dma 26, SemLoc.dma 27, SemLoc.dma 28, SemLoc.dma 29, SemLoc.dma 30, SemLoc.dma 31, SemLoc.dma 32, SemLoc.dma 33,
     SemLoc.dma 34, SemLoc.dma 35, SemLoc.dma 36, SemLoc.dma 37, SemLoc.dma 38, SemLoc.dma 39, SemLoc.dma 40, SemLoc.dma 41] : Fin 16 → SemLoc sig) k

theorem ownSemFacts1 : Pipeline.OwnSemFacts spec1 osem1 := by decide

theorem ownSems01_eq (c : Dev nD) :
    (Pipeline.ownSems0 (Ix := Unit) (Name := ℕ) (U := Pipeline.UD sig nD τ) (Lvl := ℕ) (Val := Elt F) (τ := τ) osem1 c : sProp 𝕄) = sems1 c := by
  rw [Pipeline.ownSems0_eq_of_list c osem1 [0, 1, 2, 3, 4, 5, 6, 7, 8, 9, 10, 11, 12, 13, 14, 15] (by decide) (by decide)]; rfl

theorem prefHeld1_eq (c : Dev nD) (pf : pre1.Contents (Elt F)) :
    (Pipeline.prefHeld (Ix := Unit) (Name := ℕ) (U := Pipeline.UD sig nD τ) (Lvl := ℕ) pre1 c (fun _ => fullShare) pf : sProp 𝕄)
      = owns (c : Thread nD τ) (Memref.whole main_v4) fullShare (pf 0) := by
  refine Eq.trans ?_ (owns_whole (c : Thread nD τ) main_v4 fullShare (pf 0)).symm
  unfold Pipeline.prefHeld
  exact bigSep_univ_eq_bigSepL [(0 : Fin 1)] (by decide) (by decide) _

theorem scratch1_eq (c : Dev nD) :
    (iprop(∃ f : Buf (Elt F) ((c : Thread nD τ).loc cc1_scratch0), ((c : Thread nD τ).loc cc1_scratch0) ↦{fullShare} f) : sProp 𝕄)
      = iprop(∃ d, owns (c : Thread nD τ) (Memref.whole cc1_scratch0) fullShare d) := by
  simp only [owns_whole]

def HCol1 : Prop := ∀ e, ((a0.1 0 : Vec F S80000 .i32) e).toNat < 20000

def Φ1 (c : Dev nD) : sProp 𝕄 :=
  iprop(Pipeline.ownSems0 osem1 c ∗ Pipeline.prefHeld pre1 c (fun _ => fullShare) a0.1 ∗ Pipeline.scopedRest spec1 c)

def dat1 (c : Dev nD) : Dat τ (Elt F) Unit ℕ (Pipeline.UD sig nD τ) ℕ (cfg1 a0) c where
  A w := Vd c (Pipeline.arrRef spec1 w)
  after w t := match w with
    | ⟨0, _⟩ => iblk1 Vd a0 c 0 t
    | ⟨1, _⟩ => iblk1 Vd a0 c 1 t
    | ⟨2, _⟩ => outBlk1 (grid1.coords t) (a0.1 0) (iblk1 Vd a0 c 0 t) (iblk1 Vd a0 c 1 t)
  Φ _ := Φ1 a0 c
  q _ := fullShare
  owed _ := 0

theorem A_eq1 (c : Dev nD) (w : Fin 3) : (dat1 Vd a0 c).A w = Vd c (Pipeline.arrRef spec1 w) := by
  dsimp only [dat1]

theorem after1_x (c : Dev nD) (t : Fin (cfg1 a0).N) : (dat1 Vd a0 c).after (0 : Fin 3) t = iblk1 Vd a0 c 0 t := by dsimp only [dat1]
theorem after1_val (c : Dev nD) (t : Fin (cfg1 a0).N) : (dat1 Vd a0 c).after (1 : Fin 3) t = iblk1 Vd a0 c 1 t := by dsimp only [dat1]
theorem after1_out (c : Dev nD) (t : Fin (cfg1 a0).N) :
    (dat1 Vd a0 c).after (2 : Fin 3) t = outBlk1 (grid1.coords t) (a0.1 0) (iblk1 Vd a0 c 0 t) (iblk1 Vd a0 c 1 t) := by dsimp only [dat1]

theorem before1_x (c : Dev nD) (t : Fin (cfg1 a0).N) (d) : (dat1 Vd a0 c).before 0 t d = iblk1 Vd a0 c 0 t := by
  refine ((dat1 Vd a0 c).before_in_eq_fetched 0 rfl (fun _ => rfl) (fun _ _ _ => rfl) (fun s => ?_) t d).trans ?_
  · rw [after1_x]; rfl
  · rfl
theorem before1_val (c : Dev nD) (t : Fin (cfg1 a0).N) (d) : (dat1 Vd a0 c).before 1 t d = iblk1 Vd a0 c 1 t := by
  refine ((dat1 Vd a0 c).before_in_eq_fetched 1 rfl (fun _ => rfl) (fun _ _ _ => rfl) (fun s => ?_) t d).trans ?_
  · rw [after1_val]; rfl
  · rfl

abbrev st1_x (t : Fin (cfg1 a0).N) := ((cfg1 a0).win 0).stage ((cfg1 a0).slots t 0)
abbrev st1_val (t : Fin (cfg1 a0).N) := ((cfg1 a0).win 1).stage ((cfg1 a0).slots t 1)
abbrev st1_out (t : Fin (cfg1 a0).N) := ((cfg1 a0).win 2).stage ((cfg1 a0).slots t 2)

abbrev bodyAt1 (t : Fin (cfg1 a0).N) : Prog (TpuEff nD τ sig (Elt F) Λ₀ .tc) PUnit :=
  cc1__gather_kernel (grid1.coords t) (Memref.whole main_v4) (Memref.isWhole_whole _)
    (spec1_0.stage ((cfg1 a0).slots t 0)) (hstage1_0 (((cfg1 a0).slots t 0).cast nbuf1_0))
    (spec1_1.stage ((cfg1 a0).slots t 1)) (hstage1_1 (((cfg1 a0).slots t 1).cast nbuf1_1))
    (spec1_2.stage ((cfg1 a0).slots t 2)) (hstage1_2 (((cfg1 a0).slots t 2).cast nbuf1_2))
    (Memref.whole cc1_scratch0) (Memref.isWhole_whole _) cc1_scratch1

def bodyPre1 (c : Dev nD) (t : Fin (cfg1 a0).N) : sProp 𝕄 :=
  iprop((dat1 Vd a0 c).Φ t.castSucc ∗ (dat1 Vd a0 c).owesAt () t.castSucc
    ∗ (∃ d, owns (c : Thread nD τ) (st1_x a0 t) fullShare ((dat1 Vd a0 c).before 0 t d))
    ∗ (∃ d, owns (c : Thread nD τ) (st1_val a0 t) fullShare ((dat1 Vd a0 c).before 1 t d))
    ∗ (∃ d, owns (c : Thread nD τ) (st1_out a0 t) fullShare ((dat1 Vd a0 c).before 2 t d)))

def bodyPost1 (c : Dev nD) (t : Fin (cfg1 a0).N) : sProp 𝕄 :=
  iprop((dat1 Vd a0 c).Φ t.succ ∗ (dat1 Vd a0 c).owesAt () t.succ
    ∗ owns (c : Thread nD τ) (st1_x a0 t) fullShare ((dat1 Vd a0 c).after 0 t)
    ∗ owns (c : Thread nD τ) (st1_val a0 t) fullShare ((dat1 Vd a0 c).after 1 t)
    ∗ owns (c : Thread nD τ) (st1_out a0 t) fullShare ((dat1 Vd a0 c).after 2 t))

theorem sound_body1 (hcol : HCol1 a0) (c : Dev nD) (t : Fin (cfg1 a0).N) :
    bodyPre1 Vd a0 c t ⊢ wp frame (wpE (defs₀ (F := F)) Variants.none c none) Set.univ (bodyAt1 a0 t) (fun _ => bodyPost1 Vd a0 c t) := by
  unfold bodyPre1 bodyPost1 bodyAt1
  simp only [before1_x, before1_val]
  rw [show (dat1 Vd a0 c).Φ t.succ = Φ1 a0 c from rfl, show (dat1 Vd a0 c).Φ t.castSucc = Φ1 a0 c from rfl,
    after1_x, after1_val, after1_out]
  unfold Φ1 Dat.owesAt Pipeline.owesWithin
  rw [scopedRest1_split, scratch1_eq, ownSems01_eq, prefHeld1_eq,
    show (dat1 Vd a0 c).owed t.castSucc = 0 from rfl, show (dat1 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel1 c (grid1.coords t) _ _ _ _ _ _ _ _ _ _ fullShare (a0.1 0) (iblk1 Vd a0 c 0 t) (iblk1 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation1 (hcol : HCol1 a0) (c : Dev nD) :
    BodyObligation (dat1 (F := F) Vd a0 c) (defs₀ (F := F)) Variants.none () Set.univ := fun t => by
  rw [bigSep_W1, bigSep_W1]
  exact sound_body1 Vd a0 hcol c t

abbrev X1 (c : Dev nD) : sProp 𝕄 := Pipeline.ownSems0 osem1 c
abbrev Y1 (c : Dev nD) : sProp 𝕄 := Pipeline.prefHeld pre1 c (fun _ => fullShare) a0.1
abbrev Z1 (V : Valuation τ sig (Elt F)) (c : Dev nD) : sProp 𝕄 :=
  iprop(Pipeline.unscopedRestP (Ix := Unit) (Name := ℕ) (U := Pipeline.UD sig nD τ) (Lvl := ℕ) pre1 spec1 c (fun b => V b) ∗ ∃ r, prngReg c r)

theorem hentry1 (c : Dev nD) (V : Valuation τ sig (Elt F)) (hA : ∀ w, Vd c (Pipeline.arrRef spec1 w) = V (Pipeline.arrRef spec1 w))
    (hT : ∀ k, a0.1 k = V (pre1.ref k)) :
    iprop(iprop(StableHlo.held (c : Thread nD τ) (Pipeline.ucRefs τ sig) V ∗ R c) ∗ Pipeline.ownSems0 osem1 c ∗ levAts L lv)
      ⊢ |={Set.univ}=> iprop((dat1 Vd a0 c).arrays ((dat1 Vd a0 c).arrAt · 0) ∗ Pipeline.prefHeld pre1 c (fun _ => fullShare) a0.1
          ∗ (dat1 Vd a0 c).owesAt () 0 ∗ X1 c ∗ Z1 V c) := by
  have hsplit := Pipeline.arrays_of_unscopedBufs (p := ()) (fun _ : Unit => pcfg1 (F := F)) (fun _ => a0) (fun _ c => dat1 Vd a0 c)
    (Ix := Unit) (Name := ℕ) (U := Pipeline.UD sig nD τ) (Lvl := ℕ) winFacts1 arr_whole1 c ((dat1 Vd a0 c).share_full fun _ => rfl) (fun b => V b) hA
  rw [Pipeline.unscopedBufs_held, Pipeline.unscopedRest_split preFacts1,
    show (fun k => V (pre1.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin1 (c : Dev nD) :
    iprop(X1 c ∗ Pipeline.prefHeld pre1 c (fun _ => fullShare) a0.1 ∗ Pipeline.scopedRest spec1 c) ⊢ (dat1 Vd a0 c).Φ 0 := by
  show _ ⊢ Φ1 a0 c
  unfold Φ1; exact .rfl

theorem hout1 (c : Dev nD) :
    (dat1 Vd a0 c).Φ (Fin.last (cfg1 a0).N) ⊢ iprop(Y1 a0 c ∗ Pipeline.ownSems0 osem1 c ∗ Pipeline.scopedRest spec1 c) := by
  show Φ1 a0 c ⊢ _
  unfold Φ1
  iintro ⟨Hs, Hp, Hr⟩
  isplitl [Hp]; · iexact Hp
  isplitl [Hs]; · iexact Hs
  iexact Hr

theorem hexit1 (c : Dev nD) (V Vp : Valuation τ sig (Elt F))
    (hF : ∀ w, (dat1 Vd a0 c).arrAt w (cfg1 a0).N = Vp (Pipeline.arrRef spec1 w))
    (hrest : ∀ b : Ref sig .tc, b ∉ Finset.univ.image (Pipeline.arrRef spec1) → Vp b = V b) (hT : ∀ k, a0.1 k = V (pre1.ref k)) :
    iprop((dat1 Vd a0 c).arrays ((dat1 Vd a0 c).arrAt · (cfg1 a0).N) ∗ (dat1 Vd a0 c).owesAt () (Fin.last (cfg1 a0).N) ∗ Y1 a0 c ∗ Z1 V c)
      ⊢ |={Set.univ}=> iprop(StableHlo.held (c : Thread nD τ) (Pipeline.ucRefs τ sig) Vp ∗ R c) := by
  have hjoin := Pipeline.unscopedBufs_of_arrays (p := ()) (fun _ : Unit => pcfg1 (F := F)) (fun _ => a0) (Ix := Unit) (Name := ℕ) (U := Pipeline.UD sig nD τ) (Lvl := ℕ)
    winFacts1 arr_whole1 c (fun _ c => dat1 Vd a0 c) ((dat1 Vd a0 c).share_full fun _ => rfl)
    (fun b => V b) (fun b => Vp b) ((dat1 Vd a0 c).arrAt · (cfg1 a0).N) hF hrest
  rw [Pipeline.unscopedBufs_held, Pipeline.unscopedRest_split preFacts1,
    show (fun k => V (pre1.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

end Region0
end Cert.Kernel.Hand
end
-- ==== Proof.K.Out2.lean ====
import proofs.«411766_j31920196944464_2_alg».proof.Proof.Gen.Kernel.Loops
import proofs.«411766_j31920196944464_2_alg».proof.Proof.Gather

set_option maxRecDepth 16384

noncomputable section

namespace Cert.Kernel.Hand

open Cert.Kernel Cert.Kernel.Gen
open Idealize.ShloMosaic Idealize.ShloMosaic.TcCoe

variable {F : FTy → Type} [FloatOps F]

def gath2 (i : grid2.Coords) (tbl : Vec F S80000 .i32) (x : Vec F S20000x256 .f32) (g : ℕ) : Vec F S16x256 .f32 :=
  Gather.gath (i 0).val tbl x g

def pcs2 (i : grid2.Coords) (tbl : Vec F S80000 .i32) (x : Vec F S20000x256 .f32) (n : ℕ) : List (View.Piece (Elt F) S800x256 .f32) :=
  Gather.pcs k2_off48 k2_off48_inb (i 0).val tbl x n

theorem pcs2_succ (i : grid2.Coords) (tbl : Vec F S80000 .i32) (x : Vec F S20000x256 .f32) (g : Fin k2_t1_loop.trips) :
    pcs2 i tbl x (g.val + 1)
      = ⟨Rect.unit (s := S800x256) (k2_off48 g) S16x256.size (k2_off48_inb g), gath2 i tbl x g.val⟩ :: pcs2 i tbl x g.val :=
  Gather.pcs_succ k2_off48 k2_off48_inb (i 0).val tbl x g

def loopArr2 (i : grid2.Coords) (tbl : Vec F S80000 .i32) (x : Vec F S20000x256 .f32) : Vec F S800x256 .f32 :=
  Gather.loopArr k2_off48 k2_off48_inb (i 0).val tbl x

def outBlk2 (i : grid2.Coords) (tbl : Vec F S80000 .i32) (x : Vec F S20000x256 .f32) (v : Vec F S800x1 .f32) : Vec F S800x256 .f32 :=
  k2_pay1 (loopArr2 i tbl x) v

theorem trips2 : k2_t1_loop.trips = 50 := by decide

theorem cover_pcs2 (i : grid2.Coords) (tbl : Vec F S80000 .i32) (x : Vec F S20000x256 .f32) :
    ∀ y : S800x256.Idx, ∃ p ∈ pcs2 i tbl x k2_t1_loop.trips, y ∈ p.1.set :=
  Gather.cover_pcs k2_off48 k2_off48_inb k2_off48_eq trips2 (i 0).val tbl x

end Cert.Kernel.Hand

end
-- ==== Proof.K.Body2.lean ====
import proofs.«411766_j31920196944464_2_alg».proof.Proof.K.Out2
import proofs.«411766_j31920196944464_2_alg».proof.Proof.K.Rows5
import proofs.«411766_j31920196944464_2_alg».proof.Proof.K.Rows5b
import proofs.«411766_j31920196944464_2_alg».proof.Proof.K.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems2 (c : Dev nD) : sProp 𝕄 :=
  iprop(semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0
    ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0
    ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0
    ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0)

abbrev tok2 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks2 (c : Dev nD) (arg2 : Memref sig .tc .vmem S20000x256 .f32) (fx : Buf (Elt F) (arg2.view.loc (c : Thread nD τ))) : sProp 𝕄 :=
  iprop(tok2 c arg2 fx 47 ∗ tok2 c arg2 fx 48 ∗ tok2 c arg2 fx 49 ∗ tok2 c arg2 fx 50 ∗ tok2 c arg2 fx 51 ∗ tok2 c arg2 fx 52 ∗ tok2 c arg2 fx 53 ∗ tok2 c arg2 fx 54
    ∗ tok2 c arg2 fx 55 ∗ tok2 c arg2 fx 56 ∗ tok2 c arg2 fx 57 ∗ tok2 c arg2 fx 58 ∗ tok2 c arg2 fx 59 ∗ tok2 c arg2 fx 60 ∗ tok2 c arg2 fx 61 ∗ tok2 c arg2 fx 62)

def k2_inv (c : Dev nD) (i : grid2.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks2 c arg2 fx
    ∗ (arg4.view.loc (c : Thread nD τ) ↦[arg4.view.set]{fullShare}
        arg4.view.writes (Elt F) f4 (pcs2 i (arg1.view.read (Elt F) ft) (arg2.view.read (Elt F) fx) n))
    ∗ (∃ f5, arg5.view.loc (c : Thread nD τ) ↦[arg5.view.set]{fullShare} f5)
    ∗ sems2 c ∗ (∃ W, owes (c : Thread nD τ) 0 W))

set_option maxHeartbeats 8000000 in

theorem k2_trip (c : Dev nD) (i : grid2.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k2_t1_loop.trips) (acc : Unit) :
    k2_inv c i arg1 arg2 arg4 arg5 q ft fx f4 g.val acc
      ⊢ wp frame (wpE (defs₀ (F := F)) Variants.none c none) Set.univ
          (k2_t1_body i arg1 harg1 arg2 harg2 arg3 harg3 arg4 harg4 arg5 harg5 cc2_scratch1 (Scalar.muli (BitVec.ofNat 32 (i 0).val) 800#32) g acc)
          (k2_inv c i arg1 arg2 arg4 arg5 q ft fx f4 (g.val + 1)) := by
  unfold k2_inv k2_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k2_chk1 (arg1.view.readAt (Elt F) (Rect.unit (s := S80000) (k2_off1 i g) S1.size (k2_off1_inb i g)).toLoadRect ft (Shape.Idx.first (numel1_S1.symm ▸ Nat.one_pos))) := row_inb2 _ (htbl _)
  have hc2 : k2_chk2 (arg1.view.readAt (Elt F) (Rect.unit (s := S80000) (k2_off3 i g) S1.size (k2_off3_inb i g)).toLoadRect ft (Shape.Idx.first (numel1_S1.symm ▸ Nat.one_pos))) := row_inb2 _ (htbl _)
  have hc3 : k2_chk3 (arg1.view.readAt (Elt F) (Rect.unit (s := S80000) (k2_off5 i g) S1.size (k2_off5_inb i g)).toLoadRect ft (Shape.Idx.first (numel1_S1.symm ▸ Nat.one_pos))) := row_inb2 _ (htbl _)
  have hc4 : k2_chk4 (arg1.view.readAt (Elt F) (Rect.unit (s := S80000) (k2_off7 i g) S1.size (k2_off7_inb i g)).toLoadRect ft (Shape.Idx.first (numel1_S1.symm ▸ Nat.one_pos))) := row_inb2 _ (htbl _)
  have hc5 : k2_chk5 (arg1.view.readAt (Elt F) (Rect.unit (s := S80000) (k2_off9 i g) S1.size (k2_off9_inb i g)).toLoadRect ft (Shape.Idx.first (numel1_S1.symm ▸ Nat.one_pos))) := row_inb2 _ (htbl _)
  have hc6 : k2_chk6 (arg1.view.readAt (Elt F) (Rect.unit (s := S80000) (k2_off11 i g) S1.size (k2_off11_inb i g)).toLoadRect ft (Shape.Idx.first (numel1_S1.symm ▸ Nat.one_pos))) := row_inb2 _ (htbl _)
  have hc7 : k2_chk7 (arg1.view.readAt (Elt F) (Rect.unit (s := S80000) (k2_off13 i g) S1.size (k2_off13_inb i g)).toLoadRect ft (Shape.Idx.first (numel1_S1.symm ▸ Nat.one_pos))) := row_inb2 _ (htbl _)
  have hc8 : k2_chk8 (arg1.view.readAt (Elt F) (Rect.unit (s := S80000) (k2_off15 i g) S1.size (k2_off15_inb i g)).toLoadRect ft (Shape.Idx.first (numel1_S1.symm ▸ Nat.one_pos))) := row_inb2 _ (htbl _)
  have hc9 : k2_chk9 (arg1.view.readAt (Elt F) (Rect.unit (s := S80000) (k2_off17 i g) S1.size (k2_off17_inb i g)).toLoadRect ft (Shape.Idx.first (numel1_S1.symm ▸ Nat.one_pos))) := row_inb2 _ (htbl _)
  have hc10 : k2_chk10 (arg1.view.readAt (Elt F) (Rect.unit (s := S80000) (k2_off19 i g) S1.size (k2_off19_inb i g)).toLoadRect ft (Shape.Idx.first (numel1_S1.symm ▸ Nat.one_pos))) := row_inb2 _ (htbl _)
  have hc11 : k2_chk11 (arg1.view.readAt (Elt F) (Rect.unit (s := S80000) (k2_off21 i g) S1.size (k2_off21_inb i g)).toLoadRect ft (Shape.Idx.first (numel1_S1.symm ▸ Nat.one_pos))) := row_inb2 _ (htbl _)
  have hc12 : k2_chk12 (arg1.view.readAt (Elt F) (Rect.unit (s := S80000) (k2_off23 i g) S1.size (k2_off23_inb i g)).toLoadRect ft (Shape.Idx.first (numel1_S1.symm ▸ Nat.one_pos))) := row_inb2 _ (htbl _)
  have hc13 : k2_chk13 (arg1.view.readAt (Elt F) (Rect.unit (s := S80000) (k2_off25 i g) S1.size (k2_off25_inb i g)).toLoadRect ft (Shape.Idx.first (numel1_S1.symm ▸ Nat.one_pos))) := row_inb2 _ (htbl _)
  have hc14 : k2_chk14 (arg1.view.readAt (Elt F) (Rect.unit (s := S80000) (k2_off27 i g) S1.size (k2_off27_inb i g)).toLoadRect ft (Shape.Idx.first (numel1_S1.symm ▸ Nat.one_pos))) := row_inb2 _ (htbl _)
  have hc15 : k2_chk15 (arg1.view.readAt (Elt F) (Rect.unit (s := S80000) (k2_off29 i g) S1.size (k2_off29_inb i g)).toLoadRect ft (Shape.Idx.first (numel1_S1.symm ▸ Nat.one_pos))) := row_inb2 _ (htbl _)
  have hc16 : k2_chk16 (arg1.view.readAt (Elt F) (Rect.unit (s := S80000) (k2_off31 i g) S1.size (k2_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k2_trip.sl.dma1 c i arg1 arg2 ft fx g hc1) (k2_trip.sl.dma2 c i arg1 arg2 ft fx g hc2) (k2_trip.sl.dma3 c i arg1 arg2 ft fx g hc3) (k2_trip.sl.dma4 c i arg1 arg2 ft fx g hc4) (k2_trip.sl.dma5 c i arg1 arg2 ft fx g hc5) (k2_trip.sl.dma6 c i arg1 arg2 ft fx g hc6) (k2_trip.sl.dma7 c i arg1 arg2 ft fx g hc7) (k2_trip.sl.dma8 c i arg1 arg2 ft fx g hc8) (k2_trip.sl.dma9 c i arg1 arg2 ft fx g hc9) (k2_trip.sl.dma10 c i arg1 arg2 ft fx g hc10) (k2_trip.sl.dma11 c i arg1 arg2 ft fx g hc11) (k2_trip.sl.dma12 c i arg1 arg2 ft fx g hc12) (k2_trip.sl.dma13 c i arg1 arg2 ft fx g hc13) (k2_trip.sl.dma14 c i arg1 arg2 ft fx g hc14) (k2_trip.sl.dma15 c i arg1 arg2 ft fx g hc15) (k2_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath2 i (arg1.view.read (Elt F) ft) (arg2.view.read (Elt F) fx) g.val :=
    scratch_reads arg5 c f5 g5 _ hg5 _ (fun k d => by
      have hi : (i 0).val < 100 := (i 0).isLt
      have hg : g.val < 50 := trips2 ▸ g.isLt
      fin_cases k
      · exact row_payload arg1 arg2 c ft fx _ _ _ (k2_off1_eq i g) (by omega) _ _ d
      · exact row_payload arg1 arg2 c ft fx _ _ _ (k2_off3_eq i g) (by omega) _ _ d
      · exact row_payload arg1 arg2 c ft fx _ _ _ (k2_off5_eq i g) (by omega) _ _ d
      · exact row_payload arg1 arg2 c ft fx _ _ _ (k2_off7_eq i g) (by omega) _ _ d
      · exact row_payload arg1 arg2 c ft fx _ _ _ (k2_off9_eq i g) (by omega) _ _ d
      · exact row_payload arg1 arg2 c ft fx _ _ _ (k2_off11_eq i g) (by omega) _ _ d
      · exact row_payload arg1 arg2 c ft fx _ _ _ (k2_off13_eq i g) (by omega) _ _ d
      · exact row_payload arg1 arg2 c ft fx _ _ _ (k2_off15_eq i g) (by omega) _ _ d
      · exact row_payload arg1 arg2 c ft fx _ _ _ (k2_off17_eq i g) (by omega) _ _ d
      · exact row_payload arg1 arg2 c ft fx _ _ _ (k2_off19_eq i g) (by omega) _ _ d
      · exact row_payload arg1 arg2 c ft fx _ _ _ (k2_off21_eq i g) (by omega) _ _ d
      · exact row_payload arg1 arg2 c ft fx _ _ _ (k2_off23_eq i g) (by omega) _ _ d
      · exact row_payload arg1 arg2 c ft fx _ _ _ (k2_off25_eq i g) (by omega) _ _ d
      · exact row_payload arg1 arg2 c ft fx _ _ _ (k2_off27_eq i g) (by omega) _ _ d
      · exact row_payload arg1 arg2 c ft fx _ _ _ (k2_off29_eq i g) (by omega) _ _ d
      · exact row_payload arg1 arg2 c ft fx _ _ _ (k2_off31_eq i g) (by omega) _ _ d
      ) _
  sl_exec
  sl_step
  rw [pcs2_succ, View.writes_cons]
  unfold k2_trip.sl.H4_w1
  sl_close

set_option maxHeartbeats 4000000 in

theorem sound_kernel2 (c : Dev nD) (i : grid2.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems2 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk2 i tbl x v) ∗ (∃ d, owns (c : Thread nD τ) arg5 fullShare d) ∗ sems2 c ∗ (∃ W', owes (c : Thread nD τ) 0 W')) -∗ K ⟨⟩))
      ⊢ wp frame (wpE (defs₀ (F := F)) Variants.none c none) Set.univ (cc2__gather_kernel i arg1 harg1 arg2 harg2 arg3 harg3 arg4 harg4 arg5 harg5 cc2_scratch1) K := by
  simp only [cc2__gather_kernel_eq_skeleton]; unfold cc2__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks2 c arg2 fx) := Cert.Toks.toks16_split _ _ _ _
  ihave H2' := htok.1 $$ H2
  icases H2' with ⟨HD, HT⟩
  sl_exec
  sl_for (k2_inv c i arg1 arg2 arg4 arg5 q ft fx f4) $$ [H1 HT H4 H5 HS HW]
  case region =>
    intro g acc
    exact k2_trip c i arg1 harg1 arg2 harg2 arg3 harg3 arg4 harg4 arg5 harg5 q ft fx htbl f4 g acc
  · unfold k2_inv
    isplitl [H1]; · iexact H1
    isplitl [HT]; · iexact HT
    isplitl [H4]; · iexact H4
    isplitl [H5]; · iexists _; iexact H5
    isplitl [HS]; · iexact HS
    iexists _; iexact HW
  iintro %acc HI; unfold k2_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs2 i tbl x (Scf.trips k2_t1_loop.lb k2_t1_loop.ub k2_t1_loop.st), y ∈ p.1.set :=
      cover_pcs2 i tbl x
    have h2 : arg4.view.readCov (pcs2 i tbl x (Scf.trips k2_t1_loop.lb k2_t1_loop.ub k2_t1_loop.st))
        (Rect.unit (s := S800x256) ![0, 0] S800x256.size inb_S800x256_S800x256_0_0).toLoadRect = loopArr2 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.Kernel.Hand

end
-- ==== Proof.K.Region2.lean ====
import proofs.«411766_j31920196944464_2_alg».proof.Proof.K.Body2
import proofs.«411766_j31920196944464_2_alg».proof.Proof.K.Common
import proofs.«411766_j31920196944464_2_alg».proof.Proof.Gen.Kernel.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg2 (F := F)).Adm)

def iblk2 (c : Dev nD) (w : Fin (cfg2 a0).W) (t : Fin (cfg2 a0).N) : (((cfg2 a0).win w).xblock ((cfg2 a0).grid.coords t)).Idx → Elt F ((cfg2 a0).win w).elt :=
  (((cfg2 a0).win w).blk t).view.read (Elt F) (Vd c (Pipeline.arrRef spec2 w))

abbrev osem2 : Fin 16 → SemLoc sig := fun k =>
  (![SemLoc.dma 47, SemLoc.dma 48, SemLoc.dma 49, SemLoc.dma 50, SemLoc.dma 51, SemLoc.dma 52, SemLoc.dma 53, SemLoc.dma 54,
     SemLoc.dma 55, SemLoc.dma 56, SemLoc.dma 57, SemLoc.dma 58, SemLoc.dma 59, SemLoc.dma 60, SemLoc.dma 61, SemLoc.dma 62] : Fin 16 → SemLoc sig) k

theorem ownSemFacts2 : Pipeline.OwnSemFacts spec2 osem2 := by decide

theorem ownSems02_eq (c : Dev nD) :
    (Pipeline.ownSems0 (Ix := Unit) (Name := ℕ) (U := Pipeline.UD sig nD τ) (Lvl := ℕ) (Val := Elt F) (τ := τ) osem2 c : sProp 𝕄) = sems2 c := by
  rw [Pipeline.ownSems0_eq_of_list c osem2 [0, 1, 2, 3, 4, 5, 6, 7, 8, 9, 10, 11, 12, 13, 14, 15] (by decide) (by decide)]; rfl

theorem prefHeld2_eq (c : Dev nD) (pf : pre2.Contents (Elt F)) :
    (Pipeline.prefHeld (Ix := Unit) (Name := ℕ) (U := Pipeline.UD sig nD τ) (Lvl := ℕ) pre2 c (fun _ => fullShare) pf : sProp 𝕄)
      = owns (c : Thread nD τ) (Memref.whole main_v8) fullShare (pf 0) := by
  refine Eq.trans ?_ (owns_whole (c : Thread nD τ) main_v8 fullShare (pf 0)).symm
  unfold Pipeline.prefHeld
  exact bigSep_univ_eq_bigSepL [(0 : Fin 1)] (by decide) (by decide) _

theorem scratch2_eq (c : Dev nD) :
    (iprop(∃ f : Buf (Elt F) ((c : Thread nD τ).loc cc2_scratch0), ((c : Thread nD τ).loc cc2_scratch0) ↦{fullShare} f) : sProp 𝕄)
      = iprop(∃ d, owns (c : Thread nD τ) (Memref.whole cc2_scratch0) fullShare d) := by
  simp only [owns_whole]

def HCol2 : Prop := ∀ e, ((a0.1 0 : Vec F S80000 .i32) e).toNat < 20000

def Φ2 (c : Dev nD) : sProp 𝕄 :=
  iprop(Pipeline.ownSems0 osem2 c ∗ Pipeline.prefHeld pre2 c (fun _ => fullShare) a0.1 ∗ Pipeline.scopedRest spec2 c)

def dat2 (c : Dev nD) : Dat τ (Elt F) Unit ℕ (Pipeline.UD sig nD τ) ℕ (cfg2 a0) c where
  A w := Vd c (Pipeline.arrRef spec2 w)
  after w t := match w with
    | ⟨0, _⟩ => iblk2 Vd a0 c 0 t
    | ⟨1, _⟩ => iblk2 Vd a0 c 1 t
    | ⟨2, _⟩ => outBlk2 (grid2.coords t) (a0.1 0) (iblk2 Vd a0 c 0 t) (iblk2 Vd a0 c 1 t)
  Φ _ := Φ2 a0 c
  q _ := fullShare
  owed _ := 0

theorem A_eq2 (c : Dev nD) (w : Fin 3) : (dat2 Vd a0 c).A w = Vd c (Pipeline.arrRef spec2 w) := by
  dsimp only [dat2]

theorem after2_x (c : Dev nD) (t : Fin (cfg2 a0).N) : (dat2 Vd a0 c).after (0 : Fin 3) t = iblk2 Vd a0 c 0 t := by dsimp only [dat2]
theorem after2_val (c : Dev nD) (t : Fin (cfg2 a0).N) : (dat2 Vd a0 c).after (1 : Fin 3) t = iblk2 Vd a0 c 1 t := by dsimp only [dat2]
theorem after2_out (c : Dev nD) (t : Fin (cfg2 a0).N) :
    (dat2 Vd a0 c).after (2 : Fin 3) t = outBlk2 (grid2.coords t) (a0.1 0) (iblk2 Vd a0 c 0 t) (iblk2 Vd a0 c 1 t) := by dsimp only [dat2]

theorem before2_x (c : Dev nD) (t : Fin (cfg2 a0).N) (d) : (dat2 Vd a0 c).before 0 t d = iblk2 Vd a0 c 0 t := by
  refine ((dat2 Vd a0 c).before_in_eq_fetched 0 rfl (fun _ => rfl) (fun _ _ _ => rfl) (fun s => ?_) t d).trans ?_
  · rw [after2_x]; rfl
  · rfl
theorem before2_val (c : Dev nD) (t : Fin (cfg2 a0).N) (d) : (dat2 Vd a0 c).before 1 t d = iblk2 Vd a0 c 1 t := by
  refine ((dat2 Vd a0 c).before_in_eq_fetched 1 rfl (fun _ => rfl) (fun _ _ _ => rfl) (fun s => ?_) t d).trans ?_
  · rw [after2_val]; rfl
  · rfl

abbrev st2_x (t : Fin (cfg2 a0).N) := ((cfg2 a0).win 0).stage ((cfg2 a0).slots t 0)
abbrev st2_val (t : Fin (cfg2 a0).N) := ((cfg2 a0).win 1).stage ((cfg2 a0).slots t 1)
abbrev st2_out (t : Fin (cfg2 a0).N) := ((cfg2 a0).win 2).stage ((cfg2 a0).slots t 2)

abbrev bodyAt2 (t : Fin (cfg2 a0).N) : Prog (TpuEff nD τ sig (Elt F) Λ₀ .tc) PUnit :=
  cc2__gather_kernel (grid2.coords t) (Memref.whole main_v8) (Memref.isWhole_whole _)
    (spec2_0.stage ((cfg2 a0).slots t 0)) (hstage2_0 (((cfg2 a0).slots t 0).cast nbuf2_0))
    (spec2_1.stage ((cfg2 a0).slots t 1)) (hstage2_1 (((cfg2 a0).slots t 1).cast nbuf2_1))
    (spec2_2.stage ((cfg2 a0).slots t 2)) (hstage2_2 (((cfg2 a0).slots t 2).cast nbuf2_2))
    (Memref.whole cc2_scratch0) (Memref.isWhole_whole _) cc2_scratch1

def bodyPre2 (c : Dev nD) (t : Fin (cfg2 a0).N) : sProp 𝕄 :=
  iprop((dat2 Vd a0 c).Φ t.castSucc ∗ (dat2 Vd a0 c).owesAt () t.castSucc
    ∗ (∃ d, owns (c : Thread nD τ) (st2_x a0 t) fullShare ((dat2 Vd a0 c).before 0 t d))
    ∗ (∃ d, owns (c : Thread nD τ) (st2_val a0 t) fullShare ((dat2 Vd a0 c).before 1 t d))
    ∗ (∃ d, owns (c : Thread nD τ) (st2_out a0 t) fullShare ((dat2 Vd a0 c).before 2 t d)))

def bodyPost2 (c : Dev nD) (t : Fin (cfg2 a0).N) : sProp 𝕄 :=
  iprop((dat2 Vd a0 c).Φ t.succ ∗ (dat2 Vd a0 c).owesAt () t.succ
    ∗ owns (c : Thread nD τ) (st2_x a0 t) fullShare ((dat2 Vd a0 c).after 0 t)
    ∗ owns (c : Thread nD τ) (st2_val a0 t) fullShare ((dat2 Vd a0 c).after 1 t)
    ∗ owns (c : Thread nD τ) (st2_out a0 t) fullShare ((dat2 Vd a0 c).after 2 t))

theorem sound_body2 (hcol : HCol2 a0) (c : Dev nD) (t : Fin (cfg2 a0).N) :
    bodyPre2 Vd a0 c t ⊢ wp frame (wpE (defs₀ (F := F)) Variants.none c none) Set.univ (bodyAt2 a0 t) (fun _ => bodyPost2 Vd a0 c t) := by
  unfold bodyPre2 bodyPost2 bodyAt2
  simp only [before2_x, before2_val]
  rw [show (dat2 Vd a0 c).Φ t.succ = Φ2 a0 c from rfl, show (dat2 Vd a0 c).Φ t.castSucc = Φ2 a0 c from rfl,
    after2_x, after2_val, after2_out]
  unfold Φ2 Dat.owesAt Pipeline.owesWithin
  rw [scopedRest2_split, scratch2_eq, ownSems02_eq, prefHeld2_eq,
    show (dat2 Vd a0 c).owed t.castSucc = 0 from rfl, show (dat2 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel2 c (grid2.coords t) _ _ _ _ _ _ _ _ _ _ fullShare (a0.1 0) (iblk2 Vd a0 c 0 t) (iblk2 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation2 (hcol : HCol2 a0) (c : Dev nD) :
    BodyObligation (dat2 (F := F) Vd a0 c) (defs₀ (F := F)) Variants.none () Set.univ := fun t => by
  rw [bigSep_W2, bigSep_W2]
  exact sound_body2 Vd a0 hcol c t

abbrev X2 (c : Dev nD) : sProp 𝕄 := Pipeline.ownSems0 osem2 c
abbrev Y2 (c : Dev nD) : sProp 𝕄 := Pipeline.prefHeld pre2 c (fun _ => fullShare) a0.1
abbrev Z2 (V : Valuation τ sig (Elt F)) (c : Dev nD) : sProp 𝕄 :=
  iprop(Pipeline.unscopedRestP (Ix := Unit) (Name := ℕ) (U := Pipeline.UD sig nD τ) (Lvl := ℕ) pre2 spec2 c (fun b => V b) ∗ ∃ r, prngReg c r)

theorem hentry2 (c : Dev nD) (V : Valuation τ sig (Elt F)) (hA : ∀ w, Vd c (Pipeline.arrRef spec2 w) = V (Pipeline.arrRef spec2 w))
    (hT : ∀ k, a0.1 k = V (pre2.ref k)) :
    iprop(iprop(StableHlo.held (c : Thread nD τ) (Pipeline.ucRefs τ sig) V ∗ R c) ∗ Pipeline.ownSems0 osem2 c ∗ levAts L lv)
      ⊢ |={Set.univ}=> iprop((dat2 Vd a0 c).arrays ((dat2 Vd a0 c).arrAt · 0) ∗ Pipeline.prefHeld pre2 c (fun _ => fullShare) a0.1
          ∗ (dat2 Vd a0 c).owesAt () 0 ∗ X2 c ∗ Z2 V c) := by
  have hsplit := Pipeline.arrays_of_unscopedBufs (p := ()) (fun _ : Unit => pcfg2 (F := F)) (fun _ => a0) (fun _ c => dat2 Vd a0 c)
    (Ix := Unit) (Name := ℕ) (U := Pipeline.UD sig nD τ) (Lvl := ℕ) winFacts2 arr_whole2 c ((dat2 Vd a0 c).share_full fun _ => rfl) (fun b => V b) hA
  rw [Pipeline.unscopedBufs_held, Pipeline.unscopedRest_split preFacts2,
    show (fun k => V (pre2.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin2 (c : Dev nD) :
    iprop(X2 c ∗ Pipeline.prefHeld pre2 c (fun _ => fullShare) a0.1 ∗ Pipeline.scopedRest spec2 c) ⊢ (dat2 Vd a0 c).Φ 0 := by
  show _ ⊢ Φ2 a0 c
  unfold Φ2; exact .rfl

theorem hout2 (c : Dev nD) :
    (dat2 Vd a0 c).Φ (Fin.last (cfg2 a0).N) ⊢ iprop(Y2 a0 c ∗ Pipeline.ownSems0 osem2 c ∗ Pipeline.scopedRest spec2 c) := by
  show Φ2 a0 c ⊢ _
  unfold Φ2
  iintro ⟨Hs, Hp, Hr⟩
  isplitl [Hp]; · iexact Hp
  isplitl [Hs]; · iexact Hs
  iexact Hr

theorem hexit2 (c : Dev nD) (V Vp : Valuation τ sig (Elt F))
    (hF : ∀ w, (dat2 Vd a0 c).arrAt w (cfg2 a0).N = Vp (Pipeline.arrRef spec2 w))
    (hrest : ∀ b : Ref sig .tc, b ∉ Finset.univ.image (Pipeline.arrRef spec2) → Vp b = V b) (hT : ∀ k, a0.1 k = V (pre2.ref k)) :
    iprop((dat2 Vd a0 c).arrays ((dat2 Vd a0 c).arrAt · (cfg2 a0).N) ∗ (dat2 Vd a0 c).owesAt () (Fin.last (cfg2 a0).N) ∗ Y2 a0 c ∗ Z2 V c)
      ⊢ |={Set.univ}=> iprop(StableHlo.held (c : Thread nD τ) (Pipeline.ucRefs τ sig) Vp ∗ R c) := by
  have hjoin := Pipeline.unscopedBufs_of_arrays (p := ()) (fun _ : Unit => pcfg2 (F := F)) (fun _ => a0) (Ix := Unit) (Name := ℕ) (U := Pipeline.UD sig nD τ) (Lvl := ℕ)
    winFacts2 arr_whole2 c (fun _ c => dat2 Vd a0 c) ((dat2 Vd a0 c).share_full fun _ => rfl)
    (fun b => V b) (fun b => Vp b) ((dat2 Vd a0 c).arrAt · (cfg2 a0).N) hF hrest
  rw [Pipeline.unscopedBufs_held, Pipeline.unscopedRest_split preFacts2,
    show (fun k => V (pre2.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

end Region0
end Cert.Kernel.Hand
end
-- ==== Proof.K.Out3.lean ====
import proofs.«411766_j31920196944464_2_alg».proof.Proof.Gen.Kernel.Loops
import proofs.«411766_j31920196944464_2_alg».proof.Proof.Gather

set_option maxRecDepth 16384

noncomputable section

namespace Cert.Kernel.Hand

open Cert.Kernel Cert.Kernel.Gen
open Idealize.ShloMosaic Idealize.ShloMosaic.TcCoe

variable {F : FTy → Type} [FloatOps F]

def gath3 (i : grid3.Coords) (tbl : Vec F S80000 .i32) (x : Vec F S20000x256 .f32) (g : ℕ) : Vec F S16x256 .f32 :=
  Gather.gath (i 0).val tbl x g

def pcs3 (i : grid3.Coords) (tbl : Vec F S80000 .i32) (x : Vec F S20000x256 .f32) (n : ℕ) : List (View.Piece (Elt F) S800x256 .f32) :=
  Gather.pcs k3_off48 k3_off48_inb (i 0).val tbl x n

theorem pcs3_succ (i : grid3.Coords) (tbl : Vec F S80000 .i32) (x : Vec F S20000x256 .f32) (g : Fin k3_t1_loop.trips) :
    pcs3 i tbl x (g.val + 1)
      = ⟨Rect.unit (s := S800x256) (k3_off48 g) S16x256.size (k3_off48_inb g), gath3 i tbl x g.val⟩ :: pcs3 i tbl x g.val :=
  Gather.pcs_succ k3_off48 k3_off48_inb (i 0).val tbl x g

def loopArr3 (i : grid3.Coords) (tbl : Vec F S80000 .i32) (x : Vec F S20000x256 .f32) : Vec F S800x256 .f32 :=
  Gather.loopArr k3_off48 k3_off48_inb (i 0).val tbl x

def outBlk3 (i : grid3.Coords) (tbl : Vec F S80000 .i32) (x : Vec F S20000x256 .f32) (v : Vec F S800x1 .f32) : Vec F S800x256 .f32 :=
  k3_pay1 (loopArr3 i tbl x) v

theorem trips3 : k3_t1_loop.trips = 50 := by decide

theorem cover_pcs3 (i : grid3.Coords) (tbl : Vec F S80000 .i32) (x : Vec F S20000x256 .f32) :
    ∀ y : S800x256.Idx, ∃ p ∈ pcs3 i tbl x k3_t1_loop.trips, y ∈ p.1.set :=
  Gather.cover_pcs k3_off48 k3_off48_inb k3_off48_eq trips3 (i 0).val tbl x

end Cert.Kernel.Hand

end
-- ==== Proof.K.Body3.lean ====
import proofs.«411766_j31920196944464_2_alg».proof.Proof.K.Out3
import proofs.«411766_j31920196944464_2_alg».proof.Proof.K.Rows5
import proofs.«411766_j31920196944464_2_alg».proof.Proof.K.Rows5b
import proofs.«411766_j31920196944464_2_alg».proof.Proof.K.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems3 (c : Dev nD) : sProp 𝕄 :=
  iprop(semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0
    ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0
    ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0
    ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0)

abbrev tok3 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks3 (c : Dev nD) (arg2 : Memref sig .tc .vmem S20000x256 .f32) (fx : Buf (Elt F) (arg2.view.loc (c : Thread nD τ))) : sProp 𝕄 :=
  iprop(tok3 c arg2 fx 68 ∗ tok3 c arg2 fx 69 ∗ tok3 c arg2 fx 70 ∗ tok3 c arg2 fx 71 ∗ tok3 c arg2 fx 72 ∗ tok3 c arg2 fx 73 ∗ tok3 c arg2 fx 74 ∗ tok3 c arg2 fx 75
    ∗ tok3 c arg2 fx 76 ∗ tok3 c arg2 fx 77 ∗ tok3 c arg2 fx 78 ∗ tok3 c arg2 fx 79 ∗ tok3 c arg2 fx 80 ∗ tok3 c arg2 fx 81 ∗ tok3 c arg2 fx 82 ∗ tok3 c arg2 fx 83)

def k3_inv (c : Dev nD) (i : grid3.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks3 c arg2 fx
    ∗ (arg4.view.loc (c : Thread nD τ) ↦[arg4.view.set]{fullShare}
        arg4.view.writes (Elt F) f4 (pcs3 i (arg1.view.read (Elt F) ft) (arg2.view.read (Elt F) fx) n))
    ∗ (∃ f5, arg5.view.loc (c : Thread nD τ) ↦[arg5.view.set]{fullShare} f5)
    ∗ sems3 c ∗ (∃ W, owes (c : Thread nD τ) 0 W))

set_option maxHeartbeats 8000000 in

theorem k3_trip (c : Dev nD) (i : grid3.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k3_t1_loop.trips) (acc : Unit) :
    k3_inv c i arg1 arg2 arg4 arg5 q ft fx f4 g.val acc
      ⊢ wp frame (wpE (defs₀ (F := F)) Variants.none c none) Set.univ
          (k3_t1_body i arg1 harg1 arg2 harg2 arg3 harg3 arg4 harg4 arg5 harg5 cc3_scratch1 (Scalar.muli (BitVec.ofNat 32 (i 0).val) 800#32) g acc)
          (k3_inv c i arg1 arg2 arg4 arg5 q ft fx f4 (g.val + 1)) := by
  unfold k3_inv k3_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k3_chk1 (arg1.view.readAt (Elt F) (Rect.unit (s := S80000) (k3_off1 i g) S1.size (k3_off1_inb i g)).toLoadRect ft (Shape.Idx.first (numel1_S1.symm ▸ Nat.one_pos))) := row_inb2 _ (htbl _)
  have hc2 : k3_chk2 (arg1.view.readAt (Elt F) (Rect.unit (s := S80000) (k3_off3 i g) S1.size (k3_off3_inb i g)).toLoadRect ft (Shape.Idx.first (numel1_S1.symm ▸ Nat.one_pos))) := row_inb2 _ (htbl _)
  have hc3 : k3_chk3 (arg1.view.readAt (Elt F) (Rect.unit (s := S80000) (k3_off5 i g) S1.size (k3_off5_inb i g)).toLoadRect ft (Shape.Idx.first (numel1_S1.symm ▸ Nat.one_pos))) := row_inb2 _ (htbl _)
  have hc4 : k3_chk4 (arg1.view.readAt (Elt F) (Rect.unit (s := S80000) (k3_off7 i g) S1.size (k3_off7_inb i g)).toLoadRect ft (Shape.Idx.first (numel1_S1.symm ▸ Nat.one_pos))) := row_inb2 _ (htbl _)
  have hc5 : k3_chk5 (arg1.view.readAt (Elt F) (Rect.unit (s := S80000) (k3_off9 i g) S1.size (k3_off9_inb i g)).toLoadRect ft (Shape.Idx.first (numel1_S1.symm ▸ Nat.one_pos))) := row_inb2 _ (htbl _)
  have hc6 : k3_chk6 (arg1.view.readAt (Elt F) (Rect.unit (s := S80000) (k3_off11 i g) S1.size (k3_off11_inb i g)).toLoadRect ft (Shape.Idx.first (numel1_S1.symm ▸ Nat.one_pos))) := row_inb2 _ (htbl _)
  have hc7 : k3_chk7 (arg1.view.readAt (Elt F) (Rect.unit (s := S80000) (k3_off13 i g) S1.size (k3_off13_inb i g)).toLoadRect ft (Shape.Idx.first (numel1_S1.symm ▸ Nat.one_pos))) := row_inb2 _ (htbl _)
  have hc8 : k3_chk8 (arg1.view.readAt (Elt F) (Rect.unit (s := S80000) (k3_off15 i g) S1.size (k3_off15_inb i g)).toLoadRect ft (Shape.Idx.first (numel1_S1.symm ▸ Nat.one_pos))) := row_inb2 _ (htbl _)
  have hc9 : k3_chk9 (arg1.view.readAt (Elt F) (Rect.unit (s := S80000) (k3_off17 i g) S1.size (k3_off17_inb i g)).toLoadRect ft (Shape.Idx.first (numel1_S1.symm ▸ Nat.one_pos))) := row_inb2 _ (htbl _)
  have hc10 : k3_chk10 (arg1.view.readAt (Elt F) (Rect.unit (s := S80000) (k3_off19 i g) S1.size (k3_off19_inb i g)).toLoadRect ft (Shape.Idx.first (numel1_S1.symm ▸ Nat.one_pos))) := row_inb2 _ (htbl _)
  have hc11 : k3_chk11 (arg1.view.readAt (Elt F) (Rect.unit (s := S80000) (k3_off21 i g) S1.size (k3_off21_inb i g)).toLoadRect ft (Shape.Idx.first (numel1_S1.symm ▸ Nat.one_pos))) := row_inb2 _ (htbl _)
  have hc12 : k3_chk12 (arg1.view.readAt (Elt F) (Rect.unit (s := S80000) (k3_off23 i g) S1.size (k3_off23_inb i g)).toLoadRect ft (Shape.Idx.first (numel1_S1.symm ▸ Nat.one_pos))) := row_inb2 _ (htbl _)
  have hc13 : k3_chk13 (arg1.view.readAt (Elt F) (Rect.unit (s := S80000) (k3_off25 i g) S1.size (k3_off25_inb i g)).toLoadRect ft (Shape.Idx.first (numel1_S1.symm ▸ Nat.one_pos))) := row_inb2 _ (htbl _)
  have hc14 : k3_chk14 (arg1.view.readAt (Elt F) (Rect.unit (s := S80000) (k3_off27 i g) S1.size (k3_off27_inb i g)).toLoadRect ft (Shape.Idx.first (numel1_S1.symm ▸ Nat.one_pos))) := row_inb2 _ (htbl _)
  have hc15 : k3_chk15 (arg1.view.readAt (Elt F) (Rect.unit (s := S80000) (k3_off29 i g) S1.size (k3_off29_inb i g)).toLoadRect ft (Shape.Idx.first (numel1_S1.symm ▸ Nat.one_pos))) := row_inb2 _ (htbl _)
  have hc16 : k3_chk16 (arg1.view.readAt (Elt F) (Rect.unit (s := S80000) (k3_off31 i g) S1.size (k3_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k3_trip.sl.dma1 c i arg1 arg2 ft fx g hc1) (k3_trip.sl.dma2 c i arg1 arg2 ft fx g hc2) (k3_trip.sl.dma3 c i arg1 arg2 ft fx g hc3) (k3_trip.sl.dma4 c i arg1 arg2 ft fx g hc4) (k3_trip.sl.dma5 c i arg1 arg2 ft fx g hc5) (k3_trip.sl.dma6 c i arg1 arg2 ft fx g hc6) (k3_trip.sl.dma7 c i arg1 arg2 ft fx g hc7) (k3_trip.sl.dma8 c i arg1 arg2 ft fx g hc8) (k3_trip.sl.dma9 c i arg1 arg2 ft fx g hc9) (k3_trip.sl.dma10 c i arg1 arg2 ft fx g hc10) (k3_trip.sl.dma11 c i arg1 arg2 ft fx g hc11) (k3_trip.sl.dma12 c i arg1 arg2 ft fx g hc12) (k3_trip.sl.dma13 c i arg1 arg2 ft fx g hc13) (k3_trip.sl.dma14 c i arg1 arg2 ft fx g hc14) (k3_trip.sl.dma15 c i arg1 arg2 ft fx g hc15) (k3_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath3 i (arg1.view.read (Elt F) ft) (arg2.view.read (Elt F) fx) g.val :=
    scratch_reads arg5 c f5 g5 _ hg5 _ (fun k d => by
      have hi : (i 0).val < 100 := (i 0).isLt
      have hg : g.val < 50 := trips3 ▸ g.isLt
      fin_cases k
      · exact row_payload arg1 arg2 c ft fx _ _ _ (k3_off1_eq i g) (by omega) _ _ d
      · exact row_payload arg1 arg2 c ft fx _ _ _ (k3_off3_eq i g) (by omega) _ _ d
      · exact row_payload arg1 arg2 c ft fx _ _ _ (k3_off5_eq i g) (by omega) _ _ d
      · exact row_payload arg1 arg2 c ft fx _ _ _ (k3_off7_eq i g) (by omega) _ _ d
      · exact row_payload arg1 arg2 c ft fx _ _ _ (k3_off9_eq i g) (by omega) _ _ d
      · exact row_payload arg1 arg2 c ft fx _ _ _ (k3_off11_eq i g) (by omega) _ _ d
      · exact row_payload arg1 arg2 c ft fx _ _ _ (k3_off13_eq i g) (by omega) _ _ d
      · exact row_payload arg1 arg2 c ft fx _ _ _ (k3_off15_eq i g) (by omega) _ _ d
      · exact row_payload arg1 arg2 c ft fx _ _ _ (k3_off17_eq i g) (by omega) _ _ d
      · exact row_payload arg1 arg2 c ft fx _ _ _ (k3_off19_eq i g) (by omega) _ _ d
      · exact row_payload arg1 arg2 c ft fx _ _ _ (k3_off21_eq i g) (by omega) _ _ d
      · exact row_payload arg1 arg2 c ft fx _ _ _ (k3_off23_eq i g) (by omega) _ _ d
      · exact row_payload arg1 arg2 c ft fx _ _ _ (k3_off25_eq i g) (by omega) _ _ d
      · exact row_payload arg1 arg2 c ft fx _ _ _ (k3_off27_eq i g) (by omega) _ _ d
      · exact row_payload arg1 arg2 c ft fx _ _ _ (k3_off29_eq i g) (by omega) _ _ d
      · exact row_payload arg1 arg2 c ft fx _ _ _ (k3_off31_eq i g) (by omega) _ _ d
      ) _
  sl_exec
  sl_step
  rw [pcs3_succ, View.writes_cons]
  unfold k3_trip.sl.H4_w1
  sl_close

set_option maxHeartbeats 4000000 in

theorem sound_kernel3 (c : Dev nD) (i : grid3.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems3 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk3 i tbl x v) ∗ (∃ d, owns (c : Thread nD τ) arg5 fullShare d) ∗ sems3 c ∗ (∃ W', owes (c : Thread nD τ) 0 W')) -∗ K ⟨⟩))
      ⊢ wp frame (wpE (defs₀ (F := F)) Variants.none c none) Set.univ (cc3__gather_kernel i arg1 harg1 arg2 harg2 arg3 harg3 arg4 harg4 arg5 harg5 cc3_scratch1) K := by
  simp only [cc3__gather_kernel_eq_skeleton]; unfold cc3__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks3 c arg2 fx) := Cert.Toks.toks16_split _ _ _ _
  ihave H2' := htok.1 $$ H2
  icases H2' with ⟨HD, HT⟩
  sl_exec
  sl_for (k3_inv c i arg1 arg2 arg4 arg5 q ft fx f4) $$ [H1 HT H4 H5 HS HW]
  case region =>
    intro g acc
    exact k3_trip c i arg1 harg1 arg2 harg2 arg3 harg3 arg4 harg4 arg5 harg5 q ft fx htbl f4 g acc
  · unfold k3_inv
    isplitl [H1]; · iexact H1
    isplitl [HT]; · iexact HT
    isplitl [H4]; · iexact H4
    isplitl [H5]; · iexists _; iexact H5
    isplitl [HS]; · iexact HS
    iexists _; iexact HW
  iintro %acc HI; unfold k3_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs3 i tbl x (Scf.trips k3_t1_loop.lb k3_t1_loop.ub k3_t1_loop.st), y ∈ p.1.set :=
      cover_pcs3 i tbl x
    have h2 : arg4.view.readCov (pcs3 i tbl x (Scf.trips k3_t1_loop.lb k3_t1_loop.ub k3_t1_loop.st))
        (Rect.unit (s := S800x256) ![0, 0] S800x256.size inb_S800x256_S800x256_0_0).toLoadRect = loopArr3 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.Kernel.Hand

end
-- ==== Proof.K.Region3.lean ====
import proofs.«411766_j31920196944464_2_alg».proof.Proof.K.Body3
import proofs.«411766_j31920196944464_2_alg».proof.Proof.K.Common
import proofs.«411766_j31920196944464_2_alg».proof.Proof.Gen.Kernel.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg3 (F := F)).Adm)

def iblk3 (c : Dev nD) (w : Fin (cfg3 a0).W) (t : Fin (cfg3 a0).N) : (((cfg3 a0).win w).xblock ((cfg3 a0).grid.coords t)).Idx → Elt F ((cfg3 a0).win w).elt :=
  (((cfg3 a0).win w).blk t).view.read (Elt F) (Vd c (Pipeline.arrRef spec3 w))

abbrev osem3 : Fin 16 → SemLoc sig := fun k =>
  (![SemLoc.dma 68, SemLoc.dma 69, SemLoc.dma 70, SemLoc.dma 71, SemLoc.dma 72, SemLoc.dma 73, SemLoc.dma 74, SemLoc.dma 75,
     SemLoc.dma 76, SemLoc.dma 77, SemLoc.dma 78, SemLoc.dma 79, SemLoc.dma 80, SemLoc.dma 81, SemLoc.dma 82, SemLoc.dma 83] : Fin 16 → SemLoc sig) k

theorem ownSemFacts3 : Pipeline.OwnSemFacts spec3 osem3 := by decide

theorem ownSems03_eq (c : Dev nD) :
    (Pipeline.ownSems0 (Ix := Unit) (Name := ℕ) (U := Pipeline.UD sig nD τ) (Lvl := ℕ) (Val := Elt F) (τ := τ) osem3 c : sProp 𝕄) = sems3 c := by
  rw [Pipeline.ownSems0_eq_of_list c osem3 [0, 1, 2, 3, 4, 5, 6, 7, 8, 9, 10, 11, 12, 13, 14, 15] (by decide) (by decide)]; rfl

theorem prefHeld3_eq (c : Dev nD) (pf : pre3.Contents (Elt F)) :
    (Pipeline.prefHeld (Ix := Unit) (Name := ℕ) (U := Pipeline.UD sig nD τ) (Lvl := ℕ) pre3 c (fun _ => fullShare) pf : sProp 𝕄)
      = owns (c : Thread nD τ) (Memref.whole main_v12) fullShare (pf 0) := by
  refine Eq.trans ?_ (owns_whole (c : Thread nD τ) main_v12 fullShare (pf 0)).symm
  unfold Pipeline.prefHeld
  exact bigSep_univ_eq_bigSepL [(0 : Fin 1)] (by decide) (by decide) _

theorem scratch3_eq (c : Dev nD) :
    (iprop(∃ f : Buf (Elt F) ((c : Thread nD τ).loc cc3_scratch0), ((c : Thread nD τ).loc cc3_scratch0) ↦{fullShare} f) : sProp 𝕄)
      = iprop(∃ d, owns (c : Thread nD τ) (Memref.whole cc3_scratch0) fullShare d) := by
  simp only [owns_whole]

def HCol3 : Prop := ∀ e, ((a0.1 0 : Vec F S80000 .i32) e).toNat < 20000

def Φ3 (c : Dev nD) : sProp 𝕄 :=
  iprop(Pipeline.ownSems0 osem3 c ∗ Pipeline.prefHeld pre3 c (fun _ => fullShare) a0.1 ∗ Pipeline.scopedRest spec3 c)

def dat3 (c : Dev nD) : Dat τ (Elt F) Unit ℕ (Pipeline.UD sig nD τ) ℕ (cfg3 a0) c where
  A w := Vd c (Pipeline.arrRef spec3 w)
  after w t := match w with
    | ⟨0, _⟩ => iblk3 Vd a0 c 0 t
    | ⟨1, _⟩ => iblk3 Vd a0 c 1 t
    | ⟨2, _⟩ => outBlk3 (grid3.coords t) (a0.1 0) (iblk3 Vd a0 c 0 t) (iblk3 Vd a0 c 1 t)
  Φ _ := Φ3 a0 c
  q _ := fullShare
  owed _ := 0

theorem A_eq3 (c : Dev nD) (w : Fin 3) : (dat3 Vd a0 c).A w = Vd c (Pipeline.arrRef spec3 w) := by
  dsimp only [dat3]

theorem after3_x (c : Dev nD) (t : Fin (cfg3 a0).N) : (dat3 Vd a0 c).after (0 : Fin 3) t = iblk3 Vd a0 c 0 t := by dsimp only [dat3]
theorem after3_val (c : Dev nD) (t : Fin (cfg3 a0).N) : (dat3 Vd a0 c).after (1 : Fin 3) t = iblk3 Vd a0 c 1 t := by dsimp only [dat3]
theorem after3_out (c : Dev nD) (t : Fin (cfg3 a0).N) :
    (dat3 Vd a0 c).after (2 : Fin 3) t = outBlk3 (grid3.coords t) (a0.1 0) (iblk3 Vd a0 c 0 t) (iblk3 Vd a0 c 1 t) := by dsimp only [dat3]

theorem before3_x (c : Dev nD) (t : Fin (cfg3 a0).N) (d) : (dat3 Vd a0 c).before 0 t d = iblk3 Vd a0 c 0 t := by
  refine ((dat3 Vd a0 c).before_in_eq_fetched 0 rfl (fun _ => rfl) (fun _ _ _ => rfl) (fun s => ?_) t d).trans ?_
  · rw [after3_x]; rfl
  · rfl
theorem before3_val (c : Dev nD) (t : Fin (cfg3 a0).N) (d) : (dat3 Vd a0 c).before 1 t d = iblk3 Vd a0 c 1 t := by
  refine ((dat3 Vd a0 c).before_in_eq_fetched 1 rfl (fun _ => rfl) (fun _ _ _ => rfl) (fun s => ?_) t d).trans ?_
  · rw [after3_val]; rfl
  · rfl

abbrev st3_x (t : Fin (cfg3 a0).N) := ((cfg3 a0).win 0).stage ((cfg3 a0).slots t 0)
abbrev st3_val (t : Fin (cfg3 a0).N) := ((cfg3 a0).win 1).stage ((cfg3 a0).slots t 1)
abbrev st3_out (t : Fin (cfg3 a0).N) := ((cfg3 a0).win 2).stage ((cfg3 a0).slots t 2)

abbrev bodyAt3 (t : Fin (cfg3 a0).N) : Prog (TpuEff nD τ sig (Elt F) Λ₀ .tc) PUnit :=
  cc3__gather_kernel (grid3.coords t) (Memref.whole main_v12) (Memref.isWhole_whole _)
    (spec3_0.stage ((cfg3 a0).slots t 0)) (hstage3_0 (((cfg3 a0).slots t 0).cast nbuf3_0))
    (spec3_1.stage ((cfg3 a0).slots t 1)) (hstage3_1 (((cfg3 a0).slots t 1).cast nbuf3_1))
    (spec3_2.stage ((cfg3 a0).slots t 2)) (hstage3_2 (((cfg3 a0).slots t 2).cast nbuf3_2))
    (Memref.whole cc3_scratch0) (Memref.isWhole_whole _) cc3_scratch1

def bodyPre3 (c : Dev nD) (t : Fin (cfg3 a0).N) : sProp 𝕄 :=
  iprop((dat3 Vd a0 c).Φ t.castSucc ∗ (dat3 Vd a0 c).owesAt () t.castSucc
    ∗ (∃ d, owns (c : Thread nD τ) (st3_x a0 t) fullShare ((dat3 Vd a0 c).before 0 t d))
    ∗ (∃ d, owns (c : Thread nD τ) (st3_val a0 t) fullShare ((dat3 Vd a0 c).before 1 t d))
    ∗ (∃ d, owns (c : Thread nD τ) (st3_out a0 t) fullShare ((dat3 Vd a0 c).before 2 t d)))

def bodyPost3 (c : Dev nD) (t : Fin (cfg3 a0).N) : sProp 𝕄 :=
  iprop((dat3 Vd a0 c).Φ t.succ ∗ (dat3 Vd a0 c).owesAt () t.succ
    ∗ owns (c : Thread nD τ) (st3_x a0 t) fullShare ((dat3 Vd a0 c).after 0 t)
    ∗ owns (c : Thread nD τ) (st3_val a0 t) fullShare ((dat3 Vd a0 c).after 1 t)
    ∗ owns (c : Thread nD τ) (st3_out a0 t) fullShare ((dat3 Vd a0 c).after 2 t))

theorem sound_body3 (hcol : HCol3 a0) (c : Dev nD) (t : Fin (cfg3 a0).N) :
    bodyPre3 Vd a0 c t ⊢ wp frame (wpE (defs₀ (F := F)) Variants.none c none) Set.univ (bodyAt3 a0 t) (fun _ => bodyPost3 Vd a0 c t) := by
  unfold bodyPre3 bodyPost3 bodyAt3
  simp only [before3_x, before3_val]
  rw [show (dat3 Vd a0 c).Φ t.succ = Φ3 a0 c from rfl, show (dat3 Vd a0 c).Φ t.castSucc = Φ3 a0 c from rfl,
    after3_x, after3_val, after3_out]
  unfold Φ3 Dat.owesAt Pipeline.owesWithin
  rw [scopedRest3_split, scratch3_eq, ownSems03_eq, prefHeld3_eq,
    show (dat3 Vd a0 c).owed t.castSucc = 0 from rfl, show (dat3 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel3 c (grid3.coords t) _ _ _ _ _ _ _ _ _ _ fullShare (a0.1 0) (iblk3 Vd a0 c 0 t) (iblk3 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation3 (hcol : HCol3 a0) (c : Dev nD) :
    BodyObligation (dat3 (F := F) Vd a0 c) (defs₀ (F := F)) Variants.none () Set.univ := fun t => by
  rw [bigSep_W3, bigSep_W3]
  exact sound_body3 Vd a0 hcol c t

abbrev X3 (c : Dev nD) : sProp 𝕄 := Pipeline.ownSems0 osem3 c
abbrev Y3 (c : Dev nD) : sProp 𝕄 := Pipeline.prefHeld pre3 c (fun _ => fullShare) a0.1
abbrev Z3 (V : Valuation τ sig (Elt F)) (c : Dev nD) : sProp 𝕄 :=
  iprop(Pipeline.unscopedRestP (Ix := Unit) (Name := ℕ) (U := Pipeline.UD sig nD τ) (Lvl := ℕ) pre3 spec3 c (fun b => V b) ∗ ∃ r, prngReg c r)

theorem hentry3 (c : Dev nD) (V : Valuation τ sig (Elt F)) (hA : ∀ w, Vd c (Pipeline.arrRef spec3 w) = V (Pipeline.arrRef spec3 w))
    (hT : ∀ k, a0.1 k = V (pre3.ref k)) :
    iprop(iprop(StableHlo.held (c : Thread nD τ) (Pipeline.ucRefs τ sig) V ∗ R c) ∗ Pipeline.ownSems0 osem3 c ∗ levAts L lv)
      ⊢ |={Set.univ}=> iprop((dat3 Vd a0 c).arrays ((dat3 Vd a0 c).arrAt · 0) ∗ Pipeline.prefHeld pre3 c (fun _ => fullShare) a0.1
          ∗ (dat3 Vd a0 c).owesAt () 0 ∗ X3 c ∗ Z3 V c) := by
  have hsplit := Pipeline.arrays_of_unscopedBufs (p := ()) (fun _ : Unit => pcfg3 (F := F)) (fun _ => a0) (fun _ c => dat3 Vd a0 c)
    (Ix := Unit) (Name := ℕ) (U := Pipeline.UD sig nD τ) (Lvl := ℕ) winFacts3 arr_whole3 c ((dat3 Vd a0 c).share_full fun _ => rfl) (fun b => V b) hA
  rw [Pipeline.unscopedBufs_held, Pipeline.unscopedRest_split preFacts3,
    show (fun k => V (pre3.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin3 (c : Dev nD) :
    iprop(X3 c ∗ Pipeline.prefHeld pre3 c (fun _ => fullShare) a0.1 ∗ Pipeline.scopedRest spec3 c) ⊢ (dat3 Vd a0 c).Φ 0 := by
  show _ ⊢ Φ3 a0 c
  unfold Φ3; exact .rfl

theorem hout3 (c : Dev nD) :
    (dat3 Vd a0 c).Φ (Fin.last (cfg3 a0).N) ⊢ iprop(Y3 a0 c ∗ Pipeline.ownSems0 osem3 c ∗ Pipeline.scopedRest spec3 c) := by
  show Φ3 a0 c ⊢ _
  unfold Φ3
  iintro ⟨Hs, Hp, Hr⟩
  isplitl [Hp]; · iexact Hp
  isplitl [Hs]; · iexact Hs
  iexact Hr

theorem hexit3 (c : Dev nD) (V Vp : Valuation τ sig (Elt F))
    (hF : ∀ w, (dat3 Vd a0 c).arrAt w (cfg3 a0).N = Vp (Pipeline.arrRef spec3 w))
    (hrest : ∀ b : Ref sig .tc, b ∉ Finset.univ.image (Pipeline.arrRef spec3) → Vp b = V b) (hT : ∀ k, a0.1 k = V (pre3.ref k)) :
    iprop((dat3 Vd a0 c).arrays ((dat3 Vd a0 c).arrAt · (cfg3 a0).N) ∗ (dat3 Vd a0 c).owesAt () (Fin.last (cfg3 a0).N) ∗ Y3 a0 c ∗ Z3 V c)
      ⊢ |={Set.univ}=> iprop(StableHlo.held (c : Thread nD τ) (Pipeline.ucRefs τ sig) Vp ∗ R c) := by
  have hjoin := Pipeline.unscopedBufs_of_arrays (p := ()) (fun _ : Unit => pcfg3 (F := F)) (fun _ => a0) (Ix := Unit) (Name := ℕ) (U := Pipeline.UD sig nD τ) (Lvl := ℕ)
    winFacts3 arr_whole3 c (fun _ c => dat3 Vd a0 c) ((dat3 Vd a0 c).share_full fun _ => rfl)
    (fun b => V b) (fun b => Vp b) ((dat3 Vd a0 c).arrAt · (cfg3 a0).N) hF hrest
  rw [Pipeline.unscopedBufs_held, Pipeline.unscopedRest_split preFacts3,
    show (fun k => V (pre3.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

end Region0
end Cert.Kernel.Hand
end
-- ==== Proof.K.Out4.lean ====
import proofs.«411766_j31920196944464_2_alg».proof.Proof.Gen.Kernel.Loops
import proofs.«411766_j31920196944464_2_alg».proof.Proof.Gather

set_option maxRecDepth 16384

noncomputable section

namespace Cert.Kernel.Hand

open Cert.Kernel Cert.Kernel.Gen
open Idealize.ShloMosaic Idealize.ShloMosaic.TcCoe

variable {F : FTy → Type} [FloatOps F]

def gath4 (i : grid4.Coords) (tbl : Vec F S80000 .i32) (x : Vec F S20000x256 .f32) (g : ℕ) : Vec F S16x256 .f32 :=
  Gather.gath (i 0).val tbl x g

def pcs4 (i : grid4.Coords) (tbl : Vec F S80000 .i32) (x : Vec F S20000x256 .f32) (n : ℕ) : List (View.Piece (Elt F) S800x256 .f32) :=
  Gather.pcs k4_off48 k4_off48_inb (i 0).val tbl x n

theorem pcs4_succ (i : grid4.Coords) (tbl : Vec F S80000 .i32) (x : Vec F S20000x256 .f32) (g : Fin k4_t1_loop.trips) :
    pcs4 i tbl x (g.val + 1)
      = ⟨Rect.unit (s := S800x256) (k4_off48 g) S16x256.size (k4_off48_inb g), gath4 i tbl x g.val⟩ :: pcs4 i tbl x g.val :=
  Gather.pcs_succ k4_off48 k4_off48_inb (i 0).val tbl x g

def loopArr4 (i : grid4.Coords) (tbl : Vec F S80000 .i32) (x : Vec F S20000x256 .f32) : Vec F S800x256 .f32 :=
  Gather.loopArr k4_off48 k4_off48_inb (i 0).val tbl x

def outBlk4 (i : grid4.Coords) (tbl : Vec F S80000 .i32) (x : Vec F S20000x256 .f32) (v : Vec F S800x1 .f32) : Vec F S800x256 .f32 :=
  k4_pay1 (loopArr4 i tbl x) v

theorem trips4 : k4_t1_loop.trips = 50 := by decide

theorem cover_pcs4 (i : grid4.Coords) (tbl : Vec F S80000 .i32) (x : Vec F S20000x256 .f32) :
    ∀ y : S800x256.Idx, ∃ p ∈ pcs4 i tbl x k4_t1_loop.trips, y ∈ p.1.set :=
  Gather.cover_pcs k4_off48 k4_off48_inb k4_off48_eq trips4 (i 0).val tbl x

end Cert.Kernel.Hand

end
-- ==== Proof.K.Body4.lean ====
import proofs.«411766_j31920196944464_2_alg».proof.Proof.K.Out4
import proofs.«411766_j31920196944464_2_alg».proof.Proof.K.Rows5
import proofs.«411766_j31920196944464_2_alg».proof.Proof.K.Rows5b
import proofs.«411766_j31920196944464_2_alg».proof.Proof.K.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems4 (c : Dev nD) : sProp 𝕄 :=
  iprop(semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0
    ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0
    ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0
    ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0)

abbrev tok4 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks4 (c : Dev nD) (arg2 : Memref sig .tc .vmem S20000x256 .f32) (fx : Buf (Elt F) (arg2.view.loc (c : Thread nD τ))) : sProp 𝕄 :=
  iprop(tok4 c arg2 fx 89 ∗ tok4 c arg2 fx 90 ∗ tok4 c arg2 fx 91 ∗ tok4 c arg2 fx 92 ∗ tok4 c arg2 fx 93 ∗ tok4 c arg2 fx 94 ∗ tok4 c arg2 fx 95 ∗ tok4 c arg2 fx 96
    ∗ tok4 c arg2 fx 97 ∗ tok4 c arg2 fx 98 ∗ tok4 c arg2 fx 99 ∗ tok4 c arg2 fx 100 ∗ tok4 c arg2 fx 101 ∗ tok4 c arg2 fx 102 ∗ tok4 c arg2 fx 103 ∗ tok4 c arg2 fx 104)

def k4_inv (c : Dev nD) (i : grid4.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks4 c arg2 fx
    ∗ (arg4.view.loc (c : Thread nD τ) ↦[arg4.view.set]{fullShare}
        arg4.view.writes (Elt F) f4 (pcs4 i (arg1.view.read (Elt F) ft) (arg2.view.read (Elt F) fx) n))
    ∗ (∃ f5, arg5.view.loc (c : Thread nD τ) ↦[arg5.view.set]{fullShare} f5)
    ∗ sems4 c ∗ (∃ W, owes (c : Thread nD τ) 0 W))

set_option maxHeartbeats 8000000 in

theorem k4_trip (c : Dev nD) (i : grid4.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k4_t1_loop.trips) (acc : Unit) :
    k4_inv c i arg1 arg2 arg4 arg5 q ft fx f4 g.val acc
      ⊢ wp frame (wpE (defs₀ (F := F)) Variants.none c none) Set.univ
          (k4_t1_body i arg1 harg1 arg2 harg2 arg3 harg3 arg4 harg4 arg5 harg5 cc4_scratch1 (Scalar.muli (BitVec.ofNat 32 (i 0).val) 800#32) g acc)
          (k4_inv c i arg1 arg2 arg4 arg5 q ft fx f4 (g.val + 1)) := by
  unfold k4_inv k4_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k4_chk1 (arg1.view.readAt (Elt F) (Rect.unit (s := S80000) (k4_off1 i g) S1.size (k4_off1_inb i g)).toLoadRect ft (Shape.Idx.first (numel1_S1.symm ▸ Nat.one_pos))) := row_inb2 _ (htbl _)
  have hc2 : k4_chk2 (arg1.view.readAt (Elt F) (Rect.unit (s := S80000) (k4_off3 i g) S1.size (k4_off3_inb i g)).toLoadRect ft (Shape.Idx.first (numel1_S1.symm ▸ Nat.one_pos))) := row_inb2 _ (htbl _)
  have hc3 : k4_chk3 (arg1.view.readAt (Elt F) (Rect.unit (s := S80000) (k4_off5 i g) S1.size (k4_off5_inb i g)).toLoadRect ft (Shape.Idx.first (numel1_S1.symm ▸ Nat.one_pos))) := row_inb2 _ (htbl _)
  have hc4 : k4_chk4 (arg1.view.readAt (Elt F) (Rect.unit (s := S80000) (k4_off7 i g) S1.size (k4_off7_inb i g)).toLoadRect ft (Shape.Idx.first (numel1_S1.symm ▸ Nat.one_pos))) := row_inb2 _ (htbl _)
  have hc5 : k4_chk5 (arg1.view.readAt (Elt F) (Rect.unit (s := S80000) (k4_off9 i g) S1.size (k4_off9_inb i g)).toLoadRect ft (Shape.Idx.first (numel1_S1.symm ▸ Nat.one_pos))) := row_inb2 _ (htbl _)
  have hc6 : k4_chk6 (arg1.view.readAt (Elt F) (Rect.unit (s := S80000) (k4_off11 i g) S1.size (k4_off11_inb i g)).toLoadRect ft (Shape.Idx.first (numel1_S1.symm ▸ Nat.one_pos))) := row_inb2 _ (htbl _)
  have hc7 : k4_chk7 (arg1.view.readAt (Elt F) (Rect.unit (s := S80000) (k4_off13 i g) S1.size (k4_off13_inb i g)).toLoadRect ft (Shape.Idx.first (numel1_S1.symm ▸ Nat.one_pos))) := row_inb2 _ (htbl _)
  have hc8 : k4_chk8 (arg1.view.readAt (Elt F) (Rect.unit (s := S80000) (k4_off15 i g) S1.size (k4_off15_inb i g)).toLoadRect ft (Shape.Idx.first (numel1_S1.symm ▸ Nat.one_pos))) := row_inb2 _ (htbl _)
  have hc9 : k4_chk9 (arg1.view.readAt (Elt F) (Rect.unit (s := S80000) (k4_off17 i g) S1.size (k4_off17_inb i g)).toLoadRect ft (Shape.Idx.first (numel1_S1.symm ▸ Nat.one_pos))) := row_inb2 _ (htbl _)
  have hc10 : k4_chk10 (arg1.view.readAt (Elt F) (Rect.unit (s := S80000) (k4_off19 i g) S1.size (k4_off19_inb i g)).toLoadRect ft (Shape.Idx.first (numel1_S1.symm ▸ Nat.one_pos))) := row_inb2 _ (htbl _)
  have hc11 : k4_chk11 (arg1.view.readAt (Elt F) (Rect.unit (s := S80000) (k4_off21 i g) S1.size (k4_off21_inb i g)).toLoadRect ft (Shape.Idx.first (numel1_S1.symm ▸ Nat.one_pos))) := row_inb2 _ (htbl _)
  have hc12 : k4_chk12 (arg1.view.readAt (Elt F) (Rect.unit (s := S80000) (k4_off23 i g) S1.size (k4_off23_inb i g)).toLoadRect ft (Shape.Idx.first (numel1_S1.symm ▸ Nat.one_pos))) := row_inb2 _ (htbl _)
  have hc13 : k4_chk13 (arg1.view.readAt (Elt F) (Rect.unit (s := S80000) (k4_off25 i g) S1.size (k4_off25_inb i g)).toLoadRect ft (Shape.Idx.first (numel1_S1.symm ▸ Nat.one_pos))) := row_inb2 _ (htbl _)
  have hc14 : k4_chk14 (arg1.view.readAt (Elt F) (Rect.unit (s := S80000) (k4_off27 i g) S1.size (k4_off27_inb i g)).toLoadRect ft (Shape.Idx.first (numel1_S1.symm ▸ Nat.one_pos))) := row_inb2 _ (htbl _)
  have hc15 : k4_chk15 (arg1.view.readAt (Elt F) (Rect.unit (s := S80000) (k4_off29 i g) S1.size (k4_off29_inb i g)).toLoadRect ft (Shape.Idx.first (numel1_S1.symm ▸ Nat.one_pos))) := row_inb2 _ (htbl _)
  have hc16 : k4_chk16 (arg1.view.readAt (Elt F) (Rect.unit (s := S80000) (k4_off31 i g) S1.size (k4_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k4_trip.sl.dma1 c i arg1 arg2 ft fx g hc1) (k4_trip.sl.dma2 c i arg1 arg2 ft fx g hc2) (k4_trip.sl.dma3 c i arg1 arg2 ft fx g hc3) (k4_trip.sl.dma4 c i arg1 arg2 ft fx g hc4) (k4_trip.sl.dma5 c i arg1 arg2 ft fx g hc5) (k4_trip.sl.dma6 c i arg1 arg2 ft fx g hc6) (k4_trip.sl.dma7 c i arg1 arg2 ft fx g hc7) (k4_trip.sl.dma8 c i arg1 arg2 ft fx g hc8) (k4_trip.sl.dma9 c i arg1 arg2 ft fx g hc9) (k4_trip.sl.dma10 c i arg1 arg2 ft fx g hc10) (k4_trip.sl.dma11 c i arg1 arg2 ft fx g hc11) (k4_trip.sl.dma12 c i arg1 arg2 ft fx g hc12) (k4_trip.sl.dma13 c i arg1 arg2 ft fx g hc13) (k4_trip.sl.dma14 c i arg1 arg2 ft fx g hc14) (k4_trip.sl.dma15 c i arg1 arg2 ft fx g hc15) (k4_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath4 i (arg1.view.read (Elt F) ft) (arg2.view.read (Elt F) fx) g.val :=
    scratch_reads arg5 c f5 g5 _ hg5 _ (fun k d => by
      have hi : (i 0).val < 100 := (i 0).isLt
      have hg : g.val < 50 := trips4 ▸ g.isLt
      fin_cases k
      · exact row_payload arg1 arg2 c ft fx _ _ _ (k4_off1_eq i g) (by omega) _ _ d
      · exact row_payload arg1 arg2 c ft fx _ _ _ (k4_off3_eq i g) (by omega) _ _ d
      · exact row_payload arg1 arg2 c ft fx _ _ _ (k4_off5_eq i g) (by omega) _ _ d
      · exact row_payload arg1 arg2 c ft fx _ _ _ (k4_off7_eq i g) (by omega) _ _ d
      · exact row_payload arg1 arg2 c ft fx _ _ _ (k4_off9_eq i g) (by omega) _ _ d
      · exact row_payload arg1 arg2 c ft fx _ _ _ (k4_off11_eq i g) (by omega) _ _ d
      · exact row_payload arg1 arg2 c ft fx _ _ _ (k4_off13_eq i g) (by omega) _ _ d
      · exact row_payload arg1 arg2 c ft fx _ _ _ (k4_off15_eq i g) (by omega) _ _ d
      · exact row_payload arg1 arg2 c ft fx _ _ _ (k4_off17_eq i g) (by omega) _ _ d
      · exact row_payload arg1 arg2 c ft fx _ _ _ (k4_off19_eq i g) (by omega) _ _ d
      · exact row_payload arg1 arg2 c ft fx _ _ _ (k4_off21_eq i g) (by omega) _ _ d
      · exact row_payload arg1 arg2 c ft fx _ _ _ (k4_off23_eq i g) (by omega) _ _ d
      · exact row_payload arg1 arg2 c ft fx _ _ _ (k4_off25_eq i g) (by omega) _ _ d
      · exact row_payload arg1 arg2 c ft fx _ _ _ (k4_off27_eq i g) (by omega) _ _ d
      · exact row_payload arg1 arg2 c ft fx _ _ _ (k4_off29_eq i g) (by omega) _ _ d
      · exact row_payload arg1 arg2 c ft fx _ _ _ (k4_off31_eq i g) (by omega) _ _ d
      ) _
  sl_exec
  sl_step
  rw [pcs4_succ, View.writes_cons]
  unfold k4_trip.sl.H4_w1
  sl_close

set_option maxHeartbeats 4000000 in

theorem sound_kernel4 (c : Dev nD) (i : grid4.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems4 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk4 i tbl x v) ∗ (∃ d, owns (c : Thread nD τ) arg5 fullShare d) ∗ sems4 c ∗ (∃ W', owes (c : Thread nD τ) 0 W')) -∗ K ⟨⟩))
      ⊢ wp frame (wpE (defs₀ (F := F)) Variants.none c none) Set.univ (cc4__gather_kernel i arg1 harg1 arg2 harg2 arg3 harg3 arg4 harg4 arg5 harg5 cc4_scratch1) K := by
  simp only [cc4__gather_kernel_eq_skeleton]; unfold cc4__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks4 c arg2 fx) := Cert.Toks.toks16_split _ _ _ _
  ihave H2' := htok.1 $$ H2
  icases H2' with ⟨HD, HT⟩
  sl_exec
  sl_for (k4_inv c i arg1 arg2 arg4 arg5 q ft fx f4) $$ [H1 HT H4 H5 HS HW]
  case region =>
    intro g acc
    exact k4_trip c i arg1 harg1 arg2 harg2 arg3 harg3 arg4 harg4 arg5 harg5 q ft fx htbl f4 g acc
  · unfold k4_inv
    isplitl [H1]; · iexact H1
    isplitl [HT]; · iexact HT
    isplitl [H4]; · iexact H4
    isplitl [H5]; · iexists _; iexact H5
    isplitl [HS]; · iexact HS
    iexists _; iexact HW
  iintro %acc HI; unfold k4_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs4 i tbl x (Scf.trips k4_t1_loop.lb k4_t1_loop.ub k4_t1_loop.st), y ∈ p.1.set :=
      cover_pcs4 i tbl x
    have h2 : arg4.view.readCov (pcs4 i tbl x (Scf.trips k4_t1_loop.lb k4_t1_loop.ub k4_t1_loop.st))
        (Rect.unit (s := S800x256) ![0, 0] S800x256.size inb_S800x256_S800x256_0_0).toLoadRect = loopArr4 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.Kernel.Hand

end
-- ==== Proof.K.Region4.lean ====
import proofs.«411766_j31920196944464_2_alg».proof.Proof.K.Body4
import proofs.«411766_j31920196944464_2_alg».proof.Proof.K.Common
import proofs.«411766_j31920196944464_2_alg».proof.Proof.Gen.Kernel.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg4 (F := F)).Adm)

def iblk4 (c : Dev nD) (w : Fin (cfg4 a0).W) (t : Fin (cfg4 a0).N) : (((cfg4 a0).win w).xblock ((cfg4 a0).grid.coords t)).Idx → Elt F ((cfg4 a0).win w).elt :=
  (((cfg4 a0).win w).blk t).view.read (Elt F) (Vd c (Pipeline.arrRef spec4 w))

abbrev osem4 : Fin 16 → SemLoc sig := fun k =>
  (![SemLoc.dma 89, SemLoc.dma 90, SemLoc.dma 91, SemLoc.dma 92, SemLoc.dma 93, SemLoc.dma 94, SemLoc.dma 95, SemLoc.dma 96,
     SemLoc.dma 97, SemLoc.dma 98, SemLoc.dma 99, SemLoc.dma 100, SemLoc.dma 101, SemLoc.dma 102, SemLoc.dma 103, SemLoc.dma 104] : Fin 16 → SemLoc sig) k

theorem ownSemFacts4 : Pipeline.OwnSemFacts spec4 osem4 := by decide

theorem ownSems04_eq (c : Dev nD) :
    (Pipeline.ownSems0 (Ix := Unit) (Name := ℕ) (U := Pipeline.UD sig nD τ) (Lvl := ℕ) (Val := Elt F) (τ := τ) osem4 c : sProp 𝕄) = sems4 c := by
  rw [Pipeline.ownSems0_eq_of_list c osem4 [0, 1, 2, 3, 4, 5, 6, 7, 8, 9, 10, 11, 12, 13, 14, 15] (by decide) (by decide)]; rfl

theorem prefHeld4_eq (c : Dev nD) (pf : pre4.Contents (Elt F)) :
    (Pipeline.prefHeld (Ix := Unit) (Name := ℕ) (U := Pipeline.UD sig nD τ) (Lvl := ℕ) pre4 c (fun _ => fullShare) pf : sProp 𝕄)
      = owns (c : Thread nD τ) (Memref.whole main_v20) fullShare (pf 0) := by
  refine Eq.trans ?_ (owns_whole (c : Thread nD τ) main_v20 fullShare (pf 0)).symm
  unfold Pipeline.prefHeld
  exact bigSep_univ_eq_bigSepL [(0 : Fin 1)] (by decide) (by decide) _

theorem scratch4_eq (c : Dev nD) :
    (iprop(∃ f : Buf (Elt F) ((c : Thread nD τ).loc cc4_scratch0), ((c : Thread nD τ).loc cc4_scratch0) ↦{fullShare} f) : sProp 𝕄)
      = iprop(∃ d, owns (c : Thread nD τ) (Memref.whole cc4_scratch0) fullShare d) := by
  simp only [owns_whole]

def HCol4 : Prop := ∀ e, ((a0.1 0 : Vec F S80000 .i32) e).toNat < 20000

def Φ4 (c : Dev nD) : sProp 𝕄 :=
  iprop(Pipeline.ownSems0 osem4 c ∗ Pipeline.prefHeld pre4 c (fun _ => fullShare) a0.1 ∗ Pipeline.scopedRest spec4 c)

def dat4 (c : Dev nD) : Dat τ (Elt F) Unit ℕ (Pipeline.UD sig nD τ) ℕ (cfg4 a0) c where
  A w := Vd c (Pipeline.arrRef spec4 w)
  after w t := match w with
    | ⟨0, _⟩ => iblk4 Vd a0 c 0 t
    | ⟨1, _⟩ => iblk4 Vd a0 c 1 t
    | ⟨2, _⟩ => outBlk4 (grid4.coords t) (a0.1 0) (iblk4 Vd a0 c 0 t) (iblk4 Vd a0 c 1 t)
  Φ _ := Φ4 a0 c
  q _ := fullShare
  owed _ := 0

theorem A_eq4 (c : Dev nD) (w : Fin 3) : (dat4 Vd a0 c).A w = Vd c (Pipeline.arrRef spec4 w) := by
  dsimp only [dat4]

theorem after4_x (c : Dev nD) (t : Fin (cfg4 a0).N) : (dat4 Vd a0 c).after (0 : Fin 3) t = iblk4 Vd a0 c 0 t := by dsimp only [dat4]
theorem after4_val (c : Dev nD) (t : Fin (cfg4 a0).N) : (dat4 Vd a0 c).after (1 : Fin 3) t = iblk4 Vd a0 c 1 t := by dsimp only [dat4]
theorem after4_out (c : Dev nD) (t : Fin (cfg4 a0).N) :
    (dat4 Vd a0 c).after (2 : Fin 3) t = outBlk4 (grid4.coords t) (a0.1 0) (iblk4 Vd a0 c 0 t) (iblk4 Vd a0 c 1 t) := by dsimp only [dat4]

theorem before4_x (c : Dev nD) (t : Fin (cfg4 a0).N) (d) : (dat4 Vd a0 c).before 0 t d = iblk4 Vd a0 c 0 t := by
  refine ((dat4 Vd a0 c).before_in_eq_fetched 0 rfl (fun _ => rfl) (fun _ _ _ => rfl) (fun s => ?_) t d).trans ?_
  · rw [after4_x]; rfl
  · rfl
theorem before4_val (c : Dev nD) (t : Fin (cfg4 a0).N) (d) : (dat4 Vd a0 c).before 1 t d = iblk4 Vd a0 c 1 t := by
  refine ((dat4 Vd a0 c).before_in_eq_fetched 1 rfl (fun _ => rfl) (fun _ _ _ => rfl) (fun s => ?_) t d).trans ?_
  · rw [after4_val]; rfl
  · rfl

abbrev st4_x (t : Fin (cfg4 a0).N) := ((cfg4 a0).win 0).stage ((cfg4 a0).slots t 0)
abbrev st4_val (t : Fin (cfg4 a0).N) := ((cfg4 a0).win 1).stage ((cfg4 a0).slots t 1)
abbrev st4_out (t : Fin (cfg4 a0).N) := ((cfg4 a0).win 2).stage ((cfg4 a0).slots t 2)

abbrev bodyAt4 (t : Fin (cfg4 a0).N) : Prog (TpuEff nD τ sig (Elt F) Λ₀ .tc) PUnit :=
  cc4__gather_kernel (grid4.coords t) (Memref.whole main_v20) (Memref.isWhole_whole _)
    (spec4_0.stage ((cfg4 a0).slots t 0)) (hstage4_0 (((cfg4 a0).slots t 0).cast nbuf4_0))
    (spec4_1.stage ((cfg4 a0).slots t 1)) (hstage4_1 (((cfg4 a0).slots t 1).cast nbuf4_1))
    (spec4_2.stage ((cfg4 a0).slots t 2)) (hstage4_2 (((cfg4 a0).slots t 2).cast nbuf4_2))
    (Memref.whole cc4_scratch0) (Memref.isWhole_whole _) cc4_scratch1

def bodyPre4 (c : Dev nD) (t : Fin (cfg4 a0).N) : sProp 𝕄 :=
  iprop((dat4 Vd a0 c).Φ t.castSucc ∗ (dat4 Vd a0 c).owesAt () t.castSucc
    ∗ (∃ d, owns (c : Thread nD τ) (st4_x a0 t) fullShare ((dat4 Vd a0 c).before 0 t d))
    ∗ (∃ d, owns (c : Thread nD τ) (st4_val a0 t) fullShare ((dat4 Vd a0 c).before 1 t d))
    ∗ (∃ d, owns (c : Thread nD τ) (st4_out a0 t) fullShare ((dat4 Vd a0 c).before 2 t d)))

def bodyPost4 (c : Dev nD) (t : Fin (cfg4 a0).N) : sProp 𝕄 :=
  iprop((dat4 Vd a0 c).Φ t.succ ∗ (dat4 Vd a0 c).owesAt () t.succ
    ∗ owns (c : Thread nD τ) (st4_x a0 t) fullShare ((dat4 Vd a0 c).after 0 t)
    ∗ owns (c : Thread nD τ) (st4_val a0 t) fullShare ((dat4 Vd a0 c).after 1 t)
    ∗ owns (c : Thread nD τ) (st4_out a0 t) fullShare ((dat4 Vd a0 c).after 2 t))

theorem sound_body4 (hcol : HCol4 a0) (c : Dev nD) (t : Fin (cfg4 a0).N) :
    bodyPre4 Vd a0 c t ⊢ wp frame (wpE (defs₀ (F := F)) Variants.none c none) Set.univ (bodyAt4 a0 t) (fun _ => bodyPost4 Vd a0 c t) := by
  unfold bodyPre4 bodyPost4 bodyAt4
  simp only [before4_x, before4_val]
  rw [show (dat4 Vd a0 c).Φ t.succ = Φ4 a0 c from rfl, show (dat4 Vd a0 c).Φ t.castSucc = Φ4 a0 c from rfl,
    after4_x, after4_val, after4_out]
  unfold Φ4 Dat.owesAt Pipeline.owesWithin
  rw [scopedRest4_split, scratch4_eq, ownSems04_eq, prefHeld4_eq,
    show (dat4 Vd a0 c).owed t.castSucc = 0 from rfl, show (dat4 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel4 c (grid4.coords t) _ _ _ _ _ _ _ _ _ _ fullShare (a0.1 0) (iblk4 Vd a0 c 0 t) (iblk4 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation4 (hcol : HCol4 a0) (c : Dev nD) :
    BodyObligation (dat4 (F := F) Vd a0 c) (defs₀ (F := F)) Variants.none () Set.univ := fun t => by
  rw [bigSep_W4, bigSep_W4]
  exact sound_body4 Vd a0 hcol c t

abbrev X4 (c : Dev nD) : sProp 𝕄 := Pipeline.ownSems0 osem4 c
abbrev Y4 (c : Dev nD) : sProp 𝕄 := Pipeline.prefHeld pre4 c (fun _ => fullShare) a0.1
abbrev Z4 (V : Valuation τ sig (Elt F)) (c : Dev nD) : sProp 𝕄 :=
  iprop(Pipeline.unscopedRestP (Ix := Unit) (Name := ℕ) (U := Pipeline.UD sig nD τ) (Lvl := ℕ) pre4 spec4 c (fun b => V b) ∗ ∃ r, prngReg c r)

theorem hentry4 (c : Dev nD) (V : Valuation τ sig (Elt F)) (hA : ∀ w, Vd c (Pipeline.arrRef spec4 w) = V (Pipeline.arrRef spec4 w))
    (hT : ∀ k, a0.1 k = V (pre4.ref k)) :
    iprop(iprop(StableHlo.held (c : Thread nD τ) (Pipeline.ucRefs τ sig) V ∗ R c) ∗ Pipeline.ownSems0 osem4 c ∗ levAts L lv)
      ⊢ |={Set.univ}=> iprop((dat4 Vd a0 c).arrays ((dat4 Vd a0 c).arrAt · 0) ∗ Pipeline.prefHeld pre4 c (fun _ => fullShare) a0.1
          ∗ (dat4 Vd a0 c).owesAt () 0 ∗ X4 c ∗ Z4 V c) := by
  have hsplit := Pipeline.arrays_of_unscopedBufs (p := ()) (fun _ : Unit => pcfg4 (F := F)) (fun _ => a0) (fun _ c => dat4 Vd a0 c)
    (Ix := Unit) (Name := ℕ) (U := Pipeline.UD sig nD τ) (Lvl := ℕ) winFacts4 arr_whole4 c ((dat4 Vd a0 c).share_full fun _ => rfl) (fun b => V b) hA
  rw [Pipeline.unscopedBufs_held, Pipeline.unscopedRest_split preFacts4,
    show (fun k => V (pre4.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin4 (c : Dev nD) :
    iprop(X4 c ∗ Pipeline.prefHeld pre4 c (fun _ => fullShare) a0.1 ∗ Pipeline.scopedRest spec4 c) ⊢ (dat4 Vd a0 c).Φ 0 := by
  show _ ⊢ Φ4 a0 c
  unfold Φ4; exact .rfl

theorem hout4 (c : Dev nD) :
    (dat4 Vd a0 c).Φ (Fin.last (cfg4 a0).N) ⊢ iprop(Y4 a0 c ∗ Pipeline.ownSems0 osem4 c ∗ Pipeline.scopedRest spec4 c) := by
  show Φ4 a0 c ⊢ _
  unfold Φ4
  iintro ⟨Hs, Hp, Hr⟩
  isplitl [Hp]; · iexact Hp
  isplitl [Hs]; · iexact Hs
  iexact Hr

theorem hexit4 (c : Dev nD) (V Vp : Valuation τ sig (Elt F))
    (hF : ∀ w, (dat4 Vd a0 c).arrAt w (cfg4 a0).N = Vp (Pipeline.arrRef spec4 w))
    (hrest : ∀ b : Ref sig .tc, b ∉ Finset.univ.image (Pipeline.arrRef spec4) → Vp b = V b) (hT : ∀ k, a0.1 k = V (pre4.ref k)) :
    iprop((dat4 Vd a0 c).arrays ((dat4 Vd a0 c).arrAt · (cfg4 a0).N) ∗ (dat4 Vd a0 c).owesAt () (Fin.last (cfg4 a0).N) ∗ Y4 a0 c ∗ Z4 V c)
      ⊢ |={Set.univ}=> iprop(StableHlo.held (c : Thread nD τ) (Pipeline.ucRefs τ sig) Vp ∗ R c) := by
  have hjoin := Pipeline.unscopedBufs_of_arrays (p := ()) (fun _ : Unit => pcfg4 (F := F)) (fun _ => a0) (Ix := Unit) (Name := ℕ) (U := Pipeline.UD sig nD τ) (Lvl := ℕ)
    winFacts4 arr_whole4 c (fun _ c => dat4 Vd a0 c) ((dat4 Vd a0 c).share_full fun _ => rfl)
    (fun b => V b) (fun b => Vp b) ((dat4 Vd a0 c).arrAt · (cfg4 a0).N) hF hrest
  rw [Pipeline.unscopedBufs_held, Pipeline.unscopedRest_split preFacts4,
    show (fun k => V (pre4.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

end Region0
end Cert.Kernel.Hand
end
-- ==== Proof.K.Out5.lean ====
import proofs.«411766_j31920196944464_2_alg».proof.Proof.Gen.Kernel.Loops
import proofs.«411766_j31920196944464_2_alg».proof.Proof.Gather

set_option maxRecDepth 16384

noncomputable section

namespace Cert.Kernel.Hand

open Cert.Kernel Cert.Kernel.Gen
open Idealize.ShloMosaic Idealize.ShloMosaic.TcCoe

variable {F : FTy → Type} [FloatOps F]

def gath5 (i : grid5.Coords) (tbl : Vec F S80000 .i32) (x : Vec F S20000x256 .f32) (g : ℕ) : Vec F S16x256 .f32 :=
  Gather.gath (i 0).val tbl x g

def pcs5 (i : grid5.Coords) (tbl : Vec F S80000 .i32) (x : Vec F S20000x256 .f32) (n : ℕ) : List (View.Piece (Elt F) S800x256 .f32) :=
  Gather.pcs k5_off48 k5_off48_inb (i 0).val tbl x n

theorem pcs5_succ (i : grid5.Coords) (tbl : Vec F S80000 .i32) (x : Vec F S20000x256 .f32) (g : Fin k5_t1_loop.trips) :
    pcs5 i tbl x (g.val + 1)
      = ⟨Rect.unit (s := S800x256) (k5_off48 g) S16x256.size (k5_off48_inb g), gath5 i tbl x g.val⟩ :: pcs5 i tbl x g.val :=
  Gather.pcs_succ k5_off48 k5_off48_inb (i 0).val tbl x g

def loopArr5 (i : grid5.Coords) (tbl : Vec F S80000 .i32) (x : Vec F S20000x256 .f32) : Vec F S800x256 .f32 :=
  Gather.loopArr k5_off48 k5_off48_inb (i 0).val tbl x

def outBlk5 (i : grid5.Coords) (tbl : Vec F S80000 .i32) (x : Vec F S20000x256 .f32) (v : Vec F S800x1 .f32) : Vec F S800x256 .f32 :=
  k5_pay1 (loopArr5 i tbl x) v

theorem trips5 : k5_t1_loop.trips = 50 := by decide

theorem cover_pcs5 (i : grid5.Coords) (tbl : Vec F S80000 .i32) (x : Vec F S20000x256 .f32) :
    ∀ y : S800x256.Idx, ∃ p ∈ pcs5 i tbl x k5_t1_loop.trips, y ∈ p.1.set :=
  Gather.cover_pcs k5_off48 k5_off48_inb k5_off48_eq trips5 (i 0).val tbl x

end Cert.Kernel.Hand

end
-- ==== Proof.K.Body5.lean ====
import proofs.«411766_j31920196944464_2_alg».proof.Proof.K.Out5
import proofs.«411766_j31920196944464_2_alg».proof.Proof.K.Rows5
import proofs.«411766_j31920196944464_2_alg».proof.Proof.K.Rows5b
import proofs.«411766_j31920196944464_2_alg».proof.Proof.K.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems5 (c : Dev nD) : sProp 𝕄 :=
  iprop(semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0
    ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0
    ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0
    ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0)

abbrev tok5 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks5 (c : Dev nD) (arg2 : Memref sig .tc .vmem S20000x256 .f32) (fx : Buf (Elt F) (arg2.view.loc (c : Thread nD τ))) : sProp 𝕄 :=
  iprop(tok5 c arg2 fx 110 ∗ tok5 c arg2 fx 111 ∗ tok5 c arg2 fx 112 ∗ tok5 c arg2 fx 113 ∗ tok5 c arg2 fx 114 ∗ tok5 c arg2 fx 115 ∗ tok5 c arg2 fx 116 ∗ tok5 c arg2 fx 117
    ∗ tok5 c arg2 fx 118 ∗ tok5 c arg2 fx 119 ∗ tok5 c arg2 fx 120 ∗ tok5 c arg2 fx 121 ∗ tok5 c arg2 fx 122 ∗ tok5 c arg2 fx 123 ∗ tok5 c arg2 fx 124 ∗ tok5 c arg2 fx 125)

def k5_inv (c : Dev nD) (i : grid5.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks5 c arg2 fx
    ∗ (arg4.view.loc (c : Thread nD τ) ↦[arg4.view.set]{fullShare}
        arg4.view.writes (Elt F) f4 (pcs5 i (arg1.view.read (Elt F) ft) (arg2.view.read (Elt F) fx) n))
    ∗ (∃ f5, arg5.view.loc (c : Thread nD τ) ↦[arg5.view.set]{fullShare} f5)
    ∗ sems5 c ∗ (∃ W, owes (c : Thread nD τ) 0 W))

set_option maxHeartbeats 8000000 in

theorem k5_trip (c : Dev nD) (i : grid5.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k5_t1_loop.trips) (acc : Unit) :
    k5_inv c i arg1 arg2 arg4 arg5 q ft fx f4 g.val acc
      ⊢ wp frame (wpE (defs₀ (F := F)) Variants.none c none) Set.univ
          (k5_t1_body i arg1 harg1 arg2 harg2 arg3 harg3 arg4 harg4 arg5 harg5 cc5_scratch1 (Scalar.muli (BitVec.ofNat 32 (i 0).val) 800#32) g acc)
          (k5_inv c i arg1 arg2 arg4 arg5 q ft fx f4 (g.val + 1)) := by
  unfold k5_inv k5_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k5_chk1 (arg1.view.readAt (Elt F) (Rect.unit (s := S80000) (k5_off1 i g) S1.size (k5_off1_inb i g)).toLoadRect ft (Shape.Idx.first (numel1_S1.symm ▸ Nat.one_pos))) := row_inb2 _ (htbl _)
  have hc2 : k5_chk2 (arg1.view.readAt (Elt F) (Rect.unit (s := S80000) (k5_off3 i g) S1.size (k5_off3_inb i g)).toLoadRect ft (Shape.Idx.first (numel1_S1.symm ▸ Nat.one_pos))) := row_inb2 _ (htbl _)
  have hc3 : k5_chk3 (arg1.view.readAt (Elt F) (Rect.unit (s := S80000) (k5_off5 i g) S1.size (k5_off5_inb i g)).toLoadRect ft (Shape.Idx.first (numel1_S1.symm ▸ Nat.one_pos))) := row_inb2 _ (htbl _)
  have hc4 : k5_chk4 (arg1.view.readAt (Elt F) (Rect.unit (s := S80000) (k5_off7 i g) S1.size (k5_off7_inb i g)).toLoadRect ft (Shape.Idx.first (numel1_S1.symm ▸ Nat.one_pos))) := row_inb2 _ (htbl _)
  have hc5 : k5_chk5 (arg1.view.readAt (Elt F) (Rect.unit (s := S80000) (k5_off9 i g) S1.size (k5_off9_inb i g)).toLoadRect ft (Shape.Idx.first (numel1_S1.symm ▸ Nat.one_pos))) := row_inb2 _ (htbl _)
  have hc6 : k5_chk6 (arg1.view.readAt (Elt F) (Rect.unit (s := S80000) (k5_off11 i g) S1.size (k5_off11_inb i g)).toLoadRect ft (Shape.Idx.first (numel1_S1.symm ▸ Nat.one_pos))) := row_inb2 _ (htbl _)
  have hc7 : k5_chk7 (arg1.view.readAt (Elt F) (Rect.unit (s := S80000) (k5_off13 i g) S1.size (k5_off13_inb i g)).toLoadRect ft (Shape.Idx.first (numel1_S1.symm ▸ Nat.one_pos))) := row_inb2 _ (htbl _)
  have hc8 : k5_chk8 (arg1.view.readAt (Elt F) (Rect.unit (s := S80000) (k5_off15 i g) S1.size (k5_off15_inb i g)).toLoadRect ft (Shape.Idx.first (numel1_S1.symm ▸ Nat.one_pos))) := row_inb2 _ (htbl _)
  have hc9 : k5_chk9 (arg1.view.readAt (Elt F) (Rect.unit (s := S80000) (k5_off17 i g) S1.size (k5_off17_inb i g)).toLoadRect ft (Shape.Idx.first (numel1_S1.symm ▸ Nat.one_pos))) := row_inb2 _ (htbl _)
  have hc10 : k5_chk10 (arg1.view.readAt (Elt F) (Rect.unit (s := S80000) (k5_off19 i g) S1.size (k5_off19_inb i g)).toLoadRect ft (Shape.Idx.first (numel1_S1.symm ▸ Nat.one_pos))) := row_inb2 _ (htbl _)
  have hc11 : k5_chk11 (arg1.view.readAt (Elt F) (Rect.unit (s := S80000) (k5_off21 i g) S1.size (k5_off21_inb i g)).toLoadRect ft (Shape.Idx.first (numel1_S1.symm ▸ Nat.one_pos))) := row_inb2 _ (htbl _)
  have hc12 : k5_chk12 (arg1.view.readAt (Elt F) (Rect.unit (s := S80000) (k5_off23 i g) S1.size (k5_off23_inb i g)).toLoadRect ft (Shape.Idx.first (numel1_S1.symm ▸ Nat.one_pos))) := row_inb2 _ (htbl _)
  have hc13 : k5_chk13 (arg1.view.readAt (Elt F) (Rect.unit (s := S80000) (k5_off25 i g) S1.size (k5_off25_inb i g)).toLoadRect ft (Shape.Idx.first (numel1_S1.symm ▸ Nat.one_pos))) := row_inb2 _ (htbl _)
  have hc14 : k5_chk14 (arg1.view.readAt (Elt F) (Rect.unit (s := S80000) (k5_off27 i g) S1.size (k5_off27_inb i g)).toLoadRect ft (Shape.Idx.first (numel1_S1.symm ▸ Nat.one_pos))) := row_inb2 _ (htbl _)
  have hc15 : k5_chk15 (arg1.view.readAt (Elt F) (Rect.unit (s := S80000) (k5_off29 i g) S1.size (k5_off29_inb i g)).toLoadRect ft (Shape.Idx.first (numel1_S1.symm ▸ Nat.one_pos))) := row_inb2 _ (htbl _)
  have hc16 : k5_chk16 (arg1.view.readAt (Elt F) (Rect.unit (s := S80000) (k5_off31 i g) S1.size (k5_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k5_trip.sl.dma1 c i arg1 arg2 ft fx g hc1) (k5_trip.sl.dma2 c i arg1 arg2 ft fx g hc2) (k5_trip.sl.dma3 c i arg1 arg2 ft fx g hc3) (k5_trip.sl.dma4 c i arg1 arg2 ft fx g hc4) (k5_trip.sl.dma5 c i arg1 arg2 ft fx g hc5) (k5_trip.sl.dma6 c i arg1 arg2 ft fx g hc6) (k5_trip.sl.dma7 c i arg1 arg2 ft fx g hc7) (k5_trip.sl.dma8 c i arg1 arg2 ft fx g hc8) (k5_trip.sl.dma9 c i arg1 arg2 ft fx g hc9) (k5_trip.sl.dma10 c i arg1 arg2 ft fx g hc10) (k5_trip.sl.dma11 c i arg1 arg2 ft fx g hc11) (k5_trip.sl.dma12 c i arg1 arg2 ft fx g hc12) (k5_trip.sl.dma13 c i arg1 arg2 ft fx g hc13) (k5_trip.sl.dma14 c i arg1 arg2 ft fx g hc14) (k5_trip.sl.dma15 c i arg1 arg2 ft fx g hc15) (k5_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath5 i (arg1.view.read (Elt F) ft) (arg2.view.read (Elt F) fx) g.val :=
    scratch_reads arg5 c f5 g5 _ hg5 _ (fun k d => by
      have hi : (i 0).val < 100 := (i 0).isLt
      have hg : g.val < 50 := trips5 ▸ g.isLt
      fin_cases k
      · exact row_payload arg1 arg2 c ft fx _ _ _ (k5_off1_eq i g) (by omega) _ _ d
      · exact row_payload arg1 arg2 c ft fx _ _ _ (k5_off3_eq i g) (by omega) _ _ d
      · exact row_payload arg1 arg2 c ft fx _ _ _ (k5_off5_eq i g) (by omega) _ _ d
      · exact row_payload arg1 arg2 c ft fx _ _ _ (k5_off7_eq i g) (by omega) _ _ d
      · exact row_payload arg1 arg2 c ft fx _ _ _ (k5_off9_eq i g) (by omega) _ _ d
      · exact row_payload arg1 arg2 c ft fx _ _ _ (k5_off11_eq i g) (by omega) _ _ d
      · exact row_payload arg1 arg2 c ft fx _ _ _ (k5_off13_eq i g) (by omega) _ _ d
      · exact row_payload arg1 arg2 c ft fx _ _ _ (k5_off15_eq i g) (by omega) _ _ d
      · exact row_payload arg1 arg2 c ft fx _ _ _ (k5_off17_eq i g) (by omega) _ _ d
      · exact row_payload arg1 arg2 c ft fx _ _ _ (k5_off19_eq i g) (by omega) _ _ d
      · exact row_payload arg1 arg2 c ft fx _ _ _ (k5_off21_eq i g) (by omega) _ _ d
      · exact row_payload arg1 arg2 c ft fx _ _ _ (k5_off23_eq i g) (by omega) _ _ d
      · exact row_payload arg1 arg2 c ft fx _ _ _ (k5_off25_eq i g) (by omega) _ _ d
      · exact row_payload arg1 arg2 c ft fx _ _ _ (k5_off27_eq i g) (by omega) _ _ d
      · exact row_payload arg1 arg2 c ft fx _ _ _ (k5_off29_eq i g) (by omega) _ _ d
      · exact row_payload arg1 arg2 c ft fx _ _ _ (k5_off31_eq i g) (by omega) _ _ d
      ) _
  sl_exec
  sl_step
  rw [pcs5_succ, View.writes_cons]
  unfold k5_trip.sl.H4_w1
  sl_close

set_option maxHeartbeats 4000000 in

theorem sound_kernel5 (c : Dev nD) (i : grid5.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems5 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk5 i tbl x v) ∗ (∃ d, owns (c : Thread nD τ) arg5 fullShare d) ∗ sems5 c ∗ (∃ W', owes (c : Thread nD τ) 0 W')) -∗ K ⟨⟩))
      ⊢ wp frame (wpE (defs₀ (F := F)) Variants.none c none) Set.univ (cc5__gather_kernel i arg1 harg1 arg2 harg2 arg3 harg3 arg4 harg4 arg5 harg5 cc5_scratch1) K := by
  simp only [cc5__gather_kernel_eq_skeleton]; unfold cc5__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks5 c arg2 fx) := Cert.Toks.toks16_split _ _ _ _
  ihave H2' := htok.1 $$ H2
  icases H2' with ⟨HD, HT⟩
  sl_exec
  sl_for (k5_inv c i arg1 arg2 arg4 arg5 q ft fx f4) $$ [H1 HT H4 H5 HS HW]
  case region =>
    intro g acc
    exact k5_trip c i arg1 harg1 arg2 harg2 arg3 harg3 arg4 harg4 arg5 harg5 q ft fx htbl f4 g acc
  · unfold k5_inv
    isplitl [H1]; · iexact H1
    isplitl [HT]; · iexact HT
    isplitl [H4]; · iexact H4
    isplitl [H5]; · iexists _; iexact H5
    isplitl [HS]; · iexact HS
    iexists _; iexact HW
  iintro %acc HI; unfold k5_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs5 i tbl x (Scf.trips k5_t1_loop.lb k5_t1_loop.ub k5_t1_loop.st), y ∈ p.1.set :=
      cover_pcs5 i tbl x
    have h2 : arg4.view.readCov (pcs5 i tbl x (Scf.trips k5_t1_loop.lb k5_t1_loop.ub k5_t1_loop.st))
        (Rect.unit (s := S800x256) ![0, 0] S800x256.size inb_S800x256_S800x256_0_0).toLoadRect = loopArr5 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.Kernel.Hand

end
-- ==== Proof.K.Region5.lean ====
import proofs.«411766_j31920196944464_2_alg».proof.Proof.K.Body5
import proofs.«411766_j31920196944464_2_alg».proof.Proof.K.Common
import proofs.«411766_j31920196944464_2_alg».proof.Proof.Gen.Kernel.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg5 (F := F)).Adm)

def iblk5 (c : Dev nD) (w : Fin (cfg5 a0).W) (t : Fin (cfg5 a0).N) : (((cfg5 a0).win w).xblock ((cfg5 a0).grid.coords t)).Idx → Elt F ((cfg5 a0).win w).elt :=
  (((cfg5 a0).win w).blk t).view.read (Elt F) (Vd c (Pipeline.arrRef spec5 w))

abbrev osem5 : Fin 16 → SemLoc sig := fun k =>
  (![SemLoc.dma 110, SemLoc.dma 111, SemLoc.dma 112, SemLoc.dma 113, SemLoc.dma 114, SemLoc.dma 115, SemLoc.dma 116, SemLoc.dma 117,
     SemLoc.dma 118, SemLoc.dma 119, SemLoc.dma 120, SemLoc.dma 121, SemLoc.dma 122, SemLoc.dma 123, SemLoc.dma 124, SemLoc.dma 125] : Fin 16 → SemLoc sig) k

theorem ownSemFacts5 : Pipeline.OwnSemFacts spec5 osem5 := by decide

theorem ownSems05_eq (c : Dev nD) :
    (Pipeline.ownSems0 (Ix := Unit) (Name := ℕ) (U := Pipeline.UD sig nD τ) (Lvl := ℕ) (Val := Elt F) (τ := τ) osem5 c : sProp 𝕄) = sems5 c := by
  rw [Pipeline.ownSems0_eq_of_list c osem5 [0, 1, 2, 3, 4, 5, 6, 7, 8, 9, 10, 11, 12, 13, 14, 15] (by decide) (by decide)]; rfl

theorem prefHeld5_eq (c : Dev nD) (pf : pre5.Contents (Elt F)) :
    (Pipeline.prefHeld (Ix := Unit) (Name := ℕ) (U := Pipeline.UD sig nD τ) (Lvl := ℕ) pre5 c (fun _ => fullShare) pf : sProp 𝕄)
      = owns (c : Thread nD τ) (Memref.whole main_v24) fullShare (pf 0) := by
  refine Eq.trans ?_ (owns_whole (c : Thread nD τ) main_v24 fullShare (pf 0)).symm
  unfold Pipeline.prefHeld
  exact bigSep_univ_eq_bigSepL [(0 : Fin 1)] (by decide) (by decide) _

theorem scratch5_eq (c : Dev nD) :
    (iprop(∃ f : Buf (Elt F) ((c : Thread nD τ).loc cc5_scratch0), ((c : Thread nD τ).loc cc5_scratch0) ↦{fullShare} f) : sProp 𝕄)
      = iprop(∃ d, owns (c : Thread nD τ) (Memref.whole cc5_scratch0) fullShare d) := by
  simp only [owns_whole]

def HCol5 : Prop := ∀ e, ((a0.1 0 : Vec F S80000 .i32) e).toNat < 20000

def Φ5 (c : Dev nD) : sProp 𝕄 :=
  iprop(Pipeline.ownSems0 osem5 c ∗ Pipeline.prefHeld pre5 c (fun _ => fullShare) a0.1 ∗ Pipeline.scopedRest spec5 c)

def dat5 (c : Dev nD) : Dat τ (Elt F) Unit ℕ (Pipeline.UD sig nD τ) ℕ (cfg5 a0) c where
  A w := Vd c (Pipeline.arrRef spec5 w)
  after w t := match w with
    | ⟨0, _⟩ => iblk5 Vd a0 c 0 t
    | ⟨1, _⟩ => iblk5 Vd a0 c 1 t
    | ⟨2, _⟩ => outBlk5 (grid5.coords t) (a0.1 0) (iblk5 Vd a0 c 0 t) (iblk5 Vd a0 c 1 t)
  Φ _ := Φ5 a0 c
  q _ := fullShare
  owed _ := 0

theorem A_eq5 (c : Dev nD) (w : Fin 3) : (dat5 Vd a0 c).A w = Vd c (Pipeline.arrRef spec5 w) := by
  dsimp only [dat5]

theorem after5_x (c : Dev nD) (t : Fin (cfg5 a0).N) : (dat5 Vd a0 c).after (0 : Fin 3) t = iblk5 Vd a0 c 0 t := by dsimp only [dat5]
theorem after5_val (c : Dev nD) (t : Fin (cfg5 a0).N) : (dat5 Vd a0 c).after (1 : Fin 3) t = iblk5 Vd a0 c 1 t := by dsimp only [dat5]
theorem after5_out (c : Dev nD) (t : Fin (cfg5 a0).N) :
    (dat5 Vd a0 c).after (2 : Fin 3) t = outBlk5 (grid5.coords t) (a0.1 0) (iblk5 Vd a0 c 0 t) (iblk5 Vd a0 c 1 t) := by dsimp only [dat5]

theorem before5_x (c : Dev nD) (t : Fin (cfg5 a0).N) (d) : (dat5 Vd a0 c).before 0 t d = iblk5 Vd a0 c 0 t := by
  refine ((dat5 Vd a0 c).before_in_eq_fetched 0 rfl (fun _ => rfl) (fun _ _ _ => rfl) (fun s => ?_) t d).trans ?_
  · rw [after5_x]; rfl
  · rfl
theorem before5_val (c : Dev nD) (t : Fin (cfg5 a0).N) (d) : (dat5 Vd a0 c).before 1 t d = iblk5 Vd a0 c 1 t := by
  refine ((dat5 Vd a0 c).before_in_eq_fetched 1 rfl (fun _ => rfl) (fun _ _ _ => rfl) (fun s => ?_) t d).trans ?_
  · rw [after5_val]; rfl
  · rfl

abbrev st5_x (t : Fin (cfg5 a0).N) := ((cfg5 a0).win 0).stage ((cfg5 a0).slots t 0)
abbrev st5_val (t : Fin (cfg5 a0).N) := ((cfg5 a0).win 1).stage ((cfg5 a0).slots t 1)
abbrev st5_out (t : Fin (cfg5 a0).N) := ((cfg5 a0).win 2).stage ((cfg5 a0).slots t 2)

abbrev bodyAt5 (t : Fin (cfg5 a0).N) : Prog (TpuEff nD τ sig (Elt F) Λ₀ .tc) PUnit :=
  cc5__gather_kernel (grid5.coords t) (Memref.whole main_v24) (Memref.isWhole_whole _)
    (spec5_0.stage ((cfg5 a0).slots t 0)) (hstage5_0 (((cfg5 a0).slots t 0).cast nbuf5_0))
    (spec5_1.stage ((cfg5 a0).slots t 1)) (hstage5_1 (((cfg5 a0).slots t 1).cast nbuf5_1))
    (spec5_2.stage ((cfg5 a0).slots t 2)) (hstage5_2 (((cfg5 a0).slots t 2).cast nbuf5_2))
    (Memref.whole cc5_scratch0) (Memref.isWhole_whole _) cc5_scratch1

def bodyPre5 (c : Dev nD) (t : Fin (cfg5 a0).N) : sProp 𝕄 :=
  iprop((dat5 Vd a0 c).Φ t.castSucc ∗ (dat5 Vd a0 c).owesAt () t.castSucc
    ∗ (∃ d, owns (c : Thread nD τ) (st5_x a0 t) fullShare ((dat5 Vd a0 c).before 0 t d))
    ∗ (∃ d, owns (c : Thread nD τ) (st5_val a0 t) fullShare ((dat5 Vd a0 c).before 1 t d))
    ∗ (∃ d, owns (c : Thread nD τ) (st5_out a0 t) fullShare ((dat5 Vd a0 c).before 2 t d)))

def bodyPost5 (c : Dev nD) (t : Fin (cfg5 a0).N) : sProp 𝕄 :=
  iprop((dat5 Vd a0 c).Φ t.succ ∗ (dat5 Vd a0 c).owesAt () t.succ
    ∗ owns (c : Thread nD τ) (st5_x a0 t) fullShare ((dat5 Vd a0 c).after 0 t)
    ∗ owns (c : Thread nD τ) (st5_val a0 t) fullShare ((dat5 Vd a0 c).after 1 t)
    ∗ owns (c : Thread nD τ) (st5_out a0 t) fullShare ((dat5 Vd a0 c).after 2 t))

theorem sound_body5 (hcol : HCol5 a0) (c : Dev nD) (t : Fin (cfg5 a0).N) :
    bodyPre5 Vd a0 c t ⊢ wp frame (wpE (defs₀ (F := F)) Variants.none c none) Set.univ (bodyAt5 a0 t) (fun _ => bodyPost5 Vd a0 c t) := by
  unfold bodyPre5 bodyPost5 bodyAt5
  simp only [before5_x, before5_val]
  rw [show (dat5 Vd a0 c).Φ t.succ = Φ5 a0 c from rfl, show (dat5 Vd a0 c).Φ t.castSucc = Φ5 a0 c from rfl,
    after5_x, after5_val, after5_out]
  unfold Φ5 Dat.owesAt Pipeline.owesWithin
  rw [scopedRest5_split, scratch5_eq, ownSems05_eq, prefHeld5_eq,
    show (dat5 Vd a0 c).owed t.castSucc = 0 from rfl, show (dat5 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel5 c (grid5.coords t) _ _ _ _ _ _ _ _ _ _ fullShare (a0.1 0) (iblk5 Vd a0 c 0 t) (iblk5 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation5 (hcol : HCol5 a0) (c : Dev nD) :
    BodyObligation (dat5 (F := F) Vd a0 c) (defs₀ (F := F)) Variants.none () Set.univ := fun t => by
  rw [bigSep_W5, bigSep_W5]
  exact sound_body5 Vd a0 hcol c t

abbrev X5 (c : Dev nD) : sProp 𝕄 := Pipeline.ownSems0 osem5 c
abbrev Y5 (c : Dev nD) : sProp 𝕄 := Pipeline.prefHeld pre5 c (fun _ => fullShare) a0.1
abbrev Z5 (V : Valuation τ sig (Elt F)) (c : Dev nD) : sProp 𝕄 :=
  iprop(Pipeline.unscopedRestP (Ix := Unit) (Name := ℕ) (U := Pipeline.UD sig nD τ) (Lvl := ℕ) pre5 spec5 c (fun b => V b) ∗ ∃ r, prngReg c r)

theorem hentry5 (c : Dev nD) (V : Valuation τ sig (Elt F)) (hA : ∀ w, Vd c (Pipeline.arrRef spec5 w) = V (Pipeline.arrRef spec5 w))
    (hT : ∀ k, a0.1 k = V (pre5.ref k)) :
    iprop(iprop(StableHlo.held (c : Thread nD τ) (Pipeline.ucRefs τ sig) V ∗ R c) ∗ Pipeline.ownSems0 osem5 c ∗ levAts L lv)
      ⊢ |={Set.univ}=> iprop((dat5 Vd a0 c).arrays ((dat5 Vd a0 c).arrAt · 0) ∗ Pipeline.prefHeld pre5 c (fun _ => fullShare) a0.1
          ∗ (dat5 Vd a0 c).owesAt () 0 ∗ X5 c ∗ Z5 V c) := by
  have hsplit := Pipeline.arrays_of_unscopedBufs (p := ()) (fun _ : Unit => pcfg5 (F := F)) (fun _ => a0) (fun _ c => dat5 Vd a0 c)
    (Ix := Unit) (Name := ℕ) (U := Pipeline.UD sig nD τ) (Lvl := ℕ) winFacts5 arr_whole5 c ((dat5 Vd a0 c).share_full fun _ => rfl) (fun b => V b) hA
  rw [Pipeline.unscopedBufs_held, Pipeline.unscopedRest_split preFacts5,
    show (fun k => V (pre5.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin5 (c : Dev nD) :
    iprop(X5 c ∗ Pipeline.prefHeld pre5 c (fun _ => fullShare) a0.1 ∗ Pipeline.scopedRest spec5 c) ⊢ (dat5 Vd a0 c).Φ 0 := by
  show _ ⊢ Φ5 a0 c
  unfold Φ5; exact .rfl

theorem hout5 (c : Dev nD) :
    (dat5 Vd a0 c).Φ (Fin.last (cfg5 a0).N) ⊢ iprop(Y5 a0 c ∗ Pipeline.ownSems0 osem5 c ∗ Pipeline.scopedRest spec5 c) := by
  show Φ5 a0 c ⊢ _
  unfold Φ5
  iintro ⟨Hs, Hp, Hr⟩
  isplitl [Hp]; · iexact Hp
  isplitl [Hs]; · iexact Hs
  iexact Hr

theorem hexit5 (c : Dev nD) (V Vp : Valuation τ sig (Elt F))
    (hF : ∀ w, (dat5 Vd a0 c).arrAt w (cfg5 a0).N = Vp (Pipeline.arrRef spec5 w))
    (hrest : ∀ b : Ref sig .tc, b ∉ Finset.univ.image (Pipeline.arrRef spec5) → Vp b = V b) (hT : ∀ k, a0.1 k = V (pre5.ref k)) :
    iprop((dat5 Vd a0 c).arrays ((dat5 Vd a0 c).arrAt · (cfg5 a0).N) ∗ (dat5 Vd a0 c).owesAt () (Fin.last (cfg5 a0).N) ∗ Y5 a0 c ∗ Z5 V c)
      ⊢ |={Set.univ}=> iprop(StableHlo.held (c : Thread nD τ) (Pipeline.ucRefs τ sig) Vp ∗ R c) := by
  have hjoin := Pipeline.unscopedBufs_of_arrays (p := ()) (fun _ : Unit => pcfg5 (F := F)) (fun _ => a0) (Ix := Unit) (Name := ℕ) (U := Pipeline.UD sig nD τ) (Lvl := ℕ)
    winFacts5 arr_whole5 c (fun _ c => dat5 Vd a0 c) ((dat5 Vd a0 c).share_full fun _ => rfl)
    (fun b => V b) (fun b => Vp b) ((dat5 Vd a0 c).arrAt · (cfg5 a0).N) hF hrest
  rw [Pipeline.unscopedBufs_held, Pipeline.unscopedRest_split preFacts5,
    show (fun k => V (pre5.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

end Region0
end Cert.Kernel.Hand
end
-- ==== Proof.K.Out6.lean ====
import proofs.«411766_j31920196944464_2_alg».proof.Proof.Gen.Kernel.Loops
import proofs.«411766_j31920196944464_2_alg».proof.Proof.Gather

set_option maxRecDepth 16384

noncomputable section

namespace Cert.Kernel.Hand

open Cert.Kernel Cert.Kernel.Gen
open Idealize.ShloMosaic Idealize.ShloMosaic.TcCoe

variable {F : FTy → Type} [FloatOps F]

def gath6 (i : grid6.Coords) (tbl : Vec F S80000 .i32) (x : Vec F S20000x256 .f32) (g : ℕ) : Vec F S16x256 .f32 :=
  Gather.gath (i 0).val tbl x g

def pcs6 (i : grid6.Coords) (tbl : Vec F S80000 .i32) (x : Vec F S20000x256 .f32) (n : ℕ) : List (View.Piece (Elt F) S800x256 .f32) :=
  Gather.pcs k6_off48 k6_off48_inb (i 0).val tbl x n

theorem pcs6_succ (i : grid6.Coords) (tbl : Vec F S80000 .i32) (x : Vec F S20000x256 .f32) (g : Fin k6_t1_loop.trips) :
    pcs6 i tbl x (g.val + 1)
      = ⟨Rect.unit (s := S800x256) (k6_off48 g) S16x256.size (k6_off48_inb g), gath6 i tbl x g.val⟩ :: pcs6 i tbl x g.val :=
  Gather.pcs_succ k6_off48 k6_off48_inb (i 0).val tbl x g

def loopArr6 (i : grid6.Coords) (tbl : Vec F S80000 .i32) (x : Vec F S20000x256 .f32) : Vec F S800x256 .f32 :=
  Gather.loopArr k6_off48 k6_off48_inb (i 0).val tbl x

def outBlk6 (i : grid6.Coords) (tbl : Vec F S80000 .i32) (x : Vec F S20000x256 .f32) (v : Vec F S800x1 .f32) : Vec F S800x256 .f32 :=
  k6_pay1 (loopArr6 i tbl x) v

theorem trips6 : k6_t1_loop.trips = 50 := by decide

theorem cover_pcs6 (i : grid6.Coords) (tbl : Vec F S80000 .i32) (x : Vec F S20000x256 .f32) :
    ∀ y : S800x256.Idx, ∃ p ∈ pcs6 i tbl x k6_t1_loop.trips, y ∈ p.1.set :=
  Gather.cover_pcs k6_off48 k6_off48_inb k6_off48_eq trips6 (i 0).val tbl x

end Cert.Kernel.Hand

end
-- ==== Proof.K.Body6.lean ====
import proofs.«411766_j31920196944464_2_alg».proof.Proof.K.Out6
import proofs.«411766_j31920196944464_2_alg».proof.Proof.K.Rows5
import proofs.«411766_j31920196944464_2_alg».proof.Proof.K.Rows5b
import proofs.«411766_j31920196944464_2_alg».proof.Proof.K.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems6 (c : Dev nD) : sProp 𝕄 :=
  iprop(semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0
    ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0
    ∗ semVal ((c : Thread nD τ), SemLoc.dma 139) 0 ∗ semVal ((c : Thread nD τ), SemLoc.dma 140) 0 ∗ semVal ((c : Thread nD τ), SemLoc.dma 141) 0 ∗ semVal ((c : Thread nD τ), SemLoc.dma 142) 0
    ∗ semVal ((c : Thread nD τ), SemLoc.dma 143) 0 ∗ semVal ((c : Thread nD τ), SemLoc.dma 144) 0 ∗ semVal ((c : Thread nD τ), SemLoc.dma 145) 0 ∗ semVal ((c : Thread nD τ), SemLoc.dma 146) 0)

abbrev tok6 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks6 (c : Dev nD) (arg2 : Memref sig .tc .vmem S20000x256 .f32) (fx : Buf (Elt F) (arg2.view.loc (c : Thread nD τ))) : sProp 𝕄 :=
  iprop(tok6 c arg2 fx 131 ∗ tok6 c arg2 fx 132 ∗ tok6 c arg2 fx 133 ∗ tok6 c arg2 fx 134 ∗ tok6 c arg2 fx 135 ∗ tok6 c arg2 fx 136 ∗ tok6 c arg2 fx 137 ∗ tok6 c arg2 fx 138
    ∗ tok6 c arg2 fx 139 ∗ tok6 c arg2 fx 140 ∗ tok6 c arg2 fx 141 ∗ tok6 c arg2 fx 142 ∗ tok6 c arg2 fx 143 ∗ tok6 c arg2 fx 144 ∗ tok6 c arg2 fx 145 ∗ tok6 c arg2 fx 146)

def k6_inv (c : Dev nD) (i : grid6.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks6 c arg2 fx
    ∗ (arg4.view.loc (c : Thread nD τ) ↦[arg4.view.set]{fullShare}
        arg4.view.writes (Elt F) f4 (pcs6 i (arg1.view.read (Elt F) ft) (arg2.view.read (Elt F) fx) n))
    ∗ (∃ f5, arg5.view.loc (c : Thread nD τ) ↦[arg5.view.set]{fullShare} f5)
    ∗ sems6 c ∗ (∃ W, owes (c : Thread nD τ) 0 W))

set_option maxHeartbeats 8000000 in

theorem k6_trip (c : Dev nD) (i : grid6.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k6_t1_loop.trips) (acc : Unit) :
    k6_inv c i arg1 arg2 arg4 arg5 q ft fx f4 g.val acc
      ⊢ wp frame (wpE (defs₀ (F := F)) Variants.none c none) Set.univ
          (k6_t1_body i arg1 harg1 arg2 harg2 arg3 harg3 arg4 harg4 arg5 harg5 cc6_scratch1 (Scalar.muli (BitVec.ofNat 32 (i 0).val) 800#32) g acc)
          (k6_inv c i arg1 arg2 arg4 arg5 q ft fx f4 (g.val + 1)) := by
  unfold k6_inv k6_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k6_chk1 (arg1.view.readAt (Elt F) (Rect.unit (s := S80000) (k6_off1 i g) S1.size (k6_off1_inb i g)).toLoadRect ft (Shape.Idx.first (numel1_S1.symm ▸ Nat.one_pos))) := row_inb2 _ (htbl _)
  have hc2 : k6_chk2 (arg1.view.readAt (Elt F) (Rect.unit (s := S80000) (k6_off3 i g) S1.size (k6_off3_inb i g)).toLoadRect ft (Shape.Idx.first (numel1_S1.symm ▸ Nat.one_pos))) := row_inb2 _ (htbl _)
  have hc3 : k6_chk3 (arg1.view.readAt (Elt F) (Rect.unit (s := S80000) (k6_off5 i g) S1.size (k6_off5_inb i g)).toLoadRect ft (Shape.Idx.first (numel1_S1.symm ▸ Nat.one_pos))) := row_inb2 _ (htbl _)
  have hc4 : k6_chk4 (arg1.view.readAt (Elt F) (Rect.unit (s := S80000) (k6_off7 i g) S1.size (k6_off7_inb i g)).toLoadRect ft (Shape.Idx.first (numel1_S1.symm ▸ Nat.one_pos))) := row_inb2 _ (htbl _)
  have hc5 : k6_chk5 (arg1.view.readAt (Elt F) (Rect.unit (s := S80000) (k6_off9 i g) S1.size (k6_off9_inb i g)).toLoadRect ft (Shape.Idx.first (numel1_S1.symm ▸ Nat.one_pos))) := row_inb2 _ (htbl _)
  have hc6 : k6_chk6 (arg1.view.readAt (Elt F) (Rect.unit (s := S80000) (k6_off11 i g) S1.size (k6_off11_inb i g)).toLoadRect ft (Shape.Idx.first (numel1_S1.symm ▸ Nat.one_pos))) := row_inb2 _ (htbl _)
  have hc7 : k6_chk7 (arg1.view.readAt (Elt F) (Rect.unit (s := S80000) (k6_off13 i g) S1.size (k6_off13_inb i g)).toLoadRect ft (Shape.Idx.first (numel1_S1.symm ▸ Nat.one_pos))) := row_inb2 _ (htbl _)
  have hc8 : k6_chk8 (arg1.view.readAt (Elt F) (Rect.unit (s := S80000) (k6_off15 i g) S1.size (k6_off15_inb i g)).toLoadRect ft (Shape.Idx.first (numel1_S1.symm ▸ Nat.one_pos))) := row_inb2 _ (htbl _)
  have hc9 : k6_chk9 (arg1.view.readAt (Elt F) (Rect.unit (s := S80000) (k6_off17 i g) S1.size (k6_off17_inb i g)).toLoadRect ft (Shape.Idx.first (numel1_S1.symm ▸ Nat.one_pos))) := row_inb2 _ (htbl _)
  have hc10 : k6_chk10 (arg1.view.readAt (Elt F) (Rect.unit (s := S80000) (k6_off19 i g) S1.size (k6_off19_inb i g)).toLoadRect ft (Shape.Idx.first (numel1_S1.symm ▸ Nat.one_pos))) := row_inb2 _ (htbl _)
  have hc11 : k6_chk11 (arg1.view.readAt (Elt F) (Rect.unit (s := S80000) (k6_off21 i g) S1.size (k6_off21_inb i g)).toLoadRect ft (Shape.Idx.first (numel1_S1.symm ▸ Nat.one_pos))) := row_inb2 _ (htbl _)
  have hc12 : k6_chk12 (arg1.view.readAt (Elt F) (Rect.unit (s := S80000) (k6_off23 i g) S1.size (k6_off23_inb i g)).toLoadRect ft (Shape.Idx.first (numel1_S1.symm ▸ Nat.one_pos))) := row_inb2 _ (htbl _)
  have hc13 : k6_chk13 (arg1.view.readAt (Elt F) (Rect.unit (s := S80000) (k6_off25 i g) S1.size (k6_off25_inb i g)).toLoadRect ft (Shape.Idx.first (numel1_S1.symm ▸ Nat.one_pos))) := row_inb2 _ (htbl _)
  have hc14 : k6_chk14 (arg1.view.readAt (Elt F) (Rect.unit (s := S80000) (k6_off27 i g) S1.size (k6_off27_inb i g)).toLoadRect ft (Shape.Idx.first (numel1_S1.symm ▸ Nat.one_pos))) := row_inb2 _ (htbl _)
  have hc15 : k6_chk15 (arg1.view.readAt (Elt F) (Rect.unit (s := S80000) (k6_off29 i g) S1.size (k6_off29_inb i g)).toLoadRect ft (Shape.Idx.first (numel1_S1.symm ▸ Nat.one_pos))) := row_inb2 _ (htbl _)
  have hc16 : k6_chk16 (arg1.view.readAt (Elt F) (Rect.unit (s := S80000) (k6_off31 i g) S1.size (k6_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k6_trip.sl.dma1 c i arg1 arg2 ft fx g hc1) (k6_trip.sl.dma2 c i arg1 arg2 ft fx g hc2) (k6_trip.sl.dma3 c i arg1 arg2 ft fx g hc3) (k6_trip.sl.dma4 c i arg1 arg2 ft fx g hc4) (k6_trip.sl.dma5 c i arg1 arg2 ft fx g hc5) (k6_trip.sl.dma6 c i arg1 arg2 ft fx g hc6) (k6_trip.sl.dma7 c i arg1 arg2 ft fx g hc7) (k6_trip.sl.dma8 c i arg1 arg2 ft fx g hc8) (k6_trip.sl.dma9 c i arg1 arg2 ft fx g hc9) (k6_trip.sl.dma10 c i arg1 arg2 ft fx g hc10) (k6_trip.sl.dma11 c i arg1 arg2 ft fx g hc11) (k6_trip.sl.dma12 c i arg1 arg2 ft fx g hc12) (k6_trip.sl.dma13 c i arg1 arg2 ft fx g hc13) (k6_trip.sl.dma14 c i arg1 arg2 ft fx g hc14) (k6_trip.sl.dma15 c i arg1 arg2 ft fx g hc15) (k6_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath6 i (arg1.view.read (Elt F) ft) (arg2.view.read (Elt F) fx) g.val :=
    scratch_reads arg5 c f5 g5 _ hg5 _ (fun k d => by
      have hi : (i 0).val < 100 := (i 0).isLt
      have hg : g.val < 50 := trips6 ▸ g.isLt
      fin_cases k
      · exact row_payload arg1 arg2 c ft fx _ _ _ (k6_off1_eq i g) (by omega) _ _ d
      · exact row_payload arg1 arg2 c ft fx _ _ _ (k6_off3_eq i g) (by omega) _ _ d
      · exact row_payload arg1 arg2 c ft fx _ _ _ (k6_off5_eq i g) (by omega) _ _ d
      · exact row_payload arg1 arg2 c ft fx _ _ _ (k6_off7_eq i g) (by omega) _ _ d
      · exact row_payload arg1 arg2 c ft fx _ _ _ (k6_off9_eq i g) (by omega) _ _ d
      · exact row_payload arg1 arg2 c ft fx _ _ _ (k6_off11_eq i g) (by omega) _ _ d
      · exact row_payload arg1 arg2 c ft fx _ _ _ (k6_off13_eq i g) (by omega) _ _ d
      · exact row_payload arg1 arg2 c ft fx _ _ _ (k6_off15_eq i g) (by omega) _ _ d
      · exact row_payload arg1 arg2 c ft fx _ _ _ (k6_off17_eq i g) (by omega) _ _ d
      · exact row_payload arg1 arg2 c ft fx _ _ _ (k6_off19_eq i g) (by omega) _ _ d
      · exact row_payload arg1 arg2 c ft fx _ _ _ (k6_off21_eq i g) (by omega) _ _ d
      · exact row_payload arg1 arg2 c ft fx _ _ _ (k6_off23_eq i g) (by omega) _ _ d
      · exact row_payload arg1 arg2 c ft fx _ _ _ (k6_off25_eq i g) (by omega) _ _ d
      · exact row_payload arg1 arg2 c ft fx _ _ _ (k6_off27_eq i g) (by omega) _ _ d
      · exact row_payload arg1 arg2 c ft fx _ _ _ (k6_off29_eq i g) (by omega) _ _ d
      · exact row_payload arg1 arg2 c ft fx _ _ _ (k6_off31_eq i g) (by omega) _ _ d
      ) _
  sl_exec
  sl_step
  rw [pcs6_succ, View.writes_cons]
  unfold k6_trip.sl.H4_w1
  sl_close

set_option maxHeartbeats 4000000 in

theorem sound_kernel6 (c : Dev nD) (i : grid6.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems6 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk6 i tbl x v) ∗ (∃ d, owns (c : Thread nD τ) arg5 fullShare d) ∗ sems6 c ∗ (∃ W', owes (c : Thread nD τ) 0 W')) -∗ K ⟨⟩))
      ⊢ wp frame (wpE (defs₀ (F := F)) Variants.none c none) Set.univ (cc6__gather_kernel i arg1 harg1 arg2 harg2 arg3 harg3 arg4 harg4 arg5 harg5 cc6_scratch1) K := by
  simp only [cc6__gather_kernel_eq_skeleton]; unfold cc6__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks6 c arg2 fx) := Cert.Toks.toks16_split _ _ _ _
  ihave H2' := htok.1 $$ H2
  icases H2' with ⟨HD, HT⟩
  sl_exec
  sl_for (k6_inv c i arg1 arg2 arg4 arg5 q ft fx f4) $$ [H1 HT H4 H5 HS HW]
  case region =>
    intro g acc
    exact k6_trip c i arg1 harg1 arg2 harg2 arg3 harg3 arg4 harg4 arg5 harg5 q ft fx htbl f4 g acc
  · unfold k6_inv
    isplitl [H1]; · iexact H1
    isplitl [HT]; · iexact HT
    isplitl [H4]; · iexact H4
    isplitl [H5]; · iexists _; iexact H5
    isplitl [HS]; · iexact HS
    iexists _; iexact HW
  iintro %acc HI; unfold k6_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs6 i tbl x (Scf.trips k6_t1_loop.lb k6_t1_loop.ub k6_t1_loop.st), y ∈ p.1.set :=
      cover_pcs6 i tbl x
    have h2 : arg4.view.readCov (pcs6 i tbl x (Scf.trips k6_t1_loop.lb k6_t1_loop.ub k6_t1_loop.st))
        (Rect.unit (s := S800x256) ![0, 0] S800x256.size inb_S800x256_S800x256_0_0).toLoadRect = loopArr6 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.Kernel.Hand

end
-- ==== Proof.K.Region6.lean ====
import proofs.«411766_j31920196944464_2_alg».proof.Proof.K.Body6
import proofs.«411766_j31920196944464_2_alg».proof.Proof.K.Common
import proofs.«411766_j31920196944464_2_alg».proof.Proof.Gen.Kernel.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg6 (F := F)).Adm)

def iblk6 (c : Dev nD) (w : Fin (cfg6 a0).W) (t : Fin (cfg6 a0).N) : (((cfg6 a0).win w).xblock ((cfg6 a0).grid.coords t)).Idx → Elt F ((cfg6 a0).win w).elt :=
  (((cfg6 a0).win w).blk t).view.read (Elt F) (Vd c (Pipeline.arrRef spec6 w))

abbrev osem6 : Fin 16 → SemLoc sig := fun k =>
  (![SemLoc.dma 131, SemLoc.dma 132, SemLoc.dma 133, SemLoc.dma 134, SemLoc.dma 135, SemLoc.dma 136, SemLoc.dma 137, SemLoc.dma 138,
     SemLoc.dma 139, SemLoc.dma 140, SemLoc.dma 141, SemLoc.dma 142, SemLoc.dma 143, SemLoc.dma 144, SemLoc.dma 145, SemLoc.dma 146] : Fin 16 → SemLoc sig) k

theorem ownSemFacts6 : Pipeline.OwnSemFacts spec6 osem6 := by decide

theorem ownSems06_eq (c : Dev nD) :
    (Pipeline.ownSems0 (Ix := Unit) (Name := ℕ) (U := Pipeline.UD sig nD τ) (Lvl := ℕ) (Val := Elt F) (τ := τ) osem6 c : sProp 𝕄) = sems6 c := by
  rw [Pipeline.ownSems0_eq_of_list c osem6 [0, 1, 2, 3, 4, 5, 6, 7, 8, 9, 10, 11, 12, 13, 14, 15] (by decide) (by decide)]; rfl

theorem prefHeld6_eq (c : Dev nD) (pf : pre6.Contents (Elt F)) :
    (Pipeline.prefHeld (Ix := Unit) (Name := ℕ) (U := Pipeline.UD sig nD τ) (Lvl := ℕ) pre6 c (fun _ => fullShare) pf : sProp 𝕄)
      = owns (c : Thread nD τ) (Memref.whole main_v28) fullShare (pf 0) := by
  refine Eq.trans ?_ (owns_whole (c : Thread nD τ) main_v28 fullShare (pf 0)).symm
  unfold Pipeline.prefHeld
  exact bigSep_univ_eq_bigSepL [(0 : Fin 1)] (by decide) (by decide) _

theorem scratch6_eq (c : Dev nD) :
    (iprop(∃ f : Buf (Elt F) ((c : Thread nD τ).loc cc6_scratch0), ((c : Thread nD τ).loc cc6_scratch0) ↦{fullShare} f) : sProp 𝕄)
      = iprop(∃ d, owns (c : Thread nD τ) (Memref.whole cc6_scratch0) fullShare d) := by
  simp only [owns_whole]

def HCol6 : Prop := ∀ e, ((a0.1 0 : Vec F S80000 .i32) e).toNat < 20000

def Φ6 (c : Dev nD) : sProp 𝕄 :=
  iprop(Pipeline.ownSems0 osem6 c ∗ Pipeline.prefHeld pre6 c (fun _ => fullShare) a0.1 ∗ Pipeline.scopedRest spec6 c)

def dat6 (c : Dev nD) : Dat τ (Elt F) Unit ℕ (Pipeline.UD sig nD τ) ℕ (cfg6 a0) c where
  A w := Vd c (Pipeline.arrRef spec6 w)
  after w t := match w with
    | ⟨0, _⟩ => iblk6 Vd a0 c 0 t
    | ⟨1, _⟩ => iblk6 Vd a0 c 1 t
    | ⟨2, _⟩ => outBlk6 (grid6.coords t) (a0.1 0) (iblk6 Vd a0 c 0 t) (iblk6 Vd a0 c 1 t)
  Φ _ := Φ6 a0 c
  q _ := fullShare
  owed _ := 0

theorem A_eq6 (c : Dev nD) (w : Fin 3) : (dat6 Vd a0 c).A w = Vd c (Pipeline.arrRef spec6 w) := by
  dsimp only [dat6]

theorem after6_x (c : Dev nD) (t : Fin (cfg6 a0).N) : (dat6 Vd a0 c).after (0 : Fin 3) t = iblk6 Vd a0 c 0 t := by dsimp only [dat6]
theorem after6_val (c : Dev nD) (t : Fin (cfg6 a0).N) : (dat6 Vd a0 c).after (1 : Fin 3) t = iblk6 Vd a0 c 1 t := by dsimp only [dat6]
theorem after6_out (c : Dev nD) (t : Fin (cfg6 a0).N) :
    (dat6 Vd a0 c).after (2 : Fin 3) t = outBlk6 (grid6.coords t) (a0.1 0) (iblk6 Vd a0 c 0 t) (iblk6 Vd a0 c 1 t) := by dsimp only [dat6]

theorem before6_x (c : Dev nD) (t : Fin (cfg6 a0).N) (d) : (dat6 Vd a0 c).before 0 t d = iblk6 Vd a0 c 0 t := by
  refine ((dat6 Vd a0 c).before_in_eq_fetched 0 rfl (fun _ => rfl) (fun _ _ _ => rfl) (fun s => ?_) t d).trans ?_
  · rw [after6_x]; rfl
  · rfl
theorem before6_val (c : Dev nD) (t : Fin (cfg6 a0).N) (d) : (dat6 Vd a0 c).before 1 t d = iblk6 Vd a0 c 1 t := by
  refine ((dat6 Vd a0 c).before_in_eq_fetched 1 rfl (fun _ => rfl) (fun _ _ _ => rfl) (fun s => ?_) t d).trans ?_
  · rw [after6_val]; rfl
  · rfl

abbrev st6_x (t : Fin (cfg6 a0).N) := ((cfg6 a0).win 0).stage ((cfg6 a0).slots t 0)
abbrev st6_val (t : Fin (cfg6 a0).N) := ((cfg6 a0).win 1).stage ((cfg6 a0).slots t 1)
abbrev st6_out (t : Fin (cfg6 a0).N) := ((cfg6 a0).win 2).stage ((cfg6 a0).slots t 2)

abbrev bodyAt6 (t : Fin (cfg6 a0).N) : Prog (TpuEff nD τ sig (Elt F) Λ₀ .tc) PUnit :=
  cc6__gather_kernel (grid6.coords t) (Memref.whole main_v28) (Memref.isWhole_whole _)
    (spec6_0.stage ((cfg6 a0).slots t 0)) (hstage6_0 (((cfg6 a0).slots t 0).cast nbuf6_0))
    (spec6_1.stage ((cfg6 a0).slots t 1)) (hstage6_1 (((cfg6 a0).slots t 1).cast nbuf6_1))
    (spec6_2.stage ((cfg6 a0).slots t 2)) (hstage6_2 (((cfg6 a0).slots t 2).cast nbuf6_2))
    (Memref.whole cc6_scratch0) (Memref.isWhole_whole _) cc6_scratch1

def bodyPre6 (c : Dev nD) (t : Fin (cfg6 a0).N) : sProp 𝕄 :=
  iprop((dat6 Vd a0 c).Φ t.castSucc ∗ (dat6 Vd a0 c).owesAt () t.castSucc
    ∗ (∃ d, owns (c : Thread nD τ) (st6_x a0 t) fullShare ((dat6 Vd a0 c).before 0 t d))
    ∗ (∃ d, owns (c : Thread nD τ) (st6_val a0 t) fullShare ((dat6 Vd a0 c).before 1 t d))
    ∗ (∃ d, owns (c : Thread nD τ) (st6_out a0 t) fullShare ((dat6 Vd a0 c).before 2 t d)))

def bodyPost6 (c : Dev nD) (t : Fin (cfg6 a0).N) : sProp 𝕄 :=
  iprop((dat6 Vd a0 c).Φ t.succ ∗ (dat6 Vd a0 c).owesAt () t.succ
    ∗ owns (c : Thread nD τ) (st6_x a0 t) fullShare ((dat6 Vd a0 c).after 0 t)
    ∗ owns (c : Thread nD τ) (st6_val a0 t) fullShare ((dat6 Vd a0 c).after 1 t)
    ∗ owns (c : Thread nD τ) (st6_out a0 t) fullShare ((dat6 Vd a0 c).after 2 t))

theorem sound_body6 (hcol : HCol6 a0) (c : Dev nD) (t : Fin (cfg6 a0).N) :
    bodyPre6 Vd a0 c t ⊢ wp frame (wpE (defs₀ (F := F)) Variants.none c none) Set.univ (bodyAt6 a0 t) (fun _ => bodyPost6 Vd a0 c t) := by
  unfold bodyPre6 bodyPost6 bodyAt6
  simp only [before6_x, before6_val]
  rw [show (dat6 Vd a0 c).Φ t.succ = Φ6 a0 c from rfl, show (dat6 Vd a0 c).Φ t.castSucc = Φ6 a0 c from rfl,
    after6_x, after6_val, after6_out]
  unfold Φ6 Dat.owesAt Pipeline.owesWithin
  rw [scopedRest6_split, scratch6_eq, ownSems06_eq, prefHeld6_eq,
    show (dat6 Vd a0 c).owed t.castSucc = 0 from rfl, show (dat6 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel6 c (grid6.coords t) _ _ _ _ _ _ _ _ _ _ fullShare (a0.1 0) (iblk6 Vd a0 c 0 t) (iblk6 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation6 (hcol : HCol6 a0) (c : Dev nD) :
    BodyObligation (dat6 (F := F) Vd a0 c) (defs₀ (F := F)) Variants.none () Set.univ := fun t => by
  rw [bigSep_W6, bigSep_W6]
  exact sound_body6 Vd a0 hcol c t

abbrev X6 (c : Dev nD) : sProp 𝕄 := Pipeline.ownSems0 osem6 c
abbrev Y6 (c : Dev nD) : sProp 𝕄 := Pipeline.prefHeld pre6 c (fun _ => fullShare) a0.1
abbrev Z6 (V : Valuation τ sig (Elt F)) (c : Dev nD) : sProp 𝕄 :=
  iprop(Pipeline.unscopedRestP (Ix := Unit) (Name := ℕ) (U := Pipeline.UD sig nD τ) (Lvl := ℕ) pre6 spec6 c (fun b => V b) ∗ ∃ r, prngReg c r)

theorem hentry6 (c : Dev nD) (V : Valuation τ sig (Elt F)) (hA : ∀ w, Vd c (Pipeline.arrRef spec6 w) = V (Pipeline.arrRef spec6 w))
    (hT : ∀ k, a0.1 k = V (pre6.ref k)) :
    iprop(iprop(StableHlo.held (c : Thread nD τ) (Pipeline.ucRefs τ sig) V ∗ R c) ∗ Pipeline.ownSems0 osem6 c ∗ levAts L lv)
      ⊢ |={Set.univ}=> iprop((dat6 Vd a0 c).arrays ((dat6 Vd a0 c).arrAt · 0) ∗ Pipeline.prefHeld pre6 c (fun _ => fullShare) a0.1
          ∗ (dat6 Vd a0 c).owesAt () 0 ∗ X6 c ∗ Z6 V c) := by
  have hsplit := Pipeline.arrays_of_unscopedBufs (p := ()) (fun _ : Unit => pcfg6 (F := F)) (fun _ => a0) (fun _ c => dat6 Vd a0 c)
    (Ix := Unit) (Name := ℕ) (U := Pipeline.UD sig nD τ) (Lvl := ℕ) winFacts6 arr_whole6 c ((dat6 Vd a0 c).share_full fun _ => rfl) (fun b => V b) hA
  rw [Pipeline.unscopedBufs_held, Pipeline.unscopedRest_split preFacts6,
    show (fun k => V (pre6.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin6 (c : Dev nD) :
    iprop(X6 c ∗ Pipeline.prefHeld pre6 c (fun _ => fullShare) a0.1 ∗ Pipeline.scopedRest spec6 c) ⊢ (dat6 Vd a0 c).Φ 0 := by
  show _ ⊢ Φ6 a0 c
  unfold Φ6; exact .rfl

theorem hout6 (c : Dev nD) :
    (dat6 Vd a0 c).Φ (Fin.last (cfg6 a0).N) ⊢ iprop(Y6 a0 c ∗ Pipeline.ownSems0 osem6 c ∗ Pipeline.scopedRest spec6 c) := by
  show Φ6 a0 c ⊢ _
  unfold Φ6
  iintro ⟨Hs, Hp, Hr⟩
  isplitl [Hp]; · iexact Hp
  isplitl [Hs]; · iexact Hs
  iexact Hr

theorem hexit6 (c : Dev nD) (V Vp : Valuation τ sig (Elt F))
    (hF : ∀ w, (dat6 Vd a0 c).arrAt w (cfg6 a0).N = Vp (Pipeline.arrRef spec6 w))
    (hrest : ∀ b : Ref sig .tc, b ∉ Finset.univ.image (Pipeline.arrRef spec6) → Vp b = V b) (hT : ∀ k, a0.1 k = V (pre6.ref k)) :
    iprop((dat6 Vd a0 c).arrays ((dat6 Vd a0 c).arrAt · (cfg6 a0).N) ∗ (dat6 Vd a0 c).owesAt () (Fin.last (cfg6 a0).N) ∗ Y6 a0 c ∗ Z6 V c)
      ⊢ |={Set.univ}=> iprop(StableHlo.held (c : Thread nD τ) (Pipeline.ucRefs τ sig) Vp ∗ R c) := by
  have hjoin := Pipeline.unscopedBufs_of_arrays (p := ()) (fun _ : Unit => pcfg6 (F := F)) (fun _ => a0) (Ix := Unit) (Name := ℕ) (U := Pipeline.UD sig nD τ) (Lvl := ℕ)
    winFacts6 arr_whole6 c (fun _ c => dat6 Vd a0 c) ((dat6 Vd a0 c).share_full fun _ => rfl)
    (fun b => V b) (fun b => Vp b) ((dat6 Vd a0 c).arrAt · (cfg6 a0).N) hF hrest
  rw [Pipeline.unscopedBufs_held, Pipeline.unscopedRest_split preFacts6,
    show (fun k => V (pre6.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

end Region0
end Cert.Kernel.Hand
end
-- ==== Proof.K.Out7.lean ====
import proofs.«411766_j31920196944464_2_alg».proof.Proof.Gen.Kernel.Loops
import proofs.«411766_j31920196944464_2_alg».proof.Proof.Gather

set_option maxRecDepth 16384

noncomputable section

namespace Cert.Kernel.Hand

open Cert.Kernel Cert.Kernel.Gen
open Idealize.ShloMosaic Idealize.ShloMosaic.TcCoe

variable {F : FTy → Type} [FloatOps F]

def gath7 (i : grid7.Coords) (tbl : Vec F S80000 .i32) (x : Vec F S20000x256 .f32) (g : ℕ) : Vec F S16x256 .f32 :=
  Gather.gath (i 0).val tbl x g

def pcs7 (i : grid7.Coords) (tbl : Vec F S80000 .i32) (x : Vec F S20000x256 .f32) (n : ℕ) : List (View.Piece (Elt F) S800x256 .f32) :=
  Gather.pcs k7_off48 k7_off48_inb (i 0).val tbl x n

theorem pcs7_succ (i : grid7.Coords) (tbl : Vec F S80000 .i32) (x : Vec F S20000x256 .f32) (g : Fin k7_t1_loop.trips) :
    pcs7 i tbl x (g.val + 1)
      = ⟨Rect.unit (s := S800x256) (k7_off48 g) S16x256.size (k7_off48_inb g), gath7 i tbl x g.val⟩ :: pcs7 i tbl x g.val :=
  Gather.pcs_succ k7_off48 k7_off48_inb (i 0).val tbl x g

def loopArr7 (i : grid7.Coords) (tbl : Vec F S80000 .i32) (x : Vec F S20000x256 .f32) : Vec F S800x256 .f32 :=
  Gather.loopArr k7_off48 k7_off48_inb (i 0).val tbl x

def outBlk7 (i : grid7.Coords) (tbl : Vec F S80000 .i32) (x : Vec F S20000x256 .f32) (v : Vec F S800x1 .f32) : Vec F S800x256 .f32 :=
  k7_pay1 (loopArr7 i tbl x) v

theorem trips7 : k7_t1_loop.trips = 50 := by decide

theorem cover_pcs7 (i : grid7.Coords) (tbl : Vec F S80000 .i32) (x : Vec F S20000x256 .f32) :
    ∀ y : S800x256.Idx, ∃ p ∈ pcs7 i tbl x k7_t1_loop.trips, y ∈ p.1.set :=
  Gather.cover_pcs k7_off48 k7_off48_inb k7_off48_eq trips7 (i 0).val tbl x

end Cert.Kernel.Hand

end
-- ==== Proof.K.Body7.lean ====
import proofs.«411766_j31920196944464_2_alg».proof.Proof.K.Out7
import proofs.«411766_j31920196944464_2_alg».proof.Proof.K.Rows5
import proofs.«411766_j31920196944464_2_alg».proof.Proof.K.Rows5b
import proofs.«411766_j31920196944464_2_alg».proof.Proof.K.Rows5c
import proofs.«411766_j31920196944464_2_alg».proof.Proof.Toks
import Idealize.ShloMosaic.Lib.Pipeline.FrameBody
import Idealize.ShloMosaic.Lib.Pipeline.Frame
import Idealize.ShloMosaic.Lib.Tactic
import Idealize.ShloMosaic.Lib.ValueIdx
import Idealize.ShloMosaic.Lib.Transfers
import Idealize.ShloMosaic.Rules.PointsTo
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev sems7 (c : Dev nD) : sProp 𝕄 :=
  iprop(semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0
    ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0
    ∗ semVal ((c : Thread nD τ), SemLoc.dma 160) 0 ∗ semVal ((c : Thread nD τ), SemLoc.dma 161) 0 ∗ semVal ((c : Thread nD τ), SemLoc.dma 162) 0 ∗ semVal ((c : Thread nD τ), SemLoc.dma 163) 0
    ∗ semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0)

abbrev tok7 (c : Dev nD) (arg2 : Memref sig .tc .vmem S20000x256 .f32) (fx : Buf (Elt F) (arg2.view.loc (c : Thread nD τ))) (n : ℕ) : sProp 𝕄 :=
  arg2.view.loc (c : Thread nD τ) ↦[arg2.view.set]{Transfers.shareTokN fullShare n} fx

abbrev toks7 (c : Dev nD) (arg2 : Memref sig .tc .vmem S20000x256 .f32) (fx : Buf (Elt F) (arg2.view.loc (c : Thread nD τ))) : sProp 𝕄 :=
  iprop(tok7 c arg2 fx 152 ∗ tok7 c arg2 fx 153 ∗ tok7 c arg2 fx 154 ∗ tok7 c arg2 fx 155 ∗ tok7 c arg2 fx 156 ∗ tok7 c arg2 fx 157 ∗ tok7 c arg2 fx 158 ∗ tok7 c arg2 fx 159
    ∗ tok7 c arg2 fx 160 ∗ tok7 c arg2 fx 161 ∗ tok7 c arg2 fx 162 ∗ tok7 c arg2 fx 163 ∗ tok7 c arg2 fx 164 ∗ tok7 c arg2 fx 165 ∗ tok7 c arg2 fx 166 ∗ tok7 c arg2 fx 167)

def k7_inv (c : Dev nD) (i : grid7.Coords) (arg1 : Memref sig .tc .smem S80000 .i32) (arg2 : Memref sig .tc .vmem S20000x256 .f32)
    (arg4 : Memref sig .tc .vmem S800x256 .f32) (arg5 : Memref sig .tc .vmem S16x256 .f32) (q : PosShare TreeShare)
    (ft : Buf (Elt F) (arg1.view.loc (c : Thread nD τ))) (fx : Buf (Elt F) (arg2.view.loc (c : Thread nD τ)))
    (f4 : Buf (Elt F) (arg4.view.loc (c : Thread nD τ))) (n : ℕ) (_ : Unit) : sProp 𝕄 :=
  iprop((arg1.view.loc (c : Thread nD τ) ↦[arg1.view.set]{q} ft) ∗ toks7 c arg2 fx
    ∗ (arg4.view.loc (c : Thread nD τ) ↦[arg4.view.set]{fullShare}
        arg4.view.writes (Elt F) f4 (pcs7 i (arg1.view.read (Elt F) ft) (arg2.view.read (Elt F) fx) n))
    ∗ (∃ f5, arg5.view.loc (c : Thread nD τ) ↦[arg5.view.set]{fullShare} f5)
    ∗ sems7 c ∗ (∃ W, owes (c : Thread nD τ) 0 W))

set_option maxHeartbeats 8000000 in

theorem k7_trip (c : Dev nD) (i : grid7.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (ft : Buf (Elt F) (arg1.view.loc (c : Thread nD τ))) (fx : Buf (Elt F) (arg2.view.loc (c : Thread nD τ)))
    (htbl : ∀ e, (arg1.view.read (Elt F) ft e).toNat < 20000) (f4 : Buf (Elt F) (arg4.view.loc (c : Thread nD τ)))
    (g : Fin k7_t1_loop.trips) (acc : Unit) :
    k7_inv c i arg1 arg2 arg4 arg5 q ft fx f4 g.val acc
      ⊢ wp frame (wpE (defs₀ (F := F)) Variants.none c none) Set.univ
          (k7_t1_body i arg1 harg1 arg2 harg2 arg3 harg3 arg4 harg4 arg5 harg5 cc7_scratch1 (Scalar.muli (BitVec.ofNat 32 (i 0).val) 800#32) g acc)
          (k7_inv c i arg1 arg2 arg4 arg5 q ft fx f4 (g.val + 1)) := by
  unfold k7_inv k7_t1_body
  iintro ⟨H1, ⟨T5, T6, T7, T8, T9, T10, T11, T12, T13, T14, T15, T16, T17, T18, T19, T20⟩, H4, ⟨%f5, H5⟩, ⟨S5, S6, S7, S8, S9, S10, S11, S12, S13, S14, S15, S16, S17, S18, S19, S20⟩, ⟨%W, HW⟩⟩
  have hc1 : k7_chk1 (arg1.view.readAt (Elt F) (Rect.unit (s := S80000) (k7_off1 i g) S1.size (k7_off1_inb i g)).toLoadRect ft (Shape.Idx.first (numel1_S1.symm ▸ Nat.one_pos))) := row_inb2 _ (htbl _)
  have hc2 : k7_chk2 (arg1.view.readAt (Elt F) (Rect.unit (s := S80000) (k7_off3 i g) S1.size (k7_off3_inb i g)).toLoadRect ft (Shape.Idx.first (numel1_S1.symm ▸ Nat.one_pos))) := row_inb2 _ (htbl _)
  have hc3 : k7_chk3 (arg1.view.readAt (Elt F) (Rect.unit (s := S80000) (k7_off5 i g) S1.size (k7_off5_inb i g)).toLoadRect ft (Shape.Idx.first (numel1_S1.symm ▸ Nat.one_pos))) := row_inb2 _ (htbl _)
  have hc4 : k7_chk4 (arg1.view.readAt (Elt F) (Rect.unit (s := S80000) (k7_off7 i g) S1.size (k7_off7_inb i g)).toLoadRect ft (Shape.Idx.first (numel1_S1.symm ▸ Nat.one_pos))) := row_inb2 _ (htbl _)
  have hc5 : k7_chk5 (arg1.view.readAt (Elt F) (Rect.unit (s := S80000) (k7_off9 i g) S1.size (k7_off9_inb i g)).toLoadRect ft (Shape.Idx.first (numel1_S1.symm ▸ Nat.one_pos))) := row_inb2 _ (htbl _)
  have hc6 : k7_chk6 (arg1.view.readAt (Elt F) (Rect.unit (s := S80000) (k7_off11 i g) S1.size (k7_off11_inb i g)).toLoadRect ft (Shape.Idx.first (numel1_S1.symm ▸ Nat.one_pos))) := row_inb2 _ (htbl _)
  have hc7 : k7_chk7 (arg1.view.readAt (Elt F) (Rect.unit (s := S80000) (k7_off13 i g) S1.size (k7_off13_inb i g)).toLoadRect ft (Shape.Idx.first (numel1_S1.symm ▸ Nat.one_pos))) := row_inb2 _ (htbl _)
  have hc8 : k7_chk8 (arg1.view.readAt (Elt F) (Rect.unit (s := S80000) (k7_off15 i g) S1.size (k7_off15_inb i g)).toLoadRect ft (Shape.Idx.first (numel1_S1.symm ▸ Nat.one_pos))) := row_inb2 _ (htbl _)
  have hc9 : k7_chk9 (arg1.view.readAt (Elt F) (Rect.unit (s := S80000) (k7_off17 i g) S1.size (k7_off17_inb i g)).toLoadRect ft (Shape.Idx.first (numel1_S1.symm ▸ Nat.one_pos))) := row_inb2 _ (htbl _)
  have hc10 : k7_chk10 (arg1.view.readAt (Elt F) (Rect.unit (s := S80000) (k7_off19 i g) S1.size (k7_off19_inb i g)).toLoadRect ft (Shape.Idx.first (numel1_S1.symm ▸ Nat.one_pos))) := row_inb2 _ (htbl _)
  have hc11 : k7_chk11 (arg1.view.readAt (Elt F) (Rect.unit (s := S80000) (k7_off21 i g) S1.size (k7_off21_inb i g)).toLoadRect ft (Shape.Idx.first (numel1_S1.symm ▸ Nat.one_pos))) := row_inb2 _ (htbl _)
  have hc12 : k7_chk12 (arg1.view.readAt (Elt F) (Rect.unit (s := S80000) (k7_off23 i g) S1.size (k7_off23_inb i g)).toLoadRect ft (Shape.Idx.first (numel1_S1.symm ▸ Nat.one_pos))) := row_inb2 _ (htbl _)
  have hc13 : k7_chk13 (arg1.view.readAt (Elt F) (Rect.unit (s := S80000) (k7_off25 i g) S1.size (k7_off25_inb i g)).toLoadRect ft (Shape.Idx.first (numel1_S1.symm ▸ Nat.one_pos))) := row_inb2 _ (htbl _)
  have hc14 : k7_chk14 (arg1.view.readAt (Elt F) (Rect.unit (s := S80000) (k7_off27 i g) S1.size (k7_off27_inb i g)).toLoadRect ft (Shape.Idx.first (numel1_S1.symm ▸ Nat.one_pos))) := row_inb2 _ (htbl _)
  have hc15 : k7_chk15 (arg1.view.readAt (Elt F) (Rect.unit (s := S80000) (k7_off29 i g) S1.size (k7_off29_inb i g)).toLoadRect ft (Shape.Idx.first (numel1_S1.symm ▸ Nat.one_pos))) := row_inb2 _ (htbl _)
  have hc16 : k7_chk16 (arg1.view.readAt (Elt F) (Rect.unit (s := S80000) (k7_off31 i g) S1.size (k7_off31_inb i g)).toLoadRect ft (Shape.Idx.first (numel1_S1.symm ▸ Nat.one_pos))) := row_inb _ (htbl _)
  ihave HR := (split5 c arg5 f5) $$ H5
  icases HR with ⟨R0, R1, R2, R3, R4, R5, R6, R7, R8, R9, R10, R11, R12, R13, R14, R15⟩
  sl_exec
  icases +keep (join5 c arg5 f5 (k7_trip.sl.dma1 c i arg1 arg2 ft fx g hc1) (k7_trip.sl.dma2 c i arg1 arg2 ft fx g hc2) (k7_trip.sl.dma3 c i arg1 arg2 ft fx g hc3) (k7_trip.sl.dma4 c i arg1 arg2 ft fx g hc4) (k7_trip.sl.dma5 c i arg1 arg2 ft fx g hc5) (k7_trip.sl.dma6 c i arg1 arg2 ft fx g hc6) (k7_trip.sl.dma7 c i arg1 arg2 ft fx g hc7) (k7_trip.sl.dma8 c i arg1 arg2 ft fx g hc8) (k7_trip.sl.dma9 c i arg1 arg2 ft fx g hc9) (k7_trip.sl.dma10 c i arg1 arg2 ft fx g hc10) (k7_trip.sl.dma11 c i arg1 arg2 ft fx g hc11) (k7_trip.sl.dma12 c i arg1 arg2 ft fx g hc12) (k7_trip.sl.dma13 c i arg1 arg2 ft fx g hc13) (k7_trip.sl.dma14 c i arg1 arg2 ft fx g hc14) (k7_trip.sl.dma15 c i arg1 arg2 ft fx g hc15) (k7_trip.sl.dma16 c i arg1 arg2 ft fx g hc16)) $$ [R0 R1 R2 R3 R4 R5 R6 R7 R8 R9 R10 R11 R12 R13 R14 R15] with ⟨%g5, %hg5, H5⟩
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  have hpay : arg5.view.readAt (Elt F) (Rect.unit (s := S16x256) ![0, 0] S16x256.size inb_S16x256_S16x256_0_0).toLoadRect g5
      = gath7 i (arg1.view.read (Elt F) ft) (arg2.view.read (Elt F) fx) g.val :=
    scratch_reads arg5 c f5 g5 _ hg5 _ (fun k d => by
      have hi : (i 0).val < 100 := (i 0).isLt
      have hg : g.val < 50 := trips7 ▸ g.isLt
      fin_cases k
      · exact row_payload arg1 arg2 c ft fx _ _ _ (k7_off1_eq i g) (by omega) _ _ d
      · exact row_payload arg1 arg2 c ft fx _ _ _ (k7_off3_eq i g) (by omega) _ _ d
      · exact row_payload arg1 arg2 c ft fx _ _ _ (k7_off5_eq i g) (by omega) _ _ d
      · exact row_payload arg1 arg2 c ft fx _ _ _ (k7_off7_eq i g) (by omega) _ _ d
      · exact row_payload arg1 arg2 c ft fx _ _ _ (k7_off9_eq i g) (by omega) _ _ d
      · exact row_payload arg1 arg2 c ft fx _ _ _ (k7_off11_eq i g) (by omega) _ _ d
      · exact row_payload arg1 arg2 c ft fx _ _ _ (k7_off13_eq i g) (by omega) _ _ d
      · exact row_payload arg1 arg2 c ft fx _ _ _ (k7_off15_eq i g) (by omega) _ _ d
      · exact row_payload arg1 arg2 c ft fx _ _ _ (k7_off17_eq i g) (by omega) _ _ d
      · exact row_payload arg1 arg2 c ft fx _ _ _ (k7_off19_eq i g) (by omega) _ _ d
      · exact row_payload arg1 arg2 c ft fx _ _ _ (k7_off21_eq i g) (by omega) _ _ d
      · exact row_payload arg1 arg2 c ft fx _ _ _ (k7_off23_eq i g) (by omega) _ _ d
      · exact row_payload arg1 arg2 c ft fx _ _ _ (k7_off25_eq i g) (by omega) _ _ d
      · exact row_payload arg1 arg2 c ft fx _ _ _ (k7_off27_eq i g) (by omega) _ _ d
      · exact row_payload arg1 arg2 c ft fx _ _ _ (k7_off29_eq i g) (by omega) _ _ d
      · exact row_payload arg1 arg2 c ft fx _ _ _ (k7_off31_eq i g) (by omega) _ _ d
      ) _
  sl_exec
  sl_step
  rw [pcs7_succ, View.writes_cons]
  unfold k7_trip.sl.H4_w1
  sl_close

set_option maxHeartbeats 4000000 in

theorem sound_kernel7 (c : Dev nD) (i : grid7.Coords) (arg1 : Memref sig .tc .smem S80000 .i32) (harg1 : arg1.IsWhole) (arg2 : Memref sig .tc .vmem S20000x256 .f32) (harg2 : arg2.IsWhole) (arg3 : Memref sig .tc .vmem S800x1 .f32) (harg3 : arg3.IsWhole) (arg4 : Memref sig .tc .vmem S800x256 .f32) (harg4 : arg4.IsWhole) (arg5 : Memref sig .tc .vmem S16x256 .f32) (harg5 : arg5.IsWhole)
    (q : PosShare TreeShare) (tbl : Vec F S80000 .i32) (x : Vec F S20000x256 .f32) (v : Vec F S800x1 .f32)
    (htbl : ∀ e, (tbl e).toNat < 20000) (W : Waits sig Unit) (K : PUnit → sProp 𝕄) :
    iprop(owns (c : Thread nD τ) arg1 q tbl ∗ owns (c : Thread nD τ) arg2 fullShare x ∗ owns (c : Thread nD τ) arg3 fullShare v ∗ (∃ d, owns (c : Thread nD τ) arg4 fullShare d) ∗ (∃ d, owns (c : Thread nD τ) arg5 fullShare d) ∗ sems7 c ∗ owes (c : Thread nD τ) 0 W
        ∗ (iprop(owns (c : Thread nD τ) arg1 q tbl ∗ owns (c : Thread nD τ) arg2 fullShare x ∗ owns (c : Thread nD τ) arg3 fullShare v ∗ owns (c : Thread nD τ) arg4 fullShare (outBlk7 i tbl x v) ∗ (∃ d, owns (c : Thread nD τ) arg5 fullShare d) ∗ sems7 c ∗ (∃ W', owes (c : Thread nD τ) 0 W')) -∗ K ⟨⟩))
      ⊢ wp frame (wpE (defs₀ (F := F)) Variants.none c none) Set.univ (cc7__gather_kernel i arg1 harg1 arg2 harg2 arg3 harg3 arg4 harg4 arg5 harg5 cc7_scratch1) K := by
  simp only [cc7__gather_kernel_eq_skeleton]; unfold cc7__gather_kernel_skel
  unfold owns
  iintro ⟨⟨%ft, %hft, H1⟩, ⟨%fx, %hfx, H2⟩, ⟨%fv, %hfv, H3⟩, ⟨%d4, %f4, -, H4⟩, ⟨%d5, %f5, -, H5⟩, HS, HW, Hk⟩
  subst hft; subst hfx; subst hfv
  obtain ⟨Rest, htok⟩ : ∃ Rest : sProp 𝕄, (arg2.view.loc (c : Thread nD τ) ↦[arg2.view.set]{fullShare} fx : sProp 𝕄)
      ⊣⊢ iprop(Rest ∗ toks7 c arg2 fx) := Cert.Toks.toks16_split _ _ _ _
  ihave H2' := htok.1 $$ H2
  icases H2' with ⟨HD, HT⟩
  sl_exec
  sl_for (k7_inv c i arg1 arg2 arg4 arg5 q ft fx f4) $$ [H1 HT H4 H5 HS HW]
  case region =>
    intro g acc
    exact k7_trip c i arg1 harg1 arg2 harg2 arg3 harg3 arg4 harg4 arg5 harg5 q ft fx htbl f4 g acc
  · unfold k7_inv
    isplitl [H1]; · iexact H1
    isplitl [HT]; · iexact HT
    isplitl [H4]; · iexact H4
    isplitl [H5]; · iexists _; iexact H5
    isplitl [HS]; · iexact HS
    iexists _; iexact HW
  iintro %acc HI; unfold k7_inv
  icases HI with ⟨H1, HT, H4, ⟨%f5', H5⟩, HS, ⟨%W', HW⟩⟩
  sl_exec
  sl_step
  iapply Hk
  isplitl [H1]
  · iexists ft; isplitr; · ipureintro; rfl
    iexact H1
  isplitl [HD HT]
  · iexists fx; isplitr; · ipureintro; rfl
    iapply htok.2
    isplitl [HD]; · iexact HD
    iexact HT
  isplitl [H3]
  · iexists fv; isplitr; · ipureintro; rfl
    iexact H3
  isplitl [H4]
  · iexists _; isplitr; swap; · iexact H4
    ipureintro
    sl_unfold_run_names
    have hoff : (![0, 0] : Fin S800x256.rank → ℕ) = fun _ => 0 := by funext a; fin_cases a <;> rfl
    have hoff1 : (![0, 0] : Fin S800x1.rank → ℕ) = fun _ => 0 := by funext a; fin_cases a <;> rfl
    rw [View.readAt_eq_ld, View.ld_unit_zero hoff1]
    generalize View.read (Elt F) arg1.view ft = tbl
    generalize View.read (Elt F) arg2.view fx = x
    generalize View.read (Elt F) arg3.view fv = v
    have hcov : ∀ y : S800x256.Idx, ∃ p ∈ pcs7 i tbl x (Scf.trips k7_t1_loop.lb k7_t1_loop.ub k7_t1_loop.st), y ∈ p.1.set :=
      cover_pcs7 i tbl x
    have h2 : arg4.view.readCov (pcs7 i tbl x (Scf.trips k7_t1_loop.lb k7_t1_loop.ub k7_t1_loop.st))
        (Rect.unit (s := S800x256) ![0, 0] S800x256.size inb_S800x256_S800x256_0_0).toLoadRect = loopArr7 i tbl x :=
      (View.readCov_eq_canon_ld arg4.view _ _ hcov).trans (View.ld_unit_zero hoff _ _)
    rw [h2]
    refine (View.read_writes_eq_canon arg4.view f4 _ ?_).trans ?_
    · intro y
      exact ⟨_, List.mem_cons_self, View.mem_set_unit_zero hoff inb_S800x256_S800x256_0_0 y⟩
    · exact View.canon_cons_unit_zero hoff _ _ _
  isplitl [H5]
  · iexists _, _; isplitr; swap; · iexact H5
    ipureintro; rfl
  isplitl [HS]; · iexact HS
  iexists _; iexact HW

end Cert.Kernel.Hand

end
-- ==== Proof.K.Region7.lean ====
import proofs.«411766_j31920196944464_2_alg».proof.Proof.K.Body7
import proofs.«411766_j31920196944464_2_alg».proof.Proof.K.Common
import proofs.«411766_j31920196944464_2_alg».proof.Proof.Gen.Kernel.Regions
import Idealize.ShloMosaic.Lib.Pipeline.FrameBody
import Idealize.ShloMosaic.Lib.Pipeline.RegionsLoop
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

variable (Vd : (c : Dev nD) → (b : Ref sig .tc) → Buf (Elt F) ((c : Thread nD τ).loc b)) (a0 : (pcfg7 (F := F)).Adm)

def iblk7 (c : Dev nD) (w : Fin (cfg7 a0).W) (t : Fin (cfg7 a0).N) : (((cfg7 a0).win w).xblock ((cfg7 a0).grid.coords t)).Idx → Elt F ((cfg7 a0).win w).elt :=
  (((cfg7 a0).win w).blk t).view.read (Elt F) (Vd c (Pipeline.arrRef spec7 w))

abbrev osem7 : Fin 16 → SemLoc sig := fun k =>
  (![SemLoc.dma 152, SemLoc.dma 153, SemLoc.dma 154, SemLoc.dma 155, SemLoc.dma 156, SemLoc.dma 157, SemLoc.dma 158, SemLoc.dma 159,
     SemLoc.dma 160, SemLoc.dma 161, SemLoc.dma 162, SemLoc.dma 163, SemLoc.dma 164, SemLoc.dma 165, SemLoc.dma 166, SemLoc.dma 167] : Fin 16 → SemLoc sig) k

theorem ownSemFacts7 : Pipeline.OwnSemFacts spec7 osem7 := by decide

theorem ownSems07_eq (c : Dev nD) :
    (Pipeline.ownSems0 (Ix := Unit) (Name := ℕ) (U := Pipeline.UD sig nD τ) (Lvl := ℕ) (Val := Elt F) (τ := τ) osem7 c : sProp 𝕄) = sems7 c := by
  rw [Pipeline.ownSems0_eq_of_list c osem7 [0, 1, 2, 3, 4, 5, 6, 7, 8, 9, 10, 11, 12, 13, 14, 15] (by decide) (by decide)]; rfl

theorem prefHeld7_eq (c : Dev nD) (pf : pre7.Contents (Elt F)) :
    (Pipeline.prefHeld (Ix := Unit) (Name := ℕ) (U := Pipeline.UD sig nD τ) (Lvl := ℕ) pre7 c (fun _ => fullShare) pf : sProp 𝕄)
      = owns (c : Thread nD τ) (Memref.whole main_v32) fullShare (pf 0) := by
  refine Eq.trans ?_ (owns_whole (c : Thread nD τ) main_v32 fullShare (pf 0)).symm
  unfold Pipeline.prefHeld
  exact bigSep_univ_eq_bigSepL [(0 : Fin 1)] (by decide) (by decide) _

theorem scratch7_eq (c : Dev nD) :
    (iprop(∃ f : Buf (Elt F) ((c : Thread nD τ).loc cc7_scratch0), ((c : Thread nD τ).loc cc7_scratch0) ↦{fullShare} f) : sProp 𝕄)
      = iprop(∃ d, owns (c : Thread nD τ) (Memref.whole cc7_scratch0) fullShare d) := by
  simp only [owns_whole]

def HCol7 : Prop := ∀ e, ((a0.1 0 : Vec F S80000 .i32) e).toNat < 20000

def Φ7 (c : Dev nD) : sProp 𝕄 :=
  iprop(Pipeline.ownSems0 osem7 c ∗ Pipeline.prefHeld pre7 c (fun _ => fullShare) a0.1 ∗ Pipeline.scopedRest spec7 c)

def dat7 (c : Dev nD) : Dat τ (Elt F) Unit ℕ (Pipeline.UD sig nD τ) ℕ (cfg7 a0) c where
  A w := Vd c (Pipeline.arrRef spec7 w)
  after w t := match w with
    | ⟨0, _⟩ => iblk7 Vd a0 c 0 t
    | ⟨1, _⟩ => iblk7 Vd a0 c 1 t
    | ⟨2, _⟩ => outBlk7 (grid7.coords t) (a0.1 0) (iblk7 Vd a0 c 0 t) (iblk7 Vd a0 c 1 t)
  Φ _ := Φ7 a0 c
  q _ := fullShare
  owed _ := 0

theorem A_eq7 (c : Dev nD) (w : Fin 3) : (dat7 Vd a0 c).A w = Vd c (Pipeline.arrRef spec7 w) := by
  dsimp only [dat7]

theorem after7_x (c : Dev nD) (t : Fin (cfg7 a0).N) : (dat7 Vd a0 c).after (0 : Fin 3) t = iblk7 Vd a0 c 0 t := by dsimp only [dat7]
theorem after7_val (c : Dev nD) (t : Fin (cfg7 a0).N) : (dat7 Vd a0 c).after (1 : Fin 3) t = iblk7 Vd a0 c 1 t := by dsimp only [dat7]
theorem after7_out (c : Dev nD) (t : Fin (cfg7 a0).N) :
    (dat7 Vd a0 c).after (2 : Fin 3) t = outBlk7 (grid7.coords t) (a0.1 0) (iblk7 Vd a0 c 0 t) (iblk7 Vd a0 c 1 t) := by dsimp only [dat7]

theorem before7_x (c : Dev nD) (t : Fin (cfg7 a0).N) (d) : (dat7 Vd a0 c).before 0 t d = iblk7 Vd a0 c 0 t := by
  refine ((dat7 Vd a0 c).before_in_eq_fetched 0 rfl (fun _ => rfl) (fun _ _ _ => rfl) (fun s => ?_) t d).trans ?_
  · rw [after7_x]; rfl
  · rfl
theorem before7_val (c : Dev nD) (t : Fin (cfg7 a0).N) (d) : (dat7 Vd a0 c).before 1 t d = iblk7 Vd a0 c 1 t := by
  refine ((dat7 Vd a0 c).before_in_eq_fetched 1 rfl (fun _ => rfl) (fun _ _ _ => rfl) (fun s => ?_) t d).trans ?_
  · rw [after7_val]; rfl
  · rfl

abbrev st7_x (t : Fin (cfg7 a0).N) := ((cfg7 a0).win 0).stage ((cfg7 a0).slots t 0)
abbrev st7_val (t : Fin (cfg7 a0).N) := ((cfg7 a0).win 1).stage ((cfg7 a0).slots t 1)
abbrev st7_out (t : Fin (cfg7 a0).N) := ((cfg7 a0).win 2).stage ((cfg7 a0).slots t 2)

abbrev bodyAt7 (t : Fin (cfg7 a0).N) : Prog (TpuEff nD τ sig (Elt F) Λ₀ .tc) PUnit :=
  cc7__gather_kernel (grid7.coords t) (Memref.whole main_v32) (Memref.isWhole_whole _)
    (spec7_0.stage ((cfg7 a0).slots t 0)) (hstage7_0 (((cfg7 a0).slots t 0).cast nbuf7_0))
    (spec7_1.stage ((cfg7 a0).slots t 1)) (hstage7_1 (((cfg7 a0).slots t 1).cast nbuf7_1))
    (spec7_2.stage ((cfg7 a0).slots t 2)) (hstage7_2 (((cfg7 a0).slots t 2).cast nbuf7_2))
    (Memref.whole cc7_scratch0) (Memref.isWhole_whole _) cc7_scratch1

def bodyPre7 (c : Dev nD) (t : Fin (cfg7 a0).N) : sProp 𝕄 :=
  iprop((dat7 Vd a0 c).Φ t.castSucc ∗ (dat7 Vd a0 c).owesAt () t.castSucc
    ∗ (∃ d, owns (c : Thread nD τ) (st7_x a0 t) fullShare ((dat7 Vd a0 c).before 0 t d))
    ∗ (∃ d, owns (c : Thread nD τ) (st7_val a0 t) fullShare ((dat7 Vd a0 c).before 1 t d))
    ∗ (∃ d, owns (c : Thread nD τ) (st7_out a0 t) fullShare ((dat7 Vd a0 c).before 2 t d)))

def bodyPost7 (c : Dev nD) (t : Fin (cfg7 a0).N) : sProp 𝕄 :=
  iprop((dat7 Vd a0 c).Φ t.succ ∗ (dat7 Vd a0 c).owesAt () t.succ
    ∗ owns (c : Thread nD τ) (st7_x a0 t) fullShare ((dat7 Vd a0 c).after 0 t)
    ∗ owns (c : Thread nD τ) (st7_val a0 t) fullShare ((dat7 Vd a0 c).after 1 t)
    ∗ owns (c : Thread nD τ) (st7_out a0 t) fullShare ((dat7 Vd a0 c).after 2 t))

theorem sound_body7 (hcol : HCol7 a0) (c : Dev nD) (t : Fin (cfg7 a0).N) :
    bodyPre7 Vd a0 c t ⊢ wp frame (wpE (defs₀ (F := F)) Variants.none c none) Set.univ (bodyAt7 a0 t) (fun _ => bodyPost7 Vd a0 c t) := by
  unfold bodyPre7 bodyPost7 bodyAt7
  simp only [before7_x, before7_val]
  rw [show (dat7 Vd a0 c).Φ t.succ = Φ7 a0 c from rfl, show (dat7 Vd a0 c).Φ t.castSucc = Φ7 a0 c from rfl,
    after7_x, after7_val, after7_out]
  unfold Φ7 Dat.owesAt Pipeline.owesWithin
  rw [scopedRest7_split, scratch7_eq, ownSems07_eq, prefHeld7_eq,
    show (dat7 Vd a0 c).owed t.castSucc = 0 from rfl, show (dat7 Vd a0 c).owed t.succ = 0 from rfl]
  iintro ⟨⟨Hs, Hp, Hscr, Hrest⟩, ⟨%W, %hW, HO⟩, ⟨%dx, Hx⟩, ⟨%dv, Hv⟩, ⟨%dy, Hy⟩⟩
  iapply (sound_kernel7 c (grid7.coords t) _ _ _ _ _ _ _ _ _ _ fullShare (a0.1 0) (iblk7 Vd a0 c 0 t) (iblk7 Vd a0 c 1 t) hcol W _)
  isplitl [Hp]; · iexact Hp
  isplitl [Hx]; · iexact Hx
  isplitl [Hv]; · iexact Hv
  isplitl [Hy]; · iexists _; iexact Hy
  isplitl [Hscr]; · iexact Hscr
  isplitl [Hs]; · iexact Hs
  isplitl [HO]; · iexact HO
  iintro ⟨Hp, Hx, Hv, Hy, Hscr, Hs, ⟨%W', HO⟩⟩
  isplitl [Hs Hp Hscr Hrest]
  · isplitl [Hs]; · iexact Hs
    isplitl [Hp]; · iexact Hp
    isplitl [Hscr]; · iexact Hscr
    iexact Hrest
  isplitl [HO]
  · iexists W'; isplitr; · ipureintro; exact fun _ _ => Or.inl trivial
    iexact HO
  isplitl [Hx]; · iexact Hx
  isplitl [Hv]; · iexact Hv
  iexact Hy

theorem body_obligation7 (hcol : HCol7 a0) (c : Dev nD) :
    BodyObligation (dat7 (F := F) Vd a0 c) (defs₀ (F := F)) Variants.none () Set.univ := fun t => by
  rw [bigSep_W7, bigSep_W7]
  exact sound_body7 Vd a0 hcol c t

abbrev X7 (c : Dev nD) : sProp 𝕄 := Pipeline.ownSems0 osem7 c
abbrev Y7 (c : Dev nD) : sProp 𝕄 := Pipeline.prefHeld pre7 c (fun _ => fullShare) a0.1
abbrev Z7 (V : Valuation τ sig (Elt F)) (c : Dev nD) : sProp 𝕄 :=
  iprop(Pipeline.unscopedRestP (Ix := Unit) (Name := ℕ) (U := Pipeline.UD sig nD τ) (Lvl := ℕ) pre7 spec7 c (fun b => V b) ∗ ∃ r, prngReg c r)

theorem hentry7 (c : Dev nD) (V : Valuation τ sig (Elt F)) (hA : ∀ w, Vd c (Pipeline.arrRef spec7 w) = V (Pipeline.arrRef spec7 w))
    (hT : ∀ k, a0.1 k = V (pre7.ref k)) :
    iprop(iprop(StableHlo.held (c : Thread nD τ) (Pipeline.ucRefs τ sig) V ∗ R c) ∗ Pipeline.ownSems0 osem7 c ∗ levAts L lv)
      ⊢ |={Set.univ}=> iprop((dat7 Vd a0 c).arrays ((dat7 Vd a0 c).arrAt · 0) ∗ Pipeline.prefHeld pre7 c (fun _ => fullShare) a0.1
          ∗ (dat7 Vd a0 c).owesAt () 0 ∗ X7 c ∗ Z7 V c) := by
  have hsplit := Pipeline.arrays_of_unscopedBufs (p := ()) (fun _ : Unit => pcfg7 (F := F)) (fun _ => a0) (fun _ c => dat7 Vd a0 c)
    (Ix := Unit) (Name := ℕ) (U := Pipeline.UD sig nD τ) (Lvl := ℕ) winFacts7 arr_whole7 c ((dat7 Vd a0 c).share_full fun _ => rfl) (fun b => V b) hA
  rw [Pipeline.unscopedBufs_held, Pipeline.unscopedRest_split preFacts7,
    show (fun k => V (pre7.ref k)) = a0.1 from (funext hT).symm] at hsplit
  iintro ⟨⟨Hub, Hp, HO⟩, Hos, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hos]; · iexact Hos
  isplitl [Hrest]; · iexact Hrest
  iexact Hp

theorem hin7 (c : Dev nD) :
    iprop(X7 c ∗ Pipeline.prefHeld pre7 c (fun _ => fullShare) a0.1 ∗ Pipeline.scopedRest spec7 c) ⊢ (dat7 Vd a0 c).Φ 0 := by
  show _ ⊢ Φ7 a0 c
  unfold Φ7; exact .rfl

theorem hout7 (c : Dev nD) :
    (dat7 Vd a0 c).Φ (Fin.last (cfg7 a0).N) ⊢ iprop(Y7 a0 c ∗ Pipeline.ownSems0 osem7 c ∗ Pipeline.scopedRest spec7 c) := by
  show Φ7 a0 c ⊢ _
  unfold Φ7
  iintro ⟨Hs, Hp, Hr⟩
  isplitl [Hp]; · iexact Hp
  isplitl [Hs]; · iexact Hs
  iexact Hr

theorem hexit7 (c : Dev nD) (V Vp : Valuation τ sig (Elt F))
    (hF : ∀ w, (dat7 Vd a0 c).arrAt w (cfg7 a0).N = Vp (Pipeline.arrRef spec7 w))
    (hrest : ∀ b : Ref sig .tc, b ∉ Finset.univ.image (Pipeline.arrRef spec7) → Vp b = V b) (hT : ∀ k, a0.1 k = V (pre7.ref k)) :
    iprop((dat7 Vd a0 c).arrays ((dat7 Vd a0 c).arrAt · (cfg7 a0).N) ∗ (dat7 Vd a0 c).owesAt () (Fin.last (cfg7 a0).N) ∗ Y7 a0 c ∗ Z7 V c)
      ⊢ |={Set.univ}=> iprop(StableHlo.held (c : Thread nD τ) (Pipeline.ucRefs τ sig) Vp ∗ R c) := by
  have hjoin := Pipeline.unscopedBufs_of_arrays (p := ()) (fun _ : Unit => pcfg7 (F := F)) (fun _ => a0) (Ix := Unit) (Name := ℕ) (U := Pipeline.UD sig nD τ) (Lvl := ℕ)
    winFacts7 arr_whole7 c (fun _ c => dat7 Vd a0 c) ((dat7 Vd a0 c).share_full fun _ => rfl)
    (fun b => V b) (fun b => Vp b) ((dat7 Vd a0 c).arrAt · (cfg7 a0).N) hF hrest
  rw [Pipeline.unscopedBufs_held, Pipeline.unscopedRest_split preFacts7,
    show (fun k => V (pre7.ref k)) = a0.1 from (funext hT).symm] at hjoin
  iintro ⟨Ha, HO, HY, Hrest, Hp⟩
  imodintro
  isplitl [Ha HY Hrest]
  · iapply hjoin
    isplitl [Ha]; · iexact Ha
    isplitl [HY]; · iexact HY
    iexact Hrest
  isplitl [Hp]; · iexact Hp
  unfold Pipeline.Dat.owesAt Pipeline.owesWithin
  icases HO with ⟨%W, -, HO⟩; iexists W; iexact HO

end Region0
end Cert.Kernel.Hand
end
-- ==== Proof.K.TblRange.lean ====
import proofs.«411766_j31920196944464_2_alg».proof.Proof.Gen.Kernel.Launch
import Idealize.ShloMosaic.Lib.StableHlo.Run
import Idealize.ShloMosaic.Lib.Pipeline.Value
import Idealize.ShloMosaic.Lib.ValueIdx

noncomputable section

namespace Cert.Kernel.Hand

open Cert.Kernel Cert.Kernel.Gen
open Idealize.ShloMosaic Idealize.ShloMosaic.TcCoe
open Idealize.SL.Sem

variable {F : FTy → Type} [FloatOps F]

theorem slice_in_range {off : Fin S320000.rank → Nat} (x : IVec S320000 32) (h : S320000.Slices off S80000)
    (hx : ∀ e : S320000.Idx, (x e).toNat < 20000) :
    ∀ e : S80000.Idx, (extractStridedSlice S80000 off x h e).toNat < 20000 := fun e => hx _

theorem tbl0_eq (W : Valuation τ sig (Elt F)) :
    StableHlo.after hostOps0 W main_v0 = extractStridedSlice S80000 ![0] (W main_arg2) slices_S320000_S80000_0 := by
  after_results

theorem tbl0_in_range (W : Valuation τ sig (Elt F))
    (hcol : ∀ e : S320000.Idx, ((W main_arg2 : IVec S320000 32) e).toNat < 20000) :
    ∀ e : S80000.Idx, ((StableHlo.after hostOps0 W main_v0 : IVec S80000 32) e).toNat < 20000 := by
  rw [tbl0_eq]
  exact slice_in_range _ _ hcol

theorem tbl1_eq (W : Valuation τ sig (Elt F)) :
    StableHlo.after hostOps1 W main_v4 = extractStridedSlice S80000 ![80000] (W main_arg2) slices_S320000_S80000_80000 := by
  after_results

theorem tbl1_in_range (W : Valuation τ sig (Elt F))
    (hcol : ∀ e : S320000.Idx, ((W main_arg2 : IVec S320000 32) e).toNat < 20000) :
    ∀ e : S80000.Idx, ((StableHlo.after hostOps1 W main_v4 : IVec S80000 32) e).toNat < 20000 := by
  rw [tbl1_eq]
  exact slice_in_range _ _ hcol

theorem tbl2_eq (W : Valuation τ sig (Elt F)) :
    StableHlo.after hostOps2 W main_v8 = extractStridedSlice S80000 ![160000] (W main_arg2) slices_S320000_S80000_160000 := by
  after_results

theorem tbl2_in_range (W : Valuation τ sig (Elt F))
    (hcol : ∀ e : S320000.Idx, ((W main_arg2 : IVec S320000 32) e).toNat < 20000) :
    ∀ e : S80000.Idx, ((StableHlo.after hostOps2 W main_v8 : IVec S80000 32) e).toNat < 20000 := by
  rw [tbl2_eq]
  exact slice_in_range _ _ hcol

theorem tbl3_eq (W : Valuation τ sig (Elt F)) :
    StableHlo.after hostOps3 W main_v12 = extractStridedSlice S80000 ![240000] (W main_arg2) slices_S320000_S80000_240000 := by
  after_results

theorem tbl3_in_range (W : Valuation τ sig (Elt F))
    (hcol : ∀ e : S320000.Idx, ((W main_arg2 : IVec S320000 32) e).toNat < 20000) :
    ∀ e : S80000.Idx, ((StableHlo.after hostOps3 W main_v12 : IVec S80000 32) e).toNat < 20000 := by
  rw [tbl3_eq]
  exact slice_in_range _ _ hcol

theorem tbl4_eq (W : Valuation τ sig (Elt F)) :
    StableHlo.after hostOps4 W main_v20 = extractStridedSlice S80000 ![0] (W main_arg5) slices_S320000_S80000_0 := by
  after_results

theorem tbl4_in_range (W : Valuation τ sig (Elt F))
    (hcol : ∀ e : S320000.Idx, ((W main_arg5 : IVec S320000 32) e).toNat < 20000) :
    ∀ e : S80000.Idx, ((StableHlo.after hostOps4 W main_v20 : IVec S80000 32) e).toNat < 20000 := by
  rw [tbl4_eq]
  exact slice_in_range _ _ hcol

theorem tbl5_eq (W : Valuation τ sig (Elt F)) :
    StableHlo.after hostOps5 W main_v24 = extractStridedSlice S80000 ![80000] (W main_arg5) slices_S320000_S80000_80000 := by
  after_results

theorem tbl5_in_range (W : Valuation τ sig (Elt F))
    (hcol : ∀ e : S320000.Idx, ((W main_arg5 : IVec S320000 32) e).toNat < 20000) :
    ∀ e : S80000.Idx, ((StableHlo.after hostOps5 W main_v24 : IVec S80000 32) e).toNat < 20000 := by
  rw [tbl5_eq]
  exact slice_in_range _ _ hcol

theorem tbl6_eq (W : Valuation τ sig (Elt F)) :
    StableHlo.after hostOps6 W main_v28 = extractStridedSlice S80000 ![160000] (W main_arg5) slices_S320000_S80000_160000 := by
  after_results

theorem tbl6_in_range (W : Valuation τ sig (Elt F))
    (hcol : ∀ e : S320000.Idx, ((W main_arg5 : IVec S320000 32) e).toNat < 20000) :
    ∀ e : S80000.Idx, ((StableHlo.after hostOps6 W main_v28 : IVec S80000 32) e).toNat < 20000 := by
  rw [tbl6_eq]
  exact slice_in_range _ _ hcol

theorem tbl7_eq (W : Valuation τ sig (Elt F)) :
    StableHlo.after hostOps7 W main_v32 = extractStridedSlice S80000 ![240000] (W main_arg5) slices_S320000_S80000_240000 := by
  after_results

theorem tbl7_in_range (W : Valuation τ sig (Elt F))
    (hcol : ∀ e : S320000.Idx, ((W main_arg5 : IVec S320000 32) e).toNat < 20000) :
    ∀ e : S80000.Idx, ((StableHlo.after hostOps7 W main_v32 : IVec S80000 32) e).toNat < 20000 := by
  rw [tbl7_eq]
  exact slice_in_range _ _ hcol

end Cert.Kernel.Hand

end
-- ==== Proof.K.EntryVals.lean ====
import proofs.«411766_j31920196944464_2_alg».proof.Proof.Gen.Kernel.Regions
import proofs.«411766_j31920196944464_2_alg».proof.Proof.K.TblRange

noncomputable section

namespace Cert.Kernel.Hand

open Cert.Kernel Cert.Kernel.Gen
open Idealize.ShloMosaic Idealize.ShloMosaic.TcCoe
open Idealize.SL.Sem

variable {F : FTy → Type} [FloatOps F]
variable (m : (ℓ : Loc nD τ sig) → Buf (Elt F) ℓ) (outs : Outs (F := F))

theorem alone0_tbl_in_range (c : Dev nD) (hcol : ∀ e : S320000.Idx, ((m ((c : Thread nD τ).loc main_arg2) : IVec S320000 32) e).toNat < 20000) :
    ∀ e : S80000.Idx, ((StableHlo.after hostOps0 (V0 m c) main_v0 : IVec S80000 32) e).toNat < 20000 :=
  tbl0_in_range (V0 m c) hcol

theorem alone1_tbl_in_range (c : Dev nD) (hcol : ∀ e : S320000.Idx, ((m ((c : Thread nD τ).loc main_arg2) : IVec S320000 32) e).toNat < 20000) :
    ∀ e : S80000.Idx, ((StableHlo.after hostOps1 (V0 m c) main_v4 : IVec S80000 32) e).toNat < 20000 :=
  tbl1_in_range (V0 m c) hcol

theorem alone2_tbl_in_range (c : Dev nD) (hcol : ∀ e : S320000.Idx, ((m ((c : Thread nD τ).loc main_arg2) : IVec S320000 32) e).toNat < 20000) :
    ∀ e : S80000.Idx, ((StableHlo.after hostOps2 (V0 m c) main_v8 : IVec S80000 32) e).toNat < 20000 :=
  tbl2_in_range (V0 m c) hcol

theorem alone3_tbl_in_range (c : Dev nD) (hcol : ∀ e : S320000.Idx, ((m ((c : Thread nD τ).loc main_arg2) : IVec S320000 32) e).toNat < 20000) :
    ∀ e : S80000.Idx, ((StableHlo.after hostOps3 (V0 m c) main_v12 : IVec S80000 32) e).toNat < 20000 :=
  tbl3_in_range (V0 m c) hcol

theorem alone4_tbl_in_range (c : Dev nD) (hcol : ∀ e : S320000.Idx, ((m ((c : Thread nD τ).loc main_arg5) : IVec S320000 32) e).toNat < 20000) :
    ∀ e : S80000.Idx, ((StableHlo.after hostOps4 (V0 m c) main_v20 : IVec S80000 32) e).toNat < 20000 :=
  tbl4_in_range (V0 m c) hcol

theorem alone5_tbl_in_range (c : Dev nD) (hcol : ∀ e : S320000.Idx, ((m ((c : Thread nD τ).loc main_arg5) : IVec S320000 32) e).toNat < 20000) :
    ∀ e : S80000.Idx, ((StableHlo.after hostOps5 (V0 m c) main_v24 : IVec S80000 32) e).toNat < 20000 :=
  tbl5_in_range (V0 m c) hcol

theorem alone6_tbl_in_range (c : Dev nD) (hcol : ∀ e : S320000.Idx, ((m ((c : Thread nD τ).loc main_arg5) : IVec S320000 32) e).toNat < 20000) :
    ∀ e : S80000.Idx, ((StableHlo.after hostOps6 (V0 m c) main_v28 : IVec S80000 32) e).toNat < 20000 :=
  tbl6_in_range (V0 m c) hcol

theorem alone7_tbl_in_range (c : Dev nD) (hcol : ∀ e : S320000.Idx, ((m ((c : Thread nD τ).loc main_arg5) : IVec S320000 32) e).toNat < 20000) :
    ∀ e : S80000.Idx, ((StableHlo.after hostOps7 (V0 m c) main_v32 : IVec S80000 32) e).toNat < 20000 :=
  tbl7_in_range (V0 m c) hcol

end Cert.Kernel.Hand

end
-- ==== Proof.K.Assembly.lean ====
import proofs.«411766_j31920196944464_2_alg».proof.Proof.K.Region0
import proofs.«411766_j31920196944464_2_alg».proof.Proof.K.Region1
import proofs.«411766_j31920196944464_2_alg».proof.Proof.K.Region2
import proofs.«411766_j31920196944464_2_alg».proof.Proof.K.Region3
import proofs.«411766_j31920196944464_2_alg».proof.Proof.K.Region4
import proofs.«411766_j31920196944464_2_alg».proof.Proof.K.Region5
import proofs.«411766_j31920196944464_2_alg».proof.Proof.K.Region6
import proofs.«411766_j31920196944464_2_alg».proof.Proof.K.Region7
import proofs.«411766_j31920196944464_2_alg».proof.Proof.K.Common
import proofs.«411766_j31920196944464_2_alg».proof.Proof.K.EntryVals
import proofs.«411766_j31920196944464_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev c0 : Dev nD := ⟨0, by decide⟩
theorem dev_eq (c : Dev nD) : c = c0 := Fin.ext (Nat.lt_one_iff.mp c.isLt)

abbrev U0 (c : Dev nD) : Valuation τ sig (Elt F) := StableHlo.after hostOps0 (V0 m c)

abbrev Ud0 : (c : Dev nD) → (b : Ref sig .tc) → Buf (Elt F) ((c : Thread nD τ).loc b) := fun c b => U0 m c b

abbrev tbl0 : pre0.Contents (Elt F) := fun k => U0 m c0 (pre0.ref k)
abbrev adm0 : (pcfg0 (F := F)).Adm := ⟨tbl0 m, trivial⟩

abbrev U1 (c : Dev nD) : Valuation τ sig (Elt F) := StableHlo.after hostOps1 (V0 m c)

abbrev Ud1 : (c : Dev nD) → (b : Ref sig .tc) → Buf (Elt F) ((c : Thread nD τ).loc b) := fun c b => U1 m c b

abbrev tbl1 : pre1.Contents (Elt F) := fun k => U1 m c0 (pre1.ref k)
abbrev adm1 : (pcfg1 (F := F)).Adm := ⟨tbl1 m, trivial⟩

abbrev U2 (c : Dev nD) : Valuation τ sig (Elt F) := StableHlo.after hostOps2 (V0 m c)

abbrev Ud2 : (c : Dev nD) → (b : Ref sig .tc) → Buf (Elt F) ((c : Thread nD τ).loc b) := fun c b => U2 m c b

abbrev tbl2 : pre2.Contents (Elt F) := fun k => U2 m c0 (pre2.ref k)
abbrev adm2 : (pcfg2 (F := F)).Adm := ⟨tbl2 m, trivial⟩

abbrev U3 (c : Dev nD) : Valuation τ sig (Elt F) := StableHlo.after hostOps3 (V0 m c)

abbrev Ud3 : (c : Dev nD) → (b : Ref sig .tc) → Buf (Elt F) ((c : Thread nD τ).loc b) := fun c b => U3 m c b

abbrev tbl3 : pre3.Contents (Elt F) := fun k => U3 m c0 (pre3.ref k)
abbrev adm3 : (pcfg3 (F := F)).Adm := ⟨tbl3 m, trivial⟩

abbrev U4 (c : Dev nD) : Valuation τ sig (Elt F) := StableHlo.after hostOps4 (V0 m c)

abbrev Ud4 : (c : Dev nD) → (b : Ref sig .tc) → Buf (Elt F) ((c : Thread nD τ).loc b) := fun c b => U4 m c b

abbrev tbl4 : pre4.Contents (Elt F) := fun k => U4 m c0 (pre4.ref k)
abbrev adm4 : (pcfg4 (F := F)).Adm := ⟨tbl4 m, trivial⟩

abbrev U5 (c : Dev nD) : Valuation τ sig (Elt F) := StableHlo.after hostOps5 (V0 m c)

abbrev Ud5 : (c : Dev nD) → (b : Ref sig .tc) → Buf (Elt F) ((c : Thread nD τ).loc b) := fun c b => U5 m c b

abbrev tbl5 : pre5.Contents (Elt F) := fun k => U5 m c0 (pre5.ref k)
abbrev adm5 : (pcfg5 (F := F)).Adm := ⟨tbl5 m, trivial⟩

abbrev U6 (c : Dev nD) : Valuation τ sig (Elt F) := StableHlo.after hostOps6 (V0 m c)

abbrev Ud6 : (c : Dev nD) → (b : Ref sig .tc) → Buf (Elt F) ((c : Thread nD τ).loc b) := fun c b => U6 m c b

abbrev tbl6 : pre6.Contents (Elt F) := fun k => U6 m c0 (pre6.ref k)
abbrev adm6 : (pcfg6 (F := F)).Adm := ⟨tbl6 m, trivial⟩

abbrev U7 (c : Dev nD) : Valuation τ sig (Elt F) := StableHlo.after hostOps7 (V0 m c)

abbrev Ud7 : (c : Dev nD) → (b : Ref sig .tc) → Buf (Elt F) ((c : Thread nD τ).loc b) := fun c b => U7 m c b

abbrev tbl7 : pre7.Contents (Elt F) := fun k => U7 m c0 (pre7.ref k)
abbrev adm7 : (pcfg7 (F := F)).Adm := ⟨tbl7 m, trivial⟩

def adm : (p : Fin 8) → (pcfgs (F := F) p).Adm
  | ⟨0, _⟩ => adm0 m
  | ⟨1, _⟩ => adm1 m
  | ⟨2, _⟩ => adm2 m
  | ⟨3, _⟩ => adm3 m
  | ⟨4, _⟩ => adm4 m
  | ⟨5, _⟩ => adm5 m
  | ⟨6, _⟩ => adm6 m
  | ⟨7, _⟩ => adm7 m
  | ⟨_ + 8, h⟩ => absurd h (Nat.not_lt.2 (Nat.le_add_left _ _))

def pdats : (p : Fin 8) → (c : Dev nD) → Dat τ (Elt F) Unit ℕ (Pipeline.UD sig nD τ) ℕ (Pipeline.pin (pcfgs (F := F)) (adm m) p) c
  | ⟨0, _⟩ => fun c => dat0 (Ud0 m) (adm0 m) c
  | ⟨1, _⟩ => fun c => dat1 (Ud1 m) (adm1 m) c
  | ⟨2, _⟩ => fun c => dat2 (Ud2 m) (adm2 m) c
  | ⟨3, _⟩ => fun c => dat3 (Ud3 m) (adm3 m) c
  | ⟨4, _⟩ => fun c => dat4 (Ud4 m) (adm4 m) c
  | ⟨5, _⟩ => fun c => dat5 (Ud5 m) (adm5 m) c
  | ⟨6, _⟩ => fun c => dat6 (Ud6 m) (adm6 m) c
  | ⟨7, _⟩ => fun c => dat7 (Ud7 m) (adm7 m) c
  | ⟨_ + 8, h⟩ => absurd h (Nat.not_lt.2 (Nat.le_add_left _ _))

def outsP : Outs (F := F) := fun n r c =>
  match n with
  | 2 => Function.update (U0 m c) (Proc.devRef .tc main_v3) ((dat0 (Ud0 m) (adm0 m) c).arrAt 2 (cfg0 (adm0 m)).N) (Proc.devRef .tc r)
  | 4 => Function.update (U1 m c) (Proc.devRef .tc main_v7) ((dat1 (Ud1 m) (adm1 m) c).arrAt 2 (cfg1 (adm1 m)).N) (Proc.devRef .tc r)
  | 6 => Function.update (U2 m c) (Proc.devRef .tc main_v11) ((dat2 (Ud2 m) (adm2 m) c).arrAt 2 (cfg2 (adm2 m)).N) (Proc.devRef .tc r)
  | 8 => Function.update (U3 m c) (Proc.devRef .tc main_v15) ((dat3 (Ud3 m) (adm3 m) c).arrAt 2 (cfg3 (adm3 m)).N) (Proc.devRef .tc r)
  | 10 => Function.update (U4 m c) (Proc.devRef .tc main_v23) ((dat4 (Ud4 m) (adm4 m) c).arrAt 2 (cfg4 (adm4 m)).N) (Proc.devRef .tc r)
  | 12 => Function.update (U5 m c) (Proc.devRef .tc main_v27) ((dat5 (Ud5 m) (adm5 m) c).arrAt 2 (cfg5 (adm5 m)).N) (Proc.devRef .tc r)
  | 14 => Function.update (U6 m c) (Proc.devRef .tc main_v31) ((dat6 (Ud6 m) (adm6 m) c).arrAt 2 (cfg6 (adm6 m)).N) (Proc.devRef .tc r)
  | 16 => Function.update (U7 m c) (Proc.devRef .tc main_v35) ((dat7 (Ud7 m) (adm7 m) c).arrAt 2 (cfg7 (adm7 m)).N) (Proc.devRef .tc r)
  | _ => m ((c : Thread nD τ).loc r)
theorem outsP_2 (c : Dev nD) : outsP m 2 main_v3 c = (dat0 (Ud0 m) (adm0 m) c).arrAt 2 (cfg0 (adm0 m)).N := by
  unfold outsP; exact Function.update_self ..
theorem outsP_4 (c : Dev nD) : outsP m 4 main_v7 c = (dat1 (Ud1 m) (adm1 m) c).arrAt 2 (cfg1 (adm1 m)).N := by
  unfold outsP; exact Function.update_self ..
theorem outsP_6 (c : Dev nD) : outsP m 6 main_v11 c = (dat2 (Ud2 m) (adm2 m) c).arrAt 2 (cfg2 (adm2 m)).N := by
  unfold outsP; exact Function.update_self ..
theorem outsP_8 (c : Dev nD) : outsP m 8 main_v15 c = (dat3 (Ud3 m) (adm3 m) c).arrAt 2 (cfg3 (adm3 m)).N := by
  unfold outsP; exact Function.update_self ..
theorem outsP_10 (c : Dev nD) : outsP m 10 main_v23 c = (dat4 (Ud4 m) (adm4 m) c).arrAt 2 (cfg4 (adm4 m)).N := by
  unfold outsP; exact Function.update_self ..
theorem outsP_12 (c : Dev nD) : outsP m 12 main_v27 c = (dat5 (Ud5 m) (adm5 m) c).arrAt 2 (cfg5 (adm5 m)).N := by
  unfold outsP; exact Function.update_self ..
theorem outsP_14 (c : Dev nD) : outsP m 14 main_v31 c = (dat6 (Ud6 m) (adm6 m) c).arrAt 2 (cfg6 (adm6 m)).N := by
  unfold outsP; exact Function.update_self ..
theorem outsP_16 (c : Dev nD) : outsP m 16 main_v35 c = (dat7 (Ud7 m) (adm7 m) c).arrAt 2 (cfg7 (adm7 m)).N := by
  unfold outsP; exact Function.update_self ..

section Agree
variable (outs : Outs (F := F))
abbrev W1 : List (Ref sig .tc) := hostOps0_W
abbrev W2 : List (Ref sig .tc) := W1 ++ [main_v3]
abbrev W3 : List (Ref sig .tc) := W2 ++ hostOps1_W
abbrev W4 : List (Ref sig .tc) := W3 ++ [main_v7]
abbrev W5 : List (Ref sig .tc) := W4 ++ hostOps2_W
abbrev W6 : List (Ref sig .tc) := W5 ++ [main_v11]
abbrev W7 : List (Ref sig .tc) := W6 ++ hostOps3_W
abbrev W8 : List (Ref sig .tc) := W7 ++ [main_v15]
abbrev W9 : List (Ref sig .tc) := W8 ++ hostOps4_W
abbrev W10 : List (Ref sig .tc) := W9 ++ [main_v23]
abbrev W11 : List (Ref sig .tc) := W10 ++ hostOps5_W
abbrev W12 : List (Ref sig .tc) := W11 ++ [main_v27]
abbrev W13 : List (Ref sig .tc) := W12 ++ hostOps6_W
abbrev W14 : List (Ref sig .tc) := W13 ++ [main_v31]
abbrev W15 : List (Ref sig .tc) := W14 ++ hostOps7_W
/-- A reference that no item up to item n writes holds its launch value after item n. -/
theorem at_V1 (c : Dev nD) (r : Ref sig .tc) (h : r ∉ W1) : V1 m c r = V0 m c r := V1_of m c r h
theorem at_V2 (c : Dev nD) (r : Ref sig .tc) (h : r ∉ W2) : V2 m outs c r = V0 m c r :=
  (V2_of m outs c r fun hm => h (List.mem_append_right _ hm)).trans (at_V1 m c r fun hm => h (List.mem_append_left _ hm))
theorem at_V3 (c : Dev nD) (r : Ref sig .tc) (h : r ∉ W3) : V3 m outs c r = V0 m c r :=
  (V3_of m outs c r fun hm => h (List.mem_append_right _ hm)).trans (at_V2 m outs c r fun hm => h (List.mem_append_left _ hm))
theorem at_V4 (c : Dev nD) (r : Ref sig .tc) (h : r ∉ W4) : V4 m outs c r = V0 m c r :=
  (V4_of m outs c r fun hm => h (List.mem_append_right _ hm)).trans (at_V3 m outs c r fun hm => h (List.mem_append_left _ hm))
theorem at_V5 (c : Dev nD) (r : Ref sig .tc) (h : r ∉ W5) : V5 m outs c r = V0 m c r :=
  (V5_of m outs c r fun hm => h (List.mem_append_right _ hm)).trans (at_V4 m outs c r fun hm => h (List.mem_append_left _ hm))
theorem at_V6 (c : Dev nD) (r : Ref sig .tc) (h : r ∉ W6) : V6 m outs c r = V0 m c r :=
  (V6_of m outs c r fun hm => h (List.mem_append_right _ hm)).trans (at_V5 m outs c r fun hm => h (List.mem_append_left _ hm))
theorem at_V7 (c : Dev nD) (r : Ref sig .tc) (h : r ∉ W7) : V7 m outs c r = V0 m c r :=
  (V7_of m outs c r fun hm => h (List.mem_append_right _ hm)).trans (at_V6 m outs c r fun hm => h (List.mem_append_left _ hm))
theorem at_V8 (c : Dev nD) (r : Ref sig .tc) (h : r ∉ W8) : V8 m outs c r = V0 m c r :=
  (V8_of m outs c r fun hm => h (List.mem_append_right _ hm)).trans (at_V7 m outs c r fun hm => h (List.mem_append_left _ hm))
theorem at_V9 (c : Dev nD) (r : Ref sig .tc) (h : r ∉ W9) : V9 m outs c r = V0 m c r :=
  (V9_of m outs c r fun hm => h (List.mem_append_right _ hm)).trans (at_V8 m outs c r fun hm => h (List.mem_append_left _ hm))
theorem at_V10 (c : Dev nD) (r : Ref sig .tc) (h : r ∉ W10) : V10 m outs c r = V0 m c r :=
  (V10_of m outs c r fun hm => h (List.mem_append_right _ hm)).trans (at_V9 m outs c r fun hm => h (List.mem_append_left _ hm))
theorem at_V11 (c : Dev nD) (r : Ref sig .tc) (h : r ∉ W11) : V11 m outs c r = V0 m c r :=
  (V11_of m outs c r fun hm => h (List.mem_append_right _ hm)).trans (at_V10 m outs c r fun hm => h (List.mem_append_left _ hm))
theorem at_V12 (c : Dev nD) (r : Ref sig .tc) (h : r ∉ W12) : V12 m outs c r = V0 m c r :=
  (V12_of m outs c r fun hm => h (List.mem_append_right _ hm)).trans (at_V11 m outs c r fun hm => h (List.mem_append_left _ hm))
theorem at_V13 (c : Dev nD) (r : Ref sig .tc) (h : r ∉ W13) : V13 m outs c r = V0 m c r :=
  (V13_of m outs c r fun hm => h (List.mem_append_right _ hm)).trans (at_V12 m outs c r fun hm => h (List.mem_append_left _ hm))
theorem at_V14 (c : Dev nD) (r : Ref sig .tc) (h : r ∉ W14) : V14 m outs c r = V0 m c r :=
  (V14_of m outs c r fun hm => h (List.mem_append_right _ hm)).trans (at_V13 m outs c r fun hm => h (List.mem_append_left _ hm))
theorem at_V15 (c : Dev nD) (r : Ref sig .tc) (h : r ∉ W15) : V15 m outs c r = V0 m c r :=
  (V15_of m outs c r fun hm => h (List.mem_append_right _ hm)).trans (at_V14 m outs c r fun hm => h (List.mem_append_left _ hm))
theorem agree0_x (c : Dev nD) : V1 m c main_arg0 = U0 m c main_arg0 :=
  (at_V1 m c main_arg0 (by decide)).trans (StableHlo.after_of_writes_sub hostOps0 _ hostOps0_writes (by decide)).symm
theorem agree0_o (c : Dev nD) : V1 m c main_v3 = U0 m c main_v3 :=
  ((V1_of m c main_v3 (by decide))).trans (StableHlo.after_of_writes_sub hostOps0 _ hostOps0_writes (by decide)).symm
theorem agree0_t (c : Dev nD) : V1 m c main_v0 = U0 m c main_v0 := by
  show StableHlo.after hostOps0 (V0 m c) main_v0 = StableHlo.after hostOps0 (V0 m c) main_v0
  unfold hostOps0
  after_results

theorem agree0_v (c : Dev nD) : V1 m c main_v2 = U0 m c main_v2 := by
  show StableHlo.after hostOps0 (V0 m c) main_v2 = StableHlo.after hostOps0 (V0 m c) main_v2
  unfold hostOps0
  after_results

theorem agree1_x (c : Dev nD) : V3 m outs c main_arg0 = U1 m c main_arg0 :=
  (at_V3 m outs c main_arg0 (by decide)).trans (StableHlo.after_of_writes_sub hostOps1 _ hostOps1_writes (by decide)).symm
theorem agree1_o (c : Dev nD) : V3 m outs c main_v7 = U1 m c main_v7 :=
  (at_V3 m outs c main_v7 (by decide)).trans (StableHlo.after_of_writes_sub hostOps1 _ hostOps1_writes (by decide)).symm
theorem agree1_t (c : Dev nD) : V3 m outs c main_v4 = U1 m c main_v4 := by
  show StableHlo.after hostOps1 (V2 m outs c) main_v4 = StableHlo.after hostOps1 (V0 m c) main_v4
  unfold hostOps1
  after_results
  rw [at_V2 m outs c main_arg2 (by decide)]
theorem agree1_v (c : Dev nD) : V3 m outs c main_v6 = U1 m c main_v6 := by
  show StableHlo.after hostOps1 (V2 m outs c) main_v6 = StableHlo.after hostOps1 (V0 m c) main_v6
  unfold hostOps1
  after_results
  rw [at_V2 m outs c main_arg3 (by decide)]

theorem agree2_x (c : Dev nD) : V5 m outs c main_arg0 = U2 m c main_arg0 :=
  (at_V5 m outs c main_arg0 (by decide)).trans (StableHlo.after_of_writes_sub hostOps2 _ hostOps2_writes (by decide)).symm
theorem agree2_o (c : Dev nD) : V5 m outs c main_v11 = U2 m c main_v11 :=
  (at_V5 m outs c main_v11 (by decide)).trans (StableHlo.after_of_writes_sub hostOps2 _ hostOps2_writes (by decide)).symm
theorem agree2_t (c : Dev nD) : V5 m outs c main_v8 = U2 m c main_v8 := by
  show StableHlo.after hostOps2 (V4 m outs c) main_v8 = StableHlo.after hostOps2 (V0 m c) main_v8
  unfold hostOps2
  after_results
  rw [at_V4 m outs c main_arg2 (by decide)]
theorem agree2_v (c : Dev nD) : V5 m outs c main_v10 = U2 m c main_v10 := by
  show StableHlo.after hostOps2 (V4 m outs c) main_v10 = StableHlo.after hostOps2 (V0 m c) main_v10
  unfold hostOps2
  after_results
  rw [at_V4 m outs c main_arg3 (by decide)]

theorem agree3_x (c : Dev nD) : V7 m outs c main_arg0 = U3 m c main_arg0 :=
  (at_V7 m outs c main_arg0 (by decide)).trans (StableHlo.after_of_writes_sub hostOps3 _ hostOps3_writes (by decide)).symm
theorem agree3_o (c : Dev nD) : V7 m outs c main_v15 = U3 m c main_v15 :=
  (at_V7 m outs c main_v15 (by decide)).trans (StableHlo.after_of_writes_sub hostOps3 _ hostOps3_writes (by decide)).symm
theorem agree3_t (c : Dev nD) : V7 m outs c main_v12 = U3 m c main_v12 := by
  show StableHlo.after hostOps3 (V6 m outs c) main_v12 = StableHlo.after hostOps3 (V0 m c) main_v12
  unfold hostOps3
  after_results
  rw [at_V6 m outs c main_arg2 (by decide)]
theorem agree3_v (c : Dev nD) : V7 m outs c main_v14 = U3 m c main_v14 := by
  show StableHlo.after hostOps3 (V6 m outs c) main_v14 = StableHlo.after hostOps3 (V0 m c) main_v14
  unfold hostOps3
  after_results
  rw [at_V6 m outs c main_arg3 (by decide)]

theorem agree4_x (c : Dev nD) : V9 m outs c main_arg0 = U4 m c main_arg0 :=
  (at_V9 m outs c main_arg0 (by decide)).trans (StableHlo.after_of_writes_sub hostOps4 _ hostOps4_writes (by decide)).symm
theorem agree4_o (c : Dev nD) : V9 m outs c main_v23 = U4 m c main_v23 :=
  (at_V9 m outs c main_v23 (by decide)).trans (StableHlo.after_of_writes_sub hostOps4 _ hostOps4_writes (by decide)).symm
theorem agree4_t (c : Dev nD) : V9 m outs c main_v20 = U4 m c main_v20 := by
  show StableHlo.after hostOps4 (V8 m outs c) main_v20 = StableHlo.after hostOps4 (V0 m c) main_v20
  unfold hostOps4
  after_results
  rw [at_V8 m outs c main_arg5 (by decide)]
theorem agree4_v (c : Dev nD) : V9 m outs c main_v22 = U4 m c main_v22 := by
  show StableHlo.after hostOps4 (V8 m outs c) main_v22 = StableHlo.after hostOps4 (V0 m c) main_v22
  unfold hostOps4
  after_results
  rw [at_V8 m outs c main_arg6 (by decide)]

theorem agree5_x (c : Dev nD) : V11 m outs c main_arg0 = U5 m c main_arg0 :=
  (at_V11 m outs c main_arg0 (by decide)).trans (StableHlo.after_of_writes_sub hostOps5 _ hostOps5_writes (by decide)).symm
theorem agree5_o (c : Dev nD) : V11 m outs c main_v27 = U5 m c main_v27 :=
  (at_V11 m outs c main_v27 (by decide)).trans (StableHlo.after_of_writes_sub hostOps5 _ hostOps5_writes (by decide)).symm
theorem agree5_t (c : Dev nD) : V11 m outs c main_v24 = U5 m c main_v24 := by
  show StableHlo.after hostOps5 (V10 m outs c) main_v24 = StableHlo.after hostOps5 (V0 m c) main_v24
  unfold hostOps5
  after_results
  rw [at_V10 m outs c main_arg5 (by decide)]
theorem agree5_v (c : Dev nD) : V11 m outs c main_v26 = U5 m c main_v26 := by
  show StableHlo.after hostOps5 (V10 m outs c) main_v26 = StableHlo.after hostOps5 (V0 m c) main_v26
  unfold hostOps5
  after_results
  rw [at_V10 m outs c main_arg6 (by decide)]

theorem agree6_x (c : Dev nD) : V13 m outs c main_arg0 = U6 m c main_arg0 :=
  (at_V13 m outs c main_arg0 (by decide)).trans (StableHlo.after_of_writes_sub hostOps6 _ hostOps6_writes (by decide)).symm
theorem agree6_o (c : Dev nD) : V13 m outs c main_v31 = U6 m c main_v31 :=
  (at_V13 m outs c main_v31 (by decide)).trans (StableHlo.after_of_writes_sub hostOps6 _ hostOps6_writes (by decide)).symm
theorem agree6_t (c : Dev nD) : V13 m outs c main_v28 = U6 m c main_v28 := by
  show StableHlo.after hostOps6 (V12 m outs c) main_v28 = StableHlo.after hostOps6 (V0 m c) main_v28
  unfold hostOps6
  after_results
  rw [at_V12 m outs c main_arg5 (by decide)]
theorem agree6_v (c : Dev nD) : V13 m outs c main_v30 = U6 m c main_v30 := by
  show StableHlo.after hostOps6 (V12 m outs c) main_v30 = StableHlo.after hostOps6 (V0 m c) main_v30
  unfold hostOps6
  after_results
  rw [at_V12 m outs c main_arg6 (by decide)]

theorem agree7_x (c : Dev nD) : V15 m outs c main_arg0 = U7 m c main_arg0 :=
  (at_V15 m outs c main_arg0 (by decide)).trans (StableHlo.after_of_writes_sub hostOps7 _ hostOps7_writes (by decide)).symm
theorem agree7_o (c : Dev nD) : V15 m outs c main_v35 = U7 m c main_v35 :=
  (at_V15 m outs c main_v35 (by decide)).trans (StableHlo.after_of_writes_sub hostOps7 _ hostOps7_writes (by decide)).symm
theorem agree7_t (c : Dev nD) : V15 m outs c main_v32 = U7 m c main_v32 := by
  show StableHlo.after hostOps7 (V14 m outs c) main_v32 = StableHlo.after hostOps7 (V0 m c) main_v32
  unfold hostOps7
  after_results
  rw [at_V14 m outs c main_arg5 (by decide)]
theorem agree7_v (c : Dev nD) : V15 m outs c main_v34 = U7 m c main_v34 := by
  show StableHlo.after hostOps7 (V14 m outs c) main_v34 = StableHlo.after hostOps7 (V0 m c) main_v34
  unfold hostOps7
  after_results
  rw [at_V14 m outs c main_arg6 (by decide)]

end Agree

theorem hA0 (c : Dev nD) : ∀ w : Fin 3, Ud0 m c (Pipeline.arrRef spec0 w) = V1 m c (Pipeline.arrRef spec0 w)
  | 0 => (agree0_x m c).symm
  | 1 => (agree0_v m c).symm
  | 2 => (agree0_o m c).symm
  | ⟨_ + 3, h⟩ => absurd h (Nat.not_lt.2 (Nat.le_add_left _ _))
theorem hT0 (c : Dev nD) : ∀ k, (adm0 m).1 k = V1 m c (pre0.ref k) := by
  obtain rfl := dev_eq c
  exact fun | 0 => (agree0_t m c0).symm | ⟨_ + 1, h⟩ => absurd h (Nat.not_lt.2 (Nat.le_add_left _ _))
theorem hF0 (c : Dev nD) : ∀ w : Fin 3, (dat0 (Ud0 m) (adm0 m) c).arrAt w (cfg0 (adm0 m)).N = V2 m (outsP m) c (Pipeline.arrRef spec0 w)
  | 0 => (((dat0 (Ud0 m) (adm0 m) c).arrAt_in 0 rfl _).trans (A_eq0 (Ud0 m) (adm0 m) c 0)).trans ((agree0_x m c).symm.trans (V2_of m (outsP m) c main_arg0 (by decide)).symm)
  | 1 => (((dat0 (Ud0 m) (adm0 m) c).arrAt_in 1 rfl _).trans (A_eq0 (Ud0 m) (adm0 m) c 1)).trans ((agree0_v m c).symm.trans (V2_of m (outsP m) c main_v2 (by decide)).symm)
  | 2 => (outsP_2 m c).symm.trans (Function.update_self (β := fun b : DevRef τ sig => b.ty.Contents (Elt F)) (Proc.devRef .tc main_v3) (outsP m 2 main_v3 c) (V1 m c)).symm
  | ⟨_ + 3, h⟩ => absurd h (Nat.not_lt.2 (Nat.le_add_left _ _))
theorem hrest0 (c : Dev nD) : ∀ b : Ref sig .tc, b ∉ Finset.univ.image (Pipeline.arrRef spec0) → V2 m (outsP m) c b = V1 m c b :=
  fun b hb => V2_of m (outsP m) c b fun hmem =>
    hb (Finset.mem_image.mpr ⟨2, Finset.mem_univ _, (List.mem_singleton.mp hmem).symm⟩)

set_option backward.isDefEq.respectTransparency.types false in

def reg0 (hcol : HCol0 (adm0 m)) :
    Pipeline.RegionSeg (pcfgs (F := F)) (adm m) (pdats m) () defs₀ Variants.none L lv 0 where
  win := (launch0 (F := F)).win.to₀
  block_pos := (launch0 (F := F)).block_pos
  stage_whole := (launch0 (F := F)).stage_whole
  K := Fin 16
  osem := osem0
  ho := ownSemFacts0
  hbody c := (body_obligation0 (Ud0 m) (adm0 m) hcol c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsP m) c) ∗ R c)
  X := X0
  Y := Y0 (adm0 m)
  Z c := Z0 (V1 m c) c
  hentry c := hentry0 (Ud0 m) (adm0 m) c (V1 m c) (hA0 m c) (hT0 m c)
  hin c := hin0 (Ud0 m) (adm0 m) c
  hout c := hout0 (Ud0 m) (adm0 m) c
  hexit c := hexit0 (Ud0 m) (adm0 m) c (V1 m c) (V2 m (outsP m) c) (hF0 m c) (hrest0 m c) (hT0 m c)

theorem hA1 (c : Dev nD) : ∀ w : Fin 3, Ud1 m c (Pipeline.arrRef spec1 w) = V3 m (outsP m) c (Pipeline.arrRef spec1 w)
  | 0 => (agree1_x m (outsP m) c).symm
  | 1 => (agree1_v m (outsP m) c).symm
  | 2 => (agree1_o m (outsP m) c).symm
  | ⟨_ + 3, h⟩ => absurd h (Nat.not_lt.2 (Nat.le_add_left _ _))
theorem hT1 (c : Dev nD) : ∀ k, (adm1 m).1 k = V3 m (outsP m) c (pre1.ref k) := by
  obtain rfl := dev_eq c
  exact fun | 0 => (agree1_t m (outsP m) c0).symm | ⟨_ + 1, h⟩ => absurd h (Nat.not_lt.2 (Nat.le_add_left _ _))
theorem hF1 (c : Dev nD) : ∀ w : Fin 3, (dat1 (Ud1 m) (adm1 m) c).arrAt w (cfg1 (adm1 m)).N = V4 m (outsP m) c (Pipeline.arrRef spec1 w)
  | 0 => (((dat1 (Ud1 m) (adm1 m) c).arrAt_in 0 rfl _).trans (A_eq1 (Ud1 m) (adm1 m) c 0)).trans ((agree1_x m (outsP m) c).symm.trans (V4_of m (outsP m) c main_arg0 (by decide)).symm)
  | 1 => (((dat1 (Ud1 m) (adm1 m) c).arrAt_in 1 rfl _).trans (A_eq1 (Ud1 m) (adm1 m) c 1)).trans ((agree1_v m (outsP m) c).symm.trans (V4_of m (outsP m) c main_v6 (by decide)).symm)
  | 2 => (outsP_4 m c).symm.trans (Function.update_self (β := fun b : DevRef τ sig => b.ty.Contents (Elt F)) (Proc.devRef .tc main_v7) (outsP m 4 main_v7 c) (V3 m (outsP m) c)).symm
  | ⟨_ + 3, h⟩ => absurd h (Nat.not_lt.2 (Nat.le_add_left _ _))
theorem hrest1 (c : Dev nD) : ∀ b : Ref sig .tc, b ∉ Finset.univ.image (Pipeline.arrRef spec1) → V4 m (outsP m) c b = V3 m (outsP m) c b :=
  fun b hb => V4_of m (outsP m) c b fun hmem =>
    hb (Finset.mem_image.mpr ⟨2, Finset.mem_univ _, (List.mem_singleton.mp hmem).symm⟩)

set_option backward.isDefEq.respectTransparency.types false in

def reg1 (hcol : HCol1 (adm1 m)) :
    Pipeline.RegionSeg (pcfgs (F := F)) (adm m) (pdats m) () defs₀ Variants.none L lv 1 where
  win := (launch1 (F := F)).win.to₀
  block_pos := (launch1 (F := F)).block_pos
  stage_whole := (launch1 (F := F)).stage_whole
  K := Fin 16
  osem := osem1
  ho := ownSemFacts1
  hbody c := (body_obligation1 (Ud1 m) (adm1 m) hcol c).loose
  hwaits := Pipeline.hwaits_of_owed_zero _ _ _ _ L lv 1 fun _ _ => rfl
  pre c := iprop(StableHlo.held (c : Thread nD τ) (Pipeline.ucRefs τ sig) (V3 m (outsP m) c) ∗ R c)
  post c := iprop(StableHlo.held (c : Thread nD τ) (Pipeline.ucRefs τ sig) (V4 m (outsP m) c) ∗ R c)
  X := X1
  Y := Y1 (adm1 m)
  Z c := Z1 (V3 m (outsP m) c) c
  hentry c := hentry1 (Ud1 m) (adm1 m) c (V3 m (outsP m) c) (hA1 m c) (hT1 m c)
  hin c := hin1 (Ud1 m) (adm1 m) c
  hout c := hout1 (Ud1 m) (adm1 m) c
  hexit c := hexit1 (Ud1 m) (adm1 m) c (V3 m (outsP m) c) (V4 m (outsP m) c) (hF1 m c) (hrest1 m c) (hT1 m c)

theorem hA2 (c : Dev nD) : ∀ w : Fin 3, Ud2 m c (Pipeline.arrRef spec2 w) = V5 m (outsP m) c (Pipeline.arrRef spec2 w)
  | 0 => (agree2_x m (outsP m) c).symm
  | 1 => (agree2_v m (outsP m) c).symm
  | 2 => (agree2_o m (outsP m) c).symm
  | ⟨_ + 3, h⟩ => absurd h (Nat.not_lt.2 (Nat.le_add_left _ _))
theorem hT2 (c : Dev nD) : ∀ k, (adm2 m).1 k = V5 m (outsP m) c (pre2.ref k) := by
  obtain rfl := dev_eq c
  exact fun | 0 => (agree2_t m (outsP m) c0).symm | ⟨_ + 1, h⟩ => absurd h (Nat.not_lt.2 (Nat.le_add_left _ _))
theorem hF2 (c : Dev nD) : ∀ w : Fin 3, (dat2 (Ud2 m) (adm2 m) c).arrAt w (cfg2 (adm2 m)).N = V6 m (outsP m) c (Pipeline.arrRef spec2 w)
  | 0 => (((dat2 (Ud2 m) (adm2 m) c).arrAt_in 0 rfl _).trans (A_eq2 (Ud2 m) (adm2 m) c 0)).trans ((agree2_x m (outsP m) c).symm.trans (V6_of m (outsP m) c main_arg0 (by decide)).symm)
  | 1 => (((dat2 (Ud2 m) (adm2 m) c).arrAt_in 1 rfl _).trans (A_eq2 (Ud2 m) (adm2 m) c 1)).trans ((agree2_v m (outsP m) c).symm.trans (V6_of m (outsP m) c main_v10 (by decide)).symm)
  | 2 => (outsP_6 m c).symm.trans (Function.update_self (β := fun b : DevRef τ sig => b.ty.Contents (Elt F)) (Proc.devRef .tc main_v11) (outsP m 6 main_v11 c) (V5 m (outsP m) c)).symm
  | ⟨_ + 3, h⟩ => absurd h (Nat.not_lt.2 (Nat.le_add_left _ _))
theorem hrest2 (c : Dev nD) : ∀ b : Ref sig .tc, b ∉ Finset.univ.image (Pipeline.arrRef spec2) → V6 m (outsP m) c b = V5 m (outsP m) c b :=
  fun b hb => V6_of m (outsP m) c b fun hmem =>
    hb (Finset.mem_image.mpr ⟨2, Finset.mem_univ _, (List.mem_singleton.mp hmem).symm⟩)

set_option backward.isDefEq.respectTransparency.types false in

def reg2 (hcol : HCol2 (adm2 m)) :
    Pipeline.RegionSeg (pcfgs (F := F)) (adm m) (pdats m) () defs₀ Variants.none L lv 2 where
  win := (launch2 (F := F)).win.to₀
  block_pos := (launch2 (F := F)).block_pos
  stage_whole := (launch2 (F := F)).stage_whole
  K := Fin 16
  osem := osem2
  ho := ownSemFacts2
  hbody c := (body_obligation2 (Ud2 m) (adm2 m) hcol c).loose
  hwaits := Pipeline.hwaits_of_owed_zero _ _ _ _ L lv 2 fun _ _ => rfl
  pre c := iprop(StableHlo.held (c : Thread nD τ) (Pipeline.ucRefs τ sig) (V5 m (outsP m) c) ∗ R c)
  post c := iprop(StableHlo.held (c : Thread nD τ) (Pipeline.ucRefs τ sig) (V6 m (outsP m) c) ∗ R c)
  X := X2
  Y := Y2 (adm2 m)
  Z c := Z2 (V5 m (outsP m) c) c
  hentry c := hentry2 (Ud2 m) (adm2 m) c (V5 m (outsP m) c) (hA2 m c) (hT2 m c)
  hin c := hin2 (Ud2 m) (adm2 m) c
  hout c := hout2 (Ud2 m) (adm2 m) c
  hexit c := hexit2 (Ud2 m) (adm2 m) c (V5 m (outsP m) c) (V6 m (outsP m) c) (hF2 m c) (hrest2 m c) (hT2 m c)

theorem hA3 (c : Dev nD) : ∀ w : Fin 3, Ud3 m c (Pipeline.arrRef spec3 w) = V7 m (outsP m) c (Pipeline.arrRef spec3 w)
  | 0 => (agree3_x m (outsP m) c).symm
  | 1 => (agree3_v m (outsP m) c).symm
  | 2 => (agree3_o m (outsP m) c).symm
  | ⟨_ + 3, h⟩ => absurd h (Nat.not_lt.2 (Nat.le_add_left _ _))
theorem hT3 (c : Dev nD) : ∀ k, (adm3 m).1 k = V7 m (outsP m) c (pre3.ref k) := by
  obtain rfl := dev_eq c
  exact fun | 0 => (agree3_t m (outsP m) c0).symm | ⟨_ + 1, h⟩ => absurd h (Nat.not_lt.2 (Nat.le_add_left _ _))
theorem hF3 (c : Dev nD) : ∀ w : Fin 3, (dat3 (Ud3 m) (adm3 m) c).arrAt w (cfg3 (adm3 m)).N = V8 m (outsP m) c (Pipeline.arrRef spec3 w)
  | 0 => (((dat3 (Ud3 m) (adm3 m) c).arrAt_in 0 rfl _).trans (A_eq3 (Ud3 m) (adm3 m) c 0)).trans ((agree3_x m (outsP m) c).symm.trans (V8_of m (outsP m) c main_arg0 (by decide)).symm)
  | 1 => (((dat3 (Ud3 m) (adm3 m) c).arrAt_in 1 rfl _).trans (A_eq3 (Ud3 m) (adm3 m) c 1)).trans ((agree3_v m (outsP m) c).symm.trans (V8_of m (outsP m) c main_v14 (by decide)).symm)
  | 2 => (outsP_8 m c).symm.trans (Function.update_self (β := fun b : DevRef τ sig => b.ty.Contents (Elt F)) (Proc.devRef .tc main_v15) (outsP m 8 main_v15 c) (V7 m (outsP m) c)).symm
  | ⟨_ + 3, h⟩ => absurd h (Nat.not_lt.2 (Nat.le_add_left _ _))
theorem hrest3 (c : Dev nD) : ∀ b : Ref sig .tc, b ∉ Finset.univ.image (Pipeline.arrRef spec3) → V8 m (outsP m) c b = V7 m (outsP m) c b :=
  fun b hb => V8_of m (outsP m) c b fun hmem =>
    hb (Finset.mem_image.mpr ⟨2, Finset.mem_univ _, (List.mem_singleton.mp hmem).symm⟩)

set_option backward.isDefEq.respectTransparency.types false in

def reg3 (hcol : HCol3 (adm3 m)) :
    Pipeline.RegionSeg (pcfgs (F := F)) (adm m) (pdats m) () defs₀ Variants.none L lv 3 where
  win := (launch3 (F := F)).win.to₀
  block_pos := (launch3 (F := F)).block_pos
  stage_whole := (launch3 (F := F)).stage_whole
  K := Fin 16
  osem := osem3
  ho := ownSemFacts3
  hbody c := (body_obligation3 (Ud3 m) (adm3 m) hcol c).loose
  hwaits := Pipeline.hwaits_of_owed_zero _ _ _ _ L lv 3 fun _ _ => rfl
  pre c := iprop(StableHlo.held (c : Thread nD τ) (Pipeline.ucRefs τ sig) (V7 m (outsP m) c) ∗ R c)
  post c := iprop(StableHlo.held (c : Thread nD τ) (Pipeline.ucRefs τ sig) (V8 m (outsP m) c) ∗ R c)
  X := X3
  Y := Y3 (adm3 m)
  Z c := Z3 (V7 m (outsP m) c) c
  hentry c := hentry3 (Ud3 m) (adm3 m) c (V7 m (outsP m) c) (hA3 m c) (hT3 m c)
  hin c := hin3 (Ud3 m) (adm3 m) c
  hout c := hout3 (Ud3 m) (adm3 m) c
  hexit c := hexit3 (Ud3 m) (adm3 m) c (V7 m (outsP m) c) (V8 m (outsP m) c) (hF3 m c) (hrest3 m c) (hT3 m c)

theorem hA4 (c : Dev nD) : ∀ w : Fin 3, Ud4 m c (Pipeline.arrRef spec4 w) = V9 m (outsP m) c (Pipeline.arrRef spec4 w)
  | 0 => (agree4_x m (outsP m) c).symm
  | 1 => (agree4_v m (outsP m) c).symm
  | 2 => (agree4_o m (outsP m) c).symm
  | ⟨_ + 3, h⟩ => absurd h (Nat.not_lt.2 (Nat.le_add_left _ _))
theorem hT4 (c : Dev nD) : ∀ k, (adm4 m).1 k = V9 m (outsP m) c (pre4.ref k) := by
  obtain rfl := dev_eq c
  exact fun | 0 => (agree4_t m (outsP m) c0).symm | ⟨_ + 1, h⟩ => absurd h (Nat.not_lt.2 (Nat.le_add_left _ _))
theorem hF4 (c : Dev nD) : ∀ w : Fin 3, (dat4 (Ud4 m) (adm4 m) c).arrAt w (cfg4 (adm4 m)).N = V10 m (outsP m) c (Pipeline.arrRef spec4 w)
  | 0 => (((dat4 (Ud4 m) (adm4 m) c).arrAt_in 0 rfl _).trans (A_eq4 (Ud4 m) (adm4 m) c 0)).trans ((agree4_x m (outsP m) c).symm.trans (V10_of m (outsP m) c main_arg0 (by decide)).symm)
  | 1 => (((dat4 (Ud4 m) (adm4 m) c).arrAt_in 1 rfl _).trans (A_eq4 (Ud4 m) (adm4 m) c 1)).trans ((agree4_v m (outsP m) c).symm.trans (V10_of m (outsP m) c main_v22 (by decide)).symm)
  | 2 => (outsP_10 m c).symm.trans (Function.update_self (β := fun b : DevRef τ sig => b.ty.Contents (Elt F)) (Proc.devRef .tc main_v23) (outsP m 10 main_v23 c) (V9 m (outsP m) c)).symm
  | ⟨_ + 3, h⟩ => absurd h (Nat.not_lt.2 (Nat.le_add_left _ _))
theorem hrest4 (c : Dev nD) : ∀ b : Ref sig .tc, b ∉ Finset.univ.image (Pipeline.arrRef spec4) → V10 m (outsP m) c b = V9 m (outsP m) c b :=
  fun b hb => V10_of m (outsP m) c b fun hmem =>
    hb (Finset.mem_image.mpr ⟨2, Finset.mem_univ _, (List.mem_singleton.mp hmem).symm⟩)

set_option backward.isDefEq.respectTransparency.types false in

def reg4 (hcol : HCol4 (adm4 m)) :
    Pipeline.RegionSeg (pcfgs (F := F)) (adm m) (pdats m) () defs₀ Variants.none L lv 4 where
  win := (launch4 (F := F)).win.to₀
  block_pos := (launch4 (F := F)).block_pos
  stage_whole := (launch4 (F := F)).stage_whole
  K := Fin 16
  osem := osem4
  ho := ownSemFacts4
  hbody c := (body_obligation4 (Ud4 m) (adm4 m) hcol c).loose
  hwaits := Pipeline.hwaits_of_owed_zero _ _ _ _ L lv 4 fun _ _ => rfl
  pre c := iprop(StableHlo.held (c : Thread nD τ) (Pipeline.ucRefs τ sig) (V9 m (outsP m) c) ∗ R c)
  post c := iprop(StableHlo.held (c : Thread nD τ) (Pipeline.ucRefs τ sig) (V10 m (outsP m) c) ∗ R c)
  X := X4
  Y := Y4 (adm4 m)
  Z c := Z4 (V9 m (outsP m) c) c
  hentry c := hentry4 (Ud4 m) (adm4 m) c (V9 m (outsP m) c) (hA4 m c) (hT4 m c)
  hin c := hin4 (Ud4 m) (adm4 m) c
  hout c := hout4 (Ud4 m) (adm4 m) c
  hexit c := hexit4 (Ud4 m) (adm4 m) c (V9 m (outsP m) c) (V10 m (outsP m) c) (hF4 m c) (hrest4 m c) (hT4 m c)

theorem hA5 (c : Dev nD) : ∀ w : Fin 3, Ud5 m c (Pipeline.arrRef spec5 w) = V11 m (outsP m) c (Pipeline.arrRef spec5 w)
  | 0 => (agree5_x m (outsP m) c).symm
  | 1 => (agree5_v m (outsP m) c).symm
  | 2 => (agree5_o m (outsP m) c).symm
  | ⟨_ + 3, h⟩ => absurd h (Nat.not_lt.2 (Nat.le_add_left _ _))
theorem hT5 (c : Dev nD) : ∀ k, (adm5 m).1 k = V11 m (outsP m) c (pre5.ref k) := by
  obtain rfl := dev_eq c
  exact fun | 0 => (agree5_t m (outsP m) c0).symm | ⟨_ + 1, h⟩ => absurd h (Nat.not_lt.2 (Nat.le_add_left _ _))
theorem hF5 (c : Dev nD) : ∀ w : Fin 3, (dat5 (Ud5 m) (adm5 m) c).arrAt w (cfg5 (adm5 m)).N = V12 m (outsP m) c (Pipeline.arrRef spec5 w)
  | 0 => (((dat5 (Ud5 m) (adm5 m) c).arrAt_in 0 rfl _).trans (A_eq5 (Ud5 m) (adm5 m) c 0)).trans ((agree5_x m (outsP m) c).symm.trans (V12_of m (outsP m) c main_arg0 (by decide)).symm)
  | 1 => (((dat5 (Ud5 m) (adm5 m) c).arrAt_in 1 rfl _).trans (A_eq5 (Ud5 m) (adm5 m) c 1)).trans ((agree5_v m (outsP m) c).symm.trans (V12_of m (outsP m) c main_v26 (by decide)).symm)
  | 2 => (outsP_12 m c).symm.trans (Function.update_self (β := fun b : DevRef τ sig => b.ty.Contents (Elt F)) (Proc.devRef .tc main_v27) (outsP m 12 main_v27 c) (V11 m (outsP m) c)).symm
  | ⟨_ + 3, h⟩ => absurd h (Nat.not_lt.2 (Nat.le_add_left _ _))
theorem hrest5 (c : Dev nD) : ∀ b : Ref sig .tc, b ∉ Finset.univ.image (Pipeline.arrRef spec5) → V12 m (outsP m) c b = V11 m (outsP m) c b :=
  fun b hb => V12_of m (outsP m) c b fun hmem =>
    hb (Finset.mem_image.mpr ⟨2, Finset.mem_univ _, (List.mem_singleton.mp hmem).symm⟩)

set_option backward.isDefEq.respectTransparency.types false in

def reg5 (hcol : HCol5 (adm5 m)) :
    Pipeline.RegionSeg (pcfgs (F := F)) (adm m) (pdats m) () defs₀ Variants.none L lv 5 where
  win := (launch5 (F := F)).win.to₀
  block_pos := (launch5 (F := F)).block_pos
  stage_whole := (launch5 (F := F)).stage_whole
  K := Fin 16
  osem := osem5
  ho := ownSemFacts5
  hbody c := (body_obligation5 (Ud5 m) (adm5 m) hcol c).loose
  hwaits := Pipeline.hwaits_of_owed_zero _ _ _ _ L lv 5 fun _ _ => rfl
  pre c := iprop(StableHlo.held (c : Thread nD τ) (Pipeline.ucRefs τ sig) (V11 m (outsP m) c) ∗ R c)
  post c := iprop(StableHlo.held (c : Thread nD τ) (Pipeline.ucRefs τ sig) (V12 m (outsP m) c) ∗ R c)
  X := X5
  Y := Y5 (adm5 m)
  Z c := Z5 (V11 m (outsP m) c) c
  hentry c := hentry5 (Ud5 m) (adm5 m) c (V11 m (outsP m) c) (hA5 m c) (hT5 m c)
  hin c := hin5 (Ud5 m) (adm5 m) c
  hout c := hout5 (Ud5 m) (adm5 m) c
  hexit c := hexit5 (Ud5 m) (adm5 m) c (V11 m (outsP m) c) (V12 m (outsP m) c) (hF5 m c) (hrest5 m c) (hT5 m c)

theorem hA6 (c : Dev nD) : ∀ w : Fin 3, Ud6 m c (Pipeline.arrRef spec6 w) = V13 m (outsP m) c (Pipeline.arrRef spec6 w)
  | 0 => (agree6_x m (outsP m) c).symm
  | 1 => (agree6_v m (outsP m) c).symm
  | 2 => (agree6_o m (outsP m) c).symm
  | ⟨_ + 3, h⟩ => absurd h (Nat.not_lt.2 (Nat.le_add_left _ _))
theorem hT6 (c : Dev nD) : ∀ k, (adm6 m).1 k = V13 m (outsP m) c (pre6.ref k) := by
  obtain rfl := dev_eq c
  exact fun | 0 => (agree6_t m (outsP m) c0).symm | ⟨_ + 1, h⟩ => absurd h (Nat.not_lt.2 (Nat.le_add_left _ _))
theorem hF6 (c : Dev nD) : ∀ w : Fin 3, (dat6 (Ud6 m) (adm6 m) c).arrAt w (cfg6 (adm6 m)).N = V14 m (outsP m) c (Pipeline.arrRef spec6 w)
  | 0 => (((dat6 (Ud6 m) (adm6 m) c).arrAt_in 0 rfl _).trans (A_eq6 (Ud6 m) (adm6 m) c 0)).trans ((agree6_x m (outsP m) c).symm.trans (V14_of m (outsP m) c main_arg0 (by decide)).symm)
  | 1 => (((dat6 (Ud6 m) (adm6 m) c).arrAt_in 1 rfl _).trans (A_eq6 (Ud6 m) (adm6 m) c 1)).trans ((agree6_v m (outsP m) c).symm.trans (V14_of m (outsP m) c main_v30 (by decide)).symm)
  | 2 => (outsP_14 m c).symm.trans (Function.update_self (β := fun b : DevRef τ sig => b.ty.Contents (Elt F)) (Proc.devRef .tc main_v31) (outsP m 14 main_v31 c) (V13 m (outsP m) c)).symm
  | ⟨_ + 3, h⟩ => absurd h (Nat.not_lt.2 (Nat.le_add_left _ _))
theorem hrest6 (c : Dev nD) : ∀ b : Ref sig .tc, b ∉ Finset.univ.image (Pipeline.arrRef spec6) → V14 m (outsP m) c b = V13 m (outsP m) c b :=
  fun b hb => V14_of m (outsP m) c b fun hmem =>
    hb (Finset.mem_image.mpr ⟨2, Finset.mem_univ _, (List.mem_singleton.mp hmem).symm⟩)

set_option backward.isDefEq.respectTransparency.types false in

def reg6 (hcol : HCol6 (adm6 m)) :
    Pipeline.RegionSeg (pcfgs (F := F)) (adm m) (pdats m) () defs₀ Variants.none L lv 6 where
  win := (launch6 (F := F)).win.to₀
  block_pos := (launch6 (F := F)).block_pos
  stage_whole := (launch6 (F := F)).stage_whole
  K := Fin 16
  osem := osem6
  ho := ownSemFacts6
  hbody c := (body_obligation6 (Ud6 m) (adm6 m) hcol c).loose
  hwaits := Pipeline.hwaits_of_owed_zero _ _ _ _ L lv 6 fun _ _ => rfl
  pre c := iprop(StableHlo.held (c : Thread nD τ) (Pipeline.ucRefs τ sig) (V13 m (outsP m) c) ∗ R c)
  post c := iprop(StableHlo.held (c : Thread nD τ) (Pipeline.ucRefs τ sig) (V14 m (outsP m) c) ∗ R c)
  X := X6
  Y := Y6 (adm6 m)
  Z c := Z6 (V13 m (outsP m) c) c
  hentry c := hentry6 (Ud6 m) (adm6 m) c (V13 m (outsP m) c) (hA6 m c) (hT6 m c)
  hin c := hin6 (Ud6 m) (adm6 m) c
  hout c := hout6 (Ud6 m) (adm6 m) c
  hexit c := hexit6 (Ud6 m) (adm6 m) c (V13 m (outsP m) c) (V14 m (outsP m) c) (hF6 m c) (hrest6 m c) (hT6 m c)

theorem hA7 (c : Dev nD) : ∀ w : Fin 3, Ud7 m c (Pipeline.arrRef spec7 w) = V15 m (outsP m) c (Pipeline.arrRef spec7 w)
  | 0 => (agree7_x m (outsP m) c).symm
  | 1 => (agree7_v m (outsP m) c).symm
  | 2 => (agree7_o m (outsP m) c).symm
  | ⟨_ + 3, h⟩ => absurd h (Nat.not_lt.2 (Nat.le_add_left _ _))
theorem hT7 (c : Dev nD) : ∀ k, (adm7 m).1 k = V15 m (outsP m) c (pre7.ref k) := by
  obtain rfl := dev_eq c
  exact fun | 0 => (agree7_t m (outsP m) c0).symm | ⟨_ + 1, h⟩ => absurd h (Nat.not_lt.2 (Nat.le_add_left _ _))
theorem hF7 (c : Dev nD) : ∀ w : Fin 3, (dat7 (Ud7 m) (adm7 m) c).arrAt w (cfg7 (adm7 m)).N = V16 m (outsP m) c (Pipeline.arrRef spec7 w)
  | 0 => (((dat7 (Ud7 m) (adm7 m) c).arrAt_in 0 rfl _).trans (A_eq7 (Ud7 m) (adm7 m) c 0)).trans ((agree7_x m (outsP m) c).symm.trans (V16_of m (outsP m) c main_arg0 (by decide)).symm)
  | 1 => (((dat7 (Ud7 m) (adm7 m) c).arrAt_in 1 rfl _).trans (A_eq7 (Ud7 m) (adm7 m) c 1)).trans ((agree7_v m (outsP m) c).symm.trans (V16_of m (outsP m) c main_v34 (by decide)).symm)
  | 2 => (outsP_16 m c).symm.trans (Function.update_self (β := fun b : DevRef τ sig => b.ty.Contents (Elt F)) (Proc.devRef .tc main_v35) (outsP m 16 main_v35 c) (V15 m (outsP m) c)).symm
  | ⟨_ + 3, h⟩ => absurd h (Nat.not_lt.2 (Nat.le_add_left _ _))
theorem hrest7 (c : Dev nD) : ∀ b : Ref sig .tc, b ∉ Finset.univ.image (Pipeline.arrRef spec7) → V16 m (outsP m) c b = V15 m (outsP m) c b :=
  fun b hb => V16_of m (outsP m) c b fun hmem =>
    hb (Finset.mem_image.mpr ⟨2, Finset.mem_univ _, (List.mem_singleton.mp hmem).symm⟩)

set_option backward.isDefEq.respectTransparency.types false in

def reg7 (hcol : HCol7 (adm7 m)) :
    Pipeline.RegionSeg (pcfgs (F := F)) (adm m) (pdats m) () defs₀ Variants.none L lv 7 where
  win := (launch7 (F := F)).win.to₀
  block_pos := (launch7 (F := F)).block_pos
  stage_whole := (launch7 (F := F)).stage_whole
  K := Fin 16
  osem := osem7
  ho := ownSemFacts7
  hbody c := (body_obligation7 (Ud7 m) (adm7 m) hcol c).loose
  hwaits := Pipeline.hwaits_of_owed_zero _ _ _ _ L lv 7 fun _ _ => rfl
  pre c := iprop(StableHlo.held (c : Thread nD τ) (Pipeline.ucRefs τ sig) (V15 m (outsP m) c) ∗ R c)
  post c := iprop(StableHlo.held (c : Thread nD τ) (Pipeline.ucRefs τ sig) (V16 m (outsP m) c) ∗ R c)
  X := X7
  Y := Y7 (adm7 m)
  Z c := Z7 (V15 m (outsP m) c) c
  hentry c := hentry7 (Ud7 m) (adm7 m) c (V15 m (outsP m) c) (hA7 m c) (hT7 m c)
  hin c := hin7 (Ud7 m) (adm7 m) c
  hout c := hout7 (Ud7 m) (adm7 m) c
  hexit c := hexit7 (Ud7 m) (adm7 m) c (V15 m (outsP m) c) (V16 m (outsP m) c) (hF7 m c) (hrest7 m c) (hT7 m c)

abbrev E : Fin 9 → Dev nD → sProp 𝕄 := fun _ c => R c

theorem htbl0 (hc : ∀ e : S320000.Idx, ((m ((c0 : Thread nD τ).loc main_arg2) : IVec S320000 32) e).toNat < 20000) : HCol0 (adm0 m) := alone0_tbl_in_range m c0 hc
theorem htbl1 (hc : ∀ e : S320000.Idx, ((m ((c0 : Thread nD τ).loc main_arg2) : IVec S320000 32) e).toNat < 20000) : HCol1 (adm1 m) := alone1_tbl_in_range m c0 hc
theorem htbl2 (hc : ∀ e : S320000.Idx, ((m ((c0 : Thread nD τ).loc main_arg2) : IVec S320000 32) e).toNat < 20000) : HCol2 (adm2 m) := alone2_tbl_in_range m c0 hc
theorem htbl3 (hc : ∀ e : S320000.Idx, ((m ((c0 : Thread nD τ).loc main_arg2) : IVec S320000 32) e).toNat < 20000) : HCol3 (adm3 m) := alone3_tbl_in_range m c0 hc
theorem htbl4 (hc : ∀ e : S320000.Idx, ((m ((c0 : Thread nD τ).loc main_arg5) : IVec S320000 32) e).toNat < 20000) : HCol4 (adm4 m) := alone4_tbl_in_range m c0 hc
theorem htbl5 (hc : ∀ e : S320000.Idx, ((m ((c0 : Thread nD τ).loc main_arg5) : IVec S320000 32) e).toNat < 20000) : HCol5 (adm5 m) := alone5_tbl_in_range m c0 hc
theorem htbl6 (hc : ∀ e : S320000.Idx, ((m ((c0 : Thread nD τ).loc main_arg5) : IVec S320000 32) e).toNat < 20000) : HCol6 (adm6 m) := alone6_tbl_in_range m c0 hc
theorem htbl7 (hc : ∀ e : S320000.Idx, ((m ((c0 : Thread nD τ).loc main_arg5) : IVec S320000 32) e).toNat < 20000) : HCol7 (adm7 m) := alone7_tbl_in_range m c0 hc

set_option backward.isDefEq.respectTransparency.types false in
theorem run_main (ρ : Dev nD → PrngReg)
    (hc2 : ∀ e : S320000.Idx, ((m ((c0 : Thread nD τ).loc main_arg2) : IVec S320000 32) e).toNat < 20000)
    (hc5 : ∀ e : S320000.Idx, ((m ((c0 : Thread nD τ).loc main_arg5) : IVec S320000 32) e).toNat < 20000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine frame_cond m embL () Variants.none L lv (fun _ _ => rfl) ρ (outsP m) (adm m) (pdats m) 0 (fun _ => iprop(emp))
    (initOf (Pipeline.cells (Pipeline.pin (pcfgs (F := F)) (adm m)) (cellOf_inj (adm m))) (Pipeline.launchToks (Pipeline.pin (pcfgs (F := F)) (adm m)) (cellOf_inj (adm m))), 1)
    ?_ (E (F := F)) (Pipeline.initEach L lv (T₀ := fun c => R c) fun c => ?_) (fun c => by iintro ⟨-, H⟩; iexact H)
    (reg0 m (htbl0 m hc2)) (fun _ => .rfl) (fun _ => .rfl) (reg1 m (htbl1 m hc2)) (fun _ => .rfl) (fun _ => .rfl)
    (reg2 m (htbl2 m hc2)) (fun _ => .rfl) (fun _ => .rfl) (reg3 m (htbl3 m hc2)) (fun _ => .rfl) (fun _ => .rfl)
    (reg4 m (htbl4 m hc5)) (fun _ => .rfl) (fun _ => .rfl) (reg5 m (htbl5 m hc5)) (fun _ => .rfl) (fun _ => .rfl)
    (reg6 m (htbl6 m hc5)) (fun _ => .rfl) (fun _ => .rfl) (reg7 m (htbl7 m hc5)) (fun _ => .rfl) (fun _ => .rfl)
  · iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · iintro ⟨⟨-, HO, -, Hp, -⟩, -⟩
    imodintro
    isplitl [Hp]; · iexists _; iexact Hp
    iexists ∅; iexact HO

end Cert.Kernel.Hand
end
-- ==== Proof.lean ====
import proofs.«411766_j31920196944464_2_alg».proof.Defs
import proofs.«411766_j31920196944464_2_alg».proof.Proof.Gen.Kernel
import proofs.«411766_j31920196944464_2_alg».proof.Proof.Gen.KernelIdeal
import proofs.«411766_j31920196944464_2_alg».proof.Proof.Gen.ReferenceIdeal
import proofs.«411766_j31920196944464_2_alg».proof.Proof.Gen.Pre_finite_inputs
import proofs.«411766_j31920196944464_2_alg».proof.Proof.Gen.ReferenceIdeal.Run
import proofs.«411766_j31920196944464_2_alg».proof.Proof.Gen.ReferenceIdeal.Read
import proofs.«411766_j31920196944464_2_alg».proof.Proof.PreDecode
import proofs.«411766_j31920196944464_2_alg».proof.Proof.RefValue
import proofs.«411766_j31920196944464_2_alg».proof.Proof.KernelTail
import proofs.«411766_j31920196944464_2_alg».proof.Proof.KI.Assembly
import proofs.«411766_j31920196944464_2_alg».proof.Proof.KI.Glue
import proofs.«411766_j31920196944464_2_alg».proof.Proof.K.Assembly

noncomputable section

namespace Cert.Proof.Claims

open Idealize.ShloMosaic Idealize.ShloMosaic.TcCoe Idealize.SL.Sem

theorem frame_k : Cert.frame_Kernel := fun m g hpre =>
  Cert.Kernel.Hand.run_main (F := Bits) m g
    (Cert.PreDecode.col_in_range_Kernel m hpre Cert.Kernel.Hand.c0).1
    (Cert.PreDecode.col_in_range_Kernel m hpre Cert.Kernel.Hand.c0).2

theorem frame_ki : Cert.frame_KernelIdeal := fun m g hpre =>
  (θ_run Cert.KernelIdeal.defs _ _).mono (fun _ h c => (h c).2)
    (Cert.KernelIdeal.Hand.run_main (F := Ideal) m g
      (Cert.PreDecode.col_in_range_KernelIdeal m hpre Cert.KernelIdeal.Hand.c0).1
      (Cert.PreDecode.col_in_range_KernelIdeal m hpre Cert.KernelIdeal.Hand.c0).2)

theorem frame_ri : Cert.frame_ReferenceIdeal := fun m g _ =>
  (θ_run Cert.ReferenceIdeal.defs _ _).mono (fun _ h c => (h c).2) (Cert.ReferenceIdeal.Value.run (F := Ideal) m g)

/-- Both programs end with Spec.G of the arguments: each call's output is its chunk of the weighted rows. -/
theorem algebraic : Cert.algebraic_KernelIdeal_ReferenceIdeal := by
  intro m g m' g' hpre hagree
  have hcol := fun c => Cert.PreDecode.col_in_range_KernelIdeal m hpre c
  refine ⟨fun c => Cert.Spec.G (Cert.KernelIdeal.Hand.argX m c) (Cert.KernelIdeal.Hand.argRow1 m c) (Cert.KernelIdeal.Hand.argCol1 m c)
      (Cert.KernelIdeal.Hand.argVal1 m c) (Cert.KernelIdeal.Hand.argRow2 m c) (Cert.KernelIdeal.Hand.argCol2 m c)
      (Cert.KernelIdeal.Hand.argVal2 m c), ?_, ?_⟩
  · exact (θ_run Cert.KernelIdeal.defs _ _).mono
      (fun _ h c => ⟨(h c).1.trans (Cert.KernelIdeal.Hand.kernel_is_spec m (hcol Cert.KernelIdeal.Hand.c0).1 (hcol Cert.KernelIdeal.Hand.c0).2 c), (h c).2⟩)
      (Cert.KernelIdeal.Hand.run_main (F := Ideal) m g (hcol Cert.KernelIdeal.Hand.c0).1 (hcol Cert.KernelIdeal.Hand.c0).2)
  · refine (θ_run Cert.ReferenceIdeal.defs _ _).mono (fun _ h c => ⟨(h c).1.trans ?_, (h c).2⟩)
      (Cert.ReferenceIdeal.Value.run (F := Ideal) m' g')
    rw [(hagree c).1, (hagree c).2.1, (hagree c).2.2.1, (hagree c).2.2.2.1, (hagree c).2.2.2.2.1, (hagree c).2.2.2.2.2.1,
      (hagree c).2.2.2.2.2.2]
    exact (Cert.ReferenceIdeal.Read.val_main_v26_eq (F := Ideal) _ _ _ _ _ _ _).trans
      (Cert.ReferenceIdeal.Hand.ref_is_spec _ _ _ _ _ _ _ (hcol c).1 (hcol c).2)

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
